-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v333)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v333) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v645) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x32x32x32 : Shape := ⟨5, ![8, 32, 32, 32, 32]⟩
abbrev S64x32x3x3x3 : Shape := ⟨5, ![64, 32, 3, 3, 3]⟩
abbrev S64 : Shape := ⟨1, ![64]⟩
abbrev S64x64x3x3x3 : Shape := ⟨5, ![64, 64, 3, 3, 3]⟩
abbrev S_ : Shape := ⟨0, ![]⟩

class Facts : Prop where
  bcast_S_S8x32x32x32x32 : S_.BroadcastsInDim S8x32x32x32x32 (![] : Fin 0 → Fin S8x32x32x32x32.rank)
  reducesTo_S8x32x32x32x32_S_d0_1_2_3_4 : S8x32x32x32x32.ReducesTo [0, 1, 2, 3, 4] S_
  h_S_ : 0 < S_.numel
  bcast_S_S64x32x3x3x3 : S_.BroadcastsInDim S64x32x3x3x3 (![] : Fin 0 → Fin S64x32x3x3x3.rank)
  reducesTo_S64x32x3x3x3_S_d0_1_2_3_4 : S64x32x3x3x3.ReducesTo [0, 1, 2, 3, 4] S_
  bcast_S_S64 : S_.BroadcastsInDim S64 (![] : Fin 0 → Fin S64.rank)
  reducesTo_S64_S_d0 : S64.ReducesTo [0] S_
  bcast_S_S64x64x3x3x3 : S_.BroadcastsInDim S64x64x3x3x3 (![] : Fin 0 → Fin S64x64x3x3x3.rank)
  reducesTo_S64x64x3x3x3_S_d0_1_2_3_4 : S64x64x3x3x3.ReducesTo [0, 1, 2, 3, 4] S_

variable [Facts]

def fn_part1 {F : FTy → Type} [FloatOps F] (main_arg4 : FVec F S64x64x3x3x3 .f32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64x3x3x3 .f32 := Host.absf main_arg4
  let main_cst_6 : FVec F S_ .f32 := constant S_ .f32 0x7F800000#32
  let main_v20 : FVec F S64x64x3x3x3 .f32 := broadcastInDim S64x64x3x3x3 ![] bcast_S_S64x64x3x3x3 main_cst_6
  let main_v21 : IVec S64x64x3x3x3 1 := cmpf .olt main_v19 main_v20
  let main_c_7 : IVec S_ 1 := constantI S_ 1 1#1
  let main_v22 : IVec S_ 1 := (fun x v => Host.reduce IntOp.andi x v reducesTo_S64x64x3x3x3_S_d0_1_2_3_4 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8x32x32x32x32 .f32) (main_arg1 : FVec F S64x32x3x3x3 .f32) (main_arg2 : FVec F S64 .f32) (main_arg3 : FVec F S64 .f32) (main_arg4 : FVec F S64x64x3x3x3 .f32) (main_arg5 : FVec F S64 .f32) (main_arg6 : FVec F S64 .f32) : IVec S_ 1 :=
  let main_v0 : FVec F S8x32x32x32x32 .f32 := Host.absf main_arg0
  let main_cst : FVec F S_ .f32 := constant S_ .f32 0x7F800000#32
  let main_v1 : FVec F S8x32x32x32x32 .f32 := broadcastInDim S8x32x32x32x32 ![] bcast_S_S8x32x32x32x32 main_cst
  let main_v2 : IVec S8x32x32x32x32 1 := cmpf .olt main_v0 main_v1
  let main_c : IVec S_ 1 := constantI S_ 1 1#1
  let main_v3 : IVec S_ 1 := (fun x v => Host.reduce IntOp.andi x v reducesTo_S8x32x32x32x32_S_d0_1_2_3_4 h_S_) main_v2 main_c
  let main_v4 : FVec F S64x32x3x3x3 .f32 := Host.absf main_arg1
  let main_cst_0 : FVec F S_ .f32 := constant S_ .f32 0x7F800000#32
  let main_v5 : FVec F S64x32x3x3x3 .f32 := broadcastInDim S64x32x3x3x3 ![] bcast_S_S64x32x3x3x3 main_cst_0
  let main_v6 : IVec S64x32x3x3x3 1 := cmpf .olt main_v4 main_v5
  let main_c_1 : IVec S_ 1 := constantI S_ 1 1#1
  let main_v7 : IVec S_ 1 := (fun x v => Host.reduce IntOp.andi x v reducesTo_S64x32x3x3x3_S_d0_1_2_3_4 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S8x32x32x32x32 : Shape := ⟨5, ![8, 32, 32, 32, 32]⟩
abbrev S64x32x3x3x3 : Shape := ⟨5, ![64, 32, 3, 3, 3]⟩
abbrev S64 : Shape := ⟨1, ![64]⟩
abbrev S64x64x3x3x3 : Shape := ⟨5, ![64, 64, 3, 3, 3]⟩
abbrev S8x32x32768 : Shape := ⟨3, ![8, 32, 32768]⟩
abbrev S1024 : Shape := ⟨1, ![1024]⟩
abbrev S1024x1 : Shape := ⟨2, ![1024, 1]⟩
abbrev S256 : Shape := ⟨1, ![256]⟩
abbrev S1x256 : Shape := ⟨2, ![1, 256]⟩
abbrev S_ : Shape := ⟨0, ![]⟩
abbrev S1024x256 : Shape := ⟨2, ![1024, 256]⟩
abbrev S4608 : Shape := ⟨1, ![4608]⟩
abbrev S1x4608 : Shape := ⟨2, ![1, 4608]⟩
abbrev S9x4608 : Shape := ⟨2, ![9, 4608]⟩
abbrev S4864 : Shape := ⟨1, ![4864]⟩
abbrev S1x4864 : Shape := ⟨2, ![1, 4864]⟩
abbrev S3x3x3x64x32 : Shape := ⟨5, ![3, 3, 3, 64, 32]⟩
abbrev S3x9x64x32 : Shape := ⟨4, ![3, 9, 64, 32]⟩
abbrev S3x64x9x32 : Shape := ⟨4, ![3, 64, 9, 32]⟩
abbrev S3x64x288 : Shape := ⟨3, ![3, 64, 288]⟩
abbrev S3x3x3x64x64 : Shape := ⟨5, ![3, 3, 3, 64, 64]⟩
abbrev S3x9x64x64 : Shape := ⟨4, ![3, 9, 64, 64]⟩
abbrev S3x64x9x64 : Shape := ⟨4, ![3, 64, 9, 64]⟩
abbrev S3x64x576 : Shape := ⟨3, ![3, 64, 576]⟩
abbrev S8x64x4864 : Shape := ⟨3, ![8, 64, 4864]⟩
abbrev S8x64x1 : Shape := ⟨3, ![8, 64, 1]⟩
abbrev S1x32x32768 : Shape := ⟨3, ![1, 32, 32768]⟩
abbrev S1x64x4864 : Shape := ⟨3, ![1, 64, 4864]⟩
abbrev S1x64x1 : Shape := ⟨3, ![1, 64, 1]⟩
abbrev S512x1024 : Shape := ⟨2, ![512, 1024]⟩
abbrev S32x4864 : Shape := ⟨2, ![32, 4864]⟩
abbrev S288x4608 : Shape := ⟨2, ![288, 4608]⟩
abbrev S1x32x2048 : Shape := ⟨3, ![1, 32, 2048]⟩
abbrev S32x2048 : Shape := ⟨2, ![32, 2048]⟩
abbrev S32x1024 : Shape := ⟨2, ![32, 1024]⟩
abbrev S32x992 : Shape := ⟨2, ![32, 992]⟩
abbrev S32x32 : Shape := ⟨2, ![32, 32]⟩
abbrev S32x1023 : Shape := ⟨2, ![32, 1023]⟩
abbrev S32x1 : Shape := ⟨2, ![32, 1]⟩
abbrev S512x256 : Shape := ⟨2, ![512, 256]⟩
abbrev S32x384 : Shape := ⟨2, ![32, 384]⟩
abbrev S32x256 : Shape := ⟨2, ![32, 256]⟩
abbrev S32x4608 : Shape := ⟨2, ![32, 4608]⟩
abbrev S1x64x288 : Shape := ⟨3, ![1, 64, 288]⟩
abbrev S64x288 : Shape := ⟨2, ![64, 288]⟩
abbrev S288x4096 : Shape := ⟨2, ![288, 4096]⟩
abbrev S64x4096 : Shape := ⟨2, ![64, 4096]⟩
abbrev S64x384 : Shape := ⟨2, ![64, 384]⟩
abbrev S1x64x384 : Shape := ⟨3, ![1, 64, 384]⟩
abbrev S1x64x4096 : Shape := ⟨3, ![1, 64, 4096]⟩
abbrev S64x1 : Shape := ⟨2, ![64, 1]⟩
abbrev S8x64 : Shape := ⟨2, ![8, 64]⟩
abbrev S8x64x4096 : Shape := ⟨3, ![8, 64, 4096]⟩
abbrev S64x4864 : Shape := ⟨2, ![64, 4864]⟩
abbrev S576x4608 : Shape := ⟨2, ![576, 4608]⟩
abbrev S64x4608 : Shape := ⟨2, ![64, 4608]⟩
abbrev S1x64x576 : Shape := ⟨3, ![1, 64, 576]⟩
abbrev S64x576 : Shape := ⟨2, ![64, 576]⟩
abbrev S576x4096 : Shape := ⟨2, ![576, 4096]⟩
abbrev S8x64x16x16x16 : Shape := ⟨5, ![8, 64, 16, 16, 16]⟩

abbrev nBuf : Space → Nat
  | .hbm => 565
  | .vmem => 35
  | .smem => 0
  | _ => 0

abbrev hbmTy0_0 (i : Nat) : BufTy := match i % 128 with
  | 0 => ⟨S8x32x32x32x32, .f32⟩
  | 1 => ⟨S64x32x3x3x3, .f32⟩
  | 2 => ⟨S64, .f32⟩
  | 3 => ⟨S64, .f32⟩
  | 4 => ⟨S64x64x3x3x3, .f32⟩
  | 5 => ⟨S64, .f32⟩
  | 6 => ⟨S64, .f32⟩
  | 7 => ⟨S8x32x32768, .f32⟩
  | 8 => ⟨S1024, .i32⟩
  | 9 => ⟨S1024x1, .i32⟩
  | 10 => ⟨S256, .i32⟩
  | 11 => ⟨S1x256, .i32⟩
  | 12 => ⟨S_, .i32⟩
  | 13 => ⟨S_, .i32⟩
  | 14 => ⟨S1x256, .i32⟩
  | 15 => ⟨S1x256, .i32⟩
  | 16 => ⟨S1x256, .i32⟩
  | 17 => ⟨S_, .i32⟩
  | 18 => ⟨S1x256, .i32⟩
  | 19 => ⟨S1x256, .i1⟩
  | 20 => ⟨S1x256, .i32⟩
  | 21 => ⟨S1x256, .i32⟩
  | 22 => ⟨S_, .i32⟩
  | 23 => ⟨S1x256, .i32⟩
  | 24 => ⟨S1x256, .i1⟩
  | 25 => ⟨S1x256, .i1⟩
  | 26 => ⟨S_, .i32⟩
  | 27 => ⟨S1x256, .i32⟩
  | 28 => ⟨S1x256, .i32⟩
  | 29 => ⟨S1x256, .i32⟩
  | 30 => ⟨S_, .i32⟩
  | 31 => ⟨S1x256, .i32⟩
  | 32 => ⟨S1x256, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S1x256, .i32⟩
  | 40 => ⟨S1x256, .i32⟩
  | 41 => ⟨S_, .i32⟩
  | 42 => ⟨S1x256, .i32⟩
  | 43 => ⟨S1x256, .i1⟩
  | 44 => ⟨S_, .i32⟩
  | 45 => ⟨S1x256, .i32⟩
  | 46 => ⟨S1x256, .i1⟩
  | 47 => ⟨S_, .i32⟩
  | 48 => ⟨S_, .i1⟩
  | 49 => ⟨S1x256, .i1⟩
  | 50 => ⟨S1x256, .i1⟩
  | 51 => ⟨S1x256, .i1⟩
  | 52 => ⟨S1x256, .i32⟩
  | 53 => ⟨S1x256, .i32⟩
  | 54 => ⟨S1x256, .i32⟩
  | 55 => ⟨S_, .i32⟩
  | 56 => ⟨S1x256, .i32⟩
  | 57 => ⟨S1x256, .i32⟩
  | 58 => ⟨S1x256, .i32⟩
  | 59 => ⟨S1024x256, .i32⟩
  | 60 => ⟨S1024x256, .i32⟩
  | 61 => ⟨S1024x256, .i1⟩
  | 62 => ⟨S1024x256, .bf16⟩
  | 63 => ⟨S4608, .i32⟩
  | 64 => ⟨S_, .i32⟩
  | 65 => ⟨S4608, .i32⟩
  | 66 => ⟨S4608, .i32⟩
  | 67 => ⟨S_, .i32⟩
  | 68 => ⟨S_, .i32⟩
  | 69 => ⟨S_, .i32⟩
  | 70 => ⟨S_, .i1⟩
  | 71 => ⟨S_, .i32⟩
  | 72 => ⟨S_, .i32⟩
  | 73 => ⟨S4608, .i32⟩
  | 74 => ⟨S4608, .i32⟩
  | 75 => ⟨S_, .i32⟩
  | 76 => ⟨S4608, .i32⟩
  | 77 => ⟨S4608, .i1⟩
  | 78 => ⟨S_, .i32⟩
  | 79 => ⟨S4608, .i32⟩
  | 80 => ⟨S4608, .i1⟩
  | 81 => ⟨S_, .i32⟩
  | 82 => ⟨S_, .i1⟩
  | 83 => ⟨S4608, .i1⟩
  | 84 => ⟨S4608, .i1⟩
  | 85 => ⟨S4608, .i1⟩
  | 86 => ⟨S4608, .i32⟩
  | 87 => ⟨S4608, .i32⟩
  | 88 => ⟨S4608, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S4608, .i32⟩
  | 96 => ⟨S4608, .i32⟩
  | 97 => ⟨S_, .i32⟩
  | 98 => ⟨S4608, .i32⟩
  | 99 => ⟨S4608, .i1⟩
  | 100 => ⟨S_, .i32⟩
  | 101 => ⟨S4608, .i32⟩
  | 102 => ⟨S4608, .i1⟩
  | 103 => ⟨S_, .i32⟩
  | 104 => ⟨S_, .i1⟩
  | 105 => ⟨S4608, .i1⟩
  | 106 => ⟨S4608, .i1⟩
  | 107 => ⟨S4608, .i1⟩
  | 108 => ⟨S4608, .i32⟩
  | 109 => ⟨S4608, .i32⟩
  | 110 => ⟨S4608, .i32⟩
  | 111 => ⟨S_, .i32⟩
  | 112 => ⟨S_, .i32⟩
  | 113 => ⟨S4608, .i32⟩
  | 114 => ⟨S4608, .i32⟩
  | 115 => ⟨S4608, .i32⟩
  | 116 => ⟨S_, .i32⟩
  | 117 => ⟨S4608, .i32⟩
  | 118 => ⟨S4608, .i1⟩
  | 119 => ⟨S4608, .i32⟩
  | 120 => ⟨S4608, .i32⟩
  | 121 => ⟨S_, .i32⟩
  | 122 => ⟨S4608, .i32⟩
  | 123 => ⟨S4608, .i1⟩
  | 124 => ⟨S4608, .i1⟩
  | 125 => ⟨S_, .i32⟩
  | 126 => ⟨S4608, .i32⟩
  | 127 => ⟨S4608, .i32⟩
  | _ => ⟨S8x32x32x32x32, .f32⟩

abbrev hbmTy0_1 (i : Nat) : BufTy := match i % 128 with
  | 0 => ⟨S4608, .i32⟩
  | 1 => ⟨S_, .i32⟩
  | 2 => ⟨S4608, .i32⟩
  | 3 => ⟨S4608, .i32⟩
  | 4 => ⟨S_, .i32⟩
  | 5 => ⟨S4608, .i32⟩
  | 6 => ⟨S4608, .i32⟩
  | 7 => ⟨S_, .i32⟩
  | 8 => ⟨S4608, .i32⟩
  | 9 => ⟨S4608, .i1⟩
  | 10 => ⟨S_, .i32⟩
  | 11 => ⟨S4608, .i32⟩
  | 12 => ⟨S4608, .i32⟩
  | 13 => ⟨S_, .i32⟩
  | 14 => ⟨S4608, .i32⟩
  | 15 => ⟨S4608, .i32⟩
  | 16 => ⟨S_, .i32⟩
  | 17 => ⟨S4608, .i32⟩
  | 18 => ⟨S4608, .i1⟩
  | 19 => ⟨S4608, .i1⟩
  | 20 => ⟨S_, .i32⟩
  | 21 => ⟨S4608, .i32⟩
  | 22 => ⟨S4608, .i32⟩
  | 23 => ⟨S_, .i32⟩
  | 24 => ⟨S4608, .i32⟩
  | 25 => ⟨S4608, .i32⟩
  | 26 => ⟨S_, .i32⟩
  | 27 => ⟨S4608, .i32⟩
  | 28 => ⟨S4608, .i1⟩
  | 29 => ⟨S4608, .i1⟩
  | 30 => ⟨S_, .i32⟩
  | 31 => ⟨S4608, .i32⟩
  | 32 => ⟨S4608, .i32⟩
  | 33 => ⟨S_, .i32⟩
  | 34 => ⟨S4608, .i32⟩
  | 35 => ⟨S4608, .i32⟩
  | 36 => ⟨S_, .i32⟩
  | 37 => ⟨S4608, .i32⟩
  | 38 => ⟨S4608, .i1⟩
  | 39 => ⟨S4608, .i1⟩
  | 40 => ⟨S_, .i32⟩
  | 41 => ⟨S4608, .i32⟩
  | 42 => ⟨S4608, .i32⟩
  | 43 => ⟨S_, .i32⟩
  | 44 => ⟨S4608, .i32⟩
  | 45 => ⟨S4608, .i32⟩
  | 46 => ⟨S_, .i32⟩
  | 47 => ⟨S4608, .i32⟩
  | 48 => ⟨S4608, .i1⟩
  | 49 => ⟨S_, .i32⟩
  | 50 => ⟨S4608, .i32⟩
  | 51 => ⟨S4608, .i32⟩
  | 52 => ⟨S_, .i32⟩
  | 53 => ⟨S4608, .i32⟩
  | 54 => ⟨S4608, .i32⟩
  | 55 => ⟨S_, .i32⟩
  | 56 => ⟨S4608, .i32⟩
  | 57 => ⟨S4608, .i1⟩
  | 58 => ⟨S4608, .i1⟩
  | 59 => ⟨S_, .i32⟩
  | 60 => ⟨S4608, .i32⟩
  | 61 => ⟨S4608, .i32⟩
  | 62 => ⟨S_, .i32⟩
  | 63 => ⟨S4608, .i32⟩
  | 64 => ⟨S4608, .i32⟩
  | 65 => ⟨S_, .i32⟩
  | 66 => ⟨S4608, .i32⟩
  | 67 => ⟨S4608, .i1⟩
  | 68 => ⟨S4608, .i1⟩
  | 69 => ⟨S_, .i32⟩
  | 70 => ⟨S4608, .i32⟩
  | 71 => ⟨S4608, .i32⟩
  | 72 => ⟨S_, .i32⟩
  | 73 => ⟨S4608, .i32⟩
  | 74 => ⟨S4608, .i32⟩
  | 75 => ⟨S_, .i32⟩
  | 76 => ⟨S4608, .i32⟩
  | 77 => ⟨S4608, .i1⟩
  | 78 => ⟨S4608, .i1⟩
  | 79 => ⟨S_, .i32⟩
  | 80 => ⟨S4608, .i32⟩
  | 81 => ⟨S4608, .i32⟩
  | 82 => ⟨S_, .i32⟩
  | 83 => ⟨S4608, .i32⟩
  | 84 => ⟨S4608, .i32⟩
  | 85 => ⟨S_, .i32⟩
  | 86 => ⟨S4608, .i32⟩
  | 87 => ⟨S4608, .i1⟩
  | 88 => ⟨S_, .i32⟩
  | 89 => ⟨S4608, .i32⟩
  | 90 => ⟨S4608, .i32⟩
  | 91 => ⟨S_, .i32⟩
  | 92 => ⟨S4608, .i32⟩
  | 93 => ⟨S4608, .i32⟩
  | 94 => ⟨S_, .i32⟩
  | 95 => ⟨S4608, .i32⟩
  | 96 => ⟨S4608, .i1⟩
  | 97 => ⟨S4608, .i1⟩
  | 98 => ⟨S_, .i32⟩
  | 99 => ⟨S4608, .i32⟩
  | 100 => ⟨S4608, .i32⟩
  | 101 => ⟨S_, .i32⟩
  | 102 => ⟨S4608, .i32⟩
  | 103 => ⟨S4608, .i32⟩
  | 104 => ⟨S_, .i32⟩
  | 105 => ⟨S4608, .i32⟩
  | 106 => ⟨S4608, .i1⟩
  | 107 => ⟨S4608, .i1⟩
  | 108 => ⟨S_, .i32⟩
  | 109 => ⟨S4608, .i32⟩
  | 110 => ⟨S4608, .i32⟩
  | 111 => ⟨S_, .i32⟩
  | 112 => ⟨S4608, .i32⟩
  | 113 => ⟨S4608, .i32⟩
  | 114 => ⟨S_, .i32⟩
  | 115 => ⟨S4608, .i32⟩
  | 116 => ⟨S4608, .i1⟩
  | 117 => ⟨S4608, .i1⟩
  | 118 => ⟨S_, .i32⟩
  | 119 => ⟨S4608, .i32⟩
  | 120 => ⟨S4608, .i32⟩
  | 121 => ⟨S_, .i32⟩
  | 122 => ⟨S4608, .i32⟩
  | 123 => ⟨S4608, .i32⟩
  | 124 => ⟨S_, .i32⟩
  | 125 => ⟨S4608, .i32⟩
  | 126 => ⟨S4608, .i1⟩
  | 127 => ⟨S_, .i32⟩
  | _ => ⟨S8x32x32x32x32, .f32⟩

abbrev hbmTy0_2 (i : Nat) : BufTy := match i % 128 with
  | 0 => ⟨S4608, .i32⟩
  | 1 => ⟨S4608, .i32⟩
  | 2 => ⟨S_, .i32⟩
  | 3 => ⟨S4608, .i32⟩
  | 4 => ⟨S4608, .i32⟩
  | 5 => ⟨S_, .i32⟩
  | 6 => ⟨S4608, .i32⟩
  | 7 => ⟨S4608, .i1⟩
  | 8 => ⟨S4608, .i1⟩
  | 9 => ⟨S_, .i32⟩
  | 10 => ⟨S4608, .i32⟩
  | 11 => ⟨S4608, .i32⟩
  | 12 => ⟨S_, .i32⟩
  | 13 => ⟨S4608, .i32⟩
  | 14 => ⟨S4608, .i32⟩
  | 15 => ⟨S_, .i32⟩
  | 16 => ⟨S4608, .i32⟩
  | 17 => ⟨S4608, .i1⟩
  | 18 => ⟨S4608, .i1⟩
  | 19 => ⟨S_, .i32⟩
  | 20 => ⟨S4608, .i32⟩
  | 21 => ⟨S4608, .i32⟩
  | 22 => ⟨S_, .i32⟩
  | 23 => ⟨S4608, .i32⟩
  | 24 => ⟨S4608, .i32⟩
  | 25 => ⟨S_, .i32⟩
  | 26 => ⟨S4608, .i32⟩
  | 27 => ⟨S4608, .i1⟩
  | 28 => ⟨S4608, .i1⟩
  | 29 => ⟨S_, .i32⟩
  | 30 => ⟨S4608, .i32⟩
  | 31 => ⟨S4608, .i32⟩
  | 32 => ⟨S_, .i32⟩
  | 33 => ⟨S4608, .i32⟩
  | 34 => ⟨S4608, .i32⟩
  | 35 => ⟨S_, .i32⟩
  | 36 => ⟨S4608, .i32⟩
  | 37 => ⟨S4608, .i1⟩
  | 38 => ⟨S_, .i32⟩
  | 39 => ⟨S4608, .i32⟩
  | 40 => ⟨S4608, .i32⟩
  | 41 => ⟨S_, .i32⟩
  | 42 => ⟨S4608, .i32⟩
  | 43 => ⟨S4608, .i32⟩
  | 44 => ⟨S_, .i32⟩
  | 45 => ⟨S4608, .i32⟩
  | 46 => ⟨S4608, .i1⟩
  | 47 => ⟨S4608, .i1⟩
  | 48 => ⟨S_, .i32⟩
  | 49 => ⟨S4608, .i32⟩
  | 50 => ⟨S4608, .i32⟩
  | 51 => ⟨S_, .i32⟩
  | 52 => ⟨S4608, .i32⟩
  | 53 => ⟨S4608, .i32⟩
  | 54 => ⟨S_, .i32⟩
  | 55 => ⟨S4608, .i32⟩
  | 56 => ⟨S4608, .i1⟩
  | 57 => ⟨S4608, .i1⟩
  | 58 => ⟨S_, .i32⟩
  | 59 => ⟨S4608, .i32⟩
  | 60 => ⟨S4608, .i32⟩
  | 61 => ⟨S_, .i32⟩
  | 62 => ⟨S4608, .i32⟩
  | 63 => ⟨S4608, .i32⟩
  | 64 => ⟨S_, .i32⟩
  | 65 => ⟨S4608, .i32⟩
  | 66 => ⟨S4608, .i1⟩
  | 67 => ⟨S4608, .i1⟩
  | 68 => ⟨S_, .i32⟩
  | 69 => ⟨S4608, .i32⟩
  | 70 => ⟨S4608, .i32⟩
  | 71 => ⟨S_, .i32⟩
  | 72 => ⟨S4608, .i32⟩
  | 73 => ⟨S4608, .i32⟩
  | 74 => ⟨S_, .i32⟩
  | 75 => ⟨S4608, .i32⟩
  | 76 => ⟨S4608, .i1⟩
  | 77 => ⟨S_, .i32⟩
  | 78 => ⟨S4608, .i32⟩
  | 79 => ⟨S4608, .i32⟩
  | 80 => ⟨S_, .i32⟩
  | 81 => ⟨S4608, .i32⟩
  | 82 => ⟨S4608, .i32⟩
  | 83 => ⟨S_, .i32⟩
  | 84 => ⟨S4608, .i32⟩
  | 85 => ⟨S4608, .i1⟩
  | 86 => ⟨S4608, .i1⟩
  | 87 => ⟨S_, .i32⟩
  | 88 => ⟨S4608, .i32⟩
  | 89 => ⟨S4608, .i32⟩
  | 90 => ⟨S_, .i32⟩
  | 91 => ⟨S4608, .i32⟩
  | 92 => ⟨S4608, .i32⟩
  | 93 => ⟨S_, .i32⟩
  | 94 => ⟨S4608, .i32⟩
  | 95 => ⟨S4608, .i1⟩
  | 96 => ⟨S4608, .i1⟩
  | 97 => ⟨S_, .i32⟩
  | 98 => ⟨S4608, .i32⟩
  | 99 => ⟨S4608, .i32⟩
  | 100 => ⟨S_, .i32⟩
  | 101 => ⟨S4608, .i32⟩
  | 102 => ⟨S4608, .i32⟩
  | 103 => ⟨S_, .i32⟩
  | 104 => ⟨S4608, .i32⟩
  | 105 => ⟨S4608, .i1⟩
  | 106 => ⟨S4608, .i1⟩
  | 107 => ⟨S_, .i32⟩
  | 108 => ⟨S4608, .i32⟩
  | 109 => ⟨S4608, .i32⟩
  | 110 => ⟨S_, .i32⟩
  | 111 => ⟨S4608, .i32⟩
  | 112 => ⟨S4608, .i32⟩
  | 113 => ⟨S_, .i32⟩
  | 114 => ⟨S4608, .i32⟩
  | 115 => ⟨S4608, .i1⟩
  | 116 => ⟨S_, .i32⟩
  | 117 => ⟨S4608, .i32⟩
  | 118 => ⟨S4608, .i32⟩
  | 119 => ⟨S_, .i32⟩
  | 120 => ⟨S4608, .i32⟩
  | 121 => ⟨S4608, .i32⟩
  | 122 => ⟨S_, .i32⟩
  | 123 => ⟨S4608, .i32⟩
  | 124 => ⟨S4608, .i1⟩
  | 125 => ⟨S4608, .i1⟩
  | 126 => ⟨S_, .i32⟩
  | 127 => ⟨S4608, .i32⟩
  | _ => ⟨S8x32x32x32x32, .f32⟩

abbrev hbmTy0_3 (i : Nat) : BufTy := match i % 128 with
  | 0 => ⟨S4608, .i32⟩
  | 1 => ⟨S_, .i32⟩
  | 2 => ⟨S4608, .i32⟩
  | 3 => ⟨S4608, .i32⟩
  | 4 => ⟨S_, .i32⟩
  | 5 => ⟨S4608, .i32⟩
  | 6 => ⟨S4608, .i1⟩
  | 7 => ⟨S4608, .i1⟩
  | 8 => ⟨S_, .i32⟩
  | 9 => ⟨S4608, .i32⟩
  | 10 => ⟨S4608, .i32⟩
  | 11 => ⟨S_, .i32⟩
  | 12 => ⟨S4608, .i32⟩
  | 13 => ⟨S4608, .i32⟩
  | 14 => ⟨S_, .i32⟩
  | 15 => ⟨S4608, .i32⟩
  | 16 => ⟨S4608, .i1⟩
  | 17 => ⟨S4608, .i1⟩
  | 18 => ⟨S_, .i32⟩
  | 19 => ⟨S4608, .i32⟩
  | 20 => ⟨S4608, .i32⟩
  | 21 => ⟨S_, .i32⟩
  | 22 => ⟨S4608, .i32⟩
  | 23 => ⟨S4608, .i32⟩
  | 24 => ⟨S_, .i32⟩
  | 25 => ⟨S4608, .i32⟩
  | 26 => ⟨S4608, .i1⟩
  | 27 => ⟨S_, .i32⟩
  | 28 => ⟨S4608, .i32⟩
  | 29 => ⟨S4608, .i32⟩
  | 30 => ⟨S_, .i32⟩
  | 31 => ⟨S4608, .i32⟩
  | 32 => ⟨S4608, .i32⟩
  | 33 => ⟨S_, .i32⟩
  | 34 => ⟨S4608, .i32⟩
  | 35 => ⟨S4608, .i1⟩
  | 36 => ⟨S4608, .i1⟩
  | 37 => ⟨S_, .i32⟩
  | 38 => ⟨S4608, .i32⟩
  | 39 => ⟨S4608, .i32⟩
  | 40 => ⟨S_, .i32⟩
  | 41 => ⟨S4608, .i32⟩
  | 42 => ⟨S4608, .i32⟩
  | 43 => ⟨S_, .i32⟩
  | 44 => ⟨S4608, .i32⟩
  | 45 => ⟨S4608, .i1⟩
  | 46 => ⟨S4608, .i1⟩
  | 47 => ⟨S_, .i32⟩
  | 48 => ⟨S4608, .i32⟩
  | 49 => ⟨S4608, .i32⟩
  | 50 => ⟨S_, .i32⟩
  | 51 => ⟨S4608, .i32⟩
  | 52 => ⟨S4608, .i32⟩
  | 53 => ⟨S_, .i32⟩
  | 54 => ⟨S4608, .i32⟩
  | 55 => ⟨S4608, .i1⟩
  | 56 => ⟨S4608, .i1⟩
  | 57 => ⟨S_, .i32⟩
  | 58 => ⟨S4608, .i32⟩
  | 59 => ⟨S4608, .i32⟩
  | 60 => ⟨S_, .i32⟩
  | 61 => ⟨S4608, .i32⟩
  | 62 => ⟨S4608, .i32⟩
  | 63 => ⟨S_, .i32⟩
  | 64 => ⟨S4608, .i32⟩
  | 65 => ⟨S4608, .i1⟩
  | 66 => ⟨S_, .i32⟩
  | 67 => ⟨S4608, .i32⟩
  | 68 => ⟨S4608, .i32⟩
  | 69 => ⟨S_, .i32⟩
  | 70 => ⟨S4608, .i32⟩
  | 71 => ⟨S4608, .i32⟩
  | 72 => ⟨S_, .i32⟩
  | 73 => ⟨S4608, .i32⟩
  | 74 => ⟨S4608, .i1⟩
  | 75 => ⟨S4608, .i1⟩
  | 76 => ⟨S_, .i32⟩
  | 77 => ⟨S4608, .i32⟩
  | 78 => ⟨S4608, .i32⟩
  | 79 => ⟨S_, .i32⟩
  | 80 => ⟨S4608, .i32⟩
  | 81 => ⟨S4608, .i32⟩
  | 82 => ⟨S_, .i32⟩
  | 83 => ⟨S4608, .i32⟩
  | 84 => ⟨S4608, .i1⟩
  | 85 => ⟨S4608, .i1⟩
  | 86 => ⟨S_, .i32⟩
  | 87 => ⟨S4608, .i32⟩
  | 88 => ⟨S4608, .i32⟩
  | 89 => ⟨S_, .i32⟩
  | 90 => ⟨S4608, .i32⟩
  | 91 => ⟨S4608, .i32⟩
  | 92 => ⟨S_, .i32⟩
  | 93 => ⟨S4608, .i32⟩
  | 94 => ⟨S4608, .i1⟩
  | 95 => ⟨S4608, .i1⟩
  | 96 => ⟨S1x4608, .i1⟩
  | 97 => ⟨S1x4608, .i1⟩
  | 98 => ⟨S1x4608, .i1⟩
  | 99 => ⟨S1x4608, .i1⟩
  | 100 => ⟨S1x4608, .i1⟩
  | 101 => ⟨S1x4608, .i1⟩
  | 102 => ⟨S1x4608, .i1⟩
  | 103 => ⟨S1x4608, .i1⟩
  | 104 => ⟨S1x4608, .i1⟩
  | 105 => ⟨S9x4608, .i1⟩
  | 106 => ⟨S9x4608, .bf16⟩
  | 107 => ⟨S4864, .i32⟩
  | 108 => ⟨S_, .i32⟩
  | 109 => ⟨S4864, .i32⟩
  | 110 => ⟨S4864, .i1⟩
  | 111 => ⟨S_, .i32⟩
  | 112 => ⟨S4864, .i32⟩
  | 113 => ⟨S4864, .i1⟩
  | 114 => ⟨S4864, .i1⟩
  | 115 => ⟨S4864, .f32⟩
  | 116 => ⟨S1x4864, .f32⟩
  | 117 => ⟨S3x3x3x64x32, .f32⟩
  | 118 => ⟨S3x9x64x32, .f32⟩
  | 119 => ⟨S3x64x9x32, .f32⟩
  | 120 => ⟨S3x64x288, .f32⟩
  | 121 => ⟨S3x64x288, .bf16⟩
  | 122 => ⟨S3x3x3x64x64, .f32⟩
  | 123 => ⟨S3x9x64x64, .f32⟩
  | 124 => ⟨S3x64x9x64, .f32⟩
  | 125 => ⟨S3x64x576, .f32⟩
  | 126 => ⟨S3x64x576, .bf16⟩
  | 127 => ⟨S8x64x4864, .bf16⟩
  | _ => ⟨S8x32x32x32x32, .f32⟩

abbrev hbmTy0_4 (i : Nat) : BufTy := match i % 128 with
  | 0 => ⟨S8x64x1, .f32⟩
  | 1 => ⟨S8x64x1, .f32⟩
  | 2 => ⟨S8x64, .f32⟩
  | 3 => ⟨S_, .f32⟩
  | 4 => ⟨S64, .f32⟩
  | 5 => ⟨S8x64, .f32⟩
  | 6 => ⟨S_, .f32⟩
  | 7 => ⟨S64, .f32⟩
  | 8 => ⟨S_, .f32⟩
  | 9 => ⟨S64, .f32⟩
  | 10 => ⟨S64, .f32⟩
  | 11 => ⟨S_, .f32⟩
  | 12 => ⟨S64, .f32⟩
  | 13 => ⟨S64, .f32⟩
  | 14 => ⟨S64, .f32⟩
  | 15 => ⟨S64, .f32⟩
  | 16 => ⟨S_, .f32⟩
  | 17 => ⟨S64, .f32⟩
  | 18 => ⟨S64, .f32⟩
  | 19 => ⟨S64, .f32⟩
  | 20 => ⟨S64, .f32⟩
  | 21 => ⟨S64x1, .f32⟩
  | 22 => ⟨S64, .f32⟩
  | 23 => ⟨S64, .f32⟩
  | 24 => ⟨S64x1, .f32⟩
  | 25 => ⟨S8x64x4096, .bf16⟩
  | 26 => ⟨S8x64x1, .f32⟩
  | 27 => ⟨S8x64x1, .f32⟩
  | 28 => ⟨S8x64, .f32⟩
  | 29 => ⟨S_, .f32⟩
  | 30 => ⟨S64, .f32⟩
  | 31 => ⟨S8x64, .f32⟩
  | 32 => ⟨S_, .f32⟩
  | 33 => ⟨S64, .f32⟩
  | 34 => ⟨S_, .f32⟩
  | 35 => ⟨S64, .f32⟩
  | 36 => ⟨S64, .f32⟩
  | 37 => ⟨S_, .f32⟩
  | 38 => ⟨S64, .f32⟩
  | 39 => ⟨S64, .f32⟩
  | 40 => ⟨S64, .f32⟩
  | 41 => ⟨S64, .f32⟩
  | 42 => ⟨S_, .f32⟩
  | 43 => ⟨S64, .f32⟩
  | 44 => ⟨S64, .f32⟩
  | 45 => ⟨S64, .f32⟩
  | 46 => ⟨S64, .f32⟩
  | 47 => ⟨S64x1, .f32⟩
  | 48 => ⟨S64, .f32⟩
  | 49 => ⟨S64, .f32⟩
  | 50 => ⟨S64x1, .f32⟩
  | 51 => ⟨S8x64x4096, .f32⟩
  | 52 => ⟨S8x64x16x16x16, .f32⟩
  | _ => ⟨S8x32x32x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x32x32x32x32, .f32⟩

abbrev bufTy : (tb : Table) → Fin (tcTables nBuf tb) → BufTy
  | .hbm, ⟨i, _⟩ => hbmTy i
  | .local _ .vmem, ⟨0, _⟩ => ⟨S1x32x32768, .f32⟩
  | .local _ .vmem, ⟨1, _⟩ => ⟨S1x32x32768, .f32⟩
  | .local _ .vmem, ⟨2, _⟩ => ⟨S1024x256, .bf16⟩
  | .local _ .vmem, ⟨3, _⟩ => ⟨S3x64x288, .bf16⟩
  | .local _ .vmem, ⟨4, _⟩ => ⟨S9x4608, .bf16⟩
  | .local _ .vmem, ⟨5, _⟩ => ⟨S1x64x4864, .bf16⟩
  | .local _ .vmem, ⟨6, _⟩ => ⟨S1x64x4864, .bf16⟩
  | .local _ .vmem, ⟨7, _⟩ => ⟨S1x64x1, .f32⟩
  | .local _ .vmem, ⟨8, _⟩ => ⟨S1x64x1, .f32⟩
  | .local _ .vmem, ⟨9, _⟩ => ⟨S1x64x1, .f32⟩
  | .local _ .vmem, ⟨10, _⟩ => ⟨S1x64x1, .f32⟩
  | .local _ .vmem, ⟨11, _⟩ => ⟨S512x1024, .bf16⟩
  | .local _ .vmem, ⟨12, _⟩ => ⟨S32x4864, .bf16⟩
  | .local _ .vmem, ⟨13, _⟩ => ⟨S288x4608, .bf16⟩
  | .local _ .vmem, ⟨14, _⟩ => ⟨S1x64x4864, .bf16⟩
  | .local _ .vmem, ⟨15, _⟩ => ⟨S1x64x4864, .bf16⟩
  | .local _ .vmem, ⟨16, _⟩ => ⟨S64x1, .f32⟩
  | .local _ .vmem, ⟨17, _⟩ => ⟨S64x1, .f32⟩
  | .local _ .vmem, ⟨18, _⟩ => ⟨S1x4864, .f32⟩
  | .local _ .vmem, ⟨19, _⟩ => ⟨S3x64x576, .bf16⟩
  | .local _ .vmem, ⟨20, _⟩ => ⟨S9x4608, .bf16⟩
  | .local _ .vmem, ⟨21, _⟩ => ⟨S1x64x4096, .bf16⟩
  | .local _ .vmem, ⟨22, _⟩ => ⟨S1x64x4096, .bf16⟩
  | .local _ .vmem, ⟨23, _⟩ => ⟨S1x64x1, .f32⟩
  | .local _ .vmem, ⟨24, _⟩ => ⟨S1x64x1, .f32⟩
  | .local _ .vmem, ⟨25, _⟩ => ⟨S1x64x1, .f32⟩
  | .local _ .vmem, ⟨26, _⟩ => ⟨S1x64x1, .f32⟩
  | .local _ .vmem, ⟨27, _⟩ => ⟨S64x4864, .bf16⟩
  | .local _ .vmem, ⟨28, _⟩ => ⟨S576x4608, .bf16⟩
  | .local _ .vmem, ⟨29, _⟩ => ⟨S1x64x4096, .bf16⟩
  | .local _ .vmem, ⟨30, _⟩ => ⟨S1x64x4096, .bf16⟩
  | .local _ .vmem, ⟨31, _⟩ => ⟨S64x1, .f32⟩
  | .local _ .vmem, ⟨32, _⟩ => ⟨S64x1, .f32⟩
  | .local _ .vmem, ⟨33, _⟩ => ⟨S1x64x4096, .f32⟩
  | .local _ .vmem, ⟨34, _⟩ => ⟨S1x64x4096, .f32⟩
  | _, _ => ⟨S8x32x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_c_1 : Ref sig .tc := ⟨.hbm, 33, rfl⟩
abbrev main_call1_v0 : Ref sig .tc := ⟨.hbm, 34, rfl⟩
abbrev main_call1_c : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_c_1 : Ref sig .tc := ⟨.hbm, 41, rfl⟩
abbrev main_call1_v5 : Ref sig .tc := ⟨.hbm, 42, rfl⟩
abbrev main_call1_v6 : Ref sig .tc := ⟨.hbm, 43, rfl⟩
abbrev main_call1_c_2 : Ref sig .tc := ⟨.hbm, 44, rfl⟩
abbrev main_call1_v7 : Ref sig .tc := ⟨.hbm, 45, rfl⟩
abbrev main_call1_v8 : Ref sig .tc := ⟨.hbm, 46, rfl⟩
abbrev main_call1_c_3 : Ref sig .tc := ⟨.hbm, 47, rfl⟩
abbrev main_call1_v9 : Ref sig .tc := ⟨.hbm, 48, rfl⟩
abbrev main_call1_v10 : Ref sig .tc := ⟨.hbm, 49, rfl⟩
abbrev main_call1_v11 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_v8 : Ref sig .tc := ⟨.hbm, 54, rfl⟩
abbrev main_c_2 : Ref sig .tc := ⟨.hbm, 55, rfl⟩
abbrev main_v9 : Ref sig .tc := ⟨.hbm, 56, rfl⟩
abbrev main_v10 : Ref sig .tc := ⟨.hbm, 57, rfl⟩
abbrev main_v11 : Ref sig .tc := ⟨.hbm, 58, rfl⟩
abbrev main_v12 : Ref sig .tc := ⟨.hbm, 59, rfl⟩
abbrev main_v13 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_c_3 : Ref sig .tc := ⟨.hbm, 64, rfl⟩
abbrev main_v17 : Ref sig .tc := ⟨.hbm, 65, rfl⟩
abbrev main_v18 : Ref sig .tc := ⟨.hbm, 66, rfl⟩
abbrev main_c_4 : Ref sig .tc := ⟨.hbm, 67, rfl⟩
abbrev main_call2_v0 : Ref sig .tc := ⟨.hbm, 68, rfl⟩
abbrev main_call2_c : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_c_1 : Ref sig .tc := ⟨.hbm, 75, rfl⟩
abbrev main_call2_v5 : Ref sig .tc := ⟨.hbm, 76, rfl⟩
abbrev main_call2_v6 : Ref sig .tc := ⟨.hbm, 77, rfl⟩
abbrev main_call2_c_2 : Ref sig .tc := ⟨.hbm, 78, rfl⟩
abbrev main_call2_v7 : Ref sig .tc := ⟨.hbm, 79, rfl⟩
abbrev main_call2_v8 : Ref sig .tc := ⟨.hbm, 80, rfl⟩
abbrev main_call2_c_3 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_v12 : Ref sig .tc := ⟨.hbm, 85, rfl⟩
abbrev main_call2_v13 : Ref sig .tc := ⟨.hbm, 86, rfl⟩
abbrev main_call2_v14 : Ref sig .tc := ⟨.hbm, 87, rfl⟩
abbrev main_v19 : Ref sig .tc := ⟨.hbm, 88, rfl⟩
abbrev main_c_5 : Ref sig .tc := ⟨.hbm, 89, rfl⟩
abbrev main_call3_v0 : Ref sig .tc := ⟨.hbm, 90, rfl⟩
abbrev main_call3_c : Ref sig .tc := ⟨.hbm, 91, rfl⟩
abbrev main_call3_v1 : Ref sig .tc := ⟨.hbm, 92, rfl⟩
abbrev main_call3_c_0 : Ref sig .tc := ⟨.hbm, 93, rfl⟩
abbrev main_call3_v2 : Ref sig .tc := ⟨.hbm, 94, rfl⟩
abbrev main_call3_v3 : Ref sig .tc := ⟨.hbm, 95, rfl⟩
abbrev main_call3_v4 : Ref sig .tc := ⟨.hbm, 96, rfl⟩
abbrev main_call3_c_1 : Ref sig .tc := ⟨.hbm, 97, rfl⟩
abbrev main_call3_v5 : Ref sig .tc := ⟨.hbm, 98, rfl⟩
abbrev main_call3_v6 : Ref sig .tc := ⟨.hbm, 99, rfl⟩
abbrev main_call3_c_2 : Ref sig .tc := ⟨.hbm, 100, rfl⟩
abbrev main_call3_v7 : Ref sig .tc := ⟨.hbm, 101, rfl⟩
abbrev main_call3_v8 : Ref sig .tc := ⟨.hbm, 102, rfl⟩
abbrev main_call3_c_3 : Ref sig .tc := ⟨.hbm, 103, rfl⟩
abbrev main_call3_v9 : Ref sig .tc := ⟨.hbm, 104, rfl⟩
abbrev main_call3_v10 : Ref sig .tc := ⟨.hbm, 105, rfl⟩
abbrev main_call3_v11 : Ref sig .tc := ⟨.hbm, 106, rfl⟩
abbrev main_call3_v12 : Ref sig .tc := ⟨.hbm, 107, rfl⟩
abbrev main_call3_v13 : Ref sig .tc := ⟨.hbm, 108, rfl⟩
abbrev main_call3_v14 : Ref sig .tc := ⟨.hbm, 109, rfl⟩
abbrev main_v20 : Ref sig .tc := ⟨.hbm, 110, rfl⟩
abbrev main_c_6 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_call4_v3 : Ref sig .tc := ⟨.hbm, 115, rfl⟩
abbrev main_call4_v4 : Ref sig .tc := ⟨.hbm, 116, rfl⟩
abbrev main_call4_v5 : Ref sig .tc := ⟨.hbm, 117, rfl⟩
abbrev main_call4_v6 : Ref sig .tc := ⟨.hbm, 118, rfl⟩
abbrev main_call4_v7 : Ref sig .tc := ⟨.hbm, 119, rfl⟩
abbrev main_call4_v8 : Ref sig .tc := ⟨.hbm, 120, rfl⟩
abbrev main_call4_c : Ref sig .tc := ⟨.hbm, 121, rfl⟩
abbrev main_call4_v9 : Ref sig .tc := ⟨.hbm, 122, rfl⟩
abbrev main_call4_v10 : Ref sig .tc := ⟨.hbm, 123, rfl⟩
abbrev main_call4_v11 : Ref sig .tc := ⟨.hbm, 124, rfl⟩
abbrev main_call4_c_0 : Ref sig .tc := ⟨.hbm, 125, rfl⟩
abbrev main_call4_v12 : Ref sig .tc := ⟨.hbm, 126, rfl⟩
abbrev main_call4_v13 : Ref sig .tc := ⟨.hbm, 127, rfl⟩
abbrev main_v21 : Ref sig .tc := ⟨.hbm, 128, rfl⟩
abbrev main_c_7 : Ref sig .tc := ⟨.hbm, 129, rfl⟩
abbrev main_v22 : Ref sig .tc := ⟨.hbm, 130, rfl⟩
abbrev main_v23 : Ref sig .tc := ⟨.hbm, 131, rfl⟩
abbrev main_c_8 : Ref sig .tc := ⟨.hbm, 132, rfl⟩
abbrev main_v24 : Ref sig .tc := ⟨.hbm, 133, rfl⟩
abbrev main_v25 : Ref sig .tc := ⟨.hbm, 134, rfl⟩
abbrev main_c_9 : Ref sig .tc := ⟨.hbm, 135, rfl⟩
abbrev main_v26 : Ref sig .tc := ⟨.hbm, 136, rfl⟩
abbrev main_v27 : Ref sig .tc := ⟨.hbm, 137, rfl⟩
abbrev main_c_10 : Ref sig .tc := ⟨.hbm, 138, rfl⟩
abbrev main_v28 : Ref sig .tc := ⟨.hbm, 139, rfl⟩
abbrev main_v29 : Ref sig .tc := ⟨.hbm, 140, rfl⟩
abbrev main_c_11 : Ref sig .tc := ⟨.hbm, 141, rfl⟩
abbrev main_v30 : Ref sig .tc := ⟨.hbm, 142, rfl⟩
abbrev main_v31 : Ref sig .tc := ⟨.hbm, 143, rfl⟩
abbrev main_c_12 : Ref sig .tc := ⟨.hbm, 144, rfl⟩
abbrev main_v32 : Ref sig .tc := ⟨.hbm, 145, rfl⟩
abbrev main_v33 : Ref sig .tc := ⟨.hbm, 146, rfl⟩
abbrev main_v34 : Ref sig .tc := ⟨.hbm, 147, rfl⟩
abbrev main_c_13 : Ref sig .tc := ⟨.hbm, 148, rfl⟩
abbrev main_v35 : Ref sig .tc := ⟨.hbm, 149, rfl⟩
abbrev main_v36 : Ref sig .tc := ⟨.hbm, 150, rfl⟩
abbrev main_c_14 : Ref sig .tc := ⟨.hbm, 151, rfl⟩
abbrev main_v37 : Ref sig .tc := ⟨.hbm, 152, rfl⟩
abbrev main_v38 : Ref sig .tc := ⟨.hbm, 153, rfl⟩
abbrev main_c_15 : Ref sig .tc := ⟨.hbm, 154, rfl⟩
abbrev main_v39 : Ref sig .tc := ⟨.hbm, 155, rfl⟩
abbrev main_v40 : Ref sig .tc := ⟨.hbm, 156, rfl⟩
abbrev main_v41 : Ref sig .tc := ⟨.hbm, 157, rfl⟩
abbrev main_c_16 : Ref sig .tc := ⟨.hbm, 158, rfl⟩
abbrev main_v42 : Ref sig .tc := ⟨.hbm, 159, rfl⟩
abbrev main_v43 : Ref sig .tc := ⟨.hbm, 160, rfl⟩
abbrev main_c_17 : Ref sig .tc := ⟨.hbm, 161, rfl⟩
abbrev main_v44 : Ref sig .tc := ⟨.hbm, 162, rfl⟩
abbrev main_v45 : Ref sig .tc := ⟨.hbm, 163, rfl⟩
abbrev main_c_18 : Ref sig .tc := ⟨.hbm, 164, rfl⟩
abbrev main_v46 : Ref sig .tc := ⟨.hbm, 165, rfl⟩
abbrev main_v47 : Ref sig .tc := ⟨.hbm, 166, rfl⟩
abbrev main_v48 : Ref sig .tc := ⟨.hbm, 167, rfl⟩
abbrev main_c_19 : Ref sig .tc := ⟨.hbm, 168, rfl⟩
abbrev main_v49 : Ref sig .tc := ⟨.hbm, 169, rfl⟩
abbrev main_v50 : Ref sig .tc := ⟨.hbm, 170, rfl⟩
abbrev main_c_20 : Ref sig .tc := ⟨.hbm, 171, rfl⟩
abbrev main_v51 : Ref sig .tc := ⟨.hbm, 172, rfl⟩
abbrev main_v52 : Ref sig .tc := ⟨.hbm, 173, rfl⟩
abbrev main_c_21 : Ref sig .tc := ⟨.hbm, 174, rfl⟩
abbrev main_v53 : Ref sig .tc := ⟨.hbm, 175, rfl⟩
abbrev main_v54 : Ref sig .tc := ⟨.hbm, 176, rfl⟩
abbrev main_c_22 : Ref sig .tc := ⟨.hbm, 177, rfl⟩
abbrev main_v55 : Ref sig .tc := ⟨.hbm, 178, rfl⟩
abbrev main_v56 : Ref sig .tc := ⟨.hbm, 179, rfl⟩
abbrev main_c_23 : Ref sig .tc := ⟨.hbm, 180, rfl⟩
abbrev main_v57 : Ref sig .tc := ⟨.hbm, 181, rfl⟩
abbrev main_v58 : Ref sig .tc := ⟨.hbm, 182, rfl⟩
abbrev main_c_24 : Ref sig .tc := ⟨.hbm, 183, rfl⟩
abbrev main_v59 : Ref sig .tc := ⟨.hbm, 184, rfl⟩
abbrev main_v60 : Ref sig .tc := ⟨.hbm, 185, rfl⟩
abbrev main_v61 : Ref sig .tc := ⟨.hbm, 186, rfl⟩
abbrev main_c_25 : Ref sig .tc := ⟨.hbm, 187, rfl⟩
abbrev main_v62 : Ref sig .tc := ⟨.hbm, 188, rfl⟩
abbrev main_v63 : Ref sig .tc := ⟨.hbm, 189, rfl⟩
abbrev main_c_26 : Ref sig .tc := ⟨.hbm, 190, rfl⟩
abbrev main_v64 : Ref sig .tc := ⟨.hbm, 191, rfl⟩
abbrev main_v65 : Ref sig .tc := ⟨.hbm, 192, rfl⟩
abbrev main_c_27 : Ref sig .tc := ⟨.hbm, 193, rfl⟩
abbrev main_v66 : Ref sig .tc := ⟨.hbm, 194, rfl⟩
abbrev main_v67 : Ref sig .tc := ⟨.hbm, 195, rfl⟩
abbrev main_v68 : Ref sig .tc := ⟨.hbm, 196, rfl⟩
abbrev main_c_28 : Ref sig .tc := ⟨.hbm, 197, rfl⟩
abbrev main_v69 : Ref sig .tc := ⟨.hbm, 198, rfl⟩
abbrev main_v70 : Ref sig .tc := ⟨.hbm, 199, rfl⟩
abbrev main_c_29 : Ref sig .tc := ⟨.hbm, 200, rfl⟩
abbrev main_v71 : Ref sig .tc := ⟨.hbm, 201, rfl⟩
abbrev main_v72 : Ref sig .tc := ⟨.hbm, 202, rfl⟩
abbrev main_c_30 : Ref sig .tc := ⟨.hbm, 203, rfl⟩
abbrev main_v73 : Ref sig .tc := ⟨.hbm, 204, rfl⟩
abbrev main_v74 : Ref sig .tc := ⟨.hbm, 205, rfl⟩
abbrev main_v75 : Ref sig .tc := ⟨.hbm, 206, rfl⟩
abbrev main_c_31 : Ref sig .tc := ⟨.hbm, 207, rfl⟩
abbrev main_v76 : Ref sig .tc := ⟨.hbm, 208, rfl⟩
abbrev main_v77 : Ref sig .tc := ⟨.hbm, 209, rfl⟩
abbrev main_c_32 : Ref sig .tc := ⟨.hbm, 210, rfl⟩
abbrev main_v78 : Ref sig .tc := ⟨.hbm, 211, rfl⟩
abbrev main_v79 : Ref sig .tc := ⟨.hbm, 212, rfl⟩
abbrev main_c_33 : Ref sig .tc := ⟨.hbm, 213, rfl⟩
abbrev main_v80 : Ref sig .tc := ⟨.hbm, 214, rfl⟩
abbrev main_v81 : Ref sig .tc := ⟨.hbm, 215, rfl⟩
abbrev main_c_34 : Ref sig .tc := ⟨.hbm, 216, rfl⟩
abbrev main_v82 : Ref sig .tc := ⟨.hbm, 217, rfl⟩
abbrev main_v83 : Ref sig .tc := ⟨.hbm, 218, rfl⟩
abbrev main_c_35 : Ref sig .tc := ⟨.hbm, 219, rfl⟩
abbrev main_v84 : Ref sig .tc := ⟨.hbm, 220, rfl⟩
abbrev main_v85 : Ref sig .tc := ⟨.hbm, 221, rfl⟩
abbrev main_c_36 : Ref sig .tc := ⟨.hbm, 222, rfl⟩
abbrev main_v86 : Ref sig .tc := ⟨.hbm, 223, rfl⟩
abbrev main_v87 : Ref sig .tc := ⟨.hbm, 224, rfl⟩
abbrev main_v88 : Ref sig .tc := ⟨.hbm, 225, rfl⟩
abbrev main_c_37 : Ref sig .tc := ⟨.hbm, 226, rfl⟩
abbrev main_v89 : Ref sig .tc := ⟨.hbm, 227, rfl⟩
abbrev main_v90 : Ref sig .tc := ⟨.hbm, 228, rfl⟩
abbrev main_c_38 : Ref sig .tc := ⟨.hbm, 229, rfl⟩
abbrev main_v91 : Ref sig .tc := ⟨.hbm, 230, rfl⟩
abbrev main_v92 : Ref sig .tc := ⟨.hbm, 231, rfl⟩
abbrev main_c_39 : Ref sig .tc := ⟨.hbm, 232, rfl⟩
abbrev main_v93 : Ref sig .tc := ⟨.hbm, 233, rfl⟩
abbrev main_v94 : Ref sig .tc := ⟨.hbm, 234, rfl⟩
abbrev main_v95 : Ref sig .tc := ⟨.hbm, 235, rfl⟩
abbrev main_c_40 : Ref sig .tc := ⟨.hbm, 236, rfl⟩
abbrev main_v96 : Ref sig .tc := ⟨.hbm, 237, rfl⟩
abbrev main_v97 : Ref sig .tc := ⟨.hbm, 238, rfl⟩
abbrev main_c_41 : Ref sig .tc := ⟨.hbm, 239, rfl⟩
abbrev main_v98 : Ref sig .tc := ⟨.hbm, 240, rfl⟩
abbrev main_v99 : Ref sig .tc := ⟨.hbm, 241, rfl⟩
abbrev main_c_42 : Ref sig .tc := ⟨.hbm, 242, rfl⟩
abbrev main_v100 : Ref sig .tc := ⟨.hbm, 243, rfl⟩
abbrev main_v101 : Ref sig .tc := ⟨.hbm, 244, rfl⟩
abbrev main_v102 : Ref sig .tc := ⟨.hbm, 245, rfl⟩
abbrev main_c_43 : Ref sig .tc := ⟨.hbm, 246, rfl⟩
abbrev main_v103 : Ref sig .tc := ⟨.hbm, 247, rfl⟩
abbrev main_v104 : Ref sig .tc := ⟨.hbm, 248, rfl⟩
abbrev main_c_44 : Ref sig .tc := ⟨.hbm, 249, rfl⟩
abbrev main_v105 : Ref sig .tc := ⟨.hbm, 250, rfl⟩
abbrev main_v106 : Ref sig .tc := ⟨.hbm, 251, rfl⟩
abbrev main_c_45 : Ref sig .tc := ⟨.hbm, 252, rfl⟩
abbrev main_v107 : Ref sig .tc := ⟨.hbm, 253, rfl⟩
abbrev main_v108 : Ref sig .tc := ⟨.hbm, 254, rfl⟩
abbrev main_c_46 : Ref sig .tc := ⟨.hbm, 255, rfl⟩
abbrev main_v109 : Ref sig .tc := ⟨.hbm, 256, rfl⟩
abbrev main_v110 : Ref sig .tc := ⟨.hbm, 257, rfl⟩
abbrev main_c_47 : Ref sig .tc := ⟨.hbm, 258, rfl⟩
abbrev main_v111 : Ref sig .tc := ⟨.hbm, 259, rfl⟩
abbrev main_v112 : Ref sig .tc := ⟨.hbm, 260, rfl⟩
abbrev main_c_48 : Ref sig .tc := ⟨.hbm, 261, rfl⟩
abbrev main_v113 : Ref sig .tc := ⟨.hbm, 262, rfl⟩
abbrev main_v114 : Ref sig .tc := ⟨.hbm, 263, rfl⟩
abbrev main_v115 : Ref sig .tc := ⟨.hbm, 264, rfl⟩
abbrev main_c_49 : Ref sig .tc := ⟨.hbm, 265, rfl⟩
abbrev main_v116 : Ref sig .tc := ⟨.hbm, 266, rfl⟩
abbrev main_v117 : Ref sig .tc := ⟨.hbm, 267, rfl⟩
abbrev main_c_50 : Ref sig .tc := ⟨.hbm, 268, rfl⟩
abbrev main_v118 : Ref sig .tc := ⟨.hbm, 269, rfl⟩
abbrev main_v119 : Ref sig .tc := ⟨.hbm, 270, rfl⟩
abbrev main_c_51 : Ref sig .tc := ⟨.hbm, 271, rfl⟩
abbrev main_v120 : Ref sig .tc := ⟨.hbm, 272, rfl⟩
abbrev main_v121 : Ref sig .tc := ⟨.hbm, 273, rfl⟩
abbrev main_v122 : Ref sig .tc := ⟨.hbm, 274, rfl⟩
abbrev main_c_52 : Ref sig .tc := ⟨.hbm, 275, rfl⟩
abbrev main_v123 : Ref sig .tc := ⟨.hbm, 276, rfl⟩
abbrev main_v124 : Ref sig .tc := ⟨.hbm, 277, rfl⟩
abbrev main_c_53 : Ref sig .tc := ⟨.hbm, 278, rfl⟩
abbrev main_v125 : Ref sig .tc := ⟨.hbm, 279, rfl⟩
abbrev main_v126 : Ref sig .tc := ⟨.hbm, 280, rfl⟩
abbrev main_c_54 : Ref sig .tc := ⟨.hbm, 281, rfl⟩
abbrev main_v127 : Ref sig .tc := ⟨.hbm, 282, rfl⟩
abbrev main_v128 : Ref sig .tc := ⟨.hbm, 283, rfl⟩
abbrev main_v129 : Ref sig .tc := ⟨.hbm, 284, rfl⟩
abbrev main_c_55 : Ref sig .tc := ⟨.hbm, 285, rfl⟩
abbrev main_v130 : Ref sig .tc := ⟨.hbm, 286, rfl⟩
abbrev main_v131 : Ref sig .tc := ⟨.hbm, 287, rfl⟩
abbrev main_c_56 : Ref sig .tc := ⟨.hbm, 288, rfl⟩
abbrev main_v132 : Ref sig .tc := ⟨.hbm, 289, rfl⟩
abbrev main_v133 : Ref sig .tc := ⟨.hbm, 290, rfl⟩
abbrev main_c_57 : Ref sig .tc := ⟨.hbm, 291, rfl⟩
abbrev main_v134 : Ref sig .tc := ⟨.hbm, 292, rfl⟩
abbrev main_v135 : Ref sig .tc := ⟨.hbm, 293, rfl⟩
abbrev main_c_58 : Ref sig .tc := ⟨.hbm, 294, rfl⟩
abbrev main_v136 : Ref sig .tc := ⟨.hbm, 295, rfl⟩
abbrev main_v137 : Ref sig .tc := ⟨.hbm, 296, rfl⟩
abbrev main_c_59 : Ref sig .tc := ⟨.hbm, 297, rfl⟩
abbrev main_v138 : Ref sig .tc := ⟨.hbm, 298, rfl⟩
abbrev main_v139 : Ref sig .tc := ⟨.hbm, 299, rfl⟩
abbrev main_c_60 : Ref sig .tc := ⟨.hbm, 300, rfl⟩
abbrev main_v140 : Ref sig .tc := ⟨.hbm, 301, rfl⟩
abbrev main_v141 : Ref sig .tc := ⟨.hbm, 302, rfl⟩
abbrev main_v142 : Ref sig .tc := ⟨.hbm, 303, rfl⟩
abbrev main_c_61 : Ref sig .tc := ⟨.hbm, 304, rfl⟩
abbrev main_v143 : Ref sig .tc := ⟨.hbm, 305, rfl⟩
abbrev main_v144 : Ref sig .tc := ⟨.hbm, 306, rfl⟩
abbrev main_c_62 : Ref sig .tc := ⟨.hbm, 307, rfl⟩
abbrev main_v145 : Ref sig .tc := ⟨.hbm, 308, rfl⟩
abbrev main_v146 : Ref sig .tc := ⟨.hbm, 309, rfl⟩
abbrev main_c_63 : Ref sig .tc := ⟨.hbm, 310, rfl⟩
abbrev main_v147 : Ref sig .tc := ⟨.hbm, 311, rfl⟩
abbrev main_v148 : Ref sig .tc := ⟨.hbm, 312, rfl⟩
abbrev main_v149 : Ref sig .tc := ⟨.hbm, 313, rfl⟩
abbrev main_c_64 : Ref sig .tc := ⟨.hbm, 314, rfl⟩
abbrev main_v150 : Ref sig .tc := ⟨.hbm, 315, rfl⟩
abbrev main_v151 : Ref sig .tc := ⟨.hbm, 316, rfl⟩
abbrev main_c_65 : Ref sig .tc := ⟨.hbm, 317, rfl⟩
abbrev main_v152 : Ref sig .tc := ⟨.hbm, 318, rfl⟩
abbrev main_v153 : Ref sig .tc := ⟨.hbm, 319, rfl⟩
abbrev main_c_66 : Ref sig .tc := ⟨.hbm, 320, rfl⟩
abbrev main_v154 : Ref sig .tc := ⟨.hbm, 321, rfl⟩
abbrev main_v155 : Ref sig .tc := ⟨.hbm, 322, rfl⟩
abbrev main_v156 : Ref sig .tc := ⟨.hbm, 323, rfl⟩
abbrev main_c_67 : Ref sig .tc := ⟨.hbm, 324, rfl⟩
abbrev main_v157 : Ref sig .tc := ⟨.hbm, 325, rfl⟩
abbrev main_v158 : Ref sig .tc := ⟨.hbm, 326, rfl⟩
abbrev main_c_68 : Ref sig .tc := ⟨.hbm, 327, rfl⟩
abbrev main_v159 : Ref sig .tc := ⟨.hbm, 328, rfl⟩
abbrev main_v160 : Ref sig .tc := ⟨.hbm, 329, rfl⟩
abbrev main_c_69 : Ref sig .tc := ⟨.hbm, 330, rfl⟩
abbrev main_v161 : Ref sig .tc := ⟨.hbm, 331, rfl⟩
abbrev main_v162 : Ref sig .tc := ⟨.hbm, 332, rfl⟩
abbrev main_c_70 : Ref sig .tc := ⟨.hbm, 333, rfl⟩
abbrev main_v163 : Ref sig .tc := ⟨.hbm, 334, rfl⟩
abbrev main_v164 : Ref sig .tc := ⟨.hbm, 335, rfl⟩
abbrev main_c_71 : Ref sig .tc := ⟨.hbm, 336, rfl⟩
abbrev main_v165 : Ref sig .tc := ⟨.hbm, 337, rfl⟩
abbrev main_v166 : Ref sig .tc := ⟨.hbm, 338, rfl⟩
abbrev main_c_72 : Ref sig .tc := ⟨.hbm, 339, rfl⟩
abbrev main_v167 : Ref sig .tc := ⟨.hbm, 340, rfl⟩
abbrev main_v168 : Ref sig .tc := ⟨.hbm, 341, rfl⟩
abbrev main_v169 : Ref sig .tc := ⟨.hbm, 342, rfl⟩
abbrev main_c_73 : Ref sig .tc := ⟨.hbm, 343, rfl⟩
abbrev main_v170 : Ref sig .tc := ⟨.hbm, 344, rfl⟩
abbrev main_v171 : Ref sig .tc := ⟨.hbm, 345, rfl⟩
abbrev main_c_74 : Ref sig .tc := ⟨.hbm, 346, rfl⟩
abbrev main_v172 : Ref sig .tc := ⟨.hbm, 347, rfl⟩
abbrev main_v173 : Ref sig .tc := ⟨.hbm, 348, rfl⟩
abbrev main_c_75 : Ref sig .tc := ⟨.hbm, 349, rfl⟩
abbrev main_v174 : Ref sig .tc := ⟨.hbm, 350, rfl⟩
abbrev main_v175 : Ref sig .tc := ⟨.hbm, 351, rfl⟩
abbrev main_v176 : Ref sig .tc := ⟨.hbm, 352, rfl⟩
abbrev main_c_76 : Ref sig .tc := ⟨.hbm, 353, rfl⟩
abbrev main_v177 : Ref sig .tc := ⟨.hbm, 354, rfl⟩
abbrev main_v178 : Ref sig .tc := ⟨.hbm, 355, rfl⟩
abbrev main_c_77 : Ref sig .tc := ⟨.hbm, 356, rfl⟩
abbrev main_v179 : Ref sig .tc := ⟨.hbm, 357, rfl⟩
abbrev main_v180 : Ref sig .tc := ⟨.hbm, 358, rfl⟩
abbrev main_c_78 : Ref sig .tc := ⟨.hbm, 359, rfl⟩
abbrev main_v181 : Ref sig .tc := ⟨.hbm, 360, rfl⟩
abbrev main_v182 : Ref sig .tc := ⟨.hbm, 361, rfl⟩
abbrev main_v183 : Ref sig .tc := ⟨.hbm, 362, rfl⟩
abbrev main_c_79 : Ref sig .tc := ⟨.hbm, 363, rfl⟩
abbrev main_v184 : Ref sig .tc := ⟨.hbm, 364, rfl⟩
abbrev main_v185 : Ref sig .tc := ⟨.hbm, 365, rfl⟩
abbrev main_c_80 : Ref sig .tc := ⟨.hbm, 366, rfl⟩
abbrev main_v186 : Ref sig .tc := ⟨.hbm, 367, rfl⟩
abbrev main_v187 : Ref sig .tc := ⟨.hbm, 368, rfl⟩
abbrev main_c_81 : Ref sig .tc := ⟨.hbm, 369, rfl⟩
abbrev main_v188 : Ref sig .tc := ⟨.hbm, 370, rfl⟩
abbrev main_v189 : Ref sig .tc := ⟨.hbm, 371, rfl⟩
abbrev main_c_82 : Ref sig .tc := ⟨.hbm, 372, rfl⟩
abbrev main_v190 : Ref sig .tc := ⟨.hbm, 373, rfl⟩
abbrev main_v191 : Ref sig .tc := ⟨.hbm, 374, rfl⟩
abbrev main_c_83 : Ref sig .tc := ⟨.hbm, 375, rfl⟩
abbrev main_v192 : Ref sig .tc := ⟨.hbm, 376, rfl⟩
abbrev main_v193 : Ref sig .tc := ⟨.hbm, 377, rfl⟩
abbrev main_c_84 : Ref sig .tc := ⟨.hbm, 378, rfl⟩
abbrev main_v194 : Ref sig .tc := ⟨.hbm, 379, rfl⟩
abbrev main_v195 : Ref sig .tc := ⟨.hbm, 380, rfl⟩
abbrev main_v196 : Ref sig .tc := ⟨.hbm, 381, rfl⟩
abbrev main_c_85 : Ref sig .tc := ⟨.hbm, 382, rfl⟩
abbrev main_v197 : Ref sig .tc := ⟨.hbm, 383, rfl⟩
abbrev main_v198 : Ref sig .tc := ⟨.hbm, 384, rfl⟩
abbrev main_c_86 : Ref sig .tc := ⟨.hbm, 385, rfl⟩
abbrev main_v199 : Ref sig .tc := ⟨.hbm, 386, rfl⟩
abbrev main_v200 : Ref sig .tc := ⟨.hbm, 387, rfl⟩
abbrev main_c_87 : Ref sig .tc := ⟨.hbm, 388, rfl⟩
abbrev main_v201 : Ref sig .tc := ⟨.hbm, 389, rfl⟩
abbrev main_v202 : Ref sig .tc := ⟨.hbm, 390, rfl⟩
abbrev main_v203 : Ref sig .tc := ⟨.hbm, 391, rfl⟩
abbrev main_c_88 : Ref sig .tc := ⟨.hbm, 392, rfl⟩
abbrev main_v204 : Ref sig .tc := ⟨.hbm, 393, rfl⟩
abbrev main_v205 : Ref sig .tc := ⟨.hbm, 394, rfl⟩
abbrev main_c_89 : Ref sig .tc := ⟨.hbm, 395, rfl⟩
abbrev main_v206 : Ref sig .tc := ⟨.hbm, 396, rfl⟩
abbrev main_v207 : Ref sig .tc := ⟨.hbm, 397, rfl⟩
abbrev main_c_90 : Ref sig .tc := ⟨.hbm, 398, rfl⟩
abbrev main_v208 : Ref sig .tc := ⟨.hbm, 399, rfl⟩
abbrev main_v209 : Ref sig .tc := ⟨.hbm, 400, rfl⟩
abbrev main_v210 : Ref sig .tc := ⟨.hbm, 401, rfl⟩
abbrev main_c_91 : Ref sig .tc := ⟨.hbm, 402, rfl⟩
abbrev main_v211 : Ref sig .tc := ⟨.hbm, 403, rfl⟩
abbrev main_v212 : Ref sig .tc := ⟨.hbm, 404, rfl⟩
abbrev main_c_92 : Ref sig .tc := ⟨.hbm, 405, rfl⟩
abbrev main_v213 : Ref sig .tc := ⟨.hbm, 406, rfl⟩
abbrev main_v214 : Ref sig .tc := ⟨.hbm, 407, rfl⟩
abbrev main_c_93 : Ref sig .tc := ⟨.hbm, 408, rfl⟩
abbrev main_v215 : Ref sig .tc := ⟨.hbm, 409, rfl⟩
abbrev main_v216 : Ref sig .tc := ⟨.hbm, 410, rfl⟩
abbrev main_c_94 : Ref sig .tc := ⟨.hbm, 411, rfl⟩
abbrev main_v217 : Ref sig .tc := ⟨.hbm, 412, rfl⟩
abbrev main_v218 : Ref sig .tc := ⟨.hbm, 413, rfl⟩
abbrev main_c_95 : Ref sig .tc := ⟨.hbm, 414, rfl⟩
abbrev main_v219 : Ref sig .tc := ⟨.hbm, 415, rfl⟩
abbrev main_v220 : Ref sig .tc := ⟨.hbm, 416, rfl⟩
abbrev main_c_96 : Ref sig .tc := ⟨.hbm, 417, rfl⟩
abbrev main_v221 : Ref sig .tc := ⟨.hbm, 418, rfl⟩
abbrev main_v222 : Ref sig .tc := ⟨.hbm, 419, rfl⟩
abbrev main_v223 : Ref sig .tc := ⟨.hbm, 420, rfl⟩
abbrev main_c_97 : Ref sig .tc := ⟨.hbm, 421, rfl⟩
abbrev main_v224 : Ref sig .tc := ⟨.hbm, 422, rfl⟩
abbrev main_v225 : Ref sig .tc := ⟨.hbm, 423, rfl⟩
abbrev main_c_98 : Ref sig .tc := ⟨.hbm, 424, rfl⟩
abbrev main_v226 : Ref sig .tc := ⟨.hbm, 425, rfl⟩
abbrev main_v227 : Ref sig .tc := ⟨.hbm, 426, rfl⟩
abbrev main_c_99 : Ref sig .tc := ⟨.hbm, 427, rfl⟩
abbrev main_v228 : Ref sig .tc := ⟨.hbm, 428, rfl⟩
abbrev main_v229 : Ref sig .tc := ⟨.hbm, 429, rfl⟩
abbrev main_v230 : Ref sig .tc := ⟨.hbm, 430, rfl⟩
abbrev main_c_100 : Ref sig .tc := ⟨.hbm, 431, rfl⟩
abbrev main_v231 : Ref sig .tc := ⟨.hbm, 432, rfl⟩
abbrev main_v232 : Ref sig .tc := ⟨.hbm, 433, rfl⟩
abbrev main_c_101 : Ref sig .tc := ⟨.hbm, 434, rfl⟩
abbrev main_v233 : Ref sig .tc := ⟨.hbm, 435, rfl⟩
abbrev main_v234 : Ref sig .tc := ⟨.hbm, 436, rfl⟩
abbrev main_c_102 : Ref sig .tc := ⟨.hbm, 437, rfl⟩
abbrev main_v235 : Ref sig .tc := ⟨.hbm, 438, rfl⟩
abbrev main_v236 : Ref sig .tc := ⟨.hbm, 439, rfl⟩
abbrev main_v237 : Ref sig .tc := ⟨.hbm, 440, rfl⟩
abbrev main_c_103 : Ref sig .tc := ⟨.hbm, 441, rfl⟩
abbrev main_v238 : Ref sig .tc := ⟨.hbm, 442, rfl⟩
abbrev main_v239 : Ref sig .tc := ⟨.hbm, 443, rfl⟩
abbrev main_c_104 : Ref sig .tc := ⟨.hbm, 444, rfl⟩
abbrev main_v240 : Ref sig .tc := ⟨.hbm, 445, rfl⟩
abbrev main_v241 : Ref sig .tc := ⟨.hbm, 446, rfl⟩
abbrev main_c_105 : Ref sig .tc := ⟨.hbm, 447, rfl⟩
abbrev main_v242 : Ref sig .tc := ⟨.hbm, 448, rfl⟩
abbrev main_v243 : Ref sig .tc := ⟨.hbm, 449, rfl⟩
abbrev main_c_106 : Ref sig .tc := ⟨.hbm, 450, rfl⟩
abbrev main_v244 : Ref sig .tc := ⟨.hbm, 451, rfl⟩
abbrev main_v245 : Ref sig .tc := ⟨.hbm, 452, rfl⟩
abbrev main_c_107 : Ref sig .tc := ⟨.hbm, 453, rfl⟩
abbrev main_v246 : Ref sig .tc := ⟨.hbm, 454, rfl⟩
abbrev main_v247 : Ref sig .tc := ⟨.hbm, 455, rfl⟩
abbrev main_c_108 : Ref sig .tc := ⟨.hbm, 456, rfl⟩
abbrev main_v248 : Ref sig .tc := ⟨.hbm, 457, rfl⟩
abbrev main_v249 : Ref sig .tc := ⟨.hbm, 458, rfl⟩
abbrev main_v250 : Ref sig .tc := ⟨.hbm, 459, rfl⟩
abbrev main_c_109 : Ref sig .tc := ⟨.hbm, 460, rfl⟩
abbrev main_v251 : Ref sig .tc := ⟨.hbm, 461, rfl⟩
abbrev main_v252 : Ref sig .tc := ⟨.hbm, 462, rfl⟩
abbrev main_c_110 : Ref sig .tc := ⟨.hbm, 463, rfl⟩
abbrev main_v253 : Ref sig .tc := ⟨.hbm, 464, rfl⟩
abbrev main_v254 : Ref sig .tc := ⟨.hbm, 465, rfl⟩
abbrev main_c_111 : Ref sig .tc := ⟨.hbm, 466, rfl⟩
abbrev main_v255 : Ref sig .tc := ⟨.hbm, 467, rfl⟩
abbrev main_v256 : Ref sig .tc := ⟨.hbm, 468, rfl⟩
abbrev main_v257 : Ref sig .tc := ⟨.hbm, 469, rfl⟩
abbrev main_c_112 : Ref sig .tc := ⟨.hbm, 470, rfl⟩
abbrev main_v258 : Ref sig .tc := ⟨.hbm, 471, rfl⟩
abbrev main_v259 : Ref sig .tc := ⟨.hbm, 472, rfl⟩
abbrev main_c_113 : Ref sig .tc := ⟨.hbm, 473, rfl⟩
abbrev main_v260 : Ref sig .tc := ⟨.hbm, 474, rfl⟩
abbrev main_v261 : Ref sig .tc := ⟨.hbm, 475, rfl⟩
abbrev main_c_114 : Ref sig .tc := ⟨.hbm, 476, rfl⟩
abbrev main_v262 : Ref sig .tc := ⟨.hbm, 477, rfl⟩
abbrev main_v263 : Ref sig .tc := ⟨.hbm, 478, rfl⟩
abbrev main_v264 : Ref sig .tc := ⟨.hbm, 479, rfl⟩
abbrev main_v265 : Ref sig .tc := ⟨.hbm, 480, rfl⟩
abbrev main_v266 : Ref sig .tc := ⟨.hbm, 481, rfl⟩
abbrev main_v267 : Ref sig .tc := ⟨.hbm, 482, rfl⟩
abbrev main_v268 : Ref sig .tc := ⟨.hbm, 483, rfl⟩
abbrev main_v269 : Ref sig .tc := ⟨.hbm, 484, rfl⟩
abbrev main_v270 : Ref sig .tc := ⟨.hbm, 485, rfl⟩
abbrev main_v271 : Ref sig .tc := ⟨.hbm, 486, rfl⟩
abbrev main_v272 : Ref sig .tc := ⟨.hbm, 487, rfl⟩
abbrev main_v273 : Ref sig .tc := ⟨.hbm, 488, rfl⟩
abbrev main_v274 : Ref sig .tc := ⟨.hbm, 489, rfl⟩
abbrev main_v275 : Ref sig .tc := ⟨.hbm, 490, rfl⟩
abbrev main_v276 : Ref sig .tc := ⟨.hbm, 491, rfl⟩
abbrev main_c_115 : Ref sig .tc := ⟨.hbm, 492, rfl⟩
abbrev main_v277 : Ref sig .tc := ⟨.hbm, 493, rfl⟩
abbrev main_v278 : Ref sig .tc := ⟨.hbm, 494, rfl⟩
abbrev main_c_116 : Ref sig .tc := ⟨.hbm, 495, rfl⟩
abbrev main_v279 : Ref sig .tc := ⟨.hbm, 496, rfl⟩
abbrev main_v280 : Ref sig .tc := ⟨.hbm, 497, rfl⟩
abbrev main_v281 : Ref sig .tc := ⟨.hbm, 498, rfl⟩
abbrev main_v282 : Ref sig .tc := ⟨.hbm, 499, rfl⟩
abbrev main_v283 : Ref sig .tc := ⟨.hbm, 500, rfl⟩
abbrev main_v284 : Ref sig .tc := ⟨.hbm, 501, rfl⟩
abbrev main_v285 : Ref sig .tc := ⟨.hbm, 502, rfl⟩
abbrev main_v286 : Ref sig .tc := ⟨.hbm, 503, rfl⟩
abbrev main_v287 : Ref sig .tc := ⟨.hbm, 504, rfl⟩
abbrev main_v288 : Ref sig .tc := ⟨.hbm, 505, rfl⟩
abbrev main_v289 : Ref sig .tc := ⟨.hbm, 506, rfl⟩
abbrev main_v290 : Ref sig .tc := ⟨.hbm, 507, rfl⟩
abbrev main_v291 : Ref sig .tc := ⟨.hbm, 508, rfl⟩
abbrev main_v292 : Ref sig .tc := ⟨.hbm, 509, rfl⟩
abbrev main_v293 : Ref sig .tc := ⟨.hbm, 510, rfl⟩
abbrev main_v294_0 : Ref sig .tc := ⟨.hbm, 511, rfl⟩
abbrev main_v294_1 : Ref sig .tc := ⟨.hbm, 512, rfl⟩
abbrev main_v294_2 : Ref sig .tc := ⟨.hbm, 513, rfl⟩
abbrev main_v295 : Ref sig .tc := ⟨.hbm, 514, rfl⟩
abbrev main_cst : Ref sig .tc := ⟨.hbm, 515, rfl⟩
abbrev main_v296 : Ref sig .tc := ⟨.hbm, 516, rfl⟩
abbrev main_v297 : Ref sig .tc := ⟨.hbm, 517, rfl⟩
abbrev main_cst_117 : Ref sig .tc := ⟨.hbm, 518, rfl⟩
abbrev main_v298 : Ref sig .tc := ⟨.hbm, 519, rfl⟩
abbrev main_cst_118 : Ref sig .tc := ⟨.hbm, 520, rfl⟩
abbrev main_v299 : Ref sig .tc := ⟨.hbm, 521, rfl⟩
abbrev main_v300 : Ref sig .tc := ⟨.hbm, 522, rfl⟩
abbrev main_cst_119 : Ref sig .tc := ⟨.hbm, 523, rfl⟩
abbrev main_v301 : Ref sig .tc := ⟨.hbm, 524, rfl⟩
abbrev main_v302 : Ref sig .tc := ⟨.hbm, 525, rfl⟩
abbrev main_v303 : Ref sig .tc := ⟨.hbm, 526, rfl⟩
abbrev main_v304 : Ref sig .tc := ⟨.hbm, 527, rfl⟩
abbrev main_cst_120 : Ref sig .tc := ⟨.hbm, 528, rfl⟩
abbrev main_v305 : Ref sig .tc := ⟨.hbm, 529, rfl⟩
abbrev main_v306 : Ref sig .tc := ⟨.hbm, 530, rfl⟩
abbrev main_v307 : Ref sig .tc := ⟨.hbm, 531, rfl⟩
abbrev main_v308 : Ref sig .tc := ⟨.hbm, 532, rfl⟩
abbrev main_v309 : Ref sig .tc := ⟨.hbm, 533, rfl⟩
abbrev main_v310 : Ref sig .tc := ⟨.hbm, 534, rfl⟩
abbrev main_v311 : Ref sig .tc := ⟨.hbm, 535, rfl⟩
abbrev main_v312 : Ref sig .tc := ⟨.hbm, 536, rfl⟩
abbrev main_v313_0 : Ref sig .tc := ⟨.hbm, 537, rfl⟩
abbrev main_v313_1 : Ref sig .tc := ⟨.hbm, 538, rfl⟩
abbrev main_v313_2 : Ref sig .tc := ⟨.hbm, 539, rfl⟩
abbrev main_v314 : Ref sig .tc := ⟨.hbm, 540, rfl⟩
abbrev main_cst_121 : Ref sig .tc := ⟨.hbm, 541, rfl⟩
abbrev main_v315 : Ref sig .tc := ⟨.hbm, 542, rfl⟩
abbrev main_v316 : Ref sig .tc := ⟨.hbm, 543, rfl⟩
abbrev main_cst_122 : Ref sig .tc := ⟨.hbm, 544, rfl⟩
abbrev main_v317 : Ref sig .tc := ⟨.hbm, 545, rfl⟩
abbrev main_cst_123 : Ref sig .tc := ⟨.hbm, 546, rfl⟩
abbrev main_v318 : Ref sig .tc := ⟨.hbm, 547, rfl⟩
abbrev main_v319 : Ref sig .tc := ⟨.hbm, 548, rfl⟩
abbrev main_cst_124 : Ref sig .tc := ⟨.hbm, 549, rfl⟩
abbrev main_v320 : Ref sig .tc := ⟨.hbm, 550, rfl⟩
abbrev main_v321 : Ref sig .tc := ⟨.hbm, 551, rfl⟩
abbrev main_v322 : Ref sig .tc := ⟨.hbm, 552, rfl⟩
abbrev main_v323 : Ref sig .tc := ⟨.hbm, 553, rfl⟩
abbrev main_cst_125 : Ref sig .tc := ⟨.hbm, 554, rfl⟩
abbrev main_v324 : Ref sig .tc := ⟨.hbm, 555, rfl⟩
abbrev main_v325 : Ref sig .tc := ⟨.hbm, 556, rfl⟩
abbrev main_v326 : Ref sig .tc := ⟨.hbm, 557, rfl⟩
abbrev main_v327 : Ref sig .tc := ⟨.hbm, 558, rfl⟩
abbrev main_v328 : Ref sig .tc := ⟨.hbm, 559, rfl⟩
abbrev main_v329 : Ref sig .tc := ⟨.hbm, 560, rfl⟩
abbrev main_v330 : Ref sig .tc := ⟨.hbm, 561, rfl⟩
abbrev main_v331 : Ref sig .tc := ⟨.hbm, 562, rfl⟩
abbrev main_v332 : Ref sig .tc := ⟨.hbm, 563, rfl⟩
abbrev main_v333 : Ref sig .tc := ⟨.hbm, 564, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc1_stg7_0 : Ref sig .tc := ⟨.vmem, 23, rfl⟩
abbrev cc1_stg7_1 : Ref sig .tc := ⟨.vmem, 24, rfl⟩
abbrev cc1_stg8_0 : Ref sig .tc := ⟨.vmem, 25, rfl⟩
abbrev cc1_stg8_1 : Ref sig .tc := ⟨.vmem, 26, rfl⟩
abbrev cc1_scratch0 : Ref sig .tc := ⟨.vmem, 27, rfl⟩
abbrev cc1_scratch1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg3_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem3_1 : DmaSem sig := 29

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x64x288 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S9x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x64x4864 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x64x4864 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x4864 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x64x576 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S9x4608 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x64x4096 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x64x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x64x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x64x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x64x4096 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S8x32x32x32x32_S8x32x32768 : S8x32x32x32x32.ShapeCasts S8x32x32768
  bcast_S1024_S1024x1_0 : S1024.BroadcastsInDim S1024x1 (![0] : Fin 1 → Fin S1024x1.rank)
  bcast_S256_S1x256_1 : S256.BroadcastsInDim S1x256 (![1] : Fin 1 → Fin S1x256.rank)
  bcast_S_S1x256 : S_.BroadcastsInDim S1x256 (![] : Fin 0 → Fin S1x256.rank)
  bcast_S1024x1_S1024x256_0_1 : S1024x1.BroadcastsInDim S1024x256 (![0, 1] : Fin 2 → Fin S1024x256.rank)
  bcast_S1x256_S1024x256_0_1 : S1x256.BroadcastsInDim S1024x256 (![0, 1] : Fin 2 → Fin S1024x256.rank)
  bcast_S_S4608 : S_.BroadcastsInDim S4608 (![] : Fin 0 → Fin S4608.rank)
  bcast_S4608_S1x4608_1 : S4608.BroadcastsInDim S1x4608 (![1] : Fin 1 → Fin S1x4608.rank)
  concatenates_S1x4608_S1x4608_S1x4608_S1x4608_S1x4608_S1x4608_S1x4608_S1x4608_S1x4608_S9x4608_d0 : Shape.Concatenates [S1x4608, S1x4608, S1x4608, S1x4608, S1x4608, S1x4608, S1x4608, S1x4608, S1x4608] S9x4608 0
  bcast_S_S4864 : S_.BroadcastsInDim S4864 (![] : Fin 0 → Fin S4864.rank)
  shapeCasts_S4864_S1x4864 : S4864.ShapeCasts S1x4864
  transposes_S64x32x3x3x3_S3x3x3x64x32_2_3_4_0_1 : S64x32x3x3x3.Transposes [2, 3, 4, 0, 1] S3x3x3x64x32
  shapeCasts_S3x3x3x64x32_S3x9x64x32 : S3x3x3x64x32.ShapeCasts S3x9x64x32
  transposes_S3x9x64x32_S3x64x9x32_0_2_1_3 : S3x9x64x32.Transposes [0, 2, 1, 3] S3x64x9x32
  shapeCasts_S3x64x9x32_S3x64x288 : S3x64x9x32.ShapeCasts S3x64x288
  bitsLt_bf16_f32 : FTy.bits .bf16 < FTy.bits .f32
  transposes_S64x64x3x3x3_S3x3x3x64x64_2_3_4_0_1 : S64x64x3x3x3.Transposes [2, 3, 4, 0, 1] S3x3x3x64x64
  shapeCasts_S3x3x3x64x64_S3x9x64x64 : S3x3x3x64x64.ShapeCasts S3x9x64x64
  transposes_S3x9x64x64_S3x64x9x64_0_2_1_3 : S3x9x64x64.Transposes [0, 2, 1, 3] S3x64x9x64
  shapeCasts_S3x64x9x64_S3x64x576 : S3x64x9x64.ShapeCasts S3x64x576
  inb_S1x32x32768_S1x32x2048_0_0_0 : ∀ a, (![0, 0, 0] : Fin 3 → Nat) a + S1x32x2048.size a ≤ S1x32x32768.size a
  h_S1x32x2048 : 0 < S1x32x2048.numel
  shapeCasts_S1x32x2048_S32x2048 : S1x32x2048.ShapeCasts S32x2048
  slices_S32x2048_o0_0_S32x1024 : S32x2048.Slices ![0, 0] S32x1024
  slices_S32x2048_o0_1024_S32x1024 : S32x2048.Slices ![0, 1024] S32x1024
  slices_S32x1024_o0_32_S32x992 : S32x1024.Slices ![0, 32] S32x992
  slices_S32x1024_o0_0_S32x32 : S32x1024.Slices ![0, 0] S32x32
  concatenates_S32x992_S32x32_S32x1024_d1 : Shape.Concatenates [S32x992, S32x32] S32x1024 1
  slices_S32x1024_o0_1_S32x1023 : S32x1024.Slices ![0, 1] S32x1023
  slices_S32x1024_o0_0_S32x1 : S32x1024.Slices ![0, 0] S32x1
  concatenates_S32x1023_S32x1_S32x1024_d1 : Shape.Concatenates [S32x1023, S32x1] S32x1024 1
  inb_S512x1024_S32x1024_0_0 : ∀ a, (![0, 0] : Fin 2 → Nat) a + S32x1024.size a ≤ S512x1024.size a
  h_S32x1024 : 0 < S32x1024.numel
  shapeCasts_S32x1024_S32x1024 : S32x1024.ShapeCasts S32x1024
  packedbf16_S512x1024_S32x1024_0_0 : (Rect.unit (s := S512x1024) ![0, 0] S32x1024.size inb_S512x1024_S32x1024_0_0).PackedRows (EltTy.packing .bf16)
  inb_S1x32x32768_S1x32x2048_0_0_2048 : ∀ a, (![0, 0, 2048] : Fin 3 → Nat) a + S1x32x2048.size a ≤ S1x32x32768.size a
  inb_S512x1024_S32x1024_32_0 : ∀ a, (![32, 0] : Fin 2 → Nat) a + S32x1024.size a ≤ S512x1024.size a
  packedbf16_S512x1024_S32x1024_32_0 : (Rect.unit (s := S512x1024) ![32, 0] S32x1024.size inb_S512x1024_S32x1024_32_0).PackedRows (EltTy.packing .bf16)
  inb_S1x32x32768_S1x32x2048_0_0_4096 : ∀ a, (![0, 0, 4096] : Fin 3 → Nat) a + S1x32x2048.size a ≤ S1x32x32768.size a
  inb_S512x1024_S32x1024_64_0 : ∀ a, (![64, 0] : Fin 2 → Nat) a + S32x1024.size a ≤ S512x1024.size a
  packedbf16_S512x1024_S32x1024_64_0 : (Rect.unit (s := S512x1024) ![64, 0] S32x1024.size inb_S512x1024_S32x1024_64_0).PackedRows (EltTy.packing .bf16)
  inb_S1x32x32768_S1x32x2048_0_0_6144 : ∀ a, (![0, 0, 6144] : Fin 3 → Nat) a + S1x32x2048.size a ≤ S1x32x32768.size a
  inb_S512x1024_S32x1024_96_0 : ∀ a, (![96, 0] : Fin 2 → Nat) a + S32x1024.size a ≤ S512x1024.size a
  packedbf16_S512x1024_S32x1024_96_0 : (Rect.unit (s := S512x1024) ![96, 0] S32x1024.size inb_S512x1024_S32x1024_96_0).PackedRows (EltTy.packing .bf16)
  inb_S1x32x32768_S1x32x2048_0_0_8192 : ∀ a, (![0, 0, 8192] : Fin 3 → Nat) a + S1x32x2048.size a ≤ S1x32x32768.size a
  inb_S512x1024_S32x1024_128_0 : ∀ a, (![128, 0] : Fin 2 → Nat) a + S32x1024.size a ≤ S512x1024.size a
  packedbf16_S512x1024_S32x1024_128_0 : (Rect.unit (s := S512x1024) ![128, 0] S32x1024.size inb_S512x1024_S32x1024_128_0).PackedRows (EltTy.packing .bf16)
  inb_S1x32x32768_S1x32x2048_0_0_10240 : ∀ a, (![0, 0, 10240] : Fin 3 → Nat) a + S1x32x2048.size a ≤ S1x32x32768.size a
  inb_S512x1024_S32x1024_160_0 : ∀ a, (![160, 0] : Fin 2 → Nat) a + S32x1024.size a ≤ S512x1024.size a
  packedbf16_S512x1024_S32x1024_160_0 : (Rect.unit (s := S512x1024) ![160, 0] S32x1024.size inb_S512x1024_S32x1024_160_0).PackedRows (EltTy.packing .bf16)
  inb_S1x32x32768_S1x32x2048_0_0_12288 : ∀ a, (![0, 0, 12288] : Fin 3 → Nat) a + S1x32x2048.size a ≤ S1x32x32768.size a
  inb_S512x1024_S32x1024_192_0 : ∀ a, (![192, 0] : Fin 2 → Nat) a + S32x1024.size a ≤ S512x1024.size a
  packedbf16_S512x1024_S32x1024_192_0 : (Rect.unit (s := S512x1024) ![192, 0] S32x1024.size inb_S512x1024_S32x1024_192_0).PackedRows (EltTy.packing .bf16)
  inb_S1x32x32768_S1x32x2048_0_0_14336 : ∀ a, (![0, 0, 14336] : Fin 3 → Nat) a + S1x32x2048.size a ≤ S1x32x32768.size a
  inb_S512x1024_S32x1024_224_0 : ∀ a, (![224, 0] : Fin 2 → Nat) a + S32x1024.size a ≤ S512x1024.size a
  packedbf16_S512x1024_S32x1024_224_0 : (Rect.unit (s := S512x1024) ![224, 0] S32x1024.size inb_S512x1024_S32x1024_224_0).PackedRows (EltTy.packing .bf16)
  inb_S1x32x32768_S1x32x2048_0_0_16384 : ∀ a, (![0, 0, 16384] : Fin 3 → Nat) a + S1x32x2048.size a ≤ S1x32x32768.size a
  inb_S512x1024_S32x1024_256_0 : ∀ a, (![256, 0] : Fin 2 → Nat) a + S32x1024.size a ≤ S512x1024.size a
  packedbf16_S512x1024_S32x1024_256_0 : (Rect.unit (s := S512x1024) ![256, 0] S32x1024.size inb_S512x1024_S32x1024_256_0).PackedRows (EltTy.packing .bf16)
  inb_S1x32x32768_S1x32x2048_0_0_18432 : ∀ a, (![0, 0, 18432] : Fin 3 → Nat) a + S1x32x2048.size a ≤ S1x32x32768.size a
  inb_S512x1024_S32x1024_288_0 : ∀ a, (![288, 0] : Fin 2 → Nat) a + S32x1024.size a ≤ S512x1024.size a
  packedbf16_S512x1024_S32x1024_288_0 : (Rect.unit (s := S512x1024) ![288, 0] S32x1024.size inb_S512x1024_S32x1024_288_0).PackedRows (EltTy.packing .bf16)
  inb_S1x32x32768_S1x32x2048_0_0_20480 : ∀ a, (![0, 0, 20480] : Fin 3 → Nat) a + S1x32x2048.size a ≤ S1x32x32768.size a
  inb_S512x1024_S32x1024_320_0 : ∀ a, (![320, 0] : Fin 2 → Nat) a + S32x1024.size a ≤ S512x1024.size a
  packedbf16_S512x1024_S32x1024_320_0 : (Rect.unit (s := S512x1024) ![320, 0] S32x1024.size inb_S512x1024_S32x1024_320_0).PackedRows (EltTy.packing .bf16)
  inb_S1x32x32768_S1x32x2048_0_0_22528 : ∀ a, (![0, 0, 22528] : Fin 3 → Nat) a + S1x32x2048.size a ≤ S1x32x32768.size a
  inb_S512x1024_S32x1024_352_0 : ∀ a, (![352, 0] : Fin 2 → Nat) a + S32x1024.size a ≤ S512x1024.size a
  packedbf16_S512x1024_S32x1024_352_0 : (Rect.unit (s := S512x1024) ![352, 0] S32x1024.size inb_S512x1024_S32x1024_352_0).PackedRows (EltTy.packing .bf16)
  inb_S1x32x32768_S1x32x2048_0_0_24576 : ∀ a, (![0, 0, 24576] : Fin 3 → Nat) a + S1x32x2048.size a ≤ S1x32x32768.size a
  inb_S512x1024_S32x1024_384_0 : ∀ a, (![384, 0] : Fin 2 → Nat) a + S32x1024.size a ≤ S512x1024.size a
  packedbf16_S512x1024_S32x1024_384_0 : (Rect.unit (s := S512x1024) ![384, 0] S32x1024.size inb_S512x1024_S32x1024_384_0).PackedRows (EltTy.packing .bf16)
  inb_S1x32x32768_S1x32x2048_0_0_26624 : ∀ a, (![0, 0, 26624] : Fin 3 → Nat) a + S1x32x2048.size a ≤ S1x32x32768.size a
  inb_S512x1024_S32x1024_416_0 : ∀ a, (![416, 0] : Fin 2 → Nat) a + S32x1024.size a ≤ S512x1024.size a
  packedbf16_S512x1024_S32x1024_416_0 : (Rect.unit (s := S512x1024) ![416, 0] S32x1024.size inb_S512x1024_S32x1024_416_0).PackedRows (EltTy.packing .bf16)
  inb_S1x32x32768_S1x32x2048_0_0_28672 : ∀ a, (![0, 0, 28672] : Fin 3 → Nat) a + S1x32x2048.size a ≤ S1x32x32768.size a
  inb_S512x1024_S32x1024_448_0 : ∀ a, (![448, 0] : Fin 2 → Nat) a + S32x1024.size a ≤ S512x1024.size a
  packedbf16_S512x1024_S32x1024_448_0 : (Rect.unit (s := S512x1024) ![448, 0] S32x1024.size inb_S512x1024_S32x1024_448_0).PackedRows (EltTy.packing .bf16)
  inb_S1x32x32768_S1x32x2048_0_0_30720 : ∀ a, (![0, 0, 30720] : Fin 3 → Nat) a + S1x32x2048.size a ≤ S1x32x32768.size a
  inb_S512x1024_S32x1024_480_0 : ∀ a, (![480, 0] : Fin 2 → Nat) a + S32x1024.size a ≤ S512x1024.size a
  packedbf16_S512x1024_S32x1024_480_0 : (Rect.unit (s := S512x1024) ![480, 0] S32x1024.size inb_S512x1024_S32x1024_480_0).PackedRows (EltTy.packing .bf16)
  inb_S512x1024_S512x1024_0_0 : ∀ a, (![0, 0] : Fin 2 → Nat) a + S512x1024.size a ≤ S512x1024.size a
  h_S512x1024 : 0 < S512x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S32x4864_S32x384_0_0 : ∀ a, (![0, 0] : Fin 2 → Nat) a + S32x384.size a ≤ S32x4864.size a
  h_S32x384 : 0 < S32x384.numel
  shapeCasts_S32x384_S32x384 : S32x384.ShapeCasts S32x384
  packedbf16_S32x4864_S32x384_0_0 : (Rect.unit (s := S32x4864) ![0, 0] S32x384.size inb_S32x4864_S32x384_0_0).PackedRows (EltTy.packing .bf16)
  slices_S512x256_o0_0_S32x256 : S512x256.Slices ![0, 0] S32x256
  inb_S32x4864_S32x256_0_384 : ∀ a, (![0, 384] : Fin 2 → Nat) a + S32x256.size a ≤ S32x4864.size a
  h_S32x256 : 0 < S32x256.numel
  shapeCasts_S32x256_S32x256 : S32x256.ShapeCasts S32x256
  packedbf16_S32x4864_S32x256_0_384 : (Rect.unit (s := S32x4864) ![0, 384] S32x256.size inb_S32x4864_S32x256_0_384).PackedRows (EltTy.packing .bf16)
  slices_S512x256_o32_0_S32x256 : S512x256.Slices ![32, 0] S32x256
  inb_S32x4864_S32x256_0_640 : ∀ a, (![0, 640] : Fin 2 → Nat) a + S32x256.size a ≤ S32x4864.size a
  packedbf16_S32x4864_S32x256_0_640 : (Rect.unit (s := S32x4864) ![0, 640] S32x256.size inb_S32x4864_S32x256_0_640).PackedRows (EltTy.packing .bf16)
  slices_S512x256_o64_0_S32x256 : S512x256.Slices ![64, 0] S32x256
  inb_S32x4864_S32x256_0_896 : ∀ a, (![0, 896] : Fin 2 → Nat) a + S32x256.size a ≤ S32x4864.size a
  packedbf16_S32x4864_S32x256_0_896 : (Rect.unit (s := S32x4864) ![0, 896] S32x256.size inb_S32x4864_S32x256_0_896).PackedRows (EltTy.packing .bf16)
  slices_S512x256_o96_0_S32x256 : S512x256.Slices ![96, 0] S32x256
  inb_S32x4864_S32x256_0_1152 : ∀ a, (![0, 1152] : Fin 2 → Nat) a + S32x256.size a ≤ S32x4864.size a
  packedbf16_S32x4864_S32x256_0_1152 : (Rect.unit (s := S32x4864) ![0, 1152] S32x256.size inb_S32x4864_S32x256_0_1152).PackedRows (EltTy.packing .bf16)
  slices_S512x256_o128_0_S32x256 : S512x256.Slices ![128, 0] S32x256
  inb_S32x4864_S32x256_0_1408 : ∀ a, (![0, 1408] : Fin 2 → Nat) a + S32x256.size a ≤ S32x4864.size a
  packedbf16_S32x4864_S32x256_0_1408 : (Rect.unit (s := S32x4864) ![0, 1408] S32x256.size inb_S32x4864_S32x256_0_1408).PackedRows (EltTy.packing .bf16)
  slices_S512x256_o160_0_S32x256 : S512x256.Slices ![160, 0] S32x256
  inb_S32x4864_S32x256_0_1664 : ∀ a, (![0, 1664] : Fin 2 → Nat) a + S32x256.size a ≤ S32x4864.size a
  packedbf16_S32x4864_S32x256_0_1664 : (Rect.unit (s := S32x4864) ![0, 1664] S32x256.size inb_S32x4864_S32x256_0_1664).PackedRows (EltTy.packing .bf16)
  slices_S512x256_o192_0_S32x256 : S512x256.Slices ![192, 0] S32x256
  inb_S32x4864_S32x256_0_1920 : ∀ a, (![0, 1920] : Fin 2 → Nat) a + S32x256.size a ≤ S32x4864.size a
  packedbf16_S32x4864_S32x256_0_1920 : (Rect.unit (s := S32x4864) ![0, 1920] S32x256.size inb_S32x4864_S32x256_0_1920).PackedRows (EltTy.packing .bf16)
  slices_S512x256_o224_0_S32x256 : S512x256.Slices ![224, 0] S32x256
  inb_S32x4864_S32x256_0_2176 : ∀ a, (![0, 2176] : Fin 2 → Nat) a + S32x256.size a ≤ S32x4864.size a
  packedbf16_S32x4864_S32x256_0_2176 : (Rect.unit (s := S32x4864) ![0, 2176] S32x256.size inb_S32x4864_S32x256_0_2176).PackedRows (EltTy.packing .bf16)
  slices_S512x256_o256_0_S32x256 : S512x256.Slices ![256, 0] S32x256
  inb_S32x4864_S32x256_0_2432 : ∀ a, (![0, 2432] : Fin 2 → Nat) a + S32x256.size a ≤ S32x4864.size a
  packedbf16_S32x4864_S32x256_0_2432 : (Rect.unit (s := S32x4864) ![0, 2432] S32x256.size inb_S32x4864_S32x256_0_2432).PackedRows (EltTy.packing .bf16)
  slices_S512x256_o288_0_S32x256 : S512x256.Slices ![288, 0] S32x256
  inb_S32x4864_S32x256_0_2688 : ∀ a, (![0, 2688] : Fin 2 → Nat) a + S32x256.size a ≤ S32x4864.size a
  packedbf16_S32x4864_S32x256_0_2688 : (Rect.unit (s := S32x4864) ![0, 2688] S32x256.size inb_S32x4864_S32x256_0_2688).PackedRows (EltTy.packing .bf16)
  slices_S512x256_o320_0_S32x256 : S512x256.Slices ![320, 0] S32x256
  inb_S32x4864_S32x256_0_2944 : ∀ a, (![0, 2944] : Fin 2 → Nat) a + S32x256.size a ≤ S32x4864.size a
  packedbf16_S32x4864_S32x256_0_2944 : (Rect.unit (s := S32x4864) ![0, 2944] S32x256.size inb_S32x4864_S32x256_0_2944).PackedRows (EltTy.packing .bf16)
  slices_S512x256_o352_0_S32x256 : S512x256.Slices ![352, 0] S32x256
  inb_S32x4864_S32x256_0_3200 : ∀ a, (![0, 3200] : Fin 2 → Nat) a + S32x256.size a ≤ S32x4864.size a
  packedbf16_S32x4864_S32x256_0_3200 : (Rect.unit (s := S32x4864) ![0, 3200] S32x256.size inb_S32x4864_S32x256_0_3200).PackedRows (EltTy.packing .bf16)
  slices_S512x256_o384_0_S32x256 : S512x256.Slices ![384, 0] S32x256
  inb_S32x4864_S32x256_0_3456 : ∀ a, (![0, 3456] : Fin 2 → Nat) a + S32x256.size a ≤ S32x4864.size a
  packedbf16_S32x4864_S32x256_0_3456 : (Rect.unit (s := S32x4864) ![0, 3456] S32x256.size inb_S32x4864_S32x256_0_3456).PackedRows (EltTy.packing .bf16)
  slices_S512x256_o416_0_S32x256 : S512x256.Slices ![416, 0] S32x256
  inb_S32x4864_S32x256_0_3712 : ∀ a, (![0, 3712] : Fin 2 → Nat) a + S32x256.size a ≤ S32x4864.size a
  packedbf16_S32x4864_S32x256_0_3712 : (Rect.unit (s := S32x4864) ![0, 3712] S32x256.size inb_S32x4864_S32x256_0_3712).PackedRows (EltTy.packing .bf16)
  slices_S512x256_o448_0_S32x256 : S512x256.Slices ![448, 0] S32x256
  inb_S32x4864_S32x256_0_3968 : ∀ a, (![0, 3968] : Fin 2 → Nat) a + S32x256.size a ≤ S32x4864.size a
  packedbf16_S32x4864_S32x256_0_3968 : (Rect.unit (s := S32x4864) ![0, 3968] S32x256.size inb_S32x4864_S32x256_0_3968).PackedRows (EltTy.packing .bf16)
  slices_S512x256_o480_0_S32x256 : S512x256.Slices ![480, 0] S32x256
  inb_S32x4864_S32x256_0_4224 : ∀ a, (![0, 4224] : Fin 2 → Nat) a + S32x256.size a ≤ S32x4864.size a
  packedbf16_S32x4864_S32x256_0_4224 : (Rect.unit (s := S32x4864) ![0, 4224] S32x256.size inb_S32x4864_S32x256_0_4224).PackedRows (EltTy.packing .bf16)
  inb_S32x4864_S32x384_0_4480 : ∀ a, (![0, 4480] : Fin 2 → Nat) a + S32x384.size a ≤ S32x4864.size a
  packedbf16_S32x4864_S32x384_0_4480 : (Rect.unit (s := S32x4864) ![0, 4480] S32x384.size inb_S32x4864_S32x384_0_4480).PackedRows (EltTy.packing .bf16)
  inb_S32x4864_S32x4608_0_111 : ∀ a, (![0, 111] : Fin 2 → Nat) a + S32x4608.size a ≤ S32x4864.size a
  h_S32x4608 : 0 < S32x4608.numel
  inb_S9x4608_S1x4608_0_0 : ∀ a, (![0, 0] : Fin 2 → Nat) a + S1x4608.size a ≤ S9x4608.size a
  h_S1x4608 : 0 < S1x4608.numel
  shapeCasts_S1x4608_S1x4608 : S1x4608.ShapeCasts S1x4608
  broadcasts_S1x4608_S32x4608 : S1x4608.Broadcasts S32x4608
  inb_S288x4608_S32x4608_0_0 : ∀ a, (![0, 0] : Fin 2 → Nat) a + S32x4608.size a ≤ S288x4608.size a
  shapeCasts_S32x4608_S32x4608 : S32x4608.ShapeCasts S32x4608
  packedbf16_S288x4608_S32x4608_0_0 : (Rect.unit (s := S288x4608) ![0, 0] S32x4608.size inb_S288x4608_S32x4608_0_0).PackedRows (EltTy.packing .bf16)
  inb_S32x4864_S32x4608_0_112 : ∀ a, (![0, 112] : Fin 2 → Nat) a + S32x4608.size a ≤ S32x4864.size a
  inb_S9x4608_S1x4608_1_0 : ∀ a, (![1, 0] : Fin 2 → Nat) a + S1x4608.size a ≤ S9x4608.size a
  inb_S288x4608_S32x4608_32_0 : ∀ a, (![32, 0] : Fin 2 → Nat) a + S32x4608.size a ≤ S288x4608.size a
  packedbf16_S288x4608_S32x4608_32_0 : (Rect.unit (s := S288x4608) ![32, 0] S32x4608.size inb_S288x4608_S32x4608_32_0).PackedRows (EltTy.packing .bf16)
  inb_S32x4864_S32x4608_0_113 : ∀ a, (![0, 113] : Fin 2 → Nat) a + S32x4608.size a ≤ S32x4864.size a
  inb_S9x4608_S1x4608_2_0 : ∀ a, (![2, 0] : Fin 2 → Nat) a + S1x4608.size a ≤ S9x4608.size a
  inb_S288x4608_S32x4608_64_0 : ∀ a, (![64, 0] : Fin 2 → Nat) a + S32x4608.size a ≤ S288x4608.size a
  packedbf16_S288x4608_S32x4608_64_0 : (Rect.unit (s := S288x4608) ![64, 0] S32x4608.size inb_S288x4608_S32x4608_64_0).PackedRows (EltTy.packing .bf16)
  inb_S32x4864_S32x4608_0_127 : ∀ a, (![0, 127] : Fin 2 → Nat) a + S32x4608.size a ≤ S32x4864.size a
  inb_S9x4608_S1x4608_3_0 : ∀ a, (![3, 0] : Fin 2 → Nat) a + S1x4608.size a ≤ S9x4608.size a
  inb_S288x4608_S32x4608_96_0 : ∀ a, (![96, 0] : Fin 2 → Nat) a + S32x4608.size a ≤ S288x4608.size a
  packedbf16_S288x4608_S32x4608_96_0 : (Rect.unit (s := S288x4608) ![96, 0] S32x4608.size inb_S288x4608_S32x4608_96_0).PackedRows (EltTy.packing .bf16)
  inb_S32x4864_S32x4608_0_128 : ∀ a, (![0, 128] : Fin 2 → Nat) a + S32x4608.size a ≤ S32x4864.size a
  inb_S288x4608_S32x4608_128_0 : ∀ a, (![128, 0] : Fin 2 → Nat) a + S32x4608.size a ≤ S288x4608.size a
  packedbf16_S288x4608_S32x4608_128_0 : (Rect.unit (s := S288x4608) ![128, 0] S32x4608.size inb_S288x4608_S32x4608_128_0).PackedRows (EltTy.packing .bf16)
  inb_S32x4864_S32x4608_0_129 : ∀ a, (![0, 129] : Fin 2 → Nat) a + S32x4608.size a ≤ S32x4864.size a
  inb_S9x4608_S1x4608_5_0 : ∀ a, (![5, 0] : Fin 2 → Nat) a + S1x4608.size a ≤ S9x4608.size a
  inb_S288x4608_S32x4608_160_0 : ∀ a, (![160, 0] : Fin 2 → Nat) a + S32x4608.size a ≤ S288x4608.size a
  packedbf16_S288x4608_S32x4608_160_0 : (Rect.unit (s := S288x4608) ![160, 0] S32x4608.size inb_S288x4608_S32x4608_160_0).PackedRows (EltTy.packing .bf16)
  inb_S32x4864_S32x4608_0_143 : ∀ a, (![0, 143] : Fin 2 → Nat) a + S32x4608.size a ≤ S32x4864.size a
  inb_S9x4608_S1x4608_6_0 : ∀ a, (![6, 0] : Fin 2 → Nat) a + S1x4608.size a ≤ S9x4608.size a
  inb_S288x4608_S32x4608_192_0 : ∀ a, (![192, 0] : Fin 2 → Nat) a + S32x4608.size a ≤ S288x4608.size a
  packedbf16_S288x4608_S32x4608_192_0 : (Rect.unit (s := S288x4608) ![192, 0] S32x4608.size inb_S288x4608_S32x4608_192_0).PackedRows (EltTy.packing .bf16)
  inb_S32x4864_S32x4608_0_144 : ∀ a, (![0, 144] : Fin 2 → Nat) a + S32x4608.size a ≤ S32x4864.size a
  inb_S9x4608_S1x4608_7_0 : ∀ a, (![7, 0] : Fin 2 → Nat) a + S1x4608.size a ≤ S9x4608.size a
  inb_S288x4608_S32x4608_224_0 : ∀ a, (![224, 0] : Fin 2 → Nat) a + S32x4608.size a ≤ S288x4608.size a
  packedbf16_S288x4608_S32x4608_224_0 : (Rect.unit (s := S288x4608) ![224, 0] S32x4608.size inb_S288x4608_S32x4608_224_0).PackedRows (EltTy.packing .bf16)
  inb_S32x4864_S32x4608_0_145 : ∀ a, (![0, 145] : Fin 2 → Nat) a + S32x4608.size a ≤ S32x4864.size a
  inb_S9x4608_S1x4608_8_0 : ∀ a, (![8, 0] : Fin 2 → Nat) a + S1x4608.size a ≤ S9x4608.size a
  inb_S288x4608_S32x4608_256_0 : ∀ a, (![256, 0] : Fin 2 → Nat) a + S32x4608.size a ≤ S288x4608.size a
  packedbf16_S288x4608_S32x4608_256_0 : (Rect.unit (s := S288x4608) ![256, 0] S32x4608.size inb_S288x4608_S32x4608_256_0).PackedRows (EltTy.packing .bf16)
  inb_S3x64x288_S1x64x288_0_0_0 : ∀ a, (![0, 0, 0] : Fin 3 → Nat) a + S1x64x288.size a ≤ S3x64x288.size a
  h_S1x64x288 : 0 < S1x64x288.numel
  shapeCasts_S1x64x288_S64x288 : S1x64x288.ShapeCasts S64x288
  inb_S288x4608_S288x4096_0_0 : ∀ a, (![0, 0] : Fin 2 → Nat) a + S288x4096.size a ≤ S288x4608.size a
  h_S288x4096 : 0 < S288x4096.numel
  inb_S3x64x288_S1x64x288_1_0_0 : ∀ a, (![1, 0, 0] : Fin 3 → Nat) a + S1x64x288.size a ≤ S3x64x288.size a
  inb_S288x4608_S288x4096_0_256 : ∀ a, (![0, 256] : Fin 2 → Nat) a + S288x4096.size a ≤ S288x4608.size a
  inb_S3x64x288_S1x64x288_2_0_0 : ∀ a, (![2, 0, 0] : Fin 3 → Nat) a + S1x64x288.size a ≤ S3x64x288.size a
  inb_S288x4608_S288x4096_0_512 : ∀ a, (![0, 512] : Fin 2 → Nat) a + S288x4096.size a ≤ S288x4608.size a
  inb_S1x64x4864_S1x64x384_0_0_0 : ∀ a, (![0, 0, 0] : Fin 3 → Nat) a + S1x64x384.size a ≤ S1x64x4864.size a
  h_S1x64x384 : 0 < S1x64x384.numel
  shapeCasts_S1x64x384_S64x384 : S1x64x384.ShapeCasts S64x384
  shapeCasts_S64x384_S1x64x384 : S64x384.ShapeCasts S1x64x384
  packedbf16_S1x64x4864_S1x64x384_0_0_0 : (Rect.unit (s := S1x64x4864) ![0, 0, 0] S1x64x384.size inb_S1x64x4864_S1x64x384_0_0_0).PackedRows (EltTy.packing .bf16)
  inb_S1x64x4864_S1x64x4096_0_0_384 : ∀ a, (![0, 0, 384] : Fin 3 → Nat) a + S1x64x4096.size a ≤ S1x64x4864.size a
  h_S1x64x4096 : 0 < S1x64x4096.numel
  shapeCasts_S1x64x4096_S64x4096 : S1x64x4096.ShapeCasts S64x4096
  shapeCasts_S64x4096_S1x64x4096 : S64x4096.ShapeCasts S1x64x4096
  packedbf16_S1x64x4864_S1x64x4096_0_0_384 : (Rect.unit (s := S1x64x4864) ![0, 0, 384] S1x64x4096.size inb_S1x64x4864_S1x64x4096_0_0_384).PackedRows (EltTy.packing .bf16)
  inb_S1x64x4864_S1x64x384_0_0_4480 : ∀ a, (![0, 0, 4480] : Fin 3 → Nat) a + S1x64x384.size a ≤ S1x64x4864.size a
  packedbf16_S1x64x4864_S1x64x384_0_0_4480 : (Rect.unit (s := S1x64x4864) ![0, 0, 4480] S1x64x384.size inb_S1x64x4864_S1x64x384_0_0_4480).PackedRows (EltTy.packing .bf16)
  reduces_S64x4096_S64 : S64x4096.Reduces [1] S64
  shapeCasts_S64_S64x1 : S64.ShapeCasts S64x1
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  shapeCasts_S8x64x1_S8x64 : S8x64x1.ShapeCasts S8x64
  reducesTo_S8x64_S64_d0 : S8x64.ReducesTo [0] S64
  h_S_ : 0 < S_.numel
  bcast_S_S64 : S_.BroadcastsInDim S64 (![] : Fin 0 → Fin S64.rank)
  inb_S1x64x4864_S1x64x4864_0_0_0 : ∀ a, (![0, 0, 0] : Fin 3 → Nat) a + S1x64x4864.size a ≤ S1x64x4864.size a
  h_S1x64x4864 : 0 < S1x64x4864.numel
  shapeCasts_S1x64x4864_S64x4864 : S1x64x4864.ShapeCasts S64x4864
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4864 : S64x1.Broadcasts S64x4864
  inb_S1x4864_S1x4864_0_0 : ∀ a, (![0, 0] : Fin 2 → Nat) a + S1x4864.size a ≤ S1x4864.size a
  h_S1x4864 : 0 < S1x4864.numel
  shapeCasts_S1x4864_S1x4864 : S1x4864.ShapeCasts S1x4864
  broadcasts_S1x4864_S64x4864 : S1x4864.Broadcasts S64x4864
  inb_S64x4864_S64x4864_0_0 : ∀ a, (![0, 0] : Fin 2 → Nat) a + S64x4864.size a ≤ S64x4864.size a
  h_S64x4864 : 0 < S64x4864.numel
  shapeCasts_S64x4864_S64x4864 : S64x4864.ShapeCasts S64x4864
  packedbf16_S64x4864_S64x4864_0_0 : (Rect.unit (s := S64x4864) ![0, 0] S64x4864.size inb_S64x4864_S64x4864_0_0).PackedRows (EltTy.packing .bf16)
  inb_S64x4864_S64x4608_0_111 : ∀ a, (![0, 111] : Fin 2 → Nat) a + S64x4608.size a ≤ S64x4864.size a
  h_S64x4608 : 0 < S64x4608.numel
  broadcasts_S1x4608_S64x4608 : S1x4608.Broadcasts S64x4608
  inb_S576x4608_S64x4608_0_0 : ∀ a, (![0, 0] : Fin 2 → Nat) a + S64x4608.size a ≤ S576x4608.size a
  shapeCasts_S64x4608_S64x4608 : S64x4608.ShapeCasts S64x4608
  packedbf16_S576x4608_S64x4608_0_0 : (Rect.unit (s := S576x4608) ![0, 0] S64x4608.size inb_S576x4608_S64x4608_0_0).PackedRows (EltTy.packing .bf16)
  inb_S64x4864_S64x4608_0_112 : ∀ a, (![0, 112] : Fin 2 → Nat) a + S64x4608.size a ≤ S64x4864.size a
  inb_S576x4608_S64x4608_64_0 : ∀ a, (![64, 0] : Fin 2 → Nat) a + S64x4608.size a ≤ S576x4608.size a
  packedbf16_S576x4608_S64x4608_64_0 : (Rect.unit (s := S576x4608) ![64, 0] S64x4608.size inb_S576x4608_S64x4608_64_0).PackedRows (EltTy.packing .bf16)
  inb_S64x4864_S64x4608_0_113 : ∀ a, (![0, 113] : Fin 2 → Nat) a + S64x4608.size a ≤ S64x4864.size a
  inb_S576x4608_S64x4608_128_0 : ∀ a, (![128, 0] : Fin 2 → Nat) a + S64x4608.size a ≤ S576x4608.size a
  packedbf16_S576x4608_S64x4608_128_0 : (Rect.unit (s := S576x4608) ![128, 0] S64x4608.size inb_S576x4608_S64x4608_128_0).PackedRows (EltTy.packing .bf16)
  inb_S64x4864_S64x4608_0_127 : ∀ a, (![0, 127] : Fin 2 → Nat) a + S64x4608.size a ≤ S64x4864.size a
  inb_S576x4608_S64x4608_192_0 : ∀ a, (![192, 0] : Fin 2 → Nat) a + S64x4608.size a ≤ S576x4608.size a
  packedbf16_S576x4608_S64x4608_192_0 : (Rect.unit (s := S576x4608) ![192, 0] S64x4608.size inb_S576x4608_S64x4608_192_0).PackedRows (EltTy.packing .bf16)
  inb_S64x4864_S64x4608_0_128 : ∀ a, (![0, 128] : Fin 2 → Nat) a + S64x4608.size a ≤ S64x4864.size a
  inb_S576x4608_S64x4608_256_0 : ∀ a, (![256, 0] : Fin 2 → Nat) a + S64x4608.size a ≤ S576x4608.size a
  packedbf16_S576x4608_S64x4608_256_0 : (Rect.unit (s := S576x4608) ![256, 0] S64x4608.size inb_S576x4608_S64x4608_256_0).PackedRows (EltTy.packing .bf16)
  inb_S64x4864_S64x4608_0_129 : ∀ a, (![0, 129] : Fin 2 → Nat) a + S64x4608.size a ≤ S64x4864.size a
  inb_S576x4608_S64x4608_320_0 : ∀ a, (![320, 0] : Fin 2 → Nat) a + S64x4608.size a ≤ S576x4608.size a
  packedbf16_S576x4608_S64x4608_320_0 : (Rect.unit (s := S576x4608) ![320, 0] S64x4608.size inb_S576x4608_S64x4608_320_0).PackedRows (EltTy.packing .bf16)
  inb_S64x4864_S64x4608_0_143 : ∀ a, (![0, 143] : Fin 2 → Nat) a + S64x4608.size a ≤ S64x4864.size a
  inb_S576x4608_S64x4608_384_0 : ∀ a, (![384, 0] : Fin 2 → Nat) a + S64x4608.size a ≤ S576x4608.size a
  packedbf16_S576x4608_S64x4608_384_0 : (Rect.unit (s := S576x4608) ![384, 0] S64x4608.size inb_S576x4608_S64x4608_384_0).PackedRows (EltTy.packing .bf16)
  inb_S64x4864_S64x4608_0_144 : ∀ a, (![0, 144] : Fin 2 → Nat) a + S64x4608.size a ≤ S64x4864.size a
  inb_S576x4608_S64x4608_448_0 : ∀ a, (![448, 0] : Fin 2 → Nat) a + S64x4608.size a ≤ S576x4608.size a
  packedbf16_S576x4608_S64x4608_448_0 : (Rect.unit (s := S576x4608) ![448, 0] S64x4608.size inb_S576x4608_S64x4608_448_0).PackedRows (EltTy.packing .bf16)
  inb_S64x4864_S64x4608_0_145 : ∀ a, (![0, 145] : Fin 2 → Nat) a + S64x4608.size a ≤ S64x4864.size a
  inb_S576x4608_S64x4608_512_0 : ∀ a, (![512, 0] : Fin 2 → Nat) a + S64x4608.size a ≤ S576x4608.size a
  packedbf16_S576x4608_S64x4608_512_0 : (Rect.unit (s := S576x4608) ![512, 0] S64x4608.size inb_S576x4608_S64x4608_512_0).PackedRows (EltTy.packing .bf16)
  inb_S3x64x576_S1x64x576_0_0_0 : ∀ a, (![0, 0, 0] : Fin 3 → Nat) a + S1x64x576.size a ≤ S3x64x576.size a
  h_S1x64x576 : 0 < S1x64x576.numel
  shapeCasts_S1x64x576_S64x576 : S1x64x576.ShapeCasts S64x576
  inb_S576x4608_S576x4096_0_0 : ∀ a, (![0, 0] : Fin 2 → Nat) a + S576x4096.size a ≤ S576x4608.size a
  h_S576x4096 : 0 < S576x4096.numel
  inb_S3x64x576_S1x64x576_1_0_0 : ∀ a, (![1, 0, 0] : Fin 3 → Nat) a + S1x64x576.size a ≤ S3x64x576.size a
  inb_S576x4608_S576x4096_0_256 : ∀ a, (![0, 256] : Fin 2 → Nat) a + S576x4096.size a ≤ S576x4608.size a
  inb_S3x64x576_S1x64x576_2_0_0 : ∀ a, (![2, 0, 0] : Fin 3 → Nat) a + S1x64x576.size a ≤ S3x64x576.size a
  inb_S576x4608_S576x4096_0_512 : ∀ a, (![0, 512] : Fin 2 → Nat) a + S576x4096.size a ≤ S576x4608.size a
  inb_S1x64x4096_S1x64x4096_0_0_0 : ∀ a, (![0, 0, 0] : Fin 3 → Nat) a + S1x64x4096.size a ≤ S1x64x4096.size a
  packedbf16_S1x64x4096_S1x64x4096_0_0_0 : (Rect.unit (s := S1x64x4096) ![0, 0, 0] S1x64x4096.size inb_S1x64x4096_S1x64x4096_0_0_0).PackedRows (EltTy.packing .bf16)
  broadcasts_S64x1_S64x4096 : S64x1.Broadcasts S64x4096
  shapeCasts_S8x64x4096_S8x64x16x16x16 : S8x64x4096.ShapeCasts S8x64x16x16x16
  dot_S512x1024_S1024x256_S512x256_1_0_0_1_n_n_wf : DotDims.WF S512x1024 S1024x256 S512x256 [1] [0] [0] [1] [] []
  dot_S64x288_S288x4096_S64x4096_1_0_0_1_n_n_wf : DotDims.WF S64x288 S288x4096 S64x4096 [1] [0] [0] [1] [] []
  dot_S64x576_S576x4096_S64x4096_1_0_0_1_n_n_wf : DotDims.WF S64x576 S576x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x32768.size a ≤ S8x32x32768.size a
  hwx0_0 : ∀ i : grid0.Coords, EltTy.bits .f32 = 32 ∨ (Rect.block (s := S8x32x32768) S1x32x32768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S1024x256.size a
  hwx0_1 : ∀ i : grid0.Coords, EltTy.bits .bf16 = 32 ∨ (Rect.block (s := S1024x256) S1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x64x288.size a ≤ S3x64x288.size a
  hwx0_2 : ∀ i : grid0.Coords, EltTy.bits .bf16 = 32 ∨ (Rect.block (s := S3x64x288) S3x64x288.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x4608.size a ≤ S9x4608.size a
  hwx0_3 : ∀ i : grid0.Coords, EltTy.bits .bf16 = 32 ∨ (Rect.block (s := S9x4608) S9x4608.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x4864.size a ≤ S8x64x4864.size a
  hwx0_4 : ∀ i : grid0.Coords, EltTy.bits .bf16 = 32 ∨ (Rect.block (s := S8x64x4864) S1x64x4864.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1.size a ≤ S8x64x1.size a
  hwx0_5 : ∀ i : grid0.Coords, EltTy.bits .f32 = 32 ∨ (Rect.block (s := S8x64x1) S1x64x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x64x1.size a ≤ S8x64x1.size a
  hwx0_6 : ∀ i : grid0.Coords, EltTy.bits .f32 = 32 ∨ (Rect.block (s := S8x64x1) S1x64x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x64x4864.size a ≤ S8x64x4864.size a
  hwx1_0 : ∀ i : grid1.Coords, EltTy.bits .bf16 = 32 ∨ (Rect.block (s := S8x64x4864) S1x64x4864.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x1.size a ≤ S64x1.size a
  hwx1_1 : ∀ i : grid1.Coords, EltTy.bits .f32 = 32 ∨ (Rect.block (s := S64x1) S64x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x1.size a ≤ S64x1.size a
  hwx1_2 : ∀ i : grid1.Coords, EltTy.bits .f32 = 32 ∨ (Rect.block (s := S64x1) S64x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x4864.size a ≤ S1x4864.size a
  hwx1_3 : ∀ i : grid1.Coords, EltTy.bits .f32 = 32 ∨ (Rect.block (s := S1x4864) S1x4864.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x64x576.size a ≤ S3x64x576.size a
  hwx1_4 : ∀ i : grid1.Coords, EltTy.bits .bf16 = 32 ∨ (Rect.block (s := S3x64x576) S3x64x576.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S9x4608.size a ≤ S9x4608.size a
  hwx1_5 : ∀ i : grid1.Coords, EltTy.bits .bf16 = 32 ∨ (Rect.block (s := S9x4608) S9x4608.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x64x4096.size a ≤ S8x64x4096.size a
  hwx1_6 : ∀ i : grid1.Coords, EltTy.bits .bf16 = 32 ∨ (Rect.block (s := S8x64x4096) S1x64x4096.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x64x1.size a ≤ S8x64x1.size a
  hwx1_7 : ∀ i : grid1.Coords, EltTy.bits .f32 = 32 ∨ (Rect.block (s := S8x64x1) S1x64x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x64x1.size a ≤ S8x64x1.size a
  hwx1_8 : ∀ i : grid1.Coords, EltTy.bits .f32 = 32 ∨ (Rect.block (s := S8x64x1) S1x64x1.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x64x4096.size a ≤ S8x64x4096.size a
  hwx2_0 : ∀ i : grid2.Coords, EltTy.bits .bf16 = 32 ∨ (Rect.block (s := S8x64x4096) S1x64x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1.size a ≤ S64x1.size a
  hwx2_1 : ∀ i : grid2.Coords, EltTy.bits .f32 = 32 ∨ (Rect.block (s := S64x1) S64x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x64x4096.size a ≤ S8x64x4096.size a
  hwx2_3 : ∀ i : grid2.Coords, EltTy.bits .f32 = 32 ∨ (Rect.block (s := S8x64x4096) S1x64x4096.size (cc2_transform_3 i) (hinb2_3 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S64x288_S288x4096_S64x4096_1_0_0_1_n_n : DotDims S64x288 S288x4096 S64x4096 where
  lhsContracting := [1]
  rhsContracting := [0]
  lhsNonContracting := [0]
  rhsNonContracting := [1]
  lhsBatch := []
  rhsBatch := []
  wf := dot_S64x288_S288x4096_S64x4096_1_0_0_1_n_n_wf
def dot_S64x576_S576x4096_S64x4096_1_0_0_1_n_n : DotDims S64x576 S576x4096 S64x4096 where
  lhsContracting := [1]
  rhsContracting := [0]
  lhsNonContracting := [0]
  rhsNonContracting := [1]
  lhsBatch := []
  rhsBatch := []
  wf := dot_S64x576_S576x4096_S64x4096_1_0_0_1_n_n_wf

abbrev win0_0 : Pipeline.Window sig grid0 :=
  Pipeline.Window.ofSpec (Memref.whole main_v0) S1x32x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v288) S3x64x288.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v275) S9x4608.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v294_0) S1x64x4864.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v294_1) S1x64x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v294_2) S1x64x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v294_0) S1x64x4864.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v309) S64x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v312) S64x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v283) S1x4864.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v293) S3x64x576.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v275) S9x4608.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v313_0) S1x64x4096.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v313_1) S1x64x1.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v313_2) S1x64x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v313_0) S1x64x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v328) S64x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v331) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v332) S1x64x4096.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S8x32x32x32x32 : Shape := ⟨5, ![8, 32, 32, 32, 32]⟩
abbrev S64x32x3x3x3 : Shape := ⟨5, ![64, 32, 3, 3, 3]⟩
abbrev S64 : Shape := ⟨1, ![64]⟩
abbrev S64x64x3x3x3 : Shape := ⟨5, ![64, 64, 3, 3, 3]⟩
abbrev S256x16x2x16x2x16x2 : Shape := ⟨7, ![256, 16, 2, 16, 2, 16, 2]⟩
abbrev S256x16x16x16x1 : Shape := ⟨5, ![256, 16, 16, 16, 1]⟩
abbrev S1x16x2x16x2x16x2 : Shape := ⟨7, ![1, 16, 2, 16, 2, 16, 2]⟩
abbrev S1x16x16x16x1 : Shape := ⟨5, ![1, 16, 16, 16, 1]⟩
abbrev S1x1x1x16x1x16x2 : Shape := ⟨7, ![1, 1, 1, 16, 1, 16, 2]⟩
abbrev S16x16x2 : Shape := ⟨3, ![16, 16, 2]⟩
abbrev S16x16 : Shape := ⟨2, ![16, 16]⟩
abbrev S16x16x1 : Shape := ⟨3, ![16, 16, 1]⟩
abbrev S1x1x16x16x1 : Shape := ⟨5, ![1, 1, 16, 16, 1]⟩
abbrev S8x32x4096 : Shape := ⟨3, ![8, 32, 4096]⟩
abbrev S_ : Shape := ⟨0, ![]⟩
abbrev S8x32x4864 : Shape := ⟨3, ![8, 32, 4864]⟩
abbrev S3x3x3x64x32 : Shape := ⟨5, ![3, 3, 3, 64, 32]⟩
abbrev S27x64x32 : Shape := ⟨3, ![27, 64, 32]⟩
abbrev S64x27x32 : Shape := ⟨3, ![64, 27, 32]⟩
abbrev S64x864 : Shape := ⟨2, ![64, 864]⟩
abbrev S32x1 : Shape := ⟨2, ![32, 1]⟩
abbrev S4864 : Shape := ⟨1, ![4864]⟩
abbrev S1x4864 : Shape := ⟨2, ![1, 4864]⟩
abbrev S4096 : Shape := ⟨1, ![4096]⟩
abbrev S1x4096 : Shape := ⟨2, ![1, 4096]⟩
abbrev S9x4096 : Shape := ⟨2, ![9, 4096]⟩
abbrev S8x64x4864 : Shape := ⟨3, ![8, 64, 4864]⟩
abbrev S8x64x1 : Shape := ⟨3, ![8, 64, 1]⟩
abbrev S1x32x4864 : Shape := ⟨3, ![1, 32, 4864]⟩
abbrev S1x64x4864 : Shape := ⟨3, ![1, 64, 4864]⟩
abbrev S1x64x1 : Shape := ⟨3, ![1, 64, 1]⟩
abbrev S32x4864 : Shape := ⟨2, ![32, 4864]⟩
abbrev S864x4096 : Shape := ⟨2, ![864, 4096]⟩
abbrev S32x4096 : Shape := ⟨2, ![32, 4096]⟩
abbrev S64x4096 : Shape := ⟨2, ![64, 4096]⟩
abbrev S64x384 : Shape := ⟨2, ![64, 384]⟩
abbrev S1x64x384 : Shape := ⟨3, ![1, 64, 384]⟩
abbrev S1x64x4096 : Shape := ⟨3, ![1, 64, 4096]⟩
abbrev S64x1 : Shape := ⟨2, ![64, 1]⟩
abbrev S8x64 : Shape := ⟨2, ![8, 64]⟩
abbrev S3x3x3x64x64 : Shape := ⟨5, ![3, 3, 3, 64, 64]⟩
abbrev S27x64x64 : Shape := ⟨3, ![27, 64, 64]⟩
abbrev S64x27x64 : Shape := ⟨3, ![64, 27, 64]⟩
abbrev S64x1728 : Shape := ⟨2, ![64, 1728]⟩
abbrev S8x64x4096 : Shape := ⟨3, ![8, 64, 4096]⟩
abbrev S64x4864 : Shape := ⟨2, ![64, 4864]⟩
abbrev S1728x4096 : Shape := ⟨2, ![1728, 4096]⟩
abbrev S8x64x16x16x16 : Shape := ⟨5, ![8, 64, 16, 16, 16]⟩

abbrev nBuf : Space → Nat
  | .hbm => 1039
  | .vmem => 40
  | .smem => 0
  | _ => 0

abbrev hbmTy0_0 (i : Nat) : BufTy := match i % 128 with
  | 0 => ⟨S8x32x32x32x32, .f32⟩
  | 1 => ⟨S64x32x3x3x3, .f32⟩
  | 2 => ⟨S64, .f32⟩
  | 3 => ⟨S64, .f32⟩
  | 4 => ⟨S64x64x3x3x3, .f32⟩
  | 5 => ⟨S64, .f32⟩
  | 6 => ⟨S64, .f32⟩
  | 7 => ⟨S256x16x2x16x2x16x2, .f32⟩
  | 8 => ⟨S256x16x16x16x1, .f32⟩
  | 9 => ⟨S8x32x4096, .f32⟩
  | 10 => ⟨S_, .i32⟩
  | 11 => ⟨S_, .f32⟩
  | 12 => ⟨S8x32x4864, .f32⟩
  | 13 => ⟨S3x3x3x64x32, .f32⟩
  | 14 => ⟨S27x64x32, .f32⟩
  | 15 => ⟨S_, .i32⟩
  | 16 => ⟨S_, .f32⟩
  | 17 => ⟨S27x64x32, .f32⟩
  | 18 => ⟨S64x27x32, .f32⟩
  | 19 => ⟨S64x864, .f32⟩
  | 20 => ⟨S_, .f32⟩
  | 21 => ⟨S32x1, .f32⟩
  | 22 => ⟨S_, .f32⟩
  | 23 => ⟨S32x1, .f32⟩
  | 24 => ⟨S4864, .i32⟩
  | 25 => ⟨S_, .i32⟩
  | 26 => ⟨S4864, .i32⟩
  | 27 => ⟨S4864, .i1⟩
  | 28 => ⟨S_, .i32⟩
  | 29 => ⟨S4864, .i32⟩
  | 30 => ⟨S4864, .i1⟩
  | 31 => ⟨S4864, .i1⟩
  | 32 => ⟨S4864, .f32⟩
  | 33 => ⟨S1x4864, .f32⟩
  | 34 => ⟨S4096, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S4096, .i32⟩
  | 42 => ⟨S4096, .i32⟩
  | 43 => ⟨S_, .i32⟩
  | 44 => ⟨S4096, .i32⟩
  | 45 => ⟨S4096, .i1⟩
  | 46 => ⟨S_, .i32⟩
  | 47 => ⟨S4096, .i32⟩
  | 48 => ⟨S4096, .i1⟩
  | 49 => ⟨S_, .i32⟩
  | 50 => ⟨S_, .i1⟩
  | 51 => ⟨S4096, .i1⟩
  | 52 => ⟨S4096, .i1⟩
  | 53 => ⟨S4096, .i1⟩
  | 54 => ⟨S4096, .i32⟩
  | 55 => ⟨S4096, .i32⟩
  | 56 => ⟨S4096, .i32⟩
  | 57 => ⟨S_, .i32⟩
  | 58 => ⟨S_, .i32⟩
  | 59 => ⟨S4096, .i32⟩
  | 60 => ⟨S4096, .i32⟩
  | 61 => ⟨S4096, .i32⟩
  | 62 => ⟨S_, .i32⟩
  | 63 => ⟨S4096, .i32⟩
  | 64 => ⟨S4096, .i1⟩
  | 65 => ⟨S4096, .i32⟩
  | 66 => ⟨S4096, .i32⟩
  | 67 => ⟨S_, .i32⟩
  | 68 => ⟨S4096, .i32⟩
  | 69 => ⟨S4096, .i1⟩
  | 70 => ⟨S4096, .i1⟩
  | 71 => ⟨S_, .i32⟩
  | 72 => ⟨S4096, .i32⟩
  | 73 => ⟨S4096, .i32⟩
  | 74 => ⟨S4096, .i32⟩
  | 75 => ⟨S_, .i32⟩
  | 76 => ⟨S_, .i32⟩
  | 77 => ⟨S_, .i32⟩
  | 78 => ⟨S_, .i1⟩
  | 79 => ⟨S_, .i32⟩
  | 80 => ⟨S_, .i32⟩
  | 81 => ⟨S4096, .i32⟩
  | 82 => ⟨S4096, .i32⟩
  | 83 => ⟨S_, .i32⟩
  | 84 => ⟨S4096, .i32⟩
  | 85 => ⟨S4096, .i1⟩
  | 86 => ⟨S_, .i32⟩
  | 87 => ⟨S4096, .i32⟩
  | 88 => ⟨S4096, .i1⟩
  | 89 => ⟨S_, .i32⟩
  | 90 => ⟨S_, .i1⟩
  | 91 => ⟨S4096, .i1⟩
  | 92 => ⟨S4096, .i1⟩
  | 93 => ⟨S4096, .i1⟩
  | 94 => ⟨S4096, .i32⟩
  | 95 => ⟨S4096, .i32⟩
  | 96 => ⟨S4096, .i32⟩
  | 97 => ⟨S_, .i32⟩
  | 98 => ⟨S4096, .i32⟩
  | 99 => ⟨S4096, .i32⟩
  | 100 => ⟨S_, .i32⟩
  | 101 => ⟨S4096, .i32⟩
  | 102 => ⟨S4096, .i32⟩
  | 103 => ⟨S_, .i32⟩
  | 104 => ⟨S4096, .i32⟩
  | 105 => ⟨S4096, .i1⟩
  | 106 => ⟨S_, .i32⟩
  | 107 => ⟨S4096, .i32⟩
  | 108 => ⟨S4096, .i32⟩
  | 109 => ⟨S_, .i32⟩
  | 110 => ⟨S4096, .i32⟩
  | 111 => ⟨S4096, .i32⟩
  | 112 => ⟨S_, .i32⟩
  | 113 => ⟨S4096, .i32⟩
  | 114 => ⟨S4096, .i1⟩
  | 115 => ⟨S4096, .i1⟩
  | 116 => ⟨S_, .i32⟩
  | 117 => ⟨S4096, .i32⟩
  | 118 => ⟨S4096, .i32⟩
  | 119 => ⟨S_, .i32⟩
  | 120 => ⟨S4096, .i32⟩
  | 121 => ⟨S4096, .i32⟩
  | 122 => ⟨S_, .i32⟩
  | 123 => ⟨S4096, .i32⟩
  | 124 => ⟨S4096, .i1⟩
  | 125 => ⟨S4096, .i1⟩
  | 126 => ⟨S_, .i32⟩
  | 127 => ⟨S4096, .i32⟩
  | _ => ⟨S8x32x32x32x32, .f32⟩

abbrev hbmTy0_1 (i : Nat) : BufTy := match i % 128 with
  | 0 => ⟨S4096, .i32⟩
  | 1 => ⟨S_, .i32⟩
  | 2 => ⟨S4096, .i32⟩
  | 3 => ⟨S4096, .i32⟩
  | 4 => ⟨S_, .i32⟩
  | 5 => ⟨S4096, .i32⟩
  | 6 => ⟨S4096, .i1⟩
  | 7 => ⟨S4096, .i1⟩
  | 8 => ⟨S_, .i32⟩
  | 9 => ⟨S4096, .i32⟩
  | 10 => ⟨S4096, .i1⟩
  | 11 => ⟨S4096, .i1⟩
  | 12 => ⟨S_, .i32⟩
  | 13 => ⟨S4096, .i32⟩
  | 14 => ⟨S4096, .i32⟩
  | 15 => ⟨S_, .i32⟩
  | 16 => ⟨S4096, .i32⟩
  | 17 => ⟨S4096, .i32⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i1⟩
  | 30 => ⟨S4096, .i1⟩
  | 31 => ⟨S_, .i32⟩
  | 32 => ⟨S4096, .i32⟩
  | 33 => ⟨S4096, .i32⟩
  | 34 => ⟨S_, .i32⟩
  | 35 => ⟨S4096, .i32⟩
  | 36 => ⟨S4096, .i32⟩
  | 37 => ⟨S_, .i32⟩
  | 38 => ⟨S4096, .i32⟩
  | 39 => ⟨S4096, .i1⟩
  | 40 => ⟨S4096, .i1⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S_, .i32⟩
  | 48 => ⟨S4096, .i32⟩
  | 49 => ⟨S4096, .i1⟩
  | 50 => ⟨S4096, .i1⟩
  | 51 => ⟨S_, .i32⟩
  | 52 => ⟨S4096, .i32⟩
  | 53 => ⟨S4096, .i1⟩
  | 54 => ⟨S4096, .i1⟩
  | 55 => ⟨S_, .i32⟩
  | 56 => ⟨S4096, .i32⟩
  | 57 => ⟨S4096, .i32⟩
  | 58 => ⟨S_, .i32⟩
  | 59 => ⟨S4096, .i32⟩
  | 60 => ⟨S4096, .i32⟩
  | 61 => ⟨S_, .i32⟩
  | 62 => ⟨S4096, .i32⟩
  | 63 => ⟨S4096, .i1⟩
  | 64 => ⟨S_, .i32⟩
  | 65 => ⟨S4096, .i32⟩
  | 66 => ⟨S4096, .i32⟩
  | 67 => ⟨S_, .i32⟩
  | 68 => ⟨S4096, .i32⟩
  | 69 => ⟨S4096, .i32⟩
  | 70 => ⟨S_, .i32⟩
  | 71 => ⟨S4096, .i32⟩
  | 72 => ⟨S4096, .i1⟩
  | 73 => ⟨S4096, .i1⟩
  | 74 => ⟨S_, .i32⟩
  | 75 => ⟨S4096, .i32⟩
  | 76 => ⟨S4096, .i32⟩
  | 77 => ⟨S_, .i32⟩
  | 78 => ⟨S4096, .i32⟩
  | 79 => ⟨S4096, .i32⟩
  | 80 => ⟨S_, .i32⟩
  | 81 => ⟨S4096, .i32⟩
  | 82 => ⟨S4096, .i1⟩
  | 83 => ⟨S4096, .i1⟩
  | 84 => ⟨S_, .i32⟩
  | 85 => ⟨S4096, .i32⟩
  | 86 => ⟨S4096, .i32⟩
  | 87 => ⟨S_, .i32⟩
  | 88 => ⟨S4096, .i32⟩
  | 89 => ⟨S4096, .i32⟩
  | 90 => ⟨S_, .i32⟩
  | 91 => ⟨S4096, .i32⟩
  | 92 => ⟨S4096, .i1⟩
  | 93 => ⟨S4096, .i1⟩
  | 94 => ⟨S_, .i32⟩
  | 95 => ⟨S4096, .i32⟩
  | 96 => ⟨S4096, .i1⟩
  | 97 => ⟨S4096, .i1⟩
  | 98 => ⟨S_, .i32⟩
  | 99 => ⟨S4096, .i32⟩
  | 100 => ⟨S4096, .i32⟩
  | 101 => ⟨S_, .i32⟩
  | 102 => ⟨S4096, .i32⟩
  | 103 => ⟨S4096, .i32⟩
  | 104 => ⟨S_, .i32⟩
  | 105 => ⟨S4096, .i32⟩
  | 106 => ⟨S4096, .i1⟩
  | 107 => ⟨S_, .i32⟩
  | 108 => ⟨S4096, .i32⟩
  | 109 => ⟨S4096, .i32⟩
  | 110 => ⟨S_, .i32⟩
  | 111 => ⟨S4096, .i32⟩
  | 112 => ⟨S4096, .i32⟩
  | 113 => ⟨S_, .i32⟩
  | 114 => ⟨S4096, .i32⟩
  | 115 => ⟨S4096, .i1⟩
  | 116 => ⟨S4096, .i1⟩
  | 117 => ⟨S_, .i32⟩
  | 118 => ⟨S4096, .i32⟩
  | 119 => ⟨S4096, .i32⟩
  | 120 => ⟨S_, .i32⟩
  | 121 => ⟨S4096, .i32⟩
  | 122 => ⟨S4096, .i32⟩
  | 123 => ⟨S_, .i32⟩
  | 124 => ⟨S4096, .i32⟩
  | 125 => ⟨S4096, .i1⟩
  | 126 => ⟨S4096, .i1⟩
  | 127 => ⟨S_, .i32⟩
  | _ => ⟨S8x32x32x32x32, .f32⟩

abbrev hbmTy0_2 (i : Nat) : BufTy := match i % 128 with
  | 0 => ⟨S4096, .i32⟩
  | 1 => ⟨S4096, .i32⟩
  | 2 => ⟨S_, .i32⟩
  | 3 => ⟨S4096, .i32⟩
  | 4 => ⟨S4096, .i32⟩
  | 5 => ⟨S_, .i32⟩
  | 6 => ⟨S4096, .i32⟩
  | 7 => ⟨S4096, .i1⟩
  | 8 => ⟨S4096, .i1⟩
  | 9 => ⟨S_, .i32⟩
  | 10 => ⟨S4096, .i32⟩
  | 11 => ⟨S4096, .i1⟩
  | 12 => ⟨S4096, .i1⟩
  | 13 => ⟨S_, .i32⟩
  | 14 => ⟨S4096, .i32⟩
  | 15 => ⟨S4096, .i32⟩
  | 16 => ⟨S_, .i32⟩
  | 17 => ⟨S4096, .i32⟩
  | 18 => ⟨S4096, .i32⟩
  | 19 => ⟨S_, .i32⟩
  | 20 => ⟨S4096, .i32⟩
  | 21 => ⟨S4096, .i1⟩
  | 22 => ⟨S_, .i32⟩
  | 23 => ⟨S4096, .i32⟩
  | 24 => ⟨S4096, .i32⟩
  | 25 => ⟨S_, .i32⟩
  | 26 => ⟨S4096, .i32⟩
  | 27 => ⟨S4096, .i32⟩
  | 28 => ⟨S_, .i32⟩
  | 29 => ⟨S4096, .i32⟩
  | 30 => ⟨S4096, .i1⟩
  | 31 => ⟨S4096, .i1⟩
  | 32 => ⟨S_, .i32⟩
  | 33 => ⟨S4096, .i32⟩
  | 34 => ⟨S4096, .i32⟩
  | 35 => ⟨S_, .i32⟩
  | 36 => ⟨S4096, .i32⟩
  | 37 => ⟨S4096, .i32⟩
  | 38 => ⟨S_, .i32⟩
  | 39 => ⟨S4096, .i32⟩
  | 40 => ⟨S4096, .i1⟩
  | 41 => ⟨S4096, .i1⟩
  | 42 => ⟨S_, .i32⟩
  | 43 => ⟨S4096, .i32⟩
  | 44 => ⟨S4096, .i32⟩
  | 45 => ⟨S_, .i32⟩
  | 46 => ⟨S4096, .i32⟩
  | 47 => ⟨S4096, .i32⟩
  | 48 => ⟨S_, .i32⟩
  | 49 => ⟨S4096, .i32⟩
  | 50 => ⟨S4096, .i1⟩
  | 51 => ⟨S4096, .i1⟩
  | 52 => ⟨S_, .i32⟩
  | 53 => ⟨S4096, .i32⟩
  | 54 => ⟨S4096, .i1⟩
  | 55 => ⟨S4096, .i1⟩
  | 56 => ⟨S_, .i32⟩
  | 57 => ⟨S4096, .i32⟩
  | 58 => ⟨S4096, .i32⟩
  | 59 => ⟨S_, .i32⟩
  | 60 => ⟨S4096, .i32⟩
  | 61 => ⟨S4096, .i32⟩
  | 62 => ⟨S_, .i32⟩
  | 63 => ⟨S4096, .i32⟩
  | 64 => ⟨S4096, .i1⟩
  | 65 => ⟨S_, .i32⟩
  | 66 => ⟨S4096, .i32⟩
  | 67 => ⟨S4096, .i32⟩
  | 68 => ⟨S_, .i32⟩
  | 69 => ⟨S4096, .i32⟩
  | 70 => ⟨S4096, .i32⟩
  | 71 => ⟨S_, .i32⟩
  | 72 => ⟨S4096, .i32⟩
  | 73 => ⟨S4096, .i1⟩
  | 74 => ⟨S4096, .i1⟩
  | 75 => ⟨S_, .i32⟩
  | 76 => ⟨S4096, .i32⟩
  | 77 => ⟨S4096, .i32⟩
  | 78 => ⟨S_, .i32⟩
  | 79 => ⟨S4096, .i32⟩
  | 80 => ⟨S4096, .i32⟩
  | 81 => ⟨S_, .i32⟩
  | 82 => ⟨S4096, .i32⟩
  | 83 => ⟨S4096, .i1⟩
  | 84 => ⟨S4096, .i1⟩
  | 85 => ⟨S_, .i32⟩
  | 86 => ⟨S4096, .i32⟩
  | 87 => ⟨S4096, .i32⟩
  | 88 => ⟨S_, .i32⟩
  | 89 => ⟨S4096, .i32⟩
  | 90 => ⟨S4096, .i32⟩
  | 91 => ⟨S_, .i32⟩
  | 92 => ⟨S4096, .i32⟩
  | 93 => ⟨S4096, .i1⟩
  | 94 => ⟨S4096, .i1⟩
  | 95 => ⟨S_, .i32⟩
  | 96 => ⟨S4096, .i32⟩
  | 97 => ⟨S4096, .i1⟩
  | 98 => ⟨S4096, .i1⟩
  | 99 => ⟨S_, .i32⟩
  | 100 => ⟨S4096, .i32⟩
  | 101 => ⟨S4096, .i32⟩
  | 102 => ⟨S_, .i32⟩
  | 103 => ⟨S4096, .i32⟩
  | 104 => ⟨S4096, .i32⟩
  | 105 => ⟨S_, .i32⟩
  | 106 => ⟨S4096, .i32⟩
  | 107 => ⟨S4096, .i1⟩
  | 108 => ⟨S_, .i32⟩
  | 109 => ⟨S4096, .i32⟩
  | 110 => ⟨S4096, .i32⟩
  | 111 => ⟨S_, .i32⟩
  | 112 => ⟨S4096, .i32⟩
  | 113 => ⟨S4096, .i32⟩
  | 114 => ⟨S_, .i32⟩
  | 115 => ⟨S4096, .i32⟩
  | 116 => ⟨S4096, .i1⟩
  | 117 => ⟨S4096, .i1⟩
  | 118 => ⟨S_, .i32⟩
  | 119 => ⟨S4096, .i32⟩
  | 120 => ⟨S4096, .i32⟩
  | 121 => ⟨S_, .i32⟩
  | 122 => ⟨S4096, .i32⟩
  | 123 => ⟨S4096, .i32⟩
  | 124 => ⟨S_, .i32⟩
  | 125 => ⟨S4096, .i32⟩
  | 126 => ⟨S4096, .i1⟩
  | 127 => ⟨S4096, .i1⟩
  | _ => ⟨S8x32x32x32x32, .f32⟩

abbrev hbmTy0_3 (i : Nat) : BufTy := match i % 128 with
  | 0 => ⟨S_, .i32⟩
  | 1 => ⟨S4096, .i32⟩
  | 2 => ⟨S4096, .i32⟩
  | 3 => ⟨S_, .i32⟩
  | 4 => ⟨S4096, .i32⟩
  | 5 => ⟨S4096, .i32⟩
  | 6 => ⟨S_, .i32⟩
  | 7 => ⟨S4096, .i32⟩
  | 8 => ⟨S4096, .i1⟩
  | 9 => ⟨S4096, .i1⟩
  | 10 => ⟨S_, .i32⟩
  | 11 => ⟨S4096, .i32⟩
  | 12 => ⟨S4096, .i1⟩
  | 13 => ⟨S4096, .i1⟩
  | 14 => ⟨S_, .i32⟩
  | 15 => ⟨S4096, .i32⟩
  | 16 => ⟨S4096, .i32⟩
  | 17 => ⟨S_, .i32⟩
  | 18 => ⟨S4096, .i32⟩
  | 19 => ⟨S4096, .i32⟩
  | 20 => ⟨S_, .i32⟩
  | 21 => ⟨S4096, .i32⟩
  | 22 => ⟨S4096, .i1⟩
  | 23 => ⟨S_, .i32⟩
  | 24 => ⟨S4096, .i32⟩
  | 25 => ⟨S4096, .i32⟩
  | 26 => ⟨S_, .i32⟩
  | 27 => ⟨S4096, .i32⟩
  | 28 => ⟨S4096, .i32⟩
  | 29 => ⟨S_, .i32⟩
  | 30 => ⟨S4096, .i32⟩
  | 31 => ⟨S4096, .i1⟩
  | 32 => ⟨S4096, .i1⟩
  | 33 => ⟨S_, .i32⟩
  | 34 => ⟨S4096, .i32⟩
  | 35 => ⟨S4096, .i32⟩
  | 36 => ⟨S_, .i32⟩
  | 37 => ⟨S4096, .i32⟩
  | 38 => ⟨S4096, .i32⟩
  | 39 => ⟨S_, .i32⟩
  | 40 => ⟨S4096, .i32⟩
  | 41 => ⟨S4096, .i1⟩
  | 42 => ⟨S4096, .i1⟩
  | 43 => ⟨S_, .i32⟩
  | 44 => ⟨S4096, .i32⟩
  | 45 => ⟨S4096, .i32⟩
  | 46 => ⟨S_, .i32⟩
  | 47 => ⟨S4096, .i32⟩
  | 48 => ⟨S4096, .i32⟩
  | 49 => ⟨S_, .i32⟩
  | 50 => ⟨S4096, .i32⟩
  | 51 => ⟨S4096, .i1⟩
  | 52 => ⟨S4096, .i1⟩
  | 53 => ⟨S_, .i32⟩
  | 54 => ⟨S4096, .i32⟩
  | 55 => ⟨S4096, .i1⟩
  | 56 => ⟨S4096, .i1⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S_, .i32⟩
  | 64 => ⟨S4096, .i32⟩
  | 65 => ⟨S4096, .i1⟩
  | 66 => ⟨S_, .i32⟩
  | 67 => ⟨S4096, .i32⟩
  | 68 => ⟨S4096, .i32⟩
  | 69 => ⟨S_, .i32⟩
  | 70 => ⟨S4096, .i32⟩
  | 71 => ⟨S4096, .i32⟩
  | 72 => ⟨S_, .i32⟩
  | 73 => ⟨S4096, .i32⟩
  | 74 => ⟨S4096, .i1⟩
  | 75 => ⟨S4096, .i1⟩
  | 76 => ⟨S_, .i32⟩
  | 77 => ⟨S4096, .i32⟩
  | 78 => ⟨S4096, .i32⟩
  | 79 => ⟨S_, .i32⟩
  | 80 => ⟨S4096, .i32⟩
  | 81 => ⟨S4096, .i32⟩
  | 82 => ⟨S_, .i32⟩
  | 83 => ⟨S4096, .i32⟩
  | 84 => ⟨S4096, .i1⟩
  | 85 => ⟨S4096, .i1⟩
  | 86 => ⟨S_, .i32⟩
  | 87 => ⟨S4096, .i32⟩
  | 88 => ⟨S4096, .i32⟩
  | 89 => ⟨S_, .i32⟩
  | 90 => ⟨S4096, .i32⟩
  | 91 => ⟨S4096, .i32⟩
  | 92 => ⟨S_, .i32⟩
  | 93 => ⟨S4096, .i32⟩
  | 94 => ⟨S4096, .i1⟩
  | 95 => ⟨S4096, .i1⟩
  | 96 => ⟨S_, .i32⟩
  | 97 => ⟨S4096, .i32⟩
  | 98 => ⟨S4096, .i1⟩
  | 99 => ⟨S4096, .i1⟩
  | 100 => ⟨S1x4096, .i1⟩
  | 101 => ⟨S1x4096, .i1⟩
  | 102 => ⟨S1x4096, .i1⟩
  | 103 => ⟨S1x4096, .i1⟩
  | 104 => ⟨S1x4096, .i1⟩
  | 105 => ⟨S1x4096, .i1⟩
  | 106 => ⟨S1x4096, .i1⟩
  | 107 => ⟨S1x4096, .i1⟩
  | 108 => ⟨S1x4096, .i1⟩
  | 109 => ⟨S9x4096, .i1⟩
  | 110 => ⟨S9x4096, .f32⟩
  | 111 => ⟨S8x64x4864, .f32⟩
  | 112 => ⟨S8x64x1, .f32⟩
  | 113 => ⟨S8x64x1, .f32⟩
  | 114 => ⟨S8x64, .f32⟩
  | 115 => ⟨S_, .f32⟩
  | 116 => ⟨S64, .f32⟩
  | 117 => ⟨S8x64, .f32⟩
  | 118 => ⟨S_, .f32⟩
  | 119 => ⟨S64, .f32⟩
  | 120 => ⟨S_, .f32⟩
  | 121 => ⟨S64, .f32⟩
  | 122 => ⟨S64, .f32⟩
  | 123 => ⟨S_, .f32⟩
  | 124 => ⟨S64, .f32⟩
  | 125 => ⟨S64, .f32⟩
  | 126 => ⟨S64, .f32⟩
  | 127 => ⟨S64, .f32⟩
  | _ => ⟨S8x32x32x32x32, .f32⟩

abbrev hbmTy0_4 (i : Nat) : BufTy := match i % 128 with
  | 0 => ⟨S_, .f32⟩
  | 1 => ⟨S64, .f32⟩
  | 2 => ⟨S64, .f32⟩
  | 3 => ⟨S64, .f32⟩
  | 4 => ⟨S64, .f32⟩
  | 5 => ⟨S_, .i32⟩
  | 6 => ⟨S_, .f32⟩
  | 7 => ⟨S64, .f32⟩
  | 8 => ⟨S64x1, .f32⟩
  | 9 => ⟨S64, .f32⟩
  | 10 => ⟨S64, .f32⟩
  | 11 => ⟨S_, .i32⟩
  | 12 => ⟨S_, .f32⟩
  | 13 => ⟨S64, .f32⟩
  | 14 => ⟨S64x1, .f32⟩
  | 15 => ⟨S3x3x3x64x64, .f32⟩
  | 16 => ⟨S27x64x64, .f32⟩
  | 17 => ⟨S_, .i32⟩
  | 18 => ⟨S_, .f32⟩
  | 19 => ⟨S27x64x64, .f32⟩
  | 20 => ⟨S64x27x64, .f32⟩
  | 21 => ⟨S64x1728, .f32⟩
  | 22 => ⟨S4864, .i32⟩
  | 23 => ⟨S_, .i32⟩
  | 24 => ⟨S4864, .i32⟩
  | 25 => ⟨S4864, .i1⟩
  | 26 => ⟨S_, .i32⟩
  | 27 => ⟨S4864, .i32⟩
  | 28 => ⟨S4864, .i1⟩
  | 29 => ⟨S4864, .i1⟩
  | 30 => ⟨S4864, .f32⟩
  | 31 => ⟨S1x4864, .f32⟩
  | 32 => ⟨S4096, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S4096, .i32⟩
  | 40 => ⟨S4096, .i32⟩
  | 41 => ⟨S_, .i32⟩
  | 42 => ⟨S4096, .i32⟩
  | 43 => ⟨S4096, .i1⟩
  | 44 => ⟨S_, .i32⟩
  | 45 => ⟨S4096, .i32⟩
  | 46 => ⟨S4096, .i1⟩
  | 47 => ⟨S_, .i32⟩
  | 48 => ⟨S_, .i1⟩
  | 49 => ⟨S4096, .i1⟩
  | 50 => ⟨S4096, .i1⟩
  | 51 => ⟨S4096, .i1⟩
  | 52 => ⟨S4096, .i32⟩
  | 53 => ⟨S4096, .i32⟩
  | 54 => ⟨S4096, .i32⟩
  | 55 => ⟨S_, .i32⟩
  | 56 => ⟨S_, .i32⟩
  | 57 => ⟨S4096, .i32⟩
  | 58 => ⟨S4096, .i32⟩
  | 59 => ⟨S4096, .i32⟩
  | 60 => ⟨S_, .i32⟩
  | 61 => ⟨S4096, .i32⟩
  | 62 => ⟨S4096, .i1⟩
  | 63 => ⟨S4096, .i32⟩
  | 64 => ⟨S4096, .i32⟩
  | 65 => ⟨S_, .i32⟩
  | 66 => ⟨S4096, .i32⟩
  | 67 => ⟨S4096, .i1⟩
  | 68 => ⟨S4096, .i1⟩
  | 69 => ⟨S_, .i32⟩
  | 70 => ⟨S4096, .i32⟩
  | 71 => ⟨S4096, .i32⟩
  | 72 => ⟨S4096, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S4096, .i32⟩
  | 80 => ⟨S4096, .i32⟩
  | 81 => ⟨S_, .i32⟩
  | 82 => ⟨S4096, .i32⟩
  | 83 => ⟨S4096, .i1⟩
  | 84 => ⟨S_, .i32⟩
  | 85 => ⟨S4096, .i32⟩
  | 86 => ⟨S4096, .i1⟩
  | 87 => ⟨S_, .i32⟩
  | 88 => ⟨S_, .i1⟩
  | 89 => ⟨S4096, .i1⟩
  | 90 => ⟨S4096, .i1⟩
  | 91 => ⟨S4096, .i1⟩
  | 92 => ⟨S4096, .i32⟩
  | 93 => ⟨S4096, .i32⟩
  | 94 => ⟨S4096, .i32⟩
  | 95 => ⟨S_, .i32⟩
  | 96 => ⟨S4096, .i32⟩
  | 97 => ⟨S4096, .i32⟩
  | 98 => ⟨S_, .i32⟩
  | 99 => ⟨S4096, .i32⟩
  | 100 => ⟨S4096, .i32⟩
  | 101 => ⟨S_, .i32⟩
  | 102 => ⟨S4096, .i32⟩
  | 103 => ⟨S4096, .i1⟩
  | 104 => ⟨S_, .i32⟩
  | 105 => ⟨S4096, .i32⟩
  | 106 => ⟨S4096, .i32⟩
  | 107 => ⟨S_, .i32⟩
  | 108 => ⟨S4096, .i32⟩
  | 109 => ⟨S4096, .i32⟩
  | 110 => ⟨S_, .i32⟩
  | 111 => ⟨S4096, .i32⟩
  | 112 => ⟨S4096, .i1⟩
  | 113 => ⟨S4096, .i1⟩
  | 114 => ⟨S_, .i32⟩
  | 115 => ⟨S4096, .i32⟩
  | 116 => ⟨S4096, .i32⟩
  | 117 => ⟨S_, .i32⟩
  | 118 => ⟨S4096, .i32⟩
  | 119 => ⟨S4096, .i32⟩
  | 120 => ⟨S_, .i32⟩
  | 121 => ⟨S4096, .i32⟩
  | 122 => ⟨S4096, .i1⟩
  | 123 => ⟨S4096, .i1⟩
  | 124 => ⟨S_, .i32⟩
  | 125 => ⟨S4096, .i32⟩
  | 126 => ⟨S4096, .i32⟩
  | 127 => ⟨S_, .i32⟩
  | _ => ⟨S8x32x32x32x32, .f32⟩

abbrev hbmTy0_5 (i : Nat) : BufTy := match i % 128 with
  | 0 => ⟨S4096, .i32⟩
  | 1 => ⟨S4096, .i32⟩
  | 2 => ⟨S_, .i32⟩
  | 3 => ⟨S4096, .i32⟩
  | 4 => ⟨S4096, .i1⟩
  | 5 => ⟨S4096, .i1⟩
  | 6 => ⟨S_, .i32⟩
  | 7 => ⟨S4096, .i32⟩
  | 8 => ⟨S4096, .i1⟩
  | 9 => ⟨S4096, .i1⟩
  | 10 => ⟨S_, .i32⟩
  | 11 => ⟨S4096, .i32⟩
  | 12 => ⟨S4096, .i32⟩
  | 13 => ⟨S_, .i32⟩
  | 14 => ⟨S4096, .i32⟩
  | 15 => ⟨S4096, .i32⟩
  | 16 => ⟨S_, .i32⟩
  | 17 => ⟨S4096, .i32⟩
  | 18 => ⟨S4096, .i1⟩
  | 19 => ⟨S_, .i32⟩
  | 20 => ⟨S4096, .i32⟩
  | 21 => ⟨S4096, .i32⟩
  | 22 => ⟨S_, .i32⟩
  | 23 => ⟨S4096, .i32⟩
  | 24 => ⟨S4096, .i32⟩
  | 25 => ⟨S_, .i32⟩
  | 26 => ⟨S4096, .i32⟩
  | 27 => ⟨S4096, .i1⟩
  | 28 => ⟨S4096, .i1⟩
  | 29 => ⟨S_, .i32⟩
  | 30 => ⟨S4096, .i32⟩
  | 31 => ⟨S4096, .i32⟩
  | 32 => ⟨S_, .i32⟩
  | 33 => ⟨S4096, .i32⟩
  | 34 => ⟨S4096, .i32⟩
  | 35 => ⟨S_, .i32⟩
  | 36 => ⟨S4096, .i32⟩
  | 37 => ⟨S4096, .i1⟩
  | 38 => ⟨S4096, .i1⟩
  | 39 => ⟨S_, .i32⟩
  | 40 => ⟨S4096, .i32⟩
  | 41 => ⟨S4096, .i32⟩
  | 42 => ⟨S_, .i32⟩
  | 43 => ⟨S4096, .i32⟩
  | 44 => ⟨S4096, .i32⟩
  | 45 => ⟨S_, .i32⟩
  | 46 => ⟨S4096, .i32⟩
  | 47 => ⟨S4096, .i1⟩
  | 48 => ⟨S4096, .i1⟩
  | 49 => ⟨S_, .i32⟩
  | 50 => ⟨S4096, .i32⟩
  | 51 => ⟨S4096, .i1⟩
  | 52 => ⟨S4096, .i1⟩
  | 53 => ⟨S_, .i32⟩
  | 54 => ⟨S4096, .i32⟩
  | 55 => ⟨S4096, .i32⟩
  | 56 => ⟨S_, .i32⟩
  | 57 => ⟨S4096, .i32⟩
  | 58 => ⟨S4096, .i32⟩
  | 59 => ⟨S_, .i32⟩
  | 60 => ⟨S4096, .i32⟩
  | 61 => ⟨S4096, .i1⟩
  | 62 => ⟨S_, .i32⟩
  | 63 => ⟨S4096, .i32⟩
  | 64 => ⟨S4096, .i32⟩
  | 65 => ⟨S_, .i32⟩
  | 66 => ⟨S4096, .i32⟩
  | 67 => ⟨S4096, .i32⟩
  | 68 => ⟨S_, .i32⟩
  | 69 => ⟨S4096, .i32⟩
  | 70 => ⟨S4096, .i1⟩
  | 71 => ⟨S4096, .i1⟩
  | 72 => ⟨S_, .i32⟩
  | 73 => ⟨S4096, .i32⟩
  | 74 => ⟨S4096, .i32⟩
  | 75 => ⟨S_, .i32⟩
  | 76 => ⟨S4096, .i32⟩
  | 77 => ⟨S4096, .i32⟩
  | 78 => ⟨S_, .i32⟩
  | 79 => ⟨S4096, .i32⟩
  | 80 => ⟨S4096, .i1⟩
  | 81 => ⟨S4096, .i1⟩
  | 82 => ⟨S_, .i32⟩
  | 83 => ⟨S4096, .i32⟩
  | 84 => ⟨S4096, .i32⟩
  | 85 => ⟨S_, .i32⟩
  | 86 => ⟨S4096, .i32⟩
  | 87 => ⟨S4096, .i32⟩
  | 88 => ⟨S_, .i32⟩
  | 89 => ⟨S4096, .i32⟩
  | 90 => ⟨S4096, .i1⟩
  | 91 => ⟨S4096, .i1⟩
  | 92 => ⟨S_, .i32⟩
  | 93 => ⟨S4096, .i32⟩
  | 94 => ⟨S4096, .i1⟩
  | 95 => ⟨S4096, .i1⟩
  | 96 => ⟨S_, .i32⟩
  | 97 => ⟨S4096, .i32⟩
  | 98 => ⟨S4096, .i32⟩
  | 99 => ⟨S_, .i32⟩
  | 100 => ⟨S4096, .i32⟩
  | 101 => ⟨S4096, .i32⟩
  | 102 => ⟨S_, .i32⟩
  | 103 => ⟨S4096, .i32⟩
  | 104 => ⟨S4096, .i1⟩
  | 105 => ⟨S_, .i32⟩
  | 106 => ⟨S4096, .i32⟩
  | 107 => ⟨S4096, .i32⟩
  | 108 => ⟨S_, .i32⟩
  | 109 => ⟨S4096, .i32⟩
  | 110 => ⟨S4096, .i32⟩
  | 111 => ⟨S_, .i32⟩
  | 112 => ⟨S4096, .i32⟩
  | 113 => ⟨S4096, .i1⟩
  | 114 => ⟨S4096, .i1⟩
  | 115 => ⟨S_, .i32⟩
  | 116 => ⟨S4096, .i32⟩
  | 117 => ⟨S4096, .i32⟩
  | 118 => ⟨S_, .i32⟩
  | 119 => ⟨S4096, .i32⟩
  | 120 => ⟨S4096, .i32⟩
  | 121 => ⟨S_, .i32⟩
  | 122 => ⟨S4096, .i32⟩
  | 123 => ⟨S4096, .i1⟩
  | 124 => ⟨S4096, .i1⟩
  | 125 => ⟨S_, .i32⟩
  | 126 => ⟨S4096, .i32⟩
  | 127 => ⟨S4096, .i32⟩
  | _ => ⟨S8x32x32x32x32, .f32⟩

abbrev hbmTy0_6 (i : Nat) : BufTy := match i % 128 with
  | 0 => ⟨S_, .i32⟩
  | 1 => ⟨S4096, .i32⟩
  | 2 => ⟨S4096, .i32⟩
  | 3 => ⟨S_, .i32⟩
  | 4 => ⟨S4096, .i32⟩
  | 5 => ⟨S4096, .i1⟩
  | 6 => ⟨S4096, .i1⟩
  | 7 => ⟨S_, .i32⟩
  | 8 => ⟨S4096, .i32⟩
  | 9 => ⟨S4096, .i1⟩
  | 10 => ⟨S4096, .i1⟩
  | 11 => ⟨S_, .i32⟩
  | 12 => ⟨S4096, .i32⟩
  | 13 => ⟨S4096, .i32⟩
  | 14 => ⟨S_, .i32⟩
  | 15 => ⟨S4096, .i32⟩
  | 16 => ⟨S4096, .i32⟩
  | 17 => ⟨S_, .i32⟩
  | 18 => ⟨S4096, .i32⟩
  | 19 => ⟨S4096, .i1⟩
  | 20 => ⟨S_, .i32⟩
  | 21 => ⟨S4096, .i32⟩
  | 22 => ⟨S4096, .i32⟩
  | 23 => ⟨S_, .i32⟩
  | 24 => ⟨S4096, .i32⟩
  | 25 => ⟨S4096, .i32⟩
  | 26 => ⟨S_, .i32⟩
  | 27 => ⟨S4096, .i32⟩
  | 28 => ⟨S4096, .i1⟩
  | 29 => ⟨S4096, .i1⟩
  | 30 => ⟨S_, .i32⟩
  | 31 => ⟨S4096, .i32⟩
  | 32 => ⟨S4096, .i32⟩
  | 33 => ⟨S_, .i32⟩
  | 34 => ⟨S4096, .i32⟩
  | 35 => ⟨S4096, .i32⟩
  | 36 => ⟨S_, .i32⟩
  | 37 => ⟨S4096, .i32⟩
  | 38 => ⟨S4096, .i1⟩
  | 39 => ⟨S4096, .i1⟩
  | 40 => ⟨S_, .i32⟩
  | 41 => ⟨S4096, .i32⟩
  | 42 => ⟨S4096, .i32⟩
  | 43 => ⟨S_, .i32⟩
  | 44 => ⟨S4096, .i32⟩
  | 45 => ⟨S4096, .i32⟩
  | 46 => ⟨S_, .i32⟩
  | 47 => ⟨S4096, .i32⟩
  | 48 => ⟨S4096, .i1⟩
  | 49 => ⟨S4096, .i1⟩
  | 50 => ⟨S_, .i32⟩
  | 51 => ⟨S4096, .i32⟩
  | 52 => ⟨S4096, .i1⟩
  | 53 => ⟨S4096, .i1⟩
  | 54 => ⟨S_, .i32⟩
  | 55 => ⟨S4096, .i32⟩
  | 56 => ⟨S4096, .i32⟩
  | 57 => ⟨S_, .i32⟩
  | 58 => ⟨S4096, .i32⟩
  | 59 => ⟨S4096, .i32⟩
  | 60 => ⟨S_, .i32⟩
  | 61 => ⟨S4096, .i32⟩
  | 62 => ⟨S4096, .i1⟩
  | 63 => ⟨S_, .i32⟩
  | 64 => ⟨S4096, .i32⟩
  | 65 => ⟨S4096, .i32⟩
  | 66 => ⟨S_, .i32⟩
  | 67 => ⟨S4096, .i32⟩
  | 68 => ⟨S4096, .i32⟩
  | 69 => ⟨S_, .i32⟩
  | 70 => ⟨S4096, .i32⟩
  | 71 => ⟨S4096, .i1⟩
  | 72 => ⟨S4096, .i1⟩
  | 73 => ⟨S_, .i32⟩
  | 74 => ⟨S4096, .i32⟩
  | 75 => ⟨S4096, .i32⟩
  | 76 => ⟨S_, .i32⟩
  | 77 => ⟨S4096, .i32⟩
  | 78 => ⟨S4096, .i32⟩
  | 79 => ⟨S_, .i32⟩
  | 80 => ⟨S4096, .i32⟩
  | 81 => ⟨S4096, .i1⟩
  | 82 => ⟨S4096, .i1⟩
  | 83 => ⟨S_, .i32⟩
  | 84 => ⟨S4096, .i32⟩
  | 85 => ⟨S4096, .i32⟩
  | 86 => ⟨S_, .i32⟩
  | 87 => ⟨S4096, .i32⟩
  | 88 => ⟨S4096, .i32⟩
  | 89 => ⟨S_, .i32⟩
  | 90 => ⟨S4096, .i32⟩
  | 91 => ⟨S4096, .i1⟩
  | 92 => ⟨S4096, .i1⟩
  | 93 => ⟨S_, .i32⟩
  | 94 => ⟨S4096, .i32⟩
  | 95 => ⟨S4096, .i1⟩
  | 96 => ⟨S4096, .i1⟩
  | 97 => ⟨S_, .i32⟩
  | 98 => ⟨S4096, .i32⟩
  | 99 => ⟨S4096, .i32⟩
  | 100 => ⟨S_, .i32⟩
  | 101 => ⟨S4096, .i32⟩
  | 102 => ⟨S4096, .i32⟩
  | 103 => ⟨S_, .i32⟩
  | 104 => ⟨S4096, .i32⟩
  | 105 => ⟨S4096, .i1⟩
  | 106 => ⟨S_, .i32⟩
  | 107 => ⟨S4096, .i32⟩
  | 108 => ⟨S4096, .i32⟩
  | 109 => ⟨S_, .i32⟩
  | 110 => ⟨S4096, .i32⟩
  | 111 => ⟨S4096, .i32⟩
  | 112 => ⟨S_, .i32⟩
  | 113 => ⟨S4096, .i32⟩
  | 114 => ⟨S4096, .i1⟩
  | 115 => ⟨S4096, .i1⟩
  | 116 => ⟨S_, .i32⟩
  | 117 => ⟨S4096, .i32⟩
  | 118 => ⟨S4096, .i32⟩
  | 119 => ⟨S_, .i32⟩
  | 120 => ⟨S4096, .i32⟩
  | 121 => ⟨S4096, .i32⟩
  | 122 => ⟨S_, .i32⟩
  | 123 => ⟨S4096, .i32⟩
  | 124 => ⟨S4096, .i1⟩
  | 125 => ⟨S4096, .i1⟩
  | 126 => ⟨S_, .i32⟩
  | 127 => ⟨S4096, .i32⟩
  | _ => ⟨S8x32x32x32x32, .f32⟩

abbrev hbmTy0_7 (i : Nat) : BufTy := match i % 128 with
  | 0 => ⟨S4096, .i32⟩
  | 1 => ⟨S_, .i32⟩
  | 2 => ⟨S4096, .i32⟩
  | 3 => ⟨S4096, .i32⟩
  | 4 => ⟨S_, .i32⟩
  | 5 => ⟨S4096, .i32⟩
  | 6 => ⟨S4096, .i1⟩
  | 7 => ⟨S4096, .i1⟩
  | 8 => ⟨S_, .i32⟩
  | 9 => ⟨S4096, .i32⟩
  | 10 => ⟨S4096, .i1⟩
  | 11 => ⟨S4096, .i1⟩
  | 12 => ⟨S_, .i32⟩
  | 13 => ⟨S4096, .i32⟩
  | 14 => ⟨S4096, .i32⟩
  | 15 => ⟨S_, .i32⟩
  | 16 => ⟨S4096, .i32⟩
  | 17 => ⟨S4096, .i32⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S_, .i32⟩
  | 25 => ⟨S4096, .i32⟩
  | 26 => ⟨S4096, .i32⟩
  | 27 => ⟨S_, .i32⟩
  | 28 => ⟨S4096, .i32⟩
  | 29 => ⟨S4096, .i1⟩
  | 30 => ⟨S4096, .i1⟩
  | 31 => ⟨S_, .i32⟩
  | 32 => ⟨S4096, .i32⟩
  | 33 => ⟨S4096, .i32⟩
  | 34 => ⟨S_, .i32⟩
  | 35 => ⟨S4096, .i32⟩
  | 36 => ⟨S4096, .i32⟩
  | 37 => ⟨S_, .i32⟩
  | 38 => ⟨S4096, .i32⟩
  | 39 => ⟨S4096, .i1⟩
  | 40 => ⟨S4096, .i1⟩
  | 41 => ⟨S_, .i32⟩
  | 42 => ⟨S4096, .i32⟩
  | 43 => ⟨S4096, .i32⟩
  | 44 => ⟨S_, .i32⟩
  | 45 => ⟨S4096, .i32⟩
  | 46 => ⟨S4096, .i32⟩
  | 47 => ⟨S_, .i32⟩
  | 48 => ⟨S4096, .i32⟩
  | 49 => ⟨S4096, .i1⟩
  | 50 => ⟨S4096, .i1⟩
  | 51 => ⟨S_, .i32⟩
  | 52 => ⟨S4096, .i32⟩
  | 53 => ⟨S4096, .i1⟩
  | 54 => ⟨S4096, .i1⟩
  | 55 => ⟨S_, .i32⟩
  | 56 => ⟨S4096, .i32⟩
  | 57 => ⟨S4096, .i32⟩
  | 58 => ⟨S_, .i32⟩
  | 59 => ⟨S4096, .i32⟩
  | 60 => ⟨S4096, .i32⟩
  | 61 => ⟨S_, .i32⟩
  | 62 => ⟨S4096, .i32⟩
  | 63 => ⟨S4096, .i1⟩
  | 64 => ⟨S_, .i32⟩
  | 65 => ⟨S4096, .i32⟩
  | 66 => ⟨S4096, .i32⟩
  | 67 => ⟨S_, .i32⟩
  | 68 => ⟨S4096, .i32⟩
  | 69 => ⟨S4096, .i32⟩
  | 70 => ⟨S_, .i32⟩
  | 71 => ⟨S4096, .i32⟩
  | 72 => ⟨S4096, .i1⟩
  | 73 => ⟨S4096, .i1⟩
  | 74 => ⟨S_, .i32⟩
  | 75 => ⟨S4096, .i32⟩
  | 76 => ⟨S4096, .i32⟩
  | 77 => ⟨S_, .i32⟩
  | 78 => ⟨S4096, .i32⟩
  | 79 => ⟨S4096, .i32⟩
  | 80 => ⟨S_, .i32⟩
  | 81 => ⟨S4096, .i32⟩
  | 82 => ⟨S4096, .i1⟩
  | 83 => ⟨S4096, .i1⟩
  | 84 => ⟨S_, .i32⟩
  | 85 => ⟨S4096, .i32⟩
  | 86 => ⟨S4096, .i32⟩
  | 87 => ⟨S_, .i32⟩
  | 88 => ⟨S4096, .i32⟩
  | 89 => ⟨S4096, .i32⟩
  | 90 => ⟨S_, .i32⟩
  | 91 => ⟨S4096, .i32⟩
  | 92 => ⟨S4096, .i1⟩
  | 93 => ⟨S4096, .i1⟩
  | 94 => ⟨S_, .i32⟩
  | 95 => ⟨S4096, .i32⟩
  | 96 => ⟨S4096, .i1⟩
  | 97 => ⟨S4096, .i1⟩
  | 98 => ⟨S1x4096, .i1⟩
  | 99 => ⟨S1x4096, .i1⟩
  | 100 => ⟨S1x4096, .i1⟩
  | 101 => ⟨S1x4096, .i1⟩
  | 102 => ⟨S1x4096, .i1⟩
  | 103 => ⟨S1x4096, .i1⟩
  | 104 => ⟨S1x4096, .i1⟩
  | 105 => ⟨S1x4096, .i1⟩
  | 106 => ⟨S1x4096, .i1⟩
  | 107 => ⟨S9x4096, .i1⟩
  | 108 => ⟨S9x4096, .f32⟩
  | 109 => ⟨S8x64x4096, .f32⟩
  | 110 => ⟨S8x64x1, .f32⟩
  | 111 => ⟨S8x64x1, .f32⟩
  | 112 => ⟨S8x64, .f32⟩
  | 113 => ⟨S_, .f32⟩
  | 114 => ⟨S64, .f32⟩
  | 115 => ⟨S8x64, .f32⟩
  | 116 => ⟨S_, .f32⟩
  | 117 => ⟨S64, .f32⟩
  | 118 => ⟨S_, .f32⟩
  | 119 => ⟨S64, .f32⟩
  | 120 => ⟨S64, .f32⟩
  | 121 => ⟨S_, .f32⟩
  | 122 => ⟨S64, .f32⟩
  | 123 => ⟨S64, .f32⟩
  | 124 => ⟨S64, .f32⟩
  | 125 => ⟨S64, .f32⟩
  | 126 => ⟨S_, .f32⟩
  | 127 => ⟨S64, .f32⟩
  | _ => ⟨S8x32x32x32x32, .f32⟩

abbrev hbmTy0_8 (i : Nat) : BufTy := match i % 128 with
  | 0 => ⟨S64, .f32⟩
  | 1 => ⟨S64, .f32⟩
  | 2 => ⟨S64, .f32⟩
  | 3 => ⟨S_, .i32⟩
  | 4 => ⟨S_, .f32⟩
  | 5 => ⟨S64, .f32⟩
  | 6 => ⟨S64x1, .f32⟩
  | 7 => ⟨S64, .f32⟩
  | 8 => ⟨S64, .f32⟩
  | 9 => ⟨S_, .i32⟩
  | 10 => ⟨S_, .f32⟩
  | 11 => ⟨S64, .f32⟩
  | 12 => ⟨S64x1, .f32⟩
  | 13 => ⟨S8x64x4096, .f32⟩
  | 14 => ⟨S8x64x16x16x16, .f32⟩
  | _ => ⟨S8x32x32x32x32, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | _ => ⟨S8x32x32x32x32, .f32⟩

abbrev bufTy : (tb : Table) → Fin (tcTables nBuf tb) → BufTy
  | .hbm, ⟨i, _⟩ => hbmTy i
  | .local _ .vmem, ⟨0, _⟩ => ⟨S1x16x2x16x2x16x2, .f32⟩
  | .local _ .vmem, ⟨1, _⟩ => ⟨S1x16x2x16x2x16x2, .f32⟩
  | .local _ .vmem, ⟨2, _⟩ => ⟨S1x16x16x16x1, .f32⟩
  | .local _ .vmem, ⟨3, _⟩ => ⟨S1x16x16x16x1, .f32⟩
  | .local _ .vmem, ⟨4, _⟩ => ⟨S1x32x4864, .f32⟩
  | .local _ .vmem, ⟨5, _⟩ => ⟨S1x32x4864, .f32⟩
  | .local _ .vmem, ⟨6, _⟩ => ⟨S64x864, .f32⟩
  | .local _ .vmem, ⟨7, _⟩ => ⟨S32x1, .f32⟩
  | .local _ .vmem, ⟨8, _⟩ => ⟨S32x1, .f32⟩
  | .local _ .vmem, ⟨9, _⟩ => ⟨S1x4864, .f32⟩
  | .local _ .vmem, ⟨10, _⟩ => ⟨S9x4096, .f32⟩
  | .local _ .vmem, ⟨11, _⟩ => ⟨S1x64x4864, .f32⟩
  | .local _ .vmem, ⟨12, _⟩ => ⟨S1x64x4864, .f32⟩
  | .local _ .vmem, ⟨13, _⟩ => ⟨S1x64x1, .f32⟩
  | .local _ .vmem, ⟨14, _⟩ => ⟨S1x64x1, .f32⟩
  | .local _ .vmem, ⟨15, _⟩ => ⟨S1x64x1, .f32⟩
  | .local _ .vmem, ⟨16, _⟩ => ⟨S1x64x1, .f32⟩
  | .local _ .vmem, ⟨17, _⟩ => ⟨S32x4864, .f32⟩
  | .local _ .vmem, ⟨18, _⟩ => ⟨S864x4096, .f32⟩
  | .local _ .vmem, ⟨19, _⟩ => ⟨S1x64x4864, .f32⟩
  | .local _ .vmem, ⟨20, _⟩ => ⟨S1x64x4864, .f32⟩
  | .local _ .vmem, ⟨21, _⟩ => ⟨S64x1728, .f32⟩
  | .local _ .vmem, ⟨22, _⟩ => ⟨S64x1, .f32⟩
  | .local _ .vmem, ⟨23, _⟩ => ⟨S64x1, .f32⟩
  | .local _ .vmem, ⟨24, _⟩ => ⟨S1x4864, .f32⟩
  | .local _ .vmem, ⟨25, _⟩ => ⟨S9x4096, .f32⟩
  | .local _ .vmem, ⟨26, _⟩ => ⟨S1x64x4096, .f32⟩
  | .local _ .vmem, ⟨27, _⟩ => ⟨S1x64x4096, .f32⟩
  | .local _ .vmem, ⟨28, _⟩ => ⟨S1x64x1, .f32⟩
  | .local _ .vmem, ⟨29, _⟩ => ⟨S1x64x1, .f32⟩
  | .local _ .vmem, ⟨30, _⟩ => ⟨S1x64x1, .f32⟩
  | .local _ .vmem, ⟨31, _⟩ => ⟨S1x64x1, .f32⟩
  | .local _ .vmem, ⟨32, _⟩ => ⟨S64x4864, .f32⟩
  | .local _ .vmem, ⟨33, _⟩ => ⟨S1728x4096, .f32⟩
  | .local _ .vmem, ⟨34, _⟩ => ⟨S1x64x4096, .f32⟩
  | .local _ .vmem, ⟨35, _⟩ => ⟨S1x64x4096, .f32⟩
  | .local _ .vmem, ⟨36, _⟩ => ⟨S64x1, .f32⟩
  | .local _ .vmem, ⟨37, _⟩ => ⟨S64x1, .f32⟩
  | .local _ .vmem, ⟨38, _⟩ => ⟨S1x64x4096, .f32⟩
  | .local _ .vmem, ⟨39, _⟩ => ⟨S1x64x4096, .f32⟩
  | _, _ => ⟨S8x32x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_c_2 : Ref sig .tc := ⟨.hbm, 25, rfl⟩
abbrev main_v12 : Ref sig .tc := ⟨.hbm, 26, rfl⟩
abbrev main_v13 : Ref sig .tc := ⟨.hbm, 27, rfl⟩
abbrev main_c_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_call2_v0 : Ref sig .tc := ⟨.hbm, 36, rfl⟩
abbrev main_call2_c : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_c_1 : Ref sig .tc := ⟨.hbm, 43, rfl⟩
abbrev main_call2_v5 : Ref sig .tc := ⟨.hbm, 44, rfl⟩
abbrev main_call2_v6 : Ref sig .tc := ⟨.hbm, 45, rfl⟩
abbrev main_call2_c_2 : Ref sig .tc := ⟨.hbm, 46, rfl⟩
abbrev main_call2_v7 : Ref sig .tc := ⟨.hbm, 47, rfl⟩
abbrev main_call2_v8 : Ref sig .tc := ⟨.hbm, 48, rfl⟩
abbrev main_call2_c_3 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_v12 : Ref sig .tc := ⟨.hbm, 53, rfl⟩
abbrev main_call2_v13 : Ref sig .tc := ⟨.hbm, 54, rfl⟩
abbrev main_call2_v14 : Ref sig .tc := ⟨.hbm, 55, rfl⟩
abbrev main_v20 : Ref sig .tc := ⟨.hbm, 56, rfl⟩
abbrev main_c_5 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_v5 : Ref sig .tc := ⟨.hbm, 63, rfl⟩
abbrev main_call3_v6 : Ref sig .tc := ⟨.hbm, 64, rfl⟩
abbrev main_call3_v7 : Ref sig .tc := ⟨.hbm, 65, rfl⟩
abbrev main_call3_v8 : Ref sig .tc := ⟨.hbm, 66, rfl⟩
abbrev main_call3_c : Ref sig .tc := ⟨.hbm, 67, rfl⟩
abbrev main_call3_v9 : Ref sig .tc := ⟨.hbm, 68, rfl⟩
abbrev main_call3_v10 : Ref sig .tc := ⟨.hbm, 69, rfl⟩
abbrev main_call3_v11 : Ref sig .tc := ⟨.hbm, 70, rfl⟩
abbrev main_call3_c_0 : Ref sig .tc := ⟨.hbm, 71, rfl⟩
abbrev main_call3_v12 : Ref sig .tc := ⟨.hbm, 72, rfl⟩
abbrev main_call3_v13 : Ref sig .tc := ⟨.hbm, 73, rfl⟩
abbrev main_v21 : Ref sig .tc := ⟨.hbm, 74, rfl⟩
abbrev main_c_6 : Ref sig .tc := ⟨.hbm, 75, rfl⟩
abbrev main_call4_v0 : Ref sig .tc := ⟨.hbm, 76, rfl⟩
abbrev main_call4_c : Ref sig .tc := ⟨.hbm, 77, rfl⟩
abbrev main_call4_v1 : Ref sig .tc := ⟨.hbm, 78, rfl⟩
abbrev main_call4_c_0 : Ref sig .tc := ⟨.hbm, 79, rfl⟩
abbrev main_call4_v2 : Ref sig .tc := ⟨.hbm, 80, rfl⟩
abbrev main_call4_v3 : Ref sig .tc := ⟨.hbm, 81, rfl⟩
abbrev main_call4_v4 : Ref sig .tc := ⟨.hbm, 82, rfl⟩
abbrev main_call4_c_1 : Ref sig .tc := ⟨.hbm, 83, rfl⟩
abbrev main_call4_v5 : Ref sig .tc := ⟨.hbm, 84, rfl⟩
abbrev main_call4_v6 : Ref sig .tc := ⟨.hbm, 85, rfl⟩
abbrev main_call4_c_2 : Ref sig .tc := ⟨.hbm, 86, rfl⟩
abbrev main_call4_v7 : Ref sig .tc := ⟨.hbm, 87, rfl⟩
abbrev main_call4_v8 : Ref sig .tc := ⟨.hbm, 88, rfl⟩
abbrev main_call4_c_3 : Ref sig .tc := ⟨.hbm, 89, rfl⟩
abbrev main_call4_v9 : Ref sig .tc := ⟨.hbm, 90, rfl⟩
abbrev main_call4_v10 : Ref sig .tc := ⟨.hbm, 91, rfl⟩
abbrev main_call4_v11 : Ref sig .tc := ⟨.hbm, 92, rfl⟩
abbrev main_call4_v12 : Ref sig .tc := ⟨.hbm, 93, rfl⟩
abbrev main_call4_v13 : Ref sig .tc := ⟨.hbm, 94, rfl⟩
abbrev main_call4_v14 : Ref sig .tc := ⟨.hbm, 95, rfl⟩
abbrev main_v22 : Ref sig .tc := ⟨.hbm, 96, rfl⟩
abbrev main_c_7 : Ref sig .tc := ⟨.hbm, 97, rfl⟩
abbrev main_v23 : Ref sig .tc := ⟨.hbm, 98, rfl⟩
abbrev main_v24 : Ref sig .tc := ⟨.hbm, 99, rfl⟩
abbrev main_c_8 : Ref sig .tc := ⟨.hbm, 100, rfl⟩
abbrev main_v25 : Ref sig .tc := ⟨.hbm, 101, rfl⟩
abbrev main_v26 : Ref sig .tc := ⟨.hbm, 102, rfl⟩
abbrev main_c_9 : Ref sig .tc := ⟨.hbm, 103, rfl⟩
abbrev main_v27 : Ref sig .tc := ⟨.hbm, 104, rfl⟩
abbrev main_v28 : Ref sig .tc := ⟨.hbm, 105, rfl⟩
abbrev main_c_10 : Ref sig .tc := ⟨.hbm, 106, rfl⟩
abbrev main_v29 : Ref sig .tc := ⟨.hbm, 107, rfl⟩
abbrev main_v30 : Ref sig .tc := ⟨.hbm, 108, rfl⟩
abbrev main_c_11 : Ref sig .tc := ⟨.hbm, 109, rfl⟩
abbrev main_v31 : Ref sig .tc := ⟨.hbm, 110, rfl⟩
abbrev main_v32 : Ref sig .tc := ⟨.hbm, 111, rfl⟩
abbrev main_c_12 : Ref sig .tc := ⟨.hbm, 112, rfl⟩
abbrev main_v33 : Ref sig .tc := ⟨.hbm, 113, rfl⟩
abbrev main_v34 : Ref sig .tc := ⟨.hbm, 114, rfl⟩
abbrev main_v35 : Ref sig .tc := ⟨.hbm, 115, rfl⟩
abbrev main_c_13 : Ref sig .tc := ⟨.hbm, 116, rfl⟩
abbrev main_v36 : Ref sig .tc := ⟨.hbm, 117, rfl⟩
abbrev main_v37 : Ref sig .tc := ⟨.hbm, 118, rfl⟩
abbrev main_c_14 : Ref sig .tc := ⟨.hbm, 119, rfl⟩
abbrev main_v38 : Ref sig .tc := ⟨.hbm, 120, rfl⟩
abbrev main_v39 : Ref sig .tc := ⟨.hbm, 121, rfl⟩
abbrev main_c_15 : Ref sig .tc := ⟨.hbm, 122, rfl⟩
abbrev main_v40 : Ref sig .tc := ⟨.hbm, 123, rfl⟩
abbrev main_v41 : Ref sig .tc := ⟨.hbm, 124, rfl⟩
abbrev main_v42 : Ref sig .tc := ⟨.hbm, 125, rfl⟩
abbrev main_c_16 : Ref sig .tc := ⟨.hbm, 126, rfl⟩
abbrev main_v43 : Ref sig .tc := ⟨.hbm, 127, rfl⟩
abbrev main_v44 : Ref sig .tc := ⟨.hbm, 128, rfl⟩
abbrev main_c_17 : Ref sig .tc := ⟨.hbm, 129, rfl⟩
abbrev main_v45 : Ref sig .tc := ⟨.hbm, 130, rfl⟩
abbrev main_v46 : Ref sig .tc := ⟨.hbm, 131, rfl⟩
abbrev main_c_18 : Ref sig .tc := ⟨.hbm, 132, rfl⟩
abbrev main_v47 : Ref sig .tc := ⟨.hbm, 133, rfl⟩
abbrev main_v48 : Ref sig .tc := ⟨.hbm, 134, rfl⟩
abbrev main_v49 : Ref sig .tc := ⟨.hbm, 135, rfl⟩
abbrev main_c_19 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_c_20 : Ref sig .tc := ⟨.hbm, 140, rfl⟩
abbrev main_v53 : Ref sig .tc := ⟨.hbm, 141, rfl⟩
abbrev main_v54 : Ref sig .tc := ⟨.hbm, 142, rfl⟩
abbrev main_c_21 : Ref sig .tc := ⟨.hbm, 143, rfl⟩
abbrev main_v55 : Ref sig .tc := ⟨.hbm, 144, rfl⟩
abbrev main_v56 : Ref sig .tc := ⟨.hbm, 145, rfl⟩
abbrev main_c_22 : Ref sig .tc := ⟨.hbm, 146, rfl⟩
abbrev main_v57 : Ref sig .tc := ⟨.hbm, 147, rfl⟩
abbrev main_v58 : Ref sig .tc := ⟨.hbm, 148, rfl⟩
abbrev main_c_23 : Ref sig .tc := ⟨.hbm, 149, rfl⟩
abbrev main_v59 : Ref sig .tc := ⟨.hbm, 150, rfl⟩
abbrev main_v60 : Ref sig .tc := ⟨.hbm, 151, rfl⟩
abbrev main_c_24 : Ref sig .tc := ⟨.hbm, 152, rfl⟩
abbrev main_v61 : Ref sig .tc := ⟨.hbm, 153, rfl⟩
abbrev main_v62 : Ref sig .tc := ⟨.hbm, 154, rfl⟩
abbrev main_c_25 : Ref sig .tc := ⟨.hbm, 155, rfl⟩
abbrev main_v63 : Ref sig .tc := ⟨.hbm, 156, rfl⟩
abbrev main_v64 : Ref sig .tc := ⟨.hbm, 157, rfl⟩
abbrev main_v65 : Ref sig .tc := ⟨.hbm, 158, rfl⟩
abbrev main_c_26 : Ref sig .tc := ⟨.hbm, 159, rfl⟩
abbrev main_v66 : Ref sig .tc := ⟨.hbm, 160, rfl⟩
abbrev main_v67 : Ref sig .tc := ⟨.hbm, 161, rfl⟩
abbrev main_c_27 : Ref sig .tc := ⟨.hbm, 162, rfl⟩
abbrev main_v68 : Ref sig .tc := ⟨.hbm, 163, rfl⟩
abbrev main_v69 : Ref sig .tc := ⟨.hbm, 164, rfl⟩
abbrev main_c_28 : Ref sig .tc := ⟨.hbm, 165, rfl⟩
abbrev main_v70 : Ref sig .tc := ⟨.hbm, 166, rfl⟩
abbrev main_v71 : Ref sig .tc := ⟨.hbm, 167, rfl⟩
abbrev main_v72 : Ref sig .tc := ⟨.hbm, 168, rfl⟩
abbrev main_c_29 : Ref sig .tc := ⟨.hbm, 169, rfl⟩
abbrev main_v73 : Ref sig .tc := ⟨.hbm, 170, rfl⟩
abbrev main_v74 : Ref sig .tc := ⟨.hbm, 171, rfl⟩
abbrev main_c_30 : Ref sig .tc := ⟨.hbm, 172, rfl⟩
abbrev main_v75 : Ref sig .tc := ⟨.hbm, 173, rfl⟩
abbrev main_v76 : Ref sig .tc := ⟨.hbm, 174, rfl⟩
abbrev main_c_31 : Ref sig .tc := ⟨.hbm, 175, rfl⟩
abbrev main_v77 : Ref sig .tc := ⟨.hbm, 176, rfl⟩
abbrev main_v78 : Ref sig .tc := ⟨.hbm, 177, rfl⟩
abbrev main_v79 : Ref sig .tc := ⟨.hbm, 178, rfl⟩
abbrev main_c_32 : Ref sig .tc := ⟨.hbm, 179, rfl⟩
abbrev main_v80 : Ref sig .tc := ⟨.hbm, 180, rfl⟩
abbrev main_v81 : Ref sig .tc := ⟨.hbm, 181, rfl⟩
abbrev main_v82 : Ref sig .tc := ⟨.hbm, 182, rfl⟩
abbrev main_c_33 : Ref sig .tc := ⟨.hbm, 183, rfl⟩
abbrev main_v83 : Ref sig .tc := ⟨.hbm, 184, rfl⟩
abbrev main_v84 : Ref sig .tc := ⟨.hbm, 185, rfl⟩
abbrev main_c_34 : Ref sig .tc := ⟨.hbm, 186, rfl⟩
abbrev main_v85 : Ref sig .tc := ⟨.hbm, 187, rfl⟩
abbrev main_v86 : Ref sig .tc := ⟨.hbm, 188, rfl⟩
abbrev main_c_35 : Ref sig .tc := ⟨.hbm, 189, rfl⟩
abbrev main_v87 : Ref sig .tc := ⟨.hbm, 190, rfl⟩
abbrev main_v88 : Ref sig .tc := ⟨.hbm, 191, rfl⟩
abbrev main_c_36 : Ref sig .tc := ⟨.hbm, 192, rfl⟩
abbrev main_v89 : Ref sig .tc := ⟨.hbm, 193, rfl⟩
abbrev main_v90 : Ref sig .tc := ⟨.hbm, 194, rfl⟩
abbrev main_c_37 : Ref sig .tc := ⟨.hbm, 195, rfl⟩
abbrev main_v91 : Ref sig .tc := ⟨.hbm, 196, rfl⟩
abbrev main_v92 : Ref sig .tc := ⟨.hbm, 197, rfl⟩
abbrev main_c_38 : Ref sig .tc := ⟨.hbm, 198, rfl⟩
abbrev main_v93 : Ref sig .tc := ⟨.hbm, 199, rfl⟩
abbrev main_v94 : Ref sig .tc := ⟨.hbm, 200, rfl⟩
abbrev main_v95 : Ref sig .tc := ⟨.hbm, 201, rfl⟩
abbrev main_c_39 : Ref sig .tc := ⟨.hbm, 202, rfl⟩
abbrev main_v96 : Ref sig .tc := ⟨.hbm, 203, rfl⟩
abbrev main_v97 : Ref sig .tc := ⟨.hbm, 204, rfl⟩
abbrev main_c_40 : Ref sig .tc := ⟨.hbm, 205, rfl⟩
abbrev main_v98 : Ref sig .tc := ⟨.hbm, 206, rfl⟩
abbrev main_v99 : Ref sig .tc := ⟨.hbm, 207, rfl⟩
abbrev main_c_41 : Ref sig .tc := ⟨.hbm, 208, rfl⟩
abbrev main_v100 : Ref sig .tc := ⟨.hbm, 209, rfl⟩
abbrev main_v101 : Ref sig .tc := ⟨.hbm, 210, rfl⟩
abbrev main_v102 : Ref sig .tc := ⟨.hbm, 211, rfl⟩
abbrev main_c_42 : Ref sig .tc := ⟨.hbm, 212, rfl⟩
abbrev main_v103 : Ref sig .tc := ⟨.hbm, 213, rfl⟩
abbrev main_v104 : Ref sig .tc := ⟨.hbm, 214, rfl⟩
abbrev main_c_43 : Ref sig .tc := ⟨.hbm, 215, rfl⟩
abbrev main_v105 : Ref sig .tc := ⟨.hbm, 216, rfl⟩
abbrev main_v106 : Ref sig .tc := ⟨.hbm, 217, rfl⟩
abbrev main_c_44 : Ref sig .tc := ⟨.hbm, 218, rfl⟩
abbrev main_v107 : Ref sig .tc := ⟨.hbm, 219, rfl⟩
abbrev main_v108 : Ref sig .tc := ⟨.hbm, 220, rfl⟩
abbrev main_v109 : Ref sig .tc := ⟨.hbm, 221, rfl⟩
abbrev main_c_45 : Ref sig .tc := ⟨.hbm, 222, rfl⟩
abbrev main_v110 : Ref sig .tc := ⟨.hbm, 223, rfl⟩
abbrev main_v111 : Ref sig .tc := ⟨.hbm, 224, rfl⟩
abbrev main_v112 : Ref sig .tc := ⟨.hbm, 225, rfl⟩
abbrev main_c_46 : Ref sig .tc := ⟨.hbm, 226, rfl⟩
abbrev main_v113 : Ref sig .tc := ⟨.hbm, 227, rfl⟩
abbrev main_v114 : Ref sig .tc := ⟨.hbm, 228, rfl⟩
abbrev main_c_47 : Ref sig .tc := ⟨.hbm, 229, rfl⟩
abbrev main_v115 : Ref sig .tc := ⟨.hbm, 230, rfl⟩
abbrev main_v116 : Ref sig .tc := ⟨.hbm, 231, rfl⟩
abbrev main_c_48 : Ref sig .tc := ⟨.hbm, 232, rfl⟩
abbrev main_v117 : Ref sig .tc := ⟨.hbm, 233, rfl⟩
abbrev main_v118 : Ref sig .tc := ⟨.hbm, 234, rfl⟩
abbrev main_c_49 : Ref sig .tc := ⟨.hbm, 235, rfl⟩
abbrev main_v119 : Ref sig .tc := ⟨.hbm, 236, rfl⟩
abbrev main_v120 : Ref sig .tc := ⟨.hbm, 237, rfl⟩
abbrev main_c_50 : Ref sig .tc := ⟨.hbm, 238, rfl⟩
abbrev main_v121 : Ref sig .tc := ⟨.hbm, 239, rfl⟩
abbrev main_v122 : Ref sig .tc := ⟨.hbm, 240, rfl⟩
abbrev main_c_51 : Ref sig .tc := ⟨.hbm, 241, rfl⟩
abbrev main_v123 : Ref sig .tc := ⟨.hbm, 242, rfl⟩
abbrev main_v124 : Ref sig .tc := ⟨.hbm, 243, rfl⟩
abbrev main_v125 : Ref sig .tc := ⟨.hbm, 244, rfl⟩
abbrev main_c_52 : Ref sig .tc := ⟨.hbm, 245, rfl⟩
abbrev main_v126 : Ref sig .tc := ⟨.hbm, 246, rfl⟩
abbrev main_v127 : Ref sig .tc := ⟨.hbm, 247, rfl⟩
abbrev main_c_53 : Ref sig .tc := ⟨.hbm, 248, rfl⟩
abbrev main_v128 : Ref sig .tc := ⟨.hbm, 249, rfl⟩
abbrev main_v129 : Ref sig .tc := ⟨.hbm, 250, rfl⟩
abbrev main_c_54 : Ref sig .tc := ⟨.hbm, 251, rfl⟩
abbrev main_v130 : Ref sig .tc := ⟨.hbm, 252, rfl⟩
abbrev main_v131 : Ref sig .tc := ⟨.hbm, 253, rfl⟩
abbrev main_v132 : Ref sig .tc := ⟨.hbm, 254, rfl⟩
abbrev main_c_55 : Ref sig .tc := ⟨.hbm, 255, rfl⟩
abbrev main_v133 : Ref sig .tc := ⟨.hbm, 256, rfl⟩
abbrev main_v134 : Ref sig .tc := ⟨.hbm, 257, rfl⟩
abbrev main_c_56 : Ref sig .tc := ⟨.hbm, 258, rfl⟩
abbrev main_v135 : Ref sig .tc := ⟨.hbm, 259, rfl⟩
abbrev main_v136 : Ref sig .tc := ⟨.hbm, 260, rfl⟩
abbrev main_c_57 : Ref sig .tc := ⟨.hbm, 261, rfl⟩
abbrev main_v137 : Ref sig .tc := ⟨.hbm, 262, rfl⟩
abbrev main_v138 : Ref sig .tc := ⟨.hbm, 263, rfl⟩
abbrev main_v139 : Ref sig .tc := ⟨.hbm, 264, rfl⟩
abbrev main_c_58 : Ref sig .tc := ⟨.hbm, 265, rfl⟩
abbrev main_v140 : Ref sig .tc := ⟨.hbm, 266, rfl⟩
abbrev main_v141 : Ref sig .tc := ⟨.hbm, 267, rfl⟩
abbrev main_v142 : Ref sig .tc := ⟨.hbm, 268, rfl⟩
abbrev main_c_59 : Ref sig .tc := ⟨.hbm, 269, rfl⟩
abbrev main_v143 : Ref sig .tc := ⟨.hbm, 270, rfl⟩
abbrev main_v144 : Ref sig .tc := ⟨.hbm, 271, rfl⟩
abbrev main_c_60 : Ref sig .tc := ⟨.hbm, 272, rfl⟩
abbrev main_v145 : Ref sig .tc := ⟨.hbm, 273, rfl⟩
abbrev main_v146 : Ref sig .tc := ⟨.hbm, 274, rfl⟩
abbrev main_c_61 : Ref sig .tc := ⟨.hbm, 275, rfl⟩
abbrev main_v147 : Ref sig .tc := ⟨.hbm, 276, rfl⟩
abbrev main_v148 : Ref sig .tc := ⟨.hbm, 277, rfl⟩
abbrev main_c_62 : Ref sig .tc := ⟨.hbm, 278, rfl⟩
abbrev main_v149 : Ref sig .tc := ⟨.hbm, 279, rfl⟩
abbrev main_v150 : Ref sig .tc := ⟨.hbm, 280, rfl⟩
abbrev main_c_63 : Ref sig .tc := ⟨.hbm, 281, rfl⟩
abbrev main_v151 : Ref sig .tc := ⟨.hbm, 282, rfl⟩
abbrev main_v152 : Ref sig .tc := ⟨.hbm, 283, rfl⟩
abbrev main_c_64 : Ref sig .tc := ⟨.hbm, 284, rfl⟩
abbrev main_v153 : Ref sig .tc := ⟨.hbm, 285, rfl⟩
abbrev main_v154 : Ref sig .tc := ⟨.hbm, 286, rfl⟩
abbrev main_v155 : Ref sig .tc := ⟨.hbm, 287, rfl⟩
abbrev main_c_65 : Ref sig .tc := ⟨.hbm, 288, rfl⟩
abbrev main_v156 : Ref sig .tc := ⟨.hbm, 289, rfl⟩
abbrev main_v157 : Ref sig .tc := ⟨.hbm, 290, rfl⟩
abbrev main_c_66 : Ref sig .tc := ⟨.hbm, 291, rfl⟩
abbrev main_v158 : Ref sig .tc := ⟨.hbm, 292, rfl⟩
abbrev main_v159 : Ref sig .tc := ⟨.hbm, 293, rfl⟩
abbrev main_c_67 : Ref sig .tc := ⟨.hbm, 294, rfl⟩
abbrev main_v160 : Ref sig .tc := ⟨.hbm, 295, rfl⟩
abbrev main_v161 : Ref sig .tc := ⟨.hbm, 296, rfl⟩
abbrev main_v162 : Ref sig .tc := ⟨.hbm, 297, rfl⟩
abbrev main_c_68 : Ref sig .tc := ⟨.hbm, 298, rfl⟩
abbrev main_v163 : Ref sig .tc := ⟨.hbm, 299, rfl⟩
abbrev main_v164 : Ref sig .tc := ⟨.hbm, 300, rfl⟩
abbrev main_c_69 : Ref sig .tc := ⟨.hbm, 301, rfl⟩
abbrev main_v165 : Ref sig .tc := ⟨.hbm, 302, rfl⟩
abbrev main_v166 : Ref sig .tc := ⟨.hbm, 303, rfl⟩
abbrev main_c_70 : Ref sig .tc := ⟨.hbm, 304, rfl⟩
abbrev main_v167 : Ref sig .tc := ⟨.hbm, 305, rfl⟩
abbrev main_v168 : Ref sig .tc := ⟨.hbm, 306, rfl⟩
abbrev main_v169 : Ref sig .tc := ⟨.hbm, 307, rfl⟩
abbrev main_c_71 : Ref sig .tc := ⟨.hbm, 308, rfl⟩
abbrev main_v170 : Ref sig .tc := ⟨.hbm, 309, rfl⟩
abbrev main_v171 : Ref sig .tc := ⟨.hbm, 310, rfl⟩
abbrev main_v172 : Ref sig .tc := ⟨.hbm, 311, rfl⟩
abbrev main_c_72 : Ref sig .tc := ⟨.hbm, 312, rfl⟩
abbrev main_v173 : Ref sig .tc := ⟨.hbm, 313, rfl⟩
abbrev main_v174 : Ref sig .tc := ⟨.hbm, 314, rfl⟩
abbrev main_c_73 : Ref sig .tc := ⟨.hbm, 315, rfl⟩
abbrev main_v175 : Ref sig .tc := ⟨.hbm, 316, rfl⟩
abbrev main_v176 : Ref sig .tc := ⟨.hbm, 317, rfl⟩
abbrev main_c_74 : Ref sig .tc := ⟨.hbm, 318, rfl⟩
abbrev main_v177 : Ref sig .tc := ⟨.hbm, 319, rfl⟩
abbrev main_v178 : Ref sig .tc := ⟨.hbm, 320, rfl⟩
abbrev main_c_75 : Ref sig .tc := ⟨.hbm, 321, rfl⟩
abbrev main_v179 : Ref sig .tc := ⟨.hbm, 322, rfl⟩
abbrev main_v180 : Ref sig .tc := ⟨.hbm, 323, rfl⟩
abbrev main_c_76 : Ref sig .tc := ⟨.hbm, 324, rfl⟩
abbrev main_v181 : Ref sig .tc := ⟨.hbm, 325, rfl⟩
abbrev main_v182 : Ref sig .tc := ⟨.hbm, 326, rfl⟩
abbrev main_c_77 : Ref sig .tc := ⟨.hbm, 327, rfl⟩
abbrev main_v183 : Ref sig .tc := ⟨.hbm, 328, rfl⟩
abbrev main_v184 : Ref sig .tc := ⟨.hbm, 329, rfl⟩
abbrev main_v185 : Ref sig .tc := ⟨.hbm, 330, rfl⟩
abbrev main_c_78 : Ref sig .tc := ⟨.hbm, 331, rfl⟩
abbrev main_v186 : Ref sig .tc := ⟨.hbm, 332, rfl⟩
abbrev main_v187 : Ref sig .tc := ⟨.hbm, 333, rfl⟩
abbrev main_c_79 : Ref sig .tc := ⟨.hbm, 334, rfl⟩
abbrev main_v188 : Ref sig .tc := ⟨.hbm, 335, rfl⟩
abbrev main_v189 : Ref sig .tc := ⟨.hbm, 336, rfl⟩
abbrev main_c_80 : Ref sig .tc := ⟨.hbm, 337, rfl⟩
abbrev main_v190 : Ref sig .tc := ⟨.hbm, 338, rfl⟩
abbrev main_v191 : Ref sig .tc := ⟨.hbm, 339, rfl⟩
abbrev main_v192 : Ref sig .tc := ⟨.hbm, 340, rfl⟩
abbrev main_c_81 : Ref sig .tc := ⟨.hbm, 341, rfl⟩
abbrev main_v193 : Ref sig .tc := ⟨.hbm, 342, rfl⟩
abbrev main_v194 : Ref sig .tc := ⟨.hbm, 343, rfl⟩
abbrev main_c_82 : Ref sig .tc := ⟨.hbm, 344, rfl⟩
abbrev main_v195 : Ref sig .tc := ⟨.hbm, 345, rfl⟩
abbrev main_v196 : Ref sig .tc := ⟨.hbm, 346, rfl⟩
abbrev main_c_83 : Ref sig .tc := ⟨.hbm, 347, rfl⟩
abbrev main_v197 : Ref sig .tc := ⟨.hbm, 348, rfl⟩
abbrev main_v198 : Ref sig .tc := ⟨.hbm, 349, rfl⟩
abbrev main_v199 : Ref sig .tc := ⟨.hbm, 350, rfl⟩
abbrev main_c_84 : Ref sig .tc := ⟨.hbm, 351, rfl⟩
abbrev main_v200 : Ref sig .tc := ⟨.hbm, 352, rfl⟩
abbrev main_v201 : Ref sig .tc := ⟨.hbm, 353, rfl⟩
abbrev main_v202 : Ref sig .tc := ⟨.hbm, 354, rfl⟩
abbrev main_c_85 : Ref sig .tc := ⟨.hbm, 355, rfl⟩
abbrev main_v203 : Ref sig .tc := ⟨.hbm, 356, rfl⟩
abbrev main_v204 : Ref sig .tc := ⟨.hbm, 357, rfl⟩
abbrev main_c_86 : Ref sig .tc := ⟨.hbm, 358, rfl⟩
abbrev main_v205 : Ref sig .tc := ⟨.hbm, 359, rfl⟩
abbrev main_v206 : Ref sig .tc := ⟨.hbm, 360, rfl⟩
abbrev main_c_87 : Ref sig .tc := ⟨.hbm, 361, rfl⟩
abbrev main_v207 : Ref sig .tc := ⟨.hbm, 362, rfl⟩
abbrev main_v208 : Ref sig .tc := ⟨.hbm, 363, rfl⟩
abbrev main_c_88 : Ref sig .tc := ⟨.hbm, 364, rfl⟩
abbrev main_v209 : Ref sig .tc := ⟨.hbm, 365, rfl⟩
abbrev main_v210 : Ref sig .tc := ⟨.hbm, 366, rfl⟩
abbrev main_c_89 : Ref sig .tc := ⟨.hbm, 367, rfl⟩
abbrev main_v211 : Ref sig .tc := ⟨.hbm, 368, rfl⟩
abbrev main_v212 : Ref sig .tc := ⟨.hbm, 369, rfl⟩
abbrev main_c_90 : Ref sig .tc := ⟨.hbm, 370, rfl⟩
abbrev main_v213 : Ref sig .tc := ⟨.hbm, 371, rfl⟩
abbrev main_v214 : Ref sig .tc := ⟨.hbm, 372, rfl⟩
abbrev main_v215 : Ref sig .tc := ⟨.hbm, 373, rfl⟩
abbrev main_c_91 : Ref sig .tc := ⟨.hbm, 374, rfl⟩
abbrev main_v216 : Ref sig .tc := ⟨.hbm, 375, rfl⟩
abbrev main_v217 : Ref sig .tc := ⟨.hbm, 376, rfl⟩
abbrev main_c_92 : Ref sig .tc := ⟨.hbm, 377, rfl⟩
abbrev main_v218 : Ref sig .tc := ⟨.hbm, 378, rfl⟩
abbrev main_v219 : Ref sig .tc := ⟨.hbm, 379, rfl⟩
abbrev main_c_93 : Ref sig .tc := ⟨.hbm, 380, rfl⟩
abbrev main_v220 : Ref sig .tc := ⟨.hbm, 381, rfl⟩
abbrev main_v221 : Ref sig .tc := ⟨.hbm, 382, rfl⟩
abbrev main_v222 : Ref sig .tc := ⟨.hbm, 383, rfl⟩
abbrev main_c_94 : Ref sig .tc := ⟨.hbm, 384, rfl⟩
abbrev main_v223 : Ref sig .tc := ⟨.hbm, 385, rfl⟩
abbrev main_v224 : Ref sig .tc := ⟨.hbm, 386, rfl⟩
abbrev main_c_95 : Ref sig .tc := ⟨.hbm, 387, rfl⟩
abbrev main_v225 : Ref sig .tc := ⟨.hbm, 388, rfl⟩
abbrev main_v226 : Ref sig .tc := ⟨.hbm, 389, rfl⟩
abbrev main_c_96 : Ref sig .tc := ⟨.hbm, 390, rfl⟩
abbrev main_v227 : Ref sig .tc := ⟨.hbm, 391, rfl⟩
abbrev main_v228 : Ref sig .tc := ⟨.hbm, 392, rfl⟩
abbrev main_v229 : Ref sig .tc := ⟨.hbm, 393, rfl⟩
abbrev main_c_97 : Ref sig .tc := ⟨.hbm, 394, rfl⟩
abbrev main_v230 : Ref sig .tc := ⟨.hbm, 395, rfl⟩
abbrev main_v231 : Ref sig .tc := ⟨.hbm, 396, rfl⟩
abbrev main_v232 : Ref sig .tc := ⟨.hbm, 397, rfl⟩
abbrev main_c_98 : Ref sig .tc := ⟨.hbm, 398, rfl⟩
abbrev main_v233 : Ref sig .tc := ⟨.hbm, 399, rfl⟩
abbrev main_v234 : Ref sig .tc := ⟨.hbm, 400, rfl⟩
abbrev main_c_99 : Ref sig .tc := ⟨.hbm, 401, rfl⟩
abbrev main_v235 : Ref sig .tc := ⟨.hbm, 402, rfl⟩
abbrev main_v236 : Ref sig .tc := ⟨.hbm, 403, rfl⟩
abbrev main_c_100 : Ref sig .tc := ⟨.hbm, 404, rfl⟩
abbrev main_v237 : Ref sig .tc := ⟨.hbm, 405, rfl⟩
abbrev main_v238 : Ref sig .tc := ⟨.hbm, 406, rfl⟩
abbrev main_c_101 : Ref sig .tc := ⟨.hbm, 407, rfl⟩
abbrev main_v239 : Ref sig .tc := ⟨.hbm, 408, rfl⟩
abbrev main_v240 : Ref sig .tc := ⟨.hbm, 409, rfl⟩
abbrev main_c_102 : Ref sig .tc := ⟨.hbm, 410, rfl⟩
abbrev main_v241 : Ref sig .tc := ⟨.hbm, 411, rfl⟩
abbrev main_v242 : Ref sig .tc := ⟨.hbm, 412, rfl⟩
abbrev main_c_103 : Ref sig .tc := ⟨.hbm, 413, rfl⟩
abbrev main_v243 : Ref sig .tc := ⟨.hbm, 414, rfl⟩
abbrev main_v244 : Ref sig .tc := ⟨.hbm, 415, rfl⟩
abbrev main_v245 : Ref sig .tc := ⟨.hbm, 416, rfl⟩
abbrev main_c_104 : Ref sig .tc := ⟨.hbm, 417, rfl⟩
abbrev main_v246 : Ref sig .tc := ⟨.hbm, 418, rfl⟩
abbrev main_v247 : Ref sig .tc := ⟨.hbm, 419, rfl⟩
abbrev main_c_105 : Ref sig .tc := ⟨.hbm, 420, rfl⟩
abbrev main_v248 : Ref sig .tc := ⟨.hbm, 421, rfl⟩
abbrev main_v249 : Ref sig .tc := ⟨.hbm, 422, rfl⟩
abbrev main_c_106 : Ref sig .tc := ⟨.hbm, 423, rfl⟩
abbrev main_v250 : Ref sig .tc := ⟨.hbm, 424, rfl⟩
abbrev main_v251 : Ref sig .tc := ⟨.hbm, 425, rfl⟩
abbrev main_v252 : Ref sig .tc := ⟨.hbm, 426, rfl⟩
abbrev main_c_107 : Ref sig .tc := ⟨.hbm, 427, rfl⟩
abbrev main_v253 : Ref sig .tc := ⟨.hbm, 428, rfl⟩
abbrev main_v254 : Ref sig .tc := ⟨.hbm, 429, rfl⟩
abbrev main_c_108 : Ref sig .tc := ⟨.hbm, 430, rfl⟩
abbrev main_v255 : Ref sig .tc := ⟨.hbm, 431, rfl⟩
abbrev main_v256 : Ref sig .tc := ⟨.hbm, 432, rfl⟩
abbrev main_c_109 : Ref sig .tc := ⟨.hbm, 433, rfl⟩
abbrev main_v257 : Ref sig .tc := ⟨.hbm, 434, rfl⟩
abbrev main_v258 : Ref sig .tc := ⟨.hbm, 435, rfl⟩
abbrev main_v259 : Ref sig .tc := ⟨.hbm, 436, rfl⟩
abbrev main_c_110 : Ref sig .tc := ⟨.hbm, 437, rfl⟩
abbrev main_v260 : Ref sig .tc := ⟨.hbm, 438, rfl⟩
abbrev main_v261 : Ref sig .tc := ⟨.hbm, 439, rfl⟩
abbrev main_v262 : Ref sig .tc := ⟨.hbm, 440, rfl⟩
abbrev main_c_111 : Ref sig .tc := ⟨.hbm, 441, rfl⟩
abbrev main_v263 : Ref sig .tc := ⟨.hbm, 442, rfl⟩
abbrev main_v264 : Ref sig .tc := ⟨.hbm, 443, rfl⟩
abbrev main_c_112 : Ref sig .tc := ⟨.hbm, 444, rfl⟩
abbrev main_v265 : Ref sig .tc := ⟨.hbm, 445, rfl⟩
abbrev main_v266 : Ref sig .tc := ⟨.hbm, 446, rfl⟩
abbrev main_c_113 : Ref sig .tc := ⟨.hbm, 447, rfl⟩
abbrev main_v267 : Ref sig .tc := ⟨.hbm, 448, rfl⟩
abbrev main_v268 : Ref sig .tc := ⟨.hbm, 449, rfl⟩
abbrev main_c_114 : Ref sig .tc := ⟨.hbm, 450, rfl⟩
abbrev main_v269 : Ref sig .tc := ⟨.hbm, 451, rfl⟩
abbrev main_v270 : Ref sig .tc := ⟨.hbm, 452, rfl⟩
abbrev main_c_115 : Ref sig .tc := ⟨.hbm, 453, rfl⟩
abbrev main_v271 : Ref sig .tc := ⟨.hbm, 454, rfl⟩
abbrev main_v272 : Ref sig .tc := ⟨.hbm, 455, rfl⟩
abbrev main_c_116 : Ref sig .tc := ⟨.hbm, 456, rfl⟩
abbrev main_v273 : Ref sig .tc := ⟨.hbm, 457, rfl⟩
abbrev main_v274 : Ref sig .tc := ⟨.hbm, 458, rfl⟩
abbrev main_v275 : Ref sig .tc := ⟨.hbm, 459, rfl⟩
abbrev main_c_117 : Ref sig .tc := ⟨.hbm, 460, rfl⟩
abbrev main_v276 : Ref sig .tc := ⟨.hbm, 461, rfl⟩
abbrev main_v277 : Ref sig .tc := ⟨.hbm, 462, rfl⟩
abbrev main_c_118 : Ref sig .tc := ⟨.hbm, 463, rfl⟩
abbrev main_v278 : Ref sig .tc := ⟨.hbm, 464, rfl⟩
abbrev main_v279 : Ref sig .tc := ⟨.hbm, 465, rfl⟩
abbrev main_c_119 : Ref sig .tc := ⟨.hbm, 466, rfl⟩
abbrev main_v280 : Ref sig .tc := ⟨.hbm, 467, rfl⟩
abbrev main_v281 : Ref sig .tc := ⟨.hbm, 468, rfl⟩
abbrev main_v282 : Ref sig .tc := ⟨.hbm, 469, rfl⟩
abbrev main_c_120 : Ref sig .tc := ⟨.hbm, 470, rfl⟩
abbrev main_v283 : Ref sig .tc := ⟨.hbm, 471, rfl⟩
abbrev main_v284 : Ref sig .tc := ⟨.hbm, 472, rfl⟩
abbrev main_c_121 : Ref sig .tc := ⟨.hbm, 473, rfl⟩
abbrev main_v285 : Ref sig .tc := ⟨.hbm, 474, rfl⟩
abbrev main_v286 : Ref sig .tc := ⟨.hbm, 475, rfl⟩
abbrev main_c_122 : Ref sig .tc := ⟨.hbm, 476, rfl⟩
abbrev main_v287 : Ref sig .tc := ⟨.hbm, 477, rfl⟩
abbrev main_v288 : Ref sig .tc := ⟨.hbm, 478, rfl⟩
abbrev main_v289 : Ref sig .tc := ⟨.hbm, 479, rfl⟩
abbrev main_c_123 : Ref sig .tc := ⟨.hbm, 480, rfl⟩
abbrev main_v290 : Ref sig .tc := ⟨.hbm, 481, rfl⟩
abbrev main_v291 : Ref sig .tc := ⟨.hbm, 482, rfl⟩
abbrev main_v292 : Ref sig .tc := ⟨.hbm, 483, rfl⟩
abbrev main_v293 : Ref sig .tc := ⟨.hbm, 484, rfl⟩
abbrev main_v294 : Ref sig .tc := ⟨.hbm, 485, rfl⟩
abbrev main_v295 : Ref sig .tc := ⟨.hbm, 486, rfl⟩
abbrev main_v296 : Ref sig .tc := ⟨.hbm, 487, rfl⟩
abbrev main_v297 : Ref sig .tc := ⟨.hbm, 488, rfl⟩
abbrev main_v298 : Ref sig .tc := ⟨.hbm, 489, rfl⟩
abbrev main_v299 : Ref sig .tc := ⟨.hbm, 490, rfl⟩
abbrev main_v300 : Ref sig .tc := ⟨.hbm, 491, rfl⟩
abbrev main_v301 : Ref sig .tc := ⟨.hbm, 492, rfl⟩
abbrev main_v302 : Ref sig .tc := ⟨.hbm, 493, rfl⟩
abbrev main_v303 : Ref sig .tc := ⟨.hbm, 494, rfl⟩
abbrev main_v304_0 : Ref sig .tc := ⟨.hbm, 495, rfl⟩
abbrev main_v304_1 : Ref sig .tc := ⟨.hbm, 496, rfl⟩
abbrev main_v304_2 : Ref sig .tc := ⟨.hbm, 497, rfl⟩
abbrev main_v305 : Ref sig .tc := ⟨.hbm, 498, rfl⟩
abbrev main_cst_124 : Ref sig .tc := ⟨.hbm, 499, rfl⟩
abbrev main_v306 : Ref sig .tc := ⟨.hbm, 500, rfl⟩
abbrev main_v307 : Ref sig .tc := ⟨.hbm, 501, rfl⟩
abbrev main_cst_125 : Ref sig .tc := ⟨.hbm, 502, rfl⟩
abbrev main_v308 : Ref sig .tc := ⟨.hbm, 503, rfl⟩
abbrev main_cst_126 : Ref sig .tc := ⟨.hbm, 504, rfl⟩
abbrev main_v309 : Ref sig .tc := ⟨.hbm, 505, rfl⟩
abbrev main_v310 : Ref sig .tc := ⟨.hbm, 506, rfl⟩
abbrev main_cst_127 : Ref sig .tc := ⟨.hbm, 507, rfl⟩
abbrev main_v311 : Ref sig .tc := ⟨.hbm, 508, rfl⟩
abbrev main_v312 : Ref sig .tc := ⟨.hbm, 509, rfl⟩
abbrev main_v313 : Ref sig .tc := ⟨.hbm, 510, rfl⟩
abbrev main_v314 : Ref sig .tc := ⟨.hbm, 511, rfl⟩
abbrev main_cst_128 : Ref sig .tc := ⟨.hbm, 512, rfl⟩
abbrev main_v315 : Ref sig .tc := ⟨.hbm, 513, rfl⟩
abbrev main_v316 : Ref sig .tc := ⟨.hbm, 514, rfl⟩
abbrev main_v317 : Ref sig .tc := ⟨.hbm, 515, rfl⟩
abbrev main_v318 : Ref sig .tc := ⟨.hbm, 516, rfl⟩
abbrev main_c_129 : Ref sig .tc := ⟨.hbm, 517, rfl⟩
abbrev main_call5_v0 : Ref sig .tc := ⟨.hbm, 518, rfl⟩
abbrev main_v319 : Ref sig .tc := ⟨.hbm, 519, rfl⟩
abbrev main_v320 : Ref sig .tc := ⟨.hbm, 520, rfl⟩
abbrev main_v321 : Ref sig .tc := ⟨.hbm, 521, rfl⟩
abbrev main_v322 : Ref sig .tc := ⟨.hbm, 522, rfl⟩
abbrev main_c_130 : Ref sig .tc := ⟨.hbm, 523, rfl⟩
abbrev main_call6_v0 : Ref sig .tc := ⟨.hbm, 524, rfl⟩
abbrev main_v323 : Ref sig .tc := ⟨.hbm, 525, rfl⟩
abbrev main_v324 : Ref sig .tc := ⟨.hbm, 526, rfl⟩
abbrev main_v325 : Ref sig .tc := ⟨.hbm, 527, rfl⟩
abbrev main_v326 : Ref sig .tc := ⟨.hbm, 528, rfl⟩
abbrev main_c_131 : Ref sig .tc := ⟨.hbm, 529, rfl⟩
abbrev main_call7_v0 : Ref sig .tc := ⟨.hbm, 530, rfl⟩
abbrev main_v327 : Ref sig .tc := ⟨.hbm, 531, rfl⟩
abbrev main_v328 : Ref sig .tc := ⟨.hbm, 532, rfl⟩
abbrev main_v329 : Ref sig .tc := ⟨.hbm, 533, rfl⟩
abbrev main_v330 : Ref sig .tc := ⟨.hbm, 534, rfl⟩
abbrev main_c_132 : Ref sig .tc := ⟨.hbm, 535, rfl⟩
abbrev main_v331 : Ref sig .tc := ⟨.hbm, 536, rfl⟩
abbrev main_v332 : Ref sig .tc := ⟨.hbm, 537, rfl⟩
abbrev main_c_133 : Ref sig .tc := ⟨.hbm, 538, rfl⟩
abbrev main_v333 : Ref sig .tc := ⟨.hbm, 539, rfl⟩
abbrev main_v334 : Ref sig .tc := ⟨.hbm, 540, rfl⟩
abbrev main_v335 : Ref sig .tc := ⟨.hbm, 541, rfl⟩
abbrev main_v336 : Ref sig .tc := ⟨.hbm, 542, rfl⟩
abbrev main_v337 : Ref sig .tc := ⟨.hbm, 543, rfl⟩
abbrev main_v338 : Ref sig .tc := ⟨.hbm, 544, rfl⟩
abbrev main_c_134 : Ref sig .tc := ⟨.hbm, 545, rfl⟩
abbrev main_call8_v0 : Ref sig .tc := ⟨.hbm, 546, rfl⟩
abbrev main_call8_c : Ref sig .tc := ⟨.hbm, 547, rfl⟩
abbrev main_call8_v1 : Ref sig .tc := ⟨.hbm, 548, rfl⟩
abbrev main_call8_c_0 : Ref sig .tc := ⟨.hbm, 549, rfl⟩
abbrev main_call8_v2 : Ref sig .tc := ⟨.hbm, 550, rfl⟩
abbrev main_call8_v3 : Ref sig .tc := ⟨.hbm, 551, rfl⟩
abbrev main_call8_v4 : Ref sig .tc := ⟨.hbm, 552, rfl⟩
abbrev main_call8_c_1 : Ref sig .tc := ⟨.hbm, 553, rfl⟩
abbrev main_call8_v5 : Ref sig .tc := ⟨.hbm, 554, rfl⟩
abbrev main_call8_v6 : Ref sig .tc := ⟨.hbm, 555, rfl⟩
abbrev main_call8_c_2 : Ref sig .tc := ⟨.hbm, 556, rfl⟩
abbrev main_call8_v7 : Ref sig .tc := ⟨.hbm, 557, rfl⟩
abbrev main_call8_v8 : Ref sig .tc := ⟨.hbm, 558, rfl⟩
abbrev main_call8_c_3 : Ref sig .tc := ⟨.hbm, 559, rfl⟩
abbrev main_call8_v9 : Ref sig .tc := ⟨.hbm, 560, rfl⟩
abbrev main_call8_v10 : Ref sig .tc := ⟨.hbm, 561, rfl⟩
abbrev main_call8_v11 : Ref sig .tc := ⟨.hbm, 562, rfl⟩
abbrev main_call8_v12 : Ref sig .tc := ⟨.hbm, 563, rfl⟩
abbrev main_call8_v13 : Ref sig .tc := ⟨.hbm, 564, rfl⟩
abbrev main_call8_v14 : Ref sig .tc := ⟨.hbm, 565, rfl⟩
abbrev main_v339 : Ref sig .tc := ⟨.hbm, 566, rfl⟩
abbrev main_c_135 : Ref sig .tc := ⟨.hbm, 567, rfl⟩
abbrev main_call9_v0 : Ref sig .tc := ⟨.hbm, 568, rfl⟩
abbrev main_call9_v1 : Ref sig .tc := ⟨.hbm, 569, rfl⟩
abbrev main_call9_v2 : Ref sig .tc := ⟨.hbm, 570, rfl⟩
abbrev main_call9_v3 : Ref sig .tc := ⟨.hbm, 571, rfl⟩
abbrev main_call9_v4 : Ref sig .tc := ⟨.hbm, 572, rfl⟩
abbrev main_call9_v5 : Ref sig .tc := ⟨.hbm, 573, rfl⟩
abbrev main_call9_v6 : Ref sig .tc := ⟨.hbm, 574, rfl⟩
abbrev main_call9_v7 : Ref sig .tc := ⟨.hbm, 575, rfl⟩
abbrev main_call9_v8 : Ref sig .tc := ⟨.hbm, 576, rfl⟩
abbrev main_call9_c : Ref sig .tc := ⟨.hbm, 577, rfl⟩
abbrev main_call9_v9 : Ref sig .tc := ⟨.hbm, 578, rfl⟩
abbrev main_call9_v10 : Ref sig .tc := ⟨.hbm, 579, rfl⟩
abbrev main_call9_v11 : Ref sig .tc := ⟨.hbm, 580, rfl⟩
abbrev main_call9_c_0 : Ref sig .tc := ⟨.hbm, 581, rfl⟩
abbrev main_call9_v12 : Ref sig .tc := ⟨.hbm, 582, rfl⟩
abbrev main_call9_v13 : Ref sig .tc := ⟨.hbm, 583, rfl⟩
abbrev main_v340 : Ref sig .tc := ⟨.hbm, 584, rfl⟩
abbrev main_c_136 : Ref sig .tc := ⟨.hbm, 585, rfl⟩
abbrev main_call10_v0 : Ref sig .tc := ⟨.hbm, 586, rfl⟩
abbrev main_call10_c : Ref sig .tc := ⟨.hbm, 587, rfl⟩
abbrev main_call10_v1 : Ref sig .tc := ⟨.hbm, 588, rfl⟩
abbrev main_call10_c_0 : Ref sig .tc := ⟨.hbm, 589, rfl⟩
abbrev main_call10_v2 : Ref sig .tc := ⟨.hbm, 590, rfl⟩
abbrev main_call10_v3 : Ref sig .tc := ⟨.hbm, 591, rfl⟩
abbrev main_call10_v4 : Ref sig .tc := ⟨.hbm, 592, rfl⟩
abbrev main_call10_c_1 : Ref sig .tc := ⟨.hbm, 593, rfl⟩
abbrev main_call10_v5 : Ref sig .tc := ⟨.hbm, 594, rfl⟩
abbrev main_call10_v6 : Ref sig .tc := ⟨.hbm, 595, rfl⟩
abbrev main_call10_c_2 : Ref sig .tc := ⟨.hbm, 596, rfl⟩
abbrev main_call10_v7 : Ref sig .tc := ⟨.hbm, 597, rfl⟩
abbrev main_call10_v8 : Ref sig .tc := ⟨.hbm, 598, rfl⟩
abbrev main_call10_c_3 : Ref sig .tc := ⟨.hbm, 599, rfl⟩
abbrev main_call10_v9 : Ref sig .tc := ⟨.hbm, 600, rfl⟩
abbrev main_call10_v10 : Ref sig .tc := ⟨.hbm, 601, rfl⟩
abbrev main_call10_v11 : Ref sig .tc := ⟨.hbm, 602, rfl⟩
abbrev main_call10_v12 : Ref sig .tc := ⟨.hbm, 603, rfl⟩
abbrev main_call10_v13 : Ref sig .tc := ⟨.hbm, 604, rfl⟩
abbrev main_call10_v14 : Ref sig .tc := ⟨.hbm, 605, rfl⟩
abbrev main_v341 : Ref sig .tc := ⟨.hbm, 606, rfl⟩
abbrev main_c_137 : Ref sig .tc := ⟨.hbm, 607, rfl⟩
abbrev main_v342 : Ref sig .tc := ⟨.hbm, 608, rfl⟩
abbrev main_v343 : Ref sig .tc := ⟨.hbm, 609, rfl⟩
abbrev main_c_138 : Ref sig .tc := ⟨.hbm, 610, rfl⟩
abbrev main_v344 : Ref sig .tc := ⟨.hbm, 611, rfl⟩
abbrev main_v345 : Ref sig .tc := ⟨.hbm, 612, rfl⟩
abbrev main_c_139 : Ref sig .tc := ⟨.hbm, 613, rfl⟩
abbrev main_v346 : Ref sig .tc := ⟨.hbm, 614, rfl⟩
abbrev main_v347 : Ref sig .tc := ⟨.hbm, 615, rfl⟩
abbrev main_c_140 : Ref sig .tc := ⟨.hbm, 616, rfl⟩
abbrev main_v348 : Ref sig .tc := ⟨.hbm, 617, rfl⟩
abbrev main_v349 : Ref sig .tc := ⟨.hbm, 618, rfl⟩
abbrev main_c_141 : Ref sig .tc := ⟨.hbm, 619, rfl⟩
abbrev main_v350 : Ref sig .tc := ⟨.hbm, 620, rfl⟩
abbrev main_v351 : Ref sig .tc := ⟨.hbm, 621, rfl⟩
abbrev main_c_142 : Ref sig .tc := ⟨.hbm, 622, rfl⟩
abbrev main_v352 : Ref sig .tc := ⟨.hbm, 623, rfl⟩
abbrev main_v353 : Ref sig .tc := ⟨.hbm, 624, rfl⟩
abbrev main_v354 : Ref sig .tc := ⟨.hbm, 625, rfl⟩
abbrev main_c_143 : Ref sig .tc := ⟨.hbm, 626, rfl⟩
abbrev main_v355 : Ref sig .tc := ⟨.hbm, 627, rfl⟩
abbrev main_v356 : Ref sig .tc := ⟨.hbm, 628, rfl⟩
abbrev main_c_144 : Ref sig .tc := ⟨.hbm, 629, rfl⟩
abbrev main_v357 : Ref sig .tc := ⟨.hbm, 630, rfl⟩
abbrev main_v358 : Ref sig .tc := ⟨.hbm, 631, rfl⟩
abbrev main_c_145 : Ref sig .tc := ⟨.hbm, 632, rfl⟩
abbrev main_v359 : Ref sig .tc := ⟨.hbm, 633, rfl⟩
abbrev main_v360 : Ref sig .tc := ⟨.hbm, 634, rfl⟩
abbrev main_v361 : Ref sig .tc := ⟨.hbm, 635, rfl⟩
abbrev main_c_146 : Ref sig .tc := ⟨.hbm, 636, rfl⟩
abbrev main_v362 : Ref sig .tc := ⟨.hbm, 637, rfl⟩
abbrev main_v363 : Ref sig .tc := ⟨.hbm, 638, rfl⟩
abbrev main_c_147 : Ref sig .tc := ⟨.hbm, 639, rfl⟩
abbrev main_v364 : Ref sig .tc := ⟨.hbm, 640, rfl⟩
abbrev main_v365 : Ref sig .tc := ⟨.hbm, 641, rfl⟩
abbrev main_c_148 : Ref sig .tc := ⟨.hbm, 642, rfl⟩
abbrev main_v366 : Ref sig .tc := ⟨.hbm, 643, rfl⟩
abbrev main_v367 : Ref sig .tc := ⟨.hbm, 644, rfl⟩
abbrev main_v368 : Ref sig .tc := ⟨.hbm, 645, rfl⟩
abbrev main_c_149 : Ref sig .tc := ⟨.hbm, 646, rfl⟩
abbrev main_v369 : Ref sig .tc := ⟨.hbm, 647, rfl⟩
abbrev main_v370 : Ref sig .tc := ⟨.hbm, 648, rfl⟩
abbrev main_v371 : Ref sig .tc := ⟨.hbm, 649, rfl⟩
abbrev main_c_150 : Ref sig .tc := ⟨.hbm, 650, rfl⟩
abbrev main_v372 : Ref sig .tc := ⟨.hbm, 651, rfl⟩
abbrev main_v373 : Ref sig .tc := ⟨.hbm, 652, rfl⟩
abbrev main_c_151 : Ref sig .tc := ⟨.hbm, 653, rfl⟩
abbrev main_v374 : Ref sig .tc := ⟨.hbm, 654, rfl⟩
abbrev main_v375 : Ref sig .tc := ⟨.hbm, 655, rfl⟩
abbrev main_c_152 : Ref sig .tc := ⟨.hbm, 656, rfl⟩
abbrev main_v376 : Ref sig .tc := ⟨.hbm, 657, rfl⟩
abbrev main_v377 : Ref sig .tc := ⟨.hbm, 658, rfl⟩
abbrev main_c_153 : Ref sig .tc := ⟨.hbm, 659, rfl⟩
abbrev main_v378 : Ref sig .tc := ⟨.hbm, 660, rfl⟩
abbrev main_v379 : Ref sig .tc := ⟨.hbm, 661, rfl⟩
abbrev main_c_154 : Ref sig .tc := ⟨.hbm, 662, rfl⟩
abbrev main_v380 : Ref sig .tc := ⟨.hbm, 663, rfl⟩
abbrev main_v381 : Ref sig .tc := ⟨.hbm, 664, rfl⟩
abbrev main_c_155 : Ref sig .tc := ⟨.hbm, 665, rfl⟩
abbrev main_v382 : Ref sig .tc := ⟨.hbm, 666, rfl⟩
abbrev main_v383 : Ref sig .tc := ⟨.hbm, 667, rfl⟩
abbrev main_v384 : Ref sig .tc := ⟨.hbm, 668, rfl⟩
abbrev main_c_156 : Ref sig .tc := ⟨.hbm, 669, rfl⟩
abbrev main_v385 : Ref sig .tc := ⟨.hbm, 670, rfl⟩
abbrev main_v386 : Ref sig .tc := ⟨.hbm, 671, rfl⟩
abbrev main_c_157 : Ref sig .tc := ⟨.hbm, 672, rfl⟩
abbrev main_v387 : Ref sig .tc := ⟨.hbm, 673, rfl⟩
abbrev main_v388 : Ref sig .tc := ⟨.hbm, 674, rfl⟩
abbrev main_c_158 : Ref sig .tc := ⟨.hbm, 675, rfl⟩
abbrev main_v389 : Ref sig .tc := ⟨.hbm, 676, rfl⟩
abbrev main_v390 : Ref sig .tc := ⟨.hbm, 677, rfl⟩
abbrev main_v391 : Ref sig .tc := ⟨.hbm, 678, rfl⟩
abbrev main_c_159 : Ref sig .tc := ⟨.hbm, 679, rfl⟩
abbrev main_v392 : Ref sig .tc := ⟨.hbm, 680, rfl⟩
abbrev main_v393 : Ref sig .tc := ⟨.hbm, 681, rfl⟩
abbrev main_c_160 : Ref sig .tc := ⟨.hbm, 682, rfl⟩
abbrev main_v394 : Ref sig .tc := ⟨.hbm, 683, rfl⟩
abbrev main_v395 : Ref sig .tc := ⟨.hbm, 684, rfl⟩
abbrev main_c_161 : Ref sig .tc := ⟨.hbm, 685, rfl⟩
abbrev main_v396 : Ref sig .tc := ⟨.hbm, 686, rfl⟩
abbrev main_v397 : Ref sig .tc := ⟨.hbm, 687, rfl⟩
abbrev main_v398 : Ref sig .tc := ⟨.hbm, 688, rfl⟩
abbrev main_c_162 : Ref sig .tc := ⟨.hbm, 689, rfl⟩
abbrev main_v399 : Ref sig .tc := ⟨.hbm, 690, rfl⟩
abbrev main_v400 : Ref sig .tc := ⟨.hbm, 691, rfl⟩
abbrev main_v401 : Ref sig .tc := ⟨.hbm, 692, rfl⟩
abbrev main_c_163 : Ref sig .tc := ⟨.hbm, 693, rfl⟩
abbrev main_v402 : Ref sig .tc := ⟨.hbm, 694, rfl⟩
abbrev main_v403 : Ref sig .tc := ⟨.hbm, 695, rfl⟩
abbrev main_c_164 : Ref sig .tc := ⟨.hbm, 696, rfl⟩
abbrev main_v404 : Ref sig .tc := ⟨.hbm, 697, rfl⟩
abbrev main_v405 : Ref sig .tc := ⟨.hbm, 698, rfl⟩
abbrev main_c_165 : Ref sig .tc := ⟨.hbm, 699, rfl⟩
abbrev main_v406 : Ref sig .tc := ⟨.hbm, 700, rfl⟩
abbrev main_v407 : Ref sig .tc := ⟨.hbm, 701, rfl⟩
abbrev main_c_166 : Ref sig .tc := ⟨.hbm, 702, rfl⟩
abbrev main_v408 : Ref sig .tc := ⟨.hbm, 703, rfl⟩
abbrev main_v409 : Ref sig .tc := ⟨.hbm, 704, rfl⟩
abbrev main_c_167 : Ref sig .tc := ⟨.hbm, 705, rfl⟩
abbrev main_v410 : Ref sig .tc := ⟨.hbm, 706, rfl⟩
abbrev main_v411 : Ref sig .tc := ⟨.hbm, 707, rfl⟩
abbrev main_c_168 : Ref sig .tc := ⟨.hbm, 708, rfl⟩
abbrev main_v412 : Ref sig .tc := ⟨.hbm, 709, rfl⟩
abbrev main_v413 : Ref sig .tc := ⟨.hbm, 710, rfl⟩
abbrev main_v414 : Ref sig .tc := ⟨.hbm, 711, rfl⟩
abbrev main_c_169 : Ref sig .tc := ⟨.hbm, 712, rfl⟩
abbrev main_v415 : Ref sig .tc := ⟨.hbm, 713, rfl⟩
abbrev main_v416 : Ref sig .tc := ⟨.hbm, 714, rfl⟩
abbrev main_c_170 : Ref sig .tc := ⟨.hbm, 715, rfl⟩
abbrev main_v417 : Ref sig .tc := ⟨.hbm, 716, rfl⟩
abbrev main_v418 : Ref sig .tc := ⟨.hbm, 717, rfl⟩
abbrev main_c_171 : Ref sig .tc := ⟨.hbm, 718, rfl⟩
abbrev main_v419 : Ref sig .tc := ⟨.hbm, 719, rfl⟩
abbrev main_v420 : Ref sig .tc := ⟨.hbm, 720, rfl⟩
abbrev main_v421 : Ref sig .tc := ⟨.hbm, 721, rfl⟩
abbrev main_c_172 : Ref sig .tc := ⟨.hbm, 722, rfl⟩
abbrev main_v422 : Ref sig .tc := ⟨.hbm, 723, rfl⟩
abbrev main_v423 : Ref sig .tc := ⟨.hbm, 724, rfl⟩
abbrev main_c_173 : Ref sig .tc := ⟨.hbm, 725, rfl⟩
abbrev main_v424 : Ref sig .tc := ⟨.hbm, 726, rfl⟩
abbrev main_v425 : Ref sig .tc := ⟨.hbm, 727, rfl⟩
abbrev main_c_174 : Ref sig .tc := ⟨.hbm, 728, rfl⟩
abbrev main_v426 : Ref sig .tc := ⟨.hbm, 729, rfl⟩
abbrev main_v427 : Ref sig .tc := ⟨.hbm, 730, rfl⟩
abbrev main_v428 : Ref sig .tc := ⟨.hbm, 731, rfl⟩
abbrev main_c_175 : Ref sig .tc := ⟨.hbm, 732, rfl⟩
abbrev main_v429 : Ref sig .tc := ⟨.hbm, 733, rfl⟩
abbrev main_v430 : Ref sig .tc := ⟨.hbm, 734, rfl⟩
abbrev main_v431 : Ref sig .tc := ⟨.hbm, 735, rfl⟩
abbrev main_c_176 : Ref sig .tc := ⟨.hbm, 736, rfl⟩
abbrev main_v432 : Ref sig .tc := ⟨.hbm, 737, rfl⟩
abbrev main_v433 : Ref sig .tc := ⟨.hbm, 738, rfl⟩
abbrev main_c_177 : Ref sig .tc := ⟨.hbm, 739, rfl⟩
abbrev main_v434 : Ref sig .tc := ⟨.hbm, 740, rfl⟩
abbrev main_v435 : Ref sig .tc := ⟨.hbm, 741, rfl⟩
abbrev main_c_178 : Ref sig .tc := ⟨.hbm, 742, rfl⟩
abbrev main_v436 : Ref sig .tc := ⟨.hbm, 743, rfl⟩
abbrev main_v437 : Ref sig .tc := ⟨.hbm, 744, rfl⟩
abbrev main_c_179 : Ref sig .tc := ⟨.hbm, 745, rfl⟩
abbrev main_v438 : Ref sig .tc := ⟨.hbm, 746, rfl⟩
abbrev main_v439 : Ref sig .tc := ⟨.hbm, 747, rfl⟩
abbrev main_c_180 : Ref sig .tc := ⟨.hbm, 748, rfl⟩
abbrev main_v440 : Ref sig .tc := ⟨.hbm, 749, rfl⟩
abbrev main_v441 : Ref sig .tc := ⟨.hbm, 750, rfl⟩
abbrev main_c_181 : Ref sig .tc := ⟨.hbm, 751, rfl⟩
abbrev main_v442 : Ref sig .tc := ⟨.hbm, 752, rfl⟩
abbrev main_v443 : Ref sig .tc := ⟨.hbm, 753, rfl⟩
abbrev main_v444 : Ref sig .tc := ⟨.hbm, 754, rfl⟩
abbrev main_c_182 : Ref sig .tc := ⟨.hbm, 755, rfl⟩
abbrev main_v445 : Ref sig .tc := ⟨.hbm, 756, rfl⟩
abbrev main_v446 : Ref sig .tc := ⟨.hbm, 757, rfl⟩
abbrev main_c_183 : Ref sig .tc := ⟨.hbm, 758, rfl⟩
abbrev main_v447 : Ref sig .tc := ⟨.hbm, 759, rfl⟩
abbrev main_v448 : Ref sig .tc := ⟨.hbm, 760, rfl⟩
abbrev main_c_184 : Ref sig .tc := ⟨.hbm, 761, rfl⟩
abbrev main_v449 : Ref sig .tc := ⟨.hbm, 762, rfl⟩
abbrev main_v450 : Ref sig .tc := ⟨.hbm, 763, rfl⟩
abbrev main_v451 : Ref sig .tc := ⟨.hbm, 764, rfl⟩
abbrev main_c_185 : Ref sig .tc := ⟨.hbm, 765, rfl⟩
abbrev main_v452 : Ref sig .tc := ⟨.hbm, 766, rfl⟩
abbrev main_v453 : Ref sig .tc := ⟨.hbm, 767, rfl⟩
abbrev main_c_186 : Ref sig .tc := ⟨.hbm, 768, rfl⟩
abbrev main_v454 : Ref sig .tc := ⟨.hbm, 769, rfl⟩
abbrev main_v455 : Ref sig .tc := ⟨.hbm, 770, rfl⟩
abbrev main_c_187 : Ref sig .tc := ⟨.hbm, 771, rfl⟩
abbrev main_v456 : Ref sig .tc := ⟨.hbm, 772, rfl⟩
abbrev main_v457 : Ref sig .tc := ⟨.hbm, 773, rfl⟩
abbrev main_v458 : Ref sig .tc := ⟨.hbm, 774, rfl⟩
abbrev main_c_188 : Ref sig .tc := ⟨.hbm, 775, rfl⟩
abbrev main_v459 : Ref sig .tc := ⟨.hbm, 776, rfl⟩
abbrev main_v460 : Ref sig .tc := ⟨.hbm, 777, rfl⟩
abbrev main_v461 : Ref sig .tc := ⟨.hbm, 778, rfl⟩
abbrev main_c_189 : Ref sig .tc := ⟨.hbm, 779, rfl⟩
abbrev main_v462 : Ref sig .tc := ⟨.hbm, 780, rfl⟩
abbrev main_v463 : Ref sig .tc := ⟨.hbm, 781, rfl⟩
abbrev main_c_190 : Ref sig .tc := ⟨.hbm, 782, rfl⟩
abbrev main_v464 : Ref sig .tc := ⟨.hbm, 783, rfl⟩
abbrev main_v465 : Ref sig .tc := ⟨.hbm, 784, rfl⟩
abbrev main_c_191 : Ref sig .tc := ⟨.hbm, 785, rfl⟩
abbrev main_v466 : Ref sig .tc := ⟨.hbm, 786, rfl⟩
abbrev main_v467 : Ref sig .tc := ⟨.hbm, 787, rfl⟩
abbrev main_c_192 : Ref sig .tc := ⟨.hbm, 788, rfl⟩
abbrev main_v468 : Ref sig .tc := ⟨.hbm, 789, rfl⟩
abbrev main_v469 : Ref sig .tc := ⟨.hbm, 790, rfl⟩
abbrev main_c_193 : Ref sig .tc := ⟨.hbm, 791, rfl⟩
abbrev main_v470 : Ref sig .tc := ⟨.hbm, 792, rfl⟩
abbrev main_v471 : Ref sig .tc := ⟨.hbm, 793, rfl⟩
abbrev main_c_194 : Ref sig .tc := ⟨.hbm, 794, rfl⟩
abbrev main_v472 : Ref sig .tc := ⟨.hbm, 795, rfl⟩
abbrev main_v473 : Ref sig .tc := ⟨.hbm, 796, rfl⟩
abbrev main_v474 : Ref sig .tc := ⟨.hbm, 797, rfl⟩
abbrev main_c_195 : Ref sig .tc := ⟨.hbm, 798, rfl⟩
abbrev main_v475 : Ref sig .tc := ⟨.hbm, 799, rfl⟩
abbrev main_v476 : Ref sig .tc := ⟨.hbm, 800, rfl⟩
abbrev main_c_196 : Ref sig .tc := ⟨.hbm, 801, rfl⟩
abbrev main_v477 : Ref sig .tc := ⟨.hbm, 802, rfl⟩
abbrev main_v478 : Ref sig .tc := ⟨.hbm, 803, rfl⟩
abbrev main_c_197 : Ref sig .tc := ⟨.hbm, 804, rfl⟩
abbrev main_v479 : Ref sig .tc := ⟨.hbm, 805, rfl⟩
abbrev main_v480 : Ref sig .tc := ⟨.hbm, 806, rfl⟩
abbrev main_v481 : Ref sig .tc := ⟨.hbm, 807, rfl⟩
abbrev main_c_198 : Ref sig .tc := ⟨.hbm, 808, rfl⟩
abbrev main_v482 : Ref sig .tc := ⟨.hbm, 809, rfl⟩
abbrev main_v483 : Ref sig .tc := ⟨.hbm, 810, rfl⟩
abbrev main_c_199 : Ref sig .tc := ⟨.hbm, 811, rfl⟩
abbrev main_v484 : Ref sig .tc := ⟨.hbm, 812, rfl⟩
abbrev main_v485 : Ref sig .tc := ⟨.hbm, 813, rfl⟩
abbrev main_c_200 : Ref sig .tc := ⟨.hbm, 814, rfl⟩
abbrev main_v486 : Ref sig .tc := ⟨.hbm, 815, rfl⟩
abbrev main_v487 : Ref sig .tc := ⟨.hbm, 816, rfl⟩
abbrev main_v488 : Ref sig .tc := ⟨.hbm, 817, rfl⟩
abbrev main_c_201 : Ref sig .tc := ⟨.hbm, 818, rfl⟩
abbrev main_v489 : Ref sig .tc := ⟨.hbm, 819, rfl⟩
abbrev main_v490 : Ref sig .tc := ⟨.hbm, 820, rfl⟩
abbrev main_v491 : Ref sig .tc := ⟨.hbm, 821, rfl⟩
abbrev main_c_202 : Ref sig .tc := ⟨.hbm, 822, rfl⟩
abbrev main_v492 : Ref sig .tc := ⟨.hbm, 823, rfl⟩
abbrev main_v493 : Ref sig .tc := ⟨.hbm, 824, rfl⟩
abbrev main_c_203 : Ref sig .tc := ⟨.hbm, 825, rfl⟩
abbrev main_v494 : Ref sig .tc := ⟨.hbm, 826, rfl⟩
abbrev main_v495 : Ref sig .tc := ⟨.hbm, 827, rfl⟩
abbrev main_c_204 : Ref sig .tc := ⟨.hbm, 828, rfl⟩
abbrev main_v496 : Ref sig .tc := ⟨.hbm, 829, rfl⟩
abbrev main_v497 : Ref sig .tc := ⟨.hbm, 830, rfl⟩
abbrev main_c_205 : Ref sig .tc := ⟨.hbm, 831, rfl⟩
abbrev main_v498 : Ref sig .tc := ⟨.hbm, 832, rfl⟩
abbrev main_v499 : Ref sig .tc := ⟨.hbm, 833, rfl⟩
abbrev main_c_206 : Ref sig .tc := ⟨.hbm, 834, rfl⟩
abbrev main_v500 : Ref sig .tc := ⟨.hbm, 835, rfl⟩
abbrev main_v501 : Ref sig .tc := ⟨.hbm, 836, rfl⟩
abbrev main_c_207 : Ref sig .tc := ⟨.hbm, 837, rfl⟩
abbrev main_v502 : Ref sig .tc := ⟨.hbm, 838, rfl⟩
abbrev main_v503 : Ref sig .tc := ⟨.hbm, 839, rfl⟩
abbrev main_v504 : Ref sig .tc := ⟨.hbm, 840, rfl⟩
abbrev main_c_208 : Ref sig .tc := ⟨.hbm, 841, rfl⟩
abbrev main_v505 : Ref sig .tc := ⟨.hbm, 842, rfl⟩
abbrev main_v506 : Ref sig .tc := ⟨.hbm, 843, rfl⟩
abbrev main_c_209 : Ref sig .tc := ⟨.hbm, 844, rfl⟩
abbrev main_v507 : Ref sig .tc := ⟨.hbm, 845, rfl⟩
abbrev main_v508 : Ref sig .tc := ⟨.hbm, 846, rfl⟩
abbrev main_c_210 : Ref sig .tc := ⟨.hbm, 847, rfl⟩
abbrev main_v509 : Ref sig .tc := ⟨.hbm, 848, rfl⟩
abbrev main_v510 : Ref sig .tc := ⟨.hbm, 849, rfl⟩
abbrev main_v511 : Ref sig .tc := ⟨.hbm, 850, rfl⟩
abbrev main_c_211 : Ref sig .tc := ⟨.hbm, 851, rfl⟩
abbrev main_v512 : Ref sig .tc := ⟨.hbm, 852, rfl⟩
abbrev main_v513 : Ref sig .tc := ⟨.hbm, 853, rfl⟩
abbrev main_c_212 : Ref sig .tc := ⟨.hbm, 854, rfl⟩
abbrev main_v514 : Ref sig .tc := ⟨.hbm, 855, rfl⟩
abbrev main_v515 : Ref sig .tc := ⟨.hbm, 856, rfl⟩
abbrev main_c_213 : Ref sig .tc := ⟨.hbm, 857, rfl⟩
abbrev main_v516 : Ref sig .tc := ⟨.hbm, 858, rfl⟩
abbrev main_v517 : Ref sig .tc := ⟨.hbm, 859, rfl⟩
abbrev main_v518 : Ref sig .tc := ⟨.hbm, 860, rfl⟩
abbrev main_c_214 : Ref sig .tc := ⟨.hbm, 861, rfl⟩
abbrev main_v519 : Ref sig .tc := ⟨.hbm, 862, rfl⟩
abbrev main_v520 : Ref sig .tc := ⟨.hbm, 863, rfl⟩
abbrev main_v521 : Ref sig .tc := ⟨.hbm, 864, rfl⟩
abbrev main_c_215 : Ref sig .tc := ⟨.hbm, 865, rfl⟩
abbrev main_v522 : Ref sig .tc := ⟨.hbm, 866, rfl⟩
abbrev main_v523 : Ref sig .tc := ⟨.hbm, 867, rfl⟩
abbrev main_c_216 : Ref sig .tc := ⟨.hbm, 868, rfl⟩
abbrev main_v524 : Ref sig .tc := ⟨.hbm, 869, rfl⟩
abbrev main_v525 : Ref sig .tc := ⟨.hbm, 870, rfl⟩
abbrev main_c_217 : Ref sig .tc := ⟨.hbm, 871, rfl⟩
abbrev main_v526 : Ref sig .tc := ⟨.hbm, 872, rfl⟩
abbrev main_v527 : Ref sig .tc := ⟨.hbm, 873, rfl⟩
abbrev main_c_218 : Ref sig .tc := ⟨.hbm, 874, rfl⟩
abbrev main_v528 : Ref sig .tc := ⟨.hbm, 875, rfl⟩
abbrev main_v529 : Ref sig .tc := ⟨.hbm, 876, rfl⟩
abbrev main_c_219 : Ref sig .tc := ⟨.hbm, 877, rfl⟩
abbrev main_v530 : Ref sig .tc := ⟨.hbm, 878, rfl⟩
abbrev main_v531 : Ref sig .tc := ⟨.hbm, 879, rfl⟩
abbrev main_c_220 : Ref sig .tc := ⟨.hbm, 880, rfl⟩
abbrev main_v532 : Ref sig .tc := ⟨.hbm, 881, rfl⟩
abbrev main_v533 : Ref sig .tc := ⟨.hbm, 882, rfl⟩
abbrev main_v534 : Ref sig .tc := ⟨.hbm, 883, rfl⟩
abbrev main_c_221 : Ref sig .tc := ⟨.hbm, 884, rfl⟩
abbrev main_v535 : Ref sig .tc := ⟨.hbm, 885, rfl⟩
abbrev main_v536 : Ref sig .tc := ⟨.hbm, 886, rfl⟩
abbrev main_c_222 : Ref sig .tc := ⟨.hbm, 887, rfl⟩
abbrev main_v537 : Ref sig .tc := ⟨.hbm, 888, rfl⟩
abbrev main_v538 : Ref sig .tc := ⟨.hbm, 889, rfl⟩
abbrev main_c_223 : Ref sig .tc := ⟨.hbm, 890, rfl⟩
abbrev main_v539 : Ref sig .tc := ⟨.hbm, 891, rfl⟩
abbrev main_v540 : Ref sig .tc := ⟨.hbm, 892, rfl⟩
abbrev main_v541 : Ref sig .tc := ⟨.hbm, 893, rfl⟩
abbrev main_c_224 : Ref sig .tc := ⟨.hbm, 894, rfl⟩
abbrev main_v542 : Ref sig .tc := ⟨.hbm, 895, rfl⟩
abbrev main_v543 : Ref sig .tc := ⟨.hbm, 896, rfl⟩
abbrev main_c_225 : Ref sig .tc := ⟨.hbm, 897, rfl⟩
abbrev main_v544 : Ref sig .tc := ⟨.hbm, 898, rfl⟩
abbrev main_v545 : Ref sig .tc := ⟨.hbm, 899, rfl⟩
abbrev main_c_226 : Ref sig .tc := ⟨.hbm, 900, rfl⟩
abbrev main_v546 : Ref sig .tc := ⟨.hbm, 901, rfl⟩
abbrev main_v547 : Ref sig .tc := ⟨.hbm, 902, rfl⟩
abbrev main_v548 : Ref sig .tc := ⟨.hbm, 903, rfl⟩
abbrev main_c_227 : Ref sig .tc := ⟨.hbm, 904, rfl⟩
abbrev main_v549 : Ref sig .tc := ⟨.hbm, 905, rfl⟩
abbrev main_v550 : Ref sig .tc := ⟨.hbm, 906, rfl⟩
abbrev main_v551 : Ref sig .tc := ⟨.hbm, 907, rfl⟩
abbrev main_c_228 : Ref sig .tc := ⟨.hbm, 908, rfl⟩
abbrev main_v552 : Ref sig .tc := ⟨.hbm, 909, rfl⟩
abbrev main_v553 : Ref sig .tc := ⟨.hbm, 910, rfl⟩
abbrev main_c_229 : Ref sig .tc := ⟨.hbm, 911, rfl⟩
abbrev main_v554 : Ref sig .tc := ⟨.hbm, 912, rfl⟩
abbrev main_v555 : Ref sig .tc := ⟨.hbm, 913, rfl⟩
abbrev main_c_230 : Ref sig .tc := ⟨.hbm, 914, rfl⟩
abbrev main_v556 : Ref sig .tc := ⟨.hbm, 915, rfl⟩
abbrev main_v557 : Ref sig .tc := ⟨.hbm, 916, rfl⟩
abbrev main_c_231 : Ref sig .tc := ⟨.hbm, 917, rfl⟩
abbrev main_v558 : Ref sig .tc := ⟨.hbm, 918, rfl⟩
abbrev main_v559 : Ref sig .tc := ⟨.hbm, 919, rfl⟩
abbrev main_c_232 : Ref sig .tc := ⟨.hbm, 920, rfl⟩
abbrev main_v560 : Ref sig .tc := ⟨.hbm, 921, rfl⟩
abbrev main_v561 : Ref sig .tc := ⟨.hbm, 922, rfl⟩
abbrev main_c_233 : Ref sig .tc := ⟨.hbm, 923, rfl⟩
abbrev main_v562 : Ref sig .tc := ⟨.hbm, 924, rfl⟩
abbrev main_v563 : Ref sig .tc := ⟨.hbm, 925, rfl⟩
abbrev main_v564 : Ref sig .tc := ⟨.hbm, 926, rfl⟩
abbrev main_c_234 : Ref sig .tc := ⟨.hbm, 927, rfl⟩
abbrev main_v565 : Ref sig .tc := ⟨.hbm, 928, rfl⟩
abbrev main_v566 : Ref sig .tc := ⟨.hbm, 929, rfl⟩
abbrev main_c_235 : Ref sig .tc := ⟨.hbm, 930, rfl⟩
abbrev main_v567 : Ref sig .tc := ⟨.hbm, 931, rfl⟩
abbrev main_v568 : Ref sig .tc := ⟨.hbm, 932, rfl⟩
abbrev main_c_236 : Ref sig .tc := ⟨.hbm, 933, rfl⟩
abbrev main_v569 : Ref sig .tc := ⟨.hbm, 934, rfl⟩
abbrev main_v570 : Ref sig .tc := ⟨.hbm, 935, rfl⟩
abbrev main_v571 : Ref sig .tc := ⟨.hbm, 936, rfl⟩
abbrev main_c_237 : Ref sig .tc := ⟨.hbm, 937, rfl⟩
abbrev main_v572 : Ref sig .tc := ⟨.hbm, 938, rfl⟩
abbrev main_v573 : Ref sig .tc := ⟨.hbm, 939, rfl⟩
abbrev main_c_238 : Ref sig .tc := ⟨.hbm, 940, rfl⟩
abbrev main_v574 : Ref sig .tc := ⟨.hbm, 941, rfl⟩
abbrev main_v575 : Ref sig .tc := ⟨.hbm, 942, rfl⟩
abbrev main_c_239 : Ref sig .tc := ⟨.hbm, 943, rfl⟩
abbrev main_v576 : Ref sig .tc := ⟨.hbm, 944, rfl⟩
abbrev main_v577 : Ref sig .tc := ⟨.hbm, 945, rfl⟩
abbrev main_v578 : Ref sig .tc := ⟨.hbm, 946, rfl⟩
abbrev main_c_240 : Ref sig .tc := ⟨.hbm, 947, rfl⟩
abbrev main_v579 : Ref sig .tc := ⟨.hbm, 948, rfl⟩
abbrev main_v580 : Ref sig .tc := ⟨.hbm, 949, rfl⟩
abbrev main_v581 : Ref sig .tc := ⟨.hbm, 950, rfl⟩
abbrev main_c_241 : Ref sig .tc := ⟨.hbm, 951, rfl⟩
abbrev main_v582 : Ref sig .tc := ⟨.hbm, 952, rfl⟩
abbrev main_v583 : Ref sig .tc := ⟨.hbm, 953, rfl⟩
abbrev main_c_242 : Ref sig .tc := ⟨.hbm, 954, rfl⟩
abbrev main_v584 : Ref sig .tc := ⟨.hbm, 955, rfl⟩
abbrev main_v585 : Ref sig .tc := ⟨.hbm, 956, rfl⟩
abbrev main_c_243 : Ref sig .tc := ⟨.hbm, 957, rfl⟩
abbrev main_v586 : Ref sig .tc := ⟨.hbm, 958, rfl⟩
abbrev main_v587 : Ref sig .tc := ⟨.hbm, 959, rfl⟩
abbrev main_c_244 : Ref sig .tc := ⟨.hbm, 960, rfl⟩
abbrev main_v588 : Ref sig .tc := ⟨.hbm, 961, rfl⟩
abbrev main_v589 : Ref sig .tc := ⟨.hbm, 962, rfl⟩
abbrev main_c_245 : Ref sig .tc := ⟨.hbm, 963, rfl⟩
abbrev main_v590 : Ref sig .tc := ⟨.hbm, 964, rfl⟩
abbrev main_v591 : Ref sig .tc := ⟨.hbm, 965, rfl⟩
abbrev main_c_246 : Ref sig .tc := ⟨.hbm, 966, rfl⟩
abbrev main_v592 : Ref sig .tc := ⟨.hbm, 967, rfl⟩
abbrev main_v593 : Ref sig .tc := ⟨.hbm, 968, rfl⟩
abbrev main_v594 : Ref sig .tc := ⟨.hbm, 969, rfl⟩
abbrev main_c_247 : Ref sig .tc := ⟨.hbm, 970, rfl⟩
abbrev main_v595 : Ref sig .tc := ⟨.hbm, 971, rfl⟩
abbrev main_v596 : Ref sig .tc := ⟨.hbm, 972, rfl⟩
abbrev main_c_248 : Ref sig .tc := ⟨.hbm, 973, rfl⟩
abbrev main_v597 : Ref sig .tc := ⟨.hbm, 974, rfl⟩
abbrev main_v598 : Ref sig .tc := ⟨.hbm, 975, rfl⟩
abbrev main_c_249 : Ref sig .tc := ⟨.hbm, 976, rfl⟩
abbrev main_v599 : Ref sig .tc := ⟨.hbm, 977, rfl⟩
abbrev main_v600 : Ref sig .tc := ⟨.hbm, 978, rfl⟩
abbrev main_v601 : Ref sig .tc := ⟨.hbm, 979, rfl⟩
abbrev main_c_250 : Ref sig .tc := ⟨.hbm, 980, rfl⟩
abbrev main_v602 : Ref sig .tc := ⟨.hbm, 981, rfl⟩
abbrev main_v603 : Ref sig .tc := ⟨.hbm, 982, rfl⟩
abbrev main_c_251 : Ref sig .tc := ⟨.hbm, 983, rfl⟩
abbrev main_v604 : Ref sig .tc := ⟨.hbm, 984, rfl⟩
abbrev main_v605 : Ref sig .tc := ⟨.hbm, 985, rfl⟩
abbrev main_c_252 : Ref sig .tc := ⟨.hbm, 986, rfl⟩
abbrev main_v606 : Ref sig .tc := ⟨.hbm, 987, rfl⟩
abbrev main_v607 : Ref sig .tc := ⟨.hbm, 988, rfl⟩
abbrev main_v608 : Ref sig .tc := ⟨.hbm, 989, rfl⟩
abbrev main_c_253 : Ref sig .tc := ⟨.hbm, 990, rfl⟩
abbrev main_v609 : Ref sig .tc := ⟨.hbm, 991, rfl⟩
abbrev main_v610 : Ref sig .tc := ⟨.hbm, 992, rfl⟩
abbrev main_v611 : Ref sig .tc := ⟨.hbm, 993, rfl⟩
abbrev main_v612 : Ref sig .tc := ⟨.hbm, 994, rfl⟩
abbrev main_v613 : Ref sig .tc := ⟨.hbm, 995, rfl⟩
abbrev main_v614 : Ref sig .tc := ⟨.hbm, 996, rfl⟩
abbrev main_v615 : Ref sig .tc := ⟨.hbm, 997, rfl⟩
abbrev main_v616 : Ref sig .tc := ⟨.hbm, 998, rfl⟩
abbrev main_v617 : Ref sig .tc := ⟨.hbm, 999, rfl⟩
abbrev main_v618 : Ref sig .tc := ⟨.hbm, 1000, rfl⟩
abbrev main_v619 : Ref sig .tc := ⟨.hbm, 1001, rfl⟩
abbrev main_v620 : Ref sig .tc := ⟨.hbm, 1002, rfl⟩
abbrev main_v621 : Ref sig .tc := ⟨.hbm, 1003, rfl⟩
abbrev main_v622 : Ref sig .tc := ⟨.hbm, 1004, rfl⟩
abbrev main_v623_0 : Ref sig .tc := ⟨.hbm, 1005, rfl⟩
abbrev main_v623_1 : Ref sig .tc := ⟨.hbm, 1006, rfl⟩
abbrev main_v623_2 : Ref sig .tc := ⟨.hbm, 1007, rfl⟩
abbrev main_v624 : Ref sig .tc := ⟨.hbm, 1008, rfl⟩
abbrev main_cst_254 : Ref sig .tc := ⟨.hbm, 1009, rfl⟩
abbrev main_v625 : Ref sig .tc := ⟨.hbm, 1010, rfl⟩
abbrev main_v626 : Ref sig .tc := ⟨.hbm, 1011, rfl⟩
abbrev main_cst_255 : Ref sig .tc := ⟨.hbm, 1012, rfl⟩
abbrev main_v627 : Ref sig .tc := ⟨.hbm, 1013, rfl⟩
abbrev main_cst_256 : Ref sig .tc := ⟨.hbm, 1014, rfl⟩
abbrev main_v628 : Ref sig .tc := ⟨.hbm, 1015, rfl⟩
abbrev main_v629 : Ref sig .tc := ⟨.hbm, 1016, rfl⟩
abbrev main_cst_257 : Ref sig .tc := ⟨.hbm, 1017, rfl⟩
abbrev main_v630 : Ref sig .tc := ⟨.hbm, 1018, rfl⟩
abbrev main_v631 : Ref sig .tc := ⟨.hbm, 1019, rfl⟩
abbrev main_v632 : Ref sig .tc := ⟨.hbm, 1020, rfl⟩
abbrev main_v633 : Ref sig .tc := ⟨.hbm, 1021, rfl⟩
abbrev main_cst_258 : Ref sig .tc := ⟨.hbm, 1022, rfl⟩
abbrev main_v634 : Ref sig .tc := ⟨.hbm, 1023, rfl⟩
abbrev main_v635 : Ref sig .tc := ⟨.hbm, 1024, rfl⟩
abbrev main_v636 : Ref sig .tc := ⟨.hbm, 1025, rfl⟩
abbrev main_v637 : Ref sig .tc := ⟨.hbm, 1026, rfl⟩
abbrev main_c_259 : Ref sig .tc := ⟨.hbm, 1027, rfl⟩
abbrev main_call11_v0 : Ref sig .tc := ⟨.hbm, 1028, rfl⟩
abbrev main_v638 : Ref sig .tc := ⟨.hbm, 1029, rfl⟩
abbrev main_v639 : Ref sig .tc := ⟨.hbm, 1030, rfl⟩
abbrev main_v640 : Ref sig .tc := ⟨.hbm, 1031, rfl⟩
abbrev main_v641 : Ref sig .tc := ⟨.hbm, 1032, rfl⟩
abbrev main_c_260 : Ref sig .tc := ⟨.hbm, 1033, rfl⟩
abbrev main_call12_v0 : Ref sig .tc := ⟨.hbm, 1034, rfl⟩
abbrev main_v642 : Ref sig .tc := ⟨.hbm, 1035, rfl⟩
abbrev main_v643 : Ref sig .tc := ⟨.hbm, 1036, rfl⟩
abbrev main_v644 : Ref sig .tc := ⟨.hbm, 1037, rfl⟩
abbrev main_v645 : Ref sig .tc := ⟨.hbm, 1038, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc1_scratch0 : Ref sig .tc := ⟨.vmem, 17, rfl⟩
abbrev cc1_scratch1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc2_stg8_0 : Ref sig .tc := ⟨.vmem, 30, rfl⟩
abbrev cc2_stg8_1 : Ref sig .tc := ⟨.vmem, 31, rfl⟩
abbrev cc2_scratch0 : Ref sig .tc := ⟨.vmem, 32, rfl⟩
abbrev cc2_scratch1 : Ref sig .tc := ⟨.vmem, 33, rfl⟩
abbrev cc3_stg0_0 : Ref sig .tc := ⟨.vmem, 34, rfl⟩
abbrev cc3_stg0_1 : Ref sig .tc := ⟨.vmem, 35, rfl⟩
abbrev cc3_stg1_0 : Ref sig .tc := ⟨.vmem, 36, rfl⟩
abbrev cc3_stg2_0 : Ref sig .tc := ⟨.vmem, 37, rfl⟩
abbrev cc3_stg3_0 : Ref sig .tc := ⟨.vmem, 38, rfl⟩
abbrev cc3_stg3_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem4_0 : DmaSem sig := 9
abbrev cc1_sem5_0 : DmaSem sig := 10
abbrev cc1_sem6_0 : DmaSem sig := 11
abbrev cc1_sem6_1 : DmaSem sig := 12
abbrev cc1_sem7_0 : DmaSem sig := 13
abbrev cc1_sem7_1 : DmaSem sig := 14
abbrev cc1_sem8_0 : DmaSem sig := 15
abbrev cc1_sem8_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem6_0 : DmaSem sig := 24
abbrev cc2_sem6_1 : DmaSem sig := 25
abbrev cc2_sem7_0 : DmaSem sig := 26
abbrev cc2_sem7_1 : DmaSem sig := 27
abbrev cc2_sem8_0 : DmaSem sig := 28
abbrev cc2_sem8_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35

abbrev nD : Nat := 1
abbrev τ : Topo := Topo.v7x

variable {F : FTy → Type} [FloatOps F]

abbrev grid0 : Pipeline.Grid := ⟨1, ![256], ![false]⟩

def cc0_transform_0 (i : grid0.Coords) : Fin 7 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  let c0_i32_4 : BitVec 32 := 0#32
  let c0_i32_5 : BitVec 32 := 0#32
  ![arg0.toNat, c0_i32.toNat, c0_i32_0.toNat, c0_i32_1.toNat, c0_i32_2.toNat, c0_i32_3.toNat, c0_i32_4.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x16x2x16x2x16x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x16x16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x32x4864 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x864 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x4864 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S9x4096 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x64x4864 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x64x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x64x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x64x4864 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x1728 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x4864 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S9x4096 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1x64x4096 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x64x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S1x64x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S1x64x4096 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x1 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1x64x4096 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  shapeCasts_S8x32x32x32x32_S256x16x2x16x2x16x2 : S8x32x32x32x32.ShapeCasts S256x16x2x16x2x16x2
  inb_S1x16x2x16x2x16x2_S1x1x1x16x1x16x2_0_0_0_0_0_0_0 : ∀ a, (![0, 0, 0, 0, 0, 0, 0] : Fin 7 → Nat) a + S1x1x1x16x1x16x2.size a ≤ S1x16x2x16x2x16x2.size a
  h_S1x1x1x16x1x16x2 : 0 < S1x1x1x16x1x16x2.numel
  shapeCasts_S1x1x1x16x1x16x2_S16x16x2 : S1x1x1x16x1x16x2.ShapeCasts S16x16x2
  inb_S1x16x2x16x2x16x2_S1x1x1x16x1x16x2_0_0_0_0_1_0_0 : ∀ a, (![0, 0, 0, 0, 1, 0, 0] : Fin 7 → Nat) a + S1x1x1x16x1x16x2.size a ≤ S1x16x2x16x2x16x2.size a
  inb_S1x16x2x16x2x16x2_S1x1x1x16x1x16x2_0_0_1_0_0_0_0 : ∀ a, (![0, 0, 1, 0, 0, 0, 0] : Fin 7 → Nat) a + S1x1x1x16x1x16x2.size a ≤ S1x16x2x16x2x16x2.size a
  inb_S1x16x2x16x2x16x2_S1x1x1x16x1x16x2_0_0_1_0_1_0_0 : ∀ a, (![0, 0, 1, 0, 1, 0, 0] : Fin 7 → Nat) a + S1x1x1x16x1x16x2.size a ≤ S1x16x2x16x2x16x2.size a
  reduces_S16x16x2_S16x16 : S16x16x2.Reduces [2] S16x16
  shapeCasts_S16x16_S16x16x1 : S16x16.ShapeCasts S16x16x1
  inb_S1x16x16x16x1_S1x1x16x16x1_0_0_0_0_0 : ∀ a, (![0, 0, 0, 0, 0] : Fin 5 → Nat) a + S1x1x16x16x1.size a ≤ S1x16x16x16x1.size a
  h_S1x1x16x16x1 : 0 < S1x1x16x16x1.numel
  shapeCasts_S1x1x16x16x1_S16x16x1 : S1x1x16x16x1.ShapeCasts S16x16x1
  shapeCasts_S16x16x1_S1x1x16x16x1 : S16x16x1.ShapeCasts S1x1x16x16x1
  inb_S1x16x2x16x2x16x2_S1x1x1x16x1x16x2_0_1_0_0_0_0_0 : ∀ a, (![0, 1, 0, 0, 0, 0, 0] : Fin 7 → Nat) a + S1x1x1x16x1x16x2.size a ≤ S1x16x2x16x2x16x2.size a
  inb_S1x16x2x16x2x16x2_S1x1x1x16x1x16x2_0_1_0_0_1_0_0 : ∀ a, (![0, 1, 0, 0, 1, 0, 0] : Fin 7 → Nat) a + S1x1x1x16x1x16x2.size a ≤ S1x16x2x16x2x16x2.size a
  inb_S1x16x2x16x2x16x2_S1x1x1x16x1x16x2_0_1_1_0_0_0_0 : ∀ a, (![0, 1, 1, 0, 0, 0, 0] : Fin 7 → Nat) a + S1x1x1x16x1x16x2.size a ≤ S1x16x2x16x2x16x2.size a
  inb_S1x16x2x16x2x16x2_S1x1x1x16x1x16x2_0_1_1_0_1_0_0 : ∀ a, (![0, 1, 1, 0, 1, 0, 0] : Fin 7 → Nat) a + S1x1x1x16x1x16x2.size a ≤ S1x16x2x16x2x16x2.size a
  inb_S1x16x16x16x1_S1x1x16x16x1_0_1_0_0_0 : ∀ a, (![0, 1, 0, 0, 0] : Fin 5 → Nat) a + S1x1x16x16x1.size a ≤ S1x16x16x16x1.size a
  inb_S1x16x2x16x2x16x2_S1x1x1x16x1x16x2_0_2_0_0_0_0_0 : ∀ a, (![0, 2, 0, 0, 0, 0, 0] : Fin 7 → Nat) a + S1x1x1x16x1x16x2.size a ≤ S1x16x2x16x2x16x2.size a
  inb_S1x16x2x16x2x16x2_S1x1x1x16x1x16x2_0_2_0_0_1_0_0 : ∀ a, (![0, 2, 0, 0, 1, 0, 0] : Fin 7 → Nat) a + S1x1x1x16x1x16x2.size a ≤ S1x16x2x16x2x16x2.size a
  inb_S1x16x2x16x2x16x2_S1x1x1x16x1x16x2_0_2_1_0_0_0_0 : ∀ a, (![0, 2, 1, 0, 0, 0, 0] : Fin 7 → Nat) a + S1x1x1x16x1x16x2.size a ≤ S1x16x2x16x2x16x2.size a
  inb_S1x16x2x16x2x16x2_S1x1x1x16x1x16x2_0_2_1_0_1_0_0 : ∀ a, (![0, 2, 1, 0, 1, 0, 0] : Fin 7 → Nat) a + S1x1x1x16x1x16x2.size a ≤ S1x16x2x16x2x16x2.size a
  inb_S1x16x16x16x1_S1x1x16x16x1_0_2_0_0_0 : ∀ a, (![0, 2, 0, 0, 0] : Fin 5 → Nat) a + S1x1x16x16x1.size a ≤ S1x16x16x16x1.size a
  inb_S1x16x2x16x2x16x2_S1x1x1x16x1x16x2_0_3_0_0_0_0_0 : ∀ a, (![0, 3, 0, 0, 0, 0, 0] : Fin 7 → Nat) a + S1x1x1x16x1x16x2.size a ≤ S1x16x2x16x2x16x2.size a
  inb_S1x16x2x16x2x16x2_S1x1x1x16x1x16x2_0_3_0_0_1_0_0 : ∀ a, (![0, 3, 0, 0, 1, 0, 0] : Fin 7 → Nat) a + S1x1x1x16x1x16x2.size a ≤ S1x16x2x16x2x16x2.size a
  inb_S1x16x2x16x2x16x2_S1x1x1x16x1x16x2_0_3_1_0_0_0_0 : ∀ a, (![0, 3, 1, 0, 0, 0, 0] : Fin 7 → Nat) a + S1x1x1x16x1x16x2.size a ≤ S1x16x2x16x2x16x2.size a
  inb_S1x16x2x16x2x16x2_S1x1x1x16x1x16x2_0_3_1_0_1_0_0 : ∀ a, (![0, 3, 1, 0, 1, 0, 0] : Fin 7 → Nat) a + S1x1x1x16x1x16x2.size a ≤ S1x16x2x16x2x16x2.size a
  inb_S1x16x16x16x1_S1x1x16x16x1_0_3_0_0_0 : ∀ a, (![0, 3, 0, 0, 0] : Fin 5 → Nat) a + S1x1x16x16x1.size a ≤ S1x16x16x16x1.size a
  inb_S1x16x2x16x2x16x2_S1x1x1x16x1x16x2_0_4_0_0_0_0_0 : ∀ a, (![0, 4, 0, 0, 0, 0, 0] : Fin 7 → Nat) a + S1x1x1x16x1x16x2.size a ≤ S1x16x2x16x2x16x2.size a
  inb_S1x16x2x16x2x16x2_S1x1x1x16x1x16x2_0_4_0_0_1_0_0 : ∀ a, (![0, 4, 0, 0, 1, 0, 0] : Fin 7 → Nat) a + S1x1x1x16x1x16x2.size a ≤ S1x16x2x16x2x16x2.size a
  inb_S1x16x2x16x2x16x2_S1x1x1x16x1x16x2_0_4_1_0_0_0_0 : ∀ a, (![0, 4, 1, 0, 0, 0, 0] : Fin 7 → Nat) a + S1x1x1x16x1x16x2.size a ≤ S1x16x2x16x2x16x2.size a
  inb_S1x16x2x16x2x16x2_S1x1x1x16x1x16x2_0_4_1_0_1_0_0 : ∀ a, (![0, 4, 1, 0, 1, 0, 0] : Fin 7 → Nat) a + S1x1x1x16x1x16x2.size a ≤ S1x16x2x16x2x16x2.size a
  inb_S1x16x16x16x1_S1x1x16x16x1_0_4_0_0_0 : ∀ a, (![0, 4, 0, 0, 0] : Fin 5 → Nat) a + S1x1x16x16x1.size a ≤ S1x16x16x16x1.size a
  inb_S1x16x2x16x2x16x2_S1x1x1x16x1x16x2_0_5_0_0_0_0_0 : ∀ a, (![0, 5, 0, 0, 0, 0, 0] : Fin 7 → Nat) a + S1x1x1x16x1x16x2.size a ≤ S1x16x2x16x2x16x2.size a
  inb_S1x16x2x16x2x16x2_S1x1x1x16x1x16x2_0_5_0_0_1_0_0 : ∀ a, (![0, 5, 0, 0, 1, 0, 0] : Fin 7 → Nat) a + S1x1x1x16x1x16x2.size a ≤ S1x16x2x16x2x16x2.size a
  inb_S1x16x2x16x2x16x2_S1x1x1x16x1x16x2_0_5_1_0_0_0_0 : ∀ a, (![0, 5, 1, 0, 0, 0, 0] : Fin 7 → Nat) a + S1x1x1x16x1x16x2.size a ≤ S1x16x2x16x2x16x2.size a
  inb_S1x16x2x16x2x16x2_S1x1x1x16x1x16x2_0_5_1_0_1_0_0 : ∀ a, (![0, 5, 1, 0, 1, 0, 0] : Fin 7 → Nat) a + S1x1x1x16x1x16x2.size a ≤ S1x16x2x16x2x16x2.size a
  inb_S1x16x16x16x1_S1x1x16x16x1_0_5_0_0_0 : ∀ a, (![0, 5, 0, 0, 0] : Fin 5 → Nat) a + S1x1x16x16x1.size a ≤ S1x16x16x16x1.size a
  inb_S1x16x2x16x2x16x2_S1x1x1x16x1x16x2_0_6_0_0_0_0_0 : ∀ a, (![0, 6, 0, 0, 0, 0, 0] : Fin 7 → Nat) a + S1x1x1x16x1x16x2.size a ≤ S1x16x2x16x2x16x2.size a
  inb_S1x16x2x16x2x16x2_S1x1x1x16x1x16x2_0_6_0_0_1_0_0 : ∀ a, (![0, 6, 0, 0, 1, 0, 0] : Fin 7 → Nat) a + S1x1x1x16x1x16x2.size a ≤ S1x16x2x16x2x16x2.size a
  inb_S1x16x2x16x2x16x2_S1x1x1x16x1x16x2_0_6_1_0_0_0_0 : ∀ a, (![0, 6, 1, 0, 0, 0, 0] : Fin 7 → Nat) a + S1x1x1x16x1x16x2.size a ≤ S1x16x2x16x2x16x2.size a
  inb_S1x16x2x16x2x16x2_S1x1x1x16x1x16x2_0_6_1_0_1_0_0 : ∀ a, (![0, 6, 1, 0, 1, 0, 0] : Fin 7 → Nat) a + S1x1x1x16x1x16x2.size a ≤ S1x16x2x16x2x16x2.size a
  inb_S1x16x16x16x1_S1x1x16x16x1_0_6_0_0_0 : ∀ a, (![0, 6, 0, 0, 0] : Fin 5 → Nat) a + S1x1x16x16x1.size a ≤ S1x16x16x16x1.size a
  inb_S1x16x2x16x2x16x2_S1x1x1x16x1x16x2_0_7_0_0_0_0_0 : ∀ a, (![0, 7, 0, 0, 0, 0, 0] : Fin 7 → Nat) a + S1x1x1x16x1x16x2.size a ≤ S1x16x2x16x2x16x2.size a
  inb_S1x16x2x16x2x16x2_S1x1x1x16x1x16x2_0_7_0_0_1_0_0 : ∀ a, (![0, 7, 0, 0, 1, 0, 0] : Fin 7 → Nat) a + S1x1x1x16x1x16x2.size a ≤ S1x16x2x16x2x16x2.size a
  inb_S1x16x2x16x2x16x2_S1x1x1x16x1x16x2_0_7_1_0_0_0_0 : ∀ a, (![0, 7, 1, 0, 0, 0, 0] : Fin 7 → Nat) a + S1x1x1x16x1x16x2.size a ≤ S1x16x2x16x2x16x2.size a
  inb_S1x16x2x16x2x16x2_S1x1x1x16x1x16x2_0_7_1_0_1_0_0 : ∀ a, (![0, 7, 1, 0, 1, 0, 0] : Fin 7 → Nat) a + S1x1x1x16x1x16x2.size a ≤ S1x16x2x16x2x16x2.size a
  inb_S1x16x16x16x1_S1x1x16x16x1_0_7_0_0_0 : ∀ a, (![0, 7, 0, 0, 0] : Fin 5 → Nat) a + S1x1x16x16x1.size a ≤ S1x16x16x16x1.size a
  inb_S1x16x2x16x2x16x2_S1x1x1x16x1x16x2_0_8_0_0_0_0_0 : ∀ a, (![0, 8, 0, 0, 0, 0, 0] : Fin 7 → Nat) a + S1x1x1x16x1x16x2.size a ≤ S1x16x2x16x2x16x2.size a
  inb_S1x16x2x16x2x16x2_S1x1x1x16x1x16x2_0_8_0_0_1_0_0 : ∀ a, (![0, 8, 0, 0, 1, 0, 0] : Fin 7 → Nat) a + S1x1x1x16x1x16x2.size a ≤ S1x16x2x16x2x16x2.size a
  inb_S1x16x2x16x2x16x2_S1x1x1x16x1x16x2_0_8_1_0_0_0_0 : ∀ a, (![0, 8, 1, 0, 0, 0, 0] : Fin 7 → Nat) a + S1x1x1x16x1x16x2.size a ≤ S1x16x2x16x2x16x2.size a
  inb_S1x16x2x16x2x16x2_S1x1x1x16x1x16x2_0_8_1_0_1_0_0 : ∀ a, (![0, 8, 1, 0, 1, 0, 0] : Fin 7 → Nat) a + S1x1x1x16x1x16x2.size a ≤ S1x16x2x16x2x16x2.size a
  inb_S1x16x16x16x1_S1x1x16x16x1_0_8_0_0_0 : ∀ a, (![0, 8, 0, 0, 0] : Fin 5 → Nat) a + S1x1x16x16x1.size a ≤ S1x16x16x16x1.size a
  inb_S1x16x2x16x2x16x2_S1x1x1x16x1x16x2_0_9_0_0_0_0_0 : ∀ a, (![0, 9, 0, 0, 0, 0, 0] : Fin 7 → Nat) a + S1x1x1x16x1x16x2.size a ≤ S1x16x2x16x2x16x2.size a
  inb_S1x16x2x16x2x16x2_S1x1x1x16x1x16x2_0_9_0_0_1_0_0 : ∀ a, (![0, 9, 0, 0, 1, 0, 0] : Fin 7 → Nat) a + S1x1x1x16x1x16x2.size a ≤ S1x16x2x16x2x16x2.size a
  inb_S1x16x2x16x2x16x2_S1x1x1x16x1x16x2_0_9_1_0_0_0_0 : ∀ a, (![0, 9, 1, 0, 0, 0, 0] : Fin 7 → Nat) a + S1x1x1x16x1x16x2.size a ≤ S1x16x2x16x2x16x2.size a
  inb_S1x16x2x16x2x16x2_S1x1x1x16x1x16x2_0_9_1_0_1_0_0 : ∀ a, (![0, 9, 1, 0, 1, 0, 0] : Fin 7 → Nat) a + S1x1x1x16x1x16x2.size a ≤ S1x16x2x16x2x16x2.size a
  inb_S1x16x16x16x1_S1x1x16x16x1_0_9_0_0_0 : ∀ a, (![0, 9, 0, 0, 0] : Fin 5 → Nat) a + S1x1x16x16x1.size a ≤ S1x16x16x16x1.size a
  inb_S1x16x2x16x2x16x2_S1x1x1x16x1x16x2_0_10_0_0_0_0_0 : ∀ a, (![0, 10, 0, 0, 0, 0, 0] : Fin 7 → Nat) a + S1x1x1x16x1x16x2.size a ≤ S1x16x2x16x2x16x2.size a
  inb_S1x16x2x16x2x16x2_S1x1x1x16x1x16x2_0_10_0_0_1_0_0 : ∀ a, (![0, 10, 0, 0, 1, 0, 0] : Fin 7 → Nat) a + S1x1x1x16x1x16x2.size a ≤ S1x16x2x16x2x16x2.size a
  inb_S1x16x2x16x2x16x2_S1x1x1x16x1x16x2_0_10_1_0_0_0_0 : ∀ a, (![0, 10, 1, 0, 0, 0, 0] : Fin 7 → Nat) a + S1x1x1x16x1x16x2.size a ≤ S1x16x2x16x2x16x2.size a
  inb_S1x16x2x16x2x16x2_S1x1x1x16x1x16x2_0_10_1_0_1_0_0 : ∀ a, (![0, 10, 1, 0, 1, 0, 0] : Fin 7 → Nat) a + S1x1x1x16x1x16x2.size a ≤ S1x16x2x16x2x16x2.size a
  inb_S1x16x16x16x1_S1x1x16x16x1_0_10_0_0_0 : ∀ a, (![0, 10, 0, 0, 0] : Fin 5 → Nat) a + S1x1x16x16x1.size a ≤ S1x16x16x16x1.size a
  inb_S1x16x2x16x2x16x2_S1x1x1x16x1x16x2_0_11_0_0_0_0_0 : ∀ a, (![0, 11, 0, 0, 0, 0, 0] : Fin 7 → Nat) a + S1x1x1x16x1x16x2.size a ≤ S1x16x2x16x2x16x2.size a
  inb_S1x16x2x16x2x16x2_S1x1x1x16x1x16x2_0_11_0_0_1_0_0 : ∀ a, (![0, 11, 0, 0, 1, 0, 0] : Fin 7 → Nat) a + S1x1x1x16x1x16x2.size a ≤ S1x16x2x16x2x16x2.size a
  inb_S1x16x2x16x2x16x2_S1x1x1x16x1x16x2_0_11_1_0_0_0_0 : ∀ a, (![0, 11, 1, 0, 0, 0, 0] : Fin 7 → Nat) a + S1x1x1x16x1x16x2.size a ≤ S1x16x2x16x2x16x2.size a
  inb_S1x16x2x16x2x16x2_S1x1x1x16x1x16x2_0_11_1_0_1_0_0 : ∀ a, (![0, 11, 1, 0, 1, 0, 0] : Fin 7 → Nat) a + S1x1x1x16x1x16x2.size a ≤ S1x16x2x16x2x16x2.size a
  inb_S1x16x16x16x1_S1x1x16x16x1_0_11_0_0_0 : ∀ a, (![0, 11, 0, 0, 0] : Fin 5 → Nat) a + S1x1x16x16x1.size a ≤ S1x16x16x16x1.size a
  inb_S1x16x2x16x2x16x2_S1x1x1x16x1x16x2_0_12_0_0_0_0_0 : ∀ a, (![0, 12, 0, 0, 0, 0, 0] : Fin 7 → Nat) a + S1x1x1x16x1x16x2.size a ≤ S1x16x2x16x2x16x2.size a
  inb_S1x16x2x16x2x16x2_S1x1x1x16x1x16x2_0_12_0_0_1_0_0 : ∀ a, (![0, 12, 0, 0, 1, 0, 0] : Fin 7 → Nat) a + S1x1x1x16x1x16x2.size a ≤ S1x16x2x16x2x16x2.size a
  inb_S1x16x2x16x2x16x2_S1x1x1x16x1x16x2_0_12_1_0_0_0_0 : ∀ a, (![0, 12, 1, 0, 0, 0, 0] : Fin 7 → Nat) a + S1x1x1x16x1x16x2.size a ≤ S1x16x2x16x2x16x2.size a
  inb_S1x16x2x16x2x16x2_S1x1x1x16x1x16x2_0_12_1_0_1_0_0 : ∀ a, (![0, 12, 1, 0, 1, 0, 0] : Fin 7 → Nat) a + S1x1x1x16x1x16x2.size a ≤ S1x16x2x16x2x16x2.size a
  inb_S1x16x16x16x1_S1x1x16x16x1_0_12_0_0_0 : ∀ a, (![0, 12, 0, 0, 0] : Fin 5 → Nat) a + S1x1x16x16x1.size a ≤ S1x16x16x16x1.size a
  inb_S1x16x2x16x2x16x2_S1x1x1x16x1x16x2_0_13_0_0_0_0_0 : ∀ a, (![0, 13, 0, 0, 0, 0, 0] : Fin 7 → Nat) a + S1x1x1x16x1x16x2.size a ≤ S1x16x2x16x2x16x2.size a
  inb_S1x16x2x16x2x16x2_S1x1x1x16x1x16x2_0_13_0_0_1_0_0 : ∀ a, (![0, 13, 0, 0, 1, 0, 0] : Fin 7 → Nat) a + S1x1x1x16x1x16x2.size a ≤ S1x16x2x16x2x16x2.size a
  inb_S1x16x2x16x2x16x2_S1x1x1x16x1x16x2_0_13_1_0_0_0_0 : ∀ a, (![0, 13, 1, 0, 0, 0, 0] : Fin 7 → Nat) a + S1x1x1x16x1x16x2.size a ≤ S1x16x2x16x2x16x2.size a
  inb_S1x16x2x16x2x16x2_S1x1x1x16x1x16x2_0_13_1_0_1_0_0 : ∀ a, (![0, 13, 1, 0, 1, 0, 0] : Fin 7 → Nat) a + S1x1x1x16x1x16x2.size a ≤ S1x16x2x16x2x16x2.size a
  inb_S1x16x16x16x1_S1x1x16x16x1_0_13_0_0_0 : ∀ a, (![0, 13, 0, 0, 0] : Fin 5 → Nat) a + S1x1x16x16x1.size a ≤ S1x16x16x16x1.size a
  inb_S1x16x2x16x2x16x2_S1x1x1x16x1x16x2_0_14_0_0_0_0_0 : ∀ a, (![0, 14, 0, 0, 0, 0, 0] : Fin 7 → Nat) a + S1x1x1x16x1x16x2.size a ≤ S1x16x2x16x2x16x2.size a
  inb_S1x16x2x16x2x16x2_S1x1x1x16x1x16x2_0_14_0_0_1_0_0 : ∀ a, (![0, 14, 0, 0, 1, 0, 0] : Fin 7 → Nat) a + S1x1x1x16x1x16x2.size a ≤ S1x16x2x16x2x16x2.size a
  inb_S1x16x2x16x2x16x2_S1x1x1x16x1x16x2_0_14_1_0_0_0_0 : ∀ a, (![0, 14, 1, 0, 0, 0, 0] : Fin 7 → Nat) a + S1x1x1x16x1x16x2.size a ≤ S1x16x2x16x2x16x2.size a
  inb_S1x16x2x16x2x16x2_S1x1x1x16x1x16x2_0_14_1_0_1_0_0 : ∀ a, (![0, 14, 1, 0, 1, 0, 0] : Fin 7 → Nat) a + S1x1x1x16x1x16x2.size a ≤ S1x16x2x16x2x16x2.size a
  inb_S1x16x16x16x1_S1x1x16x16x1_0_14_0_0_0 : ∀ a, (![0, 14, 0, 0, 0] : Fin 5 → Nat) a + S1x1x16x16x1.size a ≤ S1x16x16x16x1.size a
  inb_S1x16x2x16x2x16x2_S1x1x1x16x1x16x2_0_15_0_0_0_0_0 : ∀ a, (![0, 15, 0, 0, 0, 0, 0] : Fin 7 → Nat) a + S1x1x1x16x1x16x2.size a ≤ S1x16x2x16x2x16x2.size a
  inb_S1x16x2x16x2x16x2_S1x1x1x16x1x16x2_0_15_0_0_1_0_0 : ∀ a, (![0, 15, 0, 0, 1, 0, 0] : Fin 7 → Nat) a + S1x1x1x16x1x16x2.size a ≤ S1x16x2x16x2x16x2.size a
  inb_S1x16x2x16x2x16x2_S1x1x1x16x1x16x2_0_15_1_0_0_0_0 : ∀ a, (![0, 15, 1, 0, 0, 0, 0] : Fin 7 → Nat) a + S1x1x1x16x1x16x2.size a ≤ S1x16x2x16x2x16x2.size a
  inb_S1x16x2x16x2x16x2_S1x1x1x16x1x16x2_0_15_1_0_1_0_0 : ∀ a, (![0, 15, 1, 0, 1, 0, 0] : Fin 7 → Nat) a + S1x1x1x16x1x16x2.size a ≤ S1x16x2x16x2x16x2.size a
  inb_S1x16x16x16x1_S1x1x16x16x1_0_15_0_0_0 : ∀ a, (![0, 15, 0, 0, 0] : Fin 5 → Nat) a + S1x1x16x16x1.size a ≤ S1x16x16x16x1.size a
  shapeCasts_S256x16x16x16x1_S8x32x4096 : S256x16x16x16x1.ShapeCasts S8x32x4096
  pads_S8x32x4096_S8x32x4864_000_000_3843840 : S8x32x4096.Pads (![0, 0, 384] : Fin 3 → Nat) ![0, 0, 384] ![0, 0, 0] S8x32x4864
  h_S_ : 0 < S_.numel
  transposes_S64x32x3x3x3_S3x3x3x64x32_2_3_4_0_1 : S64x32x3x3x3.Transposes [2, 3, 4, 0, 1] S3x3x3x64x32
  shapeCasts_S3x3x3x64x32_S27x64x32 : S3x3x3x64x32.ShapeCasts S27x64x32
  pads_S27x64x32_S27x64x32_000_000_000 : S27x64x32.Pads (![0, 0, 0] : Fin 3 → Nat) ![0, 0, 0] ![0, 0, 0] S27x64x32
  transposes_S27x64x32_S64x27x32_1_0_2 : S27x64x32.Transposes [1, 0, 2] S64x27x32
  shapeCasts_S64x27x32_S64x864 : S64x27x32.ShapeCasts S64x864
  bcast_S_S32x1 : S_.BroadcastsInDim S32x1 (![] : Fin 0 → Fin S32x1.rank)
  bcast_S_S4864 : S_.BroadcastsInDim S4864 (![] : Fin 0 → Fin S4864.rank)
  shapeCasts_S4864_S1x4864 : S4864.ShapeCasts S1x4864
  bcast_S_S4096 : S_.BroadcastsInDim S4096 (![] : Fin 0 → Fin S4096.rank)
  bcast_S4096_S1x4096_1 : S4096.BroadcastsInDim S1x4096 (![1] : Fin 1 → Fin S1x4096.rank)
  concatenates_S1x4096_S1x4096_S1x4096_S1x4096_S1x4096_S1x4096_S1x4096_S1x4096_S1x4096_S9x4096_d0 : Shape.Concatenates [S1x4096, S1x4096, S1x4096, S1x4096, S1x4096, S1x4096, S1x4096, S1x4096, S1x4096] S9x4096 0
  inb_S1x32x4864_S1x32x4864_0_0_0 : ∀ a, (![0, 0, 0] : Fin 3 → Nat) a + S1x32x4864.size a ≤ S1x32x4864.size a
  h_S1x32x4864 : 0 < S1x32x4864.numel
  shapeCasts_S1x32x4864_S32x4864 : S1x32x4864.ShapeCasts S32x4864
  inb_S1x4864_S1x4864_0_0 : ∀ a, (![0, 0] : Fin 2 → Nat) a + S1x4864.size a ≤ S1x4864.size a
  h_S1x4864 : 0 < S1x4864.numel
  shapeCasts_S1x4864_S1x4864 : S1x4864.ShapeCasts S1x4864
  broadcasts_S1x4864_S32x4864 : S1x4864.Broadcasts S32x4864
  inb_S32x4864_S32x4864_0_0 : ∀ a, (![0, 0] : Fin 2 → Nat) a + S32x4864.size a ≤ S32x4864.size a
  h_S32x4864 : 0 < S32x4864.numel
  shapeCasts_S32x4864_S32x4864 : S32x4864.ShapeCasts S32x4864
  inb_S32x4864_S32x4096_0_111 : ∀ a, (![0, 111] : Fin 2 → Nat) a + S32x4096.size a ≤ S32x4864.size a
  h_S32x4096 : 0 < S32x4096.numel
  inb_S9x4096_S1x4096_0_0 : ∀ a, (![0, 0] : Fin 2 → Nat) a + S1x4096.size a ≤ S9x4096.size a
  h_S1x4096 : 0 < S1x4096.numel
  shapeCasts_S1x4096_S1x4096 : S1x4096.ShapeCasts S1x4096
  broadcasts_S1x4096_S32x4096 : S1x4096.Broadcasts S32x4096
  inb_S864x4096_S32x4096_0_0 : ∀ a, (![0, 0] : Fin 2 → Nat) a + S32x4096.size a ≤ S864x4096.size a
  shapeCasts_S32x4096_S32x4096 : S32x4096.ShapeCasts S32x4096
  inb_S32x4864_S32x4096_0_112 : ∀ a, (![0, 112] : Fin 2 → Nat) a + S32x4096.size a ≤ S32x4864.size a
  inb_S9x4096_S1x4096_1_0 : ∀ a, (![1, 0] : Fin 2 → Nat) a + S1x4096.size a ≤ S9x4096.size a
  inb_S864x4096_S32x4096_32_0 : ∀ a, (![32, 0] : Fin 2 → Nat) a + S32x4096.size a ≤ S864x4096.size a
  inb_S32x4864_S32x4096_0_113 : ∀ a, (![0, 113] : Fin 2 → Nat) a + S32x4096.size a ≤ S32x4864.size a
  inb_S9x4096_S1x4096_2_0 : ∀ a, (![2, 0] : Fin 2 → Nat) a + S1x4096.size a ≤ S9x4096.size a
  inb_S864x4096_S32x4096_64_0 : ∀ a, (![64, 0] : Fin 2 → Nat) a + S32x4096.size a ≤ S864x4096.size a
  inb_S32x4864_S32x4096_0_127 : ∀ a, (![0, 127] : Fin 2 → Nat) a + S32x4096.size a ≤ S32x4864.size a
  inb_S9x4096_S1x4096_3_0 : ∀ a, (![3, 0] : Fin 2 → Nat) a + S1x4096.size a ≤ S9x4096.size a
  inb_S864x4096_S32x4096_96_0 : ∀ a, (![96, 0] : Fin 2 → Nat) a + S32x4096.size a ≤ S864x4096.size a
  inb_S32x4864_S32x4096_0_128 : ∀ a, (![0, 128] : Fin 2 → Nat) a + S32x4096.size a ≤ S32x4864.size a
  inb_S9x4096_S1x4096_4_0 : ∀ a, (![4, 0] : Fin 2 → Nat) a + S1x4096.size a ≤ S9x4096.size a
  inb_S864x4096_S32x4096_128_0 : ∀ a, (![128, 0] : Fin 2 → Nat) a + S32x4096.size a ≤ S864x4096.size a
  inb_S32x4864_S32x4096_0_129 : ∀ a, (![0, 129] : Fin 2 → Nat) a + S32x4096.size a ≤ S32x4864.size a
  inb_S9x4096_S1x4096_5_0 : ∀ a, (![5, 0] : Fin 2 → Nat) a + S1x4096.size a ≤ S9x4096.size a
  inb_S864x4096_S32x4096_160_0 : ∀ a, (![160, 0] : Fin 2 → Nat) a + S32x4096.size a ≤ S864x4096.size a
  inb_S32x4864_S32x4096_0_143 : ∀ a, (![0, 143] : Fin 2 → Nat) a + S32x4096.size a ≤ S32x4864.size a
  inb_S9x4096_S1x4096_6_0 : ∀ a, (![6, 0] : Fin 2 → Nat) a + S1x4096.size a ≤ S9x4096.size a
  inb_S864x4096_S32x4096_192_0 : ∀ a, (![192, 0] : Fin 2 → Nat) a + S32x4096.size a ≤ S864x4096.size a
  inb_S32x4864_S32x4096_0_144 : ∀ a, (![0, 144] : Fin 2 → Nat) a + S32x4096.size a ≤ S32x4864.size a
  inb_S9x4096_S1x4096_7_0 : ∀ a, (![7, 0] : Fin 2 → Nat) a + S1x4096.size a ≤ S9x4096.size a
  inb_S864x4096_S32x4096_224_0 : ∀ a, (![224, 0] : Fin 2 → Nat) a + S32x4096.size a ≤ S864x4096.size a
  inb_S32x4864_S32x4096_0_145 : ∀ a, (![0, 145] : Fin 2 → Nat) a + S32x4096.size a ≤ S32x4864.size a
  inb_S9x4096_S1x4096_8_0 : ∀ a, (![8, 0] : Fin 2 → Nat) a + S1x4096.size a ≤ S9x4096.size a
  inb_S864x4096_S32x4096_256_0 : ∀ a, (![256, 0] : Fin 2 → Nat) a + S32x4096.size a ≤ S864x4096.size a
  inb_S32x4864_S32x4096_0_367 : ∀ a, (![0, 367] : Fin 2 → Nat) a + S32x4096.size a ≤ S32x4864.size a
  inb_S864x4096_S32x4096_288_0 : ∀ a, (![288, 0] : Fin 2 → Nat) a + S32x4096.size a ≤ S864x4096.size a
  inb_S32x4864_S32x4096_0_368 : ∀ a, (![0, 368] : Fin 2 → Nat) a + S32x4096.size a ≤ S32x4864.size a
  inb_S864x4096_S32x4096_320_0 : ∀ a, (![320, 0] : Fin 2 → Nat) a + S32x4096.size a ≤ S864x4096.size a
  inb_S32x4864_S32x4096_0_369 : ∀ a, (![0, 369] : Fin 2 → Nat) a + S32x4096.size a ≤ S32x4864.size a
  inb_S864x4096_S32x4096_352_0 : ∀ a, (![352, 0] : Fin 2 → Nat) a + S32x4096.size a ≤ S864x4096.size a
  inb_S32x4864_S32x4096_0_383 : ∀ a, (![0, 383] : Fin 2 → Nat) a + S32x4096.size a ≤ S32x4864.size a
  inb_S864x4096_S32x4096_384_0 : ∀ a, (![384, 0] : Fin 2 → Nat) a + S32x4096.size a ≤ S864x4096.size a
  inb_S32x4864_S32x4096_0_384 : ∀ a, (![0, 384] : Fin 2 → Nat) a + S32x4096.size a ≤ S32x4864.size a
  inb_S864x4096_S32x4096_416_0 : ∀ a, (![416, 0] : Fin 2 → Nat) a + S32x4096.size a ≤ S864x4096.size a
  inb_S32x4864_S32x4096_0_385 : ∀ a, (![0, 385] : Fin 2 → Nat) a + S32x4096.size a ≤ S32x4864.size a
  inb_S864x4096_S32x4096_448_0 : ∀ a, (![448, 0] : Fin 2 → Nat) a + S32x4096.size a ≤ S864x4096.size a
  inb_S32x4864_S32x4096_0_399 : ∀ a, (![0, 399] : Fin 2 → Nat) a + S32x4096.size a ≤ S32x4864.size a
  inb_S864x4096_S32x4096_480_0 : ∀ a, (![480, 0] : Fin 2 → Nat) a + S32x4096.size a ≤ S864x4096.size a
  inb_S32x4864_S32x4096_0_400 : ∀ a, (![0, 400] : Fin 2 → Nat) a + S32x4096.size a ≤ S32x4864.size a
  inb_S864x4096_S32x4096_512_0 : ∀ a, (![512, 0] : Fin 2 → Nat) a + S32x4096.size a ≤ S864x4096.size a
  inb_S32x4864_S32x4096_0_401 : ∀ a, (![0, 401] : Fin 2 → Nat) a + S32x4096.size a ≤ S32x4864.size a
  inb_S864x4096_S32x4096_544_0 : ∀ a, (![544, 0] : Fin 2 → Nat) a + S32x4096.size a ≤ S864x4096.size a
  inb_S32x4864_S32x4096_0_623 : ∀ a, (![0, 623] : Fin 2 → Nat) a + S32x4096.size a ≤ S32x4864.size a
  inb_S864x4096_S32x4096_576_0 : ∀ a, (![576, 0] : Fin 2 → Nat) a + S32x4096.size a ≤ S864x4096.size a
  inb_S32x4864_S32x4096_0_624 : ∀ a, (![0, 624] : Fin 2 → Nat) a + S32x4096.size a ≤ S32x4864.size a
  inb_S864x4096_S32x4096_608_0 : ∀ a, (![608, 0] : Fin 2 → Nat) a + S32x4096.size a ≤ S864x4096.size a
  inb_S32x4864_S32x4096_0_625 : ∀ a, (![0, 625] : Fin 2 → Nat) a + S32x4096.size a ≤ S32x4864.size a
  inb_S864x4096_S32x4096_640_0 : ∀ a, (![640, 0] : Fin 2 → Nat) a + S32x4096.size a ≤ S864x4096.size a
  inb_S32x4864_S32x4096_0_639 : ∀ a, (![0, 639] : Fin 2 → Nat) a + S32x4096.size a ≤ S32x4864.size a
  inb_S864x4096_S32x4096_672_0 : ∀ a, (![672, 0] : Fin 2 → Nat) a + S32x4096.size a ≤ S864x4096.size a
  inb_S32x4864_S32x4096_0_640 : ∀ a, (![0, 640] : Fin 2 → Nat) a + S32x4096.size a ≤ S32x4864.size a
  inb_S864x4096_S32x4096_704_0 : ∀ a, (![704, 0] : Fin 2 → Nat) a + S32x4096.size a ≤ S864x4096.size a
  inb_S32x4864_S32x4096_0_641 : ∀ a, (![0, 641] : Fin 2 → Nat) a + S32x4096.size a ≤ S32x4864.size a
  inb_S864x4096_S32x4096_736_0 : ∀ a, (![736, 0] : Fin 2 → Nat) a + S32x4096.size a ≤ S864x4096.size a
  inb_S32x4864_S32x4096_0_655 : ∀ a, (![0, 655] : Fin 2 → Nat) a + S32x4096.size a ≤ S32x4864.size a
  inb_S864x4096_S32x4096_768_0 : ∀ a, (![768, 0] : Fin 2 → Nat) a + S32x4096.size a ≤ S864x4096.size a
  inb_S32x4864_S32x4096_0_656 : ∀ a, (![0, 656] : Fin 2 → Nat) a + S32x4096.size a ≤ S32x4864.size a
  inb_S864x4096_S32x4096_800_0 : ∀ a, (![800, 0] : Fin 2 → Nat) a + S32x4096.size a ≤ S864x4096.size a
  inb_S32x4864_S32x4096_0_657 : ∀ a, (![0, 657] : Fin 2 → Nat) a + S32x4096.size a ≤ S32x4864.size a
  inb_S864x4096_S32x4096_832_0 : ∀ a, (![832, 0] : Fin 2 → Nat) a + S32x4096.size a ≤ S864x4096.size a
  inb_S64x864_S64x864_0_0 : ∀ a, (![0, 0] : Fin 2 → Nat) a + S64x864.size a ≤ S64x864.size a
  h_S64x864 : 0 < S64x864.numel
  shapeCasts_S64x864_S64x864 : S64x864.ShapeCasts S64x864
  inb_S864x4096_S864x4096_0_0 : ∀ a, (![0, 0] : Fin 2 → Nat) a + S864x4096.size a ≤ S864x4096.size a
  h_S864x4096 : 0 < S864x4096.numel
  inb_S1x64x4864_S1x64x384_0_0_0 : ∀ a, (![0, 0, 0] : Fin 3 → Nat) a + S1x64x384.size a ≤ S1x64x4864.size a
  h_S1x64x384 : 0 < S1x64x384.numel
  shapeCasts_S1x64x384_S64x384 : S1x64x384.ShapeCasts S64x384
  shapeCasts_S64x384_S1x64x384 : S64x384.ShapeCasts S1x64x384
  inb_S1x64x4864_S1x64x4096_0_0_384 : ∀ a, (![0, 0, 384] : Fin 3 → Nat) a + S1x64x4096.size a ≤ S1x64x4864.size a
  h_S1x64x4096 : 0 < S1x64x4096.numel
  shapeCasts_S1x64x4096_S64x4096 : S1x64x4096.ShapeCasts S64x4096
  shapeCasts_S64x4096_S1x64x4096 : S64x4096.ShapeCasts S1x64x4096
  inb_S1x64x4864_S1x64x384_0_0_4480 : ∀ a, (![0, 0, 4480] : Fin 3 → Nat) a + S1x64x384.size a ≤ S1x64x4864.size a
  reduces_S64x4096_S64 : S64x4096.Reduces [1] S64
  shapeCasts_S64_S64x1 : S64.ShapeCasts S64x1
  inb_S1x64x1_S1x64x1_0_0_0 : ∀ a, (![0, 0, 0] : Fin 3 → Nat) a + S1x64x1.size a ≤ S1x64x1.size a
  h_S1x64x1 : 0 < S1x64x1.numel
  shapeCasts_S1x64x1_S64x1 : S1x64x1.ShapeCasts S64x1
  shapeCasts_S64x1_S1x64x1 : S64x1.ShapeCasts S1x64x1
  shapeCasts_S8x64x1_S8x64 : S8x64x1.ShapeCasts S8x64
  reducesTo_S8x64_S64_d0 : S8x64.ReducesTo [0] S64
  bcast_S_S64 : S_.BroadcastsInDim S64 (![] : Fin 0 → Fin S64.rank)
  pads_S64_S64_000 : S64.Pads (![0] : Fin 1 → Nat) ![0] ![0] S64
  transposes_S64x64x3x3x3_S3x3x3x64x64_2_3_4_0_1 : S64x64x3x3x3.Transposes [2, 3, 4, 0, 1] S3x3x3x64x64
  shapeCasts_S3x3x3x64x64_S27x64x64 : S3x3x3x64x64.ShapeCasts S27x64x64
  pads_S27x64x64_S27x64x64_000_000_000 : S27x64x64.Pads (![0, 0, 0] : Fin 3 → Nat) ![0, 0, 0] ![0, 0, 0] S27x64x64
  transposes_S27x64x64_S64x27x64_1_0_2 : S27x64x64.Transposes [1, 0, 2] S64x27x64
  shapeCasts_S64x27x64_S64x1728 : S64x27x64.ShapeCasts S64x1728
  inb_S1x64x4864_S1x64x4864_0_0_0 : ∀ a, (![0, 0, 0] : Fin 3 → Nat) a + S1x64x4864.size a ≤ S1x64x4864.size a
  h_S1x64x4864 : 0 < S1x64x4864.numel
  shapeCasts_S1x64x4864_S64x4864 : S1x64x4864.ShapeCasts S64x4864
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4864 : S64x1.Broadcasts S64x4864
  broadcasts_S1x4864_S64x4864 : S1x4864.Broadcasts S64x4864
  inb_S64x4864_S64x4864_0_0 : ∀ a, (![0, 0] : Fin 2 → Nat) a + S64x4864.size a ≤ S64x4864.size a
  h_S64x4864 : 0 < S64x4864.numel
  shapeCasts_S64x4864_S64x4864 : S64x4864.ShapeCasts S64x4864
  inb_S64x4864_S64x4096_0_111 : ∀ a, (![0, 111] : Fin 2 → Nat) a + S64x4096.size a ≤ S64x4864.size a
  h_S64x4096 : 0 < S64x4096.numel
  broadcasts_S1x4096_S64x4096 : S1x4096.Broadcasts S64x4096
  inb_S1728x4096_S64x4096_0_0 : ∀ a, (![0, 0] : Fin 2 → Nat) a + S64x4096.size a ≤ S1728x4096.size a
  shapeCasts_S64x4096_S64x4096 : S64x4096.ShapeCasts S64x4096
  inb_S64x4864_S64x4096_0_112 : ∀ a, (![0, 112] : Fin 2 → Nat) a + S64x4096.size a ≤ S64x4864.size a
  inb_S1728x4096_S64x4096_64_0 : ∀ a, (![64, 0] : Fin 2 → Nat) a + S64x4096.size a ≤ S1728x4096.size a
  inb_S64x4864_S64x4096_0_113 : ∀ a, (![0, 113] : Fin 2 → Nat) a + S64x4096.size a ≤ S64x4864.size a
  inb_S1728x4096_S64x4096_128_0 : ∀ a, (![128, 0] : Fin 2 → Nat) a + S64x4096.size a ≤ S1728x4096.size a
  inb_S64x4864_S64x4096_0_127 : ∀ a, (![0, 127] : Fin 2 → Nat) a + S64x4096.size a ≤ S64x4864.size a
  inb_S1728x4096_S64x4096_192_0 : ∀ a, (![192, 0] : Fin 2 → Nat) a + S64x4096.size a ≤ S1728x4096.size a
  inb_S64x4864_S64x4096_0_128 : ∀ a, (![0, 128] : Fin 2 → Nat) a + S64x4096.size a ≤ S64x4864.size a
  inb_S1728x4096_S64x4096_256_0 : ∀ a, (![256, 0] : Fin 2 → Nat) a + S64x4096.size a ≤ S1728x4096.size a
  inb_S64x4864_S64x4096_0_129 : ∀ a, (![0, 129] : Fin 2 → Nat) a + S64x4096.size a ≤ S64x4864.size a
  inb_S1728x4096_S64x4096_320_0 : ∀ a, (![320, 0] : Fin 2 → Nat) a + S64x4096.size a ≤ S1728x4096.size a
  inb_S64x4864_S64x4096_0_143 : ∀ a, (![0, 143] : Fin 2 → Nat) a + S64x4096.size a ≤ S64x4864.size a
  inb_S1728x4096_S64x4096_384_0 : ∀ a, (![384, 0] : Fin 2 → Nat) a + S64x4096.size a ≤ S1728x4096.size a
  inb_S64x4864_S64x4096_0_144 : ∀ a, (![0, 144] : Fin 2 → Nat) a + S64x4096.size a ≤ S64x4864.size a
  inb_S1728x4096_S64x4096_448_0 : ∀ a, (![448, 0] : Fin 2 → Nat) a + S64x4096.size a ≤ S1728x4096.size a
  inb_S64x4864_S64x4096_0_145 : ∀ a, (![0, 145] : Fin 2 → Nat) a + S64x4096.size a ≤ S64x4864.size a
  inb_S1728x4096_S64x4096_512_0 : ∀ a, (![512, 0] : Fin 2 → Nat) a + S64x4096.size a ≤ S1728x4096.size a
  inb_S64x4864_S64x4096_0_367 : ∀ a, (![0, 367] : Fin 2 → Nat) a + S64x4096.size a ≤ S64x4864.size a
  inb_S1728x4096_S64x4096_576_0 : ∀ a, (![576, 0] : Fin 2 → Nat) a + S64x4096.size a ≤ S1728x4096.size a
  inb_S64x4864_S64x4096_0_368 : ∀ a, (![0, 368] : Fin 2 → Nat) a + S64x4096.size a ≤ S64x4864.size a
  inb_S1728x4096_S64x4096_640_0 : ∀ a, (![640, 0] : Fin 2 → Nat) a + S64x4096.size a ≤ S1728x4096.size a
  inb_S64x4864_S64x4096_0_369 : ∀ a, (![0, 369] : Fin 2 → Nat) a + S64x4096.size a ≤ S64x4864.size a
  inb_S1728x4096_S64x4096_704_0 : ∀ a, (![704, 0] : Fin 2 → Nat) a + S64x4096.size a ≤ S1728x4096.size a
  inb_S64x4864_S64x4096_0_383 : ∀ a, (![0, 383] : Fin 2 → Nat) a + S64x4096.size a ≤ S64x4864.size a
  inb_S1728x4096_S64x4096_768_0 : ∀ a, (![768, 0] : Fin 2 → Nat) a + S64x4096.size a ≤ S1728x4096.size a
  inb_S64x4864_S64x4096_0_384 : ∀ a, (![0, 384] : Fin 2 → Nat) a + S64x4096.size a ≤ S64x4864.size a
  inb_S1728x4096_S64x4096_832_0 : ∀ a, (![832, 0] : Fin 2 → Nat) a + S64x4096.size a ≤ S1728x4096.size a
  inb_S64x4864_S64x4096_0_385 : ∀ a, (![0, 385] : Fin 2 → Nat) a + S64x4096.size a ≤ S64x4864.size a
  inb_S1728x4096_S64x4096_896_0 : ∀ a, (![896, 0] : Fin 2 → Nat) a + S64x4096.size a ≤ S1728x4096.size a
  inb_S64x4864_S64x4096_0_399 : ∀ a, (![0, 399] : Fin 2 → Nat) a + S64x4096.size a ≤ S64x4864.size a
  inb_S1728x4096_S64x4096_960_0 : ∀ a, (![960, 0] : Fin 2 → Nat) a + S64x4096.size a ≤ S1728x4096.size a
  inb_S64x4864_S64x4096_0_400 : ∀ a, (![0, 400] : Fin 2 → Nat) a + S64x4096.size a ≤ S64x4864.size a
  inb_S1728x4096_S64x4096_1024_0 : ∀ a, (![1024, 0] : Fin 2 → Nat) a + S64x4096.size a ≤ S1728x4096.size a
  inb_S64x4864_S64x4096_0_401 : ∀ a, (![0, 401] : Fin 2 → Nat) a + S64x4096.size a ≤ S64x4864.size a
  inb_S1728x4096_S64x4096_1088_0 : ∀ a, (![1088, 0] : Fin 2 → Nat) a + S64x4096.size a ≤ S1728x4096.size a
  inb_S64x4864_S64x4096_0_623 : ∀ a, (![0, 623] : Fin 2 → Nat) a + S64x4096.size a ≤ S64x4864.size a
  inb_S1728x4096_S64x4096_1152_0 : ∀ a, (![1152, 0] : Fin 2 → Nat) a + S64x4096.size a ≤ S1728x4096.size a
  inb_S64x4864_S64x4096_0_624 : ∀ a, (![0, 624] : Fin 2 → Nat) a + S64x4096.size a ≤ S64x4864.size a
  inb_S1728x4096_S64x4096_1216_0 : ∀ a, (![1216, 0] : Fin 2 → Nat) a + S64x4096.size a ≤ S1728x4096.size a
  inb_S64x4864_S64x4096_0_625 : ∀ a, (![0, 625] : Fin 2 → Nat) a + S64x4096.size a ≤ S64x4864.size a
  inb_S1728x4096_S64x4096_1280_0 : ∀ a, (![1280, 0] : Fin 2 → Nat) a + S64x4096.size a ≤ S1728x4096.size a
  inb_S64x4864_S64x4096_0_639 : ∀ a, (![0, 639] : Fin 2 → Nat) a + S64x4096.size a ≤ S64x4864.size a
  inb_S1728x4096_S64x4096_1344_0 : ∀ a, (![1344, 0] : Fin 2 → Nat) a + S64x4096.size a ≤ S1728x4096.size a
  inb_S64x4864_S64x4096_0_640 : ∀ a, (![0, 640] : Fin 2 → Nat) a + S64x4096.size a ≤ S64x4864.size a
  inb_S1728x4096_S64x4096_1408_0 : ∀ a, (![1408, 0] : Fin 2 → Nat) a + S64x4096.size a ≤ S1728x4096.size a
  inb_S64x4864_S64x4096_0_641 : ∀ a, (![0, 641] : Fin 2 → Nat) a + S64x4096.size a ≤ S64x4864.size a
  inb_S1728x4096_S64x4096_1472_0 : ∀ a, (![1472, 0] : Fin 2 → Nat) a + S64x4096.size a ≤ S1728x4096.size a
  inb_S64x4864_S64x4096_0_655 : ∀ a, (![0, 655] : Fin 2 → Nat) a + S64x4096.size a ≤ S64x4864.size a
  inb_S1728x4096_S64x4096_1536_0 : ∀ a, (![1536, 0] : Fin 2 → Nat) a + S64x4096.size a ≤ S1728x4096.size a
  inb_S64x4864_S64x4096_0_656 : ∀ a, (![0, 656] : Fin 2 → Nat) a + S64x4096.size a ≤ S64x4864.size a
  inb_S1728x4096_S64x4096_1600_0 : ∀ a, (![1600, 0] : Fin 2 → Nat) a + S64x4096.size a ≤ S1728x4096.size a
  inb_S64x4864_S64x4096_0_657 : ∀ a, (![0, 657] : Fin 2 → Nat) a + S64x4096.size a ≤ S64x4864.size a
  inb_S1728x4096_S64x4096_1664_0 : ∀ a, (![1664, 0] : Fin 2 → Nat) a + S64x4096.size a ≤ S1728x4096.size a
  inb_S64x1728_S64x1728_0_0 : ∀ a, (![0, 0] : Fin 2 → Nat) a + S64x1728.size a ≤ S64x1728.size a
  h_S64x1728 : 0 < S64x1728.numel
  shapeCasts_S64x1728_S64x1728 : S64x1728.ShapeCasts S64x1728
  inb_S1728x4096_S1728x4096_0_0 : ∀ a, (![0, 0] : Fin 2 → Nat) a + S1728x4096.size a ≤ S1728x4096.size a
  h_S1728x4096 : 0 < S1728x4096.numel
  inb_S1x64x4096_S1x64x4096_0_0_0 : ∀ a, (![0, 0, 0] : Fin 3 → Nat) a + S1x64x4096.size a ≤ S1x64x4096.size a
  broadcasts_S64x1_S64x4096 : S64x1.Broadcasts S64x4096
  shapeCasts_S8x64x4096_S8x64x16x16x16 : S8x64x4096.ShapeCasts S8x64x16x16x16
  dot_S64x864_S864x4096_S64x4096_1_0_0_1_n_n_wf : DotDims.WF S64x864 S864x4096 S64x4096 [1] [0] [0] [1] [] []
  dot_S64x1728_S1728x4096_S64x4096_1_0_0_1_n_n_wf : DotDims.WF S64x1728 S1728x4096 S64x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x2x16x2x16x2.size a ≤ S256x16x2x16x2x16x2.size a
  hwx0_0 : ∀ i : grid0.Coords, EltTy.bits .f32 = 32 ∨ (Rect.block (s := S256x16x2x16x2x16x2) S1x16x2x16x2x16x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x16x16x1.size a ≤ S256x16x16x16x1.size a
  hwx0_1 : ∀ i : grid0.Coords, EltTy.bits .f32 = 32 ∨ (Rect.block (s := S256x16x16x16x1) S1x16x16x16x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x32x4864.size a ≤ S8x32x4864.size a
  hwx1_0 : ∀ i : grid1.Coords, EltTy.bits .f32 = 32 ∨ (Rect.block (s := S8x32x4864) S1x32x4864.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x864.size a ≤ S64x864.size a
  hwx1_1 : ∀ i : grid1.Coords, EltTy.bits .f32 = 32 ∨ (Rect.block (s := S64x864) S64x864.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x1.size a ≤ S32x1.size a
  hwx1_2 : ∀ i : grid1.Coords, EltTy.bits .f32 = 32 ∨ (Rect.block (s := S32x1) S32x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x1.size a ≤ S32x1.size a
  hwx1_3 : ∀ i : grid1.Coords, EltTy.bits .f32 = 32 ∨ (Rect.block (s := S32x1) S32x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x4864.size a ≤ S1x4864.size a
  hwx1_4 : ∀ i : grid1.Coords, EltTy.bits .f32 = 32 ∨ (Rect.block (s := S1x4864) S1x4864.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S9x4096.size a ≤ S9x4096.size a
  hwx1_5 : ∀ i : grid1.Coords, EltTy.bits .f32 = 32 ∨ (Rect.block (s := S9x4096) S9x4096.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x64x4864.size a ≤ S8x64x4864.size a
  hwx1_6 : ∀ i : grid1.Coords, EltTy.bits .f32 = 32 ∨ (Rect.block (s := S8x64x4864) S1x64x4864.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x64x1.size a ≤ S8x64x1.size a
  hwx1_7 : ∀ i : grid1.Coords, EltTy.bits .f32 = 32 ∨ (Rect.block (s := S8x64x1) S1x64x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x64x1.size a ≤ S8x64x1.size a
  hwx1_8 : ∀ i : grid1.Coords, EltTy.bits .f32 = 32 ∨ (Rect.block (s := S8x64x1) S1x64x1.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x64x4864.size a ≤ S8x64x4864.size a
  hwx2_0 : ∀ i : grid2.Coords, EltTy.bits .f32 = 32 ∨ (Rect.block (s := S8x64x4864) S1x64x4864.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1728.size a ≤ S64x1728.size a
  hwx2_1 : ∀ i : grid2.Coords, EltTy.bits .f32 = 32 ∨ (Rect.block (s := S64x1728) S64x1728.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x1.size a ≤ S64x1.size a
  hwx2_2 : ∀ i : grid2.Coords, EltTy.bits .f32 = 32 ∨ (Rect.block (s := S64x1) S64x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .f32 = 32 ∨ (Rect.block (s := S64x1) S64x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x4864.size a ≤ S1x4864.size a
  hwx2_4 : ∀ i : grid2.Coords, EltTy.bits .f32 = 32 ∨ (Rect.block (s := S1x4864) S1x4864.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S9x4096.size a ≤ S9x4096.size a
  hwx2_5 : ∀ i : grid2.Coords, EltTy.bits .f32 = 32 ∨ (Rect.block (s := S9x4096) S9x4096.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x64x4096.size a ≤ S8x64x4096.size a
  hwx2_6 : ∀ i : grid2.Coords, EltTy.bits .f32 = 32 ∨ (Rect.block (s := S8x64x4096) S1x64x4096.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x64x1.size a ≤ S8x64x1.size a
  hwx2_7 : ∀ i : grid2.Coords, EltTy.bits .f32 = 32 ∨ (Rect.block (s := S8x64x1) S1x64x1.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S1x64x1.size a ≤ S8x64x1.size a
  hwx2_8 : ∀ i : grid2.Coords, EltTy.bits .f32 = 32 ∨ (Rect.block (s := S8x64x1) S1x64x1.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1x64x4096.size a ≤ S8x64x4096.size a
  hwx3_0 : ∀ i : grid3.Coords, EltTy.bits .f32 = 32 ∨ (Rect.block (s := S8x64x4096) S1x64x4096.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x1.size a ≤ S64x1.size a
  hwx3_1 : ∀ i : grid3.Coords, EltTy.bits .f32 = 32 ∨ (Rect.block (s := S64x1) S64x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x1.size a ≤ S64x1.size a
  hwx3_2 : ∀ i : grid3.Coords, EltTy.bits .f32 = 32 ∨ (Rect.block (s := S64x1) S64x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x64x4096.size a ≤ S8x64x4096.size a
  hwx3_3 : ∀ i : grid3.Coords, EltTy.bits .f32 = 32 ∨ (Rect.block (s := S8x64x4096) S1x64x4096.size (cc3_transform_3 i) (hinb3_3 i)).WholeWords (EltTy.packing .f32)

variable [Facts₀]

def dot_S64x864_S864x4096_S64x4096_1_0_0_1_n_n : DotDims S64x864 S864x4096 S64x4096 where
  lhsContracting := [1]
  rhsContracting := [0]
  lhsNonContracting := [0]
  rhsNonContracting := [1]
  lhsBatch := []
  rhsBatch := []
  wf := dot_S64x864_S864x4096_S64x4096_1_0_0_1_n_n_wf
def dot_S64x1728_S1728x4096_S64x4096_1_0_0_1_n_n : DotDims S64x1728 S1728x4096 S64x4096 where
  lhsContracting := [1]
  rhsContracting := [0]
  lhsNonContracting := [0]
  rhsNonContracting := [1]
  lhsBatch := []
  rhsBatch := []
  wf := dot_S64x1728_S1728x4096_S64x4096_1_0_0_1_n_n_wf

abbrev win0_0 : Pipeline.Window sig grid0 :=
  Pipeline.Window.ofSpec (Memref.whole main_v0) S1x16x2x16x2x16x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x16x16x16x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v3) S1x32x4864.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S64x864.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S32x1.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v10) S32x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x4864.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v303) S9x4096.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v304_0) S1x64x4864.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v304_1) S1x64x1.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v304_2) S1x64x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v304_0) S1x64x4864.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v329) S64x1728.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v320) S64x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v324) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v337) S1x4864.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v622) S9x4096.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v623_0) S1x64x4096.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v623_1) S1x64x1.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v623_2) S1x64x1.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v623_0) S1x64x4096.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v639) S64x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v643) S64x1.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v644) S1x64x4096.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== Proof.KernelRun.lean ====
/- The run of Kernel from launch to return: @main is host stretches and 3 kernel regions. Each region's body is
   taken as a PARAMETER (what each output window's buffer holds after the body, as a function of the input blocks, and the
   body's triple); from these: the proof data of each pipeline, the body obligations, the buffer contents at every
   boundary of @main as a fold from the launch memory, the segments, and the run: every weakly fair execution
   terminates, nothing faults, and every unscoped buffer ends at the last boundary's contents. -/
import proofs.«157750_g2000200144022539_pallasbulk_675_13_alg».proof.Proof.Gen.Kernel.Launch
import proofs.«157750_g2000200144022539_pallasbulk_675_13_alg».proof.Proof.Gen.Kernel.Skeleton
import proofs.«157750_g2000200144022539_pallasbulk_675_13_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The regions' bodies, as parameters -/

/-- What each output window's staging buffer holds after its kernel's body, as a function of the input windows' blocks. -/
structure Outs (F : FTy → Type) [FloatOps F] where
  o0_4 : Vec F S1x32x32768 .f32 → Vec F S1024x256 .bf16 → Vec F S3x64x288 .bf16 → Vec F S9x4608 .bf16 → Vec F S1x64x4864 .bf16
  o0_5 : Vec F S1x32x32768 .f32 → Vec F S1024x256 .bf16 → Vec F S3x64x288 .bf16 → Vec F S9x4608 .bf16 → Vec F S1x64x1 .f32
  o0_6 : Vec F S1x32x32768 .f32 → Vec F S1024x256 .bf16 → Vec F S3x64x288 .bf16 → Vec F S9x4608 .bf16 → Vec F S1x64x1 .f32
  o1_6 : Vec F S1x64x4864 .bf16 → Vec F S64x1 .f32 → Vec F S64x1 .f32 → Vec F S1x4864 .f32 → Vec F S3x64x576 .bf16 → Vec F S9x4608 .bf16 → Vec F S1x64x4096 .bf16
  o1_7 : Vec F S1x64x4864 .bf16 → Vec F S64x1 .f32 → Vec F S64x1 .f32 → Vec F S1x4864 .f32 → Vec F S3x64x576 .bf16 → Vec F S9x4608 .bf16 → Vec F S1x64x1 .f32
  o1_8 : Vec F S1x64x4864 .bf16 → Vec F S64x1 .f32 → Vec F S64x1 .f32 → Vec F S1x4864 .f32 → Vec F S3x64x576 .bf16 → Vec F S9x4608 .bf16 → Vec F S1x64x1 .f32
  o2_3 : Vec F S1x64x4096 .bf16 → Vec F S64x1 .f32 → Vec F S64x1 .f32 → Vec F S1x64x4096 .f32

variable (O : Outs F)

/-- The triple of kernel 0's body on whole memrefs: the input windows' at read contents, the output windows' and the scratch
    operands' at anything; it returns the inputs as they were and each output at its term of the inputs. -/
def Sound0 : Prop :=
  ∀ (c : Dev nD) (E : Set ℕ) (i : grid0.Coords) (arg1 : Memref sig .tc .vmem S1x32x32768 .f32) (harg1 : arg1.IsWhole) (arg2 : Memref sig .tc .vmem S1024x256 .bf16) (harg2 : arg2.IsWhole) (arg3 : Memref sig .tc .vmem S3x64x288 .bf16) (harg3 : arg3.IsWhole) (arg4 : Memref sig .tc .vmem S9x4608 .bf16) (harg4 : arg4.IsWhole) (arg5 : Memref sig .tc .vmem S1x64x4864 .bf16) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S512x1024 .bf16) (harg8 : arg8.IsWhole) (arg9 : Memref sig .tc .vmem S32x4864 .bf16) (harg9 : arg9.IsWhole) (arg10 : Memref sig .tc .vmem S288x4608 .bf16) (harg10 : arg10.IsWhole)
    (x1 : Vec F S1x32x32768 .f32) (x2 : Vec F S1024x256 .bf16) (x3 : Vec F S3x64x288 .bf16) (x4 : Vec F S9x4608 .bf16) (K : PUnit → sProp 𝕄),
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (O.o0_4 x1 x2 x3 x4) ∗ owns (c : Thread nD τ) arg6 fullShare (O.o0_5 x1 x2 x3 x4) ∗ owns (c : Thread nD τ) arg7 fullShare (O.o0_6 x1 x2 x3 x4) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0__pool_conv1_kernel i arg1 harg1 arg2 harg2 arg3 harg3 arg4 harg4 arg5 harg5 arg6 harg6 arg7 harg7 arg8 harg8 arg9 harg9 arg10 harg10) K

/-- The triple of kernel 1's body on whole memrefs: the input windows' at read contents, the output windows' and the scratch
    operands' at anything; it returns the inputs as they were and each output at its term of the inputs. -/
def Sound1 : Prop :=
  ∀ (c : Dev nD) (E : Set ℕ) (i : grid1.Coords) (arg1 : Memref sig .tc .vmem S1x64x4864 .bf16) (harg1 : arg1.IsWhole) (arg2 : Memref sig .tc .vmem S64x1 .f32) (harg2 : arg2.IsWhole) (arg3 : Memref sig .tc .vmem S64x1 .f32) (harg3 : arg3.IsWhole) (arg4 : Memref sig .tc .vmem S1x4864 .f32) (harg4 : arg4.IsWhole) (arg5 : Memref sig .tc .vmem S3x64x576 .bf16) (harg5 : arg5.IsWhole) (arg6 : Memref sig .tc .vmem S9x4608 .bf16) (harg6 : arg6.IsWhole) (arg7 : Memref sig .tc .vmem S1x64x4096 .bf16) (harg7 : arg7.IsWhole) (arg8 : Memref sig .tc .vmem S1x64x1 .f32) (harg8 : arg8.IsWhole) (arg9 : Memref sig .tc .vmem S1x64x1 .f32) (harg9 : arg9.IsWhole) (arg10 : Memref sig .tc .vmem S64x4864 .bf16) (harg10 : arg10.IsWhole) (arg11 : Memref sig .tc .vmem S576x4608 .bf16) (harg11 : arg11.IsWhole)
    (x1 : Vec F S1x64x4864 .bf16) (x2 : Vec F S64x1 .f32) (x3 : Vec F S64x1 .f32) (x4 : Vec F S1x4864 .f32) (x5 : Vec F S3x64x576 .bf16) (x6 : Vec F S9x4608 .bf16) (K : PUnit → sProp 𝕄),
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (O.o1_6 x1 x2 x3 x4 x5 x6) ∗ owns (c : Thread nD τ) arg8 fullShare (O.o1_7 x1 x2 x3 x4 x5 x6) ∗ owns (c : Thread nD τ) arg9 fullShare (O.o1_8 x1 x2 x3 x4 x5 x6) ∗ (∃ d, owns (c : Thread nD τ) arg10 fullShare d) ∗ (∃ d, owns (c : Thread nD τ) arg11 fullShare d)) -∗ K ⟨⟩))
      ⊢ wp frame (wpE (defs₀ (F := F)) Variants.none c none) E (cc1__conv2_kernel i arg1 harg1 arg2 harg2 arg3 harg3 arg4 harg4 arg5 harg5 arg6 harg6 arg7 harg7 arg8 harg8 arg9 harg9 arg10 harg10 arg11 harg11) K

/-- The triple of kernel 2's body on whole memrefs: the input windows' at read contents, the output windows' and the scratch
    operands' at anything; it returns the inputs as they were and each output at its term of the inputs. -/
def Sound2 : Prop :=
  ∀ (c : Dev nD) (E : Set ℕ) (i : grid2.Coords) (arg1 : Memref sig .tc .vmem S1x64x4096 .bf16) (harg1 : arg1.IsWhole) (arg2 : Memref sig .tc .vmem S64x1 .f32) (harg2 : arg2.IsWhole) (arg3 : Memref sig .tc .vmem S64x1 .f32) (harg3 : arg3.IsWhole) (arg4 : Memref sig .tc .vmem S1x64x4096 .f32) (harg4 : arg4.IsWhole)
    (x1 : Vec F S1x64x4096 .bf16) (x2 : Vec F S64x1 .f32) (x3 : Vec F S64x1 .f32) (K : PUnit → sProp 𝕄),
    iprop(owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg1 fullShare x1 ∗ owns (c : Thread nD τ) arg2 fullShare x2 ∗ owns (c : Thread nD τ) arg3 fullShare x3 ∗ owns (c : Thread nD τ) arg4 fullShare (O.o2_3 x1 x2 x3)) -∗ K ⟨⟩))
      ⊢ wp frame (wpE (defs₀ (F := F)) Variants.none c none) E (cc2__bn_relu_out_kernel i arg1 harg1 arg2 harg2 arg3 harg3 arg4 harg4) K

section Regions
-- the TensorCore's buffer contents when a region is entered
variable (V : (c : Dev nD) → (b : Ref sig .tc) → Buf (Elt F) ((c : Thread nD τ).loc b))

/-! # REGION 0: cc0__pool_conv1_kernel (pipeline 0), at the entry contents V -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0 on core c: the arrays as the region finds them; after the body each input's buffer at its
    block and each output's at its term of the input blocks; the invariant the scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => O.o0_4 (iblk0 V c 0 t) (iblk0 V c 1 t) (iblk0 V c 2 t) (iblk0 V c 3 t)
    | ⟨5, _⟩ => O.o0_5 (iblk0 V c 0 t) (iblk0 V c 1 t) (iblk0 V c 2 t) (iblk0 V c 3 t)
    | ⟨6, _⟩ => O.o0_6 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 O V c).A w = V c (Pipeline.arrRef spec0 w) := by
  dsimp only [dat0]

theorem after0_0 (c : Dev nD) (t : Fin cfg0.N) : (dat0 O V c).after 0 t = iblk0 V c 0 t := by dsimp only [dat0]
theorem after0_1 (c : Dev nD) (t : Fin cfg0.N) : (dat0 O V c).after 1 t = iblk0 V c 1 t := by dsimp only [dat0]
theorem after0_2 (c : Dev nD) (t : Fin cfg0.N) : (dat0 O V c).after 2 t = iblk0 V c 2 t := by dsimp only [dat0]
theorem after0_3 (c : Dev nD) (t : Fin cfg0.N) : (dat0 O V c).after 3 t = iblk0 V c 3 t := by dsimp only [dat0]
theorem after0_4 (c : Dev nD) (t : Fin cfg0.N) : (dat0 O V c).after 4 t = O.o0_4 (iblk0 V c 0 t) (iblk0 V c 1 t) (iblk0 V c 2 t) (iblk0 V c 3 t) := by dsimp only [dat0]
theorem after0_5 (c : Dev nD) (t : Fin cfg0.N) : (dat0 O V c).after 5 t = O.o0_5 (iblk0 V c 0 t) (iblk0 V c 1 t) (iblk0 V c 2 t) (iblk0 V c 3 t) := by dsimp only [dat0]
theorem after0_6 (c : Dev nD) (t : Fin cfg0.N) : (dat0 O V c).after 6 t = O.o0_6 (iblk0 V c 0 t) (iblk0 V c 1 t) (iblk0 V c 2 t) (iblk0 V c 3 t) := by dsimp only [dat0]

theorem before0_0 (c : Dev nD) (t : Fin cfg0.N) (d) : (dat0 O V c).before 0 t d = iblk0 V c 0 t :=
  before0_0_of V (dat0 O V c) (A_eq0 O V c 0) (after0_0 O V c) t d
theorem before0_1 (c : Dev nD) (t : Fin cfg0.N) (d) : (dat0 O V c).before 1 t d = iblk0 V c 1 t :=
  before0_1_of V (dat0 O V c) (A_eq0 O V c 1) (after0_1 O V c) t d
theorem before0_2 (c : Dev nD) (t : Fin cfg0.N) (d) : (dat0 O V c).before 2 t d = iblk0 V c 2 t :=
  before0_2_of V (dat0 O V c) (A_eq0 O V c 2) (after0_2 O V c) t d
theorem before0_3 (c : Dev nD) (t : Fin cfg0.N) (d) : (dat0 O V c).before 3 t d = iblk0 V c 3 t :=
  before0_3_of V (dat0 O V c) (A_eq0 O V c 3) (after0_3 O V c) t d

/-- The class invariant with the scratch operands as memrefs owned at some contents, beside the rest of the scoped buffers. -/
theorem PhiA0_split (c : Dev nD) : (Pipeline.ΦA spec0 c : sProp 𝕄)
    = iprop((iprop((∃ d, owns (c : Thread nD τ) (Memref.whole cc0_scratch0 : Memref sig .tc .vmem S512x1024 .bf16) fullShare d) ∗ (∃ d, owns (c : Thread nD τ) (Memref.whole cc0_scratch1 : Memref sig .tc .vmem S32x4864 .bf16) fullShare d) ∗ (∃ d, owns (c : Thread nD τ) (Memref.whole cc0_scratch2 : Memref sig .tc .vmem S288x4608 .bf16) fullShare d))
        ∗ Pipeline.scopedRestBut (Ix := Unit) (Name := ℕ) (U := UR sig nD τ) (Lvl := ℕ) (Val := Elt F) spec0 c [cc0_scratch0, cc0_scratch1, cc0_scratch2]) ∗ (∃ r, prngReg c r)) := by
  unfold Pipeline.ΦA; rw [Pipeline.scopedRest_split_of_list spec0 c [cc0_scratch0, cc0_scratch1, cc0_scratch2] (by decide) (by decide)]; simp only [owns_whole]; rfl

def bodyPre0 (c : Dev nD) (t : Fin cfg0.N) : sProp 𝕄 :=
  iprop((dat0 O V c).Φ t.castSucc ∗ (dat0 O V c).owesAt () t.castSucc
    ∗ (∃ d, owns (c : Thread nD τ) (st0_0 t) fullShare ((dat0 O V c).before 0 t d))
    ∗ (∃ d, owns (c : Thread nD τ) (st0_1 t) fullShare ((dat0 O V c).before 1 t d))
    ∗ (∃ d, owns (c : Thread nD τ) (st0_2 t) fullShare ((dat0 O V c).before 2 t d))
    ∗ (∃ d, owns (c : Thread nD τ) (st0_3 t) fullShare ((dat0 O V c).before 3 t d))
    ∗ (∃ d, owns (c : Thread nD τ) (st0_4 t) fullShare ((dat0 O V c).before 4 t d))
    ∗ (∃ d, owns (c : Thread nD τ) (st0_5 t) fullShare ((dat0 O V c).before 5 t d))
    ∗ (∃ d, owns (c : Thread nD τ) (st0_6 t) fullShare ((dat0 O V c).before 6 t d)))

def bodyPost0 (c : Dev nD) (t : Fin cfg0.N) : sProp 𝕄 :=
  iprop((dat0 O V c).Φ t.succ ∗ (dat0 O V c).owesAt () t.succ
    ∗ owns (c : Thread nD τ) (st0_0 t) fullShare ((dat0 O V c).after 0 t)
    ∗ owns (c : Thread nD τ) (st0_1 t) fullShare ((dat0 O V c).after 1 t)
    ∗ owns (c : Thread nD τ) (st0_2 t) fullShare ((dat0 O V c).after 2 t)
    ∗ owns (c : Thread nD τ) (st0_3 t) fullShare ((dat0 O V c).after 3 t)
    ∗ owns (c : Thread nD τ) (st0_4 t) fullShare ((dat0 O V c).after 4 t)
    ∗ owns (c : Thread nD τ) (st0_5 t) fullShare ((dat0 O V c).after 5 t)
    ∗ owns (c : Thread nD τ) (st0_6 t) fullShare ((dat0 O V c).after 6 t))

/-- The body at any point: the inputs' memrefs hold their blocks, so the kernel's triple applies; the rest of the invariant
    and the core's owes pass through unread. -/
theorem sound_body0 (hs : Sound0 O) (c : Dev nD) (t : Fin cfg0.N) :
    bodyPre0 O V c t ⊢ wp frame (wpE (defs₀ (F := F)) Variants.none c none) Set.univ (bodyAt0 t) (fun _ => bodyPost0 O V c t) := by
  unfold bodyPre0 bodyPost0 bodyAt0
  simp only [before0_0, before0_1, before0_2, before0_3]
  rw [show (dat0 O V c).Φ t.succ = (dat0 O V c).Φ t.castSucc from rfl,
    show (dat0 O V c).owesAt () t.succ = (dat0 O V c).owesAt () t.castSucc from rfl,
    after0_0, after0_1, after0_2, after0_3, after0_4, after0_5, after0_6]
  rw [show (dat0 O V c).Φ t.castSucc = Pipeline.ΦA spec0 c from rfl, PhiA0_split (F := F) c]
  iintro ⟨⟨⟨⟨S0, S1, S2⟩, HR⟩, Hp⟩, Ho, ⟨%d0, H0⟩, ⟨%d1, H1⟩, ⟨%d2, H2⟩, ⟨%d3, H3⟩, ⟨%d4, H4⟩, ⟨%d5, H5⟩, ⟨%d6, H6⟩⟩
  iapply (hs c Set.univ (grid0.coords t) _ _ _ _ _ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [S0]; · iexact S0
  isplitl [S1]; · iexact S1
  isplitl [S2]; · iexact S2
  iintro ⟨H0, H1, H2, H3, H4, H5, H6, S0, S1, S2⟩
  isplitl [S0 S1 S2 HR Hp]
  · isplitr [Hp]
    · isplitr [HR]
      · isplitl [S0]; · iexact S0
        isplitl [S1]; · iexact S1
        iexact S2
      iexact HR
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (hs : Sound0 O) (c : Dev nD) : BodyObligation (dat0 (F := F) O V c) (defs₀ (F := F)) Variants.none () Set.univ := fun t => by
  rw [bigSep_W0, bigSep_W0]
  exact sound_body0 O V hs c t

/-! # REGION 1: cc1__conv2_kernel (pipeline 1), at the entry contents V -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1 on core c: the arrays as the region finds them; after the body each input's buffer at its
    block and each output's at its term of the input blocks; the invariant the scoped rest and the generator register. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => O.o1_6 (iblk1 V c 0 t) (iblk1 V c 1 t) (iblk1 V c 2 t) (iblk1 V c 3 t) (iblk1 V c 4 t) (iblk1 V c 5 t)
    | ⟨7, _⟩ => O.o1_7 (iblk1 V c 0 t) (iblk1 V c 1 t) (iblk1 V c 2 t) (iblk1 V c 3 t) (iblk1 V c 4 t) (iblk1 V c 5 t)
    | ⟨8, _⟩ => O.o1_8 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 O V c).A w = V c (Pipeline.arrRef spec1 w) := by
  dsimp only [dat1]

theorem after1_0 (c : Dev nD) (t : Fin cfg1.N) : (dat1 O V c).after 0 t = iblk1 V c 0 t := by dsimp only [dat1]
theorem after1_1 (c : Dev nD) (t : Fin cfg1.N) : (dat1 O V c).after 1 t = iblk1 V c 1 t := by dsimp only [dat1]
theorem after1_2 (c : Dev nD) (t : Fin cfg1.N) : (dat1 O V c).after 2 t = iblk1 V c 2 t := by dsimp only [dat1]
theorem after1_3 (c : Dev nD) (t : Fin cfg1.N) : (dat1 O V c).after 3 t = iblk1 V c 3 t := by dsimp only [dat1]
theorem after1_4 (c : Dev nD) (t : Fin cfg1.N) : (dat1 O V c).after 4 t = iblk1 V c 4 t := by dsimp only [dat1]
theorem after1_5 (c : Dev nD) (t : Fin cfg1.N) : (dat1 O V c).after 5 t = iblk1 V c 5 t := by dsimp only [dat1]
theorem after1_6 (c : Dev nD) (t : Fin cfg1.N) : (dat1 O V c).after 6 t = O.o1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 O V c).after 7 t = O.o1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 O V c).after 8 t = O.o1_8 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 O V c).before 0 t d = iblk1 V c 0 t :=
  before1_0_of V (dat1 O V c) (A_eq1 O V c 0) (after1_0 O V c) t d
theorem before1_1 (c : Dev nD) (t : Fin cfg1.N) (d) : (dat1 O V c).before 1 t d = iblk1 V c 1 t :=
  before1_1_of V (dat1 O V c) (A_eq1 O V c 1) (after1_1 O V c) t d
theorem before1_2 (c : Dev nD) (t : Fin cfg1.N) (d) : (dat1 O V c).before 2 t d = iblk1 V c 2 t :=
  before1_2_of V (dat1 O V c) (A_eq1 O V c 2) (after1_2 O V c) t d
theorem before1_3 (c : Dev nD) (t : Fin cfg1.N) (d) : (dat1 O V c).before 3 t d = iblk1 V c 3 t :=
  before1_3_of V (dat1 O V c) (A_eq1 O V c 3) (after1_3 O V c) t d
theorem before1_4 (c : Dev nD) (t : Fin cfg1.N) (d) : (dat1 O V c).before 4 t d = iblk1 V c 4 t :=
  before1_4_of V (dat1 O V c) (A_eq1 O V c 4) (after1_4 O V c) t d
theorem before1_5 (c : Dev nD) (t : Fin cfg1.N) (d) : (dat1 O V c).before 5 t d = iblk1 V c 5 t :=
  before1_5_of V (dat1 O V c) (A_eq1 O V c 5) (after1_5 O V c) t d

/-- The class invariant with the scratch operands as memrefs owned at some contents, beside the rest of the scoped buffers. -/
theorem PhiA1_split (c : Dev nD) : (Pipeline.ΦA spec1 c : sProp 𝕄)
    = iprop((iprop((∃ d, owns (c : Thread nD τ) (Memref.whole cc1_scratch0 : Memref sig .tc .vmem S64x4864 .bf16) fullShare d) ∗ (∃ d, owns (c : Thread nD τ) (Memref.whole cc1_scratch1 : Memref sig .tc .vmem S576x4608 .bf16) fullShare d))
        ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [Pipeline.scopedRest_split_of_list spec1 c [cc1_scratch0, cc1_scratch1] (by decide) (by decide)]; simp only [owns_whole]; rfl

def bodyPre1 (c : Dev nD) (t : Fin cfg1.N) : sProp 𝕄 :=
  iprop((dat1 O V c).Φ t.castSucc ∗ (dat1 O V c).owesAt () t.castSucc
    ∗ (∃ d, owns (c : Thread nD τ) (st1_0 t) fullShare ((dat1 O V c).before 0 t d))
    ∗ (∃ d, owns (c : Thread nD τ) (st1_1 t) fullShare ((dat1 O V c).before 1 t d))
    ∗ (∃ d, owns (c : Thread nD τ) (st1_2 t) fullShare ((dat1 O V c).before 2 t d))
    ∗ (∃ d, owns (c : Thread nD τ) (st1_3 t) fullShare ((dat1 O V c).before 3 t d))
    ∗ (∃ d, owns (c : Thread nD τ) (st1_4 t) fullShare ((dat1 O V c).before 4 t d))
    ∗ (∃ d, owns (c : Thread nD τ) (st1_5 t) fullShare ((dat1 O V c).before 5 t d))
    ∗ (∃ d, owns (c : Thread nD τ) (st1_6 t) fullShare ((dat1 O V c).before 6 t d))
    ∗ (∃ d, owns (c : Thread nD τ) (st1_7 t) fullShare ((dat1 O V c).before 7 t d))
    ∗ (∃ d, owns (c : Thread nD τ) (st1_8 t) fullShare ((dat1 O V c).before 8 t d)))

def bodyPost1 (c : Dev nD) (t : Fin cfg1.N) : sProp 𝕄 :=
  iprop((dat1 O V c).Φ t.succ ∗ (dat1 O V c).owesAt () t.succ
    ∗ owns (c : Thread nD τ) (st1_0 t) fullShare ((dat1 O V c).after 0 t)
    ∗ owns (c : Thread nD τ) (st1_1 t) fullShare ((dat1 O V c).after 1 t)
    ∗ owns (c : Thread nD τ) (st1_2 t) fullShare ((dat1 O V c).after 2 t)
    ∗ owns (c : Thread nD τ) (st1_3 t) fullShare ((dat1 O V c).after 3 t)
    ∗ owns (c : Thread nD τ) (st1_4 t) fullShare ((dat1 O V c).after 4 t)
    ∗ owns (c : Thread nD τ) (st1_5 t) fullShare ((dat1 O V c).after 5 t)
    ∗ owns (c : Thread nD τ) (st1_6 t) fullShare ((dat1 O V c).after 6 t)
    ∗ owns (c : Thread nD τ) (st1_7 t) fullShare ((dat1 O V c).after 7 t)
    ∗ owns (c : Thread nD τ) (st1_8 t) fullShare ((dat1 O V c).after 8 t))

/-- The body at any point: the inputs' memrefs hold their blocks, so the kernel's triple applies; the rest of the invariant
    and the core's owes pass through unread. -/
theorem sound_body1 (hs : Sound1 O) (c : Dev nD) (t : Fin cfg1.N) :
    bodyPre1 O V c t ⊢ wp frame (wpE (defs₀ (F := F)) Variants.none c none) Set.univ (bodyAt1 t) (fun _ => bodyPost1 O V c t) := by
  unfold bodyPre1 bodyPost1 bodyAt1
  simp only [before1_0, before1_1, before1_2, before1_3, before1_4, before1_5]
  rw [show (dat1 O V c).Φ t.succ = (dat1 O V c).Φ t.castSucc from rfl,
    show (dat1 O V c).owesAt () t.succ = (dat1 O V c).owesAt () t.castSucc from rfl,
    after1_0, after1_1, after1_2, after1_3, after1_4, after1_5, after1_6, after1_7, after1_8]
  rw [show (dat1 O V c).Φ t.castSucc = Pipeline.ΦA spec1 c from rfl, PhiA1_split (F := F) c]
  iintro ⟨⟨⟨⟨S0, S1⟩, HR⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (hs c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [S0]; · iexact S0
  isplitl [S1]; · iexact S1
  iintro ⟨H0, H1, H2, H3, H4, H5, H6, H7, H8, S0, S1⟩
  isplitl [S0 S1 HR Hp]
  · isplitr [Hp]
    · isplitr [HR]
      · isplitl [S0]; · iexact S0
        iexact S1
      iexact HR
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation1 (hs : Sound1 O) (c : Dev nD) : BodyObligation (dat1 (F := F) O V c) (defs₀ (F := F)) Variants.none () Set.univ := fun t => by
  rw [bigSep_W1, bigSep_W1]
  exact sound_body1 O V hs c t

/-! # REGION 2: cc2__bn_relu_out_kernel (pipeline 2), at the entry contents V -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The proof data of pipeline 2 on core c: the arrays as the region finds them; after the body each input's buffer at its
    block and each output's at its term of the input blocks; the invariant the scoped rest and the generator register. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => O.o2_3 (iblk2 V c 0 t) (iblk2 V c 1 t) (iblk2 V c 2 t)
  Φ _ := Pipeline.ΦA spec2 c
  q _ := fullShare
  owed _ := 0

theorem A_eq2 (c : Dev nD) (w : Fin cfg2.W) : (dat2 O V c).A w = V c (Pipeline.arrRef spec2 w) := by
  dsimp only [dat2]

theorem after2_0 (c : Dev nD) (t : Fin cfg2.N) : (dat2 O V c).after 0 t = iblk2 V c 0 t := by dsimp only [dat2]
theorem after2_1 (c : Dev nD) (t : Fin cfg2.N) : (dat2 O V c).after 1 t = iblk2 V c 1 t := by dsimp only [dat2]
theorem after2_2 (c : Dev nD) (t : Fin cfg2.N) : (dat2 O V c).after 2 t = iblk2 V c 2 t := by dsimp only [dat2]
theorem after2_3 (c : Dev nD) (t : Fin cfg2.N) : (dat2 O V c).after 3 t = O.o2_3 (iblk2 V c 0 t) (iblk2 V c 1 t) (iblk2 V c 2 t) := by dsimp only [dat2]

theorem before2_0 (c : Dev nD) (t : Fin cfg2.N) (d) : (dat2 O V c).before 0 t d = iblk2 V c 0 t :=
  before2_0_of V (dat2 O V c) (A_eq2 O V c 0) (after2_0 O V c) t d
theorem before2_1 (c : Dev nD) (t : Fin cfg2.N) (d) : (dat2 O V c).before 1 t d = iblk2 V c 1 t :=
  before2_1_of V (dat2 O V c) (A_eq2 O V c 1) (after2_1 O V c) t d
theorem before2_2 (c : Dev nD) (t : Fin cfg2.N) (d) : (dat2 O V c).before 2 t d = iblk2 V c 2 t :=
  before2_2_of V (dat2 O V c) (A_eq2 O V c 2) (after2_2 O V c) t d

def bodyPre2 (c : Dev nD) (t : Fin cfg2.N) : sProp 𝕄 :=
  iprop((dat2 O V c).Φ t.castSucc ∗ (dat2 O V c).owesAt () t.castSucc
    ∗ (∃ d, owns (c : Thread nD τ) (st2_0 t) fullShare ((dat2 O V c).before 0 t d))
    ∗ (∃ d, owns (c : Thread nD τ) (st2_1 t) fullShare ((dat2 O V c).before 1 t d))
    ∗ (∃ d, owns (c : Thread nD τ) (st2_2 t) fullShare ((dat2 O V c).before 2 t d))
    ∗ (∃ d, owns (c : Thread nD τ) (st2_3 t) fullShare ((dat2 O V c).before 3 t d)))

def bodyPost2 (c : Dev nD) (t : Fin cfg2.N) : sProp 𝕄 :=
  iprop((dat2 O V c).Φ t.succ ∗ (dat2 O V c).owesAt () t.succ
    ∗ owns (c : Thread nD τ) (st2_0 t) fullShare ((dat2 O V c).after 0 t)
    ∗ owns (c : Thread nD τ) (st2_1 t) fullShare ((dat2 O V c).after 1 t)
    ∗ owns (c : Thread nD τ) (st2_2 t) fullShare ((dat2 O V c).after 2 t)
    ∗ owns (c : Thread nD τ) (st2_3 t) fullShare ((dat2 O V c).after 3 t))

/-- The body at any point: the inputs' memrefs hold their blocks, so the kernel's triple applies; the rest of the invariant
    and the core's owes pass through unread. -/
theorem sound_body2 (hs : Sound2 O) (c : Dev nD) (t : Fin cfg2.N) :
    bodyPre2 O V c t ⊢ wp frame (wpE (defs₀ (F := F)) Variants.none c none) Set.univ (bodyAt2 t) (fun _ => bodyPost2 O V c t) := by
  unfold bodyPre2 bodyPost2 bodyAt2
  simp only [before2_0, before2_1, before2_2]
  rw [show (dat2 O V c).Φ t.succ = (dat2 O V c).Φ t.castSucc from rfl,
    show (dat2 O V c).owesAt () t.succ = (dat2 O V c).owesAt () t.castSucc from rfl,
    after2_0, after2_1, after2_2, after2_3]
  iintro ⟨HΦ, Ho, ⟨%d0, H0⟩, ⟨%d1, H1⟩, ⟨%d2, H2⟩, ⟨%d3, H3⟩⟩
  iapply (hs c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (hs : Sound2 O) (c : Dev nD) : BodyObligation (dat2 (F := F) O V c) (defs₀ (F := F)) Variants.none () Set.univ := fun t => by
  rw [bigSep_W2, bigSep_W2]
  exact sound_body2 O V hs c t

end Regions

/-! # THE RUN: @main's items from the launch to the return -/

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After item 0, the host stretch main_part0_ops0. -/
abbrev W1 : Dev nD → Valuation τ sig (Elt F) := fun c => StableHlo.after main_part0_ops0 (W0 m ρ c)

/-- After item 1, the host stretch main_part0_ops1. -/
abbrev W2 : Dev nD → Valuation τ sig (Elt F) := fun c => StableHlo.after main_part0_ops1 (W1 m ρ c)

/-- After item 2, the host stretch main_part0_ops2. -/
abbrev W3 : Dev nD → Valuation τ sig (Elt F) := fun c => StableHlo.after main_part0_ops2 (W2 m ρ c)

/-- After item 3, the host stretch main_part0_ops3. -/
abbrev W4 : Dev nD → Valuation τ sig (Elt F) := fun c => StableHlo.after main_part0_ops3 (W3 m ρ c)

/-- After item 4, the host stretch main_part0_ops4. -/
abbrev W5 : Dev nD → Valuation τ sig (Elt F) := fun c => StableHlo.after main_part0_ops4 (W4 m ρ c)

/-- After item 5, the host stretch main_part0_ops5. -/
abbrev W6 : Dev nD → Valuation τ sig (Elt F) := fun c => StableHlo.after main_part0_ops5 (W5 m ρ c)

/-- After item 6, the host stretch main_part0_ops6. -/
abbrev W7 : Dev nD → Valuation τ sig (Elt F) := fun c => StableHlo.after main_part0_ops6 (W6 m ρ c)

/-- After item 7, the host stretch main_part0_ops7. -/
abbrev W8 : Dev nD → Valuation τ sig (Elt F) := fun c => StableHlo.after main_part0_ops7 (W7 m ρ c)

/-- After item 8, the host stretch main_part0_ops8. -/
abbrev W9 : Dev nD → Valuation τ sig (Elt F) := fun c => StableHlo.after main_part0_ops8 (W8 m ρ c)

/-- After item 9, the host stretch main_part0_ops9. -/
abbrev W10 : Dev nD → Valuation τ sig (Elt F) := fun c => StableHlo.after main_part0_ops9 (W9 m ρ c)

/-- After item 10, the host stretch main_part0_ops10. -/
abbrev W11 : Dev nD → Valuation τ sig (Elt F) := fun c => StableHlo.after main_part0_ops10 (W10 m ρ c)

/-- After item 11, the host stretch main_part1_ops0. -/
abbrev W12 : Dev nD → Valuation τ sig (Elt F) := fun c => StableHlo.after main_part1_ops0 (W11 m ρ c)

/-- After item 12, the host stretch main_part2_ops0. -/
abbrev W13 : Dev nD → Valuation τ sig (Elt F) := fun c => StableHlo.after main_part2_ops0 (W12 m ρ c)

/-- After item 13, the host stretch main_part3_ops0. -/
abbrev W14 : Dev nD → Valuation τ sig (Elt F) := fun c => StableHlo.after main_part3_ops0 (W13 m ρ c)

/-- After item 14, the host stretch main_part4_ops0. -/
abbrev W15 : Dev nD → Valuation τ sig (Elt F) := fun c => StableHlo.after main_part4_ops0 (W14 m ρ c)

/-- After item 15, the host stretch main_part5_ops0. -/
abbrev W16 : Dev nD → Valuation τ sig (Elt F) := fun c => StableHlo.after main_part5_ops0 (W15 m ρ c)

/-- After item 16, the host stretch main_part6_ops0. -/
abbrev W17 : Dev nD → Valuation τ sig (Elt F) := fun c => StableHlo.after main_part6_ops0 (W16 m ρ c)

/-- The contents region 0 is entered from, read at the TensorCore's references. -/
abbrev V17 : (c : Dev nD) → (b : Ref sig .tc) → Buf (Elt F) ((c : Thread nD τ).loc b) := fun c b => W17 m ρ c b
/-- After item 17, region 0: its arrays at what the pipeline leaves, every other buffer as entered. -/
def W18 (c : Dev nD) : Valuation τ sig (Elt F) :=
  Pipeline.withArrays spec0 c (W17 m ρ c) fun w => (dat0 O (V17 m ρ) c).arrAt w cfg0.N
theorem W18_arr (c : Dev nD) (w : Fin cfg0.W) :
    W18 O m ρ c (Proc.devRef .tc (Pipeline.arrRef spec0 w)) = (dat0 O (V17 m ρ) c).arrAt w cfg0.N := by
  unfold W18; exact Pipeline.withArrays_arr spec0 launch0.win.arr_inj c _ _ w
theorem W18_of_ne (c : Dev nD) (b : Ref sig .tc) (hb : ∀ w, Pipeline.arrRef spec0 w ≠ b) :
    W18 O m ρ c (Proc.devRef .tc b) = W17 m ρ c (Proc.devRef .tc b) := by
  unfold W18; exact Pipeline.withArrays_of_ne spec0 c _ _ b hb
abbrev V18 : (c : Dev nD) → (b : Ref sig .tc) → Buf (Elt F) ((c : Thread nD τ).loc b) := fun c b => W18 O m ρ c b
theorem hF0 (c : Dev nD) (w : Fin cfg0.W) : (dat0 O (V17 m ρ) c).arrAt w cfg0.N = V18 O m ρ c (Pipeline.arrRef spec0 w) :=
  (W18_arr O m ρ c w).symm
theorem hrest0 (c : Dev nD) : ∀ b, b ∉ Finset.univ.image (Pipeline.arrRef spec0) → V18 O m ρ c b = V17 m ρ c b :=
  fun b hb => W18_of_ne O m ρ c b fun w e => hb (Finset.mem_image.mpr ⟨w, Finset.mem_univ _, e⟩)

/-- After item 18, the host stretch main_part6_ops1. -/
abbrev W19 : Dev nD → Valuation τ sig (Elt F) := fun c => StableHlo.after main_part6_ops1 (W18 O m ρ c)

/-- After item 19, the host stretch main_part7_ops0. -/
abbrev W20 : Dev nD → Valuation τ sig (Elt F) := fun c => StableHlo.after main_part7_ops0 (W19 O m ρ c)

/-- The contents region 1 is entered from, read at the TensorCore's references. -/
abbrev V20 : (c : Dev nD) → (b : Ref sig .tc) → Buf (Elt F) ((c : Thread nD τ).loc b) := fun c b => W20 O m ρ c b
/-- After item 20, region 1: its arrays at what the pipeline leaves, every other buffer as entered. -/
def W21 (c : Dev nD) : Valuation τ sig (Elt F) :=
  Pipeline.withArrays spec1 c (W20 O m ρ c) fun w => (dat1 O (V20 O m ρ) c).arrAt w cfg1.N
theorem W21_arr (c : Dev nD) (w : Fin cfg1.W) :
    W21 O m ρ c (Proc.devRef .tc (Pipeline.arrRef spec1 w)) = (dat1 O (V20 O m ρ) c).arrAt w cfg1.N := by
  unfold W21; exact Pipeline.withArrays_arr spec1 launch1.win.arr_inj c _ _ w
theorem W21_of_ne (c : Dev nD) (b : Ref sig .tc) (hb : ∀ w, Pipeline.arrRef spec1 w ≠ b) :
    W21 O m ρ c (Proc.devRef .tc b) = W20 O m ρ c (Proc.devRef .tc b) := by
  unfold W21; exact Pipeline.withArrays_of_ne spec1 c _ _ b hb
abbrev V21 : (c : Dev nD) → (b : Ref sig .tc) → Buf (Elt F) ((c : Thread nD τ).loc b) := fun c b => W21 O m ρ c b
theorem hF1 (c : Dev nD) (w : Fin cfg1.W) : (dat1 O (V20 O m ρ) c).arrAt w cfg1.N = V21 O m ρ c (Pipeline.arrRef spec1 w) :=
  (W21_arr O m ρ c w).symm
theorem hrest1 (c : Dev nD) : ∀ b, b ∉ Finset.univ.image (Pipeline.arrRef spec1) → V21 O m ρ c b = V20 O m ρ c b :=
  fun b hb => W21_of_ne O m ρ c b fun w e => hb (Finset.mem_image.mpr ⟨w, Finset.mem_univ _, e⟩)

/-- After item 21, the host stretch main_part7_ops1. -/
abbrev W22 : Dev nD → Valuation τ sig (Elt F) := fun c => StableHlo.after main_part7_ops1 (W21 O m ρ c)

/-- The contents region 2 is entered from, read at the TensorCore's references. -/
abbrev V22 : (c : Dev nD) → (b : Ref sig .tc) → Buf (Elt F) ((c : Thread nD τ).loc b) := fun c b => W22 O m ρ c b
/-- After item 22, region 2: its arrays at what the pipeline leaves, every other buffer as entered. -/
def W23 (c : Dev nD) : Valuation τ sig (Elt F) :=
  Pipeline.withArrays spec2 c (W22 O m ρ c) fun w => (dat2 O (V22 O m ρ) c).arrAt w cfg2.N
theorem W23_arr (c : Dev nD) (w : Fin cfg2.W) :
    W23 O m ρ c (Proc.devRef .tc (Pipeline.arrRef spec2 w)) = (dat2 O (V22 O m ρ) c).arrAt w cfg2.N := by
  unfold W23; exact Pipeline.withArrays_arr spec2 launch2.win.arr_inj c _ _ w
theorem W23_of_ne (c : Dev nD) (b : Ref sig .tc) (hb : ∀ w, Pipeline.arrRef spec2 w ≠ b) :
    W23 O m ρ c (Proc.devRef .tc b) = W22 O m ρ c (Proc.devRef .tc b) := by
  unfold W23; exact Pipeline.withArrays_of_ne spec2 c _ _ b hb
abbrev V23 : (c : Dev nD) → (b : Ref sig .tc) → Buf (Elt F) ((c : Thread nD τ).loc b) := fun c b => W23 O m ρ c b
theorem hF2 (c : Dev nD) (w : Fin cfg2.W) : (dat2 O (V22 O m ρ) c).arrAt w cfg2.N = V23 O m ρ c (Pipeline.arrRef spec2 w) :=
  (W23_arr O m ρ c w).symm
theorem hrest2 (c : Dev nD) : ∀ b, b ∉ Finset.univ.image (Pipeline.arrRef spec2) → V23 O m ρ c b = V22 O m ρ c b :=
  fun b hb => W23_of_ne O m ρ c b fun w e => hb (Finset.mem_image.mpr ⟨w, Finset.mem_univ _, e⟩)

/-- After item 23, the host stretch main_part7_ops2. -/
abbrev W24 : Dev nD → Valuation τ sig (Elt F) := fun c => StableHlo.after main_part7_ops2 (W23 O m ρ c)

/-! ## The proof data family and the thread state -/

abbrev adm : (p : Fin 3) → (pcfgs (F := F) p).Adm := fun p => (cfgs p).toPCfg_adm
/-- Every pipeline's proof data, each at its region's entry contents: a literal match. -/
def pdats : (p : Fin 3) → (c : Dev nD) → Dat τ (Elt F) Unit ℕ (UR sig nD τ) ℕ (Pipeline.pin (pcfgs (F := F)) adm p) c
  | ⟨0, _⟩ => fun c => dat0 O (V17 m ρ) c
  | ⟨1, _⟩ => fun c => dat1 O (V20 O m ρ) c
  | ⟨2, _⟩ => fun c => dat2 O (V22 O m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part0_ops3_fresh : (main_part0_ops3 : List (HloOp τ sig (Elt F))).Forall fun op => op.fresh = ∅ := by
  simp only [List.Forall]; repeat' constructor
theorem main_part0_ops4_fresh : (main_part0_ops4 : List (HloOp τ sig (Elt F))).Forall fun op => op.fresh = ∅ := by
  simp only [List.Forall]; repeat' constructor
theorem main_part0_ops5_fresh : (main_part0_ops5 : List (HloOp τ sig (Elt F))).Forall fun op => op.fresh = ∅ := by
  simp only [List.Forall]; repeat' constructor
theorem main_part0_ops6_fresh : (main_part0_ops6 : List (HloOp τ sig (Elt F))).Forall fun op => op.fresh = ∅ := by
  simp only [List.Forall]; repeat' constructor
theorem main_part0_ops7_fresh : (main_part0_ops7 : List (HloOp τ sig (Elt F))).Forall fun op => op.fresh = ∅ := by
  simp only [List.Forall]; repeat' constructor
theorem main_part0_ops8_fresh : (main_part0_ops8 : List (HloOp τ sig (Elt F))).Forall fun op => op.fresh = ∅ := by
  simp only [List.Forall]; repeat' constructor
theorem main_part0_ops9_fresh : (main_part0_ops9 : List (HloOp τ sig (Elt F))).Forall fun op => op.fresh = ∅ := by
  simp only [List.Forall]; repeat' constructor
theorem main_part0_ops10_fresh : (main_part0_ops10 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part3_ops0_fresh : (main_part3_ops0 : List (HloOp τ sig (Elt F))).Forall fun op => op.fresh = ∅ := by
  simp only [List.Forall]; repeat' constructor
theorem main_part4_ops0_fresh : (main_part4_ops0 : List (HloOp τ sig (Elt F))).Forall fun op => op.fresh = ∅ := by
  simp only [List.Forall]; repeat' constructor
theorem main_part5_ops0_fresh : (main_part5_ops0 : List (HloOp τ sig (Elt F))).Forall fun op => op.fresh = ∅ := by
  simp only [List.Forall]; repeat' constructor
theorem main_part6_ops0_fresh : (main_part6_ops0 : List (HloOp τ sig (Elt F))).Forall fun op => op.fresh = ∅ := by
  simp only [List.Forall]; repeat' constructor
theorem main_part6_ops1_fresh : (main_part6_ops1 : List (HloOp τ sig (Elt F))).Forall fun op => op.fresh = ∅ := by
  simp only [List.Forall]; repeat' constructor
theorem main_part7_ops0_fresh : (main_part7_ops0 : List (HloOp τ sig (Elt F))).Forall fun op => op.fresh = ∅ := by
  simp only [List.Forall]; repeat' constructor
theorem main_part7_ops1_fresh : (main_part7_ops1 : List (HloOp τ sig (Elt F))).Forall fun op => op.fresh = ∅ := by
  simp only [List.Forall]; repeat' constructor
theorem main_part7_ops2_fresh : (main_part7_ops2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator register at some state. -/
abbrev Tₙ (c : Dev nD) : sProp 𝕄 := iprop(StableHlo.held (c : Thread nD τ) (Pipeline.ucRefs τ sig) (W24 O m ρ c) ∗ ∃ r, prngReg c r)

/-! ## The regions as segments -/

set_option backward.isDefEq.respectTransparency.types false in
/-- REGION 0 over the thread state: entered from every unscoped buffer at W17, left at W18. -/
def reg0 (hs : Sound0 O) : Pipeline.RegionSeg (pcfgs (F := F)) adm (pdats O m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 O (V17 m ρ) hs c).loose
  hwaits := Pipeline.hwaits_of_owed_zero _ _ _ _ L lv 0 fun _ _ => rfl
  pre c := iprop(StableHlo.held (c : Thread nD τ) (Pipeline.ucRefs τ sig) (W17 m ρ c) ∗ R c)
  post c := iprop(StableHlo.held (c : Thread nD τ) (Pipeline.ucRefs τ sig) (W18 O m ρ c) ∗ R c)
  X c := iprop(∃ r, prngReg c r)
  Y c := iprop(∃ r, prngReg c r)
  Z c := Pipeline.unscopedRest (Ix := Unit) (Name := ℕ) (U := UR sig nD τ) (Lvl := ℕ) spec0 c (V17 m ρ c)
  hentry c := by
    rw [Pipeline.ownSems0_none]
    have hsplit := Pipeline.arrays_of_unscopedBufs (p := 0) (pcfgs (F := F)) adm (pdats O m ρ) launch0.win launch0.arr_whole c
      ((pdats O m ρ 0 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats O m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats O m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats O m ρ) ((pdats O m ρ 0 c).share_full fun _ => rfl)
      (V17 m ρ c) (V18 O m ρ c) ((pdats O m ρ 0 c).arrAt · cfg0.N) (hF0 O m ρ c) (hrest0 O m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at W20, left at W21. -/
def reg1 (hs : Sound1 O) : Pipeline.RegionSeg (pcfgs (F := F)) adm (pdats O m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 O (V20 O m ρ) hs c).loose
  hwaits := Pipeline.hwaits_of_owed_zero _ _ _ _ L lv 1 fun _ _ => rfl
  pre c := iprop(StableHlo.held (c : Thread nD τ) (Pipeline.ucRefs τ sig) (W20 O m ρ c) ∗ R c)
  post c := iprop(StableHlo.held (c : Thread nD τ) (Pipeline.ucRefs τ sig) (W21 O m ρ c) ∗ R c)
  X c := iprop(∃ r, prngReg c r)
  Y c := iprop(∃ r, prngReg c r)
  Z c := Pipeline.unscopedRest (Ix := Unit) (Name := ℕ) (U := UR sig nD τ) (Lvl := ℕ) spec1 c (V20 O m ρ c)
  hentry c := by
    rw [Pipeline.ownSems0_none]
    have hsplit := Pipeline.arrays_of_unscopedBufs (p := 1) (pcfgs (F := F)) adm (pdats O m ρ) launch1.win launch1.arr_whole c
      ((pdats O m ρ 1 c).share_full fun _ => rfl) (V20 O m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats O m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats O m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats O m ρ) ((pdats O m ρ 1 c).share_full fun _ => rfl)
      (V20 O m ρ c) (V21 O m ρ c) ((pdats O m ρ 1 c).arrAt · cfg1.N) (hF1 O m ρ c) (hrest1 O m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at W22, left at W23. -/
def reg2 (hs : Sound2 O) : Pipeline.RegionSeg (pcfgs (F := F)) adm (pdats O m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 O (V22 O m ρ) hs c).loose
  hwaits := Pipeline.hwaits_of_owed_zero _ _ _ _ L lv 2 fun _ _ => rfl
  pre c := iprop(StableHlo.held (c : Thread nD τ) (Pipeline.ucRefs τ sig) (W22 O m ρ c) ∗ R c)
  post c := iprop(StableHlo.held (c : Thread nD τ) (Pipeline.ucRefs τ sig) (W23 O m ρ c) ∗ R c)
  X c := iprop(∃ r, prngReg c r)
  Y c := iprop(∃ r, prngReg c r)
  Z c := Pipeline.unscopedRest (Ix := Unit) (Name := ℕ) (U := UR sig nD τ) (Lvl := ℕ) spec2 c (V22 O m ρ c)
  hentry c := by
    rw [Pipeline.ownSems0_none]
    have hsplit := Pipeline.arrays_of_unscopedBufs (p := 2) (pcfgs (F := F)) adm (pdats O m ρ) launch2.win launch2.arr_whole c
      ((pdats O m ρ 2 c).share_full fun _ => rfl) (V22 O m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats O m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats O m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats O m ρ) ((pdats O m ρ 2 c).share_full fun _ => rfl)
      (V22 O m ρ c) (V23 O m ρ c) ((pdats O m ρ 2 c).arrAt · cfg2.N) (hF2 O m ρ c) (hrest2 O m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 24 items in order: a host segment per stretch from its boundary's contents, a region per pallas_call. -/
abbrev segs (hs0 : Sound0 O) (hs1 : Sound1 O) (hs2 : Sound2 O) : List (Pipeline.Seg (pcfgs (F := F)) adm (pdats O m ρ) () defs₀ 𝒱₀ L lv) :=
  [ .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .host (hseg main_part0_ops3 main_part0_ops3_sub main_part0_ops3_fresh (W3 m ρ)),
    .host (hseg main_part0_ops4 main_part0_ops4_sub main_part0_ops4_fresh (W4 m ρ)),
    .host (hseg main_part0_ops5 main_part0_ops5_sub main_part0_ops5_fresh (W5 m ρ)),
    .host (hseg main_part0_ops6 main_part0_ops6_sub main_part0_ops6_fresh (W6 m ρ)),
    .host (hseg main_part0_ops7 main_part0_ops7_sub main_part0_ops7_fresh (W7 m ρ)),
    .host (hseg main_part0_ops8 main_part0_ops8_sub main_part0_ops8_fresh (W8 m ρ)),
    .host (hseg main_part0_ops9 main_part0_ops9_sub main_part0_ops9_fresh (W9 m ρ)),
    .host (hseg main_part0_ops10 main_part0_ops10_sub main_part0_ops10_fresh (W10 m ρ)),
    .host (hseg main_part1_ops0 main_part1_ops0_sub main_part1_ops0_fresh (W11 m ρ)),
    .host (hseg main_part2_ops0 main_part2_ops0_sub main_part2_ops0_fresh (W12 m ρ)),
    .host (hseg main_part3_ops0 main_part3_ops0_sub main_part3_ops0_fresh (W13 m ρ)),
    .host (hseg main_part4_ops0 main_part4_ops0_sub main_part4_ops0_fresh (W14 m ρ)),
    .host (hseg main_part5_ops0 main_part5_ops0_sub main_part5_ops0_fresh (W15 m ρ)),
    .host (hseg main_part6_ops0 main_part6_ops0_sub main_part6_ops0_fresh (W16 m ρ)),
    .region (reg0 O m ρ hs0),
    .host (hseg main_part6_ops1 main_part6_ops1_sub main_part6_ops1_fresh (W18 O m ρ)),
    .host (hseg main_part7_ops0 main_part7_ops0_sub main_part7_ops0_fresh (W19 O m ρ)),
    .region (reg1 O m ρ hs1),
    .host (hseg main_part7_ops1 main_part7_ops1_sub main_part7_ops1_fresh (W21 O m ρ)),
    .region (reg2 O m ρ hs2),
    .host (hseg main_part7_ops2 main_part7_ops2_sub main_part7_ops2_fresh (W23 O m ρ)) ]
/-- @main IS the run of the segments: its items' chain, then the segments' run against that chain. -/
theorem main_run (hs0 : Sound0 O) (hs1 : Sound1 O) (hs2 : Sound2 O) (c : Dev nD) : main (F := F) c = Pipeline.Seg.run (segs O m ρ hs0 hs1 hs2) := (main_chain_windows c).trans (by chain_rfl)

set_option backward.isDefEq.respectTransparency.types false in
/-- THE RUN: from any memory with zero counters, every weakly fair execution of @main on the TensorCores terminates, nothing
    faulting, and every final state holds each unscoped buffer at the last boundary's contents. -/
theorem run (hs0 : Sound0 O) (hs1 : Sound1 O) (hs2 : Sound2 O) : θ_run defs (onTc (τ := τ) (main (F := F))) ⟨m, fun _ => 0, ρ⟩ (fun r => ∀ c : Dev nD,
      ∀ b ∈ Pipeline.ucRefs τ sig, r.2.mem (((c : Thread nD τ)).1, b) = W24 O m ρ c b) :=
  Pipeline.θ_run_regions_kit (pcfgs (F := F)) adm (pdats O m ρ) () cellOf_inj emb₁ defs₀ 𝒱₀ L lv m ρ main (segs O m ρ hs0 hs1 hs2)
    (fun c Q => by rw [main_run O m ρ hs0 hs1 hs2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ O m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => show
        iprop(StableHlo.held (c : Thread nD τ) (Pipeline.ucRefs τ sig) (W24 O m ρ c) ∗ ((∃ r, prngReg c r) ∗ ∃ W, owes (c : Thread nD τ) (0 : CellTallies nD τ sig Unit) W))
          ⊢ iprop(iprop(StableHlo.held (c : Thread nD τ) (Pipeline.ucRefs τ sig) (W24 O m ρ c) ∗ ∃ r, prngReg c r) ∗ ∃ W, owes (c : Thread nD τ) (0 : CellTallies nD τ sig Unit) W) from by
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 O m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 O m ρ c) s')
      isplitl [Hh] <;> iassumption)
    (hQ := fun s h c => h c)

end Cert.Kernel.Run

end
-- ==== Proof.KernelHostWrites.lean ====
import proofs.«157750_g2000200144022539_pallasbulk_675_13_alg».proof.Proof.Gen.Kernel.Launch
import Idealize.ShloMosaic.Lib.StableHlo.Run

set_option maxRecDepth 16384

noncomputable section

namespace Cert.Kernel.Host

open Idealize.ShloMosaic Idealize.ShloMosaic.TcCoe
open Cert.Kernel Cert.Kernel.Gen

variable {F : FTy → Type} [FloatOps F]

theorem writes_in_order {Val : EltTy → Type} (l : List (HloOp τ sig Val)) (W : List (Ref sig .tc))
    (h : (l.map fun op => op.writes) = W.map fun r => ({Proc.devRef (τ := τ) .tc r} : Finset (DevRef τ sig))) :
    l.Forall fun op => op.writes ⊆ (W.map (Proc.devRef (τ := τ) .tc)).toFinset := by
  rw [List.forall_iff_forall_mem]
  intro op hop
  have hm := List.mem_map_of_mem (f := fun op : HloOp τ sig Val => op.writes) hop
  rw [h] at hm
  obtain ⟨r, hr, e⟩ := List.mem_map.mp hm
  rw [← e, Finset.singleton_subset_iff, List.mem_toFinset]
  exact List.mem_map_of_mem hr

abbrev main_part0_ops0_W : List (Ref sig .tc) :=
  [main_v0, main_v1, main_v2, main_v3, main_v4, main_c]
theorem main_part0_ops0_writes : (main_part0_ops0 : List (HloOp τ sig (Elt F))).Forall fun op => op.writes ⊆ (main_part0_ops0_W.map (Proc.devRef (τ := τ) .tc)).toFinset :=
  writes_in_order _ _ rfl

abbrev main_part0_ops1_W : List (Ref sig .tc) :=
  [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v5]
theorem main_part0_ops1_writes : (main_part0_ops1 : List (HloOp τ sig (Elt F))).Forall fun op => op.writes ⊆ (main_part0_ops1_W.map (Proc.devRef (τ := τ) .tc)).toFinset :=
  writes_in_order _ _ rfl

abbrev main_part0_ops2_W : List (Ref sig .tc) :=
  [main_c_0, main_v6, main_v7, main_c_1]
theorem main_part0_ops2_writes : (main_part0_ops2 : List (HloOp τ sig (Elt F))).Forall fun op => op.writes ⊆ (main_part0_ops2_W.map (Proc.devRef (τ := τ) .tc)).toFinset :=
  writes_in_order _ _ rfl

abbrev main_part0_ops3_W : List (Ref sig .tc) :=
  [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v8]
theorem main_part0_ops3_writes : (main_part0_ops3 : List (HloOp τ sig (Elt F))).Forall fun op => op.writes ⊆ (main_part0_ops3_W.map (Proc.devRef (τ := τ) .tc)).toFinset :=
  writes_in_order _ _ rfl

abbrev main_part0_ops4_W : List (Ref sig .tc) :=
  [main_c_2, main_v9, main_v10, main_v11, main_v12, main_v13, main_v14, main_v15, main_v16, main_c_3, main_v17, main_v18, main_c_4]
theorem main_part0_ops4_writes : (main_part0_ops4 : List (HloOp τ sig (Elt F))).Forall fun op => op.writes ⊆ (main_part0_ops4_W.map (Proc.devRef (τ := τ) .tc)).toFinset :=
  writes_in_order _ _ rfl

abbrev main_part0_ops5_W : List (Ref sig .tc) :=
  [main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v19]
theorem main_part0_ops5_writes : (main_part0_ops5 : List (HloOp τ sig (Elt F))).Forall fun op => op.writes ⊆ (main_part0_ops5_W.map (Proc.devRef (τ := τ) .tc)).toFinset :=
  writes_in_order _ _ rfl

abbrev main_part0_ops6_W : List (Ref sig .tc) :=
  [main_c_5]
theorem main_part0_ops6_writes : (main_part0_ops6 : List (HloOp τ sig (Elt F))).Forall fun op => op.writes ⊆ (main_part0_ops6_W.map (Proc.devRef (τ := τ) .tc)).toFinset :=
  writes_in_order _ _ rfl

abbrev main_part0_ops7_W : List (Ref sig .tc) :=
  [main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v20]
theorem main_part0_ops7_writes : (main_part0_ops7 : List (HloOp τ sig (Elt F))).Forall fun op => op.writes ⊆ (main_part0_ops7_W.map (Proc.devRef (τ := τ) .tc)).toFinset :=
  writes_in_order _ _ rfl

abbrev main_part0_ops8_W : List (Ref sig .tc) :=
  [main_c_6]
theorem main_part0_ops8_writes : (main_part0_ops8 : List (HloOp τ sig (Elt F))).Forall fun op => op.writes ⊆ (main_part0_ops8_W.map (Proc.devRef (τ := τ) .tc)).toFinset :=
  writes_in_order _ _ rfl

abbrev main_part0_ops9_W : List (Ref sig .tc) :=
  [main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v21]
theorem main_part0_ops9_writes : (main_part0_ops9 : List (HloOp τ sig (Elt F))).Forall fun op => op.writes ⊆ (main_part0_ops9_W.map (Proc.devRef (τ := τ) .tc)).toFinset :=
  writes_in_order _ _ rfl

abbrev main_part0_ops10_W : List (Ref sig .tc) :=
  [main_c_7, main_v22, main_v23, main_c_8, main_v24, main_v25, main_c_9, main_v26, main_v27, main_c_10, main_v28, main_v29, main_c_11, main_v30, main_v31, main_c_12, main_v32, main_v33, main_v34, main_c_13, main_v35, main_v36, main_c_14, main_v37, main_v38, main_c_15, main_v39, main_v40, main_v41, main_c_16]
theorem main_part0_ops10_writes : (main_part0_ops10 : List (HloOp τ sig (Elt F))).Forall fun op => op.writes ⊆ (main_part0_ops10_W.map (Proc.devRef (τ := τ) .tc)).toFinset :=
  writes_in_order _ _ rfl

abbrev main_part1_ops0_W : List (Ref sig .tc) :=
  [main_v42, main_v43, main_c_17, main_v44, main_v45, main_c_18, main_v46, main_v47, main_v48, main_c_19, main_v49, main_v50, main_c_20, main_v51, main_v52, main_c_21, main_v53, main_v54, main_c_22, main_v55, main_v56, main_c_23, main_v57, main_v58, main_c_24, main_v59, main_v60, main_v61, main_c_25, main_v62, main_v63, main_c_26, main_v64, main_v65, main_c_27, main_v66, main_v67, main_v68, main_c_28, main_v69, main_v70, main_c_29, main_v71, main_v72, main_c_30, main_v73, main_v74, main_v75, main_c_31, main_v76, main_v77, main_c_32, main_v78, main_v79, main_c_33, main_v80, main_v81, main_c_34, main_v82, main_v83]
theorem main_part1_ops0_writes : (main_part1_ops0 : List (HloOp τ sig (Elt F))).Forall fun op => op.writes ⊆ (main_part1_ops0_W.map (Proc.devRef (τ := τ) .tc)).toFinset :=
  writes_in_order _ _ rfl

abbrev main_part2_ops0_W : List (Ref sig .tc) :=
  [main_c_35, main_v84, main_v85, main_c_36, main_v86, main_v87, main_v88, main_c_37, main_v89, main_v90, main_c_38, main_v91, main_v92, main_c_39, main_v93, main_v94, main_v95, main_c_40, main_v96, main_v97, main_c_41, main_v98, main_v99, main_c_42, main_v100, main_v101, main_v102, main_c_43, main_v103, main_v104, main_c_44, main_v105, main_v106, main_c_45, main_v107, main_v108, main_c_46, main_v109, main_v110, main_c_47, main_v111, main_v112, main_c_48, main_v113, main_v114, main_v115, main_c_49, main_v116, main_v117, main_c_50, main_v118, main_v119, main_c_51, main_v120, main_v121, main_v122, main_c_52, main_v123, main_v124, main_c_53]
theorem main_part2_ops0_writes : (main_part2_ops0 : List (HloOp τ sig (Elt F))).Forall fun op => op.writes ⊆ (main_part2_ops0_W.map (Proc.devRef (τ := τ) .tc)).toFinset :=
  writes_in_order _ _ rfl

abbrev main_part3_ops0_W : List (Ref sig .tc) :=
  [main_v125, main_v126, main_c_54, main_v127, main_v128, main_v129, main_c_55, main_v130, main_v131, main_c_56, main_v132, main_v133, main_c_57, main_v134, main_v135, main_c_58, main_v136, main_v137, main_c_59, main_v138, main_v139, main_c_60, main_v140, main_v141, main_v142, main_c_61, main_v143, main_v144, main_c_62, main_v145, main_v146, main_c_63, main_v147, main_v148, main_v149, main_c_64, main_v150, main_v151, main_c_65, main_v152, main_v153, main_c_66, main_v154, main_v155, main_v156, main_c_67, main_v157, main_v158, main_c_68, main_v159, main_v160, main_c_69, main_v161, main_v162, main_c_70, main_v163, main_v164, main_c_71, main_v165, main_v166]
theorem main_part3_ops0_writes : (main_part3_ops0 : List (HloOp τ sig (Elt F))).Forall fun op => op.writes ⊆ (main_part3_ops0_W.map (Proc.devRef (τ := τ) .tc)).toFinset :=
  writes_in_order _ _ rfl

abbrev main_part4_ops0_W : List (Ref sig .tc) :=
  [main_c_72, main_v167, main_v168, main_v169, main_c_73, main_v170, main_v171, main_c_74, main_v172, main_v173, main_c_75, main_v174, main_v175, main_v176, main_c_76, main_v177, main_v178, main_c_77, main_v179, main_v180, main_c_78, main_v181, main_v182, main_v183, main_c_79, main_v184, main_v185, main_c_80, main_v186, main_v187, main_c_81, main_v188, main_v189, main_c_82, main_v190, main_v191, main_c_83, main_v192, main_v193, main_c_84, main_v194, main_v195, main_v196, main_c_85, main_v197, main_v198, main_c_86, main_v199, main_v200, main_c_87, main_v201, main_v202, main_v203, main_c_88, main_v204, main_v205, main_c_89, main_v206, main_v207, main_c_90]
theorem main_part4_ops0_writes : (main_part4_ops0 : List (HloOp τ sig (Elt F))).Forall fun op => op.writes ⊆ (main_part4_ops0_W.map (Proc.devRef (τ := τ) .tc)).toFinset :=
  writes_in_order _ _ rfl

abbrev main_part5_ops0_W : List (Ref sig .tc) :=
  [main_v208, main_v209, main_v210, main_c_91, main_v211, main_v212, main_c_92, main_v213, main_v214, main_c_93, main_v215, main_v216, main_c_94, main_v217, main_v218, main_c_95, main_v219, main_v220, main_c_96, main_v221, main_v222, main_v223, main_c_97, main_v224, main_v225, main_c_98, main_v226, main_v227, main_c_99, main_v228, main_v229, main_v230, main_c_100, main_v231, main_v232, main_c_101, main_v233, main_v234, main_c_102, main_v235, main_v236, main_v237, main_c_103, main_v238, main_v239, main_c_104, main_v240, main_v241, main_c_105, main_v242, main_v243, main_c_106, main_v244, main_v245, main_c_107, main_v246, main_v247, main_c_108, main_v248, main_v249]
theorem main_part5_ops0_writes : (main_part5_ops0 : List (HloOp τ sig (Elt F))).Forall fun op => op.writes ⊆ (main_part5_ops0_W.map (Proc.devRef (τ := τ) .tc)).toFinset :=
  writes_in_order _ _ rfl

abbrev main_part6_ops0_W : List (Ref sig .tc) :=
  [main_v250, main_c_109, main_v251, main_v252, main_c_110, main_v253, main_v254, main_c_111, main_v255, main_v256, main_v257, main_c_112, main_v258, main_v259, main_c_113, main_v260, main_v261, main_c_114, main_v262, main_v263, main_v264, main_v265, main_v266, main_v267, main_v268, main_v269, main_v270, main_v271, main_v272, main_v273, main_v274, main_v275, main_v276, main_c_115, main_v277, main_v278, main_c_116, main_v279, main_v280, main_v281, main_v282, main_v283, main_v284, main_v285, main_v286, main_v287, main_v288, main_v289, main_v290, main_v291, main_v292, main_v293]
theorem main_part6_ops0_writes : (main_part6_ops0 : List (HloOp τ sig (Elt F))).Forall fun op => op.writes ⊆ (main_part6_ops0_W.map (Proc.devRef (τ := τ) .tc)).toFinset :=
  writes_in_order _ _ rfl

abbrev main_part6_ops1_W : List (Ref sig .tc) :=
  [main_v295, main_cst, main_v296, main_v297, main_cst_117, main_v298, main_cst_118]
theorem main_part6_ops1_writes : (main_part6_ops1 : List (HloOp τ sig (Elt F))).Forall fun op => op.writes ⊆ (main_part6_ops1_W.map (Proc.devRef (τ := τ) .tc)).toFinset :=
  writes_in_order _ _ rfl

abbrev main_part7_ops0_W : List (Ref sig .tc) :=
  [main_v299, main_v300, main_cst_119, main_v301, main_v302, main_v303, main_v304, main_cst_120, main_v305, main_v306, main_v307, main_v308, main_v309, main_v310, main_v311, main_v312]
theorem main_part7_ops0_writes : (main_part7_ops0 : List (HloOp τ sig (Elt F))).Forall fun op => op.writes ⊆ (main_part7_ops0_W.map (Proc.devRef (τ := τ) .tc)).toFinset :=
  writes_in_order _ _ rfl

abbrev main_part7_ops1_W : List (Ref sig .tc) :=
  [main_v314, main_cst_121, main_v315, main_v316, main_cst_122, main_v317, main_cst_123, main_v318, main_v319, main_cst_124, main_v320, main_v321, main_v322, main_v323, main_cst_125, main_v324, main_v325, main_v326, main_v327, main_v328, main_v329, main_v330, main_v331]
theorem main_part7_ops1_writes : (main_part7_ops1 : List (HloOp τ sig (Elt F))).Forall fun op => op.writes ⊆ (main_part7_ops1_W.map (Proc.devRef (τ := τ) .tc)).toFinset :=
  writes_in_order _ _ rfl

abbrev main_part7_ops2_W : List (Ref sig .tc) :=
  [main_v333]
theorem main_part7_ops2_writes : (main_part7_ops2 : List (HloOp τ sig (Elt F))).Forall fun op => op.writes ⊆ (main_part7_ops2_W.map (Proc.devRef (τ := τ) .tc)).toFinset :=
  writes_in_order _ _ rfl

end Cert.Kernel.Host

end
-- ==== Proof.KernelKeep.lean ====
/- No item of @main writes an argument array (the table of what each host stretch writes is its own module): a kernel region writes only the
   arrays of its windows, and no argument is an output window's array. So the contents at the last boundary, read at an
   argument, are the launch contents. -/
import proofs.«157750_g2000200144022539_pallasbulk_675_13_alg».proof.Proof.KernelRun
import proofs.«157750_g2000200144022539_pallasbulk_675_13_alg».proof.Proof.KernelHostWrites

set_option maxRecDepth 16384

noncomputable section

namespace Cert.Kernel.Run

open Idealize.ShloMosaic Idealize.ShloMosaic.TcCoe
open Idealize.SL Idealize.SL.Sem
open Idealize.ShloMosaic.Pipeline (Dat)
open Cert.Kernel Cert.Kernel.Gen

variable {F : FTy → Type} [FloatOps F]

/-- The argument arrays. -/
abbrev argRefs : List (Ref sig .tc) := [main_arg0, main_arg1, main_arg2, main_arg3, main_arg4, main_arg5, main_arg6]

variable (O : Outs F) (m : (ℓ : Loc nD τ sig) → Buf (Elt F) ℓ) (ρ : Dev nD → PrngReg)

/-- Every argument array reaches the last boundary as launched. -/
theorem arg_kept (c : Dev nD) (r : Ref sig .tc) (hr : r ∈ argRefs) : W24 O m ρ c (Proc.devRef .tc r) = m ((c : Thread nD τ).loc r) := by
  have hr' := hr
  simp only [argRefs, List.mem_cons, List.mem_nil_iff, List.not_mem_nil, or_false] at hr'
  rcases hr' with rfl | rfl | rfl | rfl | rfl | rfl | rfl
  all_goals exact
    (StableHlo.after_of_writes_sub main_part7_ops2 _ Cert.Kernel.Host.main_part7_ops2_writes (by decide)).trans <|
    (W23_of_ne O m ρ c _ (by decide)).trans <|
    (StableHlo.after_of_writes_sub main_part7_ops1 _ Cert.Kernel.Host.main_part7_ops1_writes (by decide)).trans <|
    (W21_of_ne O m ρ c _ (by decide)).trans <|
    (StableHlo.after_of_writes_sub main_part7_ops0 _ Cert.Kernel.Host.main_part7_ops0_writes (by decide)).trans <|
    (StableHlo.after_of_writes_sub main_part6_ops1 _ Cert.Kernel.Host.main_part6_ops1_writes (by decide)).trans <|
    (W18_of_ne O m ρ c _ (by decide)).trans <|
    (StableHlo.after_of_writes_sub main_part6_ops0 _ Cert.Kernel.Host.main_part6_ops0_writes (by decide)).trans <|
    (StableHlo.after_of_writes_sub main_part5_ops0 _ Cert.Kernel.Host.main_part5_ops0_writes (by decide)).trans <|
    (StableHlo.after_of_writes_sub main_part4_ops0 _ Cert.Kernel.Host.main_part4_ops0_writes (by decide)).trans <|
    (StableHlo.after_of_writes_sub main_part3_ops0 _ Cert.Kernel.Host.main_part3_ops0_writes (by decide)).trans <|
    (StableHlo.after_of_writes_sub main_part2_ops0 _ Cert.Kernel.Host.main_part2_ops0_writes (by decide)).trans <|
    (StableHlo.after_of_writes_sub main_part1_ops0 _ Cert.Kernel.Host.main_part1_ops0_writes (by decide)).trans <|
    (StableHlo.after_of_writes_sub main_part0_ops10 _ Cert.Kernel.Host.main_part0_ops10_writes (by decide)).trans <|
    (StableHlo.after_of_writes_sub main_part0_ops9 _ Cert.Kernel.Host.main_part0_ops9_writes (by decide)).trans <|
    (StableHlo.after_of_writes_sub main_part0_ops8 _ Cert.Kernel.Host.main_part0_ops8_writes (by decide)).trans <|
    (StableHlo.after_of_writes_sub main_part0_ops7 _ Cert.Kernel.Host.main_part0_ops7_writes (by decide)).trans <|
    (StableHlo.after_of_writes_sub main_part0_ops6 _ Cert.Kernel.Host.main_part0_ops6_writes (by decide)).trans <|
    (StableHlo.after_of_writes_sub main_part0_ops5 _ Cert.Kernel.Host.main_part0_ops5_writes (by decide)).trans <|
    (StableHlo.after_of_writes_sub main_part0_ops4 _ Cert.Kernel.Host.main_part0_ops4_writes (by decide)).trans <|
    (StableHlo.after_of_writes_sub main_part0_ops3 _ Cert.Kernel.Host.main_part0_ops3_writes (by decide)).trans <|
    (StableHlo.after_of_writes_sub main_part0_ops2 _ Cert.Kernel.Host.main_part0_ops2_writes (by decide)).trans <|
    (StableHlo.after_of_writes_sub main_part0_ops1 _ Cert.Kernel.Host.main_part0_ops1_writes (by decide)).trans <|
    (StableHlo.after_of_writes_sub main_part0_ops0 _ Cert.Kernel.Host.main_part0_ops0_writes (by decide)).trans rfl

end Cert.Kernel.Run

end
-- ==== Proof.KernelBody0Defs.lean ====
import proofs.«157750_g2000200144022539_pallasbulk_675_13_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-! # Region 0: pooling fused into the first convolution, with the two row sums

One grid point handles one batch element. The input block `x1` is `[1, 32, 32768]` (channel, lane `= (d·32 + h)·32 + w`);
`x2` is the `[1024, 256]` selection matrix, `x3` the three folded weight slabs `[3, 64, 288]`, `x4` the nine border masks
`[9, 4608]`. The body fills three scratch buffers in turn, each wholly before it is read: the pooling scratch
`[512, 1024]` (row `32·do + c`), the halo'd row `[32, 4864]` and the column scratch `[288, 4608]` (row `32·t + c`); then it
stores the output row `[1, 64, 4864]` in three pieces and the two sums `[1, 64, 1]`. Each scratch, read back after its
stores, is ONE function of the input blocks: the canon of its pieces. -/

/-! ## The rectangles of the body's accesses -/

/-- The two depth slabs `2k`, `2k+1` of the input block: lanes `2048k … 2048k+2047`. -/
abbrev rx0 : Rect S1x32x32768 := Rect.unit (s := S1x32x32768) ![0, 0, 0] S1x32x2048.size inb_S1x32x32768_S1x32x2048_0_0_0
abbrev rx1 : Rect S1x32x32768 := Rect.unit (s := S1x32x32768) ![0, 0, 2048] S1x32x2048.size inb_S1x32x32768_S1x32x2048_0_0_2048
abbrev rx2 : Rect S1x32x32768 := Rect.unit (s := S1x32x32768) ![0, 0, 4096] S1x32x2048.size inb_S1x32x32768_S1x32x2048_0_0_4096
abbrev rx3 : Rect S1x32x32768 := Rect.unit (s := S1x32x32768) ![0, 0, 6144] S1x32x2048.size inb_S1x32x32768_S1x32x2048_0_0_6144
abbrev rx4 : Rect S1x32x32768 := Rect.unit (s := S1x32x32768) ![0, 0, 8192] S1x32x2048.size inb_S1x32x32768_S1x32x2048_0_0_8192
abbrev rx5 : Rect S1x32x32768 := Rect.unit (s := S1x32x32768) ![0, 0, 10240] S1x32x2048.size inb_S1x32x32768_S1x32x2048_0_0_10240
abbrev rx6 : Rect S1x32x32768 := Rect.unit (s := S1x32x32768) ![0, 0, 12288] S1x32x2048.size inb_S1x32x32768_S1x32x2048_0_0_12288
abbrev rx7 : Rect S1x32x32768 := Rect.unit (s := S1x32x32768) ![0, 0, 14336] S1x32x2048.size inb_S1x32x32768_S1x32x2048_0_0_14336
abbrev rx8 : Rect S1x32x32768 := Rect.unit (s := S1x32x32768) ![0, 0, 16384] S1x32x2048.size inb_S1x32x32768_S1x32x2048_0_0_16384
abbrev rx9 : Rect S1x32x32768 := Rect.unit (s := S1x32x32768) ![0, 0, 18432] S1x32x2048.size inb_S1x32x32768_S1x32x2048_0_0_18432
abbrev rx10 : Rect S1x32x32768 := Rect.unit (s := S1x32x32768) ![0, 0, 20480] S1x32x2048.size inb_S1x32x32768_S1x32x2048_0_0_20480
abbrev rx11 : Rect S1x32x32768 := Rect.unit (s := S1x32x32768) ![0, 0, 22528] S1x32x2048.size inb_S1x32x32768_S1x32x2048_0_0_22528
abbrev rx12 : Rect S1x32x32768 := Rect.unit (s := S1x32x32768) ![0, 0, 24576] S1x32x2048.size inb_S1x32x32768_S1x32x2048_0_0_24576
abbrev rx13 : Rect S1x32x32768 := Rect.unit (s := S1x32x32768) ![0, 0, 26624] S1x32x2048.size inb_S1x32x32768_S1x32x2048_0_0_26624
abbrev rx14 : Rect S1x32x32768 := Rect.unit (s := S1x32x32768) ![0, 0, 28672] S1x32x2048.size inb_S1x32x32768_S1x32x2048_0_0_28672
abbrev rx15 : Rect S1x32x32768 := Rect.unit (s := S1x32x32768) ![0, 0, 30720] S1x32x2048.size inb_S1x32x32768_S1x32x2048_0_0_30720

/-- Rows `32k … 32k+31` of the pooling scratch (output depth `k`). -/
abbrev rp0 : Rect S512x1024 := Rect.unit (s := S512x1024) ![0, 0] S32x1024.size inb_S512x1024_S32x1024_0_0
abbrev rp1 : Rect S512x1024 := Rect.unit (s := S512x1024) ![32, 0] S32x1024.size inb_S512x1024_S32x1024_32_0
abbrev rp2 : Rect S512x1024 := Rect.unit (s := S512x1024) ![64, 0] S32x1024.size inb_S512x1024_S32x1024_64_0
abbrev rp3 : Rect S512x1024 := Rect.unit (s := S512x1024) ![96, 0] S32x1024.size inb_S512x1024_S32x1024_96_0
abbrev rp4 : Rect S512x1024 := Rect.unit (s := S512x1024) ![128, 0] S32x1024.size inb_S512x1024_S32x1024_128_0
abbrev rp5 : Rect S512x1024 := Rect.unit (s := S512x1024) ![160, 0] S32x1024.size inb_S512x1024_S32x1024_160_0
abbrev rp6 : Rect S512x1024 := Rect.unit (s := S512x1024) ![192, 0] S32x1024.size inb_S512x1024_S32x1024_192_0
abbrev rp7 : Rect S512x1024 := Rect.unit (s := S512x1024) ![224, 0] S32x1024.size inb_S512x1024_S32x1024_224_0
abbrev rp8 : Rect S512x1024 := Rect.unit (s := S512x1024) ![256, 0] S32x1024.size inb_S512x1024_S32x1024_256_0
abbrev rp9 : Rect S512x1024 := Rect.unit (s := S512x1024) ![288, 0] S32x1024.size inb_S512x1024_S32x1024_288_0
abbrev rp10 : Rect S512x1024 := Rect.unit (s := S512x1024) ![320, 0] S32x1024.size inb_S512x1024_S32x1024_320_0
abbrev rp11 : Rect S512x1024 := Rect.unit (s := S512x1024) ![352, 0] S32x1024.size inb_S512x1024_S32x1024_352_0
abbrev rp12 : Rect S512x1024 := Rect.unit (s := S512x1024) ![384, 0] S32x1024.size inb_S512x1024_S32x1024_384_0
abbrev rp13 : Rect S512x1024 := Rect.unit (s := S512x1024) ![416, 0] S32x1024.size inb_S512x1024_S32x1024_416_0
abbrev rp14 : Rect S512x1024 := Rect.unit (s := S512x1024) ![448, 0] S32x1024.size inb_S512x1024_S32x1024_448_0
abbrev rp15 : Rect S512x1024 := Rect.unit (s := S512x1024) ![480, 0] S32x1024.size inb_S512x1024_S32x1024_480_0
/-- The whole pooling scratch, and the whole selection matrix. -/
abbrev rpAll : Rect S512x1024 := Rect.unit (s := S512x1024) ![0, 0] S512x1024.size inb_S512x1024_S512x1024_0_0
abbrev rsel : Rect S1024x256 := Rect.unit (s := S1024x256) ![0, 0] S1024x256.size inb_S1024x256_S1024x256_0_0

/-- The halo'd row: its zero head (lanes 0…383), the 16 depth slabs (256 lanes each from lane 384), its zero tail (lanes 4480…4863). -/
abbrev rhHead : Rect S32x4864 := Rect.unit (s := S32x4864) ![0, 0] S32x384.size inb_S32x4864_S32x384_0_0
abbrev rhTail : Rect S32x4864 := Rect.unit (s := S32x4864) ![0, 4480] S32x384.size inb_S32x4864_S32x384_0_4480
abbrev rh0 : Rect S32x4864 := Rect.unit (s := S32x4864) ![0, 384] S32x256.size inb_S32x4864_S32x256_0_384
abbrev rh1 : Rect S32x4864 := Rect.unit (s := S32x4864) ![0, 640] S32x256.size inb_S32x4864_S32x256_0_640
abbrev rh2 : Rect S32x4864 := Rect.unit (s := S32x4864) ![0, 896] S32x256.size inb_S32x4864_S32x256_0_896
abbrev rh3 : Rect S32x4864 := Rect.unit (s := S32x4864) ![0, 1152] S32x256.size inb_S32x4864_S32x256_0_1152
abbrev rh4 : Rect S32x4864 := Rect.unit (s := S32x4864) ![0, 1408] S32x256.size inb_S32x4864_S32x256_0_1408
abbrev rh5 : Rect S32x4864 := Rect.unit (s := S32x4864) ![0, 1664] S32x256.size inb_S32x4864_S32x256_0_1664
abbrev rh6 : Rect S32x4864 := Rect.unit (s := S32x4864) ![0, 1920] S32x256.size inb_S32x4864_S32x256_0_1920
abbrev rh7 : Rect S32x4864 := Rect.unit (s := S32x4864) ![0, 2176] S32x256.size inb_S32x4864_S32x256_0_2176
abbrev rh8 : Rect S32x4864 := Rect.unit (s := S32x4864) ![0, 2432] S32x256.size inb_S32x4864_S32x256_0_2432
abbrev rh9 : Rect S32x4864 := Rect.unit (s := S32x4864) ![0, 2688] S32x256.size inb_S32x4864_S32x256_0_2688
abbrev rh10 : Rect S32x4864 := Rect.unit (s := S32x4864) ![0, 2944] S32x256.size inb_S32x4864_S32x256_0_2944
abbrev rh11 : Rect S32x4864 := Rect.unit (s := S32x4864) ![0, 3200] S32x256.size inb_S32x4864_S32x256_0_3200
abbrev rh12 : Rect S32x4864 := Rect.unit (s := S32x4864) ![0, 3456] S32x256.size inb_S32x4864_S32x256_0_3456
abbrev rh13 : Rect S32x4864 := Rect.unit (s := S32x4864) ![0, 3712] S32x256.size inb_S32x4864_S32x256_0_3712
abbrev rh14 : Rect S32x4864 := Rect.unit (s := S32x4864) ![0, 3968] S32x256.size inb_S32x4864_S32x256_0_3968
abbrev rh15 : Rect S32x4864 := Rect.unit (s := S32x4864) ![0, 4224] S32x256.size inb_S32x4864_S32x256_0_4224

/-- Tap `t = 3·kh + kw`: the window of the halo'd row from lane `128 + 16·(kh−1) + (kw−1)`, its mask row, its 32 rows of the column scratch. -/
abbrev rtap0 : Rect S32x4864 := Rect.unit (s := S32x4864) ![0, 111] S32x4608.size inb_S32x4864_S32x4608_0_111
abbrev rtap1 : Rect S32x4864 := Rect.unit (s := S32x4864) ![0, 112] S32x4608.size inb_S32x4864_S32x4608_0_112
abbrev rtap2 : Rect S32x4864 := Rect.unit (s := S32x4864) ![0, 113] S32x4608.size inb_S32x4864_S32x4608_0_113
abbrev rtap3 : Rect S32x4864 := Rect.unit (s := S32x4864) ![0, 127] S32x4608.size inb_S32x4864_S32x4608_0_127
abbrev rtap4 : Rect S32x4864 := Rect.unit (s := S32x4864) ![0, 128] S32x4608.size inb_S32x4864_S32x4608_0_128
abbrev rtap5 : Rect S32x4864 := Rect.unit (s := S32x4864) ![0, 129] S32x4608.size inb_S32x4864_S32x4608_0_129
abbrev rtap6 : Rect S32x4864 := Rect.unit (s := S32x4864) ![0, 143] S32x4608.size inb_S32x4864_S32x4608_0_143
abbrev rtap7 : Rect S32x4864 := Rect.unit (s := S32x4864) ![0, 144] S32x4608.size inb_S32x4864_S32x4608_0_144
abbrev rtap8 : Rect S32x4864 := Rect.unit (s := S32x4864) ![0, 145] S32x4608.size inb_S32x4864_S32x4608_0_145
abbrev rmask0 : Rect S9x4608 := Rect.unit (s := S9x4608) ![0, 0] S1x4608.size inb_S9x4608_S1x4608_0_0
abbrev rmask1 : Rect S9x4608 := Rect.unit (s := S9x4608) ![1, 0] S1x4608.size inb_S9x4608_S1x4608_1_0
abbrev rmask2 : Rect S9x4608 := Rect.unit (s := S9x4608) ![2, 0] S1x4608.size inb_S9x4608_S1x4608_2_0
abbrev rmask3 : Rect S9x4608 := Rect.unit (s := S9x4608) ![3, 0] S1x4608.size inb_S9x4608_S1x4608_3_0
abbrev rmask5 : Rect S9x4608 := Rect.unit (s := S9x4608) ![5, 0] S1x4608.size inb_S9x4608_S1x4608_5_0
abbrev rmask6 : Rect S9x4608 := Rect.unit (s := S9x4608) ![6, 0] S1x4608.size inb_S9x4608_S1x4608_6_0
abbrev rmask7 : Rect S9x4608 := Rect.unit (s := S9x4608) ![7, 0] S1x4608.size inb_S9x4608_S1x4608_7_0
abbrev rmask8 : Rect S9x4608 := Rect.unit (s := S9x4608) ![8, 0] S1x4608.size inb_S9x4608_S1x4608_8_0
abbrev rcol0 : Rect S288x4608 := Rect.unit (s := S288x4608) ![0, 0] S32x4608.size inb_S288x4608_S32x4608_0_0
abbrev rcol1 : Rect S288x4608 := Rect.unit (s := S288x4608) ![32, 0] S32x4608.size inb_S288x4608_S32x4608_32_0
abbrev rcol2 : Rect S288x4608 := Rect.unit (s := S288x4608) ![64, 0] S32x4608.size inb_S288x4608_S32x4608_64_0
abbrev rcol3 : Rect S288x4608 := Rect.unit (s := S288x4608) ![96, 0] S32x4608.size inb_S288x4608_S32x4608_96_0
abbrev rcol4 : Rect S288x4608 := Rect.unit (s := S288x4608) ![128, 0] S32x4608.size inb_S288x4608_S32x4608_128_0
abbrev rcol5 : Rect S288x4608 := Rect.unit (s := S288x4608) ![160, 0] S32x4608.size inb_S288x4608_S32x4608_160_0
abbrev rcol6 : Rect S288x4608 := Rect.unit (s := S288x4608) ![192, 0] S32x4608.size inb_S288x4608_S32x4608_192_0
abbrev rcol7 : Rect S288x4608 := Rect.unit (s := S288x4608) ![224, 0] S32x4608.size inb_S288x4608_S32x4608_224_0
abbrev rcol8 : Rect S288x4608 := Rect.unit (s := S288x4608) ![256, 0] S32x4608.size inb_S288x4608_S32x4608_256_0

/-- Depth offset `kd`: the weight slab, and the 4096-lane window of the column scratch from lane `256·kd`. -/
abbrev rw0 : Rect S3x64x288 := Rect.unit (s := S3x64x288) ![0, 0, 0] S1x64x288.size inb_S3x64x288_S1x64x288_0_0_0
abbrev rw1 : Rect S3x64x288 := Rect.unit (s := S3x64x288) ![1, 0, 0] S1x64x288.size inb_S3x64x288_S1x64x288_1_0_0
abbrev rw2 : Rect S3x64x288 := Rect.unit (s := S3x64x288) ![2, 0, 0] S1x64x288.size inb_S3x64x288_S1x64x288_2_0_0
abbrev rkd0 : Rect S288x4608 := Rect.unit (s := S288x4608) ![0, 0] S288x4096.size inb_S288x4608_S288x4096_0_0
abbrev rkd1 : Rect S288x4608 := Rect.unit (s := S288x4608) ![0, 256] S288x4096.size inb_S288x4608_S288x4096_0_256
abbrev rkd2 : Rect S288x4608 := Rect.unit (s := S288x4608) ![0, 512] S288x4096.size inb_S288x4608_S288x4096_0_512

/-- The output row: zero head, the 4096 computed lanes from lane 384, zero tail; and the two one-column sums. -/
abbrev ryHead : Rect S1x64x4864 := Rect.unit (s := S1x64x4864) ![0, 0, 0] S1x64x384.size inb_S1x64x4864_S1x64x384_0_0_0
abbrev ryMid : Rect S1x64x4864 := Rect.unit (s := S1x64x4864) ![0, 0, 384] S1x64x4096.size inb_S1x64x4864_S1x64x4096_0_0_384
abbrev ryTail : Rect S1x64x4864 := Rect.unit (s := S1x64x4864) ![0, 0, 4480] S1x64x384.size inb_S1x64x4864_S1x64x384_0_0_4480
abbrev rsum : Rect S1x64x1 := Rect.unit (s := S1x64x1) ![0, 0, 0] S1x64x1.size inb_S1x64x1_S1x64x1_0_0_0

/-! ## The scratch contents and the outputs as functions of the input blocks -/

/-- The pooling scratch after its 16 stores (last first): rows `32k…32k+31` hold the pair-maxima of the two depth slabs `2k`, `2k+1`. -/
def pool0 (x1 : Vec F S1x32x32768 .f32) : Vec F S512x1024 .bf16 :=
  View.canon
     [⟨rp15, k0_pay25 (k0_pay22 (View.ld x1 rx15)) (k0_pay23 (View.ld x1 rx15)) (k0_pay24 (View.ld x1 rx15))⟩,
      ⟨rp14, k0_pay21 (View.ld x1 rx14)⟩,
      ⟨rp13, k0_pay20 (View.ld x1 rx13)⟩,
      ⟨rp12, k0_pay19 (View.ld x1 rx12)⟩,
      ⟨rp11, k0_pay18 (View.ld x1 rx11)⟩,
      ⟨rp10, k0_pay17 (k0_pay15 (View.ld x1 rx10)) (k0_pay16 (View.ld x1 rx10))⟩,
      ⟨rp9, k0_pay14 (View.ld x1 rx9)⟩,
      ⟨rp8, k0_pay13 (View.ld x1 rx8)⟩,
      ⟨rp7, k0_pay12 (k0_pay11 (View.ld x1 rx7))⟩,
      ⟨rp6, k0_pay10 (View.ld x1 rx6)⟩,
      ⟨rp5, k0_pay9 (View.ld x1 rx5)⟩,
      ⟨rp4, k0_pay8 (View.ld x1 rx4)⟩,
      ⟨rp3, k0_pay7 (View.ld x1 rx3)⟩,
      ⟨rp2, k0_pay6 (k0_pay4 (View.ld x1 rx2)) (k0_pay5 (View.ld x1 rx2))⟩,
      ⟨rp1, k0_pay3 (View.ld x1 rx1)⟩,
      ⟨rp0, k0_pay2 (View.ld x1 rx0)⟩]

/-- The pooled values compacted by the selection matrix: `[512, 256]`, row `32·do + c`. -/
def sel0 (x1 : Vec F S1x32x32768 .f32) (x2 : Vec F S1024x256 .bf16) : FVec F S512x256 .bf16 :=
  k0_pay26 (View.ld (pool0 x1) rpAll) (View.ld x2 rsel)

/-- The halo'd row after its 18 stores (last first): zeros on lanes 0…383 and 4480…4863, depth slab `k` on lanes `384 + 256k …`. -/
def halo0 (x1 : Vec F S1x32x32768 .f32) (x2 : Vec F S1024x256 .bf16) : Vec F S32x4864 .bf16 :=
  View.canon
     [⟨rhTail, k0_pay46⟩,
      ⟨rh15, k0_pay45 (sel0 x1 x2)⟩,
      ⟨rh14, k0_pay44 (sel0 x1 x2)⟩,
      ⟨rh13, k0_pay43 (k0_pay42 (sel0 x1 x2))⟩,
      ⟨rh12, k0_pay41 (sel0 x1 x2)⟩,
      ⟨rh11, k0_pay40 (sel0 x1 x2)⟩,
      ⟨rh10, k0_pay39 (sel0 x1 x2)⟩,
      ⟨rh9, k0_pay38 (sel0 x1 x2)⟩,
      ⟨rh8, k0_pay37 (sel0 x1 x2)⟩,
      ⟨rh7, k0_pay36 (sel0 x1 x2)⟩,
      ⟨rh6, k0_pay35 (sel0 x1 x2)⟩,
      ⟨rh5, k0_pay34 (sel0 x1 x2)⟩,
      ⟨rh4, k0_pay33 (k0_pay32 (View.ld (pool0 x1) rpAll) (View.ld x2 rsel))⟩,
      ⟨rh3, k0_pay31 (View.ld (pool0 x1) rpAll) (View.ld x2 rsel)⟩,
      ⟨rh2, k0_pay30 (View.ld (pool0 x1) rpAll) (View.ld x2 rsel)⟩,
      ⟨rh1, k0_pay29 (View.ld (pool0 x1) rpAll) (View.ld x2 rsel)⟩,
      ⟨rh0, k0_pay28 (View.ld (pool0 x1) rpAll) (View.ld x2 rsel)⟩,
      ⟨rhHead, k0_pay27⟩]

/-- The column scratch after its 9 stores (last first): rows `32t…32t+31` hold tap `t`'s window of the halo'd row times its mask row (tap 4 unmasked). -/
def cols0 (x1 : Vec F S1x32x32768 .f32) (x2 : Vec F S1024x256 .bf16) (x4 : Vec F S9x4608 .bf16) : Vec F S288x4608 .bf16 :=
  View.canon
     [⟨rcol8, k0_pay56 (View.ld (halo0 x1 x2) rtap8) (View.ld x4 rmask8)⟩,
      ⟨rcol7, k0_pay55 (View.ld (halo0 x1 x2) rtap7) (View.ld x4 rmask7)⟩,
      ⟨rcol6, k0_pay54 (k0_pay53 (View.ld (halo0 x1 x2) rtap6) (View.ld x4 rmask6))⟩,
      ⟨rcol5, k0_pay52 (View.ld (halo0 x1 x2) rtap5) (View.ld x4 rmask5)⟩,
      ⟨rcol4, k0_pay51 (View.ld (halo0 x1 x2) rtap4)⟩,
      ⟨rcol3, k0_pay50 (View.ld (halo0 x1 x2) rtap3) (View.ld x4 rmask3)⟩,
      ⟨rcol2, k0_pay49 (View.ld (halo0 x1 x2) rtap2) (View.ld x4 rmask2)⟩,
      ⟨rcol1, k0_pay48 (View.ld (halo0 x1 x2) rtap1) (View.ld x4 rmask1)⟩,
      ⟨rcol0, k0_pay47 (View.ld (halo0 x1 x2) rtap0) (View.ld x4 rmask0)⟩]

/-- The sum of the products at depth offsets 0 and 1. -/
def acc01 (x1 : Vec F S1x32x32768 .f32) (x2 : Vec F S1024x256 .bf16) (x3 : Vec F S3x64x288 .bf16) (x4 : Vec F S9x4608 .bf16) : FVec F S64x4096 .f32 :=
  k0_pay57 (View.ld x3 rw0) (View.ld (cols0 x1 x2 x4) rkd0) (View.ld x3 rw1) (View.ld (cols0 x1 x2 x4) rkd1)

/-- What the first output window's buffer (the row `y1`, `[1, 64, 4864]`) holds after the body: its three stores, last first. -/
def out0_4 (x1 : Vec F S1x32x32768 .f32) (x2 : Vec F S1024x256 .bf16) (x3 : Vec F S3x64x288 .bf16) (x4 : Vec F S9x4608 .bf16) : Vec F S1x64x4864 .bf16 :=
  View.canon
    [⟨ryTail, k0_pay61⟩,
      ⟨ryMid, k0_pay60 (acc01 x1 x2 x3 x4) (View.ld x3 rw2) (View.ld (cols0 x1 x2 x4) rkd2)⟩,
      ⟨ryHead, k0_pay59⟩]

/-- What the second output window's buffer (the row sums) holds after the body. -/
def out0_5 (x1 : Vec F S1x32x32768 .f32) (x2 : Vec F S1024x256 .bf16) (x3 : Vec F S3x64x288 .bf16) (x4 : Vec F S9x4608 .bf16) : Vec F S1x64x1 .f32 :=
  View.canon [⟨rsum, k0_pay62 (acc01 x1 x2 x3 x4) (View.ld x3 rw2) (View.ld (cols0 x1 x2 x4) rkd2)⟩]

/-- What the third output window's buffer (the row sums of squares) holds after the body. -/
def out0_6 (x1 : Vec F S1x32x32768 .f32) (x2 : Vec F S1024x256 .bf16) (x3 : Vec F S3x64x288 .bf16) (x4 : Vec F S9x4608 .bf16) : Vec F S1x64x1 .f32 :=
  View.canon [⟨rsum, k0_pay1 (k0_pay63 (acc01 x1 x2 x3 x4) (View.ld x3 rw2) (View.ld (cols0 x1 x2 x4) rkd2))⟩]

/-! ## The stores cover their buffers -/

section Covers
variable {Val : EltTy → Type}

/-- The 16 row blocks of 32 tile the pooling scratch. -/
theorem cover_pool (p0 : rp0.shape.Idx → Val .bf16) (p1 : rp1.shape.Idx → Val .bf16) (p2 : rp2.shape.Idx → Val .bf16) (p3 : rp3.shape.Idx → Val .bf16) (p4 : rp4.shape.Idx → Val .bf16) (p5 : rp5.shape.Idx → Val .bf16) (p6 : rp6.shape.Idx → Val .bf16) (p7 : rp7.shape.Idx → Val .bf16) (p8 : rp8.shape.Idx → Val .bf16) (p9 : rp9.shape.Idx → Val .bf16) (p10 : rp10.shape.Idx → Val .bf16) (p11 : rp11.shape.Idx → Val .bf16) (p12 : rp12.shape.Idx → Val .bf16) (p13 : rp13.shape.Idx → Val .bf16) (p14 : rp14.shape.Idx → Val .bf16) (p15 : rp15.shape.Idx → Val .bf16) (y : S512x1024.Idx) :
    ∃ pc ∈ ([⟨rp15, p15⟩,
      ⟨rp14, p14⟩,
      ⟨rp13, p13⟩,
      ⟨rp12, p12⟩,
      ⟨rp11, p11⟩,
      ⟨rp10, p10⟩,
      ⟨rp9, p9⟩,
      ⟨rp8, p8⟩,
      ⟨rp7, p7⟩,
      ⟨rp6, p6⟩,
      ⟨rp5, p5⟩,
      ⟨rp4, p4⟩,
      ⟨rp3, p3⟩,
      ⟨rp2, p2⟩,
      ⟨rp1, p1⟩,
      ⟨rp0, p0⟩] : List (View.Piece Val S512x1024 .bf16)), y ∈ pc.1.set :=
  View.cover_of_tiledL (s := S512x1024) _ S32x1024.size (by sl_kernel_rfl) y

/-- Head, 16 slabs and tail, cut into blocks of 128 lanes, tile the halo'd row. -/
theorem cover_halo (ph : rhHead.shape.Idx → Val .bf16) (p0 : rh0.shape.Idx → Val .bf16) (p1 : rh1.shape.Idx → Val .bf16) (p2 : rh2.shape.Idx → Val .bf16) (p3 : rh3.shape.Idx → Val .bf16) (p4 : rh4.shape.Idx → Val .bf16) (p5 : rh5.shape.Idx → Val .bf16) (p6 : rh6.shape.Idx → Val .bf16) (p7 : rh7.shape.Idx → Val .bf16) (p8 : rh8.shape.Idx → Val .bf16) (p9 : rh9.shape.Idx → Val .bf16) (p10 : rh10.shape.Idx → Val .bf16) (p11 : rh11.shape.Idx → Val .bf16) (p12 : rh12.shape.Idx → Val .bf16) (p13 : rh13.shape.Idx → Val .bf16) (p14 : rh14.shape.Idx → Val .bf16) (p15 : rh15.shape.Idx → Val .bf16) (pt : rhTail.shape.Idx → Val .bf16) (y : S32x4864.Idx) :
    ∃ pc ∈ ([⟨rhTail, pt⟩,
      ⟨rh15, p15⟩,
      ⟨rh14, p14⟩,
      ⟨rh13, p13⟩,
      ⟨rh12, p12⟩,
      ⟨rh11, p11⟩,
      ⟨rh10, p10⟩,
      ⟨rh9, p9⟩,
      ⟨rh8, p8⟩,
      ⟨rh7, p7⟩,
      ⟨rh6, p6⟩,
      ⟨rh5, p5⟩,
      ⟨rh4, p4⟩,
      ⟨rh3, p3⟩,
      ⟨rh2, p2⟩,
      ⟨rh1, p1⟩,
      ⟨rh0, p0⟩,
      ⟨rhHead, ph⟩] : List (View.Piece Val S32x4864 .bf16)), y ∈ pc.1.set :=
  View.cover_of_tiledBy _ ![32, 128] (by sl_kernel_rfl) y

/-- The 9 row blocks of 32 tile the column scratch. -/
theorem cover_cols (p0 : rcol0.shape.Idx → Val .bf16) (p1 : rcol1.shape.Idx → Val .bf16) (p2 : rcol2.shape.Idx → Val .bf16) (p3 : rcol3.shape.Idx → Val .bf16) (p4 : rcol4.shape.Idx → Val .bf16) (p5 : rcol5.shape.Idx → Val .bf16) (p6 : rcol6.shape.Idx → Val .bf16) (p7 : rcol7.shape.Idx → Val .bf16) (p8 : rcol8.shape.Idx → Val .bf16) (y : S288x4608.Idx) :
    ∃ pc ∈ ([⟨rcol8, p8⟩,
      ⟨rcol7, p7⟩,
      ⟨rcol6, p6⟩,
      ⟨rcol5, p5⟩,
      ⟨rcol4, p4⟩,
      ⟨rcol3, p3⟩,
      ⟨rcol2, p2⟩,
      ⟨rcol1, p1⟩,
      ⟨rcol0, p0⟩] : List (View.Piece Val S288x4608 .bf16)), y ∈ pc.1.set :=
  View.cover_of_tiledL (s := S288x4608) _ S32x4608.size (by sl_kernel_rfl) y

/-- Head, middle and tail, cut into blocks of 128 lanes, tile the output row. -/
theorem cover_y (ph : ryHead.shape.Idx → Val .bf16) (pm : ryMid.shape.Idx → Val .bf16) (pt : ryTail.shape.Idx → Val .bf16) (y : S1x64x4864.Idx) :
    ∃ pc ∈ ([⟨ryTail, pt⟩, ⟨ryMid, pm⟩, ⟨ryHead, ph⟩] : List (View.Piece Val S1x64x4864 .bf16)), y ∈ pc.1.set :=
  View.cover_of_tiledBy _ ![1, 64, 128] (by sl_kernel_rfl) y

/-- One store of the whole column covers it. -/
theorem cover_sum (p : rsum.shape.Idx → Val .f32) (y : S1x64x1.Idx) :
    ∃ pc ∈ ([⟨rsum, p⟩] : List (View.Piece Val S1x64x1 .f32)), y ∈ pc.1.set :=
  View.cover_of_tiled [⟨rsum, p⟩] S1x64x1.size (by rfl) y

end Covers

end Cert.Kernel.Body

end
-- ==== Proof.KernelBody0.lean ====
import proofs.«157750_g2000200144022539_pallasbulk_675_13_alg».proof.Proof.KernelBody0Defs

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel.Gen

variable {F : FTy → Type} [FloatOps F]

local notation "𝕄" => MT nD τ sig Unit (Elt F) ℕ (UR sig nD τ) ℕ

/-! ## A scratch read back after its stores is the canon of its pieces -/

/-- A load after stores reads, through its rectangle, the canon of those stores, whatever the view (the stores were
    made over contents that are the canon's own value off every piece). -/
theorem readCov_rect0 {sig' : RefSig} {κ : Kind} {sp : Space} {s : Shape} {e : EltTy} {Val : EltTy → Type} [∀ e, Nonempty (Val e)]
    (v : View sig' κ sp s e) (L : List (View.Piece Val s e)) (r : Rect s) :
    v.readCov L r.toLoadRect = View.ld (View.canon L) r :=
  View.readCov_eq_canon' v L r.toLoadRect

/-! ## The body's triple -/

set_option maxHeartbeats 4000000 in
/-- The kernel body on whole staging memrefs — the four inputs' at read contents `x1 … x4`, the three outputs' and the three
    scratch buffers' at anything — runs to the continuation holding the inputs' as they were, each output's at `out0_W` of
    the inputs', and each scratch at some contents: the printed function is its skeleton, run through every part; a load of a
    scratch after the stores that cover it reads the canon of those stores. -/
theorem sound_kernel0 (c : Dev nD) (E : Set ℕ) (i : grid0.Coords) (arg1 : Memref sig .tc .vmem S1x32x32768 .f32) (harg1 : arg1.IsWhole) (arg2 : Memref sig .tc .vmem S1024x256 .bf16) (harg2 : arg2.IsWhole) (arg3 : Memref sig .tc .vmem S3x64x288 .bf16) (harg3 : arg3.IsWhole) (arg4 : Memref sig .tc .vmem S9x4608 .bf16) (harg4 : arg4.IsWhole) (arg5 : Memref sig .tc .vmem S1x64x4864 .bf16) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S512x1024 .bf16) (harg8 : arg8.IsWhole) (arg9 : Memref sig .tc .vmem S32x4864 .bf16) (harg9 : arg9.IsWhole) (arg10 : Memref sig .tc .vmem S288x4608 .bf16) (harg10 : arg10.IsWhole)
    (x1 : Vec F S1x32x32768 .f32) (x2 : Vec F S1024x256 .bf16) (x3 : Vec F S3x64x288 .bf16) (x4 : Vec F S9x4608 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out0_4 x1 x2 x3 x4) ∗ owns (c : Thread nD τ) arg6 fullShare (out0_5 x1 x2 x3 x4) ∗ owns (c : Thread nD τ) arg7 fullShare (out0_6 x1 x2 x3 x4)
            ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0__pool_conv1_kernel i arg1 harg1 arg2 harg2 arg3 harg3 arg4 harg4 arg5 harg5 arg6 harg6 arg7 harg7 arg8 harg8 arg9 harg9 arg10 harg10) K := by
  simp only [cc0__pool_conv1_kernel_eq_skeleton]; unfold cc0__pool_conv1_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover_y _ _ _)).trans ?_
    unfold out0_4 acc01 cols0 halo0 sel0 pool0
    sl_unfold_run_names; sl_unfold_run_names; sl_unfold_run_names
    simp only [readCov_rect0, View.readAt_eq_ld, k0_pay33, k0_pay34, k0_pay35, k0_pay36, k0_pay37, k0_pay38, k0_pay39, k0_pay40, k0_pay41, k0_pay42]
  isplitl [H6]
  · iexists _; isplitr
    swap; · iexact H6
    ipureintro
    refine (View.read_writes_eq_canon _ _ _ (cover_sum _)).trans ?_
    unfold out0_5 acc01 cols0 halo0 sel0 pool0
    sl_unfold_run_names; sl_unfold_run_names; sl_unfold_run_names
    simp only [readCov_rect0, View.readAt_eq_ld, k0_pay33, k0_pay34, k0_pay35, k0_pay36, k0_pay37, k0_pay38, k0_pay39, k0_pay40, k0_pay41, k0_pay42]
  isplitl [H7]
  · iexists _; isplitr
    swap; · iexact H7
    ipureintro
    refine (View.read_writes_eq_canon _ _ _ (cover_sum _)).trans ?_
    unfold out0_6 acc01 cols0 halo0 sel0 pool0
    sl_unfold_run_names; sl_unfold_run_names; sl_unfold_run_names
    simp only [readCov_rect0, View.readAt_eq_ld, k0_pay33, k0_pay34, k0_pay35, k0_pay36, k0_pay37, k0_pay38, k0_pay39, k0_pay40, k0_pay41, k0_pay42]
  isplitl [H8]
  · iexists _; iexists _; isplitr
    swap; · iexact H8
    ipureintro; rfl
  isplitl [H9]
  · iexists _; iexists _; isplitr
    swap; · iexact H9
    ipureintro; rfl
  iexists _; iexists _; isplitr
  swap; · iexact H10
  ipureintro; rfl

end Cert.Kernel.Body

end
-- ==== Proof.KernelBody1.lean ====
import proofs.«157750_g2000200144022539_pallasbulk_675_13_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

/-! # The body of the second kernel (batch-norm affine map, rectifier and halo mask on load; a 3×3×3 convolution
as nine masked shifted copies and three accumulated products; the row sums of the accumulator and of its square),
at a grid point

The body reads six input blocks: the activations `x1`, the per-channel scale `x2` and shift `x3`, the lane
mask `x4` that zeroes the halo, the folded weights `x5` (one slab per depth offset) and the nine border masks
`x6`. It writes three output blocks (the product `out1_6`, its row sums `out1_7`, the row sums of its square
`out1_8`). It owns two scratch buffers; each is written in full before anything is loaded from it, so what the
outputs hold after the body is a function of the six input blocks alone. -/

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The rectangles the body reads and writes -/

/-- The whole activation block. -/
abbrev r1_x : Rect S1x64x4864 := Rect.unit (s := S1x64x4864) ![0, 0, 0] S1x64x4864.size inb_S1x64x4864_S1x64x4864_0_0_0
/-- The whole per-channel column (scale, shift). -/
abbrev r1_col : Rect S64x1 := Rect.unit (s := S64x1) ![0, 0] S64x1.size inb_S64x1_S64x1_0_0
/-- The whole lane mask. -/
abbrev r1_valid : Rect S1x4864 := Rect.unit (s := S1x4864) ![0, 0] S1x4864.size inb_S1x4864_S1x4864_0_0
/-- The whole first scratch (the activated, masked, halo'd rows). -/
abbrev r1_xs : Rect S64x4864 := Rect.unit (s := S64x4864) ![0, 0] S64x4864.size inb_S64x4864_S64x4864_0_0
/-- The nine shifted lane windows of the first scratch: tap `t = 3·kh + kw` starts at lane `128 + 16·(kh-1) + (kw-1)`. -/
abbrev r1_tap0 : Rect S64x4864 := Rect.unit (s := S64x4864) ![0, 111] S64x4608.size inb_S64x4864_S64x4608_0_111
abbrev r1_tap1 : Rect S64x4864 := Rect.unit (s := S64x4864) ![0, 112] S64x4608.size inb_S64x4864_S64x4608_0_112
abbrev r1_tap2 : Rect S64x4864 := Rect.unit (s := S64x4864) ![0, 113] S64x4608.size inb_S64x4864_S64x4608_0_113
abbrev r1_tap3 : Rect S64x4864 := Rect.unit (s := S64x4864) ![0, 127] S64x4608.size inb_S64x4864_S64x4608_0_127
abbrev r1_tap4 : Rect S64x4864 := Rect.unit (s := S64x4864) ![0, 128] S64x4608.size inb_S64x4864_S64x4608_0_128
abbrev r1_tap5 : Rect S64x4864 := Rect.unit (s := S64x4864) ![0, 129] S64x4608.size inb_S64x4864_S64x4608_0_129
abbrev r1_tap6 : Rect S64x4864 := Rect.unit (s := S64x4864) ![0, 143] S64x4608.size inb_S64x4864_S64x4608_0_143
abbrev r1_tap7 : Rect S64x4864 := Rect.unit (s := S64x4864) ![0, 144] S64x4608.size inb_S64x4864_S64x4608_0_144
abbrev r1_tap8 : Rect S64x4864 := Rect.unit (s := S64x4864) ![0, 145] S64x4608.size inb_S64x4864_S64x4608_0_145
/-- The border masks' rows (the centre tap has none). -/
abbrev r1_mask0 : Rect S9x4608 := Rect.unit (s := S9x4608) ![0, 0] S1x4608.size inb_S9x4608_S1x4608_0_0
abbrev r1_mask1 : Rect S9x4608 := Rect.unit (s := S9x4608) ![1, 0] S1x4608.size inb_S9x4608_S1x4608_1_0
abbrev r1_mask2 : Rect S9x4608 := Rect.unit (s := S9x4608) ![2, 0] S1x4608.size inb_S9x4608_S1x4608_2_0
abbrev r1_mask3 : Rect S9x4608 := Rect.unit (s := S9x4608) ![3, 0] S1x4608.size inb_S9x4608_S1x4608_3_0
abbrev r1_mask5 : Rect S9x4608 := Rect.unit (s := S9x4608) ![5, 0] S1x4608.size inb_S9x4608_S1x4608_5_0
abbrev r1_mask6 : Rect S9x4608 := Rect.unit (s := S9x4608) ![6, 0] S1x4608.size inb_S9x4608_S1x4608_6_0
abbrev r1_mask7 : Rect S9x4608 := Rect.unit (s := S9x4608) ![7, 0] S1x4608.size inb_S9x4608_S1x4608_7_0
abbrev r1_mask8 : Rect S9x4608 := Rect.unit (s := S9x4608) ![8, 0] S1x4608.size inb_S9x4608_S1x4608_8_0
/-- The nine row bands of the second scratch: tap `t` is rows `64·t … 64·t + 63`. -/
abbrev r1_row0 : Rect S576x4608 := Rect.unit (s := S576x4608) ![0, 0] S64x4608.size inb_S576x4608_S64x4608_0_0
abbrev r1_row1 : Rect S576x4608 := Rect.unit (s := S576x4608) ![64, 0] S64x4608.size inb_S576x4608_S64x4608_64_0
abbrev r1_row2 : Rect S576x4608 := Rect.unit (s := S576x4608) ![128, 0] S64x4608.size inb_S576x4608_S64x4608_128_0
abbrev r1_row3 : Rect S576x4608 := Rect.unit (s := S576x4608) ![192, 0] S64x4608.size inb_S576x4608_S64x4608_192_0
abbrev r1_row4 : Rect S576x4608 := Rect.unit (s := S576x4608) ![256, 0] S64x4608.size inb_S576x4608_S64x4608_256_0
abbrev r1_row5 : Rect S576x4608 := Rect.unit (s := S576x4608) ![320, 0] S64x4608.size inb_S576x4608_S64x4608_320_0
abbrev r1_row6 : Rect S576x4608 := Rect.unit (s := S576x4608) ![384, 0] S64x4608.size inb_S576x4608_S64x4608_384_0
abbrev r1_row7 : Rect S576x4608 := Rect.unit (s := S576x4608) ![448, 0] S64x4608.size inb_S576x4608_S64x4608_448_0
abbrev r1_row8 : Rect S576x4608 := Rect.unit (s := S576x4608) ![512, 0] S64x4608.size inb_S576x4608_S64x4608_512_0
/-- The three depth windows of the second scratch: depth offset `kd` starts at lane `256·kd`. -/
abbrev r1_win0 : Rect S576x4608 := Rect.unit (s := S576x4608) ![0, 0] S576x4096.size inb_S576x4608_S576x4096_0_0
abbrev r1_win1 : Rect S576x4608 := Rect.unit (s := S576x4608) ![0, 256] S576x4096.size inb_S576x4608_S576x4096_0_256
abbrev r1_win2 : Rect S576x4608 := Rect.unit (s := S576x4608) ![0, 512] S576x4096.size inb_S576x4608_S576x4096_0_512
/-- The three weight slabs. -/
abbrev r1_w0 : Rect S3x64x576 := Rect.unit (s := S3x64x576) ![0, 0, 0] S1x64x576.size inb_S3x64x576_S1x64x576_0_0_0
abbrev r1_w1 : Rect S3x64x576 := Rect.unit (s := S3x64x576) ![1, 0, 0] S1x64x576.size inb_S3x64x576_S1x64x576_1_0_0
abbrev r1_w2 : Rect S3x64x576 := Rect.unit (s := S3x64x576) ![2, 0, 0] S1x64x576.size inb_S3x64x576_S1x64x576_2_0_0
/-- The whole product block. -/
abbrev r1_y : Rect S1x64x4096 := Rect.unit (s := S1x64x4096) ![0, 0, 0] S1x64x4096.size inb_S1x64x4096_S1x64x4096_0_0_0
/-- The whole row-sum block. -/
abbrev r1_s : Rect S1x64x1 := Rect.unit (s := S1x64x1) ![0, 0, 0] S1x64x1.size inb_S1x64x1_S1x64x1_0_0_0

/-! ## What the body holds along the way, from the input blocks -/

/-- The first scratch after its one store: the activated, masked rows. -/
def xs1 (x1 : Vec F S1x64x4864 .bf16) (x2 x3 : Vec F S64x1 .f32) (x4 : Vec F S1x4864 .f32) : Vec F S64x4864 .bf16 :=
  View.canon [⟨r1_xs, k1_pay5 (View.ld x1 r1_x) (View.ld x2 r1_col) (View.ld x3 r1_col) (View.ld x4 r1_valid)⟩]

/-- The second scratch after its nine stores (last first): the nine masked shifted copies, one row band each. -/
def cols1 (X : Vec F S64x4864 .bf16) (x6 : Vec F S9x4608 .bf16) : Vec F S576x4608 .bf16 :=
  View.canon [
    ⟨r1_row8, k1_pay15 (View.ld X r1_tap8) (View.ld x6 r1_mask8)⟩,
    ⟨r1_row7, k1_pay14 (View.ld X r1_tap7) (View.ld x6 r1_mask7)⟩,
    ⟨r1_row6, k1_pay13 (View.ld X r1_tap6) (View.ld x6 r1_mask6)⟩,
    ⟨r1_row5, k1_pay12 (View.ld X r1_tap5) (View.ld x6 r1_mask5)⟩,
    ⟨r1_row4, k1_pay11 (View.ld X r1_tap4)⟩,
    ⟨r1_row3, k1_pay10 (View.ld X r1_tap3) (View.ld x6 r1_mask3)⟩,
    ⟨r1_row2, k1_pay9 (View.ld X r1_tap2) (View.ld x6 r1_mask2)⟩,
    ⟨r1_row1, k1_pay8 (k1_pay7 (View.ld X r1_tap1) (View.ld x6 r1_mask1))⟩,
    ⟨r1_row0, k1_pay6 (View.ld X r1_tap0) (View.ld x6 r1_mask0)⟩]

/-! ## What the body leaves in each output block -/

/-- The product block after the body. -/
def out1_6 (x1 : Vec F S1x64x4864 .bf16) (x2 x3 : Vec F S64x1 .f32) (x4 : Vec F S1x4864 .f32)
    (x5 : Vec F S3x64x576 .bf16) (x6 : Vec F S9x4608 .bf16) : Vec F S1x64x4096 .bf16 :=
  View.canon [⟨r1_y, k1_pay2 (k1_pay16 (View.ld x5 r1_w0) (View.ld (cols1 (xs1 x1 x2 x3 x4) x6) r1_win0))
    (k1_pay17 (View.ld x5 r1_w1)) (View.ld (cols1 (xs1 x1 x2 x3 x4) x6) r1_win1)
    (View.ld x5 r1_w2) (View.ld (cols1 (xs1 x1 x2 x3 x4) x6) r1_win2)⟩]

/-- The accumulator's row sums after the body. -/
def out1_7 (x1 : Vec F S1x64x4864 .bf16) (x2 x3 : Vec F S64x1 .f32) (x4 : Vec F S1x4864 .f32)
    (x5 : Vec F S3x64x576 .bf16) (x6 : Vec F S9x4608 .bf16) : Vec F S1x64x1 .f32 :=
  View.canon [⟨r1_s, k1_pay3 (k1_pay16 (View.ld x5 r1_w0) (View.ld (cols1 (xs1 x1 x2 x3 x4) x6) r1_win0))
    (k1_pay17 (View.ld x5 r1_w1)) (View.ld (cols1 (xs1 x1 x2 x3 x4) x6) r1_win1)
    (View.ld x5 r1_w2) (View.ld (cols1 (xs1 x1 x2 x3 x4) x6) r1_win2)⟩]

/-- The row sums of the accumulator's square after the body. -/
def out1_8 (x1 : Vec F S1x64x4864 .bf16) (x2 x3 : Vec F S64x1 .f32) (x4 : Vec F S1x4864 .f32)
    (x5 : Vec F S3x64x576 .bf16) (x6 : Vec F S9x4608 .bf16) : Vec F S1x64x1 .f32 :=
  View.canon [⟨r1_s, k1_pay4 (k1_pay16 (View.ld x5 r1_w0) (View.ld (cols1 (xs1 x1 x2 x3 x4) x6) r1_win0))
    (k1_pay17 (View.ld x5 r1_w1)) (View.ld (cols1 (xs1 x1 x2 x3 x4) x6) r1_win1)
    (View.ld x5 r1_w2) (View.ld (cols1 (xs1 x1 x2 x3 x4) x6) r1_win2)⟩]

/-- The one store of the product covers its block. -/
theorem cover1_6 (p0 : Vec F S1x64x4096 .bf16) (y : S1x64x4096.Idx) :
    ∃ pc ∈ ([⟨r1_y, p0⟩] : List (View.Piece (Elt F) S1x64x4096 .bf16)), y ∈ pc.1.set :=
  View.cover_of_tiled [⟨r1_y, p0⟩] S1x64x4096.size (by rfl) y

/-- The one store of a row-sum block covers it. -/
theorem cover1_s (p0 : Vec F S1x64x1 .f32) (y : S1x64x1.Idx) :
    ∃ pc ∈ ([⟨r1_s, p0⟩] : List (View.Piece (Elt F) S1x64x1 .f32)), y ∈ pc.1.set :=
  View.cover_of_tiled [⟨r1_s, p0⟩] S1x64x1.size (by rfl) y

/-- A load the earlier stores cover reads their canon through its rectangle, whatever the view. -/
theorem readCov_toLoadRect {sig' : RefSig} {κ : Kind} {sp : Space} {s : Shape} {e : EltTy}
    (v : View sig' κ sp s e) (L : List (View.Piece (Elt F) s e)) (r : Rect s) :
    v.readCov L r.toLoadRect = View.ld (View.canon L) r :=
  View.readCov_eq_canon' v L r.toLoadRect

/-! ## The body's triple -/

set_option maxHeartbeats 4000000 in
/-- The body on whole memrefs, the six inputs' at read contents `x1 … x6`, the three outputs' and the two scratch
    buffers' at anything, runs to the continuation holding the inputs' as they were, each output's at its `out1_W` of
    the inputs', and the scratch buffers' at some contents. -/
theorem sound_kernel1 (c : Dev nD) (E : Set ℕ) (i : grid1.Coords)
    (arg1 : Memref sig .tc .vmem S1x64x4864 .bf16) (harg1 : arg1.IsWhole)
    (arg2 : Memref sig .tc .vmem S64x1 .f32) (harg2 : arg2.IsWhole)
    (arg3 : Memref sig .tc .vmem S64x1 .f32) (harg3 : arg3.IsWhole)
    (arg4 : Memref sig .tc .vmem S1x4864 .f32) (harg4 : arg4.IsWhole)
    (arg5 : Memref sig .tc .vmem S3x64x576 .bf16) (harg5 : arg5.IsWhole)
    (arg6 : Memref sig .tc .vmem S9x4608 .bf16) (harg6 : arg6.IsWhole)
    (arg7 : Memref sig .tc .vmem S1x64x4096 .bf16) (harg7 : arg7.IsWhole)
    (arg8 : Memref sig .tc .vmem S1x64x1 .f32) (harg8 : arg8.IsWhole)
    (arg9 : Memref sig .tc .vmem S1x64x1 .f32) (harg9 : arg9.IsWhole)
    (arg10 : Memref sig .tc .vmem S64x4864 .bf16) (harg10 : arg10.IsWhole)
    (arg11 : Memref sig .tc .vmem S576x4608 .bf16) (harg11 : arg11.IsWhole)
    (x1 : Vec F S1x64x4864 .bf16) (x2 x3 : Vec F S64x1 .f32) (x4 : Vec F S1x4864 .f32)
    (x5 : Vec F S3x64x576 .bf16) (x6 : Vec F S9x4608 .bf16) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d) ∗ (∃ d, owns (c : Thread nD τ) arg8 fullShare d)
        ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare (out1_6 x1 x2 x3 x4 x5 x6)
            ∗ owns (c : Thread nD τ) arg8 fullShare (out1_7 x1 x2 x3 x4 x5 x6)
            ∗ owns (c : Thread nD τ) arg9 fullShare (out1_8 x1 x2 x3 x4 x5 x6)
            ∗ (∃ d, owns (c : Thread nD τ) arg10 fullShare d) ∗ (∃ d, owns (c : Thread nD τ) arg11 fullShare d)) -∗ K ⟨⟩))
      ⊢ wp frame (wpE (defs₀ (F := F)) Variants.none c none) E
          (cc1__conv2_kernel i arg1 harg1 arg2 harg2 arg3 harg3 arg4 harg4 arg5 harg5 arg6 harg6 arg7 harg7 arg8 harg8 arg9 harg9 arg10 harg10 arg11 harg11) K := by
  simp only [cc1__conv2_kernel_eq_skeleton]; unfold cc1__conv2_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, ⟨%d10, %f10, -, H10⟩, ⟨%d11, %f11, -, H11⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover1_6 _)).trans ?_
    unfold out1_6 cols1 xs1
    sl_unfold_run_names
    simp only [readCov_toLoadRect, View.readAt_eq_ld]
  isplitl [H8]
  · iexists _; isplitr
    swap; · iexact H8
    ipureintro
    refine (View.read_writes_eq_canon _ _ _ (cover1_s _)).trans ?_
    unfold out1_7 cols1 xs1
    sl_unfold_run_names
    simp only [readCov_toLoadRect, View.readAt_eq_ld]
  isplitl [H9]
  · iexists _; isplitr
    swap; · iexact H9
    ipureintro
    refine (View.read_writes_eq_canon _ _ _ (cover1_s _)).trans ?_
    unfold out1_8 cols1 xs1
    sl_unfold_run_names
    simp only [readCov_toLoadRect, View.readAt_eq_ld]
  isplitl [H10]
  · iexists _; iexists _; isplitr
    swap; · iexact H10
    ipureintro; rfl
  iexists _; iexists _; isplitr
  swap; · iexact H11
  ipureintro; rfl

end Cert.Kernel.Body

end
-- ==== Proof.KernelBody2.lean ====
import proofs.«157750_g2000200144022539_pallasbulk_675_13_alg».proof.Proof.Gen.Kernel.Skeleton
import Idealize.ShloMosaic.Lib.Pipeline.FrameBody
import Idealize.ShloMosaic.Lib.Ring
import Idealize.ShloMosaic.Lib.Tactic

/-! # The body of the third kernel (batch-norm affine map followed by a rectifier), at a grid point

The body reads its three input blocks whole (the activations `x1`, the per-channel scale `x2` and the
per-channel shift `x3`), and stores once, over the whole output block. So the output block after the body
is a function of the three input blocks alone: the single store's payload laid over the block. -/

set_option maxRecDepth 16384

noncomputable section

namespace Cert.Kernel.Body

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The rectangles the body reads and writes: each is its whole block -/

/-- The whole activation block (and the whole output block: the same shape). -/
abbrev r2_blk : Rect S1x64x4096 := Rect.unit (s := S1x64x4096) ![0, 0, 0] S1x64x4096.size inb_S1x64x4096_S1x64x4096_0_0_0

/-- The whole per-channel column (scale, shift). -/
abbrev r2_col : Rect S64x1 := Rect.unit (s := S64x1) ![0, 0] S64x1.size inb_S64x1_S64x1_0_0

/-! ## What the body leaves in the output block -/

/-- The output block after the body, from the three input blocks: the one store's payload over the whole block. -/
def out2_3 (x1 : Vec F S1x64x4096 .bf16) (x2 : Vec F S64x1 .f32) (x3 : Vec F S64x1 .f32) : Vec F S1x64x4096 .f32 :=
  View.canon [⟨r2_blk, k2_pay1 (View.ld x1 r2_blk) (View.ld x2 r2_col) (View.ld x3 r2_col)⟩]

/-- The one store covers the block. -/
theorem cover2_3 (p0 : Vec F S1x64x4096 .f32) (y : S1x64x4096.Idx) :
    ∃ pc ∈ ([⟨r2_blk, p0⟩] : List (View.Piece (Elt F) S1x64x4096 .f32)), y ∈ pc.1.set :=
  View.cover_of_tiled [⟨r2_blk, p0⟩] S1x64x4096.size (by rfl) y

/-! ## The body's triple -/

set_option maxHeartbeats 1000000 in
/-- The body on whole memrefs, the inputs' at read contents `x1 x2 x3` and the output's at anything, runs to the
    continuation holding the inputs' as they were and the output's at `out2_3` of the inputs'. -/
theorem sound_kernel2 (c : Dev nD) (E : Set ℕ) (i : grid2.Coords)
    (arg1 : Memref sig .tc .vmem S1x64x4096 .bf16) (harg1 : arg1.IsWhole)
    (arg2 : Memref sig .tc .vmem S64x1 .f32) (harg2 : arg2.IsWhole)
    (arg3 : Memref sig .tc .vmem S64x1 .f32) (harg3 : arg3.IsWhole)
    (arg4 : Memref sig .tc .vmem S1x64x4096 .f32) (harg4 : arg4.IsWhole)
    (x1 : Vec F S1x64x4096 .bf16) (x2 : Vec F S64x1 .f32) (x3 : Vec F S64x1 .f32) (K : PUnit → sProp 𝕄) :
    iprop(owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg1 fullShare x1 ∗ owns (c : Thread nD τ) arg2 fullShare x2
            ∗ owns (c : Thread nD τ) arg3 fullShare x3 ∗ owns (c : Thread nD τ) arg4 fullShare (out2_3 x1 x2 x3)) -∗ K ⟨⟩))
      ⊢ wp frame (wpE (defs₀ (F := F)) Variants.none c none) E (cc2__bn_relu_out_kernel i arg1 harg1 arg2 harg2 arg3 harg3 arg4 harg4) K := by
  simp only [cc2__bn_relu_out_kernel_eq_skeleton]; unfold cc2__bn_relu_out_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_3 _)

end Cert.Kernel.Body

end
-- ==== Proof.TopKernel.lean ====
import proofs.«157750_g2000200144022539_pallasbulk_675_13_alg».proof.Defs
import proofs.«157750_g2000200144022539_pallasbulk_675_13_alg».proof.Proof.Gen.Kernel
import proofs.«157750_g2000200144022539_pallasbulk_675_13_alg».proof.Proof.Gen.Pre_finite_inputs
import proofs.«157750_g2000200144022539_pallasbulk_675_13_alg».proof.Proof.KernelRun
import proofs.«157750_g2000200144022539_pallasbulk_675_13_alg».proof.Proof.KernelKeep
import proofs.«157750_g2000200144022539_pallasbulk_675_13_alg».proof.Proof.KernelBody0
import proofs.«157750_g2000200144022539_pallasbulk_675_13_alg».proof.Proof.KernelBody1
import proofs.«157750_g2000200144022539_pallasbulk_675_13_alg».proof.Proof.KernelBody2

noncomputable section

namespace Cert.Proof

open Idealize.ShloMosaic Idealize.SL.Sem

def outsK : Cert.Kernel.Run.Outs Bits where
  o0_4 := Cert.Kernel.Body.out0_4
  o0_5 := Cert.Kernel.Body.out0_5
  o0_6 := Cert.Kernel.Body.out0_6
  o1_6 := Cert.Kernel.Body.out1_6
  o1_7 := Cert.Kernel.Body.out1_7
  o1_8 := Cert.Kernel.Body.out1_8
  o2_3 := Cert.Kernel.Body.out2_3

theorem soundK0 : Cert.Kernel.Run.Sound0 outsK := by
  unfold Cert.Kernel.Run.Sound0
  intro c E i a1 h1 a2 h2 a3 h3 a4 h4 a5 h5 a6 h6 a7 h7 a8 h8 a9 h9 a10 h10 x1 x2 x3 x4 K
  have h := Cert.Kernel.Body.sound_kernel0 (F := Bits) c E i a1 h1 a2 h2 a3 h3 a4 h4 a5 h5 a6 h6 a7 h7 a8 h8 a9 h9 a10 h10 x1 x2 x3 x4 K
  dsimp only [outsK]
  exact h

theorem soundK1 : Cert.Kernel.Run.Sound1 outsK := by
  unfold Cert.Kernel.Run.Sound1
  intro c E i a1 h1 a2 h2 a3 h3 a4 h4 a5 h5 a6 h6 a7 h7 a8 h8 a9 h9 a10 h10 a11 h11 x1 x2 x3 x4 x5 x6 K
  have h := Cert.Kernel.Body.sound_kernel1 (F := Bits) c E i a1 h1 a2 h2 a3 h3 a4 h4 a5 h5 a6 h6 a7 h7 a8 h8 a9 h9 a10 h10 a11 h11 x1 x2 x3 x4 x5 x6 K
  dsimp only [outsK]
  exact h

theorem soundK2 : Cert.Kernel.Run.Sound2 outsK := by
  unfold Cert.Kernel.Run.Sound2
  intro c E i a1 h1 a2 h2 a3 h3 a4 h4 x1 x2 x3 K
  have h := Cert.Kernel.Body.sound_kernel2 (F := Bits) c E i a1 h1 a2 h2 a3 h3 a4 h4 x1 x2 x3 K
  dsimp only [outsK]
  exact h

theorem frame_K : Cert.frame_Kernel := fun m ρ _ =>
  (θ_run (Cert.Kernel.defs (F := Bits)) _ _).mono (fun r h c =>
    ⟨(h c _ (Cert.Kernel.Run.mem_uc Cert.Kernel.main_arg0 (by decide))).trans (Cert.Kernel.Run.arg_kept outsK m ρ c _ (by decide)),
     (h c _ (Cert.Kernel.Run.mem_uc Cert.Kernel.main_arg1 (by decide))).trans (Cert.Kernel.Run.arg_kept outsK m ρ c _ (by decide)),
     (h c _ (Cert.Kernel.Run.mem_uc Cert.Kernel.main_arg2 (by decide))).trans (Cert.Kernel.Run.arg_kept outsK m ρ c _ (by decide)),
     (h c _ (Cert.Kernel.Run.mem_uc Cert.Kernel.main_arg3 (by decide))).trans (Cert.Kernel.Run.arg_kept outsK m ρ c _ (by decide)),
     (h c _ (Cert.Kernel.Run.mem_uc Cert.Kernel.main_arg4 (by decide))).trans (Cert.Kernel.Run.arg_kept outsK m ρ c _ (by decide)),
     (h c _ (Cert.Kernel.Run.mem_uc Cert.Kernel.main_arg5 (by decide))).trans (Cert.Kernel.Run.arg_kept outsK m ρ c _ (by decide)),
     (h c _ (Cert.Kernel.Run.mem_uc Cert.Kernel.main_arg6 (by decide))).trans (Cert.Kernel.Run.arg_kept outsK m ρ c _ (by decide))⟩)
    (Cert.Kernel.Run.run outsK m ρ soundK0 soundK1 soundK2)

end Cert.Proof

end
-- ==== Proof.KernelIdealRun.lean ====
/- The run of KernelIdeal from launch to return: @main is host stretches and 3 kernel regions. Each region's body is
   taken as a PARAMETER (what each output window's buffer holds after the body, as a function of the input blocks, and the
   body's triple); from these: the proof data of each pipeline, the body obligations, the buffer contents at every
   boundary of @main as a fold from the launch memory, the segments, and the run: every weakly fair execution
   terminates, nothing faults, and every unscoped buffer ends at the last boundary's contents. -/
import proofs.«157750_g2000200144022539_pallasbulk_675_13_alg».proof.Proof.Gen.KernelIdeal.Launch
import proofs.«157750_g2000200144022539_pallasbulk_675_13_alg».proof.Proof.Gen.KernelIdeal.Skeleton
import proofs.«157750_g2000200144022539_pallasbulk_675_13_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The regions' bodies, as parameters -/

/-- What each output window's staging buffer holds after its kernel's body, as a function of the input windows' blocks. -/
structure Outs (F : FTy → Type) [FloatOps F] where
  o0_4 : Vec F S1x32x32768 .f32 → Vec F S1024x256 .bf16 → Vec F S3x64x288 .bf16 → Vec F S9x4608 .bf16 → Vec F S1x64x4864 .bf16
  o0_5 : Vec F S1x32x32768 .f32 → Vec F S1024x256 .bf16 → Vec F S3x64x288 .bf16 → Vec F S9x4608 .bf16 → Vec F S1x64x1 .f32
  o0_6 : Vec F S1x32x32768 .f32 → Vec F S1024x256 .bf16 → Vec F S3x64x288 .bf16 → Vec F S9x4608 .bf16 → Vec F S1x64x1 .f32
  o1_6 : Vec F S1x64x4864 .bf16 → Vec F S64x1 .f32 → Vec F S64x1 .f32 → Vec F S1x4864 .f32 → Vec F S3x64x576 .bf16 → Vec F S9x4608 .bf16 → Vec F S1x64x4096 .bf16
  o1_7 : Vec F S1x64x4864 .bf16 → Vec F S64x1 .f32 → Vec F S64x1 .f32 → Vec F S1x4864 .f32 → Vec F S3x64x576 .bf16 → Vec F S9x4608 .bf16 → Vec F S1x64x1 .f32
  o1_8 : Vec F S1x64x4864 .bf16 → Vec F S64x1 .f32 → Vec F S64x1 .f32 → Vec F S1x4864 .f32 → Vec F S3x64x576 .bf16 → Vec F S9x4608 .bf16 → Vec F S1x64x1 .f32
  o2_3 : Vec F S1x64x4096 .bf16 → Vec F S64x1 .f32 → Vec F S64x1 .f32 → Vec F S1x64x4096 .f32

variable (O : Outs F)

/-- The triple of kernel 0's body on whole memrefs: the input windows' at read contents, the output windows' and the scratch
    operands' at anything; it returns the inputs as they were and each output at its term of the inputs. -/
def Sound0 : Prop :=
  ∀ (c : Dev nD) (E : Set ℕ) (i : grid0.Coords) (arg1 : Memref sig .tc .vmem S1x32x32768 .f32) (harg1 : arg1.IsWhole) (arg2 : Memref sig .tc .vmem S1024x256 .bf16) (harg2 : arg2.IsWhole) (arg3 : Memref sig .tc .vmem S3x64x288 .bf16) (harg3 : arg3.IsWhole) (arg4 : Memref sig .tc .vmem S9x4608 .bf16) (harg4 : arg4.IsWhole) (arg5 : Memref sig .tc .vmem S1x64x4864 .bf16) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S512x1024 .bf16) (harg8 : arg8.IsWhole) (arg9 : Memref sig .tc .vmem S32x4864 .bf16) (harg9 : arg9.IsWhole) (arg10 : Memref sig .tc .vmem S288x4608 .bf16) (harg10 : arg10.IsWhole)
    (x1 : Vec F S1x32x32768 .f32) (x2 : Vec F S1024x256 .bf16) (x3 : Vec F S3x64x288 .bf16) (x4 : Vec F S9x4608 .bf16) (K : PUnit → sProp 𝕄),
    iprop(owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (O.o0_4 x1 x2 x3 x4) ∗ owns (c : Thread nD τ) arg6 fullShare (O.o0_5 x1 x2 x3 x4) ∗ owns (c : Thread nD τ) arg7 fullShare (O.o0_6 x1 x2 x3 x4) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0__pool_conv1_kernel i arg1 harg1 arg2 harg2 arg3 harg3 arg4 harg4 arg5 harg5 arg6 harg6 arg7 harg7 arg8 harg8 arg9 harg9 arg10 harg10) K

/-- The triple of kernel 1's body on whole memrefs: the input windows' at read contents, the output windows' and the scratch
    operands' at anything; it returns the inputs as they were and each output at its term of the inputs. -/
def Sound1 : Prop :=
  ∀ (c : Dev nD) (E : Set ℕ) (i : grid1.Coords) (arg1 : Memref sig .tc .vmem S1x64x4864 .bf16) (harg1 : arg1.IsWhole) (arg2 : Memref sig .tc .vmem S64x1 .f32) (harg2 : arg2.IsWhole) (arg3 : Memref sig .tc .vmem S64x1 .f32) (harg3 : arg3.IsWhole) (arg4 : Memref sig .tc .vmem S1x4864 .f32) (harg4 : arg4.IsWhole) (arg5 : Memref sig .tc .vmem S3x64x576 .bf16) (harg5 : arg5.IsWhole) (arg6 : Memref sig .tc .vmem S9x4608 .bf16) (harg6 : arg6.IsWhole) (arg7 : Memref sig .tc .vmem S1x64x4096 .bf16) (harg7 : arg7.IsWhole) (arg8 : Memref sig .tc .vmem S1x64x1 .f32) (harg8 : arg8.IsWhole) (arg9 : Memref sig .tc .vmem S1x64x1 .f32) (harg9 : arg9.IsWhole) (arg10 : Memref sig .tc .vmem S64x4864 .bf16) (harg10 : arg10.IsWhole) (arg11 : Memref sig .tc .vmem S576x4608 .bf16) (harg11 : arg11.IsWhole)
    (x1 : Vec F S1x64x4864 .bf16) (x2 : Vec F S64x1 .f32) (x3 : Vec F S64x1 .f32) (x4 : Vec F S1x4864 .f32) (x5 : Vec F S3x64x576 .bf16) (x6 : Vec F S9x4608 .bf16) (K : PUnit → sProp 𝕄),
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (O.o1_6 x1 x2 x3 x4 x5 x6) ∗ owns (c : Thread nD τ) arg8 fullShare (O.o1_7 x1 x2 x3 x4 x5 x6) ∗ owns (c : Thread nD τ) arg9 fullShare (O.o1_8 x1 x2 x3 x4 x5 x6) ∗ (∃ d, owns (c : Thread nD τ) arg10 fullShare d) ∗ (∃ d, owns (c : Thread nD τ) arg11 fullShare d)) -∗ K ⟨⟩))
      ⊢ wp frame (wpE (defs₀ (F := F)) Variants.none c none) E (cc1__conv2_kernel i arg1 harg1 arg2 harg2 arg3 harg3 arg4 harg4 arg5 harg5 arg6 harg6 arg7 harg7 arg8 harg8 arg9 harg9 arg10 harg10 arg11 harg11) K

/-- The triple of kernel 2's body on whole memrefs: the input windows' at read contents, the output windows' and the scratch
    operands' at anything; it returns the inputs as they were and each output at its term of the inputs. -/
def Sound2 : Prop :=
  ∀ (c : Dev nD) (E : Set ℕ) (i : grid2.Coords) (arg1 : Memref sig .tc .vmem S1x64x4096 .bf16) (harg1 : arg1.IsWhole) (arg2 : Memref sig .tc .vmem S64x1 .f32) (harg2 : arg2.IsWhole) (arg3 : Memref sig .tc .vmem S64x1 .f32) (harg3 : arg3.IsWhole) (arg4 : Memref sig .tc .vmem S1x64x4096 .f32) (harg4 : arg4.IsWhole)
    (x1 : Vec F S1x64x4096 .bf16) (x2 : Vec F S64x1 .f32) (x3 : Vec F S64x1 .f32) (K : PUnit → sProp 𝕄),
    iprop(owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg1 fullShare x1 ∗ owns (c : Thread nD τ) arg2 fullShare x2 ∗ owns (c : Thread nD τ) arg3 fullShare x3 ∗ owns (c : Thread nD τ) arg4 fullShare (O.o2_3 x1 x2 x3)) -∗ K ⟨⟩))
      ⊢ wp frame (wpE (defs₀ (F := F)) Variants.none c none) E (cc2__bn_relu_out_kernel i arg1 harg1 arg2 harg2 arg3 harg3 arg4 harg4) K

section Regions
-- the TensorCore's buffer contents when a region is entered
variable (V : (c : Dev nD) → (b : Ref sig .tc) → Buf (Elt F) ((c : Thread nD τ).loc b))

/-! # REGION 0: cc0__pool_conv1_kernel (pipeline 0), at the entry contents V -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0 on core c: the arrays as the region finds them; after the body each input's buffer at its
    block and each output's at its term of the input blocks; the invariant the scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => O.o0_4 (iblk0 V c 0 t) (iblk0 V c 1 t) (iblk0 V c 2 t) (iblk0 V c 3 t)
    | ⟨5, _⟩ => O.o0_5 (iblk0 V c 0 t) (iblk0 V c 1 t) (iblk0 V c 2 t) (iblk0 V c 3 t)
    | ⟨6, _⟩ => O.o0_6 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 O V c).A w = V c (Pipeline.arrRef spec0 w) := by
  dsimp only [dat0]

theorem after0_0 (c : Dev nD) (t : Fin cfg0.N) : (dat0 O V c).after 0 t = iblk0 V c 0 t := by dsimp only [dat0]
theorem after0_1 (c : Dev nD) (t : Fin cfg0.N) : (dat0 O V c).after 1 t = iblk0 V c 1 t := by dsimp only [dat0]
theorem after0_2 (c : Dev nD) (t : Fin cfg0.N) : (dat0 O V c).after 2 t = iblk0 V c 2 t := by dsimp only [dat0]
theorem after0_3 (c : Dev nD) (t : Fin cfg0.N) : (dat0 O V c).after 3 t = iblk0 V c 3 t := by dsimp only [dat0]
theorem after0_4 (c : Dev nD) (t : Fin cfg0.N) : (dat0 O V c).after 4 t = O.o0_4 (iblk0 V c 0 t) (iblk0 V c 1 t) (iblk0 V c 2 t) (iblk0 V c 3 t) := by dsimp only [dat0]
theorem after0_5 (c : Dev nD) (t : Fin cfg0.N) : (dat0 O V c).after 5 t = O.o0_5 (iblk0 V c 0 t) (iblk0 V c 1 t) (iblk0 V c 2 t) (iblk0 V c 3 t) := by dsimp only [dat0]
theorem after0_6 (c : Dev nD) (t : Fin cfg0.N) : (dat0 O V c).after 6 t = O.o0_6 (iblk0 V c 0 t) (iblk0 V c 1 t) (iblk0 V c 2 t) (iblk0 V c 3 t) := by dsimp only [dat0]

theorem before0_0 (c : Dev nD) (t : Fin cfg0.N) (d) : (dat0 O V c).before 0 t d = iblk0 V c 0 t :=
  before0_0_of V (dat0 O V c) (A_eq0 O V c 0) (after0_0 O V c) t d
theorem before0_1 (c : Dev nD) (t : Fin cfg0.N) (d) : (dat0 O V c).before 1 t d = iblk0 V c 1 t :=
  before0_1_of V (dat0 O V c) (A_eq0 O V c 1) (after0_1 O V c) t d
theorem before0_2 (c : Dev nD) (t : Fin cfg0.N) (d) : (dat0 O V c).before 2 t d = iblk0 V c 2 t :=
  before0_2_of V (dat0 O V c) (A_eq0 O V c 2) (after0_2 O V c) t d
theorem before0_3 (c : Dev nD) (t : Fin cfg0.N) (d) : (dat0 O V c).before 3 t d = iblk0 V c 3 t :=
  before0_3_of V (dat0 O V c) (A_eq0 O V c 3) (after0_3 O V c) t d

/-- The class invariant with the scratch operands as memrefs owned at some contents, beside the rest of the scoped buffers. -/
theorem PhiA0_split (c : Dev nD) : (Pipeline.ΦA spec0 c : sProp 𝕄)
    = iprop((iprop((∃ d, owns (c : Thread nD τ) (Memref.whole cc0_scratch0 : Memref sig .tc .vmem S512x1024 .bf16) fullShare d) ∗ (∃ d, owns (c : Thread nD τ) (Memref.whole cc0_scratch1 : Memref sig .tc .vmem S32x4864 .bf16) fullShare d) ∗ (∃ d, owns (c : Thread nD τ) (Memref.whole cc0_scratch2 : Memref sig .tc .vmem S288x4608 .bf16) fullShare d))
        ∗ Pipeline.scopedRestBut (Ix := Unit) (Name := ℕ) (U := UR sig nD τ) (Lvl := ℕ) (Val := Elt F) spec0 c [cc0_scratch0, cc0_scratch1, cc0_scratch2]) ∗ (∃ r, prngReg c r)) := by
  unfold Pipeline.ΦA; rw [Pipeline.scopedRest_split_of_list spec0 c [cc0_scratch0, cc0_scratch1, cc0_scratch2] (by decide) (by decide)]; simp only [owns_whole]; rfl

def bodyPre0 (c : Dev nD) (t : Fin cfg0.N) : sProp 𝕄 :=
  iprop((dat0 O V c).Φ t.castSucc ∗ (dat0 O V c).owesAt () t.castSucc
    ∗ (∃ d, owns (c : Thread nD τ) (st0_0 t) fullShare ((dat0 O V c).before 0 t d))
    ∗ (∃ d, owns (c : Thread nD τ) (st0_1 t) fullShare ((dat0 O V c).before 1 t d))
    ∗ (∃ d, owns (c : Thread nD τ) (st0_2 t) fullShare ((dat0 O V c).before 2 t d))
    ∗ (∃ d, owns (c : Thread nD τ) (st0_3 t) fullShare ((dat0 O V c).before 3 t d))
    ∗ (∃ d, owns (c : Thread nD τ) (st0_4 t) fullShare ((dat0 O V c).before 4 t d))
    ∗ (∃ d, owns (c : Thread nD τ) (st0_5 t) fullShare ((dat0 O V c).before 5 t d))
    ∗ (∃ d, owns (c : Thread nD τ) (st0_6 t) fullShare ((dat0 O V c).before 6 t d)))

def bodyPost0 (c : Dev nD) (t : Fin cfg0.N) : sProp 𝕄 :=
  iprop((dat0 O V c).Φ t.succ ∗ (dat0 O V c).owesAt () t.succ
    ∗ owns (c : Thread nD τ) (st0_0 t) fullShare ((dat0 O V c).after 0 t)
    ∗ owns (c : Thread nD τ) (st0_1 t) fullShare ((dat0 O V c).after 1 t)
    ∗ owns (c : Thread nD τ) (st0_2 t) fullShare ((dat0 O V c).after 2 t)
    ∗ owns (c : Thread nD τ) (st0_3 t) fullShare ((dat0 O V c).after 3 t)
    ∗ owns (c : Thread nD τ) (st0_4 t) fullShare ((dat0 O V c).after 4 t)
    ∗ owns (c : Thread nD τ) (st0_5 t) fullShare ((dat0 O V c).after 5 t)
    ∗ owns (c : Thread nD τ) (st0_6 t) fullShare ((dat0 O V c).after 6 t))

/-- The body at any point: the inputs' memrefs hold their blocks, so the kernel's triple applies; the rest of the invariant
    and the core's owes pass through unread. -/
theorem sound_body0 (hs : Sound0 O) (c : Dev nD) (t : Fin cfg0.N) :
    bodyPre0 O V c t ⊢ wp frame (wpE (defs₀ (F := F)) Variants.none c none) Set.univ (bodyAt0 t) (fun _ => bodyPost0 O V c t) := by
  unfold bodyPre0 bodyPost0 bodyAt0
  simp only [before0_0, before0_1, before0_2, before0_3]
  rw [show (dat0 O V c).Φ t.succ = (dat0 O V c).Φ t.castSucc from rfl,
    show (dat0 O V c).owesAt () t.succ = (dat0 O V c).owesAt () t.castSucc from rfl,
    after0_0, after0_1, after0_2, after0_3, after0_4, after0_5, after0_6]
  rw [show (dat0 O V c).Φ t.castSucc = Pipeline.ΦA spec0 c from rfl, PhiA0_split (F := F) c]
  iintro ⟨⟨⟨⟨S0, S1, S2⟩, HR⟩, Hp⟩, Ho, ⟨%d0, H0⟩, ⟨%d1, H1⟩, ⟨%d2, H2⟩, ⟨%d3, H3⟩, ⟨%d4, H4⟩, ⟨%d5, H5⟩, ⟨%d6, H6⟩⟩
  iapply (hs c Set.univ (grid0.coords t) _ _ _ _ _ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [S0]; · iexact S0
  isplitl [S1]; · iexact S1
  isplitl [S2]; · iexact S2
  iintro ⟨H0, H1, H2, H3, H4, H5, H6, S0, S1, S2⟩
  isplitl [S0 S1 S2 HR Hp]
  · isplitr [Hp]
    · isplitr [HR]
      · isplitl [S0]; · iexact S0
        isplitl [S1]; · iexact S1
        iexact S2
      iexact HR
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation0 (hs : Sound0 O) (c : Dev nD) : BodyObligation (dat0 (F := F) O V c) (defs₀ (F := F)) Variants.none () Set.univ := fun t => by
  rw [bigSep_W0, bigSep_W0]
  exact sound_body0 O V hs c t

/-! # REGION 1: cc1__conv2_kernel (pipeline 1), at the entry contents V -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1 on core c: the arrays as the region finds them; after the body each input's buffer at its
    block and each output's at its term of the input blocks; the invariant the scoped rest and the generator register. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => O.o1_6 (iblk1 V c 0 t) (iblk1 V c 1 t) (iblk1 V c 2 t) (iblk1 V c 3 t) (iblk1 V c 4 t) (iblk1 V c 5 t)
    | ⟨7, _⟩ => O.o1_7 (iblk1 V c 0 t) (iblk1 V c 1 t) (iblk1 V c 2 t) (iblk1 V c 3 t) (iblk1 V c 4 t) (iblk1 V c 5 t)
    | ⟨8, _⟩ => O.o1_8 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 O V c).A w = V c (Pipeline.arrRef spec1 w) := by
  dsimp only [dat1]

theorem after1_0 (c : Dev nD) (t : Fin cfg1.N) : (dat1 O V c).after 0 t = iblk1 V c 0 t := by dsimp only [dat1]
theorem after1_1 (c : Dev nD) (t : Fin cfg1.N) : (dat1 O V c).after 1 t = iblk1 V c 1 t := by dsimp only [dat1]
theorem after1_2 (c : Dev nD) (t : Fin cfg1.N) : (dat1 O V c).after 2 t = iblk1 V c 2 t := by dsimp only [dat1]
theorem after1_3 (c : Dev nD) (t : Fin cfg1.N) : (dat1 O V c).after 3 t = iblk1 V c 3 t := by dsimp only [dat1]
theorem after1_4 (c : Dev nD) (t : Fin cfg1.N) : (dat1 O V c).after 4 t = iblk1 V c 4 t := by dsimp only [dat1]
theorem after1_5 (c : Dev nD) (t : Fin cfg1.N) : (dat1 O V c).after 5 t = iblk1 V c 5 t := by dsimp only [dat1]
theorem after1_6 (c : Dev nD) (t : Fin cfg1.N) : (dat1 O V c).after 6 t = O.o1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 O V c).after 7 t = O.o1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 O V c).after 8 t = O.o1_8 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 O V c).before 0 t d = iblk1 V c 0 t :=
  before1_0_of V (dat1 O V c) (A_eq1 O V c 0) (after1_0 O V c) t d
theorem before1_1 (c : Dev nD) (t : Fin cfg1.N) (d) : (dat1 O V c).before 1 t d = iblk1 V c 1 t :=
  before1_1_of V (dat1 O V c) (A_eq1 O V c 1) (after1_1 O V c) t d
theorem before1_2 (c : Dev nD) (t : Fin cfg1.N) (d) : (dat1 O V c).before 2 t d = iblk1 V c 2 t :=
  before1_2_of V (dat1 O V c) (A_eq1 O V c 2) (after1_2 O V c) t d
theorem before1_3 (c : Dev nD) (t : Fin cfg1.N) (d) : (dat1 O V c).before 3 t d = iblk1 V c 3 t :=
  before1_3_of V (dat1 O V c) (A_eq1 O V c 3) (after1_3 O V c) t d
theorem before1_4 (c : Dev nD) (t : Fin cfg1.N) (d) : (dat1 O V c).before 4 t d = iblk1 V c 4 t :=
  before1_4_of V (dat1 O V c) (A_eq1 O V c 4) (after1_4 O V c) t d
theorem before1_5 (c : Dev nD) (t : Fin cfg1.N) (d) : (dat1 O V c).before 5 t d = iblk1 V c 5 t :=
  before1_5_of V (dat1 O V c) (A_eq1 O V c 5) (after1_5 O V c) t d

/-- The class invariant with the scratch operands as memrefs owned at some contents, beside the rest of the scoped buffers. -/
theorem PhiA1_split (c : Dev nD) : (Pipeline.ΦA spec1 c : sProp 𝕄)
    = iprop((iprop((∃ d, owns (c : Thread nD τ) (Memref.whole cc1_scratch0 : Memref sig .tc .vmem S64x4864 .bf16) fullShare d) ∗ (∃ d, owns (c : Thread nD τ) (Memref.whole cc1_scratch1 : Memref sig .tc .vmem S576x4608 .bf16) fullShare d))
        ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [Pipeline.scopedRest_split_of_list spec1 c [cc1_scratch0, cc1_scratch1] (by decide) (by decide)]; simp only [owns_whole]; rfl

def bodyPre1 (c : Dev nD) (t : Fin cfg1.N) : sProp 𝕄 :=
  iprop((dat1 O V c).Φ t.castSucc ∗ (dat1 O V c).owesAt () t.castSucc
    ∗ (∃ d, owns (c : Thread nD τ) (st1_0 t) fullShare ((dat1 O V c).before 0 t d))
    ∗ (∃ d, owns (c : Thread nD τ) (st1_1 t) fullShare ((dat1 O V c).before 1 t d))
    ∗ (∃ d, owns (c : Thread nD τ) (st1_2 t) fullShare ((dat1 O V c).before 2 t d))
    ∗ (∃ d, owns (c : Thread nD τ) (st1_3 t) fullShare ((dat1 O V c).before 3 t d))
    ∗ (∃ d, owns (c : Thread nD τ) (st1_4 t) fullShare ((dat1 O V c).before 4 t d))
    ∗ (∃ d, owns (c : Thread nD τ) (st1_5 t) fullShare ((dat1 O V c).before 5 t d))
    ∗ (∃ d, owns (c : Thread nD τ) (st1_6 t) fullShare ((dat1 O V c).before 6 t d))
    ∗ (∃ d, owns (c : Thread nD τ) (st1_7 t) fullShare ((dat1 O V c).before 7 t d))
    ∗ (∃ d, owns (c : Thread nD τ) (st1_8 t) fullShare ((dat1 O V c).before 8 t d)))

def bodyPost1 (c : Dev nD) (t : Fin cfg1.N) : sProp 𝕄 :=
  iprop((dat1 O V c).Φ t.succ ∗ (dat1 O V c).owesAt () t.succ
    ∗ owns (c : Thread nD τ) (st1_0 t) fullShare ((dat1 O V c).after 0 t)
    ∗ owns (c : Thread nD τ) (st1_1 t) fullShare ((dat1 O V c).after 1 t)
    ∗ owns (c : Thread nD τ) (st1_2 t) fullShare ((dat1 O V c).after 2 t)
    ∗ owns (c : Thread nD τ) (st1_3 t) fullShare ((dat1 O V c).after 3 t)
    ∗ owns (c : Thread nD τ) (st1_4 t) fullShare ((dat1 O V c).after 4 t)
    ∗ owns (c : Thread nD τ) (st1_5 t) fullShare ((dat1 O V c).after 5 t)
    ∗ owns (c : Thread nD τ) (st1_6 t) fullShare ((dat1 O V c).after 6 t)
    ∗ owns (c : Thread nD τ) (st1_7 t) fullShare ((dat1 O V c).after 7 t)
    ∗ owns (c : Thread nD τ) (st1_8 t) fullShare ((dat1 O V c).after 8 t))

/-- The body at any point: the inputs' memrefs hold their blocks, so the kernel's triple applies; the rest of the invariant
    and the core's owes pass through unread. -/
theorem sound_body1 (hs : Sound1 O) (c : Dev nD) (t : Fin cfg1.N) :
    bodyPre1 O V c t ⊢ wp frame (wpE (defs₀ (F := F)) Variants.none c none) Set.univ (bodyAt1 t) (fun _ => bodyPost1 O V c t) := by
  unfold bodyPre1 bodyPost1 bodyAt1
  simp only [before1_0, before1_1, before1_2, before1_3, before1_4, before1_5]
  rw [show (dat1 O V c).Φ t.succ = (dat1 O V c).Φ t.castSucc from rfl,
    show (dat1 O V c).owesAt () t.succ = (dat1 O V c).owesAt () t.castSucc from rfl,
    after1_0, after1_1, after1_2, after1_3, after1_4, after1_5, after1_6, after1_7, after1_8]
  rw [show (dat1 O V c).Φ t.castSucc = Pipeline.ΦA spec1 c from rfl, PhiA1_split (F := F) c]
  iintro ⟨⟨⟨⟨S0, S1⟩, HR⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (hs c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [S0]; · iexact S0
  isplitl [S1]; · iexact S1
  iintro ⟨H0, H1, H2, H3, H4, H5, H6, H7, H8, S0, S1⟩
  isplitl [S0 S1 HR Hp]
  · isplitr [Hp]
    · isplitr [HR]
      · isplitl [S0]; · iexact S0
        iexact S1
      iexact HR
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation1 (hs : Sound1 O) (c : Dev nD) : BodyObligation (dat1 (F := F) O V c) (defs₀ (F := F)) Variants.none () Set.univ := fun t => by
  rw [bigSep_W1, bigSep_W1]
  exact sound_body1 O V hs c t

/-! # REGION 2: cc2__bn_relu_out_kernel (pipeline 2), at the entry contents V -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The proof data of pipeline 2 on core c: the arrays as the region finds them; after the body each input's buffer at its
    block and each output's at its term of the input blocks; the invariant the scoped rest and the generator register. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => O.o2_3 (iblk2 V c 0 t) (iblk2 V c 1 t) (iblk2 V c 2 t)
  Φ _ := Pipeline.ΦA spec2 c
  q _ := fullShare
  owed _ := 0

theorem A_eq2 (c : Dev nD) (w : Fin cfg2.W) : (dat2 O V c).A w = V c (Pipeline.arrRef spec2 w) := by
  dsimp only [dat2]

theorem after2_0 (c : Dev nD) (t : Fin cfg2.N) : (dat2 O V c).after 0 t = iblk2 V c 0 t := by dsimp only [dat2]
theorem after2_1 (c : Dev nD) (t : Fin cfg2.N) : (dat2 O V c).after 1 t = iblk2 V c 1 t := by dsimp only [dat2]
theorem after2_2 (c : Dev nD) (t : Fin cfg2.N) : (dat2 O V c).after 2 t = iblk2 V c 2 t := by dsimp only [dat2]
theorem after2_3 (c : Dev nD) (t : Fin cfg2.N) : (dat2 O V c).after 3 t = O.o2_3 (iblk2 V c 0 t) (iblk2 V c 1 t) (iblk2 V c 2 t) := by dsimp only [dat2]

theorem before2_0 (c : Dev nD) (t : Fin cfg2.N) (d) : (dat2 O V c).before 0 t d = iblk2 V c 0 t :=
  before2_0_of V (dat2 O V c) (A_eq2 O V c 0) (after2_0 O V c) t d
theorem before2_1 (c : Dev nD) (t : Fin cfg2.N) (d) : (dat2 O V c).before 1 t d = iblk2 V c 1 t :=
  before2_1_of V (dat2 O V c) (A_eq2 O V c 1) (after2_1 O V c) t d
theorem before2_2 (c : Dev nD) (t : Fin cfg2.N) (d) : (dat2 O V c).before 2 t d = iblk2 V c 2 t :=
  before2_2_of V (dat2 O V c) (A_eq2 O V c 2) (after2_2 O V c) t d

def bodyPre2 (c : Dev nD) (t : Fin cfg2.N) : sProp 𝕄 :=
  iprop((dat2 O V c).Φ t.castSucc ∗ (dat2 O V c).owesAt () t.castSucc
    ∗ (∃ d, owns (c : Thread nD τ) (st2_0 t) fullShare ((dat2 O V c).before 0 t d))
    ∗ (∃ d, owns (c : Thread nD τ) (st2_1 t) fullShare ((dat2 O V c).before 1 t d))
    ∗ (∃ d, owns (c : Thread nD τ) (st2_2 t) fullShare ((dat2 O V c).before 2 t d))
    ∗ (∃ d, owns (c : Thread nD τ) (st2_3 t) fullShare ((dat2 O V c).before 3 t d)))

def bodyPost2 (c : Dev nD) (t : Fin cfg2.N) : sProp 𝕄 :=
  iprop((dat2 O V c).Φ t.succ ∗ (dat2 O V c).owesAt () t.succ
    ∗ owns (c : Thread nD τ) (st2_0 t) fullShare ((dat2 O V c).after 0 t)
    ∗ owns (c : Thread nD τ) (st2_1 t) fullShare ((dat2 O V c).after 1 t)
    ∗ owns (c : Thread nD τ) (st2_2 t) fullShare ((dat2 O V c).after 2 t)
    ∗ owns (c : Thread nD τ) (st2_3 t) fullShare ((dat2 O V c).after 3 t))

/-- The body at any point: the inputs' memrefs hold their blocks, so the kernel's triple applies; the rest of the invariant
    and the core's owes pass through unread. -/
theorem sound_body2 (hs : Sound2 O) (c : Dev nD) (t : Fin cfg2.N) :
    bodyPre2 O V c t ⊢ wp frame (wpE (defs₀ (F := F)) Variants.none c none) Set.univ (bodyAt2 t) (fun _ => bodyPost2 O V c t) := by
  unfold bodyPre2 bodyPost2 bodyAt2
  simp only [before2_0, before2_1, before2_2]
  rw [show (dat2 O V c).Φ t.succ = (dat2 O V c).Φ t.castSucc from rfl,
    show (dat2 O V c).owesAt () t.succ = (dat2 O V c).owesAt () t.castSucc from rfl,
    after2_0, after2_1, after2_2, after2_3]
  iintro ⟨HΦ, Ho, ⟨%d0, H0⟩, ⟨%d1, H1⟩, ⟨%d2, H2⟩, ⟨%d3, H3⟩⟩
  iapply (hs c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (hs : Sound2 O) (c : Dev nD) : BodyObligation (dat2 (F := F) O V c) (defs₀ (F := F)) Variants.none () Set.univ := fun t => by
  rw [bigSep_W2, bigSep_W2]
  exact sound_body2 O V hs c t

end Regions

/-! # THE RUN: @main's items from the launch to the return -/

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After item 0, the host stretch main_part0_ops0. -/
abbrev W1 : Dev nD → Valuation τ sig (Elt F) := fun c => StableHlo.after main_part0_ops0 (W0 m ρ c)

/-- After item 1, the host stretch main_part0_ops1. -/
abbrev W2 : Dev nD → Valuation τ sig (Elt F) := fun c => StableHlo.after main_part0_ops1 (W1 m ρ c)

/-- After item 2, the host stretch main_part0_ops2. -/
abbrev W3 : Dev nD → Valuation τ sig (Elt F) := fun c => StableHlo.after main_part0_ops2 (W2 m ρ c)

/-- After item 3, the host stretch main_part0_ops3. -/
abbrev W4 : Dev nD → Valuation τ sig (Elt F) := fun c => StableHlo.after main_part0_ops3 (W3 m ρ c)

/-- After item 4, the host stretch main_part0_ops4. -/
abbrev W5 : Dev nD → Valuation τ sig (Elt F) := fun c => StableHlo.after main_part0_ops4 (W4 m ρ c)

/-- After item 5, the host stretch main_part0_ops5. -/
abbrev W6 : Dev nD → Valuation τ sig (Elt F) := fun c => StableHlo.after main_part0_ops5 (W5 m ρ c)

/-- After item 6, the host stretch main_part0_ops6. -/
abbrev W7 : Dev nD → Valuation τ sig (Elt F) := fun c => StableHlo.after main_part0_ops6 (W6 m ρ c)

/-- After item 7, the host stretch main_part0_ops7. -/
abbrev W8 : Dev nD → Valuation τ sig (Elt F) := fun c => StableHlo.after main_part0_ops7 (W7 m ρ c)

/-- After item 8, the host stretch main_part0_ops8. -/
abbrev W9 : Dev nD → Valuation τ sig (Elt F) := fun c => StableHlo.after main_part0_ops8 (W8 m ρ c)

/-- After item 9, the host stretch main_part0_ops9. -/
abbrev W10 : Dev nD → Valuation τ sig (Elt F) := fun c => StableHlo.after main_part0_ops9 (W9 m ρ c)

/-- After item 10, the host stretch main_part0_ops10. -/
abbrev W11 : Dev nD → Valuation τ sig (Elt F) := fun c => StableHlo.after main_part0_ops10 (W10 m ρ c)

/-- After item 11, the host stretch main_part1_ops0. -/
abbrev W12 : Dev nD → Valuation τ sig (Elt F) := fun c => StableHlo.after main_part1_ops0 (W11 m ρ c)

/-- After item 12, the host stretch main_part2_ops0. -/
abbrev W13 : Dev nD → Valuation τ sig (Elt F) := fun c => StableHlo.after main_part2_ops0 (W12 m ρ c)

/-- After item 13, the host stretch main_part3_ops0. -/
abbrev W14 : Dev nD → Valuation τ sig (Elt F) := fun c => StableHlo.after main_part3_ops0 (W13 m ρ c)

/-- After item 14, the host stretch main_part4_ops0. -/
abbrev W15 : Dev nD → Valuation τ sig (Elt F) := fun c => StableHlo.after main_part4_ops0 (W14 m ρ c)

/-- After item 15, the host stretch main_part5_ops0. -/
abbrev W16 : Dev nD → Valuation τ sig (Elt F) := fun c => StableHlo.after main_part5_ops0 (W15 m ρ c)

/-- After item 16, the host stretch main_part6_ops0. -/
abbrev W17 : Dev nD → Valuation τ sig (Elt F) := fun c => StableHlo.after main_part6_ops0 (W16 m ρ c)

/-- The contents region 0 is entered from, read at the TensorCore's references. -/
abbrev V17 : (c : Dev nD) → (b : Ref sig .tc) → Buf (Elt F) ((c : Thread nD τ).loc b) := fun c b => W17 m ρ c b
/-- After item 17, region 0: its arrays at what the pipeline leaves, every other buffer as entered. -/
def W18 (c : Dev nD) : Valuation τ sig (Elt F) :=
  Pipeline.withArrays spec0 c (W17 m ρ c) fun w => (dat0 O (V17 m ρ) c).arrAt w cfg0.N
theorem W18_arr (c : Dev nD) (w : Fin cfg0.W) :
    W18 O m ρ c (Proc.devRef .tc (Pipeline.arrRef spec0 w)) = (dat0 O (V17 m ρ) c).arrAt w cfg0.N := by
  unfold W18; exact Pipeline.withArrays_arr spec0 launch0.win.arr_inj c _ _ w
theorem W18_of_ne (c : Dev nD) (b : Ref sig .tc) (hb : ∀ w, Pipeline.arrRef spec0 w ≠ b) :
    W18 O m ρ c (Proc.devRef .tc b) = W17 m ρ c (Proc.devRef .tc b) := by
  unfold W18; exact Pipeline.withArrays_of_ne spec0 c _ _ b hb
abbrev V18 : (c : Dev nD) → (b : Ref sig .tc) → Buf (Elt F) ((c : Thread nD τ).loc b) := fun c b => W18 O m ρ c b
theorem hF0 (c : Dev nD) (w : Fin cfg0.W) : (dat0 O (V17 m ρ) c).arrAt w cfg0.N = V18 O m ρ c (Pipeline.arrRef spec0 w) :=
  (W18_arr O m ρ c w).symm
theorem hrest0 (c : Dev nD) : ∀ b, b ∉ Finset.univ.image (Pipeline.arrRef spec0) → V18 O m ρ c b = V17 m ρ c b :=
  fun b hb => W18_of_ne O m ρ c b fun w e => hb (Finset.mem_image.mpr ⟨w, Finset.mem_univ _, e⟩)

/-- After item 18, the host stretch main_part6_ops1. -/
abbrev W19 : Dev nD → Valuation τ sig (Elt F) := fun c => StableHlo.after main_part6_ops1 (W18 O m ρ c)

/-- After item 19, the host stretch main_part7_ops0. -/
abbrev W20 : Dev nD → Valuation τ sig (Elt F) := fun c => StableHlo.after main_part7_ops0 (W19 O m ρ c)

/-- The contents region 1 is entered from, read at the TensorCore's references. -/
abbrev V20 : (c : Dev nD) → (b : Ref sig .tc) → Buf (Elt F) ((c : Thread nD τ).loc b) := fun c b => W20 O m ρ c b
/-- After item 20, region 1: its arrays at what the pipeline leaves, every other buffer as entered. -/
def W21 (c : Dev nD) : Valuation τ sig (Elt F) :=
  Pipeline.withArrays spec1 c (W20 O m ρ c) fun w => (dat1 O (V20 O m ρ) c).arrAt w cfg1.N
theorem W21_arr (c : Dev nD) (w : Fin cfg1.W) :
    W21 O m ρ c (Proc.devRef .tc (Pipeline.arrRef spec1 w)) = (dat1 O (V20 O m ρ) c).arrAt w cfg1.N := by
  unfold W21; exact Pipeline.withArrays_arr spec1 launch1.win.arr_inj c _ _ w
theorem W21_of_ne (c : Dev nD) (b : Ref sig .tc) (hb : ∀ w, Pipeline.arrRef spec1 w ≠ b) :
    W21 O m ρ c (Proc.devRef .tc b) = W20 O m ρ c (Proc.devRef .tc b) := by
  unfold W21; exact Pipeline.withArrays_of_ne spec1 c _ _ b hb
abbrev V21 : (c : Dev nD) → (b : Ref sig .tc) → Buf (Elt F) ((c : Thread nD τ).loc b) := fun c b => W21 O m ρ c b
theorem hF1 (c : Dev nD) (w : Fin cfg1.W) : (dat1 O (V20 O m ρ) c).arrAt w cfg1.N = V21 O m ρ c (Pipeline.arrRef spec1 w) :=
  (W21_arr O m ρ c w).symm
theorem hrest1 (c : Dev nD) : ∀ b, b ∉ Finset.univ.image (Pipeline.arrRef spec1) → V21 O m ρ c b = V20 O m ρ c b :=
  fun b hb => W21_of_ne O m ρ c b fun w e => hb (Finset.mem_image.mpr ⟨w, Finset.mem_univ _, e⟩)

/-- After item 21, the host stretch main_part7_ops1. -/
abbrev W22 : Dev nD → Valuation τ sig (Elt F) := fun c => StableHlo.after main_part7_ops1 (W21 O m ρ c)

/-- The contents region 2 is entered from, read at the TensorCore's references. -/
abbrev V22 : (c : Dev nD) → (b : Ref sig .tc) → Buf (Elt F) ((c : Thread nD τ).loc b) := fun c b => W22 O m ρ c b
/-- After item 22, region 2: its arrays at what the pipeline leaves, every other buffer as entered. -/
def W23 (c : Dev nD) : Valuation τ sig (Elt F) :=
  Pipeline.withArrays spec2 c (W22 O m ρ c) fun w => (dat2 O (V22 O m ρ) c).arrAt w cfg2.N
theorem W23_arr (c : Dev nD) (w : Fin cfg2.W) :
    W23 O m ρ c (Proc.devRef .tc (Pipeline.arrRef spec2 w)) = (dat2 O (V22 O m ρ) c).arrAt w cfg2.N := by
  unfold W23; exact Pipeline.withArrays_arr spec2 launch2.win.arr_inj c _ _ w
theorem W23_of_ne (c : Dev nD) (b : Ref sig .tc) (hb : ∀ w, Pipeline.arrRef spec2 w ≠ b) :
    W23 O m ρ c (Proc.devRef .tc b) = W22 O m ρ c (Proc.devRef .tc b) := by
  unfold W23; exact Pipeline.withArrays_of_ne spec2 c _ _ b hb
abbrev V23 : (c : Dev nD) → (b : Ref sig .tc) → Buf (Elt F) ((c : Thread nD τ).loc b) := fun c b => W23 O m ρ c b
theorem hF2 (c : Dev nD) (w : Fin cfg2.W) : (dat2 O (V22 O m ρ) c).arrAt w cfg2.N = V23 O m ρ c (Pipeline.arrRef spec2 w) :=
  (W23_arr O m ρ c w).symm
theorem hrest2 (c : Dev nD) : ∀ b, b ∉ Finset.univ.image (Pipeline.arrRef spec2) → V23 O m ρ c b = V22 O m ρ c b :=
  fun b hb => W23_of_ne O m ρ c b fun w e => hb (Finset.mem_image.mpr ⟨w, Finset.mem_univ _, e⟩)

/-- After item 23, the host stretch main_part7_ops2. -/
abbrev W24 : Dev nD → Valuation τ sig (Elt F) := fun c => StableHlo.after main_part7_ops2 (W23 O m ρ c)

/-! ## The proof data family and the thread state -/

abbrev adm : (p : Fin 3) → (pcfgs (F := F) p).Adm := fun p => (cfgs p).toPCfg_adm
/-- Every pipeline's proof data, each at its region's entry contents: a literal match. -/
def pdats : (p : Fin 3) → (c : Dev nD) → Dat τ (Elt F) Unit ℕ (UR sig nD τ) ℕ (Pipeline.pin (pcfgs (F := F)) adm p) c
  | ⟨0, _⟩ => fun c => dat0 O (V17 m ρ) c
  | ⟨1, _⟩ => fun c => dat1 O (V20 O m ρ) c
  | ⟨2, _⟩ => fun c => dat2 O (V22 O m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part0_ops3_fresh : (main_part0_ops3 : List (HloOp τ sig (Elt F))).Forall fun op => op.fresh = ∅ := by
  simp only [List.Forall]; repeat' constructor
theorem main_part0_ops4_fresh : (main_part0_ops4 : List (HloOp τ sig (Elt F))).Forall fun op => op.fresh = ∅ := by
  simp only [List.Forall]; repeat' constructor
theorem main_part0_ops5_fresh : (main_part0_ops5 : List (HloOp τ sig (Elt F))).Forall fun op => op.fresh = ∅ := by
  simp only [List.Forall]; repeat' constructor
theorem main_part0_ops6_fresh : (main_part0_ops6 : List (HloOp τ sig (Elt F))).Forall fun op => op.fresh = ∅ := by
  simp only [List.Forall]; repeat' constructor
theorem main_part0_ops7_fresh : (main_part0_ops7 : List (HloOp τ sig (Elt F))).Forall fun op => op.fresh = ∅ := by
  simp only [List.Forall]; repeat' constructor
theorem main_part0_ops8_fresh : (main_part0_ops8 : List (HloOp τ sig (Elt F))).Forall fun op => op.fresh = ∅ := by
  simp only [List.Forall]; repeat' constructor
theorem main_part0_ops9_fresh : (main_part0_ops9 : List (HloOp τ sig (Elt F))).Forall fun op => op.fresh = ∅ := by
  simp only [List.Forall]; repeat' constructor
theorem main_part0_ops10_fresh : (main_part0_ops10 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part3_ops0_fresh : (main_part3_ops0 : List (HloOp τ sig (Elt F))).Forall fun op => op.fresh = ∅ := by
  simp only [List.Forall]; repeat' constructor
theorem main_part4_ops0_fresh : (main_part4_ops0 : List (HloOp τ sig (Elt F))).Forall fun op => op.fresh = ∅ := by
  simp only [List.Forall]; repeat' constructor
theorem main_part5_ops0_fresh : (main_part5_ops0 : List (HloOp τ sig (Elt F))).Forall fun op => op.fresh = ∅ := by
  simp only [List.Forall]; repeat' constructor
theorem main_part6_ops0_fresh : (main_part6_ops0 : List (HloOp τ sig (Elt F))).Forall fun op => op.fresh = ∅ := by
  simp only [List.Forall]; repeat' constructor
theorem main_part6_ops1_fresh : (main_part6_ops1 : List (HloOp τ sig (Elt F))).Forall fun op => op.fresh = ∅ := by
  simp only [List.Forall]; repeat' constructor
theorem main_part7_ops0_fresh : (main_part7_ops0 : List (HloOp τ sig (Elt F))).Forall fun op => op.fresh = ∅ := by
  simp only [List.Forall]; repeat' constructor
theorem main_part7_ops1_fresh : (main_part7_ops1 : List (HloOp τ sig (Elt F))).Forall fun op => op.fresh = ∅ := by
  simp only [List.Forall]; repeat' constructor
theorem main_part7_ops2_fresh : (main_part7_ops2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator register at some state. -/
abbrev Tₙ (c : Dev nD) : sProp 𝕄 := iprop(StableHlo.held (c : Thread nD τ) (Pipeline.ucRefs τ sig) (W24 O m ρ c) ∗ ∃ r, prngReg c r)

/-! ## The regions as segments -/

set_option backward.isDefEq.respectTransparency.types false in
/-- REGION 0 over the thread state: entered from every unscoped buffer at W17, left at W18. -/
def reg0 (hs : Sound0 O) : Pipeline.RegionSeg (pcfgs (F := F)) adm (pdats O m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 O (V17 m ρ) hs c).loose
  hwaits := Pipeline.hwaits_of_owed_zero _ _ _ _ L lv 0 fun _ _ => rfl
  pre c := iprop(StableHlo.held (c : Thread nD τ) (Pipeline.ucRefs τ sig) (W17 m ρ c) ∗ R c)
  post c := iprop(StableHlo.held (c : Thread nD τ) (Pipeline.ucRefs τ sig) (W18 O m ρ c) ∗ R c)
  X c := iprop(∃ r, prngReg c r)
  Y c := iprop(∃ r, prngReg c r)
  Z c := Pipeline.unscopedRest (Ix := Unit) (Name := ℕ) (U := UR sig nD τ) (Lvl := ℕ) spec0 c (V17 m ρ c)
  hentry c := by
    rw [Pipeline.ownSems0_none]
    have hsplit := Pipeline.arrays_of_unscopedBufs (p := 0) (pcfgs (F := F)) adm (pdats O m ρ) launch0.win launch0.arr_whole c
      ((pdats O m ρ 0 c).share_full fun _ => rfl) (V17 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats O m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats O m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats O m ρ) ((pdats O m ρ 0 c).share_full fun _ => rfl)
      (V17 m ρ c) (V18 O m ρ c) ((pdats O m ρ 0 c).arrAt · cfg0.N) (hF0 O m ρ c) (hrest0 O m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at W20, left at W21. -/
def reg1 (hs : Sound1 O) : Pipeline.RegionSeg (pcfgs (F := F)) adm (pdats O m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 O (V20 O m ρ) hs c).loose
  hwaits := Pipeline.hwaits_of_owed_zero _ _ _ _ L lv 1 fun _ _ => rfl
  pre c := iprop(StableHlo.held (c : Thread nD τ) (Pipeline.ucRefs τ sig) (W20 O m ρ c) ∗ R c)
  post c := iprop(StableHlo.held (c : Thread nD τ) (Pipeline.ucRefs τ sig) (W21 O m ρ c) ∗ R c)
  X c := iprop(∃ r, prngReg c r)
  Y c := iprop(∃ r, prngReg c r)
  Z c := Pipeline.unscopedRest (Ix := Unit) (Name := ℕ) (U := UR sig nD τ) (Lvl := ℕ) spec1 c (V20 O m ρ c)
  hentry c := by
    rw [Pipeline.ownSems0_none]
    have hsplit := Pipeline.arrays_of_unscopedBufs (p := 1) (pcfgs (F := F)) adm (pdats O m ρ) launch1.win launch1.arr_whole c
      ((pdats O m ρ 1 c).share_full fun _ => rfl) (V20 O m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats O m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats O m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats O m ρ) ((pdats O m ρ 1 c).share_full fun _ => rfl)
      (V20 O m ρ c) (V21 O m ρ c) ((pdats O m ρ 1 c).arrAt · cfg1.N) (hF1 O m ρ c) (hrest1 O m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at W22, left at W23. -/
def reg2 (hs : Sound2 O) : Pipeline.RegionSeg (pcfgs (F := F)) adm (pdats O m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 O (V22 O m ρ) hs c).loose
  hwaits := Pipeline.hwaits_of_owed_zero _ _ _ _ L lv 2 fun _ _ => rfl
  pre c := iprop(StableHlo.held (c : Thread nD τ) (Pipeline.ucRefs τ sig) (W22 O m ρ c) ∗ R c)
  post c := iprop(StableHlo.held (c : Thread nD τ) (Pipeline.ucRefs τ sig) (W23 O m ρ c) ∗ R c)
  X c := iprop(∃ r, prngReg c r)
  Y c := iprop(∃ r, prngReg c r)
  Z c := Pipeline.unscopedRest (Ix := Unit) (Name := ℕ) (U := UR sig nD τ) (Lvl := ℕ) spec2 c (V22 O m ρ c)
  hentry c := by
    rw [Pipeline.ownSems0_none]
    have hsplit := Pipeline.arrays_of_unscopedBufs (p := 2) (pcfgs (F := F)) adm (pdats O m ρ) launch2.win launch2.arr_whole c
      ((pdats O m ρ 2 c).share_full fun _ => rfl) (V22 O m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats O m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats O m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats O m ρ) ((pdats O m ρ 2 c).share_full fun _ => rfl)
      (V22 O m ρ c) (V23 O m ρ c) ((pdats O m ρ 2 c).arrAt · cfg2.N) (hF2 O m ρ c) (hrest2 O m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 24 items in order: a host segment per stretch from its boundary's contents, a region per pallas_call. -/
abbrev segs (hs0 : Sound0 O) (hs1 : Sound1 O) (hs2 : Sound2 O) : List (Pipeline.Seg (pcfgs (F := F)) adm (pdats O m ρ) () defs₀ 𝒱₀ L lv) :=
  [ .host (hseg main_part0_ops0 main_part0_ops0_sub main_part0_ops0_fresh (W0 m ρ)),
    .host (hseg main_part0_ops1 main_part0_ops1_sub main_part0_ops1_fresh (W1 m ρ)),
    .host (hseg main_part0_ops2 main_part0_ops2_sub main_part0_ops2_fresh (W2 m ρ)),
    .host (hseg main_part0_ops3 main_part0_ops3_sub main_part0_ops3_fresh (W3 m ρ)),
    .host (hseg main_part0_ops4 main_part0_ops4_sub main_part0_ops4_fresh (W4 m ρ)),
    .host (hseg main_part0_ops5 main_part0_ops5_sub main_part0_ops5_fresh (W5 m ρ)),
    .host (hseg main_part0_ops6 main_part0_ops6_sub main_part0_ops6_fresh (W6 m ρ)),
    .host (hseg main_part0_ops7 main_part0_ops7_sub main_part0_ops7_fresh (W7 m ρ)),
    .host (hseg main_part0_ops8 main_part0_ops8_sub main_part0_ops8_fresh (W8 m ρ)),
    .host (hseg main_part0_ops9 main_part0_ops9_sub main_part0_ops9_fresh (W9 m ρ)),
    .host (hseg main_part0_ops10 main_part0_ops10_sub main_part0_ops10_fresh (W10 m ρ)),
    .host (hseg main_part1_ops0 main_part1_ops0_sub main_part1_ops0_fresh (W11 m ρ)),
    .host (hseg main_part2_ops0 main_part2_ops0_sub main_part2_ops0_fresh (W12 m ρ)),
    .host (hseg main_part3_ops0 main_part3_ops0_sub main_part3_ops0_fresh (W13 m ρ)),
    .host (hseg main_part4_ops0 main_part4_ops0_sub main_part4_ops0_fresh (W14 m ρ)),
    .host (hseg main_part5_ops0 main_part5_ops0_sub main_part5_ops0_fresh (W15 m ρ)),
    .host (hseg main_part6_ops0 main_part6_ops0_sub main_part6_ops0_fresh (W16 m ρ)),
    .region (reg0 O m ρ hs0),
    .host (hseg main_part6_ops1 main_part6_ops1_sub main_part6_ops1_fresh (W18 O m ρ)),
    .host (hseg main_part7_ops0 main_part7_ops0_sub main_part7_ops0_fresh (W19 O m ρ)),
    .region (reg1 O m ρ hs1),
    .host (hseg main_part7_ops1 main_part7_ops1_sub main_part7_ops1_fresh (W21 O m ρ)),
    .region (reg2 O m ρ hs2),
    .host (hseg main_part7_ops2 main_part7_ops2_sub main_part7_ops2_fresh (W23 O m ρ)) ]
/-- @main IS the run of the segments: its items' chain, then the segments' run against that chain. -/
theorem main_run (hs0 : Sound0 O) (hs1 : Sound1 O) (hs2 : Sound2 O) (c : Dev nD) : main (F := F) c = Pipeline.Seg.run (segs O m ρ hs0 hs1 hs2) := (main_chain_windows c).trans (by chain_rfl)

set_option backward.isDefEq.respectTransparency.types false in
/-- THE RUN: from any memory with zero counters, every weakly fair execution of @main on the TensorCores terminates, nothing
    faulting, and every final state holds each unscoped buffer at the last boundary's contents. -/
theorem run (hs0 : Sound0 O) (hs1 : Sound1 O) (hs2 : Sound2 O) : θ_run defs (onTc (τ := τ) (main (F := F))) ⟨m, fun _ => 0, ρ⟩ (fun r => ∀ c : Dev nD,
      ∀ b ∈ Pipeline.ucRefs τ sig, r.2.mem (((c : Thread nD τ)).1, b) = W24 O m ρ c b) :=
  Pipeline.θ_run_regions_kit (pcfgs (F := F)) adm (pdats O m ρ) () cellOf_inj emb₁ defs₀ 𝒱₀ L lv m ρ main (segs O m ρ hs0 hs1 hs2)
    (fun c Q => by rw [main_run O m ρ hs0 hs1 hs2 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ O m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => show
        iprop(StableHlo.held (c : Thread nD τ) (Pipeline.ucRefs τ sig) (W24 O m ρ c) ∗ ((∃ r, prngReg c r) ∗ ∃ W, owes (c : Thread nD τ) (0 : CellTallies nD τ sig Unit) W))
          ⊢ iprop(iprop(StableHlo.held (c : Thread nD τ) (Pipeline.ucRefs τ sig) (W24 O m ρ c) ∗ ∃ r, prngReg c r) ∗ ∃ W, owes (c : Thread nD τ) (0 : CellTallies nD τ sig Unit) W) from by
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 O m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 O m ρ c) s')
      isplitl [Hh] <;> iassumption)
    (hQ := fun s h c => h c)

end Cert.KernelIdeal.Run

end
-- ==== Proof.KernelIdealHostWrites.lean ====
import proofs.«157750_g2000200144022539_pallasbulk_675_13_alg».proof.Proof.Gen.KernelIdeal.Launch
import Idealize.ShloMosaic.Lib.StableHlo.Run

set_option maxRecDepth 16384

noncomputable section

namespace Cert.KernelIdeal.Host

open Idealize.ShloMosaic Idealize.ShloMosaic.TcCoe
open Cert.KernelIdeal Cert.KernelIdeal.Gen

variable {F : FTy → Type} [FloatOps F]

theorem writes_in_order {Val : EltTy → Type} (l : List (HloOp τ sig Val)) (W : List (Ref sig .tc))
    (h : (l.map fun op => op.writes) = W.map fun r => ({Proc.devRef (τ := τ) .tc r} : Finset (DevRef τ sig))) :
    l.Forall fun op => op.writes ⊆ (W.map (Proc.devRef (τ := τ) .tc)).toFinset := by
  rw [List.forall_iff_forall_mem]
  intro op hop
  have hm := List.mem_map_of_mem (f := fun op : HloOp τ sig Val => op.writes) hop
  rw [h] at hm
  obtain ⟨r, hr, e⟩ := List.mem_map.mp hm
  rw [← e, Finset.singleton_subset_iff, List.mem_toFinset]
  exact List.mem_map_of_mem hr

abbrev main_part0_ops0_W : List (Ref sig .tc) :=
  [main_v0, main_v1, main_v2, main_v3, main_v4, main_c]
theorem main_part0_ops0_writes : (main_part0_ops0 : List (HloOp τ sig (Elt F))).Forall fun op => op.writes ⊆ (main_part0_ops0_W.map (Proc.devRef (τ := τ) .tc)).toFinset :=
  writes_in_order _ _ rfl

abbrev main_part0_ops1_W : List (Ref sig .tc) :=
  [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v5]
theorem main_part0_ops1_writes : (main_part0_ops1 : List (HloOp τ sig (Elt F))).Forall fun op => op.writes ⊆ (main_part0_ops1_W.map (Proc.devRef (τ := τ) .tc)).toFinset :=
  writes_in_order _ _ rfl

abbrev main_part0_ops2_W : List (Ref sig .tc) :=
  [main_c_0, main_v6, main_v7, main_c_1]
theorem main_part0_ops2_writes : (main_part0_ops2 : List (HloOp τ sig (Elt F))).Forall fun op => op.writes ⊆ (main_part0_ops2_W.map (Proc.devRef (τ := τ) .tc)).toFinset :=
  writes_in_order _ _ rfl

abbrev main_part0_ops3_W : List (Ref sig .tc) :=
  [main_call1_v0, main_call1_c, main_call1_v1, main_call1_c_0, main_call1_v2, main_call1_v3, main_call1_v4, main_call1_c_1, main_call1_v5, main_call1_v6, main_call1_c_2, main_call1_v7, main_call1_v8, main_call1_c_3, main_call1_v9, main_call1_v10, main_call1_v11, main_call1_v12, main_call1_v13, main_call1_v14, main_v8]
theorem main_part0_ops3_writes : (main_part0_ops3 : List (HloOp τ sig (Elt F))).Forall fun op => op.writes ⊆ (main_part0_ops3_W.map (Proc.devRef (τ := τ) .tc)).toFinset :=
  writes_in_order _ _ rfl

abbrev main_part0_ops4_W : List (Ref sig .tc) :=
  [main_c_2, main_v9, main_v10, main_v11, main_v12, main_v13, main_v14, main_v15, main_v16, main_c_3, main_v17, main_v18, main_c_4]
theorem main_part0_ops4_writes : (main_part0_ops4 : List (HloOp τ sig (Elt F))).Forall fun op => op.writes ⊆ (main_part0_ops4_W.map (Proc.devRef (τ := τ) .tc)).toFinset :=
  writes_in_order _ _ rfl

abbrev main_part0_ops5_W : List (Ref sig .tc) :=
  [main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v19]
theorem main_part0_ops5_writes : (main_part0_ops5 : List (HloOp τ sig (Elt F))).Forall fun op => op.writes ⊆ (main_part0_ops5_W.map (Proc.devRef (τ := τ) .tc)).toFinset :=
  writes_in_order _ _ rfl

abbrev main_part0_ops6_W : List (Ref sig .tc) :=
  [main_c_5]
theorem main_part0_ops6_writes : (main_part0_ops6 : List (HloOp τ sig (Elt F))).Forall fun op => op.writes ⊆ (main_part0_ops6_W.map (Proc.devRef (τ := τ) .tc)).toFinset :=
  writes_in_order _ _ rfl

abbrev main_part0_ops7_W : List (Ref sig .tc) :=
  [main_call3_v0, main_call3_c, main_call3_v1, main_call3_c_0, main_call3_v2, main_call3_v3, main_call3_v4, main_call3_c_1, main_call3_v5, main_call3_v6, main_call3_c_2, main_call3_v7, main_call3_v8, main_call3_c_3, main_call3_v9, main_call3_v10, main_call3_v11, main_call3_v12, main_call3_v13, main_call3_v14, main_v20]
theorem main_part0_ops7_writes : (main_part0_ops7 : List (HloOp τ sig (Elt F))).Forall fun op => op.writes ⊆ (main_part0_ops7_W.map (Proc.devRef (τ := τ) .tc)).toFinset :=
  writes_in_order _ _ rfl

abbrev main_part0_ops8_W : List (Ref sig .tc) :=
  [main_c_6]
theorem main_part0_ops8_writes : (main_part0_ops8 : List (HloOp τ sig (Elt F))).Forall fun op => op.writes ⊆ (main_part0_ops8_W.map (Proc.devRef (τ := τ) .tc)).toFinset :=
  writes_in_order _ _ rfl

abbrev main_part0_ops9_W : List (Ref sig .tc) :=
  [main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v21]
theorem main_part0_ops9_writes : (main_part0_ops9 : List (HloOp τ sig (Elt F))).Forall fun op => op.writes ⊆ (main_part0_ops9_W.map (Proc.devRef (τ := τ) .tc)).toFinset :=
  writes_in_order _ _ rfl

abbrev main_part0_ops10_W : List (Ref sig .tc) :=
  [main_c_7, main_v22, main_v23, main_c_8, main_v24, main_v25, main_c_9, main_v26, main_v27, main_c_10, main_v28, main_v29, main_c_11, main_v30, main_v31, main_c_12, main_v32, main_v33, main_v34, main_c_13, main_v35, main_v36, main_c_14, main_v37, main_v38, main_c_15, main_v39, main_v40, main_v41, main_c_16]
theorem main_part0_ops10_writes : (main_part0_ops10 : List (HloOp τ sig (Elt F))).Forall fun op => op.writes ⊆ (main_part0_ops10_W.map (Proc.devRef (τ := τ) .tc)).toFinset :=
  writes_in_order _ _ rfl

abbrev main_part1_ops0_W : List (Ref sig .tc) :=
  [main_v42, main_v43, main_c_17, main_v44, main_v45, main_c_18, main_v46, main_v47, main_v48, main_c_19, main_v49, main_v50, main_c_20, main_v51, main_v52, main_c_21, main_v53, main_v54, main_c_22, main_v55, main_v56, main_c_23, main_v57, main_v58, main_c_24, main_v59, main_v60, main_v61, main_c_25, main_v62, main_v63, main_c_26, main_v64, main_v65, main_c_27, main_v66, main_v67, main_v68, main_c_28, main_v69, main_v70, main_c_29, main_v71, main_v72, main_c_30, main_v73, main_v74, main_v75, main_c_31, main_v76, main_v77, main_c_32, main_v78, main_v79, main_c_33, main_v80, main_v81, main_c_34, main_v82, main_v83]
theorem main_part1_ops0_writes : (main_part1_ops0 : List (HloOp τ sig (Elt F))).Forall fun op => op.writes ⊆ (main_part1_ops0_W.map (Proc.devRef (τ := τ) .tc)).toFinset :=
  writes_in_order _ _ rfl

abbrev main_part2_ops0_W : List (Ref sig .tc) :=
  [main_c_35, main_v84, main_v85, main_c_36, main_v86, main_v87, main_v88, main_c_37, main_v89, main_v90, main_c_38, main_v91, main_v92, main_c_39, main_v93, main_v94, main_v95, main_c_40, main_v96, main_v97, main_c_41, main_v98, main_v99, main_c_42, main_v100, main_v101, main_v102, main_c_43, main_v103, main_v104, main_c_44, main_v105, main_v106, main_c_45, main_v107, main_v108, main_c_46, main_v109, main_v110, main_c_47, main_v111, main_v112, main_c_48, main_v113, main_v114, main_v115, main_c_49, main_v116, main_v117, main_c_50, main_v118, main_v119, main_c_51, main_v120, main_v121, main_v122, main_c_52, main_v123, main_v124, main_c_53]
theorem main_part2_ops0_writes : (main_part2_ops0 : List (HloOp τ sig (Elt F))).Forall fun op => op.writes ⊆ (main_part2_ops0_W.map (Proc.devRef (τ := τ) .tc)).toFinset :=
  writes_in_order _ _ rfl

abbrev main_part3_ops0_W : List (Ref sig .tc) :=
  [main_v125, main_v126, main_c_54, main_v127, main_v128, main_v129, main_c_55, main_v130, main_v131, main_c_56, main_v132, main_v133, main_c_57, main_v134, main_v135, main_c_58, main_v136, main_v137, main_c_59, main_v138, main_v139, main_c_60, main_v140, main_v141, main_v142, main_c_61, main_v143, main_v144, main_c_62, main_v145, main_v146, main_c_63, main_v147, main_v148, main_v149, main_c_64, main_v150, main_v151, main_c_65, main_v152, main_v153, main_c_66, main_v154, main_v155, main_v156, main_c_67, main_v157, main_v158, main_c_68, main_v159, main_v160, main_c_69, main_v161, main_v162, main_c_70, main_v163, main_v164, main_c_71, main_v165, main_v166]
theorem main_part3_ops0_writes : (main_part3_ops0 : List (HloOp τ sig (Elt F))).Forall fun op => op.writes ⊆ (main_part3_ops0_W.map (Proc.devRef (τ := τ) .tc)).toFinset :=
  writes_in_order _ _ rfl

abbrev main_part4_ops0_W : List (Ref sig .tc) :=
  [main_c_72, main_v167, main_v168, main_v169, main_c_73, main_v170, main_v171, main_c_74, main_v172, main_v173, main_c_75, main_v174, main_v175, main_v176, main_c_76, main_v177, main_v178, main_c_77, main_v179, main_v180, main_c_78, main_v181, main_v182, main_v183, main_c_79, main_v184, main_v185, main_c_80, main_v186, main_v187, main_c_81, main_v188, main_v189, main_c_82, main_v190, main_v191, main_c_83, main_v192, main_v193, main_c_84, main_v194, main_v195, main_v196, main_c_85, main_v197, main_v198, main_c_86, main_v199, main_v200, main_c_87, main_v201, main_v202, main_v203, main_c_88, main_v204, main_v205, main_c_89, main_v206, main_v207, main_c_90]
theorem main_part4_ops0_writes : (main_part4_ops0 : List (HloOp τ sig (Elt F))).Forall fun op => op.writes ⊆ (main_part4_ops0_W.map (Proc.devRef (τ := τ) .tc)).toFinset :=
  writes_in_order _ _ rfl

abbrev main_part5_ops0_W : List (Ref sig .tc) :=
  [main_v208, main_v209, main_v210, main_c_91, main_v211, main_v212, main_c_92, main_v213, main_v214, main_c_93, main_v215, main_v216, main_c_94, main_v217, main_v218, main_c_95, main_v219, main_v220, main_c_96, main_v221, main_v222, main_v223, main_c_97, main_v224, main_v225, main_c_98, main_v226, main_v227, main_c_99, main_v228, main_v229, main_v230, main_c_100, main_v231, main_v232, main_c_101, main_v233, main_v234, main_c_102, main_v235, main_v236, main_v237, main_c_103, main_v238, main_v239, main_c_104, main_v240, main_v241, main_c_105, main_v242, main_v243, main_c_106, main_v244, main_v245, main_c_107, main_v246, main_v247, main_c_108, main_v248, main_v249]
theorem main_part5_ops0_writes : (main_part5_ops0 : List (HloOp τ sig (Elt F))).Forall fun op => op.writes ⊆ (main_part5_ops0_W.map (Proc.devRef (τ := τ) .tc)).toFinset :=
  writes_in_order _ _ rfl

abbrev main_part6_ops0_W : List (Ref sig .tc) :=
  [main_v250, main_c_109, main_v251, main_v252, main_c_110, main_v253, main_v254, main_c_111, main_v255, main_v256, main_v257, main_c_112, main_v258, main_v259, main_c_113, main_v260, main_v261, main_c_114, main_v262, main_v263, main_v264, main_v265, main_v266, main_v267, main_v268, main_v269, main_v270, main_v271, main_v272, main_v273, main_v274, main_v275, main_v276, main_c_115, main_v277, main_v278, main_c_116, main_v279, main_v280, main_v281, main_v282, main_v283, main_v284, main_v285, main_v286, main_v287, main_v288, main_v289, main_v290, main_v291, main_v292, main_v293]
theorem main_part6_ops0_writes : (main_part6_ops0 : List (HloOp τ sig (Elt F))).Forall fun op => op.writes ⊆ (main_part6_ops0_W.map (Proc.devRef (τ := τ) .tc)).toFinset :=
  writes_in_order _ _ rfl

abbrev main_part6_ops1_W : List (Ref sig .tc) :=
  [main_v295, main_cst, main_v296, main_v297, main_cst_117, main_v298, main_cst_118]
theorem main_part6_ops1_writes : (main_part6_ops1 : List (HloOp τ sig (Elt F))).Forall fun op => op.writes ⊆ (main_part6_ops1_W.map (Proc.devRef (τ := τ) .tc)).toFinset :=
  writes_in_order _ _ rfl

abbrev main_part7_ops0_W : List (Ref sig .tc) :=
  [main_v299, main_v300, main_cst_119, main_v301, main_v302, main_v303, main_v304, main_cst_120, main_v305, main_v306, main_v307, main_v308, main_v309, main_v310, main_v311, main_v312]
theorem main_part7_ops0_writes : (main_part7_ops0 : List (HloOp τ sig (Elt F))).Forall fun op => op.writes ⊆ (main_part7_ops0_W.map (Proc.devRef (τ := τ) .tc)).toFinset :=
  writes_in_order _ _ rfl

abbrev main_part7_ops1_W : List (Ref sig .tc) :=
  [main_v314, main_cst_121, main_v315, main_v316, main_cst_122, main_v317, main_cst_123, main_v318, main_v319, main_cst_124, main_v320, main_v321, main_v322, main_v323, main_cst_125, main_v324, main_v325, main_v326, main_v327, main_v328, main_v329, main_v330, main_v331]
theorem main_part7_ops1_writes : (main_part7_ops1 : List (HloOp τ sig (Elt F))).Forall fun op => op.writes ⊆ (main_part7_ops1_W.map (Proc.devRef (τ := τ) .tc)).toFinset :=
  writes_in_order _ _ rfl

abbrev main_part7_ops2_W : List (Ref sig .tc) :=
  [main_v333]
theorem main_part7_ops2_writes : (main_part7_ops2 : List (HloOp τ sig (Elt F))).Forall fun op => op.writes ⊆ (main_part7_ops2_W.map (Proc.devRef (τ := τ) .tc)).toFinset :=
  writes_in_order _ _ rfl

end Cert.KernelIdeal.Host

end
-- ==== Proof.KernelIdealKeep.lean ====
/- No item of @main writes an argument array (the table of what each host stretch writes is its own module): a kernel region writes only the
   arrays of its windows, and no argument is an output window's array. So the contents at the last boundary, read at an
   argument, are the launch contents. -/
import proofs.«157750_g2000200144022539_pallasbulk_675_13_alg».proof.Proof.KernelIdealRun
import proofs.«157750_g2000200144022539_pallasbulk_675_13_alg».proof.Proof.KernelIdealHostWrites

set_option maxRecDepth 16384

noncomputable section

namespace Cert.KernelIdeal.Run

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]

/-- The argument arrays. -/
abbrev argRefs : List (Ref sig .tc) := [main_arg0, main_arg1, main_arg2, main_arg3, main_arg4, main_arg5, main_arg6]

variable (O : Outs F) (m : (ℓ : Loc nD τ sig) → Buf (Elt F) ℓ) (ρ : Dev nD → PrngReg)

/-- Every argument array reaches the last boundary as launched. -/
theorem arg_kept (c : Dev nD) (r : Ref sig .tc) (hr : r ∈ argRefs) : W24 O m ρ c (Proc.devRef .tc r) = m ((c : Thread nD τ).loc r) := by
  have hr' := hr
  simp only [argRefs, List.mem_cons, List.mem_nil_iff, List.not_mem_nil, or_false] at hr'
  rcases hr' with rfl | rfl | rfl | rfl | rfl | rfl | rfl
  all_goals exact
    (StableHlo.after_of_writes_sub main_part7_ops2 _ Cert.KernelIdeal.Host.main_part7_ops2_writes (by decide)).trans <|
    (W23_of_ne O m ρ c _ (by decide)).trans <|
    (StableHlo.after_of_writes_sub main_part7_ops1 _ Cert.KernelIdeal.Host.main_part7_ops1_writes (by decide)).trans <|
    (W21_of_ne O m ρ c _ (by decide)).trans <|
    (StableHlo.after_of_writes_sub main_part7_ops0 _ Cert.KernelIdeal.Host.main_part7_ops0_writes (by decide)).trans <|
    (StableHlo.after_of_writes_sub main_part6_ops1 _ Cert.KernelIdeal.Host.main_part6_ops1_writes (by decide)).trans <|
    (W18_of_ne O m ρ c _ (by decide)).trans <|
    (StableHlo.after_of_writes_sub main_part6_ops0 _ Cert.KernelIdeal.Host.main_part6_ops0_writes (by decide)).trans <|
    (StableHlo.after_of_writes_sub main_part5_ops0 _ Cert.KernelIdeal.Host.main_part5_ops0_writes (by decide)).trans <|
    (StableHlo.after_of_writes_sub main_part4_ops0 _ Cert.KernelIdeal.Host.main_part4_ops0_writes (by decide)).trans <|
    (StableHlo.after_of_writes_sub main_part3_ops0 _ Cert.KernelIdeal.Host.main_part3_ops0_writes (by decide)).trans <|
    (StableHlo.after_of_writes_sub main_part2_ops0 _ Cert.KernelIdeal.Host.main_part2_ops0_writes (by decide)).trans <|
    (StableHlo.after_of_writes_sub main_part1_ops0 _ Cert.KernelIdeal.Host.main_part1_ops0_writes (by decide)).trans <|
    (StableHlo.after_of_writes_sub main_part0_ops10 _ Cert.KernelIdeal.Host.main_part0_ops10_writes (by decide)).trans <|
    (StableHlo.after_of_writes_sub main_part0_ops9 _ Cert.KernelIdeal.Host.main_part0_ops9_writes (by decide)).trans <|
    (StableHlo.after_of_writes_sub main_part0_ops8 _ Cert.KernelIdeal.Host.main_part0_ops8_writes (by decide)).trans <|
    (StableHlo.after_of_writes_sub main_part0_ops7 _ Cert.KernelIdeal.Host.main_part0_ops7_writes (by decide)).trans <|
    (StableHlo.after_of_writes_sub main_part0_ops6 _ Cert.KernelIdeal.Host.main_part0_ops6_writes (by decide)).trans <|
    (StableHlo.after_of_writes_sub main_part0_ops5 _ Cert.KernelIdeal.Host.main_part0_ops5_writes (by decide)).trans <|
    (StableHlo.after_of_writes_sub main_part0_ops4 _ Cert.KernelIdeal.Host.main_part0_ops4_writes (by decide)).trans <|
    (StableHlo.after_of_writes_sub main_part0_ops3 _ Cert.KernelIdeal.Host.main_part0_ops3_writes (by decide)).trans <|
    (StableHlo.after_of_writes_sub main_part0_ops2 _ Cert.KernelIdeal.Host.main_part0_ops2_writes (by decide)).trans <|
    (StableHlo.after_of_writes_sub main_part0_ops1 _ Cert.KernelIdeal.Host.main_part0_ops1_writes (by decide)).trans <|
    (StableHlo.after_of_writes_sub main_part0_ops0 _ Cert.KernelIdeal.Host.main_part0_ops0_writes (by decide)).trans rfl

end Cert.KernelIdeal.Run

end
-- ==== Proof.KernelIdealBody0Defs.lean ====
import proofs.«157750_g2000200144022539_pallasbulk_675_13_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-! # Region 0: pooling fused into the first convolution, with the two row sums

One grid point handles one batch element. The input block `x1` is `[1, 32, 32768]` (channel, lane `= (d·32 + h)·32 + w`);
`x2` is the `[1024, 256]` selection matrix, `x3` the three folded weight slabs `[3, 64, 288]`, `x4` the nine border masks
`[9, 4608]`. The body fills three scratch buffers in turn, each wholly before it is read: the pooling scratch
`[512, 1024]` (row `32·do + c`), the halo'd row `[32, 4864]` and the column scratch `[288, 4608]` (row `32·t + c`); then it
stores the output row `[1, 64, 4864]` in three pieces and the two sums `[1, 64, 1]`. Each scratch, read back after its
stores, is ONE function of the input blocks: the canon of its pieces. -/

/-! ## The rectangles of the body's accesses -/

/-- The two depth slabs `2k`, `2k+1` of the input block: lanes `2048k … 2048k+2047`. -/
abbrev rx0 : Rect S1x32x32768 := Rect.unit (s := S1x32x32768) ![0, 0, 0] S1x32x2048.size inb_S1x32x32768_S1x32x2048_0_0_0
abbrev rx1 : Rect S1x32x32768 := Rect.unit (s := S1x32x32768) ![0, 0, 2048] S1x32x2048.size inb_S1x32x32768_S1x32x2048_0_0_2048
abbrev rx2 : Rect S1x32x32768 := Rect.unit (s := S1x32x32768) ![0, 0, 4096] S1x32x2048.size inb_S1x32x32768_S1x32x2048_0_0_4096
abbrev rx3 : Rect S1x32x32768 := Rect.unit (s := S1x32x32768) ![0, 0, 6144] S1x32x2048.size inb_S1x32x32768_S1x32x2048_0_0_6144
abbrev rx4 : Rect S1x32x32768 := Rect.unit (s := S1x32x32768) ![0, 0, 8192] S1x32x2048.size inb_S1x32x32768_S1x32x2048_0_0_8192
abbrev rx5 : Rect S1x32x32768 := Rect.unit (s := S1x32x32768) ![0, 0, 10240] S1x32x2048.size inb_S1x32x32768_S1x32x2048_0_0_10240
abbrev rx6 : Rect S1x32x32768 := Rect.unit (s := S1x32x32768) ![0, 0, 12288] S1x32x2048.size inb_S1x32x32768_S1x32x2048_0_0_12288
abbrev rx7 : Rect S1x32x32768 := Rect.unit (s := S1x32x32768) ![0, 0, 14336] S1x32x2048.size inb_S1x32x32768_S1x32x2048_0_0_14336
abbrev rx8 : Rect S1x32x32768 := Rect.unit (s := S1x32x32768) ![0, 0, 16384] S1x32x2048.size inb_S1x32x32768_S1x32x2048_0_0_16384
abbrev rx9 : Rect S1x32x32768 := Rect.unit (s := S1x32x32768) ![0, 0, 18432] S1x32x2048.size inb_S1x32x32768_S1x32x2048_0_0_18432
abbrev rx10 : Rect S1x32x32768 := Rect.unit (s := S1x32x32768) ![0, 0, 20480] S1x32x2048.size inb_S1x32x32768_S1x32x2048_0_0_20480
abbrev rx11 : Rect S1x32x32768 := Rect.unit (s := S1x32x32768) ![0, 0, 22528] S1x32x2048.size inb_S1x32x32768_S1x32x2048_0_0_22528
abbrev rx12 : Rect S1x32x32768 := Rect.unit (s := S1x32x32768) ![0, 0, 24576] S1x32x2048.size inb_S1x32x32768_S1x32x2048_0_0_24576
abbrev rx13 : Rect S1x32x32768 := Rect.unit (s := S1x32x32768) ![0, 0, 26624] S1x32x2048.size inb_S1x32x32768_S1x32x2048_0_0_26624
abbrev rx14 : Rect S1x32x32768 := Rect.unit (s := S1x32x32768) ![0, 0, 28672] S1x32x2048.size inb_S1x32x32768_S1x32x2048_0_0_28672
abbrev rx15 : Rect S1x32x32768 := Rect.unit (s := S1x32x32768) ![0, 0, 30720] S1x32x2048.size inb_S1x32x32768_S1x32x2048_0_0_30720

/-- Rows `32k … 32k+31` of the pooling scratch (output depth `k`). -/
abbrev rp0 : Rect S512x1024 := Rect.unit (s := S512x1024) ![0, 0] S32x1024.size inb_S512x1024_S32x1024_0_0
abbrev rp1 : Rect S512x1024 := Rect.unit (s := S512x1024) ![32, 0] S32x1024.size inb_S512x1024_S32x1024_32_0
abbrev rp2 : Rect S512x1024 := Rect.unit (s := S512x1024) ![64, 0] S32x1024.size inb_S512x1024_S32x1024_64_0
abbrev rp3 : Rect S512x1024 := Rect.unit (s := S512x1024) ![96, 0] S32x1024.size inb_S512x1024_S32x1024_96_0
abbrev rp4 : Rect S512x1024 := Rect.unit (s := S512x1024) ![128, 0] S32x1024.size inb_S512x1024_S32x1024_128_0
abbrev rp5 : Rect S512x1024 := Rect.unit (s := S512x1024) ![160, 0] S32x1024.size inb_S512x1024_S32x1024_160_0
abbrev rp6 : Rect S512x1024 := Rect.unit (s := S512x1024) ![192, 0] S32x1024.size inb_S512x1024_S32x1024_192_0
abbrev rp7 : Rect S512x1024 := Rect.unit (s := S512x1024) ![224, 0] S32x1024.size inb_S512x1024_S32x1024_224_0
abbrev rp8 : Rect S512x1024 := Rect.unit (s := S512x1024) ![256, 0] S32x1024.size inb_S512x1024_S32x1024_256_0
abbrev rp9 : Rect S512x1024 := Rect.unit (s := S512x1024) ![288, 0] S32x1024.size inb_S512x1024_S32x1024_288_0
abbrev rp10 : Rect S512x1024 := Rect.unit (s := S512x1024) ![320, 0] S32x1024.size inb_S512x1024_S32x1024_320_0
abbrev rp11 : Rect S512x1024 := Rect.unit (s := S512x1024) ![352, 0] S32x1024.size inb_S512x1024_S32x1024_352_0
abbrev rp12 : Rect S512x1024 := Rect.unit (s := S512x1024) ![384, 0] S32x1024.size inb_S512x1024_S32x1024_384_0
abbrev rp13 : Rect S512x1024 := Rect.unit (s := S512x1024) ![416, 0] S32x1024.size inb_S512x1024_S32x1024_416_0
abbrev rp14 : Rect S512x1024 := Rect.unit (s := S512x1024) ![448, 0] S32x1024.size inb_S512x1024_S32x1024_448_0
abbrev rp15 : Rect S512x1024 := Rect.unit (s := S512x1024) ![480, 0] S32x1024.size inb_S512x1024_S32x1024_480_0
/-- The whole pooling scratch, and the whole selection matrix. -/
abbrev rpAll : Rect S512x1024 := Rect.unit (s := S512x1024) ![0, 0] S512x1024.size inb_S512x1024_S512x1024_0_0
abbrev rsel : Rect S1024x256 := Rect.unit (s := S1024x256) ![0, 0] S1024x256.size inb_S1024x256_S1024x256_0_0

/-- The halo'd row: its zero head (lanes 0…383), the 16 depth slabs (256 lanes each from lane 384), its zero tail (lanes 4480…4863). -/
abbrev rhHead : Rect S32x4864 := Rect.unit (s := S32x4864) ![0, 0] S32x384.size inb_S32x4864_S32x384_0_0
abbrev rhTail : Rect S32x4864 := Rect.unit (s := S32x4864) ![0, 4480] S32x384.size inb_S32x4864_S32x384_0_4480
abbrev rh0 : Rect S32x4864 := Rect.unit (s := S32x4864) ![0, 384] S32x256.size inb_S32x4864_S32x256_0_384
abbrev rh1 : Rect S32x4864 := Rect.unit (s := S32x4864) ![0, 640] S32x256.size inb_S32x4864_S32x256_0_640
abbrev rh2 : Rect S32x4864 := Rect.unit (s := S32x4864) ![0, 896] S32x256.size inb_S32x4864_S32x256_0_896
abbrev rh3 : Rect S32x4864 := Rect.unit (s := S32x4864) ![0, 1152] S32x256.size inb_S32x4864_S32x256_0_1152
abbrev rh4 : Rect S32x4864 := Rect.unit (s := S32x4864) ![0, 1408] S32x256.size inb_S32x4864_S32x256_0_1408
abbrev rh5 : Rect S32x4864 := Rect.unit (s := S32x4864) ![0, 1664] S32x256.size inb_S32x4864_S32x256_0_1664
abbrev rh6 : Rect S32x4864 := Rect.unit (s := S32x4864) ![0, 1920] S32x256.size inb_S32x4864_S32x256_0_1920
abbrev rh7 : Rect S32x4864 := Rect.unit (s := S32x4864) ![0, 2176] S32x256.size inb_S32x4864_S32x256_0_2176
abbrev rh8 : Rect S32x4864 := Rect.unit (s := S32x4864) ![0, 2432] S32x256.size inb_S32x4864_S32x256_0_2432
abbrev rh9 : Rect S32x4864 := Rect.unit (s := S32x4864) ![0, 2688] S32x256.size inb_S32x4864_S32x256_0_2688
abbrev rh10 : Rect S32x4864 := Rect.unit (s := S32x4864) ![0, 2944] S32x256.size inb_S32x4864_S32x256_0_2944
abbrev rh11 : Rect S32x4864 := Rect.unit (s := S32x4864) ![0, 3200] S32x256.size inb_S32x4864_S32x256_0_3200
abbrev rh12 : Rect S32x4864 := Rect.unit (s := S32x4864) ![0, 3456] S32x256.size inb_S32x4864_S32x256_0_3456
abbrev rh13 : Rect S32x4864 := Rect.unit (s := S32x4864) ![0, 3712] S32x256.size inb_S32x4864_S32x256_0_3712
abbrev rh14 : Rect S32x4864 := Rect.unit (s := S32x4864) ![0, 3968] S32x256.size inb_S32x4864_S32x256_0_3968
abbrev rh15 : Rect S32x4864 := Rect.unit (s := S32x4864) ![0, 4224] S32x256.size inb_S32x4864_S32x256_0_4224

/-- Tap `t = 3·kh + kw`: the window of the halo'd row from lane `128 + 16·(kh−1) + (kw−1)`, its mask row, its 32 rows of the column scratch. -/
abbrev rtap0 : Rect S32x4864 := Rect.unit (s := S32x4864) ![0, 111] S32x4608.size inb_S32x4864_S32x4608_0_111
abbrev rtap1 : Rect S32x4864 := Rect.unit (s := S32x4864) ![0, 112] S32x4608.size inb_S32x4864_S32x4608_0_112
abbrev rtap2 : Rect S32x4864 := Rect.unit (s := S32x4864) ![0, 113] S32x4608.size inb_S32x4864_S32x4608_0_113
abbrev rtap3 : Rect S32x4864 := Rect.unit (s := S32x4864) ![0, 127] S32x4608.size inb_S32x4864_S32x4608_0_127
abbrev rtap4 : Rect S32x4864 := Rect.unit (s := S32x4864) ![0, 128] S32x4608.size inb_S32x4864_S32x4608_0_128
abbrev rtap5 : Rect S32x4864 := Rect.unit (s := S32x4864) ![0, 129] S32x4608.size inb_S32x4864_S32x4608_0_129
abbrev rtap6 : Rect S32x4864 := Rect.unit (s := S32x4864) ![0, 143] S32x4608.size inb_S32x4864_S32x4608_0_143
abbrev rtap7 : Rect S32x4864 := Rect.unit (s := S32x4864) ![0, 144] S32x4608.size inb_S32x4864_S32x4608_0_144
abbrev rtap8 : Rect S32x4864 := Rect.unit (s := S32x4864) ![0, 145] S32x4608.size inb_S32x4864_S32x4608_0_145
abbrev rmask0 : Rect S9x4608 := Rect.unit (s := S9x4608) ![0, 0] S1x4608.size inb_S9x4608_S1x4608_0_0
abbrev rmask1 : Rect S9x4608 := Rect.unit (s := S9x4608) ![1, 0] S1x4608.size inb_S9x4608_S1x4608_1_0
abbrev rmask2 : Rect S9x4608 := Rect.unit (s := S9x4608) ![2, 0] S1x4608.size inb_S9x4608_S1x4608_2_0
abbrev rmask3 : Rect S9x4608 := Rect.unit (s := S9x4608) ![3, 0] S1x4608.size inb_S9x4608_S1x4608_3_0
abbrev rmask5 : Rect S9x4608 := Rect.unit (s := S9x4608) ![5, 0] S1x4608.size inb_S9x4608_S1x4608_5_0
abbrev rmask6 : Rect S9x4608 := Rect.unit (s := S9x4608) ![6, 0] S1x4608.size inb_S9x4608_S1x4608_6_0
abbrev rmask7 : Rect S9x4608 := Rect.unit (s := S9x4608) ![7, 0] S1x4608.size inb_S9x4608_S1x4608_7_0
abbrev rmask8 : Rect S9x4608 := Rect.unit (s := S9x4608) ![8, 0] S1x4608.size inb_S9x4608_S1x4608_8_0
abbrev rcol0 : Rect S288x4608 := Rect.unit (s := S288x4608) ![0, 0] S32x4608.size inb_S288x4608_S32x4608_0_0
abbrev rcol1 : Rect S288x4608 := Rect.unit (s := S288x4608) ![32, 0] S32x4608.size inb_S288x4608_S32x4608_32_0
abbrev rcol2 : Rect S288x4608 := Rect.unit (s := S288x4608) ![64, 0] S32x4608.size inb_S288x4608_S32x4608_64_0
abbrev rcol3 : Rect S288x4608 := Rect.unit (s := S288x4608) ![96, 0] S32x4608.size inb_S288x4608_S32x4608_96_0
abbrev rcol4 : Rect S288x4608 := Rect.unit (s := S288x4608) ![128, 0] S32x4608.size inb_S288x4608_S32x4608_128_0
abbrev rcol5 : Rect S288x4608 := Rect.unit (s := S288x4608) ![160, 0] S32x4608.size inb_S288x4608_S32x4608_160_0
abbrev rcol6 : Rect S288x4608 := Rect.unit (s := S288x4608) ![192, 0] S32x4608.size inb_S288x4608_S32x4608_192_0
abbrev rcol7 : Rect S288x4608 := Rect.unit (s := S288x4608) ![224, 0] S32x4608.size inb_S288x4608_S32x4608_224_0
abbrev rcol8 : Rect S288x4608 := Rect.unit (s := S288x4608) ![256, 0] S32x4608.size inb_S288x4608_S32x4608_256_0

/-- Depth offset `kd`: the weight slab, and the 4096-lane window of the column scratch from lane `256·kd`. -/
abbrev rw0 : Rect S3x64x288 := Rect.unit (s := S3x64x288) ![0, 0, 0] S1x64x288.size inb_S3x64x288_S1x64x288_0_0_0
abbrev rw1 : Rect S3x64x288 := Rect.unit (s := S3x64x288) ![1, 0, 0] S1x64x288.size inb_S3x64x288_S1x64x288_1_0_0
abbrev rw2 : Rect S3x64x288 := Rect.unit (s := S3x64x288) ![2, 0, 0] S1x64x288.size inb_S3x64x288_S1x64x288_2_0_0
abbrev rkd0 : Rect S288x4608 := Rect.unit (s := S288x4608) ![0, 0] S288x4096.size inb_S288x4608_S288x4096_0_0
abbrev rkd1 : Rect S288x4608 := Rect.unit (s := S288x4608) ![0, 256] S288x4096.size inb_S288x4608_S288x4096_0_256
abbrev rkd2 : Rect S288x4608 := Rect.unit (s := S288x4608) ![0, 512] S288x4096.size inb_S288x4608_S288x4096_0_512

/-- The output row: zero head, the 4096 computed lanes from lane 384, zero tail; and the two one-column sums. -/
abbrev ryHead : Rect S1x64x4864 := Rect.unit (s := S1x64x4864) ![0, 0, 0] S1x64x384.size inb_S1x64x4864_S1x64x384_0_0_0
abbrev ryMid : Rect S1x64x4864 := Rect.unit (s := S1x64x4864) ![0, 0, 384] S1x64x4096.size inb_S1x64x4864_S1x64x4096_0_0_384
abbrev ryTail : Rect S1x64x4864 := Rect.unit (s := S1x64x4864) ![0, 0, 4480] S1x64x384.size inb_S1x64x4864_S1x64x384_0_0_4480
abbrev rsum : Rect S1x64x1 := Rect.unit (s := S1x64x1) ![0, 0, 0] S1x64x1.size inb_S1x64x1_S1x64x1_0_0_0

/-! ## The scratch contents and the outputs as functions of the input blocks -/

/-- The pooling scratch after its 16 stores (last first): rows `32k…32k+31` hold the pair-maxima of the two depth slabs `2k`, `2k+1`. -/
def pool0 (x1 : Vec F S1x32x32768 .f32) : Vec F S512x1024 .bf16 :=
  View.canon
     [⟨rp15, k0_pay25 (k0_pay22 (View.ld x1 rx15)) (k0_pay23 (View.ld x1 rx15)) (k0_pay24 (View.ld x1 rx15))⟩,
      ⟨rp14, k0_pay21 (View.ld x1 rx14)⟩,
      ⟨rp13, k0_pay20 (View.ld x1 rx13)⟩,
      ⟨rp12, k0_pay19 (View.ld x1 rx12)⟩,
      ⟨rp11, k0_pay18 (View.ld x1 rx11)⟩,
      ⟨rp10, k0_pay17 (k0_pay15 (View.ld x1 rx10)) (k0_pay16 (View.ld x1 rx10))⟩,
      ⟨rp9, k0_pay14 (View.ld x1 rx9)⟩,
      ⟨rp8, k0_pay13 (View.ld x1 rx8)⟩,
      ⟨rp7, k0_pay12 (k0_pay11 (View.ld x1 rx7))⟩,
      ⟨rp6, k0_pay10 (View.ld x1 rx6)⟩,
      ⟨rp5, k0_pay9 (View.ld x1 rx5)⟩,
      ⟨rp4, k0_pay8 (View.ld x1 rx4)⟩,
      ⟨rp3, k0_pay7 (View.ld x1 rx3)⟩,
      ⟨rp2, k0_pay6 (k0_pay4 (View.ld x1 rx2)) (k0_pay5 (View.ld x1 rx2))⟩,
      ⟨rp1, k0_pay3 (View.ld x1 rx1)⟩,
      ⟨rp0, k0_pay2 (View.ld x1 rx0)⟩]

/-- The pooled values compacted by the selection matrix: `[512, 256]`, row `32·do + c`. -/
def sel0 (x1 : Vec F S1x32x32768 .f32) (x2 : Vec F S1024x256 .bf16) : FVec F S512x256 .bf16 :=
  k0_pay26 (View.ld (pool0 x1) rpAll) (View.ld x2 rsel)

/-- The halo'd row after its 18 stores (last first): zeros on lanes 0…383 and 4480…4863, depth slab `k` on lanes `384 + 256k …`. -/
def halo0 (x1 : Vec F S1x32x32768 .f32) (x2 : Vec F S1024x256 .bf16) : Vec F S32x4864 .bf16 :=
  View.canon
     [⟨rhTail, k0_pay46⟩,
      ⟨rh15, k0_pay45 (sel0 x1 x2)⟩,
      ⟨rh14, k0_pay44 (sel0 x1 x2)⟩,
      ⟨rh13, k0_pay43 (k0_pay42 (sel0 x1 x2))⟩,
      ⟨rh12, k0_pay41 (sel0 x1 x2)⟩,
      ⟨rh11, k0_pay40 (sel0 x1 x2)⟩,
      ⟨rh10, k0_pay39 (sel0 x1 x2)⟩,
      ⟨rh9, k0_pay38 (sel0 x1 x2)⟩,
      ⟨rh8, k0_pay37 (sel0 x1 x2)⟩,
      ⟨rh7, k0_pay36 (sel0 x1 x2)⟩,
      ⟨rh6, k0_pay35 (sel0 x1 x2)⟩,
      ⟨rh5, k0_pay34 (sel0 x1 x2)⟩,
      ⟨rh4, k0_pay33 (k0_pay32 (View.ld (pool0 x1) rpAll) (View.ld x2 rsel))⟩,
      ⟨rh3, k0_pay31 (View.ld (pool0 x1) rpAll) (View.ld x2 rsel)⟩,
      ⟨rh2, k0_pay30 (View.ld (pool0 x1) rpAll) (View.ld x2 rsel)⟩,
      ⟨rh1, k0_pay29 (View.ld (pool0 x1) rpAll) (View.ld x2 rsel)⟩,
      ⟨rh0, k0_pay28 (View.ld (pool0 x1) rpAll) (View.ld x2 rsel)⟩,
      ⟨rhHead, k0_pay27⟩]

/-- The column scratch after its 9 stores (last first): rows `32t…32t+31` hold tap `t`'s window of the halo'd row times its mask row (tap 4 unmasked). -/
def cols0 (x1 : Vec F S1x32x32768 .f32) (x2 : Vec F S1024x256 .bf16) (x4 : Vec F S9x4608 .bf16) : Vec F S288x4608 .bf16 :=
  View.canon
     [⟨rcol8, k0_pay56 (View.ld (halo0 x1 x2) rtap8) (View.ld x4 rmask8)⟩,
      ⟨rcol7, k0_pay55 (View.ld (halo0 x1 x2) rtap7) (View.ld x4 rmask7)⟩,
      ⟨rcol6, k0_pay54 (k0_pay53 (View.ld (halo0 x1 x2) rtap6) (View.ld x4 rmask6))⟩,
      ⟨rcol5, k0_pay52 (View.ld (halo0 x1 x2) rtap5) (View.ld x4 rmask5)⟩,
      ⟨rcol4, k0_pay51 (View.ld (halo0 x1 x2) rtap4)⟩,
      ⟨rcol3, k0_pay50 (View.ld (halo0 x1 x2) rtap3) (View.ld x4 rmask3)⟩,
      ⟨rcol2, k0_pay49 (View.ld (halo0 x1 x2) rtap2) (View.ld x4 rmask2)⟩,
      ⟨rcol1, k0_pay48 (View.ld (halo0 x1 x2) rtap1) (View.ld x4 rmask1)⟩,
      ⟨rcol0, k0_pay47 (View.ld (halo0 x1 x2) rtap0) (View.ld x4 rmask0)⟩]

/-- The sum of the products at depth offsets 0 and 1. -/
def acc01 (x1 : Vec F S1x32x32768 .f32) (x2 : Vec F S1024x256 .bf16) (x3 : Vec F S3x64x288 .bf16) (x4 : Vec F S9x4608 .bf16) : FVec F S64x4096 .f32 :=
  k0_pay57 (View.ld x3 rw0) (View.ld (cols0 x1 x2 x4) rkd0) (View.ld x3 rw1) (View.ld (cols0 x1 x2 x4) rkd1)

/-- What the first output window's buffer (the row `y1`, `[1, 64, 4864]`) holds after the body: its three stores, last first. -/
def out0_4 (x1 : Vec F S1x32x32768 .f32) (x2 : Vec F S1024x256 .bf16) (x3 : Vec F S3x64x288 .bf16) (x4 : Vec F S9x4608 .bf16) : Vec F S1x64x4864 .bf16 :=
  View.canon
    [⟨ryTail, k0_pay61⟩,
      ⟨ryMid, k0_pay60 (acc01 x1 x2 x3 x4) (View.ld x3 rw2) (View.ld (cols0 x1 x2 x4) rkd2)⟩,
      ⟨ryHead, k0_pay59⟩]

/-- What the second output window's buffer (the row sums) holds after the body. -/
def out0_5 (x1 : Vec F S1x32x32768 .f32) (x2 : Vec F S1024x256 .bf16) (x3 : Vec F S3x64x288 .bf16) (x4 : Vec F S9x4608 .bf16) : Vec F S1x64x1 .f32 :=
  View.canon [⟨rsum, k0_pay62 (acc01 x1 x2 x3 x4) (View.ld x3 rw2) (View.ld (cols0 x1 x2 x4) rkd2)⟩]

/-- What the third output window's buffer (the row sums of squares) holds after the body. -/
def out0_6 (x1 : Vec F S1x32x32768 .f32) (x2 : Vec F S1024x256 .bf16) (x3 : Vec F S3x64x288 .bf16) (x4 : Vec F S9x4608 .bf16) : Vec F S1x64x1 .f32 :=
  View.canon [⟨rsum, k0_pay1 (k0_pay63 (acc01 x1 x2 x3 x4) (View.ld x3 rw2) (View.ld (cols0 x1 x2 x4) rkd2))⟩]

/-! ## The stores cover their buffers -/

section Covers
variable {Val : EltTy → Type}

/-- The 16 row blocks of 32 tile the pooling scratch. -/
theorem cover_pool (p0 : rp0.shape.Idx → Val .bf16) (p1 : rp1.shape.Idx → Val .bf16) (p2 : rp2.shape.Idx → Val .bf16) (p3 : rp3.shape.Idx → Val .bf16) (p4 : rp4.shape.Idx → Val .bf16) (p5 : rp5.shape.Idx → Val .bf16) (p6 : rp6.shape.Idx → Val .bf16) (p7 : rp7.shape.Idx → Val .bf16) (p8 : rp8.shape.Idx → Val .bf16) (p9 : rp9.shape.Idx → Val .bf16) (p10 : rp10.shape.Idx → Val .bf16) (p11 : rp11.shape.Idx → Val .bf16) (p12 : rp12.shape.Idx → Val .bf16) (p13 : rp13.shape.Idx → Val .bf16) (p14 : rp14.shape.Idx → Val .bf16) (p15 : rp15.shape.Idx → Val .bf16) (y : S512x1024.Idx) :
    ∃ pc ∈ ([⟨rp15, p15⟩,
      ⟨rp14, p14⟩,
      ⟨rp13, p13⟩,
      ⟨rp12, p12⟩,
      ⟨rp11, p11⟩,
      ⟨rp10, p10⟩,
      ⟨rp9, p9⟩,
      ⟨rp8, p8⟩,
      ⟨rp7, p7⟩,
      ⟨rp6, p6⟩,
      ⟨rp5, p5⟩,
      ⟨rp4, p4⟩,
      ⟨rp3, p3⟩,
      ⟨rp2, p2⟩,
      ⟨rp1, p1⟩,
      ⟨rp0, p0⟩] : List (View.Piece Val S512x1024 .bf16)), y ∈ pc.1.set :=
  View.cover_of_tiledL (s := S512x1024) _ S32x1024.size (by sl_kernel_rfl) y

/-- Head, 16 slabs and tail, cut into blocks of 128 lanes, tile the halo'd row. -/
theorem cover_halo (ph : rhHead.shape.Idx → Val .bf16) (p0 : rh0.shape.Idx → Val .bf16) (p1 : rh1.shape.Idx → Val .bf16) (p2 : rh2.shape.Idx → Val .bf16) (p3 : rh3.shape.Idx → Val .bf16) (p4 : rh4.shape.Idx → Val .bf16) (p5 : rh5.shape.Idx → Val .bf16) (p6 : rh6.shape.Idx → Val .bf16) (p7 : rh7.shape.Idx → Val .bf16) (p8 : rh8.shape.Idx → Val .bf16) (p9 : rh9.shape.Idx → Val .bf16) (p10 : rh10.shape.Idx → Val .bf16) (p11 : rh11.shape.Idx → Val .bf16) (p12 : rh12.shape.Idx → Val .bf16) (p13 : rh13.shape.Idx → Val .bf16) (p14 : rh14.shape.Idx → Val .bf16) (p15 : rh15.shape.Idx → Val .bf16) (pt : rhTail.shape.Idx → Val .bf16) (y : S32x4864.Idx) :
    ∃ pc ∈ ([⟨rhTail, pt⟩,
      ⟨rh15, p15⟩,
      ⟨rh14, p14⟩,
      ⟨rh13, p13⟩,
      ⟨rh12, p12⟩,
      ⟨rh11, p11⟩,
      ⟨rh10, p10⟩,
      ⟨rh9, p9⟩,
      ⟨rh8, p8⟩,
      ⟨rh7, p7⟩,
      ⟨rh6, p6⟩,
      ⟨rh5, p5⟩,
      ⟨rh4, p4⟩,
      ⟨rh3, p3⟩,
      ⟨rh2, p2⟩,
      ⟨rh1, p1⟩,
      ⟨rh0, p0⟩,
      ⟨rhHead, ph⟩] : List (View.Piece Val S32x4864 .bf16)), y ∈ pc.1.set :=
  View.cover_of_tiledBy _ ![32, 128] (by sl_kernel_rfl) y

/-- The 9 row blocks of 32 tile the column scratch. -/
theorem cover_cols (p0 : rcol0.shape.Idx → Val .bf16) (p1 : rcol1.shape.Idx → Val .bf16) (p2 : rcol2.shape.Idx → Val .bf16) (p3 : rcol3.shape.Idx → Val .bf16) (p4 : rcol4.shape.Idx → Val .bf16) (p5 : rcol5.shape.Idx → Val .bf16) (p6 : rcol6.shape.Idx → Val .bf16) (p7 : rcol7.shape.Idx → Val .bf16) (p8 : rcol8.shape.Idx → Val .bf16) (y : S288x4608.Idx) :
    ∃ pc ∈ ([⟨rcol8, p8⟩,
      ⟨rcol7, p7⟩,
      ⟨rcol6, p6⟩,
      ⟨rcol5, p5⟩,
      ⟨rcol4, p4⟩,
      ⟨rcol3, p3⟩,
      ⟨rcol2, p2⟩,
      ⟨rcol1, p1⟩,
      ⟨rcol0, p0⟩] : List (View.Piece Val S288x4608 .bf16)), y ∈ pc.1.set :=
  View.cover_of_tiledL (s := S288x4608) _ S32x4608.size (by sl_kernel_rfl) y

/-- Head, middle and tail, cut into blocks of 128 lanes, tile the output row. -/
theorem cover_y (ph : ryHead.shape.Idx → Val .bf16) (pm : ryMid.shape.Idx → Val .bf16) (pt : ryTail.shape.Idx → Val .bf16) (y : S1x64x4864.Idx) :
    ∃ pc ∈ ([⟨ryTail, pt⟩, ⟨ryMid, pm⟩, ⟨ryHead, ph⟩] : List (View.Piece Val S1x64x4864 .bf16)), y ∈ pc.1.set :=
  View.cover_of_tiledBy _ ![1, 64, 128] (by sl_kernel_rfl) y

/-- One store of the whole column covers it. -/
theorem cover_sum (p : rsum.shape.Idx → Val .f32) (y : S1x64x1.Idx) :
    ∃ pc ∈ ([⟨rsum, p⟩] : List (View.Piece Val S1x64x1 .f32)), y ∈ pc.1.set :=
  View.cover_of_tiled [⟨rsum, p⟩] S1x64x1.size (by rfl) y

end Covers

end Cert.KernelIdeal.Body

end
-- ==== Proof.KernelIdealBody0.lean ====
import proofs.«157750_g2000200144022539_pallasbulk_675_13_alg».proof.Proof.KernelIdealBody0Defs

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

theorem readCov_rect0 {sig' : RefSig} {κ : Kind} {sp : Space} {s : Shape} {e : EltTy} {Val : EltTy → Type} [∀ e, Nonempty (Val e)]
    (v : View sig' κ sp s e) (L : List (View.Piece Val s e)) (r : Rect s) :
    v.readCov L r.toLoadRect = View.ld (View.canon L) r :=
  View.readCov_eq_canon' v L r.toLoadRect

set_option maxHeartbeats 4000000 in

theorem sound_kernel0 (c : Dev nD) (E : Set ℕ) (i : grid0.Coords) (arg1 : Memref sig .tc .vmem S1x32x32768 .f32) (harg1 : arg1.IsWhole) (arg2 : Memref sig .tc .vmem S1024x256 .bf16) (harg2 : arg2.IsWhole) (arg3 : Memref sig .tc .vmem S3x64x288 .bf16) (harg3 : arg3.IsWhole) (arg4 : Memref sig .tc .vmem S9x4608 .bf16) (harg4 : arg4.IsWhole) (arg5 : Memref sig .tc .vmem S1x64x4864 .bf16) (harg5 : arg5.IsWhole) (arg6 : Memref sig .tc .vmem S1x64x1 .f32) (harg6 : arg6.IsWhole) (arg7 : Memref sig .tc .vmem S1x64x1 .f32) (harg7 : arg7.IsWhole) (arg8 : Memref sig .tc .vmem S512x1024 .bf16) (harg8 : arg8.IsWhole) (arg9 : Memref sig .tc .vmem S32x4864 .bf16) (harg9 : arg9.IsWhole) (arg10 : Memref sig .tc .vmem S288x4608 .bf16) (harg10 : arg10.IsWhole)
    (x1 : Vec F S1x32x32768 .f32) (x2 : Vec F S1024x256 .bf16) (x3 : Vec F S3x64x288 .bf16) (x4 : Vec F S9x4608 .bf16) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4
        ∗ (∃ d, owns (c : Thread nD τ) arg5 fullShare d) ∗ (∃ d, owns (c : Thread nD τ) arg6 fullShare d) ∗ (∃ d, owns (c : Thread nD τ) arg7 fullShare d)
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4
            ∗ owns (c : Thread nD τ) arg5 fullShare (out0_4 x1 x2 x3 x4) ∗ owns (c : Thread nD τ) arg6 fullShare (out0_5 x1 x2 x3 x4) ∗ owns (c : Thread nD τ) arg7 fullShare (out0_6 x1 x2 x3 x4)
            ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0__pool_conv1_kernel i arg1 harg1 arg2 harg2 arg3 harg3 arg4 harg4 arg5 harg5 arg6 harg6 arg7 harg7 arg8 harg8 arg9 harg9 arg10 harg10) K := by
  simp only [cc0__pool_conv1_kernel_eq_skeleton]; unfold cc0__pool_conv1_kernel_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    refine (View.read_writes_eq_canon _ _ _ (cover_y _ _ _)).trans ?_
    unfold out0_4 acc01 cols0 halo0 sel0 pool0
    sl_unfold_run_names; sl_unfold_run_names; sl_unfold_run_names
    simp only [readCov_rect0, View.readAt_eq_ld, k0_pay33, k0_pay34, k0_pay35, k0_pay36, k0_pay37, k0_pay38, k0_pay39, k0_pay40, k0_pay41, k0_pay42]
  isplitl [H6]
  · iexists _; isplitr
    swap; · iexact H6
    ipureintro
    refine (View.read_writes_eq_canon _ _ _ (cover_sum _)).trans ?_
    unfold out0_5 acc01 cols0 halo0 sel0 pool0
    sl_unfold_run_names; sl_unfold_run_names; sl_unfold_run_names
    simp only [readCov_rect0, View.readAt_eq_ld, k0_pay33, k0_pay34, k0_pay35, k0_pay36, k0_pay37, k0_pay38, k0_pay39, k0_pay40, k0_pay41, k0_pay42]
  isplitl [H7]
  · iexists _; isplitr
    swap; · iexact H7
    ipureintro
    refine (View.read_writes_eq_canon _ _ _ (cover_sum _)).trans ?_
    unfold out0_6 acc01 cols0 halo0 sel0 pool0
    sl_unfold_run_names; sl_unfold_run_names; sl_unfold_run_names
    simp only [readCov_rect0, View.readAt_eq_ld, k0_pay33, k0_pay34, k0_pay35, k0_pay36, k0_pay37, k0_pay38, k0_pay39, k0_pay40, k0_pay41, k0_pay42]
  isplitl [H8]
  · iexists _; iexists _; isplitr
    swap; · iexact H8
    ipureintro; rfl
  isplitl [H9]
  · iexists _; iexists _; isplitr
    swap; · iexact H9
    ipureintro; rfl
  iexists _; iexists _; isplitr
  swap; · iexact H10
  ipureintro; rfl

end Cert.KernelIdeal.Body

end
-- ==== Proof.KernelIdealBody1.lean ====
import proofs.«157750_g2000200144022539_pallasbulk_675_13_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev r1_x : Rect S1x64x4864 := Rect.unit (s := S1x64x4864) ![0, 0, 0] S1x64x4864.size inb_S1x64x4864_S1x64x4864_0_0_0

abbrev r1_col : Rect S64x1 := Rect.unit (s := S64x1) ![0, 0] S64x1.size inb_S64x1_S64x1_0_0

abbrev r1_valid : Rect S1x4864 := Rect.unit (s := S1x4864) ![0, 0] S1x4864.size inb_S1x4864_S1x4864_0_0

abbrev r1_xs : Rect S64x4864 := Rect.unit (s := S64x4864) ![0, 0] S64x4864.size inb_S64x4864_S64x4864_0_0

abbrev r1_tap0 : Rect S64x4864 := Rect.unit (s := S64x4864) ![0, 111] S64x4608.size inb_S64x4864_S64x4608_0_111
abbrev r1_tap1 : Rect S64x4864 := Rect.unit (s := S64x4864) ![0, 112] S64x4608.size inb_S64x4864_S64x4608_0_112
abbrev r1_tap2 : Rect S64x4864 := Rect.unit (s := S64x4864) ![0, 113] S64x4608.size inb_S64x4864_S64x4608_0_113
abbrev r1_tap3 : Rect S64x4864 := Rect.unit (s := S64x4864) ![0, 127] S64x4608.size inb_S64x4864_S64x4608_0_127
abbrev r1_tap4 : Rect S64x4864 := Rect.unit (s := S64x4864) ![0, 128] S64x4608.size inb_S64x4864_S64x4608_0_128
abbrev r1_tap5 : Rect S64x4864 := Rect.unit (s := S64x4864) ![0, 129] S64x4608.size inb_S64x4864_S64x4608_0_129
abbrev r1_tap6 : Rect S64x4864 := Rect.unit (s := S64x4864) ![0, 143] S64x4608.size inb_S64x4864_S64x4608_0_143
abbrev r1_tap7 : Rect S64x4864 := Rect.unit (s := S64x4864) ![0, 144] S64x4608.size inb_S64x4864_S64x4608_0_144
abbrev r1_tap8 : Rect S64x4864 := Rect.unit (s := S64x4864) ![0, 145] S64x4608.size inb_S64x4864_S64x4608_0_145

abbrev r1_mask0 : Rect S9x4608 := Rect.unit (s := S9x4608) ![0, 0] S1x4608.size inb_S9x4608_S1x4608_0_0
abbrev r1_mask1 : Rect S9x4608 := Rect.unit (s := S9x4608) ![1, 0] S1x4608.size inb_S9x4608_S1x4608_1_0
abbrev r1_mask2 : Rect S9x4608 := Rect.unit (s := S9x4608) ![2, 0] S1x4608.size inb_S9x4608_S1x4608_2_0
abbrev r1_mask3 : Rect S9x4608 := Rect.unit (s := S9x4608) ![3, 0] S1x4608.size inb_S9x4608_S1x4608_3_0
abbrev r1_mask5 : Rect S9x4608 := Rect.unit (s := S9x4608) ![5, 0] S1x4608.size inb_S9x4608_S1x4608_5_0
abbrev r1_mask6 : Rect S9x4608 := Rect.unit (s := S9x4608) ![6, 0] S1x4608.size inb_S9x4608_S1x4608_6_0
abbrev r1_mask7 : Rect S9x4608 := Rect.unit (s := S9x4608) ![7, 0] S1x4608.size inb_S9x4608_S1x4608_7_0
abbrev r1_mask8 : Rect S9x4608 := Rect.unit (s := S9x4608) ![8, 0] S1x4608.size inb_S9x4608_S1x4608_8_0

abbrev r1_row0 : Rect S576x4608 := Rect.unit (s := S576x4608) ![0, 0] S64x4608.size inb_S576x4608_S64x4608_0_0
abbrev r1_row1 : Rect S576x4608 := Rect.unit (s := S576x4608) ![64, 0] S64x4608.size inb_S576x4608_S64x4608_64_0
abbrev r1_row2 : Rect S576x4608 := Rect.unit (s := S576x4608) ![128, 0] S64x4608.size inb_S576x4608_S64x4608_128_0
abbrev r1_row3 : Rect S576x4608 := Rect.unit (s := S576x4608) ![192, 0] S64x4608.size inb_S576x4608_S64x4608_192_0
abbrev r1_row4 : Rect S576x4608 := Rect.unit (s := S576x4608) ![256, 0] S64x4608.size inb_S576x4608_S64x4608_256_0
abbrev r1_row5 : Rect S576x4608 := Rect.unit (s := S576x4608) ![320, 0] S64x4608.size inb_S576x4608_S64x4608_320_0
abbrev r1_row6 : Rect S576x4608 := Rect.unit (s := S576x4608) ![384, 0] S64x4608.size inb_S576x4608_S64x4608_384_0
abbrev r1_row7 : Rect S576x4608 := Rect.unit (s := S576x4608) ![448, 0] S64x4608.size inb_S576x4608_S64x4608_448_0
abbrev r1_row8 : Rect S576x4608 := Rect.unit (s := S576x4608) ![512, 0] S64x4608.size inb_S576x4608_S64x4608_512_0

abbrev r1_win0 : Rect S576x4608 := Rect.unit (s := S576x4608) ![0, 0] S576x4096.size inb_S576x4608_S576x4096_0_0
abbrev r1_win1 : Rect S576x4608 := Rect.unit (s := S576x4608) ![0, 256] S576x4096.size inb_S576x4608_S576x4096_0_256
abbrev r1_win2 : Rect S576x4608 := Rect.unit (s := S576x4608) ![0, 512] S576x4096.size inb_S576x4608_S576x4096_0_512

abbrev r1_w0 : Rect S3x64x576 := Rect.unit (s := S3x64x576) ![0, 0, 0] S1x64x576.size inb_S3x64x576_S1x64x576_0_0_0
abbrev r1_w1 : Rect S3x64x576 := Rect.unit (s := S3x64x576) ![1, 0, 0] S1x64x576.size inb_S3x64x576_S1x64x576_1_0_0
abbrev r1_w2 : Rect S3x64x576 := Rect.unit (s := S3x64x576) ![2, 0, 0] S1x64x576.size inb_S3x64x576_S1x64x576_2_0_0

abbrev r1_y : Rect S1x64x4096 := Rect.unit (s := S1x64x4096) ![0, 0, 0] S1x64x4096.size inb_S1x64x4096_S1x64x4096_0_0_0

abbrev r1_s : Rect S1x64x1 := Rect.unit (s := S1x64x1) ![0, 0, 0] S1x64x1.size inb_S1x64x1_S1x64x1_0_0_0

def xs1 (x1 : Vec F S1x64x4864 .bf16) (x2 x3 : Vec F S64x1 .f32) (x4 : Vec F S1x4864 .f32) : Vec F S64x4864 .bf16 :=
  View.canon [⟨r1_xs, k1_pay5 (View.ld x1 r1_x) (View.ld x2 r1_col) (View.ld x3 r1_col) (View.ld x4 r1_valid)⟩]

def cols1 (X : Vec F S64x4864 .bf16) (x6 : Vec F S9x4608 .bf16) : Vec F S576x4608 .bf16 :=
  View.canon [
    ⟨r1_row8, k1_pay15 (View.ld X r1_tap8) (View.ld x6 r1_mask8)⟩,
    ⟨r1_row7, k1_pay14 (View.ld X r1_tap7) (View.ld x6 r1_mask7)⟩,
    ⟨r1_row6, k1_pay13 (View.ld X r1_tap6) (View.ld x6 r1_mask6)⟩,
    ⟨r1_row5, k1_pay12 (View.ld X r1_tap5) (View.ld x6 r1_mask5)⟩,
    ⟨r1_row4, k1_pay11 (View.ld X r1_tap4)⟩,
    ⟨r1_row3, k1_pay10 (View.ld X r1_tap3) (View.ld x6 r1_mask3)⟩,
    ⟨r1_row2, k1_pay9 (View.ld X r1_tap2) (View.ld x6 r1_mask2)⟩,
    ⟨r1_row1, k1_pay8 (k1_pay7 (View.ld X r1_tap1) (View.ld x6 r1_mask1))⟩,
    ⟨r1_row0, k1_pay6 (View.ld X r1_tap0) (View.ld x6 r1_mask0)⟩]

def out1_6 (x1 : Vec F S1x64x4864 .bf16) (x2 x3 : Vec F S64x1 .f32) (x4 : Vec F S1x4864 .f32)
    (x5 : Vec F S3x64x576 .bf16) (x6 : Vec F S9x4608 .bf16) : Vec F S1x64x4096 .bf16 :=
  View.canon [⟨r1_y, k1_pay2 (k1_pay16 (View.ld x5 r1_w0) (View.ld (cols1 (xs1 x1 x2 x3 x4) x6) r1_win0))
    (k1_pay17 (View.ld x5 r1_w1)) (View.ld (cols1 (xs1 x1 x2 x3 x4) x6) r1_win1)
    (View.ld x5 r1_w2) (View.ld (cols1 (xs1 x1 x2 x3 x4) x6) r1_win2)⟩]

def out1_7 (x1 : Vec F S1x64x4864 .bf16) (x2 x3 : Vec F S64x1 .f32) (x4 : Vec F S1x4864 .f32)
    (x5 : Vec F S3x64x576 .bf16) (x6 : Vec F S9x4608 .bf16) : Vec F S1x64x1 .f32 :=
  View.canon [⟨r1_s, k1_pay3 (k1_pay16 (View.ld x5 r1_w0) (View.ld (cols1 (xs1 x1 x2 x3 x4) x6) r1_win0))
    (k1_pay17 (View.ld x5 r1_w1)) (View.ld (cols1 (xs1 x1 x2 x3 x4) x6) r1_win1)
    (View.ld x5 r1_w2) (View.ld (cols1 (xs1 x1 x2 x3 x4) x6) r1_win2)⟩]

def out1_8 (x1 : Vec F S1x64x4864 .bf16) (x2 x3 : Vec F S64x1 .f32) (x4 : Vec F S1x4864 .f32)
    (x5 : Vec F S3x64x576 .bf16) (x6 : Vec F S9x4608 .bf16) : Vec F S1x64x1 .f32 :=
  View.canon [⟨r1_s, k1_pay4 (k1_pay16 (View.ld x5 r1_w0) (View.ld (cols1 (xs1 x1 x2 x3 x4) x6) r1_win0))
    (k1_pay17 (View.ld x5 r1_w1)) (View.ld (cols1 (xs1 x1 x2 x3 x4) x6) r1_win1)
    (View.ld x5 r1_w2) (View.ld (cols1 (xs1 x1 x2 x3 x4) x6) r1_win2)⟩]

theorem cover1_6 (p0 : Vec F S1x64x4096 .bf16) (y : S1x64x4096.Idx) :
    ∃ pc ∈ ([⟨r1_y, p0⟩] : List (View.Piece (Elt F) S1x64x4096 .bf16)), y ∈ pc.1.set :=
  View.cover_of_tiled [⟨r1_y, p0⟩] S1x64x4096.size (by rfl) y

theorem cover1_s (p0 : Vec F S1x64x1 .f32) (y : S1x64x1.Idx) :
    ∃ pc ∈ ([⟨r1_s, p0⟩] : List (View.Piece (Elt F) S1x64x1 .f32)), y ∈ pc.1.set :=
  View.cover_of_tiled [⟨r1_s, p0⟩] S1x64x1.size (by rfl) y

theorem readCov_toLoadRect {sig' : RefSig} {κ : Kind} {sp : Space} {s : Shape} {e : EltTy}
    (v : View sig' κ sp s e) (L : List (View.Piece (Elt F) s e)) (r : Rect s) :
    v.readCov L r.toLoadRect = View.ld (View.canon L) r :=
  View.readCov_eq_canon' v L r.toLoadRect

set_option maxHeartbeats 4000000 in

theorem sound_kernel1 (c : Dev nD) (E : Set ℕ) (i : grid1.Coords)
    (arg1 : Memref sig .tc .vmem S1x64x4864 .bf16) (harg1 : arg1.IsWhole)
    (arg2 : Memref sig .tc .vmem S64x1 .f32) (harg2 : arg2.IsWhole)
    (arg3 : Memref sig .tc .vmem S64x1 .f32) (harg3 : arg3.IsWhole)
    (arg4 : Memref sig .tc .vmem S1x4864 .f32) (harg4 : arg4.IsWhole)
    (arg5 : Memref sig .tc .vmem S3x64x576 .bf16) (harg5 : arg5.IsWhole)
    (arg6 : Memref sig .tc .vmem S9x4608 .bf16) (harg6 : arg6.IsWhole)
    (arg7 : Memref sig .tc .vmem S1x64x4096 .bf16) (harg7 : arg7.IsWhole)
    (arg8 : Memref sig .tc .vmem S1x64x1 .f32) (harg8 : arg8.IsWhole)
    (arg9 : Memref sig .tc .vmem S1x64x1 .f32) (harg9 : arg9.IsWhole)
    (arg10 : Memref sig .tc .vmem S64x4864 .bf16) (harg10 : arg10.IsWhole)
    (arg11 : Memref sig .tc .vmem S576x4608 .bf16) (harg11 : arg11.IsWhole)
    (x1 : Vec F S1x64x4864 .bf16) (x2 x3 : Vec F S64x1 .f32) (x4 : Vec F S1x4864 .f32)
    (x5 : Vec F S3x64x576 .bf16) (x6 : Vec F S9x4608 .bf16) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d) ∗ (∃ d, owns (c : Thread nD τ) arg8 fullShare d)
        ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare (out1_6 x1 x2 x3 x4 x5 x6)
            ∗ owns (c : Thread nD τ) arg8 fullShare (out1_7 x1 x2 x3 x4 x5 x6)
            ∗ owns (c : Thread nD τ) arg9 fullShare (out1_8 x1 x2 x3 x4 x5 x6)
            ∗ (∃ d, owns (c : Thread nD τ) arg10 fullShare d) ∗ (∃ d, owns (c : Thread nD τ) arg11 fullShare d)) -∗ K ⟨⟩))
      ⊢ wp frame (wpE (defs₀ (F := F)) Variants.none c none) E
          (cc1__conv2_kernel i arg1 harg1 arg2 harg2 arg3 harg3 arg4 harg4 arg5 harg5 arg6 harg6 arg7 harg7 arg8 harg8 arg9 harg9 arg10 harg10 arg11 harg11) K := by
  simp only [cc1__conv2_kernel_eq_skeleton]; unfold cc1__conv2_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, ⟨%d10, %f10, -, H10⟩, ⟨%d11, %f11, -, H11⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover1_6 _)).trans ?_
    unfold out1_6 cols1 xs1
    sl_unfold_run_names
    simp only [readCov_toLoadRect, View.readAt_eq_ld]
  isplitl [H8]
  · iexists _; isplitr
    swap; · iexact H8
    ipureintro
    refine (View.read_writes_eq_canon _ _ _ (cover1_s _)).trans ?_
    unfold out1_7 cols1 xs1
    sl_unfold_run_names
    simp only [readCov_toLoadRect, View.readAt_eq_ld]
  isplitl [H9]
  · iexists _; isplitr
    swap; · iexact H9
    ipureintro
    refine (View.read_writes_eq_canon _ _ _ (cover1_s _)).trans ?_
    unfold out1_8 cols1 xs1
    sl_unfold_run_names
    simp only [readCov_toLoadRect, View.readAt_eq_ld]
  isplitl [H10]
  · iexists _; iexists _; isplitr
    swap; · iexact H10
    ipureintro; rfl
  iexists _; iexists _; isplitr
  swap; · iexact H11
  ipureintro; rfl

end Cert.KernelIdeal.Body

end
-- ==== Proof.KernelIdealBody2.lean ====
import proofs.«157750_g2000200144022539_pallasbulk_675_13_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev r2_blk : Rect S1x64x4096 := Rect.unit (s := S1x64x4096) ![0, 0, 0] S1x64x4096.size inb_S1x64x4096_S1x64x4096_0_0_0

abbrev r2_col : Rect S64x1 := Rect.unit (s := S64x1) ![0, 0] S64x1.size inb_S64x1_S64x1_0_0

def out2_3 (x1 : Vec F S1x64x4096 .bf16) (x2 : Vec F S64x1 .f32) (x3 : Vec F S64x1 .f32) : Vec F S1x64x4096 .f32 :=
  View.canon [⟨r2_blk, k2_pay1 (View.ld x1 r2_blk) (View.ld x2 r2_col) (View.ld x3 r2_col)⟩]

theorem cover2_3 (p0 : Vec F S1x64x4096 .f32) (y : S1x64x4096.Idx) :
    ∃ pc ∈ ([⟨r2_blk, p0⟩] : List (View.Piece (Elt F) S1x64x4096 .f32)), y ∈ pc.1.set :=
  View.cover_of_tiled [⟨r2_blk, p0⟩] S1x64x4096.size (by rfl) y

set_option maxHeartbeats 1000000 in

theorem sound_kernel2 (c : Dev nD) (E : Set ℕ) (i : grid2.Coords)
    (arg1 : Memref sig .tc .vmem S1x64x4096 .bf16) (harg1 : arg1.IsWhole)
    (arg2 : Memref sig .tc .vmem S64x1 .f32) (harg2 : arg2.IsWhole)
    (arg3 : Memref sig .tc .vmem S64x1 .f32) (harg3 : arg3.IsWhole)
    (arg4 : Memref sig .tc .vmem S1x64x4096 .f32) (harg4 : arg4.IsWhole)
    (x1 : Vec F S1x64x4096 .bf16) (x2 : Vec F S64x1 .f32) (x3 : Vec F S64x1 .f32) (K : PUnit → sProp 𝕄) :
    iprop(owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg1 fullShare x1 ∗ owns (c : Thread nD τ) arg2 fullShare x2
            ∗ owns (c : Thread nD τ) arg3 fullShare x3 ∗ owns (c : Thread nD τ) arg4 fullShare (out2_3 x1 x2 x3)) -∗ K ⟨⟩))
      ⊢ wp frame (wpE (defs₀ (F := F)) Variants.none c none) E (cc2__bn_relu_out_kernel i arg1 harg1 arg2 harg2 arg3 harg3 arg4 harg4) K := by
  simp only [cc2__bn_relu_out_kernel_eq_skeleton]; unfold cc2__bn_relu_out_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_3 _)

end Cert.KernelIdeal.Body

end
-- ==== Proof.ReferenceIdealBody0.lean ====
import proofs.«157750_g2000200144022539_pallasbulk_675_13_alg».proof.Proof.Gen.ReferenceIdeal.Skeleton
import Idealize.ShloMosaic.Lib.Pipeline.FrameBody
import Idealize.ShloMosaic.Lib.Ring
import Idealize.ShloMosaic.Lib.Tactic

set_option maxRecDepth 16384

noncomputable section

namespace Cert.ReferenceIdeal.Body

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev rI (d a b : ℕ)
    (h : ∀ k, (![0, d, a, 0, b, 0, 0] : Fin 7 → ℕ) k + S1x1x1x16x1x16x2.size k ≤ S1x16x2x16x2x16x2.size k) :
    Rect S1x16x2x16x2x16x2 :=
  Rect.unit (s := S1x16x2x16x2x16x2) ![0, d, a, 0, b, 0, 0] S1x1x1x16x1x16x2.size h

abbrev rO (d : ℕ) (h : ∀ k, (![0, d, 0, 0, 0] : Fin 5 → ℕ) k + S1x1x16x16x1.size k ≤ S1x16x16x16x1.size k) :
    Rect S1x16x16x16x1 :=
  Rect.unit (s := S1x16x16x16x1) ![0, d, 0, 0, 0] S1x1x16x16x1.size h

def poolStep (l00 l01 l10 l11 : Vec F S1x1x1x16x1x16x2 .f32) : FVec F S1x1x16x16x1 .f32 :=
  k0_pay2 l00 l01 l10 l11

theorem pay_d0 (a b c d : Vec F S1x1x1x16x1x16x2 .f32) : k0_pay2 a b c d = poolStep a b c d := rfl
theorem pay_d1 (a b c d : Vec F S1x1x1x16x1x16x2 .f32) : k0_pay3 a b c d = poolStep a b c d := rfl
theorem pay_d2 (a b c d : Vec F S1x1x1x16x1x16x2 .f32) : k0_pay5 (k0_pay4 a) b c d = poolStep a b c d := rfl
theorem pay_d3 (a b c d : Vec F S1x1x1x16x1x16x2 .f32) : k0_pay8 (k0_pay6 a) (k0_pay7 b) c d = poolStep a b c d := rfl
theorem pay_d4 (a b c d : Vec F S1x1x1x16x1x16x2 .f32) :
    k0_pay12 (k0_pay9 a) (k0_pay10 b) (k0_pay11 c) d = poolStep a b c d := rfl
theorem pay_d5 (a b c d : Vec F S1x1x1x16x1x16x2 .f32) : k0_pay14 (k0_pay13 a b c d) = poolStep a b c d := rfl
theorem pay_d6 (a b c d : Vec F S1x1x1x16x1x16x2 .f32) : k0_pay15 a b c d = poolStep a b c d := rfl
theorem pay_d7 (a b c d : Vec F S1x1x1x16x1x16x2 .f32) : k0_pay16 a b c d = poolStep a b c d := rfl
theorem pay_d8 (a b c d : Vec F S1x1x1x16x1x16x2 .f32) : k0_pay18 (k0_pay17 a) b c d = poolStep a b c d := rfl
theorem pay_d9 (a b c d : Vec F S1x1x1x16x1x16x2 .f32) : k0_pay21 (k0_pay19 a) (k0_pay20 b) c d = poolStep a b c d := rfl
theorem pay_d10 (a b c d : Vec F S1x1x1x16x1x16x2 .f32) :
    k0_pay25 (k0_pay22 a) (k0_pay23 b) (k0_pay24 c) d = poolStep a b c d := rfl
theorem pay_d11 (a b c d : Vec F S1x1x1x16x1x16x2 .f32) : k0_pay28 (k0_pay26 a b) (k0_pay27 c d) = poolStep a b c d := rfl
theorem pay_d12 (a b c d : Vec F S1x1x1x16x1x16x2 .f32) : k0_pay30 (k0_pay29 a b c d) = poolStep a b c d := rfl
theorem pay_d13 (a b c d : Vec F S1x1x1x16x1x16x2 .f32) : k0_pay31 a b c d = poolStep a b c d := rfl
theorem pay_d14 (a b c d : Vec F S1x1x1x16x1x16x2 .f32) : k0_pay32 a b c d = poolStep a b c d := rfl
theorem pay_d15 (a b c d : Vec F S1x1x1x16x1x16x2 .f32) : k0_pay1 (k0_pay33 a) b c d = poolStep a b c d := rfl

def out0_1 (x : Vec F S1x16x2x16x2x16x2 .f32) : Vec F S1x16x16x16x1 .f32 :=
  View.canon [
    ⟨rO 15 inb_S1x16x16x16x1_S1x1x16x16x1_0_15_0_0_0,
      k0_pay1 (k0_pay33 (View.ld x (rI 15 0 0 inb_S1x16x2x16x2x16x2_S1x1x1x16x1x16x2_0_15_0_0_0_0_0)))
        (View.ld x (rI 15 0 1 inb_S1x16x2x16x2x16x2_S1x1x1x16x1x16x2_0_15_0_0_1_0_0))
        (View.ld x (rI 15 1 0 inb_S1x16x2x16x2x16x2_S1x1x1x16x1x16x2_0_15_1_0_0_0_0))
        (View.ld x (rI 15 1 1 inb_S1x16x2x16x2x16x2_S1x1x1x16x1x16x2_0_15_1_0_1_0_0))⟩,
    ⟨rO 14 inb_S1x16x16x16x1_S1x1x16x16x1_0_14_0_0_0,
      k0_pay32 (View.ld x (rI 14 0 0 inb_S1x16x2x16x2x16x2_S1x1x1x16x1x16x2_0_14_0_0_0_0_0))
        (View.ld x (rI 14 0 1 inb_S1x16x2x16x2x16x2_S1x1x1x16x1x16x2_0_14_0_0_1_0_0))
        (View.ld x (rI 14 1 0 inb_S1x16x2x16x2x16x2_S1x1x1x16x1x16x2_0_14_1_0_0_0_0))
        (View.ld x (rI 14 1 1 inb_S1x16x2x16x2x16x2_S1x1x1x16x1x16x2_0_14_1_0_1_0_0))⟩,
    ⟨rO 13 inb_S1x16x16x16x1_S1x1x16x16x1_0_13_0_0_0,
      k0_pay31 (View.ld x (rI 13 0 0 inb_S1x16x2x16x2x16x2_S1x1x1x16x1x16x2_0_13_0_0_0_0_0))
        (View.ld x (rI 13 0 1 inb_S1x16x2x16x2x16x2_S1x1x1x16x1x16x2_0_13_0_0_1_0_0))
        (View.ld x (rI 13 1 0 inb_S1x16x2x16x2x16x2_S1x1x1x16x1x16x2_0_13_1_0_0_0_0))
        (View.ld x (rI 13 1 1 inb_S1x16x2x16x2x16x2_S1x1x1x16x1x16x2_0_13_1_0_1_0_0))⟩,
    ⟨rO 12 inb_S1x16x16x16x1_S1x1x16x16x1_0_12_0_0_0,
      k0_pay30 (k0_pay29 (View.ld x (rI 12 0 0 inb_S1x16x2x16x2x16x2_S1x1x1x16x1x16x2_0_12_0_0_0_0_0))
        (View.ld x (rI 12 0 1 inb_S1x16x2x16x2x16x2_S1x1x1x16x1x16x2_0_12_0_0_1_0_0))
        (View.ld x (rI 12 1 0 inb_S1x16x2x16x2x16x2_S1x1x1x16x1x16x2_0_12_1_0_0_0_0))
        (View.ld x (rI 12 1 1 inb_S1x16x2x16x2x16x2_S1x1x1x16x1x16x2_0_12_1_0_1_0_0)))⟩,
    ⟨rO 11 inb_S1x16x16x16x1_S1x1x16x16x1_0_11_0_0_0,
      k0_pay28 (k0_pay26 (View.ld x (rI 11 0 0 inb_S1x16x2x16x2x16x2_S1x1x1x16x1x16x2_0_11_0_0_0_0_0))
          (View.ld x (rI 11 0 1 inb_S1x16x2x16x2x16x2_S1x1x1x16x1x16x2_0_11_0_0_1_0_0)))
        (k0_pay27 (View.ld x (rI 11 1 0 inb_S1x16x2x16x2x16x2_S1x1x1x16x1x16x2_0_11_1_0_0_0_0))
          (View.ld x (rI 11 1 1 inb_S1x16x2x16x2x16x2_S1x1x1x16x1x16x2_0_11_1_0_1_0_0)))⟩,
    ⟨rO 10 inb_S1x16x16x16x1_S1x1x16x16x1_0_10_0_0_0,
      k0_pay25 (k0_pay22 (View.ld x (rI 10 0 0 inb_S1x16x2x16x2x16x2_S1x1x1x16x1x16x2_0_10_0_0_0_0_0)))
        (k0_pay23 (View.ld x (rI 10 0 1 inb_S1x16x2x16x2x16x2_S1x1x1x16x1x16x2_0_10_0_0_1_0_0)))
        (k0_pay24 (View.ld x (rI 10 1 0 inb_S1x16x2x16x2x16x2_S1x1x1x16x1x16x2_0_10_1_0_0_0_0)))
        (View.ld x (rI 10 1 1 inb_S1x16x2x16x2x16x2_S1x1x1x16x1x16x2_0_10_1_0_1_0_0))⟩,
    ⟨rO 9 inb_S1x16x16x16x1_S1x1x16x16x1_0_9_0_0_0,
      k0_pay21 (k0_pay19 (View.ld x (rI 9 0 0 inb_S1x16x2x16x2x16x2_S1x1x1x16x1x16x2_0_9_0_0_0_0_0)))
        (k0_pay20 (View.ld x (rI 9 0 1 inb_S1x16x2x16x2x16x2_S1x1x1x16x1x16x2_0_9_0_0_1_0_0)))
        (View.ld x (rI 9 1 0 inb_S1x16x2x16x2x16x2_S1x1x1x16x1x16x2_0_9_1_0_0_0_0))
        (View.ld x (rI 9 1 1 inb_S1x16x2x16x2x16x2_S1x1x1x16x1x16x2_0_9_1_0_1_0_0))⟩,
    ⟨rO 8 inb_S1x16x16x16x1_S1x1x16x16x1_0_8_0_0_0,
      k0_pay18 (k0_pay17 (View.ld x (rI 8 0 0 inb_S1x16x2x16x2x16x2_S1x1x1x16x1x16x2_0_8_0_0_0_0_0)))
        (View.ld x (rI 8 0 1 inb_S1x16x2x16x2x16x2_S1x1x1x16x1x16x2_0_8_0_0_1_0_0))
        (View.ld x (rI 8 1 0 inb_S1x16x2x16x2x16x2_S1x1x1x16x1x16x2_0_8_1_0_0_0_0))
        (View.ld x (rI 8 1 1 inb_S1x16x2x16x2x16x2_S1x1x1x16x1x16x2_0_8_1_0_1_0_0))⟩,
    ⟨rO 7 inb_S1x16x16x16x1_S1x1x16x16x1_0_7_0_0_0,
      k0_pay16 (View.ld x (rI 7 0 0 inb_S1x16x2x16x2x16x2_S1x1x1x16x1x16x2_0_7_0_0_0_0_0))
        (View.ld x (rI 7 0 1 inb_S1x16x2x16x2x16x2_S1x1x1x16x1x16x2_0_7_0_0_1_0_0))
        (View.ld x (rI 7 1 0 inb_S1x16x2x16x2x16x2_S1x1x1x16x1x16x2_0_7_1_0_0_0_0))
        (View.ld x (rI 7 1 1 inb_S1x16x2x16x2x16x2_S1x1x1x16x1x16x2_0_7_1_0_1_0_0))⟩,
    ⟨rO 6 inb_S1x16x16x16x1_S1x1x16x16x1_0_6_0_0_0,
      k0_pay15 (View.ld x (rI 6 0 0 inb_S1x16x2x16x2x16x2_S1x1x1x16x1x16x2_0_6_0_0_0_0_0))
        (View.ld x (rI 6 0 1 inb_S1x16x2x16x2x16x2_S1x1x1x16x1x16x2_0_6_0_0_1_0_0))
        (View.ld x (rI 6 1 0 inb_S1x16x2x16x2x16x2_S1x1x1x16x1x16x2_0_6_1_0_0_0_0))
        (View.ld x (rI 6 1 1 inb_S1x16x2x16x2x16x2_S1x1x1x16x1x16x2_0_6_1_0_1_0_0))⟩,
    ⟨rO 5 inb_S1x16x16x16x1_S1x1x16x16x1_0_5_0_0_0,
      k0_pay14 (k0_pay13 (View.ld x (rI 5 0 0 inb_S1x16x2x16x2x16x2_S1x1x1x16x1x16x2_0_5_0_0_0_0_0))
        (View.ld x (rI 5 0 1 inb_S1x16x2x16x2x16x2_S1x1x1x16x1x16x2_0_5_0_0_1_0_0))
        (View.ld x (rI 5 1 0 inb_S1x16x2x16x2x16x2_S1x1x1x16x1x16x2_0_5_1_0_0_0_0))
        (View.ld x (rI 5 1 1 inb_S1x16x2x16x2x16x2_S1x1x1x16x1x16x2_0_5_1_0_1_0_0)))⟩,
    ⟨rO 4 inb_S1x16x16x16x1_S1x1x16x16x1_0_4_0_0_0,
      k0_pay12 (k0_pay9 (View.ld x (rI 4 0 0 inb_S1x16x2x16x2x16x2_S1x1x1x16x1x16x2_0_4_0_0_0_0_0)))
        (k0_pay10 (View.ld x (rI 4 0 1 inb_S1x16x2x16x2x16x2_S1x1x1x16x1x16x2_0_4_0_0_1_0_0)))
        (k0_pay11 (View.ld x (rI 4 1 0 inb_S1x16x2x16x2x16x2_S1x1x1x16x1x16x2_0_4_1_0_0_0_0)))
        (View.ld x (rI 4 1 1 inb_S1x16x2x16x2x16x2_S1x1x1x16x1x16x2_0_4_1_0_1_0_0))⟩,
    ⟨rO 3 inb_S1x16x16x16x1_S1x1x16x16x1_0_3_0_0_0,
      k0_pay8 (k0_pay6 (View.ld x (rI 3 0 0 inb_S1x16x2x16x2x16x2_S1x1x1x16x1x16x2_0_3_0_0_0_0_0)))
        (k0_pay7 (View.ld x (rI 3 0 1 inb_S1x16x2x16x2x16x2_S1x1x1x16x1x16x2_0_3_0_0_1_0_0)))
        (View.ld x (rI 3 1 0 inb_S1x16x2x16x2x16x2_S1x1x1x16x1x16x2_0_3_1_0_0_0_0))
        (View.ld x (rI 3 1 1 inb_S1x16x2x16x2x16x2_S1x1x1x16x1x16x2_0_3_1_0_1_0_0))⟩,
    ⟨rO 2 inb_S1x16x16x16x1_S1x1x16x16x1_0_2_0_0_0,
      k0_pay5 (k0_pay4 (View.ld x (rI 2 0 0 inb_S1x16x2x16x2x16x2_S1x1x1x16x1x16x2_0_2_0_0_0_0_0)))
        (View.ld x (rI 2 0 1 inb_S1x16x2x16x2x16x2_S1x1x1x16x1x16x2_0_2_0_0_1_0_0))
        (View.ld x (rI 2 1 0 inb_S1x16x2x16x2x16x2_S1x1x1x16x1x16x2_0_2_1_0_0_0_0))
        (View.ld x (rI 2 1 1 inb_S1x16x2x16x2x16x2_S1x1x1x16x1x16x2_0_2_1_0_1_0_0))⟩,
    ⟨rO 1 inb_S1x16x16x16x1_S1x1x16x16x1_0_1_0_0_0,
      k0_pay3 (View.ld x (rI 1 0 0 inb_S1x16x2x16x2x16x2_S1x1x1x16x1x16x2_0_1_0_0_0_0_0))
        (View.ld x (rI 1 0 1 inb_S1x16x2x16x2x16x2_S1x1x1x16x1x16x2_0_1_0_0_1_0_0))
        (View.ld x (rI 1 1 0 inb_S1x16x2x16x2x16x2_S1x1x1x16x1x16x2_0_1_1_0_0_0_0))
        (View.ld x (rI 1 1 1 inb_S1x16x2x16x2x16x2_S1x1x1x16x1x16x2_0_1_1_0_1_0_0))⟩,
    ⟨rO 0 inb_S1x16x16x16x1_S1x1x16x16x1_0_0_0_0_0,
      k0_pay2 (View.ld x (rI 0 0 0 inb_S1x16x2x16x2x16x2_S1x1x1x16x1x16x2_0_0_0_0_0_0_0))
        (View.ld x (rI 0 0 1 inb_S1x16x2x16x2x16x2_S1x1x1x16x1x16x2_0_0_0_0_1_0_0))
        (View.ld x (rI 0 1 0 inb_S1x16x2x16x2x16x2_S1x1x1x16x1x16x2_0_0_1_0_0_0_0))
        (View.ld x (rI 0 1 1 inb_S1x16x2x16x2x16x2_S1x1x1x16x1x16x2_0_0_1_0_1_0_0))⟩]

theorem cover0_1 (p15 p14 p13 p12 p11 p10 p9 p8 p7 p6 p5 p4 p3 p2 p1 p0 : Vec F S1x1x16x16x1 .f32) (y : S1x16x16x16x1.Idx) :
    ∃ pc ∈ ([⟨rO 15 inb_S1x16x16x16x1_S1x1x16x16x1_0_15_0_0_0, p15⟩, ⟨rO 14 inb_S1x16x16x16x1_S1x1x16x16x1_0_14_0_0_0, p14⟩,
        ⟨rO 13 inb_S1x16x16x16x1_S1x1x16x16x1_0_13_0_0_0, p13⟩, ⟨rO 12 inb_S1x16x16x16x1_S1x1x16x16x1_0_12_0_0_0, p12⟩,
        ⟨rO 11 inb_S1x16x16x16x1_S1x1x16x16x1_0_11_0_0_0, p11⟩, ⟨rO 10 inb_S1x16x16x16x1_S1x1x16x16x1_0_10_0_0_0, p10⟩,
        ⟨rO 9 inb_S1x16x16x16x1_S1x1x16x16x1_0_9_0_0_0, p9⟩, ⟨rO 8 inb_S1x16x16x16x1_S1x1x16x16x1_0_8_0_0_0, p8⟩,
        ⟨rO 7 inb_S1x16x16x16x1_S1x1x16x16x1_0_7_0_0_0, p7⟩, ⟨rO 6 inb_S1x16x16x16x1_S1x1x16x16x1_0_6_0_0_0, p6⟩,
        ⟨rO 5 inb_S1x16x16x16x1_S1x1x16x16x1_0_5_0_0_0, p5⟩, ⟨rO 4 inb_S1x16x16x16x1_S1x1x16x16x1_0_4_0_0_0, p4⟩,
        ⟨rO 3 inb_S1x16x16x16x1_S1x1x16x16x1_0_3_0_0_0, p3⟩, ⟨rO 2 inb_S1x16x16x16x1_S1x1x16x16x1_0_2_0_0_0, p2⟩,
        ⟨rO 1 inb_S1x16x16x16x1_S1x1x16x16x1_0_1_0_0_0, p1⟩, ⟨rO 0 inb_S1x16x16x16x1_S1x1x16x16x1_0_0_0_0_0, p0⟩] :
          List (View.Piece (Elt F) S1x16x16x16x1 .f32)), y ∈ pc.1.set :=
  View.cover_of_tiled (s := S1x16x16x16x1) _ S1x1x16x16x1.size (by rfl) y

set_option maxHeartbeats 4000000 in

theorem sound_kernel0 (c : Dev nD) (E : Set ℕ) (i : grid0.Coords)
    (arg1 : Memref sig .tc .vmem S1x16x2x16x2x16x2 .f32) (harg1 : arg1.IsWhole)
    (arg2 : Memref sig .tc .vmem S1x16x16x16x1 .f32) (harg2 : arg2.IsWhole)
    (x : Vec F S1x16x2x16x2x16x2 .f32) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (out0_1 x)) -∗ K ⟨⟩))
      ⊢ wp frame (wpE (defs₀ (F := F)) Variants.none c none) E (cc0__maxpool_2x2x2_kernel i arg1 harg1 arg2 harg2) K := by
  simp only [cc0__maxpool_2x2x2_kernel_eq_skeleton]; unfold cc0__maxpool_2x2x2_kernel_skel
  simp only [k0_part1_eq_skeleton, k0_part2_eq_skeleton, k0_part3_eq_skeleton, k0_part4_eq_skeleton,
    k0_part5_eq_skeleton, k0_part6_eq_skeleton, k0_part7_eq_skeleton, k0_part8_eq_skeleton, k0_part9_eq_skeleton,
    k0_part10_eq_skeleton, k0_part11_eq_skeleton, k0_part12_eq_skeleton, k0_part13_eq_skeleton]
  unfold owns
  iintro ⟨⟨%f1, %hf1, H1⟩, ⟨%d2, %f2, -, H2⟩, Hk⟩
  subst hf1
  sl_exec
  sl_step
  iapply Hk
  isplitl [H1]
  · iexists f1; isplitr; · ipureintro; rfl
    iexact H1
  iexists _; isplitr
  swap; · iexact H2
  ipureintro
  exact View.read_writes_eq_canon _ _ _ (cover0_1 _ _ _ _ _ _ _ _ _ _ _ _ _ _ _ _)

end Cert.ReferenceIdeal.Body

end
-- ==== Proof.ReferenceIdealBody1.lean ====
import proofs.«157750_g2000200144022539_pallasbulk_675_13_alg».proof.Proof.Gen.ReferenceIdeal.Skeleton
import Idealize.ShloMosaic.Lib.Pipeline.FrameBody
import Idealize.ShloMosaic.Lib.Ring
import Idealize.ShloMosaic.Lib.Tactic

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal.Gen

variable {F : FTy → Type} [FloatOps F]

local notation "𝕄" => MT nD τ sig Unit (Elt F) ℕ (UR sig nD τ) ℕ

/-! # Region 1: the first 3x3x3 convolution (32 input channels, no activation on load, output with halo)

The body reads the input block `x1` [1, 32, 4864], the folded weights `x2` [64, 864], the lane validity row
`x5` [1, 4864] and the nine border masks `x6` [9, 4096]; the scale and shift operands are never read. Two
scratch buffers are overwritten before they are read: the halo-zeroed input `xs1` and the 27 stacked masked
taps `cols1`. -/

/-- The input times the validity row, lane by lane: zero on the halo and tail lanes. -/
def xs1 (x1 : Vec F S1x32x4864 .f32) (x5 : Vec F S1x4864 .f32) : Vec F S32x4864 .f32 :=
  View.canon [⟨Rect.unit (s := S32x4864) ![0, 0] S32x4864.size inb_S32x4864_S32x4864_0_0,
    k1_pay2 (View.ld x1 (Rect.unit (s := S1x32x4864) ![0, 0, 0] S1x32x4864.size inb_S1x32x4864_S1x32x4864_0_0_0)) (View.ld x5 (Rect.unit (s := S1x4864) ![0, 0] S1x4864.size inb_S1x4864_S1x4864_0_0))⟩]

/-- The 27 masked taps stacked along the rows, tap `t = 9 kd + 3 kh + kw` at rows `32 t … 32 t + 31`: the
    halo-zeroed input shifted by `384 + 256 (kd - 1) + 16 (kh - 1) + (kw - 1)` lanes, times mask row `3 kh + kw`
    (the last written first). -/
def cols1 (x1 : Vec F S1x32x4864 .f32) (x5 : Vec F S1x4864 .f32) (x6 : Vec F S9x4096 .f32) : Vec F S864x4096 .f32 :=
  View.canon
    [⟨Rect.unit (s := S864x4096) ![832, 0] S32x4096.size inb_S864x4096_S32x4096_832_0,
      k1_pay36 (k1_pay35 (View.ld (xs1 x1 x5) (Rect.unit (s := S32x4864) ![0, 657] S32x4096.size inb_S32x4864_S32x4096_0_657)) (View.ld x6 (Rect.unit (s := S9x4096) ![8, 0] S1x4096.size inb_S9x4096_S1x4096_8_0)))⟩,
     ⟨Rect.unit (s := S864x4096) ![800, 0] S32x4096.size inb_S864x4096_S32x4096_800_0,
      k1_pay34 (View.ld (xs1 x1 x5) (Rect.unit (s := S32x4864) ![0, 656] S32x4096.size inb_S32x4864_S32x4096_0_656)) (View.ld x6 (Rect.unit (s := S9x4096) ![7, 0] S1x4096.size inb_S9x4096_S1x4096_7_0))⟩,
     ⟨Rect.unit (s := S864x4096) ![768, 0] S32x4096.size inb_S864x4096_S32x4096_768_0,
      k1_pay33 (View.ld (xs1 x1 x5) (Rect.unit (s := S32x4864) ![0, 655] S32x4096.size inb_S32x4864_S32x4096_0_655)) (View.ld x6 (Rect.unit (s := S9x4096) ![6, 0] S1x4096.size inb_S9x4096_S1x4096_6_0))⟩,
     ⟨Rect.unit (s := S864x4096) ![736, 0] S32x4096.size inb_S864x4096_S32x4096_736_0,
      k1_pay32 (View.ld (xs1 x1 x5) (Rect.unit (s := S32x4864) ![0, 641] S32x4096.size inb_S32x4864_S32x4096_0_641)) (View.ld x6 (Rect.unit (s := S9x4096) ![5, 0] S1x4096.size inb_S9x4096_S1x4096_5_0))⟩,
     ⟨Rect.unit (s := S864x4096) ![704, 0] S32x4096.size inb_S864x4096_S32x4096_704_0,
      k1_pay31 (k1_pay30 (View.ld (xs1 x1 x5) (Rect.unit (s := S32x4864) ![0, 640] S32x4096.size inb_S32x4864_S32x4096_0_640)) (View.ld x6 (Rect.unit (s := S9x4096) ![4, 0] S1x4096.size inb_S9x4096_S1x4096_4_0)))⟩,
     ⟨Rect.unit (s := S864x4096) ![672, 0] S32x4096.size inb_S864x4096_S32x4096_672_0,
      k1_pay29 (View.ld (xs1 x1 x5) (Rect.unit (s := S32x4864) ![0, 639] S32x4096.size inb_S32x4864_S32x4096_0_639)) (View.ld x6 (Rect.unit (s := S9x4096) ![3, 0] S1x4096.size inb_S9x4096_S1x4096_3_0))⟩,
     ⟨Rect.unit (s := S864x4096) ![640, 0] S32x4096.size inb_S864x4096_S32x4096_640_0,
      k1_pay28 (View.ld (xs1 x1 x5) (Rect.unit (s := S32x4864) ![0, 625] S32x4096.size inb_S32x4864_S32x4096_0_625)) (View.ld x6 (Rect.unit (s := S9x4096) ![2, 0] S1x4096.size inb_S9x4096_S1x4096_2_0))⟩,
     ⟨Rect.unit (s := S864x4096) ![608, 0] S32x4096.size inb_S864x4096_S32x4096_608_0,
      k1_pay27 (View.ld (xs1 x1 x5) (Rect.unit (s := S32x4864) ![0, 624] S32x4096.size inb_S32x4864_S32x4096_0_624)) (View.ld x6 (Rect.unit (s := S9x4096) ![1, 0] S1x4096.size inb_S9x4096_S1x4096_1_0))⟩,
     ⟨Rect.unit (s := S864x4096) ![576, 0] S32x4096.size inb_S864x4096_S32x4096_576_0,
      k1_pay26 (k1_pay25 (View.ld (xs1 x1 x5) (Rect.unit (s := S32x4864) ![0, 623] S32x4096.size inb_S32x4864_S32x4096_0_623)) (View.ld x6 (Rect.unit (s := S9x4096) ![0, 0] S1x4096.size inb_S9x4096_S1x4096_0_0)))⟩,
     ⟨Rect.unit (s := S864x4096) ![544, 0] S32x4096.size inb_S864x4096_S32x4096_544_0,
      k1_pay24 (View.ld (xs1 x1 x5) (Rect.unit (s := S32x4864) ![0, 401] S32x4096.size inb_S32x4864_S32x4096_0_401)) (View.ld x6 (Rect.unit (s := S9x4096) ![8, 0] S1x4096.size inb_S9x4096_S1x4096_8_0))⟩,
     ⟨Rect.unit (s := S864x4096) ![512, 0] S32x4096.size inb_S864x4096_S32x4096_512_0,
      k1_pay23 (View.ld (xs1 x1 x5) (Rect.unit (s := S32x4864) ![0, 400] S32x4096.size inb_S32x4864_S32x4096_0_400)) (View.ld x6 (Rect.unit (s := S9x4096) ![7, 0] S1x4096.size inb_S9x4096_S1x4096_7_0))⟩,
     ⟨Rect.unit (s := S864x4096) ![480, 0] S32x4096.size inb_S864x4096_S32x4096_480_0,
      k1_pay22 (View.ld (xs1 x1 x5) (Rect.unit (s := S32x4864) ![0, 399] S32x4096.size inb_S32x4864_S32x4096_0_399)) (View.ld x6 (Rect.unit (s := S9x4096) ![6, 0] S1x4096.size inb_S9x4096_S1x4096_6_0))⟩,
     ⟨Rect.unit (s := S864x4096) ![448, 0] S32x4096.size inb_S864x4096_S32x4096_448_0,
      k1_pay21 (k1_pay20 (View.ld (xs1 x1 x5) (Rect.unit (s := S32x4864) ![0, 385] S32x4096.size inb_S32x4864_S32x4096_0_385)) (View.ld x6 (Rect.unit (s := S9x4096) ![5, 0] S1x4096.size inb_S9x4096_S1x4096_5_0)))⟩,
     ⟨Rect.unit (s := S864x4096) ![416, 0] S32x4096.size inb_S864x4096_S32x4096_416_0,
      k1_pay19 (View.ld (xs1 x1 x5) (Rect.unit (s := S32x4864) ![0, 384] S32x4096.size inb_S32x4864_S32x4096_0_384)) (View.ld x6 (Rect.unit (s := S9x4096) ![4, 0] S1x4096.size inb_S9x4096_S1x4096_4_0))⟩,
     ⟨Rect.unit (s := S864x4096) ![384, 0] S32x4096.size inb_S864x4096_S32x4096_384_0,
      k1_pay18 (View.ld (xs1 x1 x5) (Rect.unit (s := S32x4864) ![0, 383] S32x4096.size inb_S32x4864_S32x4096_0_383)) (View.ld x6 (Rect.unit (s := S9x4096) ![3, 0] S1x4096.size inb_S9x4096_S1x4096_3_0))⟩,
     ⟨Rect.unit (s := S864x4096) ![352, 0] S32x4096.size inb_S864x4096_S32x4096_352_0,
      k1_pay17 (View.ld (xs1 x1 x5) (Rect.unit (s := S32x4864) ![0, 369] S32x4096.size inb_S32x4864_S32x4096_0_369)) (View.ld x6 (Rect.unit (s := S9x4096) ![2, 0] S1x4096.size inb_S9x4096_S1x4096_2_0))⟩,
     ⟨Rect.unit (s := S864x4096) ![320, 0] S32x4096.size inb_S864x4096_S32x4096_320_0,
      k1_pay16 (k1_pay15 (View.ld (xs1 x1 x5) (Rect.unit (s := S32x4864) ![0, 368] S32x4096.size inb_S32x4864_S32x4096_0_368)) (View.ld x6 (Rect.unit (s := S9x4096) ![1, 0] S1x4096.size inb_S9x4096_S1x4096_1_0)))⟩,
     ⟨Rect.unit (s := S864x4096) ![288, 0] S32x4096.size inb_S864x4096_S32x4096_288_0,
      k1_pay14 (View.ld (xs1 x1 x5) (Rect.unit (s := S32x4864) ![0, 367] S32x4096.size inb_S32x4864_S32x4096_0_367)) (View.ld x6 (Rect.unit (s := S9x4096) ![0, 0] S1x4096.size inb_S9x4096_S1x4096_0_0))⟩,
     ⟨Rect.unit (s := S864x4096) ![256, 0] S32x4096.size inb_S864x4096_S32x4096_256_0,
      k1_pay13 (View.ld (xs1 x1 x5) (Rect.unit (s := S32x4864) ![0, 145] S32x4096.size inb_S32x4864_S32x4096_0_145)) (View.ld x6 (Rect.unit (s := S9x4096) ![8, 0] S1x4096.size inb_S9x4096_S1x4096_8_0))⟩,
     ⟨Rect.unit (s := S864x4096) ![224, 0] S32x4096.size inb_S864x4096_S32x4096_224_0,
      k1_pay12 (View.ld (xs1 x1 x5) (Rect.unit (s := S32x4864) ![0, 144] S32x4096.size inb_S32x4864_S32x4096_0_144)) (View.ld x6 (Rect.unit (s := S9x4096) ![7, 0] S1x4096.size inb_S9x4096_S1x4096_7_0))⟩,
     ⟨Rect.unit (s := S864x4096) ![192, 0] S32x4096.size inb_S864x4096_S32x4096_192_0,
      k1_pay11 (k1_pay10 (View.ld (xs1 x1 x5) (Rect.unit (s := S32x4864) ![0, 143] S32x4096.size inb_S32x4864_S32x4096_0_143)) (View.ld x6 (Rect.unit (s := S9x4096) ![6, 0] S1x4096.size inb_S9x4096_S1x4096_6_0)))⟩,
     ⟨Rect.unit (s := S864x4096) ![160, 0] S32x4096.size inb_S864x4096_S32x4096_160_0,
      k1_pay9 (View.ld (xs1 x1 x5) (Rect.unit (s := S32x4864) ![0, 129] S32x4096.size inb_S32x4864_S32x4096_0_129)) (View.ld x6 (Rect.unit (s := S9x4096) ![5, 0] S1x4096.size inb_S9x4096_S1x4096_5_0))⟩,
     ⟨Rect.unit (s := S864x4096) ![128, 0] S32x4096.size inb_S864x4096_S32x4096_128_0,
      k1_pay8 (View.ld (xs1 x1 x5) (Rect.unit (s := S32x4864) ![0, 128] S32x4096.size inb_S32x4864_S32x4096_0_128)) (View.ld x6 (Rect.unit (s := S9x4096) ![4, 0] S1x4096.size inb_S9x4096_S1x4096_4_0))⟩,
     ⟨Rect.unit (s := S864x4096) ![96, 0] S32x4096.size inb_S864x4096_S32x4096_96_0,
      k1_pay7 (View.ld (xs1 x1 x5) (Rect.unit (s := S32x4864) ![0, 127] S32x4096.size inb_S32x4864_S32x4096_0_127)) (View.ld x6 (Rect.unit (s := S9x4096) ![3, 0] S1x4096.size inb_S9x4096_S1x4096_3_0))⟩,
     ⟨Rect.unit (s := S864x4096) ![64, 0] S32x4096.size inb_S864x4096_S32x4096_64_0,
      k1_pay6 (k1_pay5 (View.ld (xs1 x1 x5) (Rect.unit (s := S32x4864) ![0, 113] S32x4096.size inb_S32x4864_S32x4096_0_113)) (View.ld x6 (Rect.unit (s := S9x4096) ![2, 0] S1x4096.size inb_S9x4096_S1x4096_2_0)))⟩,
     ⟨Rect.unit (s := S864x4096) ![32, 0] S32x4096.size inb_S864x4096_S32x4096_32_0,
      k1_pay4 (View.ld (xs1 x1 x5) (Rect.unit (s := S32x4864) ![0, 112] S32x4096.size inb_S32x4864_S32x4096_0_112)) (View.ld x6 (Rect.unit (s := S9x4096) ![1, 0] S1x4096.size inb_S9x4096_S1x4096_1_0))⟩,
     ⟨Rect.unit (s := S864x4096) ![0, 0] S32x4096.size inb_S864x4096_S32x4096_0_0,
      k1_pay3 (View.ld (xs1 x1 x5) (Rect.unit (s := S32x4864) ![0, 111] S32x4096.size inb_S32x4864_S32x4096_0_111)) (View.ld x6 (Rect.unit (s := S9x4096) ![0, 0] S1x4096.size inb_S9x4096_S1x4096_0_0))⟩]

/-- Window 6's buffer after the body: 384 zero lanes, the 4096 lanes of the product of the weights with the
    stacked taps, 384 zero lanes (the last written first). -/
def out1_6 (x1 : Vec F S1x32x4864 .f32) (x2 : Vec F S64x864 .f32) (x5 : Vec F S1x4864 .f32) (x6 : Vec F S9x4096 .f32) : Vec F S1x64x4864 .f32 :=
  View.canon
    [⟨Rect.unit (s := S1x64x4864) ![0, 0, 4480] S1x64x384.size inb_S1x64x4864_S1x64x384_0_0_4480, k1_pay40⟩,
     ⟨Rect.unit (s := S1x64x4864) ![0, 0, 384] S1x64x4096.size inb_S1x64x4864_S1x64x4096_0_0_384, k1_pay39 (View.ld x2 (Rect.unit (s := S64x864) ![0, 0] S64x864.size inb_S64x864_S64x864_0_0)) (View.ld (cols1 x1 x5 x6) (Rect.unit (s := S864x4096) ![0, 0] S864x4096.size inb_S864x4096_S864x4096_0_0))⟩,
     ⟨Rect.unit (s := S1x64x4864) ![0, 0, 0] S1x64x384.size inb_S1x64x4864_S1x64x384_0_0_0, k1_pay38⟩]

/-- Window 7's buffer after the body: the product's sum over the lanes, channel by channel. -/
def out1_7 (x1 : Vec F S1x32x4864 .f32) (x2 : Vec F S64x864 .f32) (x5 : Vec F S1x4864 .f32) (x6 : Vec F S9x4096 .f32) : Vec F S1x64x1 .f32 :=
  View.canon [⟨Rect.unit (s := S1x64x1) ![0, 0, 0] S1x64x1.size inb_S1x64x1_S1x64x1_0_0_0, k1_pay41 (View.ld x2 (Rect.unit (s := S64x864) ![0, 0] S64x864.size inb_S64x864_S64x864_0_0)) (View.ld (cols1 x1 x5 x6) (Rect.unit (s := S864x4096) ![0, 0] S864x4096.size inb_S864x4096_S864x4096_0_0))⟩]

/-- Window 8's buffer after the body: the sum of the product's squares over the lanes, channel by channel. -/
def out1_8 (x1 : Vec F S1x32x4864 .f32) (x2 : Vec F S64x864 .f32) (x5 : Vec F S1x4864 .f32) (x6 : Vec F S9x4096 .f32) : Vec F S1x64x1 .f32 :=
  View.canon [⟨Rect.unit (s := S1x64x1) ![0, 0, 0] S1x64x1.size inb_S1x64x1_S1x64x1_0_0_0, k1_pay1 (k1_pay42 (View.ld x2 (Rect.unit (s := S64x864) ![0, 0] S64x864.size inb_S64x864_S64x864_0_0)) (View.ld (cols1 x1 x5 x6) (Rect.unit (s := S864x4096) ![0, 0] S864x4096.size inb_S864x4096_S864x4096_0_0)))⟩]

/-- The three stores into window 6's buffer cover it: cut into blocks of 128 lanes they tile it. -/
theorem cover1_6 (p0 : S1x64x384.Idx → Elt F .f32) (p1 : S1x64x4096.Idx → Elt F .f32) (p2 : S1x64x384.Idx → Elt F .f32) (y : S1x64x4864.Idx) :
    ∃ pc ∈ ([⟨Rect.unit (s := S1x64x4864) ![0, 0, 4480] S1x64x384.size inb_S1x64x4864_S1x64x384_0_0_4480, p0⟩, ⟨Rect.unit (s := S1x64x4864) ![0, 0, 384] S1x64x4096.size inb_S1x64x4864_S1x64x4096_0_0_384, p1⟩, ⟨Rect.unit (s := S1x64x4864) ![0, 0, 0] S1x64x384.size inb_S1x64x4864_S1x64x384_0_0_0, p2⟩] : List (View.Piece (Elt F) S1x64x4864 .f32)), y ∈ pc.1.set :=
  View.cover_of_tiledBy _ ![1, 64, 128] (by sl_kernel_rfl) y

/-- One store of the whole buffer covers it. -/
theorem cover1_7 (p0 : S1x64x1.Idx → Elt F .f32) (y : S1x64x1.Idx) :
    ∃ pc ∈ ([⟨Rect.unit (s := S1x64x1) ![0, 0, 0] S1x64x1.size inb_S1x64x1_S1x64x1_0_0_0, p0⟩] : List (View.Piece (Elt F) S1x64x1 .f32)), y ∈ pc.1.set :=
  View.cover_of_tiled _ S1x64x1.size (by rfl) y

/-- A load of a box that the earlier stores `L` cover reads the contents they leave, through the box's rectangle,
    whatever the view. -/
theorem readCov_rect {sig' : RefSig} {κ : Kind} {sp : Space} {s : Shape} {e : EltTy}
    (v : View sig' κ sp s e) (L : List (View.Piece (Elt F) s e)) (r : Rect s) :
    v.readCov L r.toLoadRect = View.ld (View.canon L) r :=
  View.readCov_eq_canon' v L r.toLoadRect

set_option maxHeartbeats 4000000 in
/-- The body on whole staging memrefs — the inputs' at their contents, the outputs' and the scratch buffers' at
    anything — runs to the continuation holding the inputs' as they were, each output's at `out1_W` of the input
    blocks and each scratch buffer at some contents. -/
theorem sound_kernel1 (c : Dev nD) (E : Set ℕ) (i : grid1.Coords) (arg1 : Memref sig .tc .vmem S1x32x4864 .f32) (harg1 : arg1.IsWhole) (arg2 : Memref sig .tc .vmem S64x864 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S1x4864 .f32) (harg5 : arg5.IsWhole) (arg6 : Memref sig .tc .vmem S9x4096 .f32) (harg6 : arg6.IsWhole) (arg7 : Memref sig .tc .vmem S1x64x4864 .f32) (harg7 : arg7.IsWhole) (arg8 : Memref sig .tc .vmem S1x64x1 .f32) (harg8 : arg8.IsWhole) (arg9 : Memref sig .tc .vmem S1x64x1 .f32) (harg9 : arg9.IsWhole) (arg10 : Memref sig .tc .vmem S32x4864 .f32) (harg10 : arg10.IsWhole) (arg11 : Memref sig .tc .vmem S864x4096 .f32) (harg11 : arg11.IsWhole)
    (x1 : Vec F S1x32x4864 .f32) (x2 : Vec F S64x864 .f32) (x3 : Vec F S32x1 .f32) (x4 : Vec F S32x1 .f32) (x5 : Vec F S1x4864 .f32) (x6 : Vec F S9x4096 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6
            ∗ owns (c : Thread nD τ) arg7 fullShare (out1_6 x1 x2 x5 x6) ∗ owns (c : Thread nD τ) arg8 fullShare (out1_7 x1 x2 x5 x6) ∗ owns (c : Thread nD τ) arg9 fullShare (out1_8 x1 x2 x5 x6)
            ∗ (∃ d, owns (c : Thread nD τ) arg10 fullShare d) ∗ (∃ d, owns (c : Thread nD τ) arg11 fullShare d)) -∗ K ⟨⟩))
      ⊢ wp frame (wpE (defs₀ (F := F)) Variants.none c none) E (cc1__conv3x3x3_kernel i arg1 harg1 arg2 harg2 arg3 harg3 arg4 harg4 arg5 harg5 arg6 harg6 arg7 harg7 arg8 harg8 arg9 harg9 arg10 harg10 arg11 harg11) K := by
  simp only [cc1__conv3x3x3_kernel_eq_skeleton]; unfold cc1__conv3x3x3_kernel_skel
  simp only [k1_part8_eq_skeleton, k1_part1_eq_skeleton, k1_part2_eq_skeleton, k1_part3_eq_skeleton, k1_part4_eq_skeleton, k1_part5_eq_skeleton, k1_part6_eq_skeleton, k1_part7_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, Hk⟩
  subst hf1; subst hf2; subst hf3; subst hf4; subst hf5; subst hf6
  sl_exec
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]
  · iexists _; isplitr
    swap; · iexact H7
    ipureintro
    refine (View.read_writes_eq_canon _ _ _ (cover1_6 _ _ _)).trans ?_
    unfold out1_6 cols1 xs1
    sl_unfold_run_names
    simp only [readCov_rect, View.readAt_eq_ld]
  isplitl [H8]
  · iexists _; isplitr
    swap; · iexact H8
    ipureintro
    refine (View.read_writes_eq_canon _ _ _ (cover1_7 _)).trans ?_
    unfold out1_7 cols1 xs1
    sl_unfold_run_names
    simp only [readCov_rect, View.readAt_eq_ld]
  isplitl [H9]
  · iexists _; isplitr
    swap; · iexact H9
    ipureintro
    refine (View.read_writes_eq_canon _ _ _ (cover1_7 _)).trans ?_
    unfold out1_8 cols1 xs1
    sl_unfold_run_names
    simp only [readCov_rect, View.readAt_eq_ld]
  isplitl [H10]
  · iexists _; iexists _; isplitr
    swap; · iexact H10
    ipureintro; rfl
  iexists _; iexists _; isplitr
  swap; · iexact H11
  ipureintro; rfl

end Cert.ReferenceIdeal.Body

end
-- ==== Proof.ReferenceIdealBody2.lean ====
import proofs.«157750_g2000200144022539_pallasbulk_675_13_alg».proof.Proof.Gen.ReferenceIdeal.Skeleton
import Idealize.ShloMosaic.Lib.Pipeline.FrameBody
import Idealize.ShloMosaic.Lib.Pipeline.Value
import Idealize.ShloMosaic.Lib.Ring
import Idealize.ShloMosaic.Lib.Tactic

/-! # The body of the reference's second convolution (batch-norm affine map, rectifier and halo mask on load; a
3×3×3 convolution as 27 masked shifted copies and one product; the row sums of the product and of its square), at a
grid point

The body reads six input blocks: the activations x1, the folded weights x2, the per-channel scale x3 and shift x4, the
lane mask x5 that zeroes the halo, and the nine border masks x6. It writes three output blocks (the product out2_6, its
row sums out2_7, the row sums of its square out2_8). It owns two scratch buffers; each is written in full before
anything that is used is loaded from it, so what the outputs hold after the body is a function of the six input blocks
alone. -/

set_option maxRecDepth 16384

noncomputable section

namespace Cert.ReferenceIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.ReferenceIdeal.Gen

variable {F : FTy → Type} [FloatOps F]

local notation "𝕄" => MT nD τ sig Unit (Elt F) ℕ (UR sig nD τ) ℕ

/-! ## The rectangles the body reads and writes -/

/-- The whole activation block. -/
abbrev r2_x : Rect S1x64x4864 := Rect.unit (s := S1x64x4864) ![0, 0, 0] S1x64x4864.size inb_S1x64x4864_S1x64x4864_0_0_0
/-- The whole weight block. -/
abbrev r2_w : Rect S64x1728 := Rect.unit (s := S64x1728) ![0, 0] S64x1728.size inb_S64x1728_S64x1728_0_0
/-- The whole per-channel column (scale, shift). -/
abbrev r2_col : Rect S64x1 := Rect.unit (s := S64x1) ![0, 0] S64x1.size inb_S64x1_S64x1_0_0
/-- The whole lane mask. -/
abbrev r2_valid : Rect S1x4864 := Rect.unit (s := S1x4864) ![0, 0] S1x4864.size inb_S1x4864_S1x4864_0_0
/-- The whole first scratch (the activated, masked, halo'd rows). -/
abbrev r2_xs : Rect S64x4864 := Rect.unit (s := S64x4864) ![0, 0] S64x4864.size inb_S64x4864_S64x4864_0_0
/-- The whole second scratch (the 27 copies). -/
abbrev r2_cols : Rect S1728x4096 := Rect.unit (s := S1728x4096) ![0, 0] S1728x4096.size inb_S1728x4096_S1728x4096_0_0
/-- The whole product block. -/
abbrev r2_y : Rect S1x64x4096 := Rect.unit (s := S1x64x4096) ![0, 0, 0] S1x64x4096.size inb_S1x64x4096_S1x64x4096_0_0_0
/-- The whole row-sum block. -/
abbrev r2_s : Rect S1x64x1 := Rect.unit (s := S1x64x1) ![0, 0, 0] S1x64x1.size inb_S1x64x1_S1x64x1_0_0_0
/-- The 27 shifted lane windows of the first scratch: tap t = 9·kd + 3·kh + kw starts at lane
    384 + 256·(kd-1) + 16·(kh-1) + (kw-1). -/
abbrev r2_tap0 : Rect S64x4864 := Rect.unit (s := S64x4864) ![0, 111] S64x4096.size inb_S64x4864_S64x4096_0_111
abbrev r2_tap1 : Rect S64x4864 := Rect.unit (s := S64x4864) ![0, 112] S64x4096.size inb_S64x4864_S64x4096_0_112
abbrev r2_tap2 : Rect S64x4864 := Rect.unit (s := S64x4864) ![0, 113] S64x4096.size inb_S64x4864_S64x4096_0_113
abbrev r2_tap3 : Rect S64x4864 := Rect.unit (s := S64x4864) ![0, 127] S64x4096.size inb_S64x4864_S64x4096_0_127
abbrev r2_tap4 : Rect S64x4864 := Rect.unit (s := S64x4864) ![0, 128] S64x4096.size inb_S64x4864_S64x4096_0_128
abbrev r2_tap5 : Rect S64x4864 := Rect.unit (s := S64x4864) ![0, 129] S64x4096.size inb_S64x4864_S64x4096_0_129
abbrev r2_tap6 : Rect S64x4864 := Rect.unit (s := S64x4864) ![0, 143] S64x4096.size inb_S64x4864_S64x4096_0_143
abbrev r2_tap7 : Rect S64x4864 := Rect.unit (s := S64x4864) ![0, 144] S64x4096.size inb_S64x4864_S64x4096_0_144
abbrev r2_tap8 : Rect S64x4864 := Rect.unit (s := S64x4864) ![0, 145] S64x4096.size inb_S64x4864_S64x4096_0_145
abbrev r2_tap9 : Rect S64x4864 := Rect.unit (s := S64x4864) ![0, 367] S64x4096.size inb_S64x4864_S64x4096_0_367
abbrev r2_tap10 : Rect S64x4864 := Rect.unit (s := S64x4864) ![0, 368] S64x4096.size inb_S64x4864_S64x4096_0_368
abbrev r2_tap11 : Rect S64x4864 := Rect.unit (s := S64x4864) ![0, 369] S64x4096.size inb_S64x4864_S64x4096_0_369
abbrev r2_tap12 : Rect S64x4864 := Rect.unit (s := S64x4864) ![0, 383] S64x4096.size inb_S64x4864_S64x4096_0_383
abbrev r2_tap13 : Rect S64x4864 := Rect.unit (s := S64x4864) ![0, 384] S64x4096.size inb_S64x4864_S64x4096_0_384
abbrev r2_tap14 : Rect S64x4864 := Rect.unit (s := S64x4864) ![0, 385] S64x4096.size inb_S64x4864_S64x4096_0_385
abbrev r2_tap15 : Rect S64x4864 := Rect.unit (s := S64x4864) ![0, 399] S64x4096.size inb_S64x4864_S64x4096_0_399
abbrev r2_tap16 : Rect S64x4864 := Rect.unit (s := S64x4864) ![0, 400] S64x4096.size inb_S64x4864_S64x4096_0_400
abbrev r2_tap17 : Rect S64x4864 := Rect.unit (s := S64x4864) ![0, 401] S64x4096.size inb_S64x4864_S64x4096_0_401
abbrev r2_tap18 : Rect S64x4864 := Rect.unit (s := S64x4864) ![0, 623] S64x4096.size inb_S64x4864_S64x4096_0_623
abbrev r2_tap19 : Rect S64x4864 := Rect.unit (s := S64x4864) ![0, 624] S64x4096.size inb_S64x4864_S64x4096_0_624
abbrev r2_tap20 : Rect S64x4864 := Rect.unit (s := S64x4864) ![0, 625] S64x4096.size inb_S64x4864_S64x4096_0_625
abbrev r2_tap21 : Rect S64x4864 := Rect.unit (s := S64x4864) ![0, 639] S64x4096.size inb_S64x4864_S64x4096_0_639
abbrev r2_tap22 : Rect S64x4864 := Rect.unit (s := S64x4864) ![0, 640] S64x4096.size inb_S64x4864_S64x4096_0_640
abbrev r2_tap23 : Rect S64x4864 := Rect.unit (s := S64x4864) ![0, 641] S64x4096.size inb_S64x4864_S64x4096_0_641
abbrev r2_tap24 : Rect S64x4864 := Rect.unit (s := S64x4864) ![0, 655] S64x4096.size inb_S64x4864_S64x4096_0_655
abbrev r2_tap25 : Rect S64x4864 := Rect.unit (s := S64x4864) ![0, 656] S64x4096.size inb_S64x4864_S64x4096_0_656
abbrev r2_tap26 : Rect S64x4864 := Rect.unit (s := S64x4864) ![0, 657] S64x4096.size inb_S64x4864_S64x4096_0_657
/-- The border masks' rows: tap t uses row t % 9. -/
abbrev r2_mask0 : Rect S9x4096 := Rect.unit (s := S9x4096) ![0, 0] S1x4096.size inb_S9x4096_S1x4096_0_0
abbrev r2_mask1 : Rect S9x4096 := Rect.unit (s := S9x4096) ![1, 0] S1x4096.size inb_S9x4096_S1x4096_1_0
abbrev r2_mask2 : Rect S9x4096 := Rect.unit (s := S9x4096) ![2, 0] S1x4096.size inb_S9x4096_S1x4096_2_0
abbrev r2_mask3 : Rect S9x4096 := Rect.unit (s := S9x4096) ![3, 0] S1x4096.size inb_S9x4096_S1x4096_3_0
abbrev r2_mask4 : Rect S9x4096 := Rect.unit (s := S9x4096) ![4, 0] S1x4096.size inb_S9x4096_S1x4096_4_0
abbrev r2_mask5 : Rect S9x4096 := Rect.unit (s := S9x4096) ![5, 0] S1x4096.size inb_S9x4096_S1x4096_5_0
abbrev r2_mask6 : Rect S9x4096 := Rect.unit (s := S9x4096) ![6, 0] S1x4096.size inb_S9x4096_S1x4096_6_0
abbrev r2_mask7 : Rect S9x4096 := Rect.unit (s := S9x4096) ![7, 0] S1x4096.size inb_S9x4096_S1x4096_7_0
abbrev r2_mask8 : Rect S9x4096 := Rect.unit (s := S9x4096) ![8, 0] S1x4096.size inb_S9x4096_S1x4096_8_0
/-- The 27 row bands of the second scratch: tap t is rows 64·t … 64·t + 63. -/
abbrev r2_row0 : Rect S1728x4096 := Rect.unit (s := S1728x4096) ![0, 0] S64x4096.size inb_S1728x4096_S64x4096_0_0
abbrev r2_row1 : Rect S1728x4096 := Rect.unit (s := S1728x4096) ![64, 0] S64x4096.size inb_S1728x4096_S64x4096_64_0
abbrev r2_row2 : Rect S1728x4096 := Rect.unit (s := S1728x4096) ![128, 0] S64x4096.size inb_S1728x4096_S64x4096_128_0
abbrev r2_row3 : Rect S1728x4096 := Rect.unit (s := S1728x4096) ![192, 0] S64x4096.size inb_S1728x4096_S64x4096_192_0
abbrev r2_row4 : Rect S1728x4096 := Rect.unit (s := S1728x4096) ![256, 0] S64x4096.size inb_S1728x4096_S64x4096_256_0
abbrev r2_row5 : Rect S1728x4096 := Rect.unit (s := S1728x4096) ![320, 0] S64x4096.size inb_S1728x4096_S64x4096_320_0
abbrev r2_row6 : Rect S1728x4096 := Rect.unit (s := S1728x4096) ![384, 0] S64x4096.size inb_S1728x4096_S64x4096_384_0
abbrev r2_row7 : Rect S1728x4096 := Rect.unit (s := S1728x4096) ![448, 0] S64x4096.size inb_S1728x4096_S64x4096_448_0
abbrev r2_row8 : Rect S1728x4096 := Rect.unit (s := S1728x4096) ![512, 0] S64x4096.size inb_S1728x4096_S64x4096_512_0
abbrev r2_row9 : Rect S1728x4096 := Rect.unit (s := S1728x4096) ![576, 0] S64x4096.size inb_S1728x4096_S64x4096_576_0
abbrev r2_row10 : Rect S1728x4096 := Rect.unit (s := S1728x4096) ![640, 0] S64x4096.size inb_S1728x4096_S64x4096_640_0
abbrev r2_row11 : Rect S1728x4096 := Rect.unit (s := S1728x4096) ![704, 0] S64x4096.size inb_S1728x4096_S64x4096_704_0
abbrev r2_row12 : Rect S1728x4096 := Rect.unit (s := S1728x4096) ![768, 0] S64x4096.size inb_S1728x4096_S64x4096_768_0
abbrev r2_row13 : Rect S1728x4096 := Rect.unit (s := S1728x4096) ![832, 0] S64x4096.size inb_S1728x4096_S64x4096_832_0
abbrev r2_row14 : Rect S1728x4096 := Rect.unit (s := S1728x4096) ![896, 0] S64x4096.size inb_S1728x4096_S64x4096_896_0
abbrev r2_row15 : Rect S1728x4096 := Rect.unit (s := S1728x4096) ![960, 0] S64x4096.size inb_S1728x4096_S64x4096_960_0
abbrev r2_row16 : Rect S1728x4096 := Rect.unit (s := S1728x4096) ![1024, 0] S64x4096.size inb_S1728x4096_S64x4096_1024_0
abbrev r2_row17 : Rect S1728x4096 := Rect.unit (s := S1728x4096) ![1088, 0] S64x4096.size inb_S1728x4096_S64x4096_1088_0
abbrev r2_row18 : Rect S1728x4096 := Rect.unit (s := S1728x4096) ![1152, 0] S64x4096.size inb_S1728x4096_S64x4096_1152_0
abbrev r2_row19 : Rect S1728x4096 := Rect.unit (s := S1728x4096) ![1216, 0] S64x4096.size inb_S1728x4096_S64x4096_1216_0
abbrev r2_row20 : Rect S1728x4096 := Rect.unit (s := S1728x4096) ![1280, 0] S64x4096.size inb_S1728x4096_S64x4096_1280_0
abbrev r2_row21 : Rect S1728x4096 := Rect.unit (s := S1728x4096) ![1344, 0] S64x4096.size inb_S1728x4096_S64x4096_1344_0
abbrev r2_row22 : Rect S1728x4096 := Rect.unit (s := S1728x4096) ![1408, 0] S64x4096.size inb_S1728x4096_S64x4096_1408_0
abbrev r2_row23 : Rect S1728x4096 := Rect.unit (s := S1728x4096) ![1472, 0] S64x4096.size inb_S1728x4096_S64x4096_1472_0
abbrev r2_row24 : Rect S1728x4096 := Rect.unit (s := S1728x4096) ![1536, 0] S64x4096.size inb_S1728x4096_S64x4096_1536_0
abbrev r2_row25 : Rect S1728x4096 := Rect.unit (s := S1728x4096) ![1600, 0] S64x4096.size inb_S1728x4096_S64x4096_1600_0
abbrev r2_row26 : Rect S1728x4096 := Rect.unit (s := S1728x4096) ![1664, 0] S64x4096.size inb_S1728x4096_S64x4096_1664_0

/-! ## What the body holds along the way, from the input blocks -/

/-- The first scratch after its one store: the activated, masked rows. -/
def xs2 (x1 : Vec F S1x64x4864 .f32) (x3 x4 : Vec F S64x1 .f32) (x5 : Vec F S1x4864 .f32) : Vec F S64x4864 .f32 :=
  View.canon [⟨r2_xs, k2_pay2 (View.ld x1 r2_x) (View.ld x3 r2_col) (View.ld x4 r2_col) (View.ld x5 r2_valid)⟩]

/-- The second scratch after its 27 stores (last first): the 27 masked shifted copies, one row band each. -/
def cols2 (X : Vec F S64x4864 .f32) (x6 : Vec F S9x4096 .f32) : Vec F S1728x4096 .f32 :=
  View.canon [
    ⟨r2_row26, k2_pay36 (View.ld X r2_tap26) (View.ld x6 r2_mask8)⟩,
    ⟨r2_row25, k2_pay35 (k2_pay34 (View.ld X r2_tap25) (View.ld x6 r2_mask7))⟩,
    ⟨r2_row24, k2_pay33 (View.ld X r2_tap24) (View.ld x6 r2_mask6)⟩,
    ⟨r2_row23, k2_pay32 (View.ld X r2_tap23) (View.ld x6 r2_mask5)⟩,
    ⟨r2_row22, k2_pay31 (View.ld X r2_tap22) (View.ld x6 r2_mask4)⟩,
    ⟨r2_row21, k2_pay30 (k2_pay29 (View.ld X r2_tap21) (View.ld x6 r2_mask3))⟩,
    ⟨r2_row20, k2_pay28 (View.ld X r2_tap20) (View.ld x6 r2_mask2)⟩,
    ⟨r2_row19, k2_pay27 (View.ld X r2_tap19) (View.ld x6 r2_mask1)⟩,
    ⟨r2_row18, k2_pay26 (View.ld X r2_tap18) (View.ld x6 r2_mask0)⟩,
    ⟨r2_row17, k2_pay25 (k2_pay24 (View.ld X r2_tap17) (View.ld x6 r2_mask8))⟩,
    ⟨r2_row16, k2_pay23 (View.ld X r2_tap16) (View.ld x6 r2_mask7)⟩,
    ⟨r2_row15, k2_pay22 (View.ld X r2_tap15) (View.ld x6 r2_mask6)⟩,
    ⟨r2_row14, k2_pay21 (View.ld X r2_tap14) (View.ld x6 r2_mask5)⟩,
    ⟨r2_row13, k2_pay20 (k2_pay19 (View.ld X r2_tap13) (View.ld x6 r2_mask4))⟩,
    ⟨r2_row12, k2_pay18 (View.ld X r2_tap12) (View.ld x6 r2_mask3)⟩,
    ⟨r2_row11, k2_pay17 (View.ld X r2_tap11) (View.ld x6 r2_mask2)⟩,
    ⟨r2_row10, k2_pay16 (View.ld X r2_tap10) (View.ld x6 r2_mask1)⟩,
    ⟨r2_row9, k2_pay15 (k2_pay14 (View.ld X r2_tap9) (View.ld x6 r2_mask0))⟩,
    ⟨r2_row8, k2_pay13 (View.ld X r2_tap8) (View.ld x6 r2_mask8)⟩,
    ⟨r2_row7, k2_pay12 (View.ld X r2_tap7) (View.ld x6 r2_mask7)⟩,
    ⟨r2_row6, k2_pay11 (View.ld X r2_tap6) (View.ld x6 r2_mask6)⟩,
    ⟨r2_row5, k2_pay10 (k2_pay9 (View.ld X r2_tap5) (View.ld x6 r2_mask5))⟩,
    ⟨r2_row4, k2_pay8 (View.ld X r2_tap4) (View.ld x6 r2_mask4)⟩,
    ⟨r2_row3, k2_pay7 (View.ld X r2_tap3) (View.ld x6 r2_mask3)⟩,
    ⟨r2_row2, k2_pay6 (View.ld X r2_tap2) (View.ld x6 r2_mask2)⟩,
    ⟨r2_row1, k2_pay5 (k2_pay4 (View.ld X r2_tap1) (View.ld x6 r2_mask1))⟩,
    ⟨r2_row0, k2_pay3 (View.ld X r2_tap0) (View.ld x6 r2_mask0)⟩]

/-! ## What the body leaves in each output block -/

/-- The product block after the body. -/
def out2_6 (x1 : Vec F S1x64x4864 .f32) (x2 : Vec F S64x1728 .f32) (x3 x4 : Vec F S64x1 .f32) (x5 : Vec F S1x4864 .f32)
    (x6 : Vec F S9x4096 .f32) : Vec F S1x64x4096 .f32 :=
  View.canon [⟨r2_y, k2_pay38 (View.ld x2 r2_w) (View.ld (cols2 (xs2 x1 x3 x4 x5) x6) r2_cols)⟩]

/-- The product's row sums after the body. -/
def out2_7 (x1 : Vec F S1x64x4864 .f32) (x2 : Vec F S64x1728 .f32) (x3 x4 : Vec F S64x1 .f32) (x5 : Vec F S1x4864 .f32)
    (x6 : Vec F S9x4096 .f32) : Vec F S1x64x1 .f32 :=
  View.canon [⟨r2_s, k2_pay39 (View.ld x2 r2_w) (View.ld (cols2 (xs2 x1 x3 x4 x5) x6) r2_cols)⟩]

/-- The row sums of the product's square after the body. -/
def out2_8 (x1 : Vec F S1x64x4864 .f32) (x2 : Vec F S64x1728 .f32) (x3 x4 : Vec F S64x1 .f32) (x5 : Vec F S1x4864 .f32)
    (x6 : Vec F S9x4096 .f32) : Vec F S1x64x1 .f32 :=
  View.canon [⟨r2_s, k2_pay1 (k2_pay40 (View.ld x2 r2_w) (View.ld (cols2 (xs2 x1 x3 x4 x5) x6) r2_cols))⟩]

/-- The one store of the product covers its block. -/
theorem cover2_6 (p0 : Vec F S1x64x4096 .f32) (y : S1x64x4096.Idx) :
    ∃ pc ∈ ([⟨r2_y, p0⟩] : List (View.Piece (Elt F) S1x64x4096 .f32)), y ∈ pc.1.set :=
  View.cover_of_tiled [⟨r2_y, p0⟩] S1x64x4096.size (by rfl) y

/-- The one store of a row-sum block covers it. -/
theorem cover2_7 (p0 : Vec F S1x64x1 .f32) (y : S1x64x1.Idx) :
    ∃ pc ∈ ([⟨r2_s, p0⟩] : List (View.Piece (Elt F) S1x64x1 .f32)), y ∈ pc.1.set :=
  View.cover_of_tiled [⟨r2_s, p0⟩] S1x64x1.size (by rfl) y

/-- A load the earlier stores cover reads their canon through its rectangle, whatever the view. -/
theorem readCov2_toLoadRect {sig' : RefSig} {κ : Kind} {sp : Space} {s : Shape} {e : EltTy}
    (v : View sig' κ sp s e) (L : List (View.Piece (Elt F) s e)) (r : Rect s) :
    v.readCov L r.toLoadRect = View.ld (View.canon L) r :=
  View.readCov_eq_canon' v L r.toLoadRect

/-! ## The body's triple -/

set_option maxHeartbeats 8000000 in
/-- The body on whole memrefs, the six inputs' at read contents x1 … x6, the three outputs' and the two scratch
    buffers' at anything, runs to the continuation holding the inputs' as they were, each output's at its out2_W of
    the inputs', and the scratch buffers' at some contents. -/
theorem sound_kernel2 (c : Dev nD) (E : Set ℕ) (i : grid2.Coords)
    (arg1 : Memref sig .tc .vmem S1x64x4864 .f32) (harg1 : arg1.IsWhole)
    (arg2 : Memref sig .tc .vmem S64x1728 .f32) (harg2 : arg2.IsWhole)
    (arg3 : Memref sig .tc .vmem S64x1 .f32) (harg3 : arg3.IsWhole)
    (arg4 : Memref sig .tc .vmem S64x1 .f32) (harg4 : arg4.IsWhole)
    (arg5 : Memref sig .tc .vmem S1x4864 .f32) (harg5 : arg5.IsWhole)
    (arg6 : Memref sig .tc .vmem S9x4096 .f32) (harg6 : arg6.IsWhole)
    (arg7 : Memref sig .tc .vmem S1x64x4096 .f32) (harg7 : arg7.IsWhole)
    (arg8 : Memref sig .tc .vmem S1x64x1 .f32) (harg8 : arg8.IsWhole)
    (arg9 : Memref sig .tc .vmem S1x64x1 .f32) (harg9 : arg9.IsWhole)
    (arg10 : Memref sig .tc .vmem S64x4864 .f32) (harg10 : arg10.IsWhole)
    (arg11 : Memref sig .tc .vmem S1728x4096 .f32) (harg11 : arg11.IsWhole)
    (x1 : Vec F S1x64x4864 .f32) (x2 : Vec F S64x1728 .f32) (x3 x4 : Vec F S64x1 .f32) (x5 : Vec F S1x4864 .f32)
    (x6 : Vec F S9x4096 .f32) (K : PUnit → sProp 𝕄) :
    iprop(owns (c : Thread nD τ) arg1 fullShare x1 ∗ owns (c : Thread nD τ) arg2 fullShare x2
        ∗ owns (c : Thread nD τ) arg3 fullShare x3 ∗ owns (c : Thread nD τ) arg4 fullShare x4
        ∗ owns (c : Thread nD τ) arg5 fullShare x5 ∗ owns (c : Thread nD τ) arg6 fullShare x6
        ∗ (∃ d, owns (c : Thread nD τ) arg7 fullShare d) ∗ (∃ d, owns (c : Thread nD τ) arg8 fullShare d)
        ∗ (∃ d, owns (c : Thread nD τ) arg9 fullShare d)
        ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare (out2_6 x1 x2 x3 x4 x5 x6)
            ∗ owns (c : Thread nD τ) arg8 fullShare (out2_7 x1 x2 x3 x4 x5 x6)
            ∗ owns (c : Thread nD τ) arg9 fullShare (out2_8 x1 x2 x3 x4 x5 x6)
            ∗ (∃ d, owns (c : Thread nD τ) arg10 fullShare d) ∗ (∃ d, owns (c : Thread nD τ) arg11 fullShare d)) -∗ K ⟨⟩))
      ⊢ wp frame (wpE (defs₀ (F := F)) Variants.none c none) E
          (cc2__conv3x3x3_kernel i arg1 harg1 arg2 harg2 arg3 harg3 arg4 harg4 arg5 harg5 arg6 harg6 arg7 harg7 arg8 harg8 arg9 harg9 arg10 harg10 arg11 harg11) K := by
  simp only [cc2__conv3x3x3_kernel_eq_skeleton]; unfold cc2__conv3x3x3_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩,
    ⟨%d7, %f7, -, H7⟩, ⟨%d8, %f8, -, H8⟩, ⟨%d9, %f9, -, H9⟩, ⟨%d10, %f10, -, H10⟩, ⟨%d11, %f11, -, H11⟩, Hk⟩
  subst hf1; subst hf2; subst hf3; subst hf4; subst hf5; subst hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    refine (View.read_writes_eq_canon _ _ _ (cover2_6 _)).trans ?_
    unfold out2_6 cols2 xs2
    sl_unfold_run_names
    simp only [readCov2_toLoadRect, View.readAt_eq_ld]
  isplitl [H8]
  · iexists _; isplitr
    swap; · iexact H8
    ipureintro
    refine (View.read_writes_eq_canon _ _ _ (cover2_7 _)).trans ?_
    unfold out2_7 cols2 xs2
    sl_unfold_run_names
    simp only [readCov2_toLoadRect, View.readAt_eq_ld]
  isplitl [H9]
  · iexists _; isplitr
    swap; · iexact H9
    ipureintro
    refine (View.read_writes_eq_canon _ _ _ (cover2_7 _)).trans ?_
    unfold out2_8 cols2 xs2
    sl_unfold_run_names
    simp only [readCov2_toLoadRect, View.readAt_eq_ld]
  isplitl [H10]
  · iexists _; iexists _; isplitr
    swap; · iexact H10
    ipureintro; rfl
  iexists _; iexists _; isplitr
  swap; · iexact H11
  ipureintro; rfl

end Cert.ReferenceIdeal.Body

end
-- ==== Proof.ReferenceIdealBody3.lean ====
import proofs.«157750_g2000200144022539_pallasbulk_675_13_alg».proof.Proof.Gen.ReferenceIdeal.Skeleton
import Idealize.ShloMosaic.Lib.Pipeline.FrameBody
import Idealize.ShloMosaic.Lib.Ring
import Idealize.ShloMosaic.Lib.Tactic

set_option maxRecDepth 16384

noncomputable section

namespace Cert.ReferenceIdeal.Body

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev r3_blk : Rect S1x64x4096 := Rect.unit (s := S1x64x4096) ![0, 0, 0] S1x64x4096.size inb_S1x64x4096_S1x64x4096_0_0_0

abbrev r3_col : Rect S64x1 := Rect.unit (s := S64x1) ![0, 0] S64x1.size inb_S64x1_S64x1_0_0

def out3_3 (x1 : Vec F S1x64x4096 .f32) (x2 : Vec F S64x1 .f32) (x3 : Vec F S64x1 .f32) : Vec F S1x64x4096 .f32 :=
  View.canon [⟨r3_blk, k3_pay1 (View.ld x1 r3_blk) (View.ld x2 r3_col) (View.ld x3 r3_col)⟩]

theorem cover3_3 (p0 : Vec F S1x64x4096 .f32) (y : S1x64x4096.Idx) :
    ∃ pc ∈ ([⟨r3_blk, p0⟩] : List (View.Piece (Elt F) S1x64x4096 .f32)), y ∈ pc.1.set :=
  View.cover_of_tiled [⟨r3_blk, p0⟩] S1x64x4096.size (by rfl) y

set_option maxHeartbeats 1000000 in

theorem sound_kernel3 (c : Dev nD) (E : Set ℕ) (i : grid3.Coords)
    (arg1 : Memref sig .tc .vmem S1x64x4096 .f32) (harg1 : arg1.IsWhole)
    (arg2 : Memref sig .tc .vmem S64x1 .f32) (harg2 : arg2.IsWhole)
    (arg3 : Memref sig .tc .vmem S64x1 .f32) (harg3 : arg3.IsWhole)
    (arg4 : Memref sig .tc .vmem S1x64x4096 .f32) (harg4 : arg4.IsWhole)
    (x1 : Vec F S1x64x4096 .f32) (x2 : Vec F S64x1 .f32) (x3 : Vec F S64x1 .f32) (K : PUnit → sProp 𝕄) :
    iprop(owns (c : Thread nD τ) arg1 fullShare x1 ∗ owns (c : Thread nD τ) arg2 fullShare x2
        ∗ owns (c : Thread nD τ) arg3 fullShare x3 ∗ (∃ d, owns (c : Thread nD τ) arg4 fullShare d)
        ∗ (iprop(owns (c : Thread nD τ) arg1 fullShare x1 ∗ owns (c : Thread nD τ) arg2 fullShare x2
            ∗ owns (c : Thread nD τ) arg3 fullShare x3 ∗ owns (c : Thread nD τ) arg4 fullShare (out3_3 x1 x2 x3)) -∗ K ⟨⟩))
      ⊢ wp frame (wpE (defs₀ (F := F)) Variants.none c none) E (cc3__bn_relu_kernel i arg1 harg1 arg2 harg2 arg3 harg3 arg4 harg4) K := by
  simp only [cc3__bn_relu_kernel_eq_skeleton]; unfold cc3__bn_relu_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover3_3 _)

end Cert.ReferenceIdeal.Body

end
-- ==== Proof.ReferenceIdealRun.lean ====
/- The run of ReferenceIdeal from launch to return: @main is host stretches and 4 kernel regions. Each region's body is
   taken as a PARAMETER (what each output window's buffer holds after the body, as a function of the input blocks, and the
   body's triple); from these: the proof data of each pipeline, the body obligations, the buffer contents at every
   boundary of @main as a fold from the launch memory, the segments, and the run: every weakly fair execution
   terminates, nothing faults, and every unscoped buffer ends at the last boundary's contents. -/
import proofs.«157750_g2000200144022539_pallasbulk_675_13_alg».proof.Proof.Gen.ReferenceIdeal.Launch
import proofs.«157750_g2000200144022539_pallasbulk_675_13_alg».proof.Proof.Gen.ReferenceIdeal.Skeleton
import proofs.«157750_g2000200144022539_pallasbulk_675_13_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.ReferenceIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ReferenceIdeal Cert.ReferenceIdeal.Gen

variable {F : FTy → Type} [FloatOps F]

local notation "𝕄" => MT nD τ sig Unit (Elt F) ℕ (UR sig nD τ) ℕ

/-! ## The regions' bodies, as parameters -/

/-- What each output window's staging buffer holds after its kernel's body, as a function of the input windows' blocks. -/
structure Outs (F : FTy → Type) [FloatOps F] where
  o0_1 : Vec F S1x16x2x16x2x16x2 .f32 → Vec F S1x16x16x16x1 .f32
  o1_6 : Vec F S1x32x4864 .f32 → Vec F S64x864 .f32 → Vec F S32x1 .f32 → Vec F S32x1 .f32 → Vec F S1x4864 .f32 → Vec F S9x4096 .f32 → Vec F S1x64x4864 .f32
  o1_7 : Vec F S1x32x4864 .f32 → Vec F S64x864 .f32 → Vec F S32x1 .f32 → Vec F S32x1 .f32 → Vec F S1x4864 .f32 → Vec F S9x4096 .f32 → Vec F S1x64x1 .f32
  o1_8 : Vec F S1x32x4864 .f32 → Vec F S64x864 .f32 → Vec F S32x1 .f32 → Vec F S32x1 .f32 → Vec F S1x4864 .f32 → Vec F S9x4096 .f32 → Vec F S1x64x1 .f32
  o2_6 : Vec F S1x64x4864 .f32 → Vec F S64x1728 .f32 → Vec F S64x1 .f32 → Vec F S64x1 .f32 → Vec F S1x4864 .f32 → Vec F S9x4096 .f32 → Vec F S1x64x4096 .f32
  o2_7 : Vec F S1x64x4864 .f32 → Vec F S64x1728 .f32 → Vec F S64x1 .f32 → Vec F S64x1 .f32 → Vec F S1x4864 .f32 → Vec F S9x4096 .f32 → Vec F S1x64x1 .f32
  o2_8 : Vec F S1x64x4864 .f32 → Vec F S64x1728 .f32 → Vec F S64x1 .f32 → Vec F S64x1 .f32 → Vec F S1x4864 .f32 → Vec F S9x4096 .f32 → Vec F S1x64x1 .f32
  o3_3 : Vec F S1x64x4096 .f32 → Vec F S64x1 .f32 → Vec F S64x1 .f32 → Vec F S1x64x4096 .f32

variable (O : Outs F)

/-- The triple of kernel 0's body on whole memrefs: the input windows' at read contents, the output windows' and the scratch
    operands' at anything; it returns the inputs as they were and each output at its term of the inputs. -/
def Sound0 : Prop :=
  ∀ (c : Dev nD) (E : Set ℕ) (i : grid0.Coords) (arg1 : Memref sig .tc .vmem S1x16x2x16x2x16x2 .f32) (harg1 : arg1.IsWhole) (arg2 : Memref sig .tc .vmem S1x16x16x16x1 .f32) (harg2 : arg2.IsWhole)
    (x1 : Vec F S1x16x2x16x2x16x2 .f32) (K : PUnit → sProp 𝕄),
    iprop(owns (c : Thread nD τ) arg1 fullShare x1 ∗ (∃ d, owns (c : Thread nD τ) arg2 fullShare d)
        ∗ (iprop(owns (c : Thread nD τ) arg1 fullShare x1 ∗ owns (c : Thread nD τ) arg2 fullShare (O.o0_1 x1)) -∗ K ⟨⟩))
      ⊢ wp frame (wpE (defs₀ (F := F)) Variants.none c none) E (cc0__maxpool_2x2x2_kernel i arg1 harg1 arg2 harg2) K

/-- The triple of kernel 1's body on whole memrefs: the input windows' at read contents, the output windows' and the scratch
    operands' at anything; it returns the inputs as they were and each output at its term of the inputs. -/
def Sound1 : Prop :=
  ∀ (c : Dev nD) (E : Set ℕ) (i : grid1.Coords) (arg1 : Memref sig .tc .vmem S1x32x4864 .f32) (harg1 : arg1.IsWhole) (arg2 : Memref sig .tc .vmem S64x864 .f32) (harg2 : arg2.IsWhole) (arg3 : Memref sig .tc .vmem S32x1 .f32) (harg3 : arg3.IsWhole) (arg4 : Memref sig .tc .vmem S32x1 .f32) (harg4 : arg4.IsWhole) (arg5 : Memref sig .tc .vmem S1x4864 .f32) (harg5 : arg5.IsWhole) (arg6 : Memref sig .tc .vmem S9x4096 .f32) (harg6 : arg6.IsWhole) (arg7 : Memref sig .tc .vmem S1x64x4864 .f32) (harg7 : arg7.IsWhole) (arg8 : Memref sig .tc .vmem S1x64x1 .f32) (harg8 : arg8.IsWhole) (arg9 : Memref sig .tc .vmem S1x64x1 .f32) (harg9 : arg9.IsWhole) (arg10 : Memref sig .tc .vmem S32x4864 .f32) (harg10 : arg10.IsWhole) (arg11 : Memref sig .tc .vmem S864x4096 .f32) (harg11 : arg11.IsWhole)
    (x1 : Vec F S1x32x4864 .f32) (x2 : Vec F S64x864 .f32) (x3 : Vec F S32x1 .f32) (x4 : Vec F S32x1 .f32) (x5 : Vec F S1x4864 .f32) (x6 : Vec F S9x4096 .f32) (K : PUnit → sProp 𝕄),
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (O.o1_6 x1 x2 x3 x4 x5 x6) ∗ owns (c : Thread nD τ) arg8 fullShare (O.o1_7 x1 x2 x3 x4 x5 x6) ∗ owns (c : Thread nD τ) arg9 fullShare (O.o1_8 x1 x2 x3 x4 x5 x6) ∗ (∃ d, owns (c : Thread nD τ) arg10 fullShare d) ∗ (∃ d, owns (c : Thread nD τ) arg11 fullShare d)) -∗ K ⟨⟩))
      ⊢ wp frame (wpE (defs₀ (F := F)) Variants.none c none) E (cc1__conv3x3x3_kernel i arg1 harg1 arg2 harg2 arg3 harg3 arg4 harg4 arg5 harg5 arg6 harg6 arg7 harg7 arg8 harg8 arg9 harg9 arg10 harg10 arg11 harg11) K

/-- The triple of kernel 2's body on whole memrefs: the input windows' at read contents, the output windows' and the scratch
    operands' at anything; it returns the inputs as they were and each output at its term of the inputs. -/
def Sound2 : Prop :=
  ∀ (c : Dev nD) (E : Set ℕ) (i : grid2.Coords) (arg1 : Memref sig .tc .vmem S1x64x4864 .f32) (harg1 : arg1.IsWhole) (arg2 : Memref sig .tc .vmem S64x1728 .f32) (harg2 : arg2.IsWhole) (arg3 : Memref sig .tc .vmem S64x1 .f32) (harg3 : arg3.IsWhole) (arg4 : Memref sig .tc .vmem S64x1 .f32) (harg4 : arg4.IsWhole) (arg5 : Memref sig .tc .vmem S1x4864 .f32) (harg5 : arg5.IsWhole) (arg6 : Memref sig .tc .vmem S9x4096 .f32) (harg6 : arg6.IsWhole) (arg7 : Memref sig .tc .vmem S1x64x4096 .f32) (harg7 : arg7.IsWhole) (arg8 : Memref sig .tc .vmem S1x64x1 .f32) (harg8 : arg8.IsWhole) (arg9 : Memref sig .tc .vmem S1x64x1 .f32) (harg9 : arg9.IsWhole) (arg10 : Memref sig .tc .vmem S64x4864 .f32) (harg10 : arg10.IsWhole) (arg11 : Memref sig .tc .vmem S1728x4096 .f32) (harg11 : arg11.IsWhole)
    (x1 : Vec F S1x64x4864 .f32) (x2 : Vec F S64x1728 .f32) (x3 : Vec F S64x1 .f32) (x4 : Vec F S64x1 .f32) (x5 : Vec F S1x4864 .f32) (x6 : Vec F S9x4096 .f32) (K : PUnit → sProp 𝕄),
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (O.o2_6 x1 x2 x3 x4 x5 x6) ∗ owns (c : Thread nD τ) arg8 fullShare (O.o2_7 x1 x2 x3 x4 x5 x6) ∗ owns (c : Thread nD τ) arg9 fullShare (O.o2_8 x1 x2 x3 x4 x5 x6) ∗ (∃ d, owns (c : Thread nD τ) arg10 fullShare d) ∗ (∃ d, owns (c : Thread nD τ) arg11 fullShare d)) -∗ K ⟨⟩))
      ⊢ wp frame (wpE (defs₀ (F := F)) Variants.none c none) E (cc2__conv3x3x3_kernel i arg1 harg1 arg2 harg2 arg3 harg3 arg4 harg4 arg5 harg5 arg6 harg6 arg7 harg7 arg8 harg8 arg9 harg9 arg10 harg10 arg11 harg11) K

/-- The triple of kernel 3's body on whole memrefs: the input windows' at read contents, the output windows' and the scratch
    operands' at anything; it returns the inputs as they were and each output at its term of the inputs. -/
def Sound3 : Prop :=
  ∀ (c : Dev nD) (E : Set ℕ) (i : grid3.Coords) (arg1 : Memref sig .tc .vmem S1x64x4096 .f32) (harg1 : arg1.IsWhole) (arg2 : Memref sig .tc .vmem S64x1 .f32) (harg2 : arg2.IsWhole) (arg3 : Memref sig .tc .vmem S64x1 .f32) (harg3 : arg3.IsWhole) (arg4 : Memref sig .tc .vmem S1x64x4096 .f32) (harg4 : arg4.IsWhole)
    (x1 : Vec F S1x64x4096 .f32) (x2 : Vec F S64x1 .f32) (x3 : Vec F S64x1 .f32) (K : PUnit → sProp 𝕄),
    iprop(owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg1 fullShare x1 ∗ owns (c : Thread nD τ) arg2 fullShare x2 ∗ owns (c : Thread nD τ) arg3 fullShare x3 ∗ owns (c : Thread nD τ) arg4 fullShare (O.o3_3 x1 x2 x3)) -∗ K ⟨⟩))
      ⊢ wp frame (wpE (defs₀ (F := F)) Variants.none c none) E (cc3__bn_relu_kernel i arg1 harg1 arg2 harg2 arg3 harg3 arg4 harg4) K

section Regions
-- the TensorCore's buffer contents when a region is entered
variable (V : (c : Dev nD) → (b : Ref sig .tc) → Buf (Elt F) ((c : Thread nD τ).loc b))

/-! # REGION 0: cc0__maxpool_2x2x2_kernel (pipeline 0), at the entry contents V -/

set_option maxHeartbeats 1000000 in
/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The proof data of pipeline 0 on core c: the arrays as the region finds them; after the body each input's buffer at its
    block and each output's at its term of the input blocks; the invariant the scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => O.o0_1 (iblk0 V c 0 t)
  Φ _ := Pipeline.ΦA spec0 c
  q _ := fullShare
  owed _ := 0

theorem A_eq0 (c : Dev nD) (w : Fin cfg0.W) : (dat0 O V c).A w = V c (Pipeline.arrRef spec0 w) := by
  dsimp only [dat0]

theorem after0_0 (c : Dev nD) (t : Fin cfg0.N) : (dat0 O V c).after 0 t = iblk0 V c 0 t := by dsimp only [dat0]
theorem after0_1 (c : Dev nD) (t : Fin cfg0.N) : (dat0 O V c).after 1 t = O.o0_1 (iblk0 V c 0 t) := by dsimp only [dat0]

theorem before0_0 (c : Dev nD) (t : Fin cfg0.N) (d) : (dat0 O V c).before 0 t d = iblk0 V c 0 t :=
  before0_0_of V (dat0 O V c) (A_eq0 O V c 0) (after0_0 O V c) t d

def bodyPre0 (c : Dev nD) (t : Fin cfg0.N) : sProp 𝕄 :=
  iprop((dat0 O V c).Φ t.castSucc ∗ (dat0 O V c).owesAt () t.castSucc
    ∗ (∃ d, owns (c : Thread nD τ) (st0_0 t) fullShare ((dat0 O V c).before 0 t d))
    ∗ (∃ d, owns (c : Thread nD τ) (st0_1 t) fullShare ((dat0 O V c).before 1 t d)))

def bodyPost0 (c : Dev nD) (t : Fin cfg0.N) : sProp 𝕄 :=
  iprop((dat0 O V c).Φ t.succ ∗ (dat0 O V c).owesAt () t.succ
    ∗ owns (c : Thread nD τ) (st0_0 t) fullShare ((dat0 O V c).after 0 t)
    ∗ owns (c : Thread nD τ) (st0_1 t) fullShare ((dat0 O V c).after 1 t))

/-- The body at any point: the inputs' memrefs hold their blocks, so the kernel's triple applies; the rest of the invariant
    and the core's owes pass through unread. -/
theorem sound_body0 (hs : Sound0 O) (c : Dev nD) (t : Fin cfg0.N) :
    bodyPre0 O V c t ⊢ wp frame (wpE (defs₀ (F := F)) Variants.none c none) Set.univ (bodyAt0 t) (fun _ => bodyPost0 O V c t) := by
  unfold bodyPre0 bodyPost0 bodyAt0
  simp only [before0_0]
  rw [show (dat0 O V c).Φ t.succ = (dat0 O V c).Φ t.castSucc from rfl,
    show (dat0 O V c).owesAt () t.succ = (dat0 O V c).owesAt () t.castSucc from rfl,
    after0_0, after0_1]
  iintro ⟨HΦ, Ho, ⟨%d0, H0⟩, ⟨%d1, H1⟩⟩
  iapply (hs c Set.univ (grid0.coords t) _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem body_obligation0 (hs : Sound0 O) (c : Dev nD) : BodyObligation (dat0 (F := F) O V c) (defs₀ (F := F)) Variants.none () Set.univ := fun t => by
  rw [bigSep_W0, bigSep_W0]
  exact sound_body0 O V hs c t

/-! # REGION 1: cc1__conv3x3x3_kernel (pipeline 1), at the entry contents V -/

set_option maxHeartbeats 1000000 in
/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- The proof data of pipeline 1 on core c: the arrays as the region finds them; after the body each input's buffer at its
    block and each output's at its term of the input blocks; the invariant the scoped rest and the generator register. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => O.o1_6 (iblk1 V c 0 t) (iblk1 V c 1 t) (iblk1 V c 2 t) (iblk1 V c 3 t) (iblk1 V c 4 t) (iblk1 V c 5 t)
    | ⟨7, _⟩ => O.o1_7 (iblk1 V c 0 t) (iblk1 V c 1 t) (iblk1 V c 2 t) (iblk1 V c 3 t) (iblk1 V c 4 t) (iblk1 V c 5 t)
    | ⟨8, _⟩ => O.o1_8 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 O V c).A w = V c (Pipeline.arrRef spec1 w) := by
  dsimp only [dat1]

theorem after1_0 (c : Dev nD) (t : Fin cfg1.N) : (dat1 O V c).after 0 t = iblk1 V c 0 t := by dsimp only [dat1]
theorem after1_1 (c : Dev nD) (t : Fin cfg1.N) : (dat1 O V c).after 1 t = iblk1 V c 1 t := by dsimp only [dat1]
theorem after1_2 (c : Dev nD) (t : Fin cfg1.N) : (dat1 O V c).after 2 t = iblk1 V c 2 t := by dsimp only [dat1]
theorem after1_3 (c : Dev nD) (t : Fin cfg1.N) : (dat1 O V c).after 3 t = iblk1 V c 3 t := by dsimp only [dat1]
theorem after1_4 (c : Dev nD) (t : Fin cfg1.N) : (dat1 O V c).after 4 t = iblk1 V c 4 t := by dsimp only [dat1]
theorem after1_5 (c : Dev nD) (t : Fin cfg1.N) : (dat1 O V c).after 5 t = iblk1 V c 5 t := by dsimp only [dat1]
theorem after1_6 (c : Dev nD) (t : Fin cfg1.N) : (dat1 O V c).after 6 t = O.o1_6 (iblk1 V c 0 t) (iblk1 V c 1 t) (iblk1 V c 2 t) (iblk1 V c 3 t) (iblk1 V c 4 t) (iblk1 V c 5 t) := by dsimp only [dat1]
theorem after1_7 (c : Dev nD) (t : Fin cfg1.N) : (dat1 O V c).after 7 t = O.o1_7 (iblk1 V c 0 t) (iblk1 V c 1 t) (iblk1 V c 2 t) (iblk1 V c 3 t) (iblk1 V c 4 t) (iblk1 V c 5 t) := by dsimp only [dat1]
theorem after1_8 (c : Dev nD) (t : Fin cfg1.N) : (dat1 O V c).after 8 t = O.o1_8 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 O V c).before 0 t d = iblk1 V c 0 t :=
  before1_0_of V (dat1 O V c) (A_eq1 O V c 0) (after1_0 O V c) t d
theorem before1_1 (c : Dev nD) (t : Fin cfg1.N) (d) : (dat1 O V c).before 1 t d = iblk1 V c 1 t :=
  before1_1_of V (dat1 O V c) (A_eq1 O V c 1) (after1_1 O V c) t d
theorem before1_2 (c : Dev nD) (t : Fin cfg1.N) (d) : (dat1 O V c).before 2 t d = iblk1 V c 2 t :=
  before1_2_of V (dat1 O V c) (A_eq1 O V c 2) (after1_2 O V c) t d
theorem before1_3 (c : Dev nD) (t : Fin cfg1.N) (d) : (dat1 O V c).before 3 t d = iblk1 V c 3 t :=
  before1_3_of V (dat1 O V c) (A_eq1 O V c 3) (after1_3 O V c) t d
theorem before1_4 (c : Dev nD) (t : Fin cfg1.N) (d) : (dat1 O V c).before 4 t d = iblk1 V c 4 t :=
  before1_4_of V (dat1 O V c) (A_eq1 O V c 4) (after1_4 O V c) t d
theorem before1_5 (c : Dev nD) (t : Fin cfg1.N) (d) : (dat1 O V c).before 5 t d = iblk1 V c 5 t :=
  before1_5_of V (dat1 O V c) (A_eq1 O V c 5) (after1_5 O V c) t d

/-- The class invariant with the scratch operands as memrefs owned at some contents, beside the rest of the scoped buffers. -/
theorem PhiA1_split (c : Dev nD) : (Pipeline.ΦA spec1 c : sProp 𝕄)
    = iprop((iprop((∃ d, owns (c : Thread nD τ) (Memref.whole cc1_scratch0 : Memref sig .tc .vmem S32x4864 .f32) fullShare d) ∗ (∃ d, owns (c : Thread nD τ) (Memref.whole cc1_scratch1 : Memref sig .tc .vmem S864x4096 .f32) fullShare d))
        ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [Pipeline.scopedRest_split_of_list spec1 c [cc1_scratch0, cc1_scratch1] (by decide) (by decide)]; simp only [owns_whole]; rfl

def bodyPre1 (c : Dev nD) (t : Fin cfg1.N) : sProp 𝕄 :=
  iprop((dat1 O V c).Φ t.castSucc ∗ (dat1 O V c).owesAt () t.castSucc
    ∗ (∃ d, owns (c : Thread nD τ) (st1_0 t) fullShare ((dat1 O V c).before 0 t d))
    ∗ (∃ d, owns (c : Thread nD τ) (st1_1 t) fullShare ((dat1 O V c).before 1 t d))
    ∗ (∃ d, owns (c : Thread nD τ) (st1_2 t) fullShare ((dat1 O V c).before 2 t d))
    ∗ (∃ d, owns (c : Thread nD τ) (st1_3 t) fullShare ((dat1 O V c).before 3 t d))
    ∗ (∃ d, owns (c : Thread nD τ) (st1_4 t) fullShare ((dat1 O V c).before 4 t d))
    ∗ (∃ d, owns (c : Thread nD τ) (st1_5 t) fullShare ((dat1 O V c).before 5 t d))
    ∗ (∃ d, owns (c : Thread nD τ) (st1_6 t) fullShare ((dat1 O V c).before 6 t d))
    ∗ (∃ d, owns (c : Thread nD τ) (st1_7 t) fullShare ((dat1 O V c).before 7 t d))
    ∗ (∃ d, owns (c : Thread nD τ) (st1_8 t) fullShare ((dat1 O V c).before 8 t d)))

def bodyPost1 (c : Dev nD) (t : Fin cfg1.N) : sProp 𝕄 :=
  iprop((dat1 O V c).Φ t.succ ∗ (dat1 O V c).owesAt () t.succ
    ∗ owns (c : Thread nD τ) (st1_0 t) fullShare ((dat1 O V c).after 0 t)
    ∗ owns (c : Thread nD τ) (st1_1 t) fullShare ((dat1 O V c).after 1 t)
    ∗ owns (c : Thread nD τ) (st1_2 t) fullShare ((dat1 O V c).after 2 t)
    ∗ owns (c : Thread nD τ) (st1_3 t) fullShare ((dat1 O V c).after 3 t)
    ∗ owns (c : Thread nD τ) (st1_4 t) fullShare ((dat1 O V c).after 4 t)
    ∗ owns (c : Thread nD τ) (st1_5 t) fullShare ((dat1 O V c).after 5 t)
    ∗ owns (c : Thread nD τ) (st1_6 t) fullShare ((dat1 O V c).after 6 t)
    ∗ owns (c : Thread nD τ) (st1_7 t) fullShare ((dat1 O V c).after 7 t)
    ∗ owns (c : Thread nD τ) (st1_8 t) fullShare ((dat1 O V c).after 8 t))

/-- The body at any point: the inputs' memrefs hold their blocks, so the kernel's triple applies; the rest of the invariant
    and the core's owes pass through unread. -/
theorem sound_body1 (hs : Sound1 O) (c : Dev nD) (t : Fin cfg1.N) :
    bodyPre1 O V c t ⊢ wp frame (wpE (defs₀ (F := F)) Variants.none c none) Set.univ (bodyAt1 t) (fun _ => bodyPost1 O V c t) := by
  unfold bodyPre1 bodyPost1 bodyAt1
  simp only [before1_0, before1_1, before1_2, before1_3, before1_4, before1_5]
  rw [show (dat1 O V c).Φ t.succ = (dat1 O V c).Φ t.castSucc from rfl,
    show (dat1 O V c).owesAt () t.succ = (dat1 O V c).owesAt () t.castSucc from rfl,
    after1_0, after1_1, after1_2, after1_3, after1_4, after1_5, after1_6, after1_7, after1_8]
  rw [show (dat1 O V c).Φ t.castSucc = Pipeline.ΦA spec1 c from rfl, PhiA1_split (F := F) c]
  iintro ⟨⟨⟨⟨S0, S1⟩, HR⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (hs c Set.univ (grid1.coords t) _ _ _ _ _ _ _ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [S0]; · iexact S0
  isplitl [S1]; · iexact S1
  iintro ⟨H0, H1, H2, H3, H4, H5, H6, H7, H8, S0, S1⟩
  isplitl [S0 S1 HR Hp]
  · isplitr [Hp]
    · isplitr [HR]
      · isplitl [S0]; · iexact S0
        iexact S1
      iexact HR
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation1 (hs : Sound1 O) (c : Dev nD) : BodyObligation (dat1 (F := F) O V c) (defs₀ (F := F)) Variants.none () Set.univ := fun t => by
  rw [bigSep_W1, bigSep_W1]
  exact sound_body1 O V hs c t

/-! # REGION 2: cc2__conv3x3x3_kernel (pipeline 2), at the entry contents V -/

set_option maxHeartbeats 1000000 in
/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- The proof data of pipeline 2 on core c: the arrays as the region finds them; after the body each input's buffer at its
    block and each output's at its term of the input blocks; the invariant the scoped rest and the generator register. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => O.o2_6 (iblk2 V c 0 t) (iblk2 V c 1 t) (iblk2 V c 2 t) (iblk2 V c 3 t) (iblk2 V c 4 t) (iblk2 V c 5 t)
    | ⟨7, _⟩ => O.o2_7 (iblk2 V c 0 t) (iblk2 V c 1 t) (iblk2 V c 2 t) (iblk2 V c 3 t) (iblk2 V c 4 t) (iblk2 V c 5 t)
    | ⟨8, _⟩ => O.o2_8 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 O V c).A w = V c (Pipeline.arrRef spec2 w) := by
  dsimp only [dat2]

theorem after2_0 (c : Dev nD) (t : Fin cfg2.N) : (dat2 O V c).after 0 t = iblk2 V c 0 t := by dsimp only [dat2]
theorem after2_1 (c : Dev nD) (t : Fin cfg2.N) : (dat2 O V c).after 1 t = iblk2 V c 1 t := by dsimp only [dat2]
theorem after2_2 (c : Dev nD) (t : Fin cfg2.N) : (dat2 O V c).after 2 t = iblk2 V c 2 t := by dsimp only [dat2]
theorem after2_3 (c : Dev nD) (t : Fin cfg2.N) : (dat2 O V c).after 3 t = iblk2 V c 3 t := by dsimp only [dat2]
theorem after2_4 (c : Dev nD) (t : Fin cfg2.N) : (dat2 O V c).after 4 t = iblk2 V c 4 t := by dsimp only [dat2]
theorem after2_5 (c : Dev nD) (t : Fin cfg2.N) : (dat2 O V c).after 5 t = iblk2 V c 5 t := by dsimp only [dat2]
theorem after2_6 (c : Dev nD) (t : Fin cfg2.N) : (dat2 O V c).after 6 t = O.o2_6 (iblk2 V c 0 t) (iblk2 V c 1 t) (iblk2 V c 2 t) (iblk2 V c 3 t) (iblk2 V c 4 t) (iblk2 V c 5 t) := by dsimp only [dat2]
theorem after2_7 (c : Dev nD) (t : Fin cfg2.N) : (dat2 O V c).after 7 t = O.o2_7 (iblk2 V c 0 t) (iblk2 V c 1 t) (iblk2 V c 2 t) (iblk2 V c 3 t) (iblk2 V c 4 t) (iblk2 V c 5 t) := by dsimp only [dat2]
theorem after2_8 (c : Dev nD) (t : Fin cfg2.N) : (dat2 O V c).after 8 t = O.o2_8 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 O V c).before 0 t d = iblk2 V c 0 t :=
  before2_0_of V (dat2 O V c) (A_eq2 O V c 0) (after2_0 O V c) t d
theorem before2_1 (c : Dev nD) (t : Fin cfg2.N) (d) : (dat2 O V c).before 1 t d = iblk2 V c 1 t :=
  before2_1_of V (dat2 O V c) (A_eq2 O V c 1) (after2_1 O V c) t d
theorem before2_2 (c : Dev nD) (t : Fin cfg2.N) (d) : (dat2 O V c).before 2 t d = iblk2 V c 2 t :=
  before2_2_of V (dat2 O V c) (A_eq2 O V c 2) (after2_2 O V c) t d
theorem before2_3 (c : Dev nD) (t : Fin cfg2.N) (d) : (dat2 O V c).before 3 t d = iblk2 V c 3 t :=
  before2_3_of V (dat2 O V c) (A_eq2 O V c 3) (after2_3 O V c) t d
theorem before2_4 (c : Dev nD) (t : Fin cfg2.N) (d) : (dat2 O V c).before 4 t d = iblk2 V c 4 t :=
  before2_4_of V (dat2 O V c) (A_eq2 O V c 4) (after2_4 O V c) t d
theorem before2_5 (c : Dev nD) (t : Fin cfg2.N) (d) : (dat2 O V c).before 5 t d = iblk2 V c 5 t :=
  before2_5_of V (dat2 O V c) (A_eq2 O V c 5) (after2_5 O V c) t d

/-- The class invariant with the scratch operands as memrefs owned at some contents, beside the rest of the scoped buffers. -/
theorem PhiA2_split (c : Dev nD) : (Pipeline.ΦA spec2 c : sProp 𝕄)
    = iprop((iprop((∃ d, owns (c : Thread nD τ) (Memref.whole cc2_scratch0 : Memref sig .tc .vmem S64x4864 .f32) fullShare d) ∗ (∃ d, owns (c : Thread nD τ) (Memref.whole cc2_scratch1 : Memref sig .tc .vmem S1728x4096 .f32) fullShare d))
        ∗ Pipeline.scopedRestBut (Ix := Unit) (Name := ℕ) (U := UR sig nD τ) (Lvl := ℕ) (Val := Elt F) spec2 c [cc2_scratch0, cc2_scratch1]) ∗ (∃ r, prngReg c r)) := by
  unfold Pipeline.ΦA; rw [Pipeline.scopedRest_split_of_list spec2 c [cc2_scratch0, cc2_scratch1] (by decide) (by decide)]; simp only [owns_whole]; rfl

def bodyPre2 (c : Dev nD) (t : Fin cfg2.N) : sProp 𝕄 :=
  iprop((dat2 O V c).Φ t.castSucc ∗ (dat2 O V c).owesAt () t.castSucc
    ∗ (∃ d, owns (c : Thread nD τ) (st2_0 t) fullShare ((dat2 O V c).before 0 t d))
    ∗ (∃ d, owns (c : Thread nD τ) (st2_1 t) fullShare ((dat2 O V c).before 1 t d))
    ∗ (∃ d, owns (c : Thread nD τ) (st2_2 t) fullShare ((dat2 O V c).before 2 t d))
    ∗ (∃ d, owns (c : Thread nD τ) (st2_3 t) fullShare ((dat2 O V c).before 3 t d))
    ∗ (∃ d, owns (c : Thread nD τ) (st2_4 t) fullShare ((dat2 O V c).before 4 t d))
    ∗ (∃ d, owns (c : Thread nD τ) (st2_5 t) fullShare ((dat2 O V c).before 5 t d))
    ∗ (∃ d, owns (c : Thread nD τ) (st2_6 t) fullShare ((dat2 O V c).before 6 t d))
    ∗ (∃ d, owns (c : Thread nD τ) (st2_7 t) fullShare ((dat2 O V c).before 7 t d))
    ∗ (∃ d, owns (c : Thread nD τ) (st2_8 t) fullShare ((dat2 O V c).before 8 t d)))

def bodyPost2 (c : Dev nD) (t : Fin cfg2.N) : sProp 𝕄 :=
  iprop((dat2 O V c).Φ t.succ ∗ (dat2 O V c).owesAt () t.succ
    ∗ owns (c : Thread nD τ) (st2_0 t) fullShare ((dat2 O V c).after 0 t)
    ∗ owns (c : Thread nD τ) (st2_1 t) fullShare ((dat2 O V c).after 1 t)
    ∗ owns (c : Thread nD τ) (st2_2 t) fullShare ((dat2 O V c).after 2 t)
    ∗ owns (c : Thread nD τ) (st2_3 t) fullShare ((dat2 O V c).after 3 t)
    ∗ owns (c : Thread nD τ) (st2_4 t) fullShare ((dat2 O V c).after 4 t)
    ∗ owns (c : Thread nD τ) (st2_5 t) fullShare ((dat2 O V c).after 5 t)
    ∗ owns (c : Thread nD τ) (st2_6 t) fullShare ((dat2 O V c).after 6 t)
    ∗ owns (c : Thread nD τ) (st2_7 t) fullShare ((dat2 O V c).after 7 t)
    ∗ owns (c : Thread nD τ) (st2_8 t) fullShare ((dat2 O V c).after 8 t))

/-- The body at any point: the inputs' memrefs hold their blocks, so the kernel's triple applies; the rest of the invariant
    and the core's owes pass through unread. -/
theorem sound_body2 (hs : Sound2 O) (c : Dev nD) (t : Fin cfg2.N) :
    bodyPre2 O V c t ⊢ wp frame (wpE (defs₀ (F := F)) Variants.none c none) Set.univ (bodyAt2 t) (fun _ => bodyPost2 O V c t) := by
  unfold bodyPre2 bodyPost2 bodyAt2
  simp only [before2_0, before2_1, before2_2, before2_3, before2_4, before2_5]
  rw [show (dat2 O V c).Φ t.succ = (dat2 O V c).Φ t.castSucc from rfl,
    show (dat2 O V c).owesAt () t.succ = (dat2 O V c).owesAt () t.castSucc from rfl,
    after2_0, after2_1, after2_2, after2_3, after2_4, after2_5, after2_6, after2_7, after2_8]
  rw [show (dat2 O V c).Φ t.castSucc = Pipeline.ΦA spec2 c from rfl, PhiA2_split (F := F) c]
  iintro ⟨⟨⟨⟨S0, S1⟩, HR⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (hs c Set.univ (grid2.coords t) _ _ _ _ _ _ _ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [S0]; · iexact S0
  isplitl [S1]; · iexact S1
  iintro ⟨H0, H1, H2, H3, H4, H5, H6, H7, H8, S0, S1⟩
  isplitl [S0 S1 HR Hp]
  · isplitr [Hp]
    · isplitr [HR]
      · isplitl [S0]; · iexact S0
        iexact S1
      iexact HR
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation2 (hs : Sound2 O) (c : Dev nD) : BodyObligation (dat2 (F := F) O V c) (defs₀ (F := F)) Variants.none () Set.univ := fun t => by
  rw [bigSep_W2, bigSep_W2]
  exact sound_body2 O V hs c t

/-! # REGION 3: cc3__bn_relu_kernel (pipeline 3), at the entry contents V -/

set_option maxHeartbeats 1000000 in
/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- The proof data of pipeline 3 on core c: the arrays as the region finds them; after the body each input's buffer at its
    block and each output's at its term of the input blocks; the invariant the scoped rest and the generator register. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => O.o3_3 (iblk3 V c 0 t) (iblk3 V c 1 t) (iblk3 V c 2 t)
  Φ _ := Pipeline.ΦA spec3 c
  q _ := fullShare
  owed _ := 0

theorem A_eq3 (c : Dev nD) (w : Fin cfg3.W) : (dat3 O V c).A w = V c (Pipeline.arrRef spec3 w) := by
  dsimp only [dat3]

theorem after3_0 (c : Dev nD) (t : Fin cfg3.N) : (dat3 O V c).after 0 t = iblk3 V c 0 t := by dsimp only [dat3]
theorem after3_1 (c : Dev nD) (t : Fin cfg3.N) : (dat3 O V c).after 1 t = iblk3 V c 1 t := by dsimp only [dat3]
theorem after3_2 (c : Dev nD) (t : Fin cfg3.N) : (dat3 O V c).after 2 t = iblk3 V c 2 t := by dsimp only [dat3]
theorem after3_3 (c : Dev nD) (t : Fin cfg3.N) : (dat3 O V c).after 3 t = O.o3_3 (iblk3 V c 0 t) (iblk3 V c 1 t) (iblk3 V c 2 t) := by dsimp only [dat3]

theorem before3_0 (c : Dev nD) (t : Fin cfg3.N) (d) : (dat3 O V c).before 0 t d = iblk3 V c 0 t :=
  before3_0_of V (dat3 O V c) (A_eq3 O V c 0) (after3_0 O V c) t d
theorem before3_1 (c : Dev nD) (t : Fin cfg3.N) (d) : (dat3 O V c).before 1 t d = iblk3 V c 1 t :=
  before3_1_of V (dat3 O V c) (A_eq3 O V c 1) (after3_1 O V c) t d
theorem before3_2 (c : Dev nD) (t : Fin cfg3.N) (d) : (dat3 O V c).before 2 t d = iblk3 V c 2 t :=
  before3_2_of V (dat3 O V c) (A_eq3 O V c 2) (after3_2 O V c) t d

def bodyPre3 (c : Dev nD) (t : Fin cfg3.N) : sProp 𝕄 :=
  iprop((dat3 O V c).Φ t.castSucc ∗ (dat3 O V c).owesAt () t.castSucc
    ∗ (∃ d, owns (c : Thread nD τ) (st3_0 t) fullShare ((dat3 O V c).before 0 t d))
    ∗ (∃ d, owns (c : Thread nD τ) (st3_1 t) fullShare ((dat3 O V c).before 1 t d))
    ∗ (∃ d, owns (c : Thread nD τ) (st3_2 t) fullShare ((dat3 O V c).before 2 t d))
    ∗ (∃ d, owns (c : Thread nD τ) (st3_3 t) fullShare ((dat3 O V c).before 3 t d)))

def bodyPost3 (c : Dev nD) (t : Fin cfg3.N) : sProp 𝕄 :=
  iprop((dat3 O V c).Φ t.succ ∗ (dat3 O V c).owesAt () t.succ
    ∗ owns (c : Thread nD τ) (st3_0 t) fullShare ((dat3 O V c).after 0 t)
    ∗ owns (c : Thread nD τ) (st3_1 t) fullShare ((dat3 O V c).after 1 t)
    ∗ owns (c : Thread nD τ) (st3_2 t) fullShare ((dat3 O V c).after 2 t)
    ∗ owns (c : Thread nD τ) (st3_3 t) fullShare ((dat3 O V c).after 3 t))

/-- The body at any point: the inputs' memrefs hold their blocks, so the kernel's triple applies; the rest of the invariant
    and the core's owes pass through unread. -/
theorem sound_body3 (hs : Sound3 O) (c : Dev nD) (t : Fin cfg3.N) :
    bodyPre3 O V c t ⊢ wp frame (wpE (defs₀ (F := F)) Variants.none c none) Set.univ (bodyAt3 t) (fun _ => bodyPost3 O V c t) := by
  unfold bodyPre3 bodyPost3 bodyAt3
  simp only [before3_0, before3_1, before3_2]
  rw [show (dat3 O V c).Φ t.succ = (dat3 O V c).Φ t.castSucc from rfl,
    show (dat3 O V c).owesAt () t.succ = (dat3 O V c).owesAt () t.castSucc from rfl,
    after3_0, after3_1, after3_2, after3_3]
  iintro ⟨HΦ, Ho, ⟨%d0, H0⟩, ⟨%d1, H1⟩, ⟨%d2, H2⟩, ⟨%d3, H3⟩⟩
  iapply (hs c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation3 (hs : Sound3 O) (c : Dev nD) : BodyObligation (dat3 (F := F) O V c) (defs₀ (F := F)) Variants.none () Set.univ := fun t => by
  rw [bigSep_W3, bigSep_W3]
  exact sound_body3 O V hs c t

end Regions

/-! # THE RUN: @main's items from the launch to the return -/

variable (m : (ℓ : Loc nD τ sig) → Buf (Elt F) ℓ) (ρ : Dev nD → PrngReg)

/-- Core c's buffers at launch. -/
abbrev W0 : Dev nD → Valuation τ sig (Elt F) := fun c b => (s₀ m ρ).mem ((c : Dev nD), b)
/-- After item 0, the host stretch main_part0_ops0. -/
abbrev W1 : Dev nD → Valuation τ sig (Elt F) := fun c => StableHlo.after main_part0_ops0 (W0 m ρ c)

/-- The contents region 0 is entered from, read at the TensorCore's references. -/
abbrev V1 : (c : Dev nD) → (b : Ref sig .tc) → Buf (Elt F) ((c : Thread nD τ).loc b) := fun c b => W1 m ρ c b
/-- After item 1, region 0: its arrays at what the pipeline leaves, every other buffer as entered. -/
def W2 (c : Dev nD) : Valuation τ sig (Elt F) :=
  Pipeline.withArrays spec0 c (W1 m ρ c) fun w => (dat0 O (V1 m ρ) c).arrAt w cfg0.N
theorem W2_arr (c : Dev nD) (w : Fin cfg0.W) :
    W2 O m ρ c (Proc.devRef .tc (Pipeline.arrRef spec0 w)) = (dat0 O (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 O m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 O m ρ c b
theorem hF0 (c : Dev nD) (w : Fin cfg0.W) : (dat0 O (V1 m ρ) c).arrAt w cfg0.N = V2 O m ρ c (Pipeline.arrRef spec0 w) :=
  (W2_arr O m ρ c w).symm
theorem hrest0 (c : Dev nD) : ∀ b, b ∉ Finset.univ.image (Pipeline.arrRef spec0) → V2 O m ρ c b = V1 m ρ c b :=
  fun b hb => W2_of_ne O m ρ c b fun w e => hb (Finset.mem_image.mpr ⟨w, Finset.mem_univ _, e⟩)

/-- After item 2, the host stretch main_part0_ops1. -/
abbrev W3 : Dev nD → Valuation τ sig (Elt F) := fun c => StableHlo.after main_part0_ops1 (W2 O m ρ c)

/-- After item 3, the host stretch main_part0_ops2. -/
abbrev W4 : Dev nD → Valuation τ sig (Elt F) := fun c => StableHlo.after main_part0_ops2 (W3 O m ρ c)

/-- After item 4, the host stretch main_part0_ops3. -/
abbrev W5 : Dev nD → Valuation τ sig (Elt F) := fun c => StableHlo.after main_part0_ops3 (W4 O m ρ c)

/-- After item 5, the host stretch main_part0_ops4. -/
abbrev W6 : Dev nD → Valuation τ sig (Elt F) := fun c => StableHlo.after main_part0_ops4 (W5 O m ρ c)

/-- After item 6, the host stretch main_part0_ops5. -/
abbrev W7 : Dev nD → Valuation τ sig (Elt F) := fun c => StableHlo.after main_part0_ops5 (W6 O m ρ c)

/-- After item 7, the host stretch main_part0_ops6. -/
abbrev W8 : Dev nD → Valuation τ sig (Elt F) := fun c => StableHlo.after main_part0_ops6 (W7 O m ρ c)

/-- After item 8, the host stretch main_part0_ops7. -/
abbrev W9 : Dev nD → Valuation τ sig (Elt F) := fun c => StableHlo.after main_part0_ops7 (W8 O m ρ c)

/-- After item 9, the host stretch main_part0_ops8. -/
abbrev W10 : Dev nD → Valuation τ sig (Elt F) := fun c => StableHlo.after main_part0_ops8 (W9 O m ρ c)

/-- After item 10, the host stretch main_part0_ops9. -/
abbrev W11 : Dev nD → Valuation τ sig (Elt F) := fun c => StableHlo.after main_part0_ops9 (W10 O m ρ c)

/-- After item 11, the host stretch main_part0_ops10. -/
abbrev W12 : Dev nD → Valuation τ sig (Elt F) := fun c => StableHlo.after main_part0_ops10 (W11 O m ρ c)

/-- After item 12, the host stretch main_part0_ops11. -/
abbrev W13 : Dev nD → Valuation τ sig (Elt F) := fun c => StableHlo.after main_part0_ops11 (W12 O m ρ c)

/-- After item 13, the host stretch main_part1_ops0. -/
abbrev W14 : Dev nD → Valuation τ sig (Elt F) := fun c => StableHlo.after main_part1_ops0 (W13 O m ρ c)

/-- After item 14, the host stretch main_part2_ops0. -/
abbrev W15 : Dev nD → Valuation τ sig (Elt F) := fun c => StableHlo.after main_part2_ops0 (W14 O m ρ c)

/-- After item 15, the host stretch main_part3_ops0. -/
abbrev W16 : Dev nD → Valuation τ sig (Elt F) := fun c => StableHlo.after main_part3_ops0 (W15 O m ρ c)

/-- After item 16, the host stretch main_part4_ops0. -/
abbrev W17 : Dev nD → Valuation τ sig (Elt F) := fun c => StableHlo.after main_part4_ops0 (W16 O m ρ c)

/-- After item 17, the host stretch main_part5_ops0. -/
abbrev W18 : Dev nD → Valuation τ sig (Elt F) := fun c => StableHlo.after main_part5_ops0 (W17 O m ρ c)

/-- After item 18, the host stretch main_part6_ops0. -/
abbrev W19 : Dev nD → Valuation τ sig (Elt F) := fun c => StableHlo.after main_part6_ops0 (W18 O m ρ c)

/-- After item 19, the host stretch main_part7_ops0. -/
abbrev W20 : Dev nD → Valuation τ sig (Elt F) := fun c => StableHlo.after main_part7_ops0 (W19 O m ρ c)

/-- The contents region 1 is entered from, read at the TensorCore's references. -/
abbrev V20 : (c : Dev nD) → (b : Ref sig .tc) → Buf (Elt F) ((c : Thread nD τ).loc b) := fun c b => W20 O m ρ c b
/-- After item 20, region 1: its arrays at what the pipeline leaves, every other buffer as entered. -/
def W21 (c : Dev nD) : Valuation τ sig (Elt F) :=
  Pipeline.withArrays spec1 c (W20 O m ρ c) fun w => (dat1 O (V20 O m ρ) c).arrAt w cfg1.N
theorem W21_arr (c : Dev nD) (w : Fin cfg1.W) :
    W21 O m ρ c (Proc.devRef .tc (Pipeline.arrRef spec1 w)) = (dat1 O (V20 O m ρ) c).arrAt w cfg1.N := by
  unfold W21; exact Pipeline.withArrays_arr spec1 launch1.win.arr_inj c _ _ w
theorem W21_of_ne (c : Dev nD) (b : Ref sig .tc) (hb : ∀ w, Pipeline.arrRef spec1 w ≠ b) :
    W21 O m ρ c (Proc.devRef .tc b) = W20 O m ρ c (Proc.devRef .tc b) := by
  unfold W21; exact Pipeline.withArrays_of_ne spec1 c _ _ b hb
abbrev V21 : (c : Dev nD) → (b : Ref sig .tc) → Buf (Elt F) ((c : Thread nD τ).loc b) := fun c b => W21 O m ρ c b
theorem hF1 (c : Dev nD) (w : Fin cfg1.W) : (dat1 O (V20 O m ρ) c).arrAt w cfg1.N = V21 O m ρ c (Pipeline.arrRef spec1 w) :=
  (W21_arr O m ρ c w).symm
theorem hrest1 (c : Dev nD) : ∀ b, b ∉ Finset.univ.image (Pipeline.arrRef spec1) → V21 O m ρ c b = V20 O m ρ c b :=
  fun b hb => W21_of_ne O m ρ c b fun w e => hb (Finset.mem_image.mpr ⟨w, Finset.mem_univ _, e⟩)

/-- After item 21, the host stretch main_part7_ops1. -/
abbrev W22 : Dev nD → Valuation τ sig (Elt F) := fun c => StableHlo.after main_part7_ops1 (W21 O m ρ c)

/-- After item 22, the host stretch main_part7_ops2. -/
abbrev W23 : Dev nD → Valuation τ sig (Elt F) := fun c => StableHlo.after main_part7_ops2 (W22 O m ρ c)

/-- After item 23, the host stretch main_part7_ops3. -/
abbrev W24 : Dev nD → Valuation τ sig (Elt F) := fun c => StableHlo.after main_part7_ops3 (W23 O m ρ c)

/-- After item 24, the host stretch main_part7_ops4. -/
abbrev W25 : Dev nD → Valuation τ sig (Elt F) := fun c => StableHlo.after main_part7_ops4 (W24 O m ρ c)

/-- After item 25, the host stretch main_part7_ops5. -/
abbrev W26 : Dev nD → Valuation τ sig (Elt F) := fun c => StableHlo.after main_part7_ops5 (W25 O m ρ c)

/-- After item 26, the host stretch main_part7_ops6. -/
abbrev W27 : Dev nD → Valuation τ sig (Elt F) := fun c => StableHlo.after main_part7_ops6 (W26 O m ρ c)

/-- After item 27, the host stretch main_part7_ops7. -/
abbrev W28 : Dev nD → Valuation τ sig (Elt F) := fun c => StableHlo.after main_part7_ops7 (W27 O m ρ c)

/-- After item 28, the host stretch main_part7_ops8. -/
abbrev W29 : Dev nD → Valuation τ sig (Elt F) := fun c => StableHlo.after main_part7_ops8 (W28 O m ρ c)

/-- After item 29, the host stretch main_part7_ops9. -/
abbrev W30 : Dev nD → Valuation τ sig (Elt F) := fun c => StableHlo.after main_part7_ops9 (W29 O m ρ c)

/-- After item 30, the host stretch main_part7_ops10. -/
abbrev W31 : Dev nD → Valuation τ sig (Elt F) := fun c => StableHlo.after main_part7_ops10 (W30 O m ρ c)

/-- After item 31, the host stretch main_part7_ops11. -/
abbrev W32 : Dev nD → Valuation τ sig (Elt F) := fun c => StableHlo.after main_part7_ops11 (W31 O m ρ c)

/-- After item 32, the host stretch main_part8_ops0. -/
abbrev W33 : Dev nD → Valuation τ sig (Elt F) := fun c => StableHlo.after main_part8_ops0 (W32 O m ρ c)

/-- After item 33, the host stretch main_part8_ops1. -/
abbrev W34 : Dev nD → Valuation τ sig (Elt F) := fun c => StableHlo.after main_part8_ops1 (W33 O m ρ c)

/-- After item 34, the host stretch main_part9_ops0. -/
abbrev W35 : Dev nD → Valuation τ sig (Elt F) := fun c => StableHlo.after main_part9_ops0 (W34 O m ρ c)

/-- After item 35, the host stretch main_part10_ops0. -/
abbrev W36 : Dev nD → Valuation τ sig (Elt F) := fun c => StableHlo.after main_part10_ops0 (W35 O m ρ c)

/-- After item 36, the host stretch main_part11_ops0. -/
abbrev W37 : Dev nD → Valuation τ sig (Elt F) := fun c => StableHlo.after main_part11_ops0 (W36 O m ρ c)

/-- After item 37, the host stretch main_part12_ops0. -/
abbrev W38 : Dev nD → Valuation τ sig (Elt F) := fun c => StableHlo.after main_part12_ops0 (W37 O m ρ c)

/-- After item 38, the host stretch main_part13_ops0. -/
abbrev W39 : Dev nD → Valuation τ sig (Elt F) := fun c => StableHlo.after main_part13_ops0 (W38 O m ρ c)

/-- After item 39, the host stretch main_part14_ops0. -/
abbrev W40 : Dev nD → Valuation τ sig (Elt F) := fun c => StableHlo.after main_part14_ops0 (W39 O m ρ c)

/-- The contents region 2 is entered from, read at the TensorCore's references. -/
abbrev V40 : (c : Dev nD) → (b : Ref sig .tc) → Buf (Elt F) ((c : Thread nD τ).loc b) := fun c b => W40 O m ρ c b
/-- After item 40, region 2: its arrays at what the pipeline leaves, every other buffer as entered. -/
def W41 (c : Dev nD) : Valuation τ sig (Elt F) :=
  Pipeline.withArrays spec2 c (W40 O m ρ c) fun w => (dat2 O (V40 O m ρ) c).arrAt w cfg2.N
theorem W41_arr (c : Dev nD) (w : Fin cfg2.W) :
    W41 O m ρ c (Proc.devRef .tc (Pipeline.arrRef spec2 w)) = (dat2 O (V40 O m ρ) c).arrAt w cfg2.N := by
  unfold W41; exact Pipeline.withArrays_arr spec2 launch2.win.arr_inj c _ _ w
theorem W41_of_ne (c : Dev nD) (b : Ref sig .tc) (hb : ∀ w, Pipeline.arrRef spec2 w ≠ b) :
    W41 O m ρ c (Proc.devRef .tc b) = W40 O m ρ c (Proc.devRef .tc b) := by
  unfold W41; exact Pipeline.withArrays_of_ne spec2 c _ _ b hb
abbrev V41 : (c : Dev nD) → (b : Ref sig .tc) → Buf (Elt F) ((c : Thread nD τ).loc b) := fun c b => W41 O m ρ c b
theorem hF2 (c : Dev nD) (w : Fin cfg2.W) : (dat2 O (V40 O m ρ) c).arrAt w cfg2.N = V41 O m ρ c (Pipeline.arrRef spec2 w) :=
  (W41_arr O m ρ c w).symm
theorem hrest2 (c : Dev nD) : ∀ b, b ∉ Finset.univ.image (Pipeline.arrRef spec2) → V41 O m ρ c b = V40 O m ρ c b :=
  fun b hb => W41_of_ne O m ρ c b fun w e => hb (Finset.mem_image.mpr ⟨w, Finset.mem_univ _, e⟩)

/-- After item 41, the host stretch main_part14_ops1. -/
abbrev W42 : Dev nD → Valuation τ sig (Elt F) := fun c => StableHlo.after main_part14_ops1 (W41 O m ρ c)

/-- After item 42, the host stretch main_part15_ops0. -/
abbrev W43 : Dev nD → Valuation τ sig (Elt F) := fun c => StableHlo.after main_part15_ops0 (W42 O m ρ c)

/-- After item 43, the host stretch main_part15_ops1. -/
abbrev W44 : Dev nD → Valuation τ sig (Elt F) := fun c => StableHlo.after main_part15_ops1 (W43 O m ρ c)

/-- After item 44, the host stretch main_part15_ops2. -/
abbrev W45 : Dev nD → Valuation τ sig (Elt F) := fun c => StableHlo.after main_part15_ops2 (W44 O m ρ c)

/-- After item 45, the host stretch main_part15_ops3. -/
abbrev W46 : Dev nD → Valuation τ sig (Elt F) := fun c => StableHlo.after main_part15_ops3 (W45 O m ρ c)

/-- The contents region 3 is entered from, read at the TensorCore's references. -/
abbrev V46 : (c : Dev nD) → (b : Ref sig .tc) → Buf (Elt F) ((c : Thread nD τ).loc b) := fun c b => W46 O m ρ c b
/-- After item 46, region 3: its arrays at what the pipeline leaves, every other buffer as entered. -/
def W47 (c : Dev nD) : Valuation τ sig (Elt F) :=
  Pipeline.withArrays spec3 c (W46 O m ρ c) fun w => (dat3 O (V46 O m ρ) c).arrAt w cfg3.N
theorem W47_arr (c : Dev nD) (w : Fin cfg3.W) :
    W47 O m ρ c (Proc.devRef .tc (Pipeline.arrRef spec3 w)) = (dat3 O (V46 O m ρ) c).arrAt w cfg3.N := by
  unfold W47; exact Pipeline.withArrays_arr spec3 launch3.win.arr_inj c _ _ w
theorem W47_of_ne (c : Dev nD) (b : Ref sig .tc) (hb : ∀ w, Pipeline.arrRef spec3 w ≠ b) :
    W47 O m ρ c (Proc.devRef .tc b) = W46 O m ρ c (Proc.devRef .tc b) := by
  unfold W47; exact Pipeline.withArrays_of_ne spec3 c _ _ b hb
abbrev V47 : (c : Dev nD) → (b : Ref sig .tc) → Buf (Elt F) ((c : Thread nD τ).loc b) := fun c b => W47 O m ρ c b
theorem hF3 (c : Dev nD) (w : Fin cfg3.W) : (dat3 O (V46 O m ρ) c).arrAt w cfg3.N = V47 O m ρ c (Pipeline.arrRef spec3 w) :=
  (W47_arr O m ρ c w).symm
theorem hrest3 (c : Dev nD) : ∀ b, b ∉ Finset.univ.image (Pipeline.arrRef spec3) → V47 O m ρ c b = V46 O m ρ c b :=
  fun b hb => W47_of_ne O m ρ c b fun w e => hb (Finset.mem_image.mpr ⟨w, Finset.mem_univ _, e⟩)

/-- After item 47, the host stretch main_part15_ops4. -/
abbrev W48 : Dev nD → Valuation τ sig (Elt F) := fun c => StableHlo.after main_part15_ops4 (W47 O m ρ c)

/-! ## The proof data family and the thread state -/

abbrev adm : (p : Fin 4) → (pcfgs (F := F) p).Adm := fun p => (cfgs p).toPCfg_adm
/-- Every pipeline's proof data, each at its region's entry contents: a literal match. -/
def pdats : (p : Fin 4) → (c : Dev nD) → Dat τ (Elt F) Unit ℕ (UR sig nD τ) ℕ (Pipeline.pin (pcfgs (F := F)) adm p) c
  | ⟨0, _⟩ => fun c => dat0 O (V1 m ρ) c
  | ⟨1, _⟩ => fun c => dat1 O (V20 O m ρ) c
  | ⟨2, _⟩ => fun c => dat2 O (V40 O m ρ) c
  | ⟨3, _⟩ => fun c => dat3 O (V46 O m ρ) c
abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem main_part0_ops0_fresh : (main_part0_ops0 : List (HloOp τ sig (Elt F))).Forall fun op => op.fresh = ∅ := by
  simp only [List.Forall]; repeat' constructor
theorem main_part0_ops1_fresh : (main_part0_ops1 : List (HloOp τ sig (Elt F))).Forall fun op => op.fresh = ∅ := by
  simp only [List.Forall]; repeat' constructor
theorem main_part0_ops2_fresh : (main_part0_ops2 : List (HloOp τ sig (Elt F))).Forall fun op => op.fresh = ∅ := by
  simp only [List.Forall]; repeat' constructor
theorem main_part0_ops3_fresh : (main_part0_ops3 : List (HloOp τ sig (Elt F))).Forall fun op => op.fresh = ∅ := by
  simp only [List.Forall]; repeat' constructor
theorem main_part0_ops4_fresh : (main_part0_ops4 : List (HloOp τ sig (Elt F))).Forall fun op => op.fresh = ∅ := by
  simp only [List.Forall]; repeat' constructor
theorem main_part0_ops5_fresh : (main_part0_ops5 : List (HloOp τ sig (Elt F))).Forall fun op => op.fresh = ∅ := by
  simp only [List.Forall]; repeat' constructor
theorem main_part0_ops6_fresh : (main_part0_ops6 : List (HloOp τ sig (Elt F))).Forall fun op => op.fresh = ∅ := by
  simp only [List.Forall]; repeat' constructor
theorem main_part0_ops7_fresh : (main_part0_ops7 : List (HloOp τ sig (Elt F))).Forall fun op => op.fresh = ∅ := by
  simp only [List.Forall]; repeat' constructor
theorem main_part0_ops8_fresh : (main_part0_ops8 : List (HloOp τ sig (Elt F))).Forall fun op => op.fresh = ∅ := by
  simp only [List.Forall]; repeat' constructor
theorem main_part0_ops9_fresh : (main_part0_ops9 : List (HloOp τ sig (Elt F))).Forall fun op => op.fresh = ∅ := by
  simp only [List.Forall]; repeat' constructor
theorem main_part0_ops10_fresh : (main_part0_ops10 : List (HloOp τ sig (Elt F))).Forall fun op => op.fresh = ∅ := by
  simp only [List.Forall]; repeat' constructor
theorem main_part0_ops11_fresh : (main_part0_ops11 : List (HloOp τ sig (Elt F))).Forall fun op => op.fresh = ∅ := by
  simp only [List.Forall]; repeat' constructor
theorem main_part1_ops0_fresh : (main_part1_ops0 : List (HloOp τ sig (Elt F))).Forall fun op => op.fresh = ∅ := by
  simp only [List.Forall]; repeat' constructor
theorem main_part2_ops0_fresh : (main_part2_ops0 : List (HloOp τ sig (Elt F))).Forall fun op => op.fresh = ∅ := by
  simp only [List.Forall]; repeat' constructor
theorem main_part3_ops0_fresh : (main_part3_ops0 : List (HloOp τ sig (Elt F))).Forall fun op => op.fresh = ∅ := by
  simp only [List.Forall]; repeat' constructor
theorem main_part4_ops0_fresh : (main_part4_ops0 : List (HloOp τ sig (Elt F))).Forall fun op => op.fresh = ∅ := by
  simp only [List.Forall]; repeat' constructor
theorem main_part5_ops0_fresh : (main_part5_ops0 : List (HloOp τ sig (Elt F))).Forall fun op => op.fresh = ∅ := by
  simp only [List.Forall]; repeat' constructor
theorem main_part6_ops0_fresh : (main_part6_ops0 : List (HloOp τ sig (Elt F))).Forall fun op => op.fresh = ∅ := by
  simp only [List.Forall]; repeat' constructor
theorem main_part7_ops0_fresh : (main_part7_ops0 : List (HloOp τ sig (Elt F))).Forall fun op => op.fresh = ∅ := by
  simp only [List.Forall]; repeat' constructor
theorem main_part7_ops1_fresh : (main_part7_ops1 : List (HloOp τ sig (Elt F))).Forall fun op => op.fresh = ∅ := by
  simp only [List.Forall]; repeat' constructor
theorem main_part7_ops2_fresh : (main_part7_ops2 : List (HloOp τ sig (Elt F))).Forall fun op => op.fresh = ∅ := by
  simp only [List.Forall]; repeat' constructor
theorem main_part7_ops3_fresh : (main_part7_ops3 : List (HloOp τ sig (Elt F))).Forall fun op => op.fresh = ∅ := by
  simp only [List.Forall]; repeat' constructor
theorem main_part7_ops4_fresh : (main_part7_ops4 : List (HloOp τ sig (Elt F))).Forall fun op => op.fresh = ∅ := by
  simp only [List.Forall]; repeat' constructor
theorem main_part7_ops5_fresh : (main_part7_ops5 : List (HloOp τ sig (Elt F))).Forall fun op => op.fresh = ∅ := by
  simp only [List.Forall]; repeat' constructor
theorem main_part7_ops6_fresh : (main_part7_ops6 : List (HloOp τ sig (Elt F))).Forall fun op => op.fresh = ∅ := by
  simp only [List.Forall]; repeat' constructor
theorem main_part7_ops7_fresh : (main_part7_ops7 : List (HloOp τ sig (Elt F))).Forall fun op => op.fresh = ∅ := by
  simp only [List.Forall]; repeat' constructor
theorem main_part7_ops8_fresh : (main_part7_ops8 : List (HloOp τ sig (Elt F))).Forall fun op => op.fresh = ∅ := by
  simp only [List.Forall]; repeat' constructor
theorem main_part7_ops9_fresh : (main_part7_ops9 : List (HloOp τ sig (Elt F))).Forall fun op => op.fresh = ∅ := by
  simp only [List.Forall]; repeat' constructor
theorem main_part7_ops10_fresh : (main_part7_ops10 : List (HloOp τ sig (Elt F))).Forall fun op => op.fresh = ∅ := by
  simp only [List.Forall]; repeat' constructor
theorem main_part7_ops11_fresh : (main_part7_ops11 : List (HloOp τ sig (Elt F))).Forall fun op => op.fresh = ∅ := by
  simp only [List.Forall]; repeat' constructor
theorem main_part8_ops0_fresh : (main_part8_ops0 : List (HloOp τ sig (Elt F))).Forall fun op => op.fresh = ∅ := by
  simp only [List.Forall]; repeat' constructor
theorem main_part8_ops1_fresh : (main_part8_ops1 : List (HloOp τ sig (Elt F))).Forall fun op => op.fresh = ∅ := by
  simp only [List.Forall]; repeat' constructor
theorem main_part9_ops0_fresh : (main_part9_ops0 : List (HloOp τ sig (Elt F))).Forall fun op => op.fresh = ∅ := by
  simp only [List.Forall]; repeat' constructor
theorem main_part10_ops0_fresh : (main_part10_ops0 : List (HloOp τ sig (Elt F))).Forall fun op => op.fresh = ∅ := by
  simp only [List.Forall]; repeat' constructor
theorem main_part11_ops0_fresh : (main_part11_ops0 : List (HloOp τ sig (Elt F))).Forall fun op => op.fresh = ∅ := by
  simp only [List.Forall]; repeat' constructor
theorem main_part12_ops0_fresh : (main_part12_ops0 : List (HloOp τ sig (Elt F))).Forall fun op => op.fresh = ∅ := by
  simp only [List.Forall]; repeat' constructor
theorem main_part13_ops0_fresh : (main_part13_ops0 : List (HloOp τ sig (Elt F))).Forall fun op => op.fresh = ∅ := by
  simp only [List.Forall]; repeat' constructor
theorem main_part14_ops0_fresh : (main_part14_ops0 : List (HloOp τ sig (Elt F))).Forall fun op => op.fresh = ∅ := by
  simp only [List.Forall]; repeat' constructor
theorem main_part14_ops1_fresh : (main_part14_ops1 : List (HloOp τ sig (Elt F))).Forall fun op => op.fresh = ∅ := by
  simp only [List.Forall]; repeat' constructor
theorem main_part15_ops0_fresh : (main_part15_ops0 : List (HloOp τ sig (Elt F))).Forall fun op => op.fresh = ∅ := by
  simp only [List.Forall]; repeat' constructor
theorem main_part15_ops1_fresh : (main_part15_ops1 : List (HloOp τ sig (Elt F))).Forall fun op => op.fresh = ∅ := by
  simp only [List.Forall]; repeat' constructor
theorem main_part15_ops2_fresh : (main_part15_ops2 : List (HloOp τ sig (Elt F))).Forall fun op => op.fresh = ∅ := by
  simp only [List.Forall]; repeat' constructor
theorem main_part15_ops3_fresh : (main_part15_ops3 : List (HloOp τ sig (Elt F))).Forall fun op => op.fresh = ∅ := by
  simp only [List.Forall]; repeat' constructor
theorem main_part15_ops4_fresh : (main_part15_ops4 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the owes: every unscoped buffer at the last boundary's contents, the generator register at some state. -/
abbrev Tₙ (c : Dev nD) : sProp 𝕄 := iprop(StableHlo.held (c : Thread nD τ) (Pipeline.ucRefs τ sig) (W48 O m ρ c) ∗ ∃ r, prngReg c r)

/-! ## The regions as segments -/

set_option backward.isDefEq.respectTransparency.types false in
/-- REGION 0 over the thread state: entered from every unscoped buffer at W1, left at W2. -/
def reg0 (hs : Sound0 O) : Pipeline.RegionSeg (pcfgs (F := F)) adm (pdats O m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 O (V1 m ρ) hs c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 O m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats O m ρ) launch0.win launch0.arr_whole c
      ((pdats O m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats O m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats O m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats O m ρ) ((pdats O m ρ 0 c).share_full fun _ => rfl)
      (V1 m ρ c) (V2 O m ρ c) ((pdats O m ρ 0 c).arrAt · cfg0.N) (hF0 O m ρ c) (hrest0 O m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at W20, left at W21. -/
def reg1 (hs : Sound1 O) : Pipeline.RegionSeg (pcfgs (F := F)) adm (pdats O m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 O (V20 O m ρ) hs c).loose
  hwaits := Pipeline.hwaits_of_owed_zero _ _ _ _ L lv 1 fun _ _ => rfl
  pre c := iprop(StableHlo.held (c : Thread nD τ) (Pipeline.ucRefs τ sig) (W20 O m ρ c) ∗ R c)
  post c := iprop(StableHlo.held (c : Thread nD τ) (Pipeline.ucRefs τ sig) (W21 O m ρ c) ∗ R c)
  X c := iprop(∃ r, prngReg c r)
  Y c := iprop(∃ r, prngReg c r)
  Z c := Pipeline.unscopedRest (Ix := Unit) (Name := ℕ) (U := UR sig nD τ) (Lvl := ℕ) spec1 c (V20 O m ρ c)
  hentry c := by
    rw [Pipeline.ownSems0_none]
    have hsplit := Pipeline.arrays_of_unscopedBufs (p := 1) (pcfgs (F := F)) adm (pdats O m ρ) launch1.win launch1.arr_whole c
      ((pdats O m ρ 1 c).share_full fun _ => rfl) (V20 O m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats O m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats O m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats O m ρ) ((pdats O m ρ 1 c).share_full fun _ => rfl)
      (V20 O m ρ c) (V21 O m ρ c) ((pdats O m ρ 1 c).arrAt · cfg1.N) (hF1 O m ρ c) (hrest1 O m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 over the thread state: entered from every unscoped buffer at W40, left at W41. -/
def reg2 (hs : Sound2 O) : Pipeline.RegionSeg (pcfgs (F := F)) adm (pdats O m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 O (V40 O m ρ) hs c).loose
  hwaits := Pipeline.hwaits_of_owed_zero _ _ _ _ L lv 2 fun _ _ => rfl
  pre c := iprop(StableHlo.held (c : Thread nD τ) (Pipeline.ucRefs τ sig) (W40 O m ρ c) ∗ R c)
  post c := iprop(StableHlo.held (c : Thread nD τ) (Pipeline.ucRefs τ sig) (W41 O m ρ c) ∗ R c)
  X c := iprop(∃ r, prngReg c r)
  Y c := iprop(∃ r, prngReg c r)
  Z c := Pipeline.unscopedRest (Ix := Unit) (Name := ℕ) (U := UR sig nD τ) (Lvl := ℕ) spec2 c (V40 O m ρ c)
  hentry c := by
    rw [Pipeline.ownSems0_none]
    have hsplit := Pipeline.arrays_of_unscopedBufs (p := 2) (pcfgs (F := F)) adm (pdats O m ρ) launch2.win launch2.arr_whole c
      ((pdats O m ρ 2 c).share_full fun _ => rfl) (V40 O m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats O m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats O m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats O m ρ) ((pdats O m ρ 2 c).share_full fun _ => rfl)
      (V40 O m ρ c) (V41 O m ρ c) ((pdats O m ρ 2 c).arrAt · cfg2.N) (hF2 O m ρ c) (hrest2 O m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 3 over the thread state: entered from every unscoped buffer at W46, left at W47. -/
def reg3 (hs : Sound3 O) : Pipeline.RegionSeg (pcfgs (F := F)) adm (pdats O m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 O (V46 O m ρ) hs c).loose
  hwaits := Pipeline.hwaits_of_owed_zero _ _ _ _ L lv 3 fun _ _ => rfl
  pre c := iprop(StableHlo.held (c : Thread nD τ) (Pipeline.ucRefs τ sig) (W46 O m ρ c) ∗ R c)
  post c := iprop(StableHlo.held (c : Thread nD τ) (Pipeline.ucRefs τ sig) (W47 O m ρ c) ∗ R c)
  X c := iprop(∃ r, prngReg c r)
  Y c := iprop(∃ r, prngReg c r)
  Z c := Pipeline.unscopedRest (Ix := Unit) (Name := ℕ) (U := UR sig nD τ) (Lvl := ℕ) spec3 c (V46 O m ρ c)
  hentry c := by
    rw [Pipeline.ownSems0_none]
    have hsplit := Pipeline.arrays_of_unscopedBufs (p := 3) (pcfgs (F := F)) adm (pdats O m ρ) launch3.win launch3.arr_whole c
      ((pdats O m ρ 3 c).share_full fun _ => rfl) (V46 O m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats O m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats O m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats O m ρ) ((pdats O m ρ 3 c).share_full fun _ => rfl)
      (V46 O m ρ c) (V47 O m ρ c) ((pdats O m ρ 3 c).arrAt · cfg3.N) (hF3 O m ρ c) (hrest3 O m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 48 items in order: a host segment per stretch from its boundary's contents, a region per pallas_call. -/
abbrev segs (hs0 : Sound0 O) (hs1 : Sound1 O) (hs2 : Sound2 O) (hs3 : Sound3 O) : List (Pipeline.Seg (pcfgs (F := F)) adm (pdats O m ρ) () defs₀ 𝒱₀ L lv) :=
  [ .host (hseg main_part0_ops0 main_part0_ops0_sub main_part0_ops0_fresh (W0 m ρ)),
    .region (reg0 O m ρ hs0),
    .host (hseg main_part0_ops1 main_part0_ops1_sub main_part0_ops1_fresh (W2 O m ρ)),
    .host (hseg main_part0_ops2 main_part0_ops2_sub main_part0_ops2_fresh (W3 O m ρ)),
    .host (hseg main_part0_ops3 main_part0_ops3_sub main_part0_ops3_fresh (W4 O m ρ)),
    .host (hseg main_part0_ops4 main_part0_ops4_sub main_part0_ops4_fresh (W5 O m ρ)),
    .host (hseg main_part0_ops5 main_part0_ops5_sub main_part0_ops5_fresh (W6 O m ρ)),
    .host (hseg main_part0_ops6 main_part0_ops6_sub main_part0_ops6_fresh (W7 O m ρ)),
    .host (hseg main_part0_ops7 main_part0_ops7_sub main_part0_ops7_fresh (W8 O m ρ)),
    .host (hseg main_part0_ops8 main_part0_ops8_sub main_part0_ops8_fresh (W9 O m ρ)),
    .host (hseg main_part0_ops9 main_part0_ops9_sub main_part0_ops9_fresh (W10 O m ρ)),
    .host (hseg main_part0_ops10 main_part0_ops10_sub main_part0_ops10_fresh (W11 O m ρ)),
    .host (hseg main_part0_ops11 main_part0_ops11_sub main_part0_ops11_fresh (W12 O m ρ)),
    .host (hseg main_part1_ops0 main_part1_ops0_sub main_part1_ops0_fresh (W13 O m ρ)),
    .host (hseg main_part2_ops0 main_part2_ops0_sub main_part2_ops0_fresh (W14 O m ρ)),
    .host (hseg main_part3_ops0 main_part3_ops0_sub main_part3_ops0_fresh (W15 O m ρ)),
    .host (hseg main_part4_ops0 main_part4_ops0_sub main_part4_ops0_fresh (W16 O m ρ)),
    .host (hseg main_part5_ops0 main_part5_ops0_sub main_part5_ops0_fresh (W17 O m ρ)),
    .host (hseg main_part6_ops0 main_part6_ops0_sub main_part6_ops0_fresh (W18 O m ρ)),
    .host (hseg main_part7_ops0 main_part7_ops0_sub main_part7_ops0_fresh (W19 O m ρ)),
    .region (reg1 O m ρ hs1),
    .host (hseg main_part7_ops1 main_part7_ops1_sub main_part7_ops1_fresh (W21 O m ρ)),
    .host (hseg main_part7_ops2 main_part7_ops2_sub main_part7_ops2_fresh (W22 O m ρ)),
    .host (hseg main_part7_ops3 main_part7_ops3_sub main_part7_ops3_fresh (W23 O m ρ)),
    .host (hseg main_part7_ops4 main_part7_ops4_sub main_part7_ops4_fresh (W24 O m ρ)),
    .host (hseg main_part7_ops5 main_part7_ops5_sub main_part7_ops5_fresh (W25 O m ρ)),
    .host (hseg main_part7_ops6 main_part7_ops6_sub main_part7_ops6_fresh (W26 O m ρ)),
    .host (hseg main_part7_ops7 main_part7_ops7_sub main_part7_ops7_fresh (W27 O m ρ)),
    .host (hseg main_part7_ops8 main_part7_ops8_sub main_part7_ops8_fresh (W28 O m ρ)),
    .host (hseg main_part7_ops9 main_part7_ops9_sub main_part7_ops9_fresh (W29 O m ρ)),
    .host (hseg main_part7_ops10 main_part7_ops10_sub main_part7_ops10_fresh (W30 O m ρ)),
    .host (hseg main_part7_ops11 main_part7_ops11_sub main_part7_ops11_fresh (W31 O m ρ)),
    .host (hseg main_part8_ops0 main_part8_ops0_sub main_part8_ops0_fresh (W32 O m ρ)),
    .host (hseg main_part8_ops1 main_part8_ops1_sub main_part8_ops1_fresh (W33 O m ρ)),
    .host (hseg main_part9_ops0 main_part9_ops0_sub main_part9_ops0_fresh (W34 O m ρ)),
    .host (hseg main_part10_ops0 main_part10_ops0_sub main_part10_ops0_fresh (W35 O m ρ)),
    .host (hseg main_part11_ops0 main_part11_ops0_sub main_part11_ops0_fresh (W36 O m ρ)),
    .host (hseg main_part12_ops0 main_part12_ops0_sub main_part12_ops0_fresh (W37 O m ρ)),
    .host (hseg main_part13_ops0 main_part13_ops0_sub main_part13_ops0_fresh (W38 O m ρ)),
    .host (hseg main_part14_ops0 main_part14_ops0_sub main_part14_ops0_fresh (W39 O m ρ)),
    .region (reg2 O m ρ hs2),
    .host (hseg main_part14_ops1 main_part14_ops1_sub main_part14_ops1_fresh (W41 O m ρ)),
    .host (hseg main_part15_ops0 main_part15_ops0_sub main_part15_ops0_fresh (W42 O m ρ)),
    .host (hseg main_part15_ops1 main_part15_ops1_sub main_part15_ops1_fresh (W43 O m ρ)),
    .host (hseg main_part15_ops2 main_part15_ops2_sub main_part15_ops2_fresh (W44 O m ρ)),
    .host (hseg main_part15_ops3 main_part15_ops3_sub main_part15_ops3_fresh (W45 O m ρ)),
    .region (reg3 O m ρ hs3),
    .host (hseg main_part15_ops4 main_part15_ops4_sub main_part15_ops4_fresh (W47 O m ρ)) ]
/-- @main IS the run of the segments: its items' chain, then the segments' run against that chain. -/
theorem main_run (hs0 : Sound0 O) (hs1 : Sound1 O) (hs2 : Sound2 O) (hs3 : Sound3 O) (c : Dev nD) : main (F := F) c = Pipeline.Seg.run (segs O m ρ hs0 hs1 hs2 hs3) := (main_chain_windows c).trans (by chain_rfl)

set_option backward.isDefEq.respectTransparency.types false in
/-- THE RUN: from any memory with zero counters, every weakly fair execution of @main on the TensorCores terminates, nothing
    faulting, and every final state holds each unscoped buffer at the last boundary's contents. -/
theorem run (hs0 : Sound0 O) (hs1 : Sound1 O) (hs2 : Sound2 O) (hs3 : Sound3 O) : θ_run defs (onTc (τ := τ) (main (F := F))) ⟨m, fun _ => 0, ρ⟩ (fun r => ∀ c : Dev nD,
      ∀ b ∈ Pipeline.ucRefs τ sig, r.2.mem (((c : Thread nD τ)).1, b) = W48 O m ρ c b) :=
  Pipeline.θ_run_regions_kit (pcfgs (F := F)) adm (pdats O m ρ) () cellOf_inj emb₁ defs₀ 𝒱₀ L lv m ρ main (segs O m ρ hs0 hs1 hs2 hs3)
    (fun c Q => by rw [main_run O m ρ hs0 hs1 hs2 hs3 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ O m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => show
        iprop(StableHlo.held (c : Thread nD τ) (Pipeline.ucRefs τ sig) (W48 O m ρ c) ∗ ((∃ r, prngReg c r) ∗ ∃ W, owes (c : Thread nD τ) (0 : CellTallies nD τ sig Unit) W))
          ⊢ iprop(iprop(StableHlo.held (c : Thread nD τ) (Pipeline.ucRefs τ sig) (W48 O m ρ c) ∗ ∃ r, prngReg c r) ∗ ∃ W, owes (c : Thread nD τ) (0 : CellTallies nD τ sig Unit) W) from by
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W48 O m ρ c b)
    (hfin := fun c s' => by
      iintro ⟨⟨Hh, -⟩, HSI⟩
      unfold StableHlo.held
      imodintro
      iapply (pointsTo_read_all (Pipeline.ucRefs τ sig) (fun b => (((c : Thread nD τ)).1, b)) (W48 O m ρ c) s')
      isplitl [Hh] <;> iassumption)
    (hQ := fun s h c => h c)

end Cert.ReferenceIdeal.Run

end
-- ==== Proof.BridgeOuts.lean ====
import proofs.«157750_g2000200144022539_pallasbulk_675_13_alg».proof.Proof.KernelIdealBody0Defs
import proofs.«157750_g2000200144022539_pallasbulk_675_13_alg».proof.Proof.KernelIdealBody1
import proofs.«157750_g2000200144022539_pallasbulk_675_13_alg».proof.Proof.KernelIdealBody2
import proofs.«157750_g2000200144022539_pallasbulk_675_13_alg».proof.Proof.KernelIdealRun
import proofs.«157750_g2000200144022539_pallasbulk_675_13_alg».proof.Proof.ReferenceIdealBody0
import proofs.«157750_g2000200144022539_pallasbulk_675_13_alg».proof.Proof.ReferenceIdealBody1
import proofs.«157750_g2000200144022539_pallasbulk_675_13_alg».proof.Proof.ReferenceIdealBody2
import proofs.«157750_g2000200144022539_pallasbulk_675_13_alg».proof.Proof.ReferenceIdealBody3
import proofs.«157750_g2000200144022539_pallasbulk_675_13_alg».proof.Proof.ReferenceIdealRun
import Idealize.ShloMosaic.PureOps.Ideal

noncomputable section

namespace Cert.Bridge

open Idealize.ShloMosaic

def outsKI : Cert.KernelIdeal.Run.Outs Ideal where
  o0_4 := fun x1 x2 x3 x4 => Cert.KernelIdeal.Body.out0_4 x1 x2 x3 x4
  o0_5 := fun x1 x2 x3 x4 => Cert.KernelIdeal.Body.out0_5 x1 x2 x3 x4
  o0_6 := fun x1 x2 x3 x4 => Cert.KernelIdeal.Body.out0_6 x1 x2 x3 x4
  o1_6 := fun x1 x2 x3 x4 x5 x6 => Cert.KernelIdeal.Body.out1_6 x1 x2 x3 x4 x5 x6
  o1_7 := fun x1 x2 x3 x4 x5 x6 => Cert.KernelIdeal.Body.out1_7 x1 x2 x3 x4 x5 x6
  o1_8 := fun x1 x2 x3 x4 x5 x6 => Cert.KernelIdeal.Body.out1_8 x1 x2 x3 x4 x5 x6
  o2_3 := fun x1 x2 x3 => Cert.KernelIdeal.Body.out2_3 x1 x2 x3

def outsRI : Cert.ReferenceIdeal.Run.Outs Ideal where
  o0_1 := fun x1 => Cert.ReferenceIdeal.Body.out0_1 x1
  o1_6 := fun x1 x2 _ _ x5 x6 => Cert.ReferenceIdeal.Body.out1_6 x1 x2 x5 x6
  o1_7 := fun x1 x2 _ _ x5 x6 => Cert.ReferenceIdeal.Body.out1_7 x1 x2 x5 x6
  o1_8 := fun x1 x2 _ _ x5 x6 => Cert.ReferenceIdeal.Body.out1_8 x1 x2 x5 x6
  o2_6 := fun x1 x2 x3 x4 x5 x6 => Cert.ReferenceIdeal.Body.out2_6 x1 x2 x3 x4 x5 x6
  o2_7 := fun x1 x2 x3 x4 x5 x6 => Cert.ReferenceIdeal.Body.out2_7 x1 x2 x3 x4 x5 x6
  o2_8 := fun x1 x2 x3 x4 x5 x6 => Cert.ReferenceIdeal.Body.out2_8 x1 x2 x3 x4 x5 x6
  o3_3 := fun x1 x2 x3 => Cert.ReferenceIdeal.Body.out3_3 x1 x2 x3

end Cert.Bridge

end
-- ==== Proof.TopKernelIdeal.lean ====
import proofs.«157750_g2000200144022539_pallasbulk_675_13_alg».proof.Defs
import proofs.«157750_g2000200144022539_pallasbulk_675_13_alg».proof.Proof.Gen.KernelIdeal
import proofs.«157750_g2000200144022539_pallasbulk_675_13_alg».proof.Proof.Gen.Pre_finite_inputs
import proofs.«157750_g2000200144022539_pallasbulk_675_13_alg».proof.Proof.KernelIdealRun
import proofs.«157750_g2000200144022539_pallasbulk_675_13_alg».proof.Proof.KernelIdealKeep
import proofs.«157750_g2000200144022539_pallasbulk_675_13_alg».proof.Proof.KernelIdealBody0
import proofs.«157750_g2000200144022539_pallasbulk_675_13_alg».proof.Proof.KernelIdealBody1
import proofs.«157750_g2000200144022539_pallasbulk_675_13_alg».proof.Proof.KernelIdealBody2
import proofs.«157750_g2000200144022539_pallasbulk_675_13_alg».proof.Proof.BridgeOuts

noncomputable section

namespace Cert.Proof

open Idealize.ShloMosaic Idealize.SL.Sem
open Cert.Bridge (outsKI)

theorem soundKI0 : Cert.KernelIdeal.Run.Sound0 outsKI := by
  unfold Cert.KernelIdeal.Run.Sound0
  intro c E i a1 h1 a2 h2 a3 h3 a4 h4 a5 h5 a6 h6 a7 h7 a8 h8 a9 h9 a10 h10 x1 x2 x3 x4 K
  have h := Cert.KernelIdeal.Body.sound_kernel0 (F := Ideal) c E i a1 h1 a2 h2 a3 h3 a4 h4 a5 h5 a6 h6 a7 h7 a8 h8 a9 h9 a10 h10 x1 x2 x3 x4 K
  dsimp only [outsKI]
  exact h

theorem soundKI1 : Cert.KernelIdeal.Run.Sound1 outsKI := by
  unfold Cert.KernelIdeal.Run.Sound1
  intro c E i a1 h1 a2 h2 a3 h3 a4 h4 a5 h5 a6 h6 a7 h7 a8 h8 a9 h9 a10 h10 a11 h11 x1 x2 x3 x4 x5 x6 K
  have h := Cert.KernelIdeal.Body.sound_kernel1 (F := Ideal) c E i a1 h1 a2 h2 a3 h3 a4 h4 a5 h5 a6 h6 a7 h7 a8 h8 a9 h9 a10 h10 a11 h11 x1 x2 x3 x4 x5 x6 K
  dsimp only [outsKI]
  exact h

theorem soundKI2 : Cert.KernelIdeal.Run.Sound2 outsKI := by
  unfold Cert.KernelIdeal.Run.Sound2
  intro c E i a1 h1 a2 h2 a3 h3 a4 h4 x1 x2 x3 K
  have h := Cert.KernelIdeal.Body.sound_kernel2 (F := Ideal) c E i a1 h1 a2 h2 a3 h3 a4 h4 x1 x2 x3 K
  dsimp only [outsKI]
  exact h

theorem frame_KI : Cert.frame_KernelIdeal := fun m ρ _ =>
  (θ_run (Cert.KernelIdeal.defs (F := Ideal)) _ _).mono (fun r h c =>
    ⟨(h c _ (Cert.KernelIdeal.Run.mem_uc Cert.KernelIdeal.main_arg0 (by decide))).trans (Cert.KernelIdeal.Run.arg_kept outsKI m ρ c _ (by decide)),
     (h c _ (Cert.KernelIdeal.Run.mem_uc Cert.KernelIdeal.main_arg1 (by decide))).trans (Cert.KernelIdeal.Run.arg_kept outsKI m ρ c _ (by decide)),
     (h c _ (Cert.KernelIdeal.Run.mem_uc Cert.KernelIdeal.main_arg2 (by decide))).trans (Cert.KernelIdeal.Run.arg_kept outsKI m ρ c _ (by decide)),
     (h c _ (Cert.KernelIdeal.Run.mem_uc Cert.KernelIdeal.main_arg3 (by decide))).trans (Cert.KernelIdeal.Run.arg_kept outsKI m ρ c _ (by decide)),
     (h c _ (Cert.KernelIdeal.Run.mem_uc Cert.KernelIdeal.main_arg4 (by decide))).trans (Cert.KernelIdeal.Run.arg_kept outsKI m ρ c _ (by decide)),
     (h c _ (Cert.KernelIdeal.Run.mem_uc Cert.KernelIdeal.main_arg5 (by decide))).trans (Cert.KernelIdeal.Run.arg_kept outsKI m ρ c _ (by decide)),
     (h c _ (Cert.KernelIdeal.Run.mem_uc Cert.KernelIdeal.main_arg6 (by decide))).trans (Cert.KernelIdeal.Run.arg_kept outsKI m ρ c _ (by decide))⟩)
    (Cert.KernelIdeal.Run.run outsKI m ρ soundKI0 soundKI1 soundKI2)

end Cert.Proof

end
-- ==== Proof.ReferenceIdealHostWrites.lean ====
import proofs.«157750_g2000200144022539_pallasbulk_675_13_alg».proof.Proof.Gen.ReferenceIdeal.Launch
import Idealize.ShloMosaic.Lib.StableHlo.Run

set_option maxRecDepth 16384

noncomputable section

namespace Cert.ReferenceIdeal.Host

open Idealize.ShloMosaic Idealize.ShloMosaic.TcCoe
open Cert.ReferenceIdeal Cert.ReferenceIdeal.Gen

variable {F : FTy → Type} [FloatOps F]

theorem writes_in_order {Val : EltTy → Type} (l : List (HloOp τ sig Val)) (W : List (Ref sig .tc))
    (h : (l.map fun op => op.writes) = W.map fun r => ({Proc.devRef (τ := τ) .tc r} : Finset (DevRef τ sig))) :
    l.Forall fun op => op.writes ⊆ (W.map (Proc.devRef (τ := τ) .tc)).toFinset := by
  rw [List.forall_iff_forall_mem]
  intro op hop
  have hm := List.mem_map_of_mem (f := fun op : HloOp τ sig Val => op.writes) hop
  rw [h] at hm
  obtain ⟨r, hr, e⟩ := List.mem_map.mp hm
  rw [← e, Finset.singleton_subset_iff, List.mem_toFinset]
  exact List.mem_map_of_mem hr

abbrev main_part0_ops0_W : List (Ref sig .tc) :=
  [main_v0]
theorem main_part0_ops0_writes : (main_part0_ops0 : List (HloOp τ sig (Elt F))).Forall fun op => op.writes ⊆ (main_part0_ops0_W.map (Proc.devRef (τ := τ) .tc)).toFinset :=
  writes_in_order _ _ rfl

abbrev main_part0_ops1_W : List (Ref sig .tc) :=
  [main_v2, main_c]
theorem main_part0_ops1_writes : (main_part0_ops1 : List (HloOp τ sig (Elt F))).Forall fun op => op.writes ⊆ (main_part0_ops1_W.map (Proc.devRef (τ := τ) .tc)).toFinset :=
  writes_in_order _ _ rfl

abbrev main_part0_ops2_W : List (Ref sig .tc) :=
  [main_call0_v0, main_v3]
theorem main_part0_ops2_writes : (main_part0_ops2 : List (HloOp τ sig (Elt F))).Forall fun op => op.writes ⊆ (main_part0_ops2_W.map (Proc.devRef (τ := τ) .tc)).toFinset :=
  writes_in_order _ _ rfl

abbrev main_part0_ops3_W : List (Ref sig .tc) :=
  [main_v4, main_v5, main_c_0]
theorem main_part0_ops3_writes : (main_part0_ops3 : List (HloOp τ sig (Elt F))).Forall fun op => op.writes ⊆ (main_part0_ops3_W.map (Proc.devRef (τ := τ) .tc)).toFinset :=
  writes_in_order _ _ rfl

abbrev main_part0_ops4_W : List (Ref sig .tc) :=
  [main_call1_v0, main_v6]
theorem main_part0_ops4_writes : (main_part0_ops4 : List (HloOp τ sig (Elt F))).Forall fun op => op.writes ⊆ (main_part0_ops4_W.map (Proc.devRef (τ := τ) .tc)).toFinset :=
  writes_in_order _ _ rfl

abbrev main_part0_ops5_W : List (Ref sig .tc) :=
  [main_v7, main_v8, main_cst, main_v9, main_cst_1, main_v10, main_v11, main_c_2, main_v12, main_v13, main_c_3, main_v14, main_v15, main_v16, main_v17, main_v18, main_v19, main_c_4]
theorem main_part0_ops5_writes : (main_part0_ops5 : List (HloOp τ sig (Elt F))).Forall fun op => op.writes ⊆ (main_part0_ops5_W.map (Proc.devRef (τ := τ) .tc)).toFinset :=
  writes_in_order _ _ rfl

abbrev main_part0_ops6_W : List (Ref sig .tc) :=
  [main_call2_v0, main_call2_c, main_call2_v1, main_call2_c_0, main_call2_v2, main_call2_v3, main_call2_v4, main_call2_c_1, main_call2_v5, main_call2_v6, main_call2_c_2, main_call2_v7, main_call2_v8, main_call2_c_3, main_call2_v9, main_call2_v10, main_call2_v11, main_call2_v12, main_call2_v13, main_call2_v14, main_v20]
theorem main_part0_ops6_writes : (main_part0_ops6 : List (HloOp τ sig (Elt F))).Forall fun op => op.writes ⊆ (main_part0_ops6_W.map (Proc.devRef (τ := τ) .tc)).toFinset :=
  writes_in_order _ _ rfl

abbrev main_part0_ops7_W : List (Ref sig .tc) :=
  [main_c_5]
theorem main_part0_ops7_writes : (main_part0_ops7 : List (HloOp τ sig (Elt F))).Forall fun op => op.writes ⊆ (main_part0_ops7_W.map (Proc.devRef (τ := τ) .tc)).toFinset :=
  writes_in_order _ _ rfl

abbrev main_part0_ops8_W : List (Ref sig .tc) :=
  [main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v21]
theorem main_part0_ops8_writes : (main_part0_ops8 : List (HloOp τ sig (Elt F))).Forall fun op => op.writes ⊆ (main_part0_ops8_W.map (Proc.devRef (τ := τ) .tc)).toFinset :=
  writes_in_order _ _ rfl

abbrev main_part0_ops9_W : List (Ref sig .tc) :=
  [main_c_6]
theorem main_part0_ops9_writes : (main_part0_ops9 : List (HloOp τ sig (Elt F))).Forall fun op => op.writes ⊆ (main_part0_ops9_W.map (Proc.devRef (τ := τ) .tc)).toFinset :=
  writes_in_order _ _ rfl

abbrev main_part0_ops10_W : List (Ref sig .tc) :=
  [main_call4_v0, main_call4_c, main_call4_v1, main_call4_c_0, main_call4_v2, main_call4_v3, main_call4_v4, main_call4_c_1, main_call4_v5, main_call4_v6, main_call4_c_2, main_call4_v7, main_call4_v8, main_call4_c_3, main_call4_v9, main_call4_v10, main_call4_v11, main_call4_v12, main_call4_v13, main_call4_v14, main_v22]
theorem main_part0_ops10_writes : (main_part0_ops10 : List (HloOp τ sig (Elt F))).Forall fun op => op.writes ⊆ (main_part0_ops10_W.map (Proc.devRef (τ := τ) .tc)).toFinset :=
  writes_in_order _ _ rfl

abbrev main_part0_ops11_W : List (Ref sig .tc) :=
  [main_c_7, main_v23, main_v24, main_c_8, main_v25, main_v26, main_c_9, main_v27, main_v28, main_c_10, main_v29, main_v30, main_c_11, main_v31, main_v32, main_c_12, main_v33, main_v34, main_v35, main_c_13, main_v36, main_v37, main_c_14, main_v38, main_v39, main_c_15, main_v40, main_v41]
theorem main_part0_ops11_writes : (main_part0_ops11 : List (HloOp τ sig (Elt F))).Forall fun op => op.writes ⊆ (main_part0_ops11_W.map (Proc.devRef (τ := τ) .tc)).toFinset :=
  writes_in_order _ _ rfl

abbrev main_part1_ops0_W : List (Ref sig .tc) :=
  [main_v42, main_c_16, main_v43, main_v44, main_c_17, main_v45, main_v46, main_c_18, main_v47, main_v48, main_v49, main_c_19, main_v50, main_v51, main_v52, main_c_20, main_v53, main_v54, main_c_21, main_v55, main_v56, main_c_22, main_v57, main_v58, main_c_23, main_v59, main_v60, main_c_24, main_v61, main_v62, main_c_25, main_v63, main_v64, main_v65, main_c_26, main_v66, main_v67, main_c_27, main_v68, main_v69, main_c_28, main_v70, main_v71, main_v72, main_c_29, main_v73, main_v74, main_c_30, main_v75, main_v76, main_c_31, main_v77, main_v78, main_v79, main_c_32, main_v80, main_v81, main_v82, main_c_33, main_v83]
theorem main_part1_ops0_writes : (main_part1_ops0 : List (HloOp τ sig (Elt F))).Forall fun op => op.writes ⊆ (main_part1_ops0_W.map (Proc.devRef (τ := τ) .tc)).toFinset :=
  writes_in_order _ _ rfl

abbrev main_part2_ops0_W : List (Ref sig .tc) :=
  [main_v84, main_c_34, main_v85, main_v86, main_c_35, main_v87, main_v88, main_c_36, main_v89, main_v90, main_c_37, main_v91, main_v92, main_c_38, main_v93, main_v94, main_v95, main_c_39, main_v96, main_v97, main_c_40, main_v98, main_v99, main_c_41, main_v100, main_v101, main_v102, main_c_42, main_v103, main_v104, main_c_43, main_v105, main_v106, main_c_44, main_v107, main_v108, main_v109, main_c_45, main_v110, main_v111, main_v112, main_c_46, main_v113, main_v114, main_c_47, main_v115, main_v116, main_c_48, main_v117, main_v118, main_c_49, main_v119, main_v120, main_c_50, main_v121, main_v122, main_c_51, main_v123, main_v124, main_v125]
theorem main_part2_ops0_writes : (main_part2_ops0 : List (HloOp τ sig (Elt F))).Forall fun op => op.writes ⊆ (main_part2_ops0_W.map (Proc.devRef (τ := τ) .tc)).toFinset :=
  writes_in_order _ _ rfl

abbrev main_part3_ops0_W : List (Ref sig .tc) :=
  [main_c_52, main_v126, main_v127, main_c_53, main_v128, main_v129, main_c_54, main_v130, main_v131, main_v132, main_c_55, main_v133, main_v134, main_c_56, main_v135, main_v136, main_c_57, main_v137, main_v138, main_v139, main_c_58, main_v140, main_v141, main_v142, main_c_59, main_v143, main_v144, main_c_60, main_v145, main_v146, main_c_61, main_v147, main_v148, main_c_62, main_v149, main_v150, main_c_63, main_v151, main_v152, main_c_64, main_v153, main_v154, main_v155, main_c_65, main_v156, main_v157, main_c_66, main_v158, main_v159, main_c_67, main_v160, main_v161, main_v162, main_c_68, main_v163, main_v164, main_c_69, main_v165, main_v166, main_c_70]
theorem main_part3_ops0_writes : (main_part3_ops0 : List (HloOp τ sig (Elt F))).Forall fun op => op.writes ⊆ (main_part3_ops0_W.map (Proc.devRef (τ := τ) .tc)).toFinset :=
  writes_in_order _ _ rfl

abbrev main_part4_ops0_W : List (Ref sig .tc) :=
  [main_v167, main_v168, main_v169, main_c_71, main_v170, main_v171, main_v172, main_c_72, main_v173, main_v174, main_c_73, main_v175, main_v176, main_c_74, main_v177, main_v178, main_c_75, main_v179, main_v180, main_c_76, main_v181, main_v182, main_c_77, main_v183, main_v184, main_v185, main_c_78, main_v186, main_v187, main_c_79, main_v188, main_v189, main_c_80, main_v190, main_v191, main_v192, main_c_81, main_v193, main_v194, main_c_82, main_v195, main_v196, main_c_83, main_v197, main_v198, main_v199, main_c_84, main_v200, main_v201, main_v202, main_c_85, main_v203, main_v204, main_c_86, main_v205, main_v206, main_c_87, main_v207, main_v208, main_c_88]
theorem main_part4_ops0_writes : (main_part4_ops0 : List (HloOp τ sig (Elt F))).Forall fun op => op.writes ⊆ (main_part4_ops0_W.map (Proc.devRef (τ := τ) .tc)).toFinset :=
  writes_in_order _ _ rfl

abbrev main_part5_ops0_W : List (Ref sig .tc) :=
  [main_v209, main_v210, main_c_89, main_v211, main_v212, main_c_90, main_v213, main_v214, main_v215, main_c_91, main_v216, main_v217, main_c_92, main_v218, main_v219, main_c_93, main_v220, main_v221, main_v222, main_c_94, main_v223, main_v224, main_c_95, main_v225, main_v226, main_c_96, main_v227, main_v228, main_v229, main_c_97, main_v230, main_v231, main_v232, main_c_98, main_v233, main_v234, main_c_99, main_v235, main_v236, main_c_100, main_v237, main_v238, main_c_101, main_v239, main_v240, main_c_102, main_v241, main_v242, main_c_103, main_v243, main_v244, main_v245, main_c_104, main_v246, main_v247, main_c_105, main_v248, main_v249, main_c_106, main_v250]
theorem main_part5_ops0_writes : (main_part5_ops0 : List (HloOp τ sig (Elt F))).Forall fun op => op.writes ⊆ (main_part5_ops0_W.map (Proc.devRef (τ := τ) .tc)).toFinset :=
  writes_in_order _ _ rfl

abbrev main_part6_ops0_W : List (Ref sig .tc) :=
  [main_v251, main_v252, main_c_107, main_v253, main_v254, main_c_108, main_v255, main_v256, main_c_109, main_v257, main_v258, main_v259, main_c_110, main_v260, main_v261, main_v262, main_c_111, main_v263, main_v264, main_c_112, main_v265, main_v266, main_c_113, main_v267, main_v268, main_c_114, main_v269, main_v270, main_c_115, main_v271, main_v272, main_c_116, main_v273, main_v274, main_v275, main_c_117, main_v276, main_v277, main_c_118, main_v278, main_v279, main_c_119, main_v280, main_v281, main_v282, main_c_120, main_v283, main_v284, main_c_121, main_v285, main_v286, main_c_122, main_v287, main_v288, main_v289, main_c_123, main_v290, main_v291, main_v292, main_v293]
theorem main_part6_ops0_writes : (main_part6_ops0 : List (HloOp τ sig (Elt F))).Forall fun op => op.writes ⊆ (main_part6_ops0_W.map (Proc.devRef (τ := τ) .tc)).toFinset :=
  writes_in_order _ _ rfl

abbrev main_part7_ops0_W : List (Ref sig .tc) :=
  [main_v294, main_v295, main_v296, main_v297, main_v298, main_v299, main_v300, main_v301, main_v302, main_v303]
theorem main_part7_ops0_writes : (main_part7_ops0 : List (HloOp τ sig (Elt F))).Forall fun op => op.writes ⊆ (main_part7_ops0_W.map (Proc.devRef (τ := τ) .tc)).toFinset :=
  writes_in_order _ _ rfl

abbrev main_part7_ops1_W : List (Ref sig .tc) :=
  [main_v305, main_cst_124, main_v306, main_v307, main_cst_125, main_v308, main_cst_126, main_v309, main_v310, main_cst_127, main_v311, main_v312, main_v313, main_v314, main_cst_128, main_v315, main_v316, main_v317, main_v318, main_c_129]
theorem main_part7_ops1_writes : (main_part7_ops1 : List (HloOp τ sig (Elt F))).Forall fun op => op.writes ⊆ (main_part7_ops1_W.map (Proc.devRef (τ := τ) .tc)).toFinset :=
  writes_in_order _ _ rfl

abbrev main_part7_ops2_W : List (Ref sig .tc) :=
  [main_call5_v0, main_v319]
theorem main_part7_ops2_writes : (main_part7_ops2 : List (HloOp τ sig (Elt F))).Forall fun op => op.writes ⊆ (main_part7_ops2_W.map (Proc.devRef (τ := τ) .tc)).toFinset :=
  writes_in_order _ _ rfl

abbrev main_part7_ops3_W : List (Ref sig .tc) :=
  [main_v320, main_v321, main_v322, main_c_130]
theorem main_part7_ops3_writes : (main_part7_ops3 : List (HloOp τ sig (Elt F))).Forall fun op => op.writes ⊆ (main_part7_ops3_W.map (Proc.devRef (τ := τ) .tc)).toFinset :=
  writes_in_order _ _ rfl

abbrev main_part7_ops4_W : List (Ref sig .tc) :=
  [main_call6_v0, main_v323]
theorem main_part7_ops4_writes : (main_part7_ops4 : List (HloOp τ sig (Elt F))).Forall fun op => op.writes ⊆ (main_part7_ops4_W.map (Proc.devRef (τ := τ) .tc)).toFinset :=
  writes_in_order _ _ rfl

abbrev main_part7_ops5_W : List (Ref sig .tc) :=
  [main_v324, main_v325, main_v326, main_c_131]
theorem main_part7_ops5_writes : (main_part7_ops5 : List (HloOp τ sig (Elt F))).Forall fun op => op.writes ⊆ (main_part7_ops5_W.map (Proc.devRef (τ := τ) .tc)).toFinset :=
  writes_in_order _ _ rfl

abbrev main_part7_ops6_W : List (Ref sig .tc) :=
  [main_call7_v0, main_v327]
theorem main_part7_ops6_writes : (main_part7_ops6 : List (HloOp τ sig (Elt F))).Forall fun op => op.writes ⊆ (main_part7_ops6_W.map (Proc.devRef (τ := τ) .tc)).toFinset :=
  writes_in_order _ _ rfl

abbrev main_part7_ops7_W : List (Ref sig .tc) :=
  [main_v328, main_v329, main_v330, main_c_132, main_v331, main_v332, main_c_133, main_v333, main_v334, main_v335, main_v336, main_v337, main_v338, main_c_134]
theorem main_part7_ops7_writes : (main_part7_ops7 : List (HloOp τ sig (Elt F))).Forall fun op => op.writes ⊆ (main_part7_ops7_W.map (Proc.devRef (τ := τ) .tc)).toFinset :=
  writes_in_order _ _ rfl

abbrev main_part7_ops8_W : List (Ref sig .tc) :=
  [main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v339]
theorem main_part7_ops8_writes : (main_part7_ops8 : List (HloOp τ sig (Elt F))).Forall fun op => op.writes ⊆ (main_part7_ops8_W.map (Proc.devRef (τ := τ) .tc)).toFinset :=
  writes_in_order _ _ rfl

abbrev main_part7_ops9_W : List (Ref sig .tc) :=
  [main_c_135]
theorem main_part7_ops9_writes : (main_part7_ops9 : List (HloOp τ sig (Elt F))).Forall fun op => op.writes ⊆ (main_part7_ops9_W.map (Proc.devRef (τ := τ) .tc)).toFinset :=
  writes_in_order _ _ rfl

abbrev main_part7_ops10_W : List (Ref sig .tc) :=
  [main_call9_v0, main_call9_v1, main_call9_v2, main_call9_v3, main_call9_v4, main_call9_v5, main_call9_v6, main_call9_v7, main_call9_v8, main_call9_c, main_call9_v9, main_call9_v10, main_call9_v11, main_call9_c_0, main_call9_v12, main_call9_v13, main_v340]
theorem main_part7_ops10_writes : (main_part7_ops10 : List (HloOp τ sig (Elt F))).Forall fun op => op.writes ⊆ (main_part7_ops10_W.map (Proc.devRef (τ := τ) .tc)).toFinset :=
  writes_in_order _ _ rfl

abbrev main_part7_ops11_W : List (Ref sig .tc) :=
  [main_c_136]
theorem main_part7_ops11_writes : (main_part7_ops11 : List (HloOp τ sig (Elt F))).Forall fun op => op.writes ⊆ (main_part7_ops11_W.map (Proc.devRef (τ := τ) .tc)).toFinset :=
  writes_in_order _ _ rfl

abbrev main_part8_ops0_W : List (Ref sig .tc) :=
  [main_call10_v0, main_call10_c, main_call10_v1, main_call10_c_0, main_call10_v2, main_call10_v3, main_call10_v4, main_call10_c_1, main_call10_v5, main_call10_v6, main_call10_c_2, main_call10_v7, main_call10_v8, main_call10_c_3, main_call10_v9, main_call10_v10, main_call10_v11, main_call10_v12, main_call10_v13, main_call10_v14, main_v341]
theorem main_part8_ops0_writes : (main_part8_ops0 : List (HloOp τ sig (Elt F))).Forall fun op => op.writes ⊆ (main_part8_ops0_W.map (Proc.devRef (τ := τ) .tc)).toFinset :=
  writes_in_order _ _ rfl

abbrev main_part8_ops1_W : List (Ref sig .tc) :=
  [main_c_137, main_v342, main_v343, main_c_138, main_v344, main_v345, main_c_139, main_v346, main_v347, main_c_140, main_v348, main_v349, main_c_141, main_v350, main_v351, main_c_142, main_v352, main_v353, main_v354, main_c_143, main_v355, main_v356, main_c_144, main_v357, main_v358, main_c_145, main_v359, main_v360, main_v361, main_c_146, main_v362, main_v363, main_c_147, main_v364, main_v365, main_c_148, main_v366, main_v367, main_v368, main_c_149, main_v369, main_v370, main_v371, main_c_150, main_v372, main_v373, main_c_151, main_v374, main_v375, main_c_152, main_v376, main_v377, main_c_153, main_v378, main_v379, main_c_154, main_v380, main_v381, main_c_155]
theorem main_part8_ops1_writes : (main_part8_ops1 : List (HloOp τ sig (Elt F))).Forall fun op => op.writes ⊆ (main_part8_ops1_W.map (Proc.devRef (τ := τ) .tc)).toFinset :=
  writes_in_order _ _ rfl

abbrev main_part9_ops0_W : List (Ref sig .tc) :=
  [main_v382, main_v383, main_v384, main_c_156, main_v385, main_v386, main_c_157, main_v387, main_v388, main_c_158, main_v389, main_v390, main_v391, main_c_159, main_v392, main_v393, main_c_160, main_v394, main_v395, main_c_161, main_v396, main_v397, main_v398, main_c_162, main_v399, main_v400, main_v401, main_c_163, main_v402, main_v403, main_c_164, main_v404, main_v405, main_c_165, main_v406, main_v407, main_c_166, main_v408, main_v409, main_c_167, main_v410, main_v411, main_c_168, main_v412, main_v413, main_v414, main_c_169, main_v415, main_v416, main_c_170, main_v417, main_v418, main_c_171, main_v419, main_v420, main_v421, main_c_172, main_v422, main_v423, main_c_173]
theorem main_part9_ops0_writes : (main_part9_ops0 : List (HloOp τ sig (Elt F))).Forall fun op => op.writes ⊆ (main_part9_ops0_W.map (Proc.devRef (τ := τ) .tc)).toFinset :=
  writes_in_order _ _ rfl

abbrev main_part10_ops0_W : List (Ref sig .tc) :=
  [main_v424, main_v425, main_c_174, main_v426, main_v427, main_v428, main_c_175, main_v429, main_v430, main_v431, main_c_176, main_v432, main_v433, main_c_177, main_v434, main_v435, main_c_178, main_v436, main_v437, main_c_179, main_v438, main_v439, main_c_180, main_v440, main_v441, main_c_181, main_v442, main_v443, main_v444, main_c_182, main_v445, main_v446, main_c_183, main_v447, main_v448, main_c_184, main_v449, main_v450, main_v451, main_c_185, main_v452, main_v453, main_c_186, main_v454, main_v455, main_c_187, main_v456, main_v457, main_v458, main_c_188, main_v459, main_v460, main_v461, main_c_189, main_v462, main_v463, main_c_190, main_v464, main_v465, main_c_191]
theorem main_part10_ops0_writes : (main_part10_ops0 : List (HloOp τ sig (Elt F))).Forall fun op => op.writes ⊆ (main_part10_ops0_W.map (Proc.devRef (τ := τ) .tc)).toFinset :=
  writes_in_order _ _ rfl

abbrev main_part11_ops0_W : List (Ref sig .tc) :=
  [main_v466, main_v467, main_c_192, main_v468, main_v469, main_c_193, main_v470, main_v471, main_c_194, main_v472, main_v473, main_v474, main_c_195, main_v475, main_v476, main_c_196, main_v477, main_v478, main_c_197, main_v479, main_v480, main_v481, main_c_198, main_v482, main_v483, main_c_199, main_v484, main_v485, main_c_200, main_v486, main_v487, main_v488, main_c_201, main_v489, main_v490, main_v491, main_c_202, main_v492, main_v493, main_c_203, main_v494, main_v495, main_c_204, main_v496, main_v497, main_c_205, main_v498, main_v499, main_c_206, main_v500, main_v501, main_c_207, main_v502, main_v503, main_v504, main_c_208, main_v505, main_v506, main_c_209, main_v507]
theorem main_part11_ops0_writes : (main_part11_ops0 : List (HloOp τ sig (Elt F))).Forall fun op => op.writes ⊆ (main_part11_ops0_W.map (Proc.devRef (τ := τ) .tc)).toFinset :=
  writes_in_order _ _ rfl

abbrev main_part12_ops0_W : List (Ref sig .tc) :=
  [main_v508, main_c_210, main_v509, main_v510, main_v511, main_c_211, main_v512, main_v513, main_c_212, main_v514, main_v515, main_c_213, main_v516, main_v517, main_v518, main_c_214, main_v519, main_v520, main_v521, main_c_215, main_v522, main_v523, main_c_216, main_v524, main_v525, main_c_217, main_v526, main_v527, main_c_218, main_v528, main_v529, main_c_219, main_v530, main_v531, main_c_220, main_v532, main_v533, main_v534, main_c_221, main_v535, main_v536, main_c_222, main_v537, main_v538, main_c_223, main_v539, main_v540, main_v541, main_c_224, main_v542, main_v543, main_c_225, main_v544, main_v545, main_c_226, main_v546, main_v547, main_v548, main_c_227, main_v549]
theorem main_part12_ops0_writes : (main_part12_ops0 : List (HloOp τ sig (Elt F))).Forall fun op => op.writes ⊆ (main_part12_ops0_W.map (Proc.devRef (τ := τ) .tc)).toFinset :=
  writes_in_order _ _ rfl

abbrev main_part13_ops0_W : List (Ref sig .tc) :=
  [main_v550, main_v551, main_c_228, main_v552, main_v553, main_c_229, main_v554, main_v555, main_c_230, main_v556, main_v557, main_c_231, main_v558, main_v559, main_c_232, main_v560, main_v561, main_c_233, main_v562, main_v563, main_v564, main_c_234, main_v565, main_v566, main_c_235, main_v567, main_v568, main_c_236, main_v569, main_v570, main_v571, main_c_237, main_v572, main_v573, main_c_238, main_v574, main_v575, main_c_239, main_v576, main_v577, main_v578, main_c_240, main_v579, main_v580, main_v581, main_c_241, main_v582, main_v583, main_c_242, main_v584, main_v585, main_c_243, main_v586, main_v587, main_c_244, main_v588, main_v589, main_c_245, main_v590, main_v591]
theorem main_part13_ops0_writes : (main_part13_ops0 : List (HloOp τ sig (Elt F))).Forall fun op => op.writes ⊆ (main_part13_ops0_W.map (Proc.devRef (τ := τ) .tc)).toFinset :=
  writes_in_order _ _ rfl

abbrev main_part14_ops0_W : List (Ref sig .tc) :=
  [main_c_246, main_v592, main_v593, main_v594, main_c_247, main_v595, main_v596, main_c_248, main_v597, main_v598, main_c_249, main_v599, main_v600, main_v601, main_c_250, main_v602, main_v603, main_c_251, main_v604, main_v605, main_c_252, main_v606, main_v607, main_v608, main_c_253, main_v609, main_v610, main_v611, main_v612, main_v613, main_v614, main_v615, main_v616, main_v617, main_v618, main_v619, main_v620, main_v621, main_v622]
theorem main_part14_ops0_writes : (main_part14_ops0 : List (HloOp τ sig (Elt F))).Forall fun op => op.writes ⊆ (main_part14_ops0_W.map (Proc.devRef (τ := τ) .tc)).toFinset :=
  writes_in_order _ _ rfl

abbrev main_part14_ops1_W : List (Ref sig .tc) :=
  [main_v624, main_cst_254, main_v625, main_v626, main_cst_255, main_v627, main_cst_256, main_v628, main_v629, main_cst_257, main_v630, main_v631, main_v632, main_v633, main_cst_258, main_v634, main_v635, main_v636, main_v637, main_c_259]
theorem main_part14_ops1_writes : (main_part14_ops1 : List (HloOp τ sig (Elt F))).Forall fun op => op.writes ⊆ (main_part14_ops1_W.map (Proc.devRef (τ := τ) .tc)).toFinset :=
  writes_in_order _ _ rfl

abbrev main_part15_ops0_W : List (Ref sig .tc) :=
  [main_call11_v0, main_v638]
theorem main_part15_ops0_writes : (main_part15_ops0 : List (HloOp τ sig (Elt F))).Forall fun op => op.writes ⊆ (main_part15_ops0_W.map (Proc.devRef (τ := τ) .tc)).toFinset :=
  writes_in_order _ _ rfl

abbrev main_part15_ops1_W : List (Ref sig .tc) :=
  [main_v639, main_v640, main_v641, main_c_260]
theorem main_part15_ops1_writes : (main_part15_ops1 : List (HloOp τ sig (Elt F))).Forall fun op => op.writes ⊆ (main_part15_ops1_W.map (Proc.devRef (τ := τ) .tc)).toFinset :=
  writes_in_order _ _ rfl

abbrev main_part15_ops2_W : List (Ref sig .tc) :=
  [main_call12_v0, main_v642]
theorem main_part15_ops2_writes : (main_part15_ops2 : List (HloOp τ sig (Elt F))).Forall fun op => op.writes ⊆ (main_part15_ops2_W.map (Proc.devRef (τ := τ) .tc)).toFinset :=
  writes_in_order _ _ rfl

abbrev main_part15_ops3_W : List (Ref sig .tc) :=
  [main_v643]
theorem main_part15_ops3_writes : (main_part15_ops3 : List (HloOp τ sig (Elt F))).Forall fun op => op.writes ⊆ (main_part15_ops3_W.map (Proc.devRef (τ := τ) .tc)).toFinset :=
  writes_in_order _ _ rfl

abbrev main_part15_ops4_W : List (Ref sig .tc) :=
  [main_v645]
theorem main_part15_ops4_writes : (main_part15_ops4 : List (HloOp τ sig (Elt F))).Forall fun op => op.writes ⊆ (main_part15_ops4_W.map (Proc.devRef (τ := τ) .tc)).toFinset :=
  writes_in_order _ _ rfl

end Cert.ReferenceIdeal.Host

end
-- ==== Proof.ReferenceIdealKeep.lean ====
/- No item of @main writes an argument array (the table of what each host stretch writes is its own module): a kernel region writes only the
   arrays of its windows, and no argument is an output window's array. So the contents at the last boundary, read at an
   argument, are the launch contents. -/
import proofs.«157750_g2000200144022539_pallasbulk_675_13_alg».proof.Proof.ReferenceIdealRun
import proofs.«157750_g2000200144022539_pallasbulk_675_13_alg».proof.Proof.ReferenceIdealHostWrites

set_option maxRecDepth 16384

noncomputable section

namespace Cert.ReferenceIdeal.Run

open Idealize.ShloMosaic Idealize.ShloMosaic.TcCoe
open Idealize.SL Idealize.SL.Sem
open Idealize.ShloMosaic.Pipeline (Dat)
open Cert.ReferenceIdeal Cert.ReferenceIdeal.Gen

variable {F : FTy → Type} [FloatOps F]

/-- The argument arrays. -/
abbrev argRefs : List (Ref sig .tc) := [main_arg0, main_arg1, main_arg2, main_arg3, main_arg4, main_arg5, main_arg6]

variable (O : Outs F) (m : (ℓ : Loc nD τ sig) → Buf (Elt F) ℓ) (ρ : Dev nD → PrngReg)

/-- Every argument array reaches the last boundary as launched. -/
theorem arg_kept (c : Dev nD) (r : Ref sig .tc) (hr : r ∈ argRefs) : W48 O m ρ c (Proc.devRef .tc r) = m ((c : Thread nD τ).loc r) := by
  have hr' := hr
  simp only [argRefs, List.mem_cons, List.mem_nil_iff, List.not_mem_nil, or_false] at hr'
  rcases hr' with rfl | rfl | rfl | rfl | rfl | rfl | rfl
  all_goals exact
    (StableHlo.after_of_writes_sub main_part15_ops4 _ Cert.ReferenceIdeal.Host.main_part15_ops4_writes (by decide)).trans <|
    (W47_of_ne O m ρ c _ (by decide)).trans <|
    (StableHlo.after_of_writes_sub main_part15_ops3 _ Cert.ReferenceIdeal.Host.main_part15_ops3_writes (by decide)).trans <|
    (StableHlo.after_of_writes_sub main_part15_ops2 _ Cert.ReferenceIdeal.Host.main_part15_ops2_writes (by decide)).trans <|
    (StableHlo.after_of_writes_sub main_part15_ops1 _ Cert.ReferenceIdeal.Host.main_part15_ops1_writes (by decide)).trans <|
    (StableHlo.after_of_writes_sub main_part15_ops0 _ Cert.ReferenceIdeal.Host.main_part15_ops0_writes (by decide)).trans <|
    (StableHlo.after_of_writes_sub main_part14_ops1 _ Cert.ReferenceIdeal.Host.main_part14_ops1_writes (by decide)).trans <|
    (W41_of_ne O m ρ c _ (by decide)).trans <|
    (StableHlo.after_of_writes_sub main_part14_ops0 _ Cert.ReferenceIdeal.Host.main_part14_ops0_writes (by decide)).trans <|
    (StableHlo.after_of_writes_sub main_part13_ops0 _ Cert.ReferenceIdeal.Host.main_part13_ops0_writes (by decide)).trans <|
    (StableHlo.after_of_writes_sub main_part12_ops0 _ Cert.ReferenceIdeal.Host.main_part12_ops0_writes (by decide)).trans <|
    (StableHlo.after_of_writes_sub main_part11_ops0 _ Cert.ReferenceIdeal.Host.main_part11_ops0_writes (by decide)).trans <|
    (StableHlo.after_of_writes_sub main_part10_ops0 _ Cert.ReferenceIdeal.Host.main_part10_ops0_writes (by decide)).trans <|
    (StableHlo.after_of_writes_sub main_part9_ops0 _ Cert.ReferenceIdeal.Host.main_part9_ops0_writes (by decide)).trans <|
    (StableHlo.after_of_writes_sub main_part8_ops1 _ Cert.ReferenceIdeal.Host.main_part8_ops1_writes (by decide)).trans <|
    (StableHlo.after_of_writes_sub main_part8_ops0 _ Cert.ReferenceIdeal.Host.main_part8_ops0_writes (by decide)).trans <|
    (StableHlo.after_of_writes_sub main_part7_ops11 _ Cert.ReferenceIdeal.Host.main_part7_ops11_writes (by decide)).trans <|
    (StableHlo.after_of_writes_sub main_part7_ops10 _ Cert.ReferenceIdeal.Host.main_part7_ops10_writes (by decide)).trans <|
    (StableHlo.after_of_writes_sub main_part7_ops9 _ Cert.ReferenceIdeal.Host.main_part7_ops9_writes (by decide)).trans <|
    (StableHlo.after_of_writes_sub main_part7_ops8 _ Cert.ReferenceIdeal.Host.main_part7_ops8_writes (by decide)).trans <|
    (StableHlo.after_of_writes_sub main_part7_ops7 _ Cert.ReferenceIdeal.Host.main_part7_ops7_writes (by decide)).trans <|
    (StableHlo.after_of_writes_sub main_part7_ops6 _ Cert.ReferenceIdeal.Host.main_part7_ops6_writes (by decide)).trans <|
    (StableHlo.after_of_writes_sub main_part7_ops5 _ Cert.ReferenceIdeal.Host.main_part7_ops5_writes (by decide)).trans <|
    (StableHlo.after_of_writes_sub main_part7_ops4 _ Cert.ReferenceIdeal.Host.main_part7_ops4_writes (by decide)).trans <|
    (StableHlo.after_of_writes_sub main_part7_ops3 _ Cert.ReferenceIdeal.Host.main_part7_ops3_writes (by decide)).trans <|
    (StableHlo.after_of_writes_sub main_part7_ops2 _ Cert.ReferenceIdeal.Host.main_part7_ops2_writes (by decide)).trans <|
    (StableHlo.after_of_writes_sub main_part7_ops1 _ Cert.ReferenceIdeal.Host.main_part7_ops1_writes (by decide)).trans <|
    (W21_of_ne O m ρ c _ (by decide)).trans <|
    (StableHlo.after_of_writes_sub main_part7_ops0 _ Cert.ReferenceIdeal.Host.main_part7_ops0_writes (by decide)).trans <|
    (StableHlo.after_of_writes_sub main_part6_ops0 _ Cert.ReferenceIdeal.Host.main_part6_ops0_writes (by decide)).trans <|
    (StableHlo.after_of_writes_sub main_part5_ops0 _ Cert.ReferenceIdeal.Host.main_part5_ops0_writes (by decide)).trans <|
    (StableHlo.after_of_writes_sub main_part4_ops0 _ Cert.ReferenceIdeal.Host.main_part4_ops0_writes (by decide)).trans <|
    (StableHlo.after_of_writes_sub main_part3_ops0 _ Cert.ReferenceIdeal.Host.main_part3_ops0_writes (by decide)).trans <|
    (StableHlo.after_of_writes_sub main_part2_ops0 _ Cert.ReferenceIdeal.Host.main_part2_ops0_writes (by decide)).trans <|
    (StableHlo.after_of_writes_sub main_part1_ops0 _ Cert.ReferenceIdeal.Host.main_part1_ops0_writes (by decide)).trans <|
    (StableHlo.after_of_writes_sub main_part0_ops11 _ Cert.ReferenceIdeal.Host.main_part0_ops11_writes (by decide)).trans <|
    (StableHlo.after_of_writes_sub main_part0_ops10 _ Cert.ReferenceIdeal.Host.main_part0_ops10_writes (by decide)).trans <|
    (StableHlo.after_of_writes_sub main_part0_ops9 _ Cert.ReferenceIdeal.Host.main_part0_ops9_writes (by decide)).trans <|
    (StableHlo.after_of_writes_sub main_part0_ops8 _ Cert.ReferenceIdeal.Host.main_part0_ops8_writes (by decide)).trans <|
    (StableHlo.after_of_writes_sub main_part0_ops7 _ Cert.ReferenceIdeal.Host.main_part0_ops7_writes (by decide)).trans <|
    (StableHlo.after_of_writes_sub main_part0_ops6 _ Cert.ReferenceIdeal.Host.main_part0_ops6_writes (by decide)).trans <|
    (StableHlo.after_of_writes_sub main_part0_ops5 _ Cert.ReferenceIdeal.Host.main_part0_ops5_writes (by decide)).trans <|
    (StableHlo.after_of_writes_sub main_part0_ops4 _ Cert.ReferenceIdeal.Host.main_part0_ops4_writes (by decide)).trans <|
    (StableHlo.after_of_writes_sub main_part0_ops3 _ Cert.ReferenceIdeal.Host.main_part0_ops3_writes (by decide)).trans <|
    (StableHlo.after_of_writes_sub main_part0_ops2 _ Cert.ReferenceIdeal.Host.main_part0_ops2_writes (by decide)).trans <|
    (StableHlo.after_of_writes_sub main_part0_ops1 _ Cert.ReferenceIdeal.Host.main_part0_ops1_writes (by decide)).trans <|
    (W2_of_ne O m ρ c _ (by decide)).trans <|
    (StableHlo.after_of_writes_sub main_part0_ops0 _ Cert.ReferenceIdeal.Host.main_part0_ops0_writes (by decide)).trans rfl

end Cert.ReferenceIdeal.Run

end
-- ==== Proof.TopReferenceIdeal.lean ====
import proofs.«157750_g2000200144022539_pallasbulk_675_13_alg».proof.Defs
import proofs.«157750_g2000200144022539_pallasbulk_675_13_alg».proof.Proof.Gen.ReferenceIdeal
import proofs.«157750_g2000200144022539_pallasbulk_675_13_alg».proof.Proof.Gen.Pre_finite_inputs
import proofs.«157750_g2000200144022539_pallasbulk_675_13_alg».proof.Proof.ReferenceIdealRun
import proofs.«157750_g2000200144022539_pallasbulk_675_13_alg».proof.Proof.ReferenceIdealKeep
import proofs.«157750_g2000200144022539_pallasbulk_675_13_alg».proof.Proof.ReferenceIdealBody0
import proofs.«157750_g2000200144022539_pallasbulk_675_13_alg».proof.Proof.ReferenceIdealBody1
import proofs.«157750_g2000200144022539_pallasbulk_675_13_alg».proof.Proof.ReferenceIdealBody2
import proofs.«157750_g2000200144022539_pallasbulk_675_13_alg».proof.Proof.ReferenceIdealBody3
import proofs.«157750_g2000200144022539_pallasbulk_675_13_alg».proof.Proof.BridgeOuts

noncomputable section

namespace Cert.Proof

open Idealize.ShloMosaic Idealize.SL.Sem
open Cert.Bridge (outsRI)

theorem soundRI0 : Cert.ReferenceIdeal.Run.Sound0 outsRI := by
  unfold Cert.ReferenceIdeal.Run.Sound0
  intro c E i a1 h1 a2 h2 x1 K
  have h := Cert.ReferenceIdeal.Body.sound_kernel0 (F := Ideal) c E i a1 h1 a2 h2 x1 K
  dsimp only [outsRI]
  exact h

theorem soundRI1 : Cert.ReferenceIdeal.Run.Sound1 outsRI := by
  unfold Cert.ReferenceIdeal.Run.Sound1
  intro c E i a1 h1 a2 h2 a3 h3 a4 h4 a5 h5 a6 h6 a7 h7 a8 h8 a9 h9 a10 h10 a11 h11 x1 x2 x3 x4 x5 x6 K
  have h := Cert.ReferenceIdeal.Body.sound_kernel1 (F := Ideal) c E i a1 h1 a2 h2 a3 h3 a4 h4 a5 h5 a6 h6 a7 h7 a8 h8 a9 h9 a10 h10 a11 h11 x1 x2 x3 x4 x5 x6 K
  dsimp only [outsRI]
  exact h

theorem soundRI2 : Cert.ReferenceIdeal.Run.Sound2 outsRI := by
  unfold Cert.ReferenceIdeal.Run.Sound2
  intro c E i a1 h1 a2 h2 a3 h3 a4 h4 a5 h5 a6 h6 a7 h7 a8 h8 a9 h9 a10 h10 a11 h11 x1 x2 x3 x4 x5 x6 K
  have h := Cert.ReferenceIdeal.Body.sound_kernel2 (F := Ideal) c E i a1 h1 a2 h2 a3 h3 a4 h4 a5 h5 a6 h6 a7 h7 a8 h8 a9 h9 a10 h10 a11 h11 x1 x2 x3 x4 x5 x6 K
  dsimp only [outsRI]
  exact h

theorem soundRI3 : Cert.ReferenceIdeal.Run.Sound3 outsRI := by
  unfold Cert.ReferenceIdeal.Run.Sound3
  intro c E i a1 h1 a2 h2 a3 h3 a4 h4 x1 x2 x3 K
  have h := Cert.ReferenceIdeal.Body.sound_kernel3 (F := Ideal) c E i a1 h1 a2 h2 a3 h3 a4 h4 x1 x2 x3 K
  dsimp only [outsRI]
  exact h

theorem frame_RI : Cert.frame_ReferenceIdeal := fun m ρ _ =>
  (θ_run (Cert.ReferenceIdeal.defs (F := Ideal)) _ _).mono (fun r h c =>
    ⟨(h c _ (Cert.ReferenceIdeal.Run.mem_uc Cert.ReferenceIdeal.main_arg0 (by decide))).trans (Cert.ReferenceIdeal.Run.arg_kept outsRI m ρ c _ (by decide)),
     (h c _ (Cert.ReferenceIdeal.Run.mem_uc Cert.ReferenceIdeal.main_arg1 (by decide))).trans (Cert.ReferenceIdeal.Run.arg_kept outsRI m ρ c _ (by decide)),
     (h c _ (Cert.ReferenceIdeal.Run.mem_uc Cert.ReferenceIdeal.main_arg2 (by decide))).trans (Cert.ReferenceIdeal.Run.arg_kept outsRI m ρ c _ (by decide)),
     (h c _ (Cert.ReferenceIdeal.Run.mem_uc Cert.ReferenceIdeal.main_arg3 (by decide))).trans (Cert.ReferenceIdeal.Run.arg_kept outsRI m ρ c _ (by decide)),
     (h c _ (Cert.ReferenceIdeal.Run.mem_uc Cert.ReferenceIdeal.main_arg4 (by decide))).trans (Cert.ReferenceIdeal.Run.arg_kept outsRI m ρ c _ (by decide)),
     (h c _ (Cert.ReferenceIdeal.Run.mem_uc Cert.ReferenceIdeal.main_arg5 (by decide))).trans (Cert.ReferenceIdeal.Run.arg_kept outsRI m ρ c _ (by decide)),
     (h c _ (Cert.ReferenceIdeal.Run.mem_uc Cert.ReferenceIdeal.main_arg6 (by decide))).trans (Cert.ReferenceIdeal.Run.arg_kept outsRI m ρ c _ (by decide))⟩)
    (Cert.ReferenceIdeal.Run.run outsRI m ρ soundRI0 soundRI1 soundRI2 soundRI3)

end Cert.Proof

end
-- ==== Proof.KernelIdealArrays.lean ====
import proofs.«157750_g2000200144022539_pallasbulk_675_13_alg».proof.Proof.KernelIdealRun
import Idealize.ShloMosaic.Lib.Pipeline.Value
import Idealize.ShloMosaic.Lib.ValueIdx

/-! # From blocks to arrays: what each region's output arrays hold after the region

Every blocked window here has block `[1, a, b]` of an array `[8, a, b]` at block index `(t, 0, 0)` over a grid of eight
points, so block `t` of an array `A` is its slab `t`; the other operands are fetched whole. What a point writes back
into an output array is therefore block `t` of ONE function of the region's entry arrays (the body's output block of
slab `n` of the blocked input and of the whole operands), the blocks tile the array, and the array after the region
is that function. -/

set_option maxRecDepth 16384

noncomputable section

namespace Cert.KernelIdeal.Run

open Idealize.ShloMosaic Idealize.ShloMosaic.TcCoe
open Idealize.SL Idealize.SL.Sem
open Idealize.ShloMosaic.Pipeline (Dat Cfg Window)
open Cert.KernelIdeal Cert.KernelIdeal.Gen
open Idealize.ShloMosaic.ValueIdx

variable {F : FTy → Type} [FloatOps F]
variable (O : Outs F)
variable (V : (c : Dev nD) → (b : Ref sig .tc) → Buf (Elt F) ((c : Thread nD τ).loc b))

/-- Slab `n` of a blocked array `[8, a, b]`, as a block `[1, a, b]`. -/
abbrev slab3 {n1 n2 : ℕ} {e : EltTy} (A : (⟨3, ![8, n1, n2]⟩ : Shape).Idx → Elt F e) (n : Fin 8) : Vec F ⟨3, ![1, n1, n2]⟩ e :=
  fun y => A (ix3 n (y 1) (y 2))

/-! # Region 2: the arrays after the third kernel's region -/

/-- Window 0's index map, decided over the eight grid points: block `(t, 0, 0)`. -/
theorem index2_0 : ∀ t : Fin cfg2.N, win2_0.index t (0 : Fin 3) = t.val ∧ win2_0.index t (1 : Fin 3) = 0 ∧ win2_0.index t (2 : Fin 3) = 0 :=
  (by decide +kernel : ∀ t : Fin grid2.N, _)

/-- Window 1's index map, decided over the eight grid points: always block zero (fetched whole). -/
theorem index2_1 : ∀ t : Fin cfg2.N, win2_1.index t (0 : Fin 2) = 0 ∧ win2_1.index t (1 : Fin 2) = 0 :=
  (by decide +kernel : ∀ t : Fin grid2.N, _)

/-- Window 2's index map, decided over the eight grid points: always block zero (fetched whole). -/
theorem index2_2 : ∀ t : Fin cfg2.N, win2_2.index t (0 : Fin 2) = 0 ∧ win2_2.index t (1 : Fin 2) = 0 :=
  (by decide +kernel : ∀ t : Fin grid2.N, _)

/-- Window 3's index map, decided over the eight grid points: block `(t, 0, 0)`. -/
theorem index2_3 : ∀ t : Fin cfg2.N, win2_3.index t (0 : Fin 3) = t.val ∧ win2_3.index t (1 : Fin 3) = 0 ∧ win2_3.index t (2 : Fin 3) = 0 :=
  (by decide +kernel : ∀ t : Fin grid2.N, _)

/-- Every leading coordinate of the blocked arrays is some point's. -/
theorem point2_of (n : Fin 8) : ∃ t : Fin cfg2.N, t.val = n.val :=
  (by decide +kernel : ∀ n : Fin 8, ∃ t : Fin grid2.N, t.val = n.val) n

/-- The block of the activations at point `t` is slab `t` of the array. -/
theorem iblk2_0_apply (c : Dev nD) (t : Fin cfg2.N) (y : S1x64x4096.Idx) (k : S8x64x4096.Idx)
    (hk0 : (k 0).val = t.val) (hk1 : (k 1).val = (y 1).val) (hk2 : (k 2).val = (y 2).val) :
    (iblk2 V c 0 t : Vec F S1x64x4096 .bf16) y = (V c main_v313_0 : S8x64x4096.Idx → Elt F .bf16) k := by
  obtain ⟨e0, e1, e2⟩ := index2_0 t
  have hy0 : (y 0).val < 1 := (y 0).isLt
  unfold iblk2
  rw [View.read_apply]
  show V c main_v313_0 _ = V c main_v313_0 _
  congr 1
  funext a
  apply Fin.ext
  match a with
  | ⟨0, _⟩ => show win2_0.index t (0 : Fin 3) * 1 + 1 * (y 0).val = (k 0).val; omega
  | ⟨1, _⟩ => show win2_0.index t (1 : Fin 3) * 64 + 1 * (y 1).val = (k 1).val; omega
  | ⟨2, _⟩ => show win2_0.index t (2 : Fin 3) * 4096 + 1 * (y 2).val = (k 2).val; omega

/-- The block of the scale at every point is the whole array. -/
theorem iblk2_1_eq (c : Dev nD) (t : Fin cfg2.N) :
    (iblk2 V c 1 t : Vec F S64x1 .f32) = (V c main_v328 : S64x1.Idx → Elt F .f32) := by
  obtain ⟨e0, e1⟩ := index2_1 t
  funext y
  unfold iblk2
  rw [View.read_apply]
  show V c main_v328 _ = V c main_v328 _
  congr 1
  funext a
  apply Fin.ext
  match a with
  | ⟨0, _⟩ => show win2_1.index t (0 : Fin 2) * 64 + 1 * (y 0).val = (y 0).val; omega
  | ⟨1, _⟩ => show win2_1.index t (1 : Fin 2) * 1 + 1 * (y 1).val = (y 1).val; omega

/-- The block of the shift at every point is the whole array. -/
theorem iblk2_2_eq (c : Dev nD) (t : Fin cfg2.N) :
    (iblk2 V c 2 t : Vec F S64x1 .f32) = (V c main_v331 : S64x1.Idx → Elt F .f32) := by
  obtain ⟨e0, e1⟩ := index2_2 t
  funext y
  unfold iblk2
  rw [View.read_apply]
  show V c main_v331 _ = V c main_v331 _
  congr 1
  funext a
  apply Fin.ext
  match a with
  | ⟨0, _⟩ => show win2_2.index t (0 : Fin 2) * 64 + 1 * (y 0).val = (y 0).val; omega
  | ⟨1, _⟩ => show win2_2.index t (1 : Fin 2) * 1 + 1 * (y 1).val = (y 1).val; omega

/-- The result array after the region, as one function of the region's entry arrays: at `(n, a, b)` the body's
    output block 3 of slab `n` of the blocked input and of the whole operands, at `(0, a, b)`. -/
def arr2_3 (A0 : S8x64x4096.Idx → Elt F .bf16) (A1 : S64x1.Idx → Elt F .f32) (A2 : S64x1.Idx → Elt F .f32) : S8x64x4096.Idx → Elt F .f32 :=
  fun i => O.o2_3 (slab3 A0 (i 0)) A1 A2 (ix3 (0 : Fin 1) (i 1) (i 2))

/-- An index of the result array is in point `t`'s block iff each coordinate is in the block's range on its axis. -/
theorem mem_blk2_3 (t : Fin cfg2.N) (i : S8x64x4096.Idx) :
    i ∈ ((cfg2.win 3).blk t).view.set ↔ ∀ a : Fin 3, win2_3.index t a * S1x64x4096.size a ≤ (i a).val ∧ (i a).val < win2_3.index t a * S1x64x4096.size a + S1x64x4096.size a := by
  show i ∈ ((View.whole main_v332).slice (win2_3.rect t)).set ↔ _
  rw [View.set_slice_whole, Rect.mem_set_unit]
  exact Iff.rfl

/-- The blocks of the result array tile it: index `(n, a, b)` is in point `n`'s block. -/
theorem cover2_3 (i : S8x64x4096.Idx) : ∃ t : Fin cfg2.N, (cfg2.win 3).flush t = true ∧ i ∈ ((cfg2.win 3).blk t).view.set := by
  have hi0 : (i 0).val < 8 := (i 0).isLt
  have hi1 : (i 1).val < 64 := (i 1).isLt
  have hi2 : (i 2).val < 4096 := (i 2).isLt
  obtain ⟨t, ht⟩ := point2_of ⟨(i 0).val, hi0⟩
  obtain ⟨e0, e1, e2⟩ := index2_3 t
  refine ⟨t, flush2_3 t, ?_⟩
  rw [mem_blk2_3]
  intro a
  match a with
  | ⟨0, _⟩ => show win2_3.index t (0 : Fin 3) * 1 ≤ (i 0).val ∧ (i 0).val < win2_3.index t (0 : Fin 3) * 1 + 1; have : t.val = (i 0).val := ht; omega
  | ⟨1, _⟩ => show win2_3.index t (1 : Fin 3) * 64 ≤ (i 1).val ∧ (i 1).val < win2_3.index t (1 : Fin 3) * 64 + 64; omega
  | ⟨2, _⟩ => show win2_3.index t (2 : Fin 3) * 4096 ≤ (i 2).val ∧ (i 2).val < win2_3.index t (2 : Fin 3) * 4096 + 4096; omega

/-- WHAT POINT `t` WRITES BACK into the result array is block `t` of `arr2_3` of the arrays as the region finds them. -/
theorem flushed2_3_eq (c : Dev nD) (t : Fin cfg2.N) :
    (dat2 O V c).flushed 3 t
      = ((cfg2.win 3).blk t).view.read (Elt F) (arr2_3 O (V c main_v313_0) (V c main_v328) (V c main_v331)) := by
  have ht8 : t.val < 8 := Nat.lt_of_lt_of_eq t.isLt N_2
  show (cfg2.win 3).cut (grid2.coords t) ((dat2 O V c).after 3 t) = _
  rw [after2_3, iblk2_1_eq, iblk2_2_eq]
  have h0 : (iblk2 V c 0 t : Vec F S1x64x4096 .bf16) = slab3 (V c main_v313_0) ⟨t.val, ht8⟩ :=
    funext fun y => iblk2_0_apply V c t y _ rfl rfl rfl
  rw [h0]
  obtain ⟨e0, e1, e2⟩ := index2_3 t
  funext j
  rw [View.read_apply]
  have hj0 : (j 0).val < 1 := (j 0).isLt
  have hj1 : (j 1).val < 64 := (j 1).isLt
  have hj2 : (j 2).val < 4096 := (j 2).isLt
  have hE : (((cfg2.win 3).blk t).view.emb j : S8x64x4096.Idx) = ix3 ⟨t.val, ht8⟩ ⟨(j 1).val, hj1⟩ ⟨(j 2).val, hj2⟩ := by
    funext a; apply Fin.ext
    match a with
    | ⟨0, _⟩ => show win2_3.index t (0 : Fin 3) * 1 + 1 * (j 0).val = t.val; omega
    | ⟨1, _⟩ => show win2_3.index t (1 : Fin 3) * 64 + 1 * (j 1).val = (j 1).val; omega
    | ⟨2, _⟩ => show win2_3.index t (2 : Fin 3) * 4096 + 1 * (j 2).val = (j 2).val; omega
  have hx : ((cfg2.win 3).xinj (grid2.coords t) j : S1x64x4096.Idx) = ix3 (0 : Fin 1) ⟨(j 1).val, hj1⟩ ⟨(j 2).val, hj2⟩ := by
    funext a; apply Fin.ext
    match a with
    | ⟨0, _⟩ => show (j 0).val = 0; omega
    | ⟨1, _⟩ => rfl
    | ⟨2, _⟩ => rfl
  show O.o2_3 _ _ _ ((cfg2.win 3).xinj (grid2.coords t) j) = arr2_3 O _ _ _ (((cfg2.win 3).blk t).view.emb j)
  rw [hE, hx]
  rfl

/-- The result array after the region is `arr2_3` of the arrays as the region finds them. -/
theorem arrAt2_3 (c : Dev nD) :
    (dat2 O V c).arrAt 3 cfg2.N = arr2_3 O (V c main_v313_0) (V c main_v328) (V c main_v331) :=
  (dat2 O V c).arrAt_eq_of_cover 3 _ (fun t _ => flushed2_3_eq O V c t) cover2_3

/-! # Region 1: the arrays after the second kernel's region -/

/-- Window 0's index map, decided over the eight grid points: block `(t, 0, 0)`. -/
theorem index1_0 : ∀ t : Fin cfg1.N, win1_0.index t (0 : Fin 3) = t.val ∧ win1_0.index t (1 : Fin 3) = 0 ∧ win1_0.index t (2 : Fin 3) = 0 :=
  (by decide +kernel : ∀ t : Fin grid1.N, _)

/-- Window 1's index map, decided over the eight grid points: always block zero (fetched whole). -/
theorem index1_1 : ∀ t : Fin cfg1.N, win1_1.index t (0 : Fin 2) = 0 ∧ win1_1.index t (1 : Fin 2) = 0 :=
  (by decide +kernel : ∀ t : Fin grid1.N, _)

/-- Window 2's index map, decided over the eight grid points: always block zero (fetched whole). -/
theorem index1_2 : ∀ t : Fin cfg1.N, win1_2.index t (0 : Fin 2) = 0 ∧ win1_2.index t (1 : Fin 2) = 0 :=
  (by decide +kernel : ∀ t : Fin grid1.N, _)

/-- Window 3's index map, decided over the eight grid points: always block zero (fetched whole). -/
theorem index1_3 : ∀ t : Fin cfg1.N, win1_3.index t (0 : Fin 2) = 0 ∧ win1_3.index t (1 : Fin 2) = 0 :=
  (by decide +kernel : ∀ t : Fin grid1.N, _)

/-- Window 4's index map, decided over the eight grid points: always block zero (fetched whole). -/
theorem index1_4 : ∀ t : Fin cfg1.N, win1_4.index t (0 : Fin 3) = 0 ∧ win1_4.index t (1 : Fin 3) = 0 ∧ win1_4.index t (2 : Fin 3) = 0 :=
  (by decide +kernel : ∀ t : Fin grid1.N, _)

/-- Window 5's index map, decided over the eight grid points: always block zero (fetched whole). -/
theorem index1_5 : ∀ t : Fin cfg1.N, win1_5.index t (0 : Fin 2) = 0 ∧ win1_5.index t (1 : Fin 2) = 0 :=
  (by decide +kernel : ∀ t : Fin grid1.N, _)

/-- Window 6's index map, decided over the eight grid points: block `(t, 0, 0)`. -/
theorem index1_6 : ∀ t : Fin cfg1.N, win1_6.index t (0 : Fin 3) = t.val ∧ win1_6.index t (1 : Fin 3) = 0 ∧ win1_6.index t (2 : Fin 3) = 0 :=
  (by decide +kernel : ∀ t : Fin grid1.N, _)

/-- Window 7's index map, decided over the eight grid points: block `(t, 0, 0)`. -/
theorem index1_7 : ∀ t : Fin cfg1.N, win1_7.index t (0 : Fin 3) = t.val ∧ win1_7.index t (1 : Fin 3) = 0 ∧ win1_7.index t (2 : Fin 3) = 0 :=
  (by decide +kernel : ∀ t : Fin grid1.N, _)

/-- Window 8's index map, decided over the eight grid points: block `(t, 0, 0)`. -/
theorem index1_8 : ∀ t : Fin cfg1.N, win1_8.index t (0 : Fin 3) = t.val ∧ win1_8.index t (1 : Fin 3) = 0 ∧ win1_8.index t (2 : Fin 3) = 0 :=
  (by decide +kernel : ∀ t : Fin grid1.N, _)

/-- Every leading coordinate of the blocked arrays is some point's. -/
theorem point1_of (n : Fin 8) : ∃ t : Fin cfg1.N, t.val = n.val :=
  (by decide +kernel : ∀ n : Fin 8, ∃ t : Fin grid1.N, t.val = n.val) n

/-- The block of the activations with halo at point `t` is slab `t` of the array. -/
theorem iblk1_0_apply (c : Dev nD) (t : Fin cfg1.N) (y : S1x64x4864.Idx) (k : S8x64x4864.Idx)
    (hk0 : (k 0).val = t.val) (hk1 : (k 1).val = (y 1).val) (hk2 : (k 2).val = (y 2).val) :
    (iblk1 V c 0 t : Vec F S1x64x4864 .bf16) y = (V c main_v294_0 : S8x64x4864.Idx → Elt F .bf16) k := by
  obtain ⟨e0, e1, e2⟩ := index1_0 t
  have hy0 : (y 0).val < 1 := (y 0).isLt
  unfold iblk1
  rw [View.read_apply]
  show V c main_v294_0 _ = V c main_v294_0 _
  congr 1
  funext a
  apply Fin.ext
  match a with
  | ⟨0, _⟩ => show win1_0.index t (0 : Fin 3) * 1 + 1 * (y 0).val = (k 0).val; omega
  | ⟨1, _⟩ => show win1_0.index t (1 : Fin 3) * 64 + 1 * (y 1).val = (k 1).val; omega
  | ⟨2, _⟩ => show win1_0.index t (2 : Fin 3) * 4864 + 1 * (y 2).val = (k 2).val; omega

/-- The block of the scale at every point is the whole array. -/
theorem iblk1_1_eq (c : Dev nD) (t : Fin cfg1.N) :
    (iblk1 V c 1 t : Vec F S64x1 .f32) = (V c main_v309 : S64x1.Idx → Elt F .f32) := by
  obtain ⟨e0, e1⟩ := index1_1 t
  funext y
  unfold iblk1
  rw [View.read_apply]
  show V c main_v309 _ = V c main_v309 _
  congr 1
  funext a
  apply Fin.ext
  match a with
  | ⟨0, _⟩ => show win1_1.index t (0 : Fin 2) * 64 + 1 * (y 0).val = (y 0).val; omega
  | ⟨1, _⟩ => show win1_1.index t (1 : Fin 2) * 1 + 1 * (y 1).val = (y 1).val; omega

/-- The block of the shift at every point is the whole array. -/
theorem iblk1_2_eq (c : Dev nD) (t : Fin cfg1.N) :
    (iblk1 V c 2 t : Vec F S64x1 .f32) = (V c main_v312 : S64x1.Idx → Elt F .f32) := by
  obtain ⟨e0, e1⟩ := index1_2 t
  funext y
  unfold iblk1
  rw [View.read_apply]
  show V c main_v312 _ = V c main_v312 _
  congr 1
  funext a
  apply Fin.ext
  match a with
  | ⟨0, _⟩ => show win1_2.index t (0 : Fin 2) * 64 + 1 * (y 0).val = (y 0).val; omega
  | ⟨1, _⟩ => show win1_2.index t (1 : Fin 2) * 1 + 1 * (y 1).val = (y 1).val; omega

/-- The block of the lane mask at every point is the whole array. -/
theorem iblk1_3_eq (c : Dev nD) (t : Fin cfg1.N) :
    (iblk1 V c 3 t : Vec F S1x4864 .f32) = (V c main_v283 : S1x4864.Idx → Elt F .f32) := by
  obtain ⟨e0, e1⟩ := index1_3 t
  funext y
  unfold iblk1
  rw [View.read_apply]
  show V c main_v283 _ = V c main_v283 _
  congr 1
  funext a
  apply Fin.ext
  match a with
  | ⟨0, _⟩ => show win1_3.index t (0 : Fin 2) * 1 + 1 * (y 0).val = (y 0).val; omega
  | ⟨1, _⟩ => show win1_3.index t (1 : Fin 2) * 4864 + 1 * (y 1).val = (y 1).val; omega

/-- The block of the folded weights at every point is the whole array. -/
theorem iblk1_4_eq (c : Dev nD) (t : Fin cfg1.N) :
    (iblk1 V c 4 t : Vec F S3x64x576 .bf16) = (V c main_v293 : S3x64x576.Idx → Elt F .bf16) := by
  obtain ⟨e0, e1, e2⟩ := index1_4 t
  funext y
  unfold iblk1
  rw [View.read_apply]
  show V c main_v293 _ = V c main_v293 _
  congr 1
  funext a
  apply Fin.ext
  match a with
  | ⟨0, _⟩ => show win1_4.index t (0 : Fin 3) * 3 + 1 * (y 0).val = (y 0).val; omega
  | ⟨1, _⟩ => show win1_4.index t (1 : Fin 3) * 64 + 1 * (y 1).val = (y 1).val; omega
  | ⟨2, _⟩ => show win1_4.index t (2 : Fin 3) * 576 + 1 * (y 2).val = (y 2).val; omega

/-- The block of the border masks at every point is the whole array. -/
theorem iblk1_5_eq (c : Dev nD) (t : Fin cfg1.N) :
    (iblk1 V c 5 t : Vec F S9x4608 .bf16) = (V c main_v275 : S9x4608.Idx → Elt F .bf16) := by
  obtain ⟨e0, e1⟩ := index1_5 t
  funext y
  unfold iblk1
  rw [View.read_apply]
  show V c main_v275 _ = V c main_v275 _
  congr 1
  funext a
  apply Fin.ext
  match a with
  | ⟨0, _⟩ => show win1_5.index t (0 : Fin 2) * 9 + 1 * (y 0).val = (y 0).val; omega
  | ⟨1, _⟩ => show win1_5.index t (1 : Fin 2) * 4608 + 1 * (y 1).val = (y 1).val; omega

/-- The product array after the region, as one function of the region's entry arrays: at `(n, a, b)` the body's
    output block 6 of slab `n` of the blocked input and of the whole operands, at `(0, a, b)`. -/
def arr1_6 (A0 : S8x64x4864.Idx → Elt F .bf16) (A1 : S64x1.Idx → Elt F .f32) (A2 : S64x1.Idx → Elt F .f32) (A3 : S1x4864.Idx → Elt F .f32) (A4 : S3x64x576.Idx → Elt F .bf16) (A5 : S9x4608.Idx → Elt F .bf16) : S8x64x4096.Idx → Elt F .bf16 :=
  fun i => O.o1_6 (slab3 A0 (i 0)) A1 A2 A3 A4 A5 (ix3 (0 : Fin 1) (i 1) (i 2))

/-- An index of the product array is in point `t`'s block iff each coordinate is in the block's range on its axis. -/
theorem mem_blk1_6 (t : Fin cfg1.N) (i : S8x64x4096.Idx) :
    i ∈ ((cfg1.win 6).blk t).view.set ↔ ∀ a : Fin 3, win1_6.index t a * S1x64x4096.size a ≤ (i a).val ∧ (i a).val < win1_6.index t a * S1x64x4096.size a + S1x64x4096.size a := by
  show i ∈ ((View.whole main_v313_0).slice (win1_6.rect t)).set ↔ _
  rw [View.set_slice_whole, Rect.mem_set_unit]
  exact Iff.rfl

/-- The blocks of the product array tile it: index `(n, a, b)` is in point `n`'s block. -/
theorem cover1_6 (i : S8x64x4096.Idx) : ∃ t : Fin cfg1.N, (cfg1.win 6).flush t = true ∧ i ∈ ((cfg1.win 6).blk t).view.set := by
  have hi0 : (i 0).val < 8 := (i 0).isLt
  have hi1 : (i 1).val < 64 := (i 1).isLt
  have hi2 : (i 2).val < 4096 := (i 2).isLt
  obtain ⟨t, ht⟩ := point1_of ⟨(i 0).val, hi0⟩
  obtain ⟨e0, e1, e2⟩ := index1_6 t
  refine ⟨t, flush1_6 t, ?_⟩
  rw [mem_blk1_6]
  intro a
  match a with
  | ⟨0, _⟩ => show win1_6.index t (0 : Fin 3) * 1 ≤ (i 0).val ∧ (i 0).val < win1_6.index t (0 : Fin 3) * 1 + 1; have : t.val = (i 0).val := ht; omega
  | ⟨1, _⟩ => show win1_6.index t (1 : Fin 3) * 64 ≤ (i 1).val ∧ (i 1).val < win1_6.index t (1 : Fin 3) * 64 + 64; omega
  | ⟨2, _⟩ => show win1_6.index t (2 : Fin 3) * 4096 ≤ (i 2).val ∧ (i 2).val < win1_6.index t (2 : Fin 3) * 4096 + 4096; omega

/-- WHAT POINT `t` WRITES BACK into the product array is block `t` of `arr1_6` of the arrays as the region finds them. -/
theorem flushed1_6_eq (c : Dev nD) (t : Fin cfg1.N) :
    (dat1 O V c).flushed 6 t
      = ((cfg1.win 6).blk t).view.read (Elt F) (arr1_6 O (V c main_v294_0) (V c main_v309) (V c main_v312) (V c main_v283) (V c main_v293) (V c main_v275)) := by
  have ht8 : t.val < 8 := Nat.lt_of_lt_of_eq t.isLt N_1
  show (cfg1.win 6).cut (grid1.coords t) ((dat1 O V c).after 6 t) = _
  rw [after1_6, iblk1_1_eq, iblk1_2_eq, iblk1_3_eq, iblk1_4_eq, iblk1_5_eq]
  have h0 : (iblk1 V c 0 t : Vec F S1x64x4864 .bf16) = slab3 (V c main_v294_0) ⟨t.val, ht8⟩ :=
    funext fun y => iblk1_0_apply V c t y _ rfl rfl rfl
  rw [h0]
  obtain ⟨e0, e1, e2⟩ := index1_6 t
  funext j
  rw [View.read_apply]
  have hj0 : (j 0).val < 1 := (j 0).isLt
  have hj1 : (j 1).val < 64 := (j 1).isLt
  have hj2 : (j 2).val < 4096 := (j 2).isLt
  have hE : (((cfg1.win 6).blk t).view.emb j : S8x64x4096.Idx) = ix3 ⟨t.val, ht8⟩ ⟨(j 1).val, hj1⟩ ⟨(j 2).val, hj2⟩ := by
    funext a; apply Fin.ext
    match a with
    | ⟨0, _⟩ => show win1_6.index t (0 : Fin 3) * 1 + 1 * (j 0).val = t.val; omega
    | ⟨1, _⟩ => show win1_6.index t (1 : Fin 3) * 64 + 1 * (j 1).val = (j 1).val; omega
    | ⟨2, _⟩ => show win1_6.index t (2 : Fin 3) * 4096 + 1 * (j 2).val = (j 2).val; omega
  have hx : ((cfg1.win 6).xinj (grid1.coords t) j : S1x64x4096.Idx) = ix3 (0 : Fin 1) ⟨(j 1).val, hj1⟩ ⟨(j 2).val, hj2⟩ := by
    funext a; apply Fin.ext
    match a with
    | ⟨0, _⟩ => show (j 0).val = 0; omega
    | ⟨1, _⟩ => rfl
    | ⟨2, _⟩ => rfl
  show O.o1_6 _ _ _ _ _ _ ((cfg1.win 6).xinj (grid1.coords t) j) = arr1_6 O _ _ _ _ _ _ (((cfg1.win 6).blk t).view.emb j)
  rw [hE, hx]
  rfl

/-- The product array after the region is `arr1_6` of the arrays as the region finds them. -/
theorem arrAt1_6 (c : Dev nD) :
    (dat1 O V c).arrAt 6 cfg1.N = arr1_6 O (V c main_v294_0) (V c main_v309) (V c main_v312) (V c main_v283) (V c main_v293) (V c main_v275) :=
  (dat1 O V c).arrAt_eq_of_cover 6 _ (fun t _ => flushed1_6_eq O V c t) cover1_6

/-- The row-sum array after the region, as one function of the region's entry arrays: at `(n, a, b)` the body's
    output block 7 of slab `n` of the blocked input and of the whole operands, at `(0, a, b)`. -/
def arr1_7 (A0 : S8x64x4864.Idx → Elt F .bf16) (A1 : S64x1.Idx → Elt F .f32) (A2 : S64x1.Idx → Elt F .f32) (A3 : S1x4864.Idx → Elt F .f32) (A4 : S3x64x576.Idx → Elt F .bf16) (A5 : S9x4608.Idx → Elt F .bf16) : S8x64x1.Idx → Elt F .f32 :=
  fun i => O.o1_7 (slab3 A0 (i 0)) A1 A2 A3 A4 A5 (ix3 (0 : Fin 1) (i 1) (i 2))

/-- An index of the row-sum array is in point `t`'s block iff each coordinate is in the block's range on its axis. -/
theorem mem_blk1_7 (t : Fin cfg1.N) (i : S8x64x1.Idx) :
    i ∈ ((cfg1.win 7).blk t).view.set ↔ ∀ a : Fin 3, win1_7.index t a * S1x64x1.size a ≤ (i a).val ∧ (i a).val < win1_7.index t a * S1x64x1.size a + S1x64x1.size a := by
  show i ∈ ((View.whole main_v313_1).slice (win1_7.rect t)).set ↔ _
  rw [View.set_slice_whole, Rect.mem_set_unit]
  exact Iff.rfl

/-- The blocks of the row-sum array tile it: index `(n, a, b)` is in point `n`'s block. -/
theorem cover1_7 (i : S8x64x1.Idx) : ∃ t : Fin cfg1.N, (cfg1.win 7).flush t = true ∧ i ∈ ((cfg1.win 7).blk t).view.set := by
  have hi0 : (i 0).val < 8 := (i 0).isLt
  have hi1 : (i 1).val < 64 := (i 1).isLt
  have hi2 : (i 2).val < 1 := (i 2).isLt
  obtain ⟨t, ht⟩ := point1_of ⟨(i 0).val, hi0⟩
  obtain ⟨e0, e1, e2⟩ := index1_7 t
  refine ⟨t, flush1_7 t, ?_⟩
  rw [mem_blk1_7]
  intro a
  match a with
  | ⟨0, _⟩ => show win1_7.index t (0 : Fin 3) * 1 ≤ (i 0).val ∧ (i 0).val < win1_7.index t (0 : Fin 3) * 1 + 1; have : t.val = (i 0).val := ht; omega
  | ⟨1, _⟩ => show win1_7.index t (1 : Fin 3) * 64 ≤ (i 1).val ∧ (i 1).val < win1_7.index t (1 : Fin 3) * 64 + 64; omega
  | ⟨2, _⟩ => show win1_7.index t (2 : Fin 3) * 1 ≤ (i 2).val ∧ (i 2).val < win1_7.index t (2 : Fin 3) * 1 + 1; omega

/-- WHAT POINT `t` WRITES BACK into the row-sum array is block `t` of `arr1_7` of the arrays as the region finds them. -/
theorem flushed1_7_eq (c : Dev nD) (t : Fin cfg1.N) :
    (dat1 O V c).flushed 7 t
      = ((cfg1.win 7).blk t).view.read (Elt F) (arr1_7 O (V c main_v294_0) (V c main_v309) (V c main_v312) (V c main_v283) (V c main_v293) (V c main_v275)) := by
  have ht8 : t.val < 8 := Nat.lt_of_lt_of_eq t.isLt N_1
  show (cfg1.win 7).cut (grid1.coords t) ((dat1 O V c).after 7 t) = _
  rw [after1_7, iblk1_1_eq, iblk1_2_eq, iblk1_3_eq, iblk1_4_eq, iblk1_5_eq]
  have h0 : (iblk1 V c 0 t : Vec F S1x64x4864 .bf16) = slab3 (V c main_v294_0) ⟨t.val, ht8⟩ :=
    funext fun y => iblk1_0_apply V c t y _ rfl rfl rfl
  rw [h0]
  obtain ⟨e0, e1, e2⟩ := index1_7 t
  funext j
  rw [View.read_apply]
  have hj0 : (j 0).val < 1 := (j 0).isLt
  have hj1 : (j 1).val < 64 := (j 1).isLt
  have hj2 : (j 2).val < 1 := (j 2).isLt
  have hE : (((cfg1.win 7).blk t).view.emb j : S8x64x1.Idx) = ix3 ⟨t.val, ht8⟩ ⟨(j 1).val, hj1⟩ ⟨(j 2).val, hj2⟩ := by
    funext a; apply Fin.ext
    match a with
    | ⟨0, _⟩ => show win1_7.index t (0 : Fin 3) * 1 + 1 * (j 0).val = t.val; omega
    | ⟨1, _⟩ => show win1_7.index t (1 : Fin 3) * 64 + 1 * (j 1).val = (j 1).val; omega
    | ⟨2, _⟩ => show win1_7.index t (2 : Fin 3) * 1 + 1 * (j 2).val = (j 2).val; omega
  have hx : ((cfg1.win 7).xinj (grid1.coords t) j : S1x64x1.Idx) = ix3 (0 : Fin 1) ⟨(j 1).val, hj1⟩ ⟨(j 2).val, hj2⟩ := by
    funext a; apply Fin.ext
    match a with
    | ⟨0, _⟩ => show (j 0).val = 0; omega
    | ⟨1, _⟩ => rfl
    | ⟨2, _⟩ => rfl
  show O.o1_7 _ _ _ _ _ _ ((cfg1.win 7).xinj (grid1.coords t) j) = arr1_7 O _ _ _ _ _ _ (((cfg1.win 7).blk t).view.emb j)
  rw [hE, hx]
  rfl

/-- The row-sum array after the region is `arr1_7` of the arrays as the region finds them. -/
theorem arrAt1_7 (c : Dev nD) :
    (dat1 O V c).arrAt 7 cfg1.N = arr1_7 O (V c main_v294_0) (V c main_v309) (V c main_v312) (V c main_v283) (V c main_v293) (V c main_v275) :=
  (dat1 O V c).arrAt_eq_of_cover 7 _ (fun t _ => flushed1_7_eq O V c t) cover1_7

/-- The squared row-sum array after the region, as one function of the region's entry arrays: at `(n, a, b)` the body's
    output block 8 of slab `n` of the blocked input and of the whole operands, at `(0, a, b)`. -/
def arr1_8 (A0 : S8x64x4864.Idx → Elt F .bf16) (A1 : S64x1.Idx → Elt F .f32) (A2 : S64x1.Idx → Elt F .f32) (A3 : S1x4864.Idx → Elt F .f32) (A4 : S3x64x576.Idx → Elt F .bf16) (A5 : S9x4608.Idx → Elt F .bf16) : S8x64x1.Idx → Elt F .f32 :=
  fun i => O.o1_8 (slab3 A0 (i 0)) A1 A2 A3 A4 A5 (ix3 (0 : Fin 1) (i 1) (i 2))

/-- An index of the squared row-sum array is in point `t`'s block iff each coordinate is in the block's range on its axis. -/
theorem mem_blk1_8 (t : Fin cfg1.N) (i : S8x64x1.Idx) :
    i ∈ ((cfg1.win 8).blk t).view.set ↔ ∀ a : Fin 3, win1_8.index t a * S1x64x1.size a ≤ (i a).val ∧ (i a).val < win1_8.index t a * S1x64x1.size a + S1x64x1.size a := by
  show i ∈ ((View.whole main_v313_2).slice (win1_8.rect t)).set ↔ _
  rw [View.set_slice_whole, Rect.mem_set_unit]
  exact Iff.rfl

/-- The blocks of the squared row-sum array tile it: index `(n, a, b)` is in point `n`'s block. -/
theorem cover1_8 (i : S8x64x1.Idx) : ∃ t : Fin cfg1.N, (cfg1.win 8).flush t = true ∧ i ∈ ((cfg1.win 8).blk t).view.set := by
  have hi0 : (i 0).val < 8 := (i 0).isLt
  have hi1 : (i 1).val < 64 := (i 1).isLt
  have hi2 : (i 2).val < 1 := (i 2).isLt
  obtain ⟨t, ht⟩ := point1_of ⟨(i 0).val, hi0⟩
  obtain ⟨e0, e1, e2⟩ := index1_8 t
  refine ⟨t, flush1_8 t, ?_⟩
  rw [mem_blk1_8]
  intro a
  match a with
  | ⟨0, _⟩ => show win1_8.index t (0 : Fin 3) * 1 ≤ (i 0).val ∧ (i 0).val < win1_8.index t (0 : Fin 3) * 1 + 1; have : t.val = (i 0).val := ht; omega
  | ⟨1, _⟩ => show win1_8.index t (1 : Fin 3) * 64 ≤ (i 1).val ∧ (i 1).val < win1_8.index t (1 : Fin 3) * 64 + 64; omega
  | ⟨2, _⟩ => show win1_8.index t (2 : Fin 3) * 1 ≤ (i 2).val ∧ (i 2).val < win1_8.index t (2 : Fin 3) * 1 + 1; omega

/-- WHAT POINT `t` WRITES BACK into the squared row-sum array is block `t` of `arr1_8` of the arrays as the region finds them. -/
theorem flushed1_8_eq (c : Dev nD) (t : Fin cfg1.N) :
    (dat1 O V c).flushed 8 t
      = ((cfg1.win 8).blk t).view.read (Elt F) (arr1_8 O (V c main_v294_0) (V c main_v309) (V c main_v312) (V c main_v283) (V c main_v293) (V c main_v275)) := by
  have ht8 : t.val < 8 := Nat.lt_of_lt_of_eq t.isLt N_1
  show (cfg1.win 8).cut (grid1.coords t) ((dat1 O V c).after 8 t) = _
  rw [after1_8, iblk1_1_eq, iblk1_2_eq, iblk1_3_eq, iblk1_4_eq, iblk1_5_eq]
  have h0 : (iblk1 V c 0 t : Vec F S1x64x4864 .bf16) = slab3 (V c main_v294_0) ⟨t.val, ht8⟩ :=
    funext fun y => iblk1_0_apply V c t y _ rfl rfl rfl
  rw [h0]
  obtain ⟨e0, e1, e2⟩ := index1_8 t
  funext j
  rw [View.read_apply]
  have hj0 : (j 0).val < 1 := (j 0).isLt
  have hj1 : (j 1).val < 64 := (j 1).isLt
  have hj2 : (j 2).val < 1 := (j 2).isLt
  have hE : (((cfg1.win 8).blk t).view.emb j : S8x64x1.Idx) = ix3 ⟨t.val, ht8⟩ ⟨(j 1).val, hj1⟩ ⟨(j 2).val, hj2⟩ := by
    funext a; apply Fin.ext
    match a with
    | ⟨0, _⟩ => show win1_8.index t (0 : Fin 3) * 1 + 1 * (j 0).val = t.val; omega
    | ⟨1, _⟩ => show win1_8.index t (1 : Fin 3) * 64 + 1 * (j 1).val = (j 1).val; omega
    | ⟨2, _⟩ => show win1_8.index t (2 : Fin 3) * 1 + 1 * (j 2).val = (j 2).val; omega
  have hx : ((cfg1.win 8).xinj (grid1.coords t) j : S1x64x1.Idx) = ix3 (0 : Fin 1) ⟨(j 1).val, hj1⟩ ⟨(j 2).val, hj2⟩ := by
    funext a; apply Fin.ext
    match a with
    | ⟨0, _⟩ => show (j 0).val = 0; omega
    | ⟨1, _⟩ => rfl
    | ⟨2, _⟩ => rfl
  show O.o1_8 _ _ _ _ _ _ ((cfg1.win 8).xinj (grid1.coords t) j) = arr1_8 O _ _ _ _ _ _ (((cfg1.win 8).blk t).view.emb j)
  rw [hE, hx]
  rfl

/-- The squared row-sum array after the region is `arr1_8` of the arrays as the region finds them. -/
theorem arrAt1_8 (c : Dev nD) :
    (dat1 O V c).arrAt 8 cfg1.N = arr1_8 O (V c main_v294_0) (V c main_v309) (V c main_v312) (V c main_v283) (V c main_v293) (V c main_v275) :=
  (dat1 O V c).arrAt_eq_of_cover 8 _ (fun t _ => flushed1_8_eq O V c t) cover1_8

/-! # Region 0: the arrays after the first kernel's region -/

/-- Window 0's index map, decided over the eight grid points: block `(t, 0, 0)`. -/
theorem index0_0 : ∀ t : Fin cfg0.N, win0_0.index t (0 : Fin 3) = t.val ∧ win0_0.index t (1 : Fin 3) = 0 ∧ win0_0.index t (2 : Fin 3) = 0 :=
  (by decide +kernel : ∀ t : Fin grid0.N, _)

/-- Window 1's index map, decided over the eight grid points: always block zero (fetched whole). -/
theorem index0_1 : ∀ t : Fin cfg0.N, win0_1.index t (0 : Fin 2) = 0 ∧ win0_1.index t (1 : Fin 2) = 0 :=
  (by decide +kernel : ∀ t : Fin grid0.N, _)

/-- Window 2's index map, decided over the eight grid points: always block zero (fetched whole). -/
theorem index0_2 : ∀ t : Fin cfg0.N, win0_2.index t (0 : Fin 3) = 0 ∧ win0_2.index t (1 : Fin 3) = 0 ∧ win0_2.index t (2 : Fin 3) = 0 :=
  (by decide +kernel : ∀ t : Fin grid0.N, _)

/-- Window 3's index map, decided over the eight grid points: always block zero (fetched whole). -/
theorem index0_3 : ∀ t : Fin cfg0.N, win0_3.index t (0 : Fin 2) = 0 ∧ win0_3.index t (1 : Fin 2) = 0 :=
  (by decide +kernel : ∀ t : Fin grid0.N, _)

/-- Window 4's index map, decided over the eight grid points: block `(t, 0, 0)`. -/
theorem index0_4 : ∀ t : Fin cfg0.N, win0_4.index t (0 : Fin 3) = t.val ∧ win0_4.index t (1 : Fin 3) = 0 ∧ win0_4.index t (2 : Fin 3) = 0 :=
  (by decide +kernel : ∀ t : Fin grid0.N, _)

/-- Window 5's index map, decided over the eight grid points: block `(t, 0, 0)`. -/
theorem index0_5 : ∀ t : Fin cfg0.N, win0_5.index t (0 : Fin 3) = t.val ∧ win0_5.index t (1 : Fin 3) = 0 ∧ win0_5.index t (2 : Fin 3) = 0 :=
  (by decide +kernel : ∀ t : Fin grid0.N, _)

/-- Window 6's index map, decided over the eight grid points: block `(t, 0, 0)`. -/
theorem index0_6 : ∀ t : Fin cfg0.N, win0_6.index t (0 : Fin 3) = t.val ∧ win0_6.index t (1 : Fin 3) = 0 ∧ win0_6.index t (2 : Fin 3) = 0 :=
  (by decide +kernel : ∀ t : Fin grid0.N, _)

/-- Every leading coordinate of the blocked arrays is some point's. -/
theorem point0_of (n : Fin 8) : ∃ t : Fin cfg0.N, t.val = n.val :=
  (by decide +kernel : ∀ n : Fin 8, ∃ t : Fin grid0.N, t.val = n.val) n

/-- The block of the input volume at point `t` is slab `t` of the array. -/
theorem iblk0_0_apply (c : Dev nD) (t : Fin cfg0.N) (y : S1x32x32768.Idx) (k : S8x32x32768.Idx)
    (hk0 : (k 0).val = t.val) (hk1 : (k 1).val = (y 1).val) (hk2 : (k 2).val = (y 2).val) :
    (iblk0 V c 0 t : Vec F S1x32x32768 .f32) y = (V c main_v0 : S8x32x32768.Idx → Elt F .f32) k := by
  obtain ⟨e0, e1, e2⟩ := index0_0 t
  have hy0 : (y 0).val < 1 := (y 0).isLt
  unfold iblk0
  rw [View.read_apply]
  show V c main_v0 _ = V c main_v0 _
  congr 1
  funext a
  apply Fin.ext
  match a with
  | ⟨0, _⟩ => show win0_0.index t (0 : Fin 3) * 1 + 1 * (y 0).val = (k 0).val; omega
  | ⟨1, _⟩ => show win0_0.index t (1 : Fin 3) * 32 + 1 * (y 1).val = (k 1).val; omega
  | ⟨2, _⟩ => show win0_0.index t (2 : Fin 3) * 32768 + 1 * (y 2).val = (k 2).val; omega

/-- The block of the lane-selection matrix at every point is the whole array. -/
theorem iblk0_1_eq (c : Dev nD) (t : Fin cfg0.N) :
    (iblk0 V c 1 t : Vec F S1024x256 .bf16) = (V c main_v15 : S1024x256.Idx → Elt F .bf16) := by
  obtain ⟨e0, e1⟩ := index0_1 t
  funext y
  unfold iblk0
  rw [View.read_apply]
  show V c main_v15 _ = V c main_v15 _
  congr 1
  funext a
  apply Fin.ext
  match a with
  | ⟨0, _⟩ => show win0_1.index t (0 : Fin 2) * 1024 + 1 * (y 0).val = (y 0).val; omega
  | ⟨1, _⟩ => show win0_1.index t (1 : Fin 2) * 256 + 1 * (y 1).val = (y 1).val; omega

/-- The block of the folded weights at every point is the whole array. -/
theorem iblk0_2_eq (c : Dev nD) (t : Fin cfg0.N) :
    (iblk0 V c 2 t : Vec F S3x64x288 .bf16) = (V c main_v288 : S3x64x288.Idx → Elt F .bf16) := by
  obtain ⟨e0, e1, e2⟩ := index0_2 t
  funext y
  unfold iblk0
  rw [View.read_apply]
  show V c main_v288 _ = V c main_v288 _
  congr 1
  funext a
  apply Fin.ext
  match a with
  | ⟨0, _⟩ => show win0_2.index t (0 : Fin 3) * 3 + 1 * (y 0).val = (y 0).val; omega
  | ⟨1, _⟩ => show win0_2.index t (1 : Fin 3) * 64 + 1 * (y 1).val = (y 1).val; omega
  | ⟨2, _⟩ => show win0_2.index t (2 : Fin 3) * 288 + 1 * (y 2).val = (y 2).val; omega

/-- The block of the border masks at every point is the whole array. -/
theorem iblk0_3_eq (c : Dev nD) (t : Fin cfg0.N) :
    (iblk0 V c 3 t : Vec F S9x4608 .bf16) = (V c main_v275 : S9x4608.Idx → Elt F .bf16) := by
  obtain ⟨e0, e1⟩ := index0_3 t
  funext y
  unfold iblk0
  rw [View.read_apply]
  show V c main_v275 _ = V c main_v275 _
  congr 1
  funext a
  apply Fin.ext
  match a with
  | ⟨0, _⟩ => show win0_3.index t (0 : Fin 2) * 9 + 1 * (y 0).val = (y 0).val; omega
  | ⟨1, _⟩ => show win0_3.index t (1 : Fin 2) * 4608 + 1 * (y 1).val = (y 1).val; omega

/-- The product with halo array after the region, as one function of the region's entry arrays: at `(n, a, b)` the body's
    output block 4 of slab `n` of the blocked input and of the whole operands, at `(0, a, b)`. -/
def arr0_4 (A0 : S8x32x32768.Idx → Elt F .f32) (A1 : S1024x256.Idx → Elt F .bf16) (A2 : S3x64x288.Idx → Elt F .bf16) (A3 : S9x4608.Idx → Elt F .bf16) : S8x64x4864.Idx → Elt F .bf16 :=
  fun i => O.o0_4 (slab3 A0 (i 0)) A1 A2 A3 (ix3 (0 : Fin 1) (i 1) (i 2))

/-- An index of the product with halo array is in point `t`'s block iff each coordinate is in the block's range on its axis. -/
theorem mem_blk0_4 (t : Fin cfg0.N) (i : S8x64x4864.Idx) :
    i ∈ ((cfg0.win 4).blk t).view.set ↔ ∀ a : Fin 3, win0_4.index t a * S1x64x4864.size a ≤ (i a).val ∧ (i a).val < win0_4.index t a * S1x64x4864.size a + S1x64x4864.size a := by
  show i ∈ ((View.whole main_v294_0).slice (win0_4.rect t)).set ↔ _
  rw [View.set_slice_whole, Rect.mem_set_unit]
  exact Iff.rfl

/-- The blocks of the product with halo array tile it: index `(n, a, b)` is in point `n`'s block. -/
theorem cover0_4 (i : S8x64x4864.Idx) : ∃ t : Fin cfg0.N, (cfg0.win 4).flush t = true ∧ i ∈ ((cfg0.win 4).blk t).view.set := by
  have hi0 : (i 0).val < 8 := (i 0).isLt
  have hi1 : (i 1).val < 64 := (i 1).isLt
  have hi2 : (i 2).val < 4864 := (i 2).isLt
  obtain ⟨t, ht⟩ := point0_of ⟨(i 0).val, hi0⟩
  obtain ⟨e0, e1, e2⟩ := index0_4 t
  refine ⟨t, flush0_4 t, ?_⟩
  rw [mem_blk0_4]
  intro a
  match a with
  | ⟨0, _⟩ => show win0_4.index t (0 : Fin 3) * 1 ≤ (i 0).val ∧ (i 0).val < win0_4.index t (0 : Fin 3) * 1 + 1; have : t.val = (i 0).val := ht; omega
  | ⟨1, _⟩ => show win0_4.index t (1 : Fin 3) * 64 ≤ (i 1).val ∧ (i 1).val < win0_4.index t (1 : Fin 3) * 64 + 64; omega
  | ⟨2, _⟩ => show win0_4.index t (2 : Fin 3) * 4864 ≤ (i 2).val ∧ (i 2).val < win0_4.index t (2 : Fin 3) * 4864 + 4864; omega

/-- WHAT POINT `t` WRITES BACK into the product with halo array is block `t` of `arr0_4` of the arrays as the region finds them. -/
theorem flushed0_4_eq (c : Dev nD) (t : Fin cfg0.N) :
    (dat0 O V c).flushed 4 t
      = ((cfg0.win 4).blk t).view.read (Elt F) (arr0_4 O (V c main_v0) (V c main_v15) (V c main_v288) (V c main_v275)) := by
  have ht8 : t.val < 8 := Nat.lt_of_lt_of_eq t.isLt N_0
  show (cfg0.win 4).cut (grid0.coords t) ((dat0 O V c).after 4 t) = _
  rw [after0_4, iblk0_1_eq, iblk0_2_eq, iblk0_3_eq]
  have h0 : (iblk0 V c 0 t : Vec F S1x32x32768 .f32) = slab3 (V c main_v0) ⟨t.val, ht8⟩ :=
    funext fun y => iblk0_0_apply V c t y _ rfl rfl rfl
  rw [h0]
  obtain ⟨e0, e1, e2⟩ := index0_4 t
  funext j
  rw [View.read_apply]
  have hj0 : (j 0).val < 1 := (j 0).isLt
  have hj1 : (j 1).val < 64 := (j 1).isLt
  have hj2 : (j 2).val < 4864 := (j 2).isLt
  have hE : (((cfg0.win 4).blk t).view.emb j : S8x64x4864.Idx) = ix3 ⟨t.val, ht8⟩ ⟨(j 1).val, hj1⟩ ⟨(j 2).val, hj2⟩ := by
    funext a; apply Fin.ext
    match a with
    | ⟨0, _⟩ => show win0_4.index t (0 : Fin 3) * 1 + 1 * (j 0).val = t.val; omega
    | ⟨1, _⟩ => show win0_4.index t (1 : Fin 3) * 64 + 1 * (j 1).val = (j 1).val; omega
    | ⟨2, _⟩ => show win0_4.index t (2 : Fin 3) * 4864 + 1 * (j 2).val = (j 2).val; omega
  have hx : ((cfg0.win 4).xinj (grid0.coords t) j : S1x64x4864.Idx) = ix3 (0 : Fin 1) ⟨(j 1).val, hj1⟩ ⟨(j 2).val, hj2⟩ := by
    funext a; apply Fin.ext
    match a with
    | ⟨0, _⟩ => show (j 0).val = 0; omega
    | ⟨1, _⟩ => rfl
    | ⟨2, _⟩ => rfl
  show O.o0_4 _ _ _ _ ((cfg0.win 4).xinj (grid0.coords t) j) = arr0_4 O _ _ _ _ (((cfg0.win 4).blk t).view.emb j)
  rw [hE, hx]
  rfl

/-- The product with halo array after the region is `arr0_4` of the arrays as the region finds them. -/
theorem arrAt0_4 (c : Dev nD) :
    (dat0 O V c).arrAt 4 cfg0.N = arr0_4 O (V c main_v0) (V c main_v15) (V c main_v288) (V c main_v275) :=
  (dat0 O V c).arrAt_eq_of_cover 4 _ (fun t _ => flushed0_4_eq O V c t) cover0_4

/-- The row-sum array after the region, as one function of the region's entry arrays: at `(n, a, b)` the body's
    output block 5 of slab `n` of the blocked input and of the whole operands, at `(0, a, b)`. -/
def arr0_5 (A0 : S8x32x32768.Idx → Elt F .f32) (A1 : S1024x256.Idx → Elt F .bf16) (A2 : S3x64x288.Idx → Elt F .bf16) (A3 : S9x4608.Idx → Elt F .bf16) : S8x64x1.Idx → Elt F .f32 :=
  fun i => O.o0_5 (slab3 A0 (i 0)) A1 A2 A3 (ix3 (0 : Fin 1) (i 1) (i 2))

/-- An index of the row-sum array is in point `t`'s block iff each coordinate is in the block's range on its axis. -/
theorem mem_blk0_5 (t : Fin cfg0.N) (i : S8x64x1.Idx) :
    i ∈ ((cfg0.win 5).blk t).view.set ↔ ∀ a : Fin 3, win0_5.index t a * S1x64x1.size a ≤ (i a).val ∧ (i a).val < win0_5.index t a * S1x64x1.size a + S1x64x1.size a := by
  show i ∈ ((View.whole main_v294_1).slice (win0_5.rect t)).set ↔ _
  rw [View.set_slice_whole, Rect.mem_set_unit]
  exact Iff.rfl

/-- The blocks of the row-sum array tile it: index `(n, a, b)` is in point `n`'s block. -/
theorem cover0_5 (i : S8x64x1.Idx) : ∃ t : Fin cfg0.N, (cfg0.win 5).flush t = true ∧ i ∈ ((cfg0.win 5).blk t).view.set := by
  have hi0 : (i 0).val < 8 := (i 0).isLt
  have hi1 : (i 1).val < 64 := (i 1).isLt
  have hi2 : (i 2).val < 1 := (i 2).isLt
  obtain ⟨t, ht⟩ := point0_of ⟨(i 0).val, hi0⟩
  obtain ⟨e0, e1, e2⟩ := index0_5 t
  refine ⟨t, flush0_5 t, ?_⟩
  rw [mem_blk0_5]
  intro a
  match a with
  | ⟨0, _⟩ => show win0_5.index t (0 : Fin 3) * 1 ≤ (i 0).val ∧ (i 0).val < win0_5.index t (0 : Fin 3) * 1 + 1; have : t.val = (i 0).val := ht; omega
  | ⟨1, _⟩ => show win0_5.index t (1 : Fin 3) * 64 ≤ (i 1).val ∧ (i 1).val < win0_5.index t (1 : Fin 3) * 64 + 64; omega
  | ⟨2, _⟩ => show win0_5.index t (2 : Fin 3) * 1 ≤ (i 2).val ∧ (i 2).val < win0_5.index t (2 : Fin 3) * 1 + 1; omega

/-- WHAT POINT `t` WRITES BACK into the row-sum array is block `t` of `arr0_5` of the arrays as the region finds them. -/
theorem flushed0_5_eq (c : Dev nD) (t : Fin cfg0.N) :
    (dat0 O V c).flushed 5 t
      = ((cfg0.win 5).blk t).view.read (Elt F) (arr0_5 O (V c main_v0) (V c main_v15) (V c main_v288) (V c main_v275)) := by
  have ht8 : t.val < 8 := Nat.lt_of_lt_of_eq t.isLt N_0
  show (cfg0.win 5).cut (grid0.coords t) ((dat0 O V c).after 5 t) = _
  rw [after0_5, iblk0_1_eq, iblk0_2_eq, iblk0_3_eq]
  have h0 : (iblk0 V c 0 t : Vec F S1x32x32768 .f32) = slab3 (V c main_v0) ⟨t.val, ht8⟩ :=
    funext fun y => iblk0_0_apply V c t y _ rfl rfl rfl
  rw [h0]
  obtain ⟨e0, e1, e2⟩ := index0_5 t
  funext j
  rw [View.read_apply]
  have hj0 : (j 0).val < 1 := (j 0).isLt
  have hj1 : (j 1).val < 64 := (j 1).isLt
  have hj2 : (j 2).val < 1 := (j 2).isLt
  have hE : (((cfg0.win 5).blk t).view.emb j : S8x64x1.Idx) = ix3 ⟨t.val, ht8⟩ ⟨(j 1).val, hj1⟩ ⟨(j 2).val, hj2⟩ := by
    funext a; apply Fin.ext
    match a with
    | ⟨0, _⟩ => show win0_5.index t (0 : Fin 3) * 1 + 1 * (j 0).val = t.val; omega
    | ⟨1, _⟩ => show win0_5.index t (1 : Fin 3) * 64 + 1 * (j 1).val = (j 1).val; omega
    | ⟨2, _⟩ => show win0_5.index t (2 : Fin 3) * 1 + 1 * (j 2).val = (j 2).val; omega
  have hx : ((cfg0.win 5).xinj (grid0.coords t) j : S1x64x1.Idx) = ix3 (0 : Fin 1) ⟨(j 1).val, hj1⟩ ⟨(j 2).val, hj2⟩ := by
    funext a; apply Fin.ext
    match a with
    | ⟨0, _⟩ => show (j 0).val = 0; omega
    | ⟨1, _⟩ => rfl
    | ⟨2, _⟩ => rfl
  show O.o0_5 _ _ _ _ ((cfg0.win 5).xinj (grid0.coords t) j) = arr0_5 O _ _ _ _ (((cfg0.win 5).blk t).view.emb j)
  rw [hE, hx]
  rfl

/-- The row-sum array after the region is `arr0_5` of the arrays as the region finds them. -/
theorem arrAt0_5 (c : Dev nD) :
    (dat0 O V c).arrAt 5 cfg0.N = arr0_5 O (V c main_v0) (V c main_v15) (V c main_v288) (V c main_v275) :=
  (dat0 O V c).arrAt_eq_of_cover 5 _ (fun t _ => flushed0_5_eq O V c t) cover0_5

/-- The squared row-sum array after the region, as one function of the region's entry arrays: at `(n, a, b)` the body's
    output block 6 of slab `n` of the blocked input and of the whole operands, at `(0, a, b)`. -/
def arr0_6 (A0 : S8x32x32768.Idx → Elt F .f32) (A1 : S1024x256.Idx → Elt F .bf16) (A2 : S3x64x288.Idx → Elt F .bf16) (A3 : S9x4608.Idx → Elt F .bf16) : S8x64x1.Idx → Elt F .f32 :=
  fun i => O.o0_6 (slab3 A0 (i 0)) A1 A2 A3 (ix3 (0 : Fin 1) (i 1) (i 2))

/-- An index of the squared row-sum array is in point `t`'s block iff each coordinate is in the block's range on its axis. -/
theorem mem_blk0_6 (t : Fin cfg0.N) (i : S8x64x1.Idx) :
    i ∈ ((cfg0.win 6).blk t).view.set ↔ ∀ a : Fin 3, win0_6.index t a * S1x64x1.size a ≤ (i a).val ∧ (i a).val < win0_6.index t a * S1x64x1.size a + S1x64x1.size a := by
  show i ∈ ((View.whole main_v294_2).slice (win0_6.rect t)).set ↔ _
  rw [View.set_slice_whole, Rect.mem_set_unit]
  exact Iff.rfl

/-- The blocks of the squared row-sum array tile it: index `(n, a, b)` is in point `n`'s block. -/
theorem cover0_6 (i : S8x64x1.Idx) : ∃ t : Fin cfg0.N, (cfg0.win 6).flush t = true ∧ i ∈ ((cfg0.win 6).blk t).view.set := by
  have hi0 : (i 0).val < 8 := (i 0).isLt
  have hi1 : (i 1).val < 64 := (i 1).isLt
  have hi2 : (i 2).val < 1 := (i 2).isLt
  obtain ⟨t, ht⟩ := point0_of ⟨(i 0).val, hi0⟩
  obtain ⟨e0, e1, e2⟩ := index0_6 t
  refine ⟨t, flush0_6 t, ?_⟩
  rw [mem_blk0_6]
  intro a
  match a with
  | ⟨0, _⟩ => show win0_6.index t (0 : Fin 3) * 1 ≤ (i 0).val ∧ (i 0).val < win0_6.index t (0 : Fin 3) * 1 + 1; have : t.val = (i 0).val := ht; omega
  | ⟨1, _⟩ => show win0_6.index t (1 : Fin 3) * 64 ≤ (i 1).val ∧ (i 1).val < win0_6.index t (1 : Fin 3) * 64 + 64; omega
  | ⟨2, _⟩ => show win0_6.index t (2 : Fin 3) * 1 ≤ (i 2).val ∧ (i 2).val < win0_6.index t (2 : Fin 3) * 1 + 1; omega

/-- WHAT POINT `t` WRITES BACK into the squared row-sum array is block `t` of `arr0_6` of the arrays as the region finds them. -/
theorem flushed0_6_eq (c : Dev nD) (t : Fin cfg0.N) :
    (dat0 O V c).flushed 6 t
      = ((cfg0.win 6).blk t).view.read (Elt F) (arr0_6 O (V c main_v0) (V c main_v15) (V c main_v288) (V c main_v275)) := by
  have ht8 : t.val < 8 := Nat.lt_of_lt_of_eq t.isLt N_0
  show (cfg0.win 6).cut (grid0.coords t) ((dat0 O V c).after 6 t) = _
  rw [after0_6, iblk0_1_eq, iblk0_2_eq, iblk0_3_eq]
  have h0 : (iblk0 V c 0 t : Vec F S1x32x32768 .f32) = slab3 (V c main_v0) ⟨t.val, ht8⟩ :=
    funext fun y => iblk0_0_apply V c t y _ rfl rfl rfl
  rw [h0]
  obtain ⟨e0, e1, e2⟩ := index0_6 t
  funext j
  rw [View.read_apply]
  have hj0 : (j 0).val < 1 := (j 0).isLt
  have hj1 : (j 1).val < 64 := (j 1).isLt
  have hj2 : (j 2).val < 1 := (j 2).isLt
  have hE : (((cfg0.win 6).blk t).view.emb j : S8x64x1.Idx) = ix3 ⟨t.val, ht8⟩ ⟨(j 1).val, hj1⟩ ⟨(j 2).val, hj2⟩ := by
    funext a; apply Fin.ext
    match a with
    | ⟨0, _⟩ => show win0_6.index t (0 : Fin 3) * 1 + 1 * (j 0).val = t.val; omega
    | ⟨1, _⟩ => show win0_6.index t (1 : Fin 3) * 64 + 1 * (j 1).val = (j 1).val; omega
    | ⟨2, _⟩ => show win0_6.index t (2 : Fin 3) * 1 + 1 * (j 2).val = (j 2).val; omega
  have hx : ((cfg0.win 6).xinj (grid0.coords t) j : S1x64x1.Idx) = ix3 (0 : Fin 1) ⟨(j 1).val, hj1⟩ ⟨(j 2).val, hj2⟩ := by
    funext a; apply Fin.ext
    match a with
    | ⟨0, _⟩ => show (j 0).val = 0; omega
    | ⟨1, _⟩ => rfl
    | ⟨2, _⟩ => rfl
  show O.o0_6 _ _ _ _ ((cfg0.win 6).xinj (grid0.coords t) j) = arr0_6 O _ _ _ _ (((cfg0.win 6).blk t).view.emb j)
  rw [hE, hx]
  rfl

/-- The squared row-sum array after the region is `arr0_6` of the arrays as the region finds them. -/
theorem arrAt0_6 (c : Dev nD) :
    (dat0 O V c).arrAt 6 cfg0.N = arr0_6 O (V c main_v0) (V c main_v15) (V c main_v288) (V c main_v275) :=
  (dat0 O V c).arrAt_eq_of_cover 6 _ (fun t _ => flushed0_6_eq O V c t) cover0_6

end Cert.KernelIdeal.Run

end
-- ==== Proof.BnFold.lean ====
import Idealize.ShloMosaic.Lib.StableHlo
import Idealize.ShloMosaic.Lib.Pipeline.Value
import Idealize.ShloMosaic.Lib.ValueIdx
import Idealize.ShloMosaic.PureOps.Ideal

noncomputable section

namespace Cert.BnFold

open Idealize.ShloMosaic Idealize.ShloMosaic.ValueIdx

abbrev S_ : Shape := ⟨0, ![]⟩
abbrev S64 : Shape := ⟨1, ![64]⟩
abbrev S64x1 : Shape := ⟨2, ![64, 1]⟩
abbrev S8x64 : Shape := ⟨2, ![8, 64]⟩
abbrev S8x64x1 : Shape := ⟨3, ![8, 64, 1]⟩

theorem casts_S8x64x1_S8x64 : S8x64x1.ShapeCasts S8x64 := by decide
theorem casts_S64_S64x1 : S64.ShapeCasts S64x1 := by decide
theorem reduces_S8x64_S64 : S8x64.ReducesTo [0] S64 := by decide
theorem pos_S_ : 0 < S_.numel := by decide
theorem bcast_S_S64 : S_.BroadcastsInDim S64 (![] : Fin 0 → Fin S64.rank) := by decide

def bnCount : Vec Ideal S64 .f32 :=
  broadcastInDim S64 ![] bcast_S_S64 (constant (F := Ideal) S_ .f32 0x47000000#32)

def bnSum (s : Vec Ideal S8x64x1 .f32) : Vec Ideal S64 .f32 :=
  Host.reduceAdd (F := Ideal) (φ := .f32) (shapeCast S8x64 s casts_S8x64x1_S8x64) (constant (F := Ideal) S_ .f32 0x00000000#32)
    reduces_S8x64_S64 pos_S_

def bnMean (s : Vec Ideal S8x64x1 .f32) : Vec Ideal S64 .f32 :=
  Host.divf (F := Ideal) (φ := .f32) (bnSum s) bnCount

def bnVarEps (s q : Vec Ideal S8x64x1 .f32) : Vec Ideal S64 .f32 :=
  addf (F := Ideal) (φ := .f32) (subf (F := Ideal) (φ := .f32) (Host.divf (F := Ideal) (φ := .f32) (bnSum q) bnCount) (mulf (F := Ideal) (φ := .f32) (bnMean s) (bnMean s)))
    (broadcastInDim S64 ![] bcast_S_S64 (constant (F := Ideal) S_ .f32 0x3727C5AC#32))

def bnInv (s q : Vec Ideal S8x64x1 .f32) (gamma : Vec Ideal S64 .f32) : Vec Ideal S64 .f32 :=
  Host.divf (F := Ideal) (φ := .f32) gamma (Host.sqrt (F := Ideal) (φ := .f32) (bnVarEps s q))

def bnScale (s q : Vec Ideal S8x64x1 .f32) (gamma : Vec Ideal S64 .f32) : Vec Ideal S64x1 .f32 :=
  shapeCast S64x1 (bnInv s q gamma) casts_S64_S64x1

def bnShift (s q : Vec Ideal S8x64x1 .f32) (gamma beta : Vec Ideal S64 .f32) : Vec Ideal S64x1 .f32 :=
  shapeCast S64x1 (subf (F := Ideal) (φ := .f32) beta (mulf (F := Ideal) (φ := .f32) (bnMean s) (bnInv s q gamma))) casts_S64_S64x1

abbrev S8x64x4096 : Shape := ⟨3, ![8, 64, 4096]⟩
abbrev S8x64x16x16x16 : Shape := ⟨5, ![8, 64, 16, 16, 16]⟩

theorem casts_S8x64x4096_S8x64x16x16x16 : S8x64x4096.ShapeCasts S8x64x16x16x16 := by decide

def voxelLane (d h w : Fin 16) : Fin 4096 := ⟨256 * d.val + 16 * h.val + w.val, by omega⟩

theorem unflatten_apply {α : Type} (x : S8x64x4096.Idx → α) (hc : S8x64x4096.ShapeCasts S8x64x16x16x16)
    (n : Fin 8) (o : Fin 64) (d h w : Fin 16) :
    shapeCast S8x64x16x16x16 x hc (ix5 n o d h w) = x (ix3 n o (voxelLane d h w)) :=
  shapeCast_apply x hc _ _ (by
    rw [Shape.rowMajor_val_five, Shape.rowMajor_val_three]
    show (n.val * 64 + o.val) * 4096 + (256 * d.val + 16 * h.val + w.val)
      = (((n.val * 64 + o.val) * 16 + d.val) * 16 + h.val) * 16 + w.val
    omega)

end Cert.BnFold

end
-- ==== Proof.KernelIdealBn.lean ====
import proofs.«157750_g2000200144022539_pallasbulk_675_13_alg».proof.Proof.Gen.KernelIdeal.Launch
import proofs.«157750_g2000200144022539_pallasbulk_675_13_alg».proof.Proof.BnFold
import Idealize.ShloMosaic.Lib.StableHlo.Run

set_option maxRecDepth 16384

noncomputable section

namespace Cert.KernelIdeal.Host

open Idealize.ShloMosaic Idealize.ShloMosaic.TcCoe Idealize.ShloMosaic.ValueIdx
open Cert.KernelIdeal Cert.KernelIdeal.Gen Cert.BnFold

section Folds
variable {F : FTy → Type} [FloatOps F] (V : Valuation τ sig (Elt F))

abbrev A1 : Valuation τ sig (Elt F) := StableHlo.after (main_part6_ops1 (F := F)) V

abbrev A2 : Valuation τ sig (Elt F) := StableHlo.after (main_part7_ops0 (F := F)) (A1 V)

abbrev B1 : Valuation τ sig (Elt F) := StableHlo.after (main_part7_ops1 (F := F)) V

abbrev C1 : Valuation τ sig (Elt F) := StableHlo.after (main_part7_ops2 (F := F)) V

end Folds

section Values
variable (V : Valuation τ sig (Elt Ideal))

theorem A2_main_v309 :
    (A2 V (Proc.devRef .tc main_v309) : Vec Ideal Cert.BnFold.S64x1 .f32)
      = bnScale (V (Proc.devRef .tc main_v294_1)) (V (Proc.devRef .tc main_v294_2)) (V (Proc.devRef .tc main_arg2)) := by
  dsimp only [A2, A1, main_part7_ops0, main_part6_ops1]
  after_results_simp
  rfl

theorem A2_main_v312 :
    (A2 V (Proc.devRef .tc main_v312) : Vec Ideal Cert.BnFold.S64x1 .f32)
      = bnShift (V (Proc.devRef .tc main_v294_1)) (V (Proc.devRef .tc main_v294_2)) (V (Proc.devRef .tc main_arg2))
          (V (Proc.devRef .tc main_arg3)) := by
  dsimp only [A2, A1, main_part7_ops0, main_part6_ops1]
  after_results_simp
  rfl

theorem B1_main_v328 :
    (B1 V (Proc.devRef .tc main_v328) : Vec Ideal Cert.BnFold.S64x1 .f32)
      = bnScale (V (Proc.devRef .tc main_v313_1)) (V (Proc.devRef .tc main_v313_2)) (V (Proc.devRef .tc main_arg5)) := by
  dsimp only [B1, main_part7_ops1]
  after_results_simp
  rfl

theorem B1_main_v331 :
    (B1 V (Proc.devRef .tc main_v331) : Vec Ideal Cert.BnFold.S64x1 .f32)
      = bnShift (V (Proc.devRef .tc main_v313_1)) (V (Proc.devRef .tc main_v313_2)) (V (Proc.devRef .tc main_arg5))
          (V (Proc.devRef .tc main_arg6)) := by
  dsimp only [B1, main_part7_ops1]
  after_results_simp
  rfl

theorem C1_main_v333 :
    (C1 V (Proc.devRef .tc main_v333) : Vec Ideal Cert.BnFold.S8x64x16x16x16 .f32)
      = shapeCast Cert.BnFold.S8x64x16x16x16 (V (Proc.devRef .tc main_v332) : Vec Ideal Cert.BnFold.S8x64x4096 .f32)
          casts_S8x64x4096_S8x64x16x16x16 := by
  dsimp only [C1, main_part7_ops2]
  after_results_simp
  rfl

theorem C1_main_v333_apply (n : Fin 8) (o : Fin 64) (d h w : Fin 16) :
    (C1 V (Proc.devRef .tc main_v333) : Vec Ideal Cert.BnFold.S8x64x16x16x16 .f32) (ix5 n o d h w)
      = (V (Proc.devRef .tc main_v332) : Vec Ideal Cert.BnFold.S8x64x4096 .f32) (ix3 n o (voxelLane d h w)) := by
  rw [C1_main_v333, unflatten_apply]

end Values

section Frame
variable {F : FTy → Type} [FloatOps F] (V : Valuation τ sig (Elt F))

abbrev A1_W : List (Ref sig .tc) := [main_v295, main_cst, main_v296, main_v297, main_cst_117, main_v298, main_cst_118]
theorem A1_writes : (main_part6_ops1 : List (HloOp τ sig (Elt F))).Forall fun op => op.writes ⊆ (A1_W.map (Proc.devRef (τ := τ) .tc)).toFinset := by
  simp only [main_part6_ops1, List.Forall, StableHlo.nullary_writes, StableHlo.unary_writes, StableHlo.binary_writes, StableHlo.reshape_writes, Finset.singleton_subset_iff, List.mem_toFinset]
  repeat' apply And.intro
  all_goals exact List.mem_map_of_mem (by decide)

theorem A1_of (r : Ref sig .tc) (h : r ∉ A1_W) : A1 V (Proc.devRef .tc r) = V (Proc.devRef .tc r) :=
  StableHlo.after_of_writes_sub _ _ A1_writes h

abbrev A2_W : List (Ref sig .tc) :=
  [main_v299, main_v300, main_cst_119, main_v301, main_v302, main_v303, main_v304, main_cst_120, main_v305, main_v306, main_v307,
   main_v308, main_v309, main_v310, main_v311, main_v312]
theorem A2_writes : (main_part7_ops0 : List (HloOp τ sig (Elt F))).Forall fun op => op.writes ⊆ (A2_W.map (Proc.devRef (τ := τ) .tc)).toFinset := by
  simp only [main_part7_ops0, List.Forall, StableHlo.nullary_writes, StableHlo.unary_writes, StableHlo.binary_writes, StableHlo.reshape_writes, Finset.singleton_subset_iff, List.mem_toFinset]
  repeat' apply And.intro
  all_goals exact List.mem_map_of_mem (by decide)

theorem A2_of (r : Ref sig .tc) (h1 : r ∉ A1_W) (h2 : r ∉ A2_W) : A2 V (Proc.devRef .tc r) = V (Proc.devRef .tc r) :=
  (StableHlo.after_of_writes_sub _ _ A2_writes h2).trans (A1_of V r h1)

abbrev B1_W : List (Ref sig .tc) :=
  [main_v314, main_cst_121, main_v315, main_v316, main_cst_122, main_v317, main_cst_123, main_v318, main_v319, main_cst_124, main_v320,
   main_v321, main_v322, main_v323, main_cst_125, main_v324, main_v325, main_v326, main_v327, main_v328, main_v329, main_v330, main_v331]
theorem B1_writes : (main_part7_ops1 : List (HloOp τ sig (Elt F))).Forall fun op => op.writes ⊆ (B1_W.map (Proc.devRef (τ := τ) .tc)).toFinset := by
  simp only [main_part7_ops1, List.Forall, StableHlo.nullary_writes, StableHlo.unary_writes, StableHlo.binary_writes, StableHlo.reshape_writes, Finset.singleton_subset_iff, List.mem_toFinset]
  repeat' apply And.intro
  all_goals exact List.mem_map_of_mem (by decide)

theorem B1_of (r : Ref sig .tc) (h : r ∉ B1_W) : B1 V (Proc.devRef .tc r) = V (Proc.devRef .tc r) :=
  StableHlo.after_of_writes_sub _ _ B1_writes h

abbrev keptA : List (Ref sig .tc) :=
  [main_arg0, main_arg1, main_arg2, main_arg3, main_arg4, main_arg5, main_arg6, main_v294_0, main_v294_1, main_v294_2, main_v275, main_v283, main_v293]
theorem keptA_A1 : ∀ r ∈ keptA, r ∉ A1_W := by decide
theorem keptA_A2 : ∀ r ∈ keptA, r ∉ A2_W := by decide

theorem A2_keeps (r : Ref sig .tc) (hr : r ∈ keptA) : A2 V (Proc.devRef .tc r) = V (Proc.devRef .tc r) :=
  A2_of V r (keptA_A1 r hr) (keptA_A2 r hr)

abbrev keptB : List (Ref sig .tc) :=
  [main_arg0, main_arg1, main_arg2, main_arg3, main_arg4, main_arg5, main_arg6, main_v313_0, main_v313_1, main_v313_2, main_v309, main_v312]
theorem keptB_B1 : ∀ r ∈ keptB, r ∉ B1_W := by decide

theorem B1_keeps (r : Ref sig .tc) (hr : r ∈ keptB) : B1 V (Proc.devRef .tc r) = V (Proc.devRef .tc r) :=
  B1_of V r (keptB_B1 r hr)

end Frame

end Cert.KernelIdeal.Host

end
-- ==== Proof.KernelIdealLayout.lean ====
import proofs.«157750_g2000200144022539_pallasbulk_675_13_alg».proof.Proof.KernelIdealHostWrites
import Idealize.ShloMosaic.Lib.Pipeline.Value
import Idealize.ShloMosaic.Lib.ValueIdx
import Idealize.ShloMosaic.Lib.ValueLayout

set_option maxRecDepth 16384

noncomputable section

namespace Cert.KernelIdeal.Host

open Cert.KernelIdeal Cert.KernelIdeal.Gen
open Idealize.ShloMosaic Idealize.ShloMosaic.TcCoe Idealize.ShloMosaic.ValueIdx

variable {F : FTy → Type} [FloatOps F]

variable (V₀ : Valuation τ sig (Elt F))

abbrev L1 : Valuation τ sig (Elt F) := StableHlo.after main_part0_ops0 (V₀)

abbrev L2 : Valuation τ sig (Elt F) := StableHlo.after main_part0_ops1 (L1 V₀)

abbrev L3 : Valuation τ sig (Elt F) := StableHlo.after main_part0_ops2 (L2 V₀)

abbrev L4 : Valuation τ sig (Elt F) := StableHlo.after main_part0_ops3 (L3 V₀)

abbrev L5 : Valuation τ sig (Elt F) := StableHlo.after main_part0_ops4 (L4 V₀)

abbrev L6 : Valuation τ sig (Elt F) := StableHlo.after main_part0_ops5 (L5 V₀)

abbrev L7 : Valuation τ sig (Elt F) := StableHlo.after main_part0_ops6 (L6 V₀)

abbrev L8 : Valuation τ sig (Elt F) := StableHlo.after main_part0_ops7 (L7 V₀)

abbrev L9 : Valuation τ sig (Elt F) := StableHlo.after main_part0_ops8 (L8 V₀)

abbrev L10 : Valuation τ sig (Elt F) := StableHlo.after main_part0_ops9 (L9 V₀)

abbrev L11 : Valuation τ sig (Elt F) := StableHlo.after main_part0_ops10 (L10 V₀)

abbrev L12 : Valuation τ sig (Elt F) := StableHlo.after main_part1_ops0 (L11 V₀)

abbrev L13 : Valuation τ sig (Elt F) := StableHlo.after main_part2_ops0 (L12 V₀)

abbrev L14 : Valuation τ sig (Elt F) := StableHlo.after main_part3_ops0 (L13 V₀)

abbrev L15 : Valuation τ sig (Elt F) := StableHlo.after main_part4_ops0 (L14 V₀)

abbrev L16 : Valuation τ sig (Elt F) := StableHlo.after main_part5_ops0 (L15 V₀)

abbrev L17 : Valuation τ sig (Elt F) := StableHlo.after main_part6_ops0 (L16 V₀)

theorem L1_of (r : Ref sig .tc) (h : r ∉ main_part0_ops0_W) : L1 V₀ (Proc.devRef .tc r) = V₀ (Proc.devRef .tc r) :=
  StableHlo.after_of_writes_sub main_part0_ops0 _ main_part0_ops0_writes h
theorem L2_of (r : Ref sig .tc) (h : r ∉ main_part0_ops1_W) : L2 V₀ (Proc.devRef .tc r) = L1 V₀ (Proc.devRef .tc r) :=
  StableHlo.after_of_writes_sub main_part0_ops1 _ main_part0_ops1_writes h
theorem L3_of (r : Ref sig .tc) (h : r ∉ main_part0_ops2_W) : L3 V₀ (Proc.devRef .tc r) = L2 V₀ (Proc.devRef .tc r) :=
  StableHlo.after_of_writes_sub main_part0_ops2 _ main_part0_ops2_writes h
theorem L4_of (r : Ref sig .tc) (h : r ∉ main_part0_ops3_W) : L4 V₀ (Proc.devRef .tc r) = L3 V₀ (Proc.devRef .tc r) :=
  StableHlo.after_of_writes_sub main_part0_ops3 _ main_part0_ops3_writes h
theorem L5_of (r : Ref sig .tc) (h : r ∉ main_part0_ops4_W) : L5 V₀ (Proc.devRef .tc r) = L4 V₀ (Proc.devRef .tc r) :=
  StableHlo.after_of_writes_sub main_part0_ops4 _ main_part0_ops4_writes h
theorem L6_of (r : Ref sig .tc) (h : r ∉ main_part0_ops5_W) : L6 V₀ (Proc.devRef .tc r) = L5 V₀ (Proc.devRef .tc r) :=
  StableHlo.after_of_writes_sub main_part0_ops5 _ main_part0_ops5_writes h
theorem L7_of (r : Ref sig .tc) (h : r ∉ main_part0_ops6_W) : L7 V₀ (Proc.devRef .tc r) = L6 V₀ (Proc.devRef .tc r) :=
  StableHlo.after_of_writes_sub main_part0_ops6 _ main_part0_ops6_writes h
theorem L8_of (r : Ref sig .tc) (h : r ∉ main_part0_ops7_W) : L8 V₀ (Proc.devRef .tc r) = L7 V₀ (Proc.devRef .tc r) :=
  StableHlo.after_of_writes_sub main_part0_ops7 _ main_part0_ops7_writes h
theorem L9_of (r : Ref sig .tc) (h : r ∉ main_part0_ops8_W) : L9 V₀ (Proc.devRef .tc r) = L8 V₀ (Proc.devRef .tc r) :=
  StableHlo.after_of_writes_sub main_part0_ops8 _ main_part0_ops8_writes h
theorem L10_of (r : Ref sig .tc) (h : r ∉ main_part0_ops9_W) : L10 V₀ (Proc.devRef .tc r) = L9 V₀ (Proc.devRef .tc r) :=
  StableHlo.after_of_writes_sub main_part0_ops9 _ main_part0_ops9_writes h
theorem L11_of (r : Ref sig .tc) (h : r ∉ main_part0_ops10_W) : L11 V₀ (Proc.devRef .tc r) = L10 V₀ (Proc.devRef .tc r) :=
  StableHlo.after_of_writes_sub main_part0_ops10 _ main_part0_ops10_writes h
theorem L12_of (r : Ref sig .tc) (h : r ∉ main_part1_ops0_W) : L12 V₀ (Proc.devRef .tc r) = L11 V₀ (Proc.devRef .tc r) :=
  StableHlo.after_of_writes_sub main_part1_ops0 _ main_part1_ops0_writes h
theorem L13_of (r : Ref sig .tc) (h : r ∉ main_part2_ops0_W) : L13 V₀ (Proc.devRef .tc r) = L12 V₀ (Proc.devRef .tc r) :=
  StableHlo.after_of_writes_sub main_part2_ops0 _ main_part2_ops0_writes h
theorem L14_of (r : Ref sig .tc) (h : r ∉ main_part3_ops0_W) : L14 V₀ (Proc.devRef .tc r) = L13 V₀ (Proc.devRef .tc r) :=
  StableHlo.after_of_writes_sub main_part3_ops0 _ main_part3_ops0_writes h
theorem L15_of (r : Ref sig .tc) (h : r ∉ main_part4_ops0_W) : L15 V₀ (Proc.devRef .tc r) = L14 V₀ (Proc.devRef .tc r) :=
  StableHlo.after_of_writes_sub main_part4_ops0 _ main_part4_ops0_writes h
theorem L16_of (r : Ref sig .tc) (h : r ∉ main_part5_ops0_W) : L16 V₀ (Proc.devRef .tc r) = L15 V₀ (Proc.devRef .tc r) :=
  StableHlo.after_of_writes_sub main_part5_ops0 _ main_part5_ops0_writes h
theorem L17_of (r : Ref sig .tc) (h : r ∉ main_part6_ops0_W) : L17 V₀ (Proc.devRef .tc r) = L16 V₀ (Proc.devRef .tc r) :=
  StableHlo.after_of_writes_sub main_part6_ops0 _ main_part6_ops0_writes h

abbrev wrAll16 : List (Ref sig .tc) :=
  main_part0_ops0_W ++ (main_part0_ops1_W ++ (main_part0_ops2_W ++ (main_part0_ops3_W ++ (main_part0_ops4_W ++ (main_part0_ops5_W ++ (main_part0_ops6_W ++ (main_part0_ops7_W ++ (main_part0_ops8_W ++ (main_part0_ops9_W ++ (main_part0_ops10_W ++ (main_part1_ops0_W ++ (main_part2_ops0_W ++ (main_part3_ops0_W ++ (main_part4_ops0_W ++ (main_part5_ops0_W)))))))))))))))

theorem L16_unwritten (r : Ref sig .tc) (h : r ∉ wrAll16) : L16 V₀ (Proc.devRef .tc r) = V₀ (Proc.devRef .tc r) := by
  rw [L16_of V₀ r (fun hm => h (by simp only [List.mem_append, hm, true_or, or_true])),
    L15_of V₀ r (fun hm => h (by simp only [List.mem_append, hm, true_or, or_true])),
    L14_of V₀ r (fun hm => h (by simp only [List.mem_append, hm, true_or, or_true])),
    L13_of V₀ r (fun hm => h (by simp only [List.mem_append, hm, true_or, or_true])),
    L12_of V₀ r (fun hm => h (by simp only [List.mem_append, hm, true_or, or_true])),
    L11_of V₀ r (fun hm => h (by simp only [List.mem_append, hm, true_or, or_true])),
    L10_of V₀ r (fun hm => h (by simp only [List.mem_append, hm, true_or, or_true])),
    L9_of V₀ r (fun hm => h (by simp only [List.mem_append, hm, true_or, or_true])),
    L8_of V₀ r (fun hm => h (by simp only [List.mem_append, hm, true_or, or_true])),
    L7_of V₀ r (fun hm => h (by simp only [List.mem_append, hm, true_or, or_true])),
    L6_of V₀ r (fun hm => h (by simp only [List.mem_append, hm, true_or, or_true])),
    L5_of V₀ r (fun hm => h (by simp only [List.mem_append, hm, true_or, or_true])),
    L4_of V₀ r (fun hm => h (by simp only [List.mem_append, hm, true_or, or_true])),
    L3_of V₀ r (fun hm => h (by simp only [List.mem_append, hm, true_or, or_true])),
    L2_of V₀ r (fun hm => h (by simp only [List.mem_append, hm, true_or, or_true])),
    L1_of V₀ r (fun hm => h (List.mem_append_left _ hm))]

abbrev wrAll : List (Ref sig .tc) :=
  main_part0_ops0_W ++ (main_part0_ops1_W ++ (main_part0_ops2_W ++ (main_part0_ops3_W ++ (main_part0_ops4_W ++ (main_part0_ops5_W ++ (main_part0_ops6_W ++ (main_part0_ops7_W ++ (main_part0_ops8_W ++ (main_part0_ops9_W ++ (main_part0_ops10_W ++ (main_part1_ops0_W ++ (main_part2_ops0_W ++ (main_part3_ops0_W ++ (main_part4_ops0_W ++ (main_part5_ops0_W ++ (main_part6_ops0_W))))))))))))))))

theorem L17_unwritten (r : Ref sig .tc) (h : r ∉ wrAll) : L17 V₀ (Proc.devRef .tc r) = V₀ (Proc.devRef .tc r) := by
  rw [L17_of V₀ r (fun hm => h (by simp only [List.mem_append, hm, true_or, or_true])),
    L16_of V₀ r (fun hm => h (by simp only [List.mem_append, hm, true_or, or_true])),
    L15_of V₀ r (fun hm => h (by simp only [List.mem_append, hm, true_or, or_true])),
    L14_of V₀ r (fun hm => h (by simp only [List.mem_append, hm, true_or, or_true])),
    L13_of V₀ r (fun hm => h (by simp only [List.mem_append, hm, true_or, or_true])),
    L12_of V₀ r (fun hm => h (by simp only [List.mem_append, hm, true_or, or_true])),
    L11_of V₀ r (fun hm => h (by simp only [List.mem_append, hm, true_or, or_true])),
    L10_of V₀ r (fun hm => h (by simp only [List.mem_append, hm, true_or, or_true])),
    L9_of V₀ r (fun hm => h (by simp only [List.mem_append, hm, true_or, or_true])),
    L8_of V₀ r (fun hm => h (by simp only [List.mem_append, hm, true_or, or_true])),
    L7_of V₀ r (fun hm => h (by simp only [List.mem_append, hm, true_or, or_true])),
    L6_of V₀ r (fun hm => h (by simp only [List.mem_append, hm, true_or, or_true])),
    L5_of V₀ r (fun hm => h (by simp only [List.mem_append, hm, true_or, or_true])),
    L4_of V₀ r (fun hm => h (by simp only [List.mem_append, hm, true_or, or_true])),
    L3_of V₀ r (fun hm => h (by simp only [List.mem_append, hm, true_or, or_true])),
    L2_of V₀ r (fun hm => h (by simp only [List.mem_append, hm, true_or, or_true])),
    L1_of V₀ r (fun hm => h (List.mem_append_left _ hm))]

theorem L16_main_arg1 : L16 V₀ (Proc.devRef .tc main_arg1) = V₀ (Proc.devRef .tc main_arg1) := L16_unwritten V₀ main_arg1 (by decide)
theorem L16_main_arg4 : L16 V₀ (Proc.devRef .tc main_arg4) = V₀ (Proc.devRef .tc main_arg4) := L16_unwritten V₀ main_arg4 (by decide)

theorem L1_main_v0 : (L1 V₀ (Proc.devRef .tc main_v0) : Vec F S8x32x32768 .f32)
    = shapeCast S8x32x32768 (V₀ (Proc.devRef .tc main_arg0) : Vec F S8x32x32x32x32 .f32) shapeCasts_S8x32x32x32x32_S8x32x32768 := by
  dsimp only [L1]
  simp only [main_part0_ops0]
  after_results
  rfl

theorem L17_main_v0_eq_L1 : L17 V₀ (Proc.devRef .tc main_v0) = L1 V₀ (Proc.devRef .tc main_v0) := by
  rw [L17_of V₀ main_v0 (by decide), L16_of V₀ main_v0 (by decide), L15_of V₀ main_v0 (by decide), L14_of V₀ main_v0 (by decide), L13_of V₀ main_v0 (by decide), L12_of V₀ main_v0 (by decide), L11_of V₀ main_v0 (by decide), L10_of V₀ main_v0 (by decide), L9_of V₀ main_v0 (by decide), L8_of V₀ main_v0 (by decide), L7_of V₀ main_v0 (by decide), L6_of V₀ main_v0 (by decide), L5_of V₀ main_v0 (by decide), L4_of V₀ main_v0 (by decide), L3_of V₀ main_v0 (by decide), L2_of V₀ main_v0 (by decide)]

theorem main_v0_apply (n : Fin 8) (c : Fin 32) (l : Fin 32768) (d h w : Fin 32) (hl : l.val = (d.val * 32 + h.val) * 32 + w.val) :
    (L17 V₀ (Proc.devRef .tc main_v0) : Vec F S8x32x32768 .f32) (ix3 n c l)
      = (V₀ (Proc.devRef .tc main_arg0) : Vec F S8x32x32x32x32 .f32) (ix5 n c d h w) := by
  rw [L17_main_v0_eq_L1, L1_main_v0]
  refine shapeCast_apply (s := S8x32x32x32x32) (t := S8x32x32768) _ _ _ _ ?_
  show (S8x32x32x32x32.rowMajor (ix5 n c d h w)).val = (S8x32x32768.rowMajor (ix3 n c l)).val
  rw [Shape.rowMajor_val_five, Shape.rowMajor_val_three]
  show (((n.val * 32 + c.val) * 32 + d.val) * 32 + h.val) * 32 + w.val = (n.val * 32 + c.val) * 32768 + l.val
  omega

theorem main_v0_apply_div (n : Fin 8) (c : Fin 32) (l : Fin 32768) :
    (L17 V₀ (Proc.devRef .tc main_v0) : Vec F S8x32x32768 .f32) (ix3 n c l)
      = (V₀ (Proc.devRef .tc main_arg0) : Vec F S8x32x32x32x32 .f32)
          (ix5 n c ⟨l.val / 1024, by have := l.isLt; omega⟩ ⟨l.val / 32 % 32, Nat.mod_lt _ (by decide)⟩ ⟨l.val % 32, Nat.mod_lt _ (by decide)⟩) :=
  main_v0_apply V₀ n c l _ _ _ (by show l.val = (l.val / 1024 * 32 + l.val / 32 % 32) * 32 + l.val % 32; omega)

theorem after16_main_v288 (V : Valuation τ sig (Elt F)) :
    (StableHlo.after main_part6_ops0 V (Proc.devRef .tc main_v288) : Vec F S3x64x288 .bf16)
      = truncf .bf16 (shapeCast S3x64x288 (transpose (s := S3x9x64x32) S3x64x9x32 [0, 2, 1, 3] (shapeCast S3x9x64x32
          (transpose (s := S64x32x3x3x3) S3x3x3x64x32 [2, 3, 4, 0, 1] (V (Proc.devRef .tc main_arg1) : Vec F S64x32x3x3x3 .f32)
            transposes_S64x32x3x3x3_S3x3x3x64x32_2_3_4_0_1)
          shapeCasts_S3x3x3x64x32_S3x9x64x32) transposes_S3x9x64x32_S3x64x9x32_0_2_1_3) shapeCasts_S3x64x9x32_S3x64x288) bitsLt_bf16_f32 := by
  simp only [main_part6_ops0]
  after_results_simp
  rfl

theorem after16_main_v293 (V : Valuation τ sig (Elt F)) :
    (StableHlo.after main_part6_ops0 V (Proc.devRef .tc main_v293) : Vec F S3x64x576 .bf16)
      = truncf .bf16 (shapeCast S3x64x576 (transpose (s := S3x9x64x64) S3x64x9x64 [0, 2, 1, 3] (shapeCast S3x9x64x64
          (transpose (s := S64x64x3x3x3) S3x3x3x64x64 [2, 3, 4, 0, 1] (V (Proc.devRef .tc main_arg4) : Vec F S64x64x3x3x3 .f32)
            transposes_S64x64x3x3x3_S3x3x3x64x64_2_3_4_0_1)
          shapeCasts_S3x3x3x64x64_S3x9x64x64) transposes_S3x9x64x64_S3x64x9x64_0_2_1_3) shapeCasts_S3x64x9x64_S3x64x576) bitsLt_bf16_f32 := by
  simp only [main_part6_ops0]
  after_results_simp
  rfl

theorem fold_w9_32_apply {α : Type} (w : S64x32x3x3x3.Idx → α)
    (h1 : S64x32x3x3x3.Transposes [2, 3, 4, 0, 1] S3x3x3x64x32) (h2 : S3x3x3x64x32.ShapeCasts S3x9x64x32)
    (h3 : S3x9x64x32.Transposes [0, 2, 1, 3] S3x64x9x32) (h4 : S3x64x9x32.ShapeCasts S3x64x288)
    (kd : Fin 3) (o : Fin 64) (r : Fin 288) (i : Fin 32) (kh kw : Fin 3) (hr : r.val = (kh.val * 3 + kw.val) * 32 + i.val) :
    shapeCast S3x64x288 (transpose S3x64x9x32 [0, 2, 1, 3] (shapeCast S3x9x64x32
        (transpose S3x3x3x64x32 [2, 3, 4, 0, 1] w h1) h2) h3) h4 (ix3 kd o r)
      = w (ix5 o i kd kh kw) := by
  have ht : kh.val * 3 + kw.val < 9 := by have := kh.isLt; have := kw.isLt; omega
  refine (shapeCast_apply (s := S3x64x9x32) (t := S3x64x288) _ h4 (ix3 kd o r) (ix4 kd o ⟨kh.val * 3 + kw.val, ht⟩ i) ?_).trans ?_
  · rw [Shape.rowMajor_val_four, Shape.rowMajor_val_three]
    show ((kd.val * 64 + o.val) * 9 + (kh.val * 3 + kw.val)) * 32 + i.val = (kd.val * 64 + o.val) * 288 + r.val
    omega
  refine (transpose_apply (s := S3x9x64x32) (t := S3x64x9x32) _ _ h3 (ix4 kd o ⟨kh.val * 3 + kw.val, ht⟩ i) (ix4 kd ⟨kh.val * 3 + kw.val, ht⟩ o i)
    fun b => match b with | ⟨0, _⟩ => rfl | ⟨1, _⟩ => rfl | ⟨2, _⟩ => rfl | ⟨3, _⟩ => rfl).trans ?_
  refine (shapeCast_apply (s := S3x3x3x64x32) (t := S3x9x64x32) _ h2 (ix4 kd ⟨kh.val * 3 + kw.val, ht⟩ o i) (ix5 kd kh kw o i) ?_).trans ?_
  · rw [Shape.rowMajor_val_five, Shape.rowMajor_val_four]
    show (((kd.val * 3 + kh.val) * 3 + kw.val) * 64 + o.val) * 32 + i.val = ((kd.val * 9 + (kh.val * 3 + kw.val)) * 64 + o.val) * 32 + i.val
    omega
  exact transpose_apply (s := S64x32x3x3x3) (t := S3x3x3x64x32) _ w h1 (ix5 kd kh kw o i) (ix5 o i kd kh kw)
    fun b => match b with | ⟨0, _⟩ => rfl | ⟨1, _⟩ => rfl | ⟨2, _⟩ => rfl | ⟨3, _⟩ => rfl | ⟨4, _⟩ => rfl

theorem fold_w9_64_apply {α : Type} (w : S64x64x3x3x3.Idx → α)
    (h1 : S64x64x3x3x3.Transposes [2, 3, 4, 0, 1] S3x3x3x64x64) (h2 : S3x3x3x64x64.ShapeCasts S3x9x64x64)
    (h3 : S3x9x64x64.Transposes [0, 2, 1, 3] S3x64x9x64) (h4 : S3x64x9x64.ShapeCasts S3x64x576)
    (kd : Fin 3) (o : Fin 64) (r : Fin 576) (i : Fin 64) (kh kw : Fin 3) (hr : r.val = (kh.val * 3 + kw.val) * 64 + i.val) :
    shapeCast S3x64x576 (transpose S3x64x9x64 [0, 2, 1, 3] (shapeCast S3x9x64x64
        (transpose S3x3x3x64x64 [2, 3, 4, 0, 1] w h1) h2) h3) h4 (ix3 kd o r)
      = w (ix5 o i kd kh kw) := by
  have ht : kh.val * 3 + kw.val < 9 := by have := kh.isLt; have := kw.isLt; omega
  refine (shapeCast_apply (s := S3x64x9x64) (t := S3x64x576) _ h4 (ix3 kd o r) (ix4 kd o ⟨kh.val * 3 + kw.val, ht⟩ i) ?_).trans ?_
  · rw [Shape.rowMajor_val_four, Shape.rowMajor_val_three]
    show ((kd.val * 64 + o.val) * 9 + (kh.val * 3 + kw.val)) * 64 + i.val = (kd.val * 64 + o.val) * 576 + r.val
    omega
  refine (transpose_apply (s := S3x9x64x64) (t := S3x64x9x64) _ _ h3 (ix4 kd o ⟨kh.val * 3 + kw.val, ht⟩ i) (ix4 kd ⟨kh.val * 3 + kw.val, ht⟩ o i)
    fun b => match b with | ⟨0, _⟩ => rfl | ⟨1, _⟩ => rfl | ⟨2, _⟩ => rfl | ⟨3, _⟩ => rfl).trans ?_
  refine (shapeCast_apply (s := S3x3x3x64x64) (t := S3x9x64x64) _ h2 (ix4 kd ⟨kh.val * 3 + kw.val, ht⟩ o i) (ix5 kd kh kw o i) ?_).trans ?_
  · rw [Shape.rowMajor_val_five, Shape.rowMajor_val_four]
    show (((kd.val * 3 + kh.val) * 3 + kw.val) * 64 + o.val) * 64 + i.val = ((kd.val * 9 + (kh.val * 3 + kw.val)) * 64 + o.val) * 64 + i.val
    omega
  exact transpose_apply (s := S64x64x3x3x3) (t := S3x3x3x64x64) _ w h1 (ix5 kd kh kw o i) (ix5 o i kd kh kw)
    fun b => match b with | ⟨0, _⟩ => rfl | ⟨1, _⟩ => rfl | ⟨2, _⟩ => rfl | ⟨3, _⟩ => rfl | ⟨4, _⟩ => rfl

theorem main_v288_apply (U₀ : Valuation τ sig (Elt Ideal)) (kd : Fin 3) (o : Fin 64) (r : Fin 288) (i : Fin 32) (kh kw : Fin 3)
    (hr : r.val = (kh.val * 3 + kw.val) * 32 + i.val) :
    (L17 U₀ (Proc.devRef .tc main_v288) : Vec Ideal S3x64x288 .bf16) (ix3 kd o r)
      = (U₀ (Proc.devRef .tc main_arg1) : Vec Ideal S64x32x3x3x3 .f32) (ix5 o i kd kh kw) := by
  rw [show L17 U₀ (Proc.devRef .tc main_v288) = _ from after16_main_v288 (L16 U₀), L16_main_arg1, truncf_apply]
  exact fold_w9_32_apply _ _ _ _ _ kd o r i kh kw hr

theorem main_v288_apply_div (U₀ : Valuation τ sig (Elt Ideal)) (kd : Fin 3) (o : Fin 64) (r : Fin 288) :
    (L17 U₀ (Proc.devRef .tc main_v288) : Vec Ideal S3x64x288 .bf16) (ix3 kd o r)
      = (U₀ (Proc.devRef .tc main_arg1) : Vec Ideal S64x32x3x3x3 .f32)
          (ix5 o ⟨r.val % 32, Nat.mod_lt _ (by decide)⟩ kd ⟨r.val / 32 / 3, by have := r.isLt; omega⟩ ⟨r.val / 32 % 3, Nat.mod_lt _ (by decide)⟩) :=
  main_v288_apply U₀ kd o r _ _ _ (by show r.val = (r.val / 32 / 3 * 3 + r.val / 32 % 3) * 32 + r.val % 32; omega)

theorem main_v293_apply (U₀ : Valuation τ sig (Elt Ideal)) (kd : Fin 3) (o : Fin 64) (r : Fin 576) (i : Fin 64) (kh kw : Fin 3)
    (hr : r.val = (kh.val * 3 + kw.val) * 64 + i.val) :
    (L17 U₀ (Proc.devRef .tc main_v293) : Vec Ideal S3x64x576 .bf16) (ix3 kd o r)
      = (U₀ (Proc.devRef .tc main_arg4) : Vec Ideal S64x64x3x3x3 .f32) (ix5 o i kd kh kw) := by
  rw [show L17 U₀ (Proc.devRef .tc main_v293) = _ from after16_main_v293 (L16 U₀), L16_main_arg4, truncf_apply]
  exact fold_w9_64_apply _ _ _ _ _ kd o r i kh kw hr

theorem main_v293_apply_div (U₀ : Valuation τ sig (Elt Ideal)) (kd : Fin 3) (o : Fin 64) (r : Fin 576) :
    (L17 U₀ (Proc.devRef .tc main_v293) : Vec Ideal S3x64x576 .bf16) (ix3 kd o r)
      = (U₀ (Proc.devRef .tc main_arg4) : Vec Ideal S64x64x3x3x3 .f32)
          (ix5 o ⟨r.val % 64, Nat.mod_lt _ (by decide)⟩ kd ⟨r.val / 64 / 3, by have := r.isLt; omega⟩ ⟨r.val / 64 % 3, Nat.mod_lt _ (by decide)⟩) :=
  main_v293_apply U₀ kd o r _ _ _ (by show r.val = (r.val / 64 / 3 * 3 + r.val / 64 % 3) * 64 + r.val % 64; omega)

end Cert.KernelIdeal.Host

end
-- ==== Proof.KernelIdealHost.lean ====
import proofs.«157750_g2000200144022539_pallasbulk_675_13_alg».proof.Proof.Gen.KernelIdeal.Launch
import Idealize.ShloMosaic.Lib.StableHlo.Run
import Idealize.ShloMosaic.Lib.StableHlo.Predicate
import Idealize.ShloMosaic.Lib.Pipeline.Value
import Idealize.ShloMosaic.Lib.ValueIdx
import Idealize.ShloMosaic.Lib.ValueLayout
import Idealize.ShloMosaic.PureOps.Ideal

set_option maxRecDepth 16384

noncomputable section

namespace Cert.KernelIdeal.Host

open Idealize.ShloMosaic Idealize.ShloMosaic.TcCoe
open Cert.KernelIdeal Cert.KernelIdeal.Gen

variable {F : FTy → Type} [FloatOps F]

variable (V₀ : Valuation τ sig (Elt F))

abbrev V1 : Valuation τ sig (Elt F) := StableHlo.after main_part0_ops0 V₀
abbrev V2 : Valuation τ sig (Elt F) := StableHlo.after main_part0_ops1 (V1 V₀)
abbrev V3 : Valuation τ sig (Elt F) := StableHlo.after main_part0_ops2 (V2 V₀)
abbrev V4 : Valuation τ sig (Elt F) := StableHlo.after main_part0_ops3 (V3 V₀)
abbrev V5 : Valuation τ sig (Elt F) := StableHlo.after main_part0_ops4 (V4 V₀)
abbrev V6 : Valuation τ sig (Elt F) := StableHlo.after main_part0_ops5 (V5 V₀)
abbrev V7 : Valuation τ sig (Elt F) := StableHlo.after main_part0_ops6 (V6 V₀)
abbrev V8 : Valuation τ sig (Elt F) := StableHlo.after main_part0_ops7 (V7 V₀)
abbrev V9 : Valuation τ sig (Elt F) := StableHlo.after main_part0_ops8 (V8 V₀)
abbrev V10 : Valuation τ sig (Elt F) := StableHlo.after main_part0_ops9 (V9 V₀)
abbrev V11 : Valuation τ sig (Elt F) := StableHlo.after main_part0_ops10 (V10 V₀)
abbrev V12 : Valuation τ sig (Elt F) := StableHlo.after main_part1_ops0 (V11 V₀)
abbrev V13 : Valuation τ sig (Elt F) := StableHlo.after main_part2_ops0 (V12 V₀)
abbrev V14 : Valuation τ sig (Elt F) := StableHlo.after main_part3_ops0 (V13 V₀)
abbrev V15 : Valuation τ sig (Elt F) := StableHlo.after main_part4_ops0 (V14 V₀)
abbrev V16 : Valuation τ sig (Elt F) := StableHlo.after main_part5_ops0 (V15 V₀)
abbrev V17 : Valuation τ sig (Elt F) := StableHlo.after main_part6_ops0 (V16 V₀)

theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => exact ih (op.result V)

open Idealize.ShloMosaic.ValueIdx Idealize.ShloMosaic.StableHlo.Predicate

theorem bit_eq_ofBool {b : BitVec 1} {p : Prop} [Decidable p] (h : b = 1#1 ↔ p) : b = BitVec.ofBool (decide p) := by
  by_cases hp : p
  · rw [h.2 hp, decide_eq_true hp]; rfl
  · rw [eq_zero_of_ne_one (fun hb => hp (h.1 hb)), decide_eq_false hp]; rfl

theorem andi_ofBool (x y : Bool) : IntOp.andi (BitVec.ofBool x) (BitVec.ofBool y) = BitVec.ofBool (x && y) := by
  cases x <;> cases y <;> rfl

theorem toNat_ofBool_ereal (p : Prop) [Decidable p] :
    (((BitVec.ofBool (decide p)).toNat : ℝ) : EReal) = if p then (1 : EReal) else 0 := by
  by_cases hp : p
  · rw [decide_eq_true hp, if_pos hp]; show (((1 : ℕ) : ℝ) : EReal) = 1; norm_num
  · rw [decide_eq_false hp, if_neg hp]; show (((0 : ℕ) : ℝ) : EReal) = 0; norm_num

theorem toNat_ofNat_lane (n : ℕ) (h : n < 2 ^ 31) : (BitVec.ofNat 32 n).toNat = n := by
  rw [BitVec.toNat_ofNat]; exact Nat.mod_eq_of_lt (by omega)

theorem v283_term (V₀ : Valuation τ sig (Elt Ideal)) :
    (V17 V₀ main_v283 : S1x4864.Idx → EReal)
      = shapeCast S1x4864 (uitofp (F := Ideal) .f32 (andi (cmpi .sge (iotaInDim S4864 32 0) (broadcastInDim S4864 ![] bcast_S_S4864 (constantI S_ 32 384#32)))
          (cmpi .slt (iotaInDim S4864 32 0) (broadcastInDim S4864 ![] bcast_S_S4864 (constantI S_ 32 4480#32))))) shapeCasts_S4864_S1x4864 := by
  dsimp only [V17]
  simp only [main_part6_ops0]
  after_results_simp
  rfl

theorem valid_bit (l : ℕ) (hl : l < 4864) :
    IntOp.andi (IntOp.cmpi .sge (BitVec.ofNat 32 l) 384#32) (IntOp.cmpi .slt (BitVec.ofNat 32 l) 4480#32)
      = BitVec.ofBool (decide (384 ≤ l ∧ l < 4480)) := by
  have hn : (BitVec.ofNat 32 l).toNat = l := toNat_ofNat_lane l (by omega)
  have h1 : IntOp.cmpi .sge (BitVec.ofNat 32 l) 384#32 = BitVec.ofBool (decide (384 ≤ l)) :=
    bit_eq_ofBool ((sge_iff_toNat (by rw [hn]; omega) (by decide)).trans (by rw [hn]; exact Iff.rfl))
  have h2 : IntOp.cmpi .slt (BitVec.ofNat 32 l) 4480#32 = BitVec.ofBool (decide (l < 4480)) :=
    bit_eq_ofBool ((slt_iff_toNat (by rw [hn]; omega) (by decide)).trans (by rw [hn]; exact Iff.rfl))
  rw [h1, h2, andi_ofBool, Bool.decide_and]

theorem valid_apply (V₀ : Valuation τ sig (Elt Ideal)) (i : S1x4864.Idx) :
    (V17 V₀ main_v283 : S1x4864.Idx → EReal) i = if 384 ≤ (i 1).val ∧ (i 1).val < 4480 then (1 : EReal) else 0 := by
  obtain ⟨u, l, rfl⟩ : ∃ (u : Fin 1) (l : Fin 4864), i = ix2 u l := ⟨i 0, i 1, eq_ix2 i⟩
  rw [v283_term, shapeCast_a_1a_apply]
  show (((IntOp.andi (IntOp.cmpi .sge (BitVec.ofNat 32 l.val) 384#32) (IntOp.cmpi .slt (BitVec.ofNat 32 l.val) 4480#32)).toNat : ℝ) : EReal)
    = if 384 ≤ l.val ∧ l.val < 4480 then (1 : EReal) else 0
  rw [valid_bit l.val l.isLt, toNat_ofBool_ereal]

theorem valid_eq (V₀ : Valuation τ sig (Elt Ideal)) :
    (V17 V₀ main_v283 : S1x4864.Idx → EReal) = fun i => if 384 ≤ (i 1).val ∧ (i 1).val < 4480 then (1 : EReal) else 0 :=
  funext (valid_apply V₀)

end Cert.KernelIdeal.Host

end
-- ==== Proof.KernelIdealHostWords.lean ====
import Idealize.ShloMosaic.Lib.StableHlo.Predicate
import Idealize.ShloMosaic.Lib.ValueIdx

namespace Cert.KernelIdeal.Host

open Idealize.ShloMosaic Idealize.ShloMosaic.ValueIdx Idealize.ShloMosaic.StableHlo.Predicate

def sgnW (x : BitVec 32) : BitVec 32 := if x = 0 then 0 else if x.msb then -1 else 1

def fdivW (x d : BitVec 32) : BitVec 32 :=
  Scalar.select (IntOp.andi (IntOp.cmpi .ne (sgnW x) (sgnW d)) (IntOp.cmpi .ne (IntOp.remsi .host x d) 0#32))
    (IntOp.subi (IntOp.divsi .host x d) 1#32) (IntOp.divsi .host x d)

def remDiv (d : BitVec 32) : BitVec 32 := Scalar.select (IntOp.cmpi .eq d 0#32) 1#32 d

def remW (x d : BitVec 32) : BitVec 32 :=
  Scalar.select
    (IntOp.andi (IntOp.cmpi .ne (IntOp.cmpi .slt (IntOp.remsi .host x (remDiv d)) 0#32) (IntOp.cmpi .slt (remDiv d) 0#32))
      (IntOp.cmpi .ne (IntOp.remsi .host x (remDiv d)) 0#32))
    (IntOp.addi (IntOp.remsi .host x (remDiv d)) (remDiv d)) (IntOp.remsi .host x (remDiv d))

theorem not_corner {x d : BitVec 32} (hd0 : 0 < d.toNat) (hd : d.toNat < 2 ^ 31) : ¬ IntOp.SDivCorner x d := by
  rintro (h | ⟨-, h⟩)
  · rw [h] at hd0; exact absurd hd0 (by decide)
  · rw [h] at hd; exact absurd hd (by decide)

theorem msb_false_of_lt {x : BitVec 32} (hx : x.toNat < 2 ^ 31) : x.msb = false :=
  BitVec.msb_eq_false_iff_two_mul_lt.mpr (by omega)

theorem msb_true_of_le {x : BitVec 32} (hx : 2 ^ 31 ≤ x.toNat) : x.msb = true :=
  BitVec.msb_eq_true_iff_two_mul_ge.mpr (by omega)

theorem divsi_host_nonneg {x d : BitVec 32} (hx : x.toNat < 2 ^ 31) (hd0 : 0 < d.toNat) (hd : d.toNat < 2 ^ 31) :
    IntOp.divsi .host x d = x / d := by
  simp only [IntOp.divsi, if_neg (not_corner hd0 hd), BitVec.sdiv_eq, msb_false_of_lt hx, msb_false_of_lt hd, BitVec.udiv_eq]

theorem remsi_host_nonneg {x d : BitVec 32} (hx : x.toNat < 2 ^ 31) (hd0 : 0 < d.toNat) (hd : d.toNat < 2 ^ 31) :
    IntOp.remsi .host x d = x % d := by
  simp only [IntOp.remsi, if_neg (not_corner hd0 hd), BitVec.srem_eq, msb_false_of_lt hx, msb_false_of_lt hd]

theorem remsi_host_neg {x d : BitVec 32} (hx : 2 ^ 31 ≤ x.toNat) (hd0 : 0 < d.toNat) (hd : d.toNat < 2 ^ 31) :
    IntOp.remsi .host x d = -((-x) % d) := by
  simp only [IntOp.remsi, if_neg (not_corner hd0 hd), BitVec.srem_eq, msb_true_of_le hx, msb_false_of_lt hd]

theorem slt_zero_bit (a : BitVec 32) : IntOp.cmpi .slt a 0#32 = BitVec.ofBool (decide (2 ^ 31 ≤ a.toNat)) := by
  unfold IntOp.cmpi
  show BitVec.ofBool (a.slt 0#32) = _
  rw [BitVec.slt_zero_eq_msb, BitVec.msb_eq_decide]

theorem sge_zero_bit (a : BitVec 32) : IntOp.cmpi .sge a 0#32 = BitVec.ofBool (decide (a.toNat < 2 ^ 31)) := by
  unfold IntOp.cmpi
  show BitVec.ofBool ((0#32).sle a) = _
  congr 1
  rw [BitVec.sle_eq_decide, BitVec.toInt_eq_toNat_cond, BitVec.toInt_eq_toNat_cond]
  apply decide_eq_decide.mpr
  have h0 : (0#32 : BitVec 32).toNat = 0 := rfl
  rw [h0]
  constructor
  · intro h; split at h <;> omega
  · intro h; rw [if_pos (by omega), if_pos (by omega)]; omega

theorem slt_small_bit (a : BitVec 32) (n : ℕ) (hn : n < 2 ^ 31) :
    IntOp.cmpi .slt a (BitVec.ofNat 32 n) = BitVec.ofBool (decide (a.toNat < n ∨ 2 ^ 31 ≤ a.toNat)) := by
  unfold IntOp.cmpi
  show BitVec.ofBool (a.slt (BitVec.ofNat 32 n)) = _
  congr 1
  rw [BitVec.slt_eq_decide, BitVec.toInt_eq_toNat_cond, BitVec.toInt_eq_toNat_cond]
  apply decide_eq_decide.mpr
  have hn' : (BitVec.ofNat 32 n).toNat = n := by rw [BitVec.toNat_ofNat]; exact Nat.mod_eq_of_lt (by omega)
  rw [hn']
  have ha := a.isLt
  constructor
  · intro h; split at h <;> split at h <;> omega
  · intro h; split <;> split <;> omega

theorem sgnW_pos {x : BitVec 32} (h0 : 0 < x.toNat) (hx : x.toNat < 2 ^ 31) : sgnW x = 1 := by
  have hne : x ≠ 0 := fun h => by rw [h] at h0; exact absurd h0 (by decide)
  unfold sgnW
  rw [if_neg hne, msb_false_of_lt hx]
  rfl

theorem fdivW_nonneg {x d : BitVec 32} (hx : x.toNat < 2 ^ 31) (hd0 : 0 < d.toNat) (hd : d.toNat < 2 ^ 31) :
    fdivW x d = BitVec.ofNat 32 (x.toNat / d.toNat) := by
  have hdiv := divsi_host_nonneg hx hd0 hd
  have hrem := remsi_host_nonneg hx hd0 hd
  have hc : IntOp.andi (IntOp.cmpi .ne (sgnW x) (sgnW d)) (IntOp.cmpi .ne (IntOp.remsi .host x d) 0#32) = 0#1 := by
    by_cases h0 : x.toNat = 0
    · have hr : IntOp.remsi .host x d = 0#32 := by
        rw [hrem]; apply BitVec.eq_of_toNat_eq; rw [BitVec.toNat_umod, h0, Nat.zero_mod]; rfl
      rw [hr]
      show _ &&& 0#1 = 0#1
      exact BitVec.and_zero
    · rw [sgnW_pos (by omega) hx, sgnW_pos hd0 hd]
      show 0#1 &&& _ = 0#1
      exact BitVec.zero_and
  unfold fdivW
  rw [hc, select_zero, hdiv]
  apply BitVec.eq_of_toNat_eq
  rw [BitVec.toNat_udiv, BitVec.toNat_ofNat]
  exact (Nat.mod_eq_of_lt (lt_of_le_of_lt (Nat.div_le_self _ _) (by omega))).symm

theorem remDiv_pos {d : BitVec 32} (hd0 : 0 < d.toNat) : remDiv d = d := by
  have hne : d ≠ 0#32 := fun h => by rw [h] at hd0; exact absurd hd0 (by decide)
  unfold remDiv
  have : IntOp.cmpi .eq d 0#32 = 0#1 := eq_zero_of_ne_one (fun h => hne (cmpi_eq_iff.mp h))
  rw [this, select_zero]

theorem remW_nonneg {x d : BitVec 32} (hx : x.toNat < 2 ^ 31) (hd0 : 0 < d.toNat) (hd : d.toNat < 2 ^ 31) :
    remW x d = BitVec.ofNat 32 (x.toNat % d.toNat) := by
  have hrem := remsi_host_nonneg hx hd0 hd
  have hlt : (x % d).toNat < 2 ^ 31 := by
    rw [BitVec.toNat_umod]; exact lt_of_lt_of_le (Nat.mod_lt _ hd0) (by omega)
  unfold remW
  rw [remDiv_pos hd0, hrem, slt_zero_bit, slt_zero_bit, decide_eq_false (by omega), decide_eq_false (by omega)]
  show Scalar.select (0#1 &&& _) _ _ = _
  rw [BitVec.zero_and, select_zero]
  apply BitVec.eq_of_toNat_eq
  rw [BitVec.toNat_umod, BitVec.toNat_ofNat]
  exact (Nat.mod_eq_of_lt (lt_of_lt_of_le (Nat.mod_lt _ hd0) (by omega))).symm

theorem remW_sub256 (j : ℕ) (hj : j < 2 ^ 31) :
    remW (BitVec.ofNat 32 j - 256#32) 256#32 = BitVec.ofNat 32 (j % 256) := by
  have hjn : (BitVec.ofNat 32 j).toNat = j := by rw [BitVec.toNat_ofNat]; exact Nat.mod_eq_of_lt (by omega)
  have h256 : (256#32 : BitVec 32).toNat = 256 := rfl
  by_cases hge : 256 ≤ j
  · have hx : (BitVec.ofNat 32 j - 256#32).toNat = j - 256 := by
      rw [BitVec.toNat_sub, hjn, h256]; omega
    rw [remW_nonneg (by rw [hx]; omega) (by rw [h256]; omega) (by rw [h256]; omega), hx, h256]
    congr 1; omega
  · have hx : (BitVec.ofNat 32 j - 256#32).toNat = 2 ^ 32 - 256 + j := by
      rw [BitVec.toNat_sub, hjn, h256]; omega
    have hrem := remsi_host_neg (x := BitVec.ofNat 32 j - 256#32) (d := 256#32) (by rw [hx]; omega) (by rw [h256]; omega) (by rw [h256]; omega)
    have hr : (-((-(BitVec.ofNat 32 j - 256#32)) % 256#32)).toNat = if j = 0 then 0 else 2 ^ 32 - 256 + j := by
      rw [BitVec.toNat_neg, BitVec.toNat_umod, BitVec.toNat_neg, hx, h256]
      split <;> omega
    unfold remW
    rw [remDiv_pos (by rw [h256]; omega), hrem, slt_zero_bit, slt_zero_bit, hr, h256]
    by_cases h0 : j = 0
    · subst h0
      rw [if_pos rfl, decide_eq_false (by omega), decide_eq_false (by omega)]
      show Scalar.select (0#1 &&& _) _ _ = _
      rw [BitVec.zero_and, select_zero]
      apply BitVec.eq_of_toNat_eq
      rw [hr]; rfl
    · rw [if_neg h0, decide_eq_true (by omega), decide_eq_false (by omega)]
      have hne : IntOp.cmpi .ne (-((-(BitVec.ofNat 32 j - 256#32)) % 256#32)) 0#32 = 1#1 := by
        unfold IntOp.cmpi
        show BitVec.ofBool (_ != _) = 1#1
        have : (-((-(BitVec.ofNat 32 j - 256#32)) % 256#32)) ≠ 0#32 := fun h => by
          have h00 : (0#32 : BitVec 32).toNat = 0 := rfl
          have := congrArg BitVec.toNat h
          rw [hr, h00] at this
          split at this <;> omega
        rw [bne_iff_ne.mpr this]; rfl
      rw [hne]
      show Scalar.select 1#1 _ _ = _
      rw [select_one]
      apply BitVec.eq_of_toNat_eq
      show (_ + _ : BitVec 32).toNat = _
      rw [BitVec.toNat_add, hr, if_neg h0, h256, BitVec.toNat_ofNat]
      omega

end Cert.KernelIdeal.Host
-- ==== Proof.KernelIdealHostIdx.lean ====
import proofs.«157750_g2000200144022539_pallasbulk_675_13_alg».proof.Proof.KernelIdealHost
import proofs.«157750_g2000200144022539_pallasbulk_675_13_alg».proof.Proof.KernelIdealHostWords

set_option maxRecDepth 16384

noncomputable section

namespace Cert.KernelIdeal.Host

open Idealize.ShloMosaic Idealize.ShloMosaic.TcCoe
open Cert.KernelIdeal Cert.KernelIdeal.Gen

open Idealize.ShloMosaic.ValueIdx Idealize.ShloMosaic.StableHlo.Predicate

theorem toNat_ofNat_small (n : ℕ) (hn : n < 2 ^ 31) : (BitVec.ofNat 32 n).toNat = n := by
  rw [BitVec.toNat_ofNat]; exact Nat.mod_eq_of_lt (by omega)

theorem fdivW_lane (n : ℕ) (hn : n < 2 ^ 31) : fdivW (BitVec.ofNat 32 n) 16#32 = BitVec.ofNat 32 (n / 16) := by
  have h16 : (16#32 : BitVec 32).toNat = 16 := rfl
  rw [fdivW_nonneg (by rw [toNat_ofNat_small n hn]; exact hn) (by rw [h16]; omega) (by rw [h16]; omega), toNat_ofNat_small n hn, h16]

theorem remW_lane (n : ℕ) (hn : n < 2 ^ 31) : remW (BitVec.ofNat 32 n) 16#32 = BitVec.ofNat 32 (n % 16) := by
  have h16 : (16#32 : BitVec 32).toNat = 16 := rfl
  rw [remW_nonneg (by rw [toNat_ofNat_small n hn]; exact hn) (by rw [h16]; omega) (by rw [h16]; omega), toNat_ofNat_small n hn, h16]

theorem v21_word (V₀ : Valuation τ sig (Elt Ideal)) (j : Fin 4608) :
    (V10 V₀ main_v21 : S4608.Idx → BitVec 32) (ix1 j) = fdivW (remW (BitVec.ofNat 32 j.val - 256#32) 256#32) 16#32 := by
  dsimp only [V10, V9, V8, V7, V6, V5]
  generalize V4 V₀ = X
  rw [← after_append, ← after_append, ← after_append, ← after_append, ← after_append]
  simp only [main_part0_ops4, main_part0_ops5, main_part0_ops6, main_part0_ops7, main_part0_ops8, main_part0_ops9, List.cons_append, List.nil_append]
  after_results_simp
  simp only [StableHlo.TRef.ofBuf, StableHlo.TRef.toBuf, cast_eq]
  rfl

theorem v20_word (V₀ : Valuation τ sig (Elt Ideal)) (j : Fin 4608) :
    (V10 V₀ main_v20 : S4608.Idx → BitVec 32) (ix1 j) = remW (remW (BitVec.ofNat 32 j.val - 256#32) 256#32) 16#32 := by
  dsimp only [V10, V9, V8, V7, V6, V5]
  generalize V4 V₀ = X
  rw [← after_append, ← after_append, ← after_append, ← after_append, ← after_append]
  simp only [main_part0_ops4, main_part0_ops5, main_part0_ops6, main_part0_ops7, main_part0_ops8, main_part0_ops9, List.cons_append, List.nil_append]
  after_results_simp
  simp only [StableHlo.TRef.ofBuf, StableHlo.TRef.toBuf, cast_eq]
  rfl

theorem v21_lane (V₀ : Valuation τ sig (Elt Ideal)) (j : Fin 4608) :
    (V10 V₀ main_v21 : S4608.Idx → BitVec 32) (ix1 j) = BitVec.ofNat 32 (j.val % 256 / 16) := by
  have hj := j.isLt
  rw [v21_word, remW_sub256 j.val (by omega), fdivW_lane (j.val % 256) (by omega)]

theorem v20_lane (V₀ : Valuation τ sig (Elt Ideal)) (j : Fin 4608) :
    (V10 V₀ main_v20 : S4608.Idx → BitVec 32) (ix1 j) = BitVec.ofNat 32 (j.val % 16) := by
  have hj := j.isLt
  rw [v20_word, remW_sub256 j.val (by omega), remW_lane (j.val % 256) (by omega)]
  congr 1; omega

end Cert.KernelIdeal.Host

end
-- ==== Proof.KernelIdealHostSel.lean ====
import proofs.«157750_g2000200144022539_pallasbulk_675_13_alg».proof.Proof.KernelIdealHostIdx
import proofs.«157750_g2000200144022539_pallasbulk_675_13_alg».proof.Proof.KernelIdealHostWrites

set_option maxRecDepth 16384

noncomputable section

namespace Cert.KernelIdeal.Host

open Idealize.ShloMosaic Idealize.ShloMosaic.TcCoe
open Cert.KernelIdeal Cert.KernelIdeal.Gen

open Idealize.ShloMosaic.ValueIdx Idealize.ShloMosaic.StableHlo.Predicate

theorem V17_v15 {F : FTy → Type} [FloatOps F] (V₀ : Valuation τ sig (Elt F)) : V17 V₀ main_v15 = V5 V₀ main_v15 :=
  (StableHlo.after_of_writes_sub main_part6_ops0 _ main_part6_ops0_writes (by decide)).trans <|
    (StableHlo.after_of_writes_sub main_part5_ops0 _ main_part5_ops0_writes (by decide)).trans <|
    (StableHlo.after_of_writes_sub main_part4_ops0 _ main_part4_ops0_writes (by decide)).trans <|
    (StableHlo.after_of_writes_sub main_part3_ops0 _ main_part3_ops0_writes (by decide)).trans <|
    (StableHlo.after_of_writes_sub main_part2_ops0 _ main_part2_ops0_writes (by decide)).trans <|
    (StableHlo.after_of_writes_sub main_part1_ops0 _ main_part1_ops0_writes (by decide)).trans <|
    (StableHlo.after_of_writes_sub main_part0_ops10 _ main_part0_ops10_writes (by decide)).trans <|
    (StableHlo.after_of_writes_sub main_part0_ops9 _ main_part0_ops9_writes (by decide)).trans <|
    (StableHlo.after_of_writes_sub main_part0_ops8 _ main_part0_ops8_writes (by decide)).trans <|
    (StableHlo.after_of_writes_sub main_part0_ops7 _ main_part0_ops7_writes (by decide)).trans <|
    (StableHlo.after_of_writes_sub main_part0_ops6 _ main_part0_ops6_writes (by decide)).trans <|
    (StableHlo.after_of_writes_sub main_part0_ops5 _ main_part0_ops5_writes (by decide))

theorem v15_word (V₀ : Valuation τ sig (Elt Ideal)) (l : Fin 1024) (k : Fin 256) :
    (V5 V₀ main_v15 : S1024x256.Idx → EReal) (ix2 l k)
      = (((IntOp.cmpi .eq (BitVec.ofNat 32 l.val)
            (IntOp.addi (IntOp.muli 64#32 (fdivW (BitVec.ofNat 32 k.val) 16#32)) (IntOp.muli 2#32 (remW (BitVec.ofNat 32 k.val) 16#32)))).toNat : ℝ) : EReal) := by
  dsimp only [V5, V4, V3, V2, V1]
  rw [← after_append, ← after_append, ← after_append, ← after_append]
  simp only [main_part0_ops0, main_part0_ops1, main_part0_ops2, main_part0_ops3, main_part0_ops4, List.cons_append, List.nil_append]
  after_results_simp
  simp only [StableHlo.TRef.ofBuf, StableHlo.TRef.toBuf, cast_eq]
  rfl

theorem sel_bit (l k : ℕ) (hl : l < 1024) (hk : k < 256) :
    IntOp.cmpi .eq (BitVec.ofNat 32 l) (IntOp.addi (IntOp.muli 64#32 (BitVec.ofNat 32 (k / 16))) (IntOp.muli 2#32 (BitVec.ofNat 32 (k % 16))))
      = BitVec.ofBool (decide (l = 64 * (k / 16) + 2 * (k % 16))) := by
  have hm : IntOp.addi (IntOp.muli 64#32 (BitVec.ofNat 32 (k / 16))) (IntOp.muli 2#32 (BitVec.ofNat 32 (k % 16)))
      = BitVec.ofNat 32 (64 * (k / 16) + 2 * (k % 16)) := by
    apply BitVec.eq_of_toNat_eq
    show ((64#32 * BitVec.ofNat 32 (k / 16)) + (2#32 * BitVec.ofNat 32 (k % 16))).toNat = _
    rw [BitVec.toNat_add, BitVec.toNat_mul, BitVec.toNat_mul]
    simp only [BitVec.toNat_ofNat]
    omega
  rw [hm]
  apply bit_eq_ofBool
  rw [cmpi_eq_iff]
  constructor
  · intro h
    have := congrArg BitVec.toNat h
    rw [BitVec.toNat_ofNat, BitVec.toNat_ofNat] at this
    omega
  · intro h; rw [h]

theorem sel_apply (V₀ : Valuation τ sig (Elt Ideal)) (i : S1024x256.Idx) :
    (V17 V₀ main_v15 : S1024x256.Idx → EReal) i
      = if (i 0).val = 64 * ((i 1).val / 16) + 2 * ((i 1).val % 16) then (1 : EReal) else 0 := by
  obtain ⟨l, k, rfl⟩ : ∃ (l : Fin 1024) (k : Fin 256), i = ix2 l k := ⟨i 0, i 1, eq_ix2 i⟩
  show (V17 V₀ main_v15 : S1024x256.Idx → EReal) (ix2 l k) = if l.val = 64 * (k.val / 16) + 2 * (k.val % 16) then (1 : EReal) else 0
  have hk := k.isLt
  rw [V17_v15, v15_word, fdivW_lane k.val (by omega), remW_lane k.val (by omega), sel_bit l.val k.val l.isLt k.isLt, toNat_ofBool_ereal]

theorem sel_eq (V₀ : Valuation τ sig (Elt Ideal)) :
    (V17 V₀ main_v15 : S1024x256.Idx → EReal)
      = fun i => if (i 0).val = 64 * ((i 1).val / 16) + 2 * ((i 1).val % 16) then (1 : EReal) else 0 :=
  funext (sel_apply V₀)

end Cert.KernelIdeal.Host

end
-- ==== Proof.KernelIdealHostMaskOps.lean ====
import proofs.«157750_g2000200144022539_pallasbulk_675_13_alg».proof.Proof.Gen.KernelIdeal.Launch
import Idealize.ShloMosaic.Lib.StableHlo.Run

set_option maxRecDepth 16384

noncomputable section

namespace Cert.KernelIdeal.Host

open Idealize.ShloMosaic Idealize.ShloMosaic.TcCoe
open Cert.KernelIdeal Cert.KernelIdeal.Gen

variable {F : FTy → Type} [FloatOps F]

-- A line whose operations write, one each and in order, the references of `W` writes inside `W`.
theorem writes_of {Val : EltTy → Type} (l : List (HloOp τ sig Val)) (W : List (Ref sig .tc))
    (h : (l.map fun op => op.writes) = W.map fun r => ({Proc.devRef (τ := τ) .tc r} : Finset (DevRef τ sig))) :
    l.Forall fun op => op.writes ⊆ (W.map (Proc.devRef (τ := τ) .tc)).toFinset := by
  rw [List.forall_iff_forall_mem]
  intro op hop
  have hm := List.mem_map_of_mem (f := fun op : HloOp τ sig Val => op.writes) hop
  rw [h] at hm
  obtain ⟨r, hr, e⟩ := List.mem_map.mp hm
  rw [← e, Finset.singleton_subset_iff, List.mem_toFinset]
  exact List.mem_map_of_mem hr

abbrev maskAll : List (HloOp τ sig (Elt F)) :=
  main_part0_ops10 ++ (main_part1_ops0 ++ (main_part2_ops0 ++ (main_part3_ops0 ++ (main_part4_ops0 ++ (main_part5_ops0 ++ (main_part6_ops0))))))

abbrev maskRow0 : List (HloOp τ sig (Elt F)) := maskAll.take 39
abbrev maskRow0_W : List (Ref sig .tc) :=
  [main_c_7, main_v22, main_v23, main_c_8, main_v24, main_v25, main_c_9, main_v26, main_v27, main_c_10, main_v28, main_v29, main_c_11, main_v30, main_v31, main_c_12, main_v32, main_v33, main_v34, main_c_13, main_v35, main_v36, main_c_14, main_v37, main_v38, main_c_15, main_v39, main_v40, main_v41, main_c_16, main_v42, main_v43, main_c_17, main_v44, main_v45, main_c_18, main_v46, main_v47, main_v48]
theorem maskRow0_writes : (maskRow0 : List (HloOp τ sig (Elt F))).Forall fun op => op.writes ⊆ (maskRow0_W.map (Proc.devRef (τ := τ) .tc)).toFinset :=
  writes_of _ _ rfl

abbrev maskRow1 : List (HloOp τ sig (Elt F)) := (maskAll.drop 39).take 39
abbrev maskRow1_W : List (Ref sig .tc) :=
  [main_c_19, main_v49, main_v50, main_c_20, main_v51, main_v52, main_c_21, main_v53, main_v54, main_c_22, main_v55, main_v56, main_c_23, main_v57, main_v58, main_c_24, main_v59, main_v60, main_v61, main_c_25, main_v62, main_v63, main_c_26, main_v64, main_v65, main_c_27, main_v66, main_v67, main_v68, main_c_28, main_v69, main_v70, main_c_29, main_v71, main_v72, main_c_30, main_v73, main_v74, main_v75]
theorem maskRow1_writes : (maskRow1 : List (HloOp τ sig (Elt F))).Forall fun op => op.writes ⊆ (maskRow1_W.map (Proc.devRef (τ := τ) .tc)).toFinset :=
  writes_of _ _ rfl

abbrev maskRow2 : List (HloOp τ sig (Elt F)) := (maskAll.drop 78).take 39
abbrev maskRow2_W : List (Ref sig .tc) :=
  [main_c_31, main_v76, main_v77, main_c_32, main_v78, main_v79, main_c_33, main_v80, main_v81, main_c_34, main_v82, main_v83, main_c_35, main_v84, main_v85, main_c_36, main_v86, main_v87, main_v88, main_c_37, main_v89, main_v90, main_c_38, main_v91, main_v92, main_c_39, main_v93, main_v94, main_v95, main_c_40, main_v96, main_v97, main_c_41, main_v98, main_v99, main_c_42, main_v100, main_v101, main_v102]
theorem maskRow2_writes : (maskRow2 : List (HloOp τ sig (Elt F))).Forall fun op => op.writes ⊆ (maskRow2_W.map (Proc.devRef (τ := τ) .tc)).toFinset :=
  writes_of _ _ rfl

abbrev maskRow3 : List (HloOp τ sig (Elt F)) := (maskAll.drop 117).take 39
abbrev maskRow3_W : List (Ref sig .tc) :=
  [main_c_43, main_v103, main_v104, main_c_44, main_v105, main_v106, main_c_45, main_v107, main_v108, main_c_46, main_v109, main_v110, main_c_47, main_v111, main_v112, main_c_48, main_v113, main_v114, main_v115, main_c_49, main_v116, main_v117, main_c_50, main_v118, main_v119, main_c_51, main_v120, main_v121, main_v122, main_c_52, main_v123, main_v124, main_c_53, main_v125, main_v126, main_c_54, main_v127, main_v128, main_v129]
theorem maskRow3_writes : (maskRow3 : List (HloOp τ sig (Elt F))).Forall fun op => op.writes ⊆ (maskRow3_W.map (Proc.devRef (τ := τ) .tc)).toFinset :=
  writes_of _ _ rfl

abbrev maskRow4 : List (HloOp τ sig (Elt F)) := (maskAll.drop 156).take 39
abbrev maskRow4_W : List (Ref sig .tc) :=
  [main_c_55, main_v130, main_v131, main_c_56, main_v132, main_v133, main_c_57, main_v134, main_v135, main_c_58, main_v136, main_v137, main_c_59, main_v138, main_v139, main_c_60, main_v140, main_v141, main_v142, main_c_61, main_v143, main_v144, main_c_62, main_v145, main_v146, main_c_63, main_v147, main_v148, main_v149, main_c_64, main_v150, main_v151, main_c_65, main_v152, main_v153, main_c_66, main_v154, main_v155, main_v156]
theorem maskRow4_writes : (maskRow4 : List (HloOp τ sig (Elt F))).Forall fun op => op.writes ⊆ (maskRow4_W.map (Proc.devRef (τ := τ) .tc)).toFinset :=
  writes_of _ _ rfl

abbrev maskRow5 : List (HloOp τ sig (Elt F)) := (maskAll.drop 195).take 39
abbrev maskRow5_W : List (Ref sig .tc) :=
  [main_c_67, main_v157, main_v158, main_c_68, main_v159, main_v160, main_c_69, main_v161, main_v162, main_c_70, main_v163, main_v164, main_c_71, main_v165, main_v166, main_c_72, main_v167, main_v168, main_v169, main_c_73, main_v170, main_v171, main_c_74, main_v172, main_v173, main_c_75, main_v174, main_v175, main_v176, main_c_76, main_v177, main_v178, main_c_77, main_v179, main_v180, main_c_78, main_v181, main_v182, main_v183]
theorem maskRow5_writes : (maskRow5 : List (HloOp τ sig (Elt F))).Forall fun op => op.writes ⊆ (maskRow5_W.map (Proc.devRef (τ := τ) .tc)).toFinset :=
  writes_of _ _ rfl

abbrev maskRow6 : List (HloOp τ sig (Elt F)) := (maskAll.drop 234).take 39
abbrev maskRow6_W : List (Ref sig .tc) :=
  [main_c_79, main_v184, main_v185, main_c_80, main_v186, main_v187, main_c_81, main_v188, main_v189, main_c_82, main_v190, main_v191, main_c_83, main_v192, main_v193, main_c_84, main_v194, main_v195, main_v196, main_c_85, main_v197, main_v198, main_c_86, main_v199, main_v200, main_c_87, main_v201, main_v202, main_v203, main_c_88, main_v204, main_v205, main_c_89, main_v206, main_v207, main_c_90, main_v208, main_v209, main_v210]
theorem maskRow6_writes : (maskRow6 : List (HloOp τ sig (Elt F))).Forall fun op => op.writes ⊆ (maskRow6_W.map (Proc.devRef (τ := τ) .tc)).toFinset :=
  writes_of _ _ rfl

abbrev maskRow7 : List (HloOp τ sig (Elt F)) := (maskAll.drop 273).take 39
abbrev maskRow7_W : List (Ref sig .tc) :=
  [main_c_91, main_v211, main_v212, main_c_92, main_v213, main_v214, main_c_93, main_v215, main_v216, main_c_94, main_v217, main_v218, main_c_95, main_v219, main_v220, main_c_96, main_v221, main_v222, main_v223, main_c_97, main_v224, main_v225, main_c_98, main_v226, main_v227, main_c_99, main_v228, main_v229, main_v230, main_c_100, main_v231, main_v232, main_c_101, main_v233, main_v234, main_c_102, main_v235, main_v236, main_v237]
theorem maskRow7_writes : (maskRow7 : List (HloOp τ sig (Elt F))).Forall fun op => op.writes ⊆ (maskRow7_W.map (Proc.devRef (τ := τ) .tc)).toFinset :=
  writes_of _ _ rfl

abbrev maskRow8 : List (HloOp τ sig (Elt F)) := (maskAll.drop 312).take 39
abbrev maskRow8_W : List (Ref sig .tc) :=
  [main_c_103, main_v238, main_v239, main_c_104, main_v240, main_v241, main_c_105, main_v242, main_v243, main_c_106, main_v244, main_v245, main_c_107, main_v246, main_v247, main_c_108, main_v248, main_v249, main_v250, main_c_109, main_v251, main_v252, main_c_110, main_v253, main_v254, main_c_111, main_v255, main_v256, main_v257, main_c_112, main_v258, main_v259, main_c_113, main_v260, main_v261, main_c_114, main_v262, main_v263, main_v264]
theorem maskRow8_writes : (maskRow8 : List (HloOp τ sig (Elt F))).Forall fun op => op.writes ⊆ (maskRow8_W.map (Proc.devRef (τ := τ) .tc)).toFinset :=
  writes_of _ _ rfl

abbrev maskTailA : List (HloOp τ sig (Elt F)) := (maskAll.drop 351).take 11
abbrev maskTailA_W : List (Ref sig .tc) :=
  [main_v265, main_v266, main_v267, main_v268, main_v269, main_v270, main_v271, main_v272, main_v273, main_v274, main_v275]
theorem maskTailA_writes : (maskTailA : List (HloOp τ sig (Elt F))).Forall fun op => op.writes ⊆ (maskTailA_W.map (Proc.devRef (τ := τ) .tc)).toFinset :=
  writes_of _ _ rfl

abbrev maskTailB : List (HloOp τ sig (Elt F)) := maskAll.drop 362
abbrev maskTailB_W : List (Ref sig .tc) :=
  [main_v276, main_c_115, main_v277, main_v278, main_c_116, main_v279, main_v280, main_v281, main_v282, main_v283, main_v284, main_v285, main_v286, main_v287, main_v288, main_v289, main_v290, main_v291, main_v292, main_v293]
theorem maskTailB_writes : (maskTailB : List (HloOp τ sig (Elt F))).Forall fun op => op.writes ⊆ (maskTailB_W.map (Proc.devRef (τ := τ) .tc)).toFinset :=
  writes_of _ _ rfl

theorem mask_split : (main_part0_ops10 ++ (main_part1_ops0 ++ (main_part2_ops0 ++ (main_part3_ops0 ++ (main_part4_ops0 ++ (main_part5_ops0 ++ (main_part6_ops0)))))) : List (HloOp τ sig (Elt F)))
    = maskRow0 ++ (maskRow1 ++ (maskRow2 ++ (maskRow3 ++ (maskRow4 ++ (maskRow5 ++ (maskRow6 ++ (maskRow7 ++ (maskRow8 ++ (maskTailA ++ (maskTailB)))))))))) := rfl

-- Writes a piece out as the list of its operations.
macro "mask_ops" : tactic => `(tactic| simp only [maskRow0, maskRow1, maskRow2, maskRow3, maskRow4, maskRow5, maskRow6, maskRow7, maskRow8, maskTailA, maskAll,
  main_part0_ops10, main_part1_ops0, main_part2_ops0, main_part3_ops0, main_part4_ops0, main_part5_ops0, main_part6_ops0,
  List.cons_append, List.nil_append, List.drop_succ_cons, List.take_succ_cons, List.take_zero, List.drop_zero])

end Cert.KernelIdeal.Host

end
-- ==== Proof.KernelIdealHostMaskRows.lean ====
import proofs.«157750_g2000200144022539_pallasbulk_675_13_alg».proof.Proof.KernelIdealHostMaskOps

set_option maxRecDepth 16384

noncomputable section

namespace Cert.KernelIdeal.Host

open Idealize.ShloMosaic Idealize.ShloMosaic.TcCoe
open Cert.KernelIdeal Cert.KernelIdeal.Gen

variable {F : FTy → Type} [FloatOps F]

abbrev laneConst (c : BitVec 32) : IVec S4608 32 := broadcastInDim S4608 ![] bcast_S_S4608 (constantI S_ 32 c)

-- The tap `(kh, kw)`'s border mask from the coordinate rows: `0 ≤ H + kh - 1 < 16` and `0 ≤ Wd + kw - 1 < 16`, read signed.
def tapRow (H Wd : IVec S4608 32) (kh kw : BitVec 32) : IVec S4608 1 :=
  andi (andi (andi (cmpi .sge (subi (addi H (laneConst kh)) (laneConst 1#32)) (laneConst 0#32))
        (cmpi .slt (subi (addi H (laneConst kh)) (laneConst 1#32)) (laneConst 16#32)))
      (cmpi .sge (subi (addi Wd (laneConst kw)) (laneConst 1#32)) (laneConst 0#32)))
    (cmpi .slt (subi (addi Wd (laneConst kw)) (laneConst 1#32)) (laneConst 16#32))

variable (W : Valuation τ sig (Elt F))

theorem maskRow0_read : (StableHlo.after maskRow0 W main_v48 : IVec S4608 1)
    = tapRow (W main_v21) (W main_v20) 0#32 0#32 := by
  mask_ops
  after_results_simp
  rfl

theorem maskRow1_read : (StableHlo.after maskRow1 W main_v75 : IVec S4608 1)
    = tapRow (W main_v21) (W main_v20) 0#32 1#32 := by
  mask_ops
  after_results_simp
  rfl

theorem maskRow2_read : (StableHlo.after maskRow2 W main_v102 : IVec S4608 1)
    = tapRow (W main_v21) (W main_v20) 0#32 2#32 := by
  mask_ops
  after_results_simp
  rfl

theorem maskRow3_read : (StableHlo.after maskRow3 W main_v129 : IVec S4608 1)
    = tapRow (W main_v21) (W main_v20) 1#32 0#32 := by
  mask_ops
  after_results_simp
  rfl

theorem maskRow4_read : (StableHlo.after maskRow4 W main_v156 : IVec S4608 1)
    = tapRow (W main_v21) (W main_v20) 1#32 1#32 := by
  mask_ops
  after_results_simp
  rfl

theorem maskRow5_read : (StableHlo.after maskRow5 W main_v183 : IVec S4608 1)
    = tapRow (W main_v21) (W main_v20) 1#32 2#32 := by
  mask_ops
  after_results_simp
  rfl

theorem maskRow6_read : (StableHlo.after maskRow6 W main_v210 : IVec S4608 1)
    = tapRow (W main_v21) (W main_v20) 2#32 0#32 := by
  mask_ops
  after_results_simp
  rfl

theorem maskRow7_read : (StableHlo.after maskRow7 W main_v237 : IVec S4608 1)
    = tapRow (W main_v21) (W main_v20) 2#32 1#32 := by
  mask_ops
  after_results_simp
  rfl

theorem maskRow8_read : (StableHlo.after maskRow8 W main_v264 : IVec S4608 1)
    = tapRow (W main_v21) (W main_v20) 2#32 2#32 := by
  mask_ops
  after_results_simp
  rfl

end Cert.KernelIdeal.Host

end
-- ==== Proof.KernelIdealHostMask.lean ====
import proofs.«157750_g2000200144022539_pallasbulk_675_13_alg».proof.Proof.KernelIdealHostIdx
import proofs.«157750_g2000200144022539_pallasbulk_675_13_alg».proof.Proof.KernelIdealHostMaskRows

set_option maxRecDepth 16384

noncomputable section

namespace Cert.KernelIdeal.Host

open Idealize.ShloMosaic Idealize.ShloMosaic.TcCoe
open Cert.KernelIdeal Cert.KernelIdeal.Gen

open Idealize.ShloMosaic.ValueIdx Idealize.ShloMosaic.StableHlo.Predicate

section Chain
variable {F : FTy → Type} [FloatOps F] (V₀ : Valuation τ sig (Elt F))

abbrev R0 : Valuation τ sig (Elt F) := V10 V₀
abbrev R1 : Valuation τ sig (Elt F) := StableHlo.after maskRow0 (R0 V₀)
abbrev R2 : Valuation τ sig (Elt F) := StableHlo.after maskRow1 (R1 V₀)
abbrev R3 : Valuation τ sig (Elt F) := StableHlo.after maskRow2 (R2 V₀)
abbrev R4 : Valuation τ sig (Elt F) := StableHlo.after maskRow3 (R3 V₀)
abbrev R5 : Valuation τ sig (Elt F) := StableHlo.after maskRow4 (R4 V₀)
abbrev R6 : Valuation τ sig (Elt F) := StableHlo.after maskRow5 (R5 V₀)
abbrev R7 : Valuation τ sig (Elt F) := StableHlo.after maskRow6 (R6 V₀)
abbrev R8 : Valuation τ sig (Elt F) := StableHlo.after maskRow7 (R7 V₀)
abbrev R9 : Valuation τ sig (Elt F) := StableHlo.after maskRow8 (R8 V₀)

theorem V17_rows : V17 V₀ = StableHlo.after maskTailB (StableHlo.after maskTailA (R9 V₀)) := by
  dsimp only [V17, V16, V15, V14, V13, V12, V11, R9, R8, R7, R6, R5, R4, R3, R2, R1, R0]
  generalize V10 V₀ = X
  rw [← after_append, ← after_append, ← after_append, ← after_append, ← after_append, ← after_append, mask_split,
    after_append, after_append, after_append, after_append, after_append, after_append, after_append, after_append, after_append, after_append]

theorem R1_v21 : R1 V₀ main_v21 = V10 V₀ main_v21 :=
  StableHlo.after_of_writes_sub maskRow0 _ maskRow0_writes (by decide)
theorem R2_v21 : R2 V₀ main_v21 = V10 V₀ main_v21 :=
  (StableHlo.after_of_writes_sub maskRow1 _ maskRow1_writes (by decide)).trans (R1_v21 V₀)
theorem R3_v21 : R3 V₀ main_v21 = V10 V₀ main_v21 :=
  (StableHlo.after_of_writes_sub maskRow2 _ maskRow2_writes (by decide)).trans (R2_v21 V₀)
theorem R4_v21 : R4 V₀ main_v21 = V10 V₀ main_v21 :=
  (StableHlo.after_of_writes_sub maskRow3 _ maskRow3_writes (by decide)).trans (R3_v21 V₀)
theorem R5_v21 : R5 V₀ main_v21 = V10 V₀ main_v21 :=
  (StableHlo.after_of_writes_sub maskRow4 _ maskRow4_writes (by decide)).trans (R4_v21 V₀)
theorem R6_v21 : R6 V₀ main_v21 = V10 V₀ main_v21 :=
  (StableHlo.after_of_writes_sub maskRow5 _ maskRow5_writes (by decide)).trans (R5_v21 V₀)
theorem R7_v21 : R7 V₀ main_v21 = V10 V₀ main_v21 :=
  (StableHlo.after_of_writes_sub maskRow6 _ maskRow6_writes (by decide)).trans (R6_v21 V₀)
theorem R8_v21 : R8 V₀ main_v21 = V10 V₀ main_v21 :=
  (StableHlo.after_of_writes_sub maskRow7 _ maskRow7_writes (by decide)).trans (R7_v21 V₀)
theorem R1_v20 : R1 V₀ main_v20 = V10 V₀ main_v20 :=
  StableHlo.after_of_writes_sub maskRow0 _ maskRow0_writes (by decide)
theorem R2_v20 : R2 V₀ main_v20 = V10 V₀ main_v20 :=
  (StableHlo.after_of_writes_sub maskRow1 _ maskRow1_writes (by decide)).trans (R1_v20 V₀)
theorem R3_v20 : R3 V₀ main_v20 = V10 V₀ main_v20 :=
  (StableHlo.after_of_writes_sub maskRow2 _ maskRow2_writes (by decide)).trans (R2_v20 V₀)
theorem R4_v20 : R4 V₀ main_v20 = V10 V₀ main_v20 :=
  (StableHlo.after_of_writes_sub maskRow3 _ maskRow3_writes (by decide)).trans (R3_v20 V₀)
theorem R5_v20 : R5 V₀ main_v20 = V10 V₀ main_v20 :=
  (StableHlo.after_of_writes_sub maskRow4 _ maskRow4_writes (by decide)).trans (R4_v20 V₀)
theorem R6_v20 : R6 V₀ main_v20 = V10 V₀ main_v20 :=
  (StableHlo.after_of_writes_sub maskRow5 _ maskRow5_writes (by decide)).trans (R5_v20 V₀)
theorem R7_v20 : R7 V₀ main_v20 = V10 V₀ main_v20 :=
  (StableHlo.after_of_writes_sub maskRow6 _ maskRow6_writes (by decide)).trans (R6_v20 V₀)
theorem R8_v20 : R8 V₀ main_v20 = V10 V₀ main_v20 :=
  (StableHlo.after_of_writes_sub maskRow7 _ maskRow7_writes (by decide)).trans (R7_v20 V₀)

theorem R9_main_v48 : (R9 V₀ main_v48 : IVec S4608 1) = tapRow (V10 V₀ main_v21) (V10 V₀ main_v20) 0#32 0#32 := by
  have c : R9 V₀ main_v48 = R1 V₀ main_v48 :=
    (StableHlo.after_of_writes_sub maskRow8 _ maskRow8_writes (by decide)).trans <|
    (StableHlo.after_of_writes_sub maskRow7 _ maskRow7_writes (by decide)).trans <|
    (StableHlo.after_of_writes_sub maskRow6 _ maskRow6_writes (by decide)).trans <|
    (StableHlo.after_of_writes_sub maskRow5 _ maskRow5_writes (by decide)).trans <|
    (StableHlo.after_of_writes_sub maskRow4 _ maskRow4_writes (by decide)).trans <|
    (StableHlo.after_of_writes_sub maskRow3 _ maskRow3_writes (by decide)).trans <|
    (StableHlo.after_of_writes_sub maskRow2 _ maskRow2_writes (by decide)).trans <|
    (StableHlo.after_of_writes_sub maskRow1 _ maskRow1_writes (by decide))
  rw [c]
  have r := maskRow0_read (R0 V₀)
  exact r

theorem R9_main_v75 : (R9 V₀ main_v75 : IVec S4608 1) = tapRow (V10 V₀ main_v21) (V10 V₀ main_v20) 0#32 1#32 := by
  have c : R9 V₀ main_v75 = R2 V₀ main_v75 :=
    (StableHlo.after_of_writes_sub maskRow8 _ maskRow8_writes (by decide)).trans <|
    (StableHlo.after_of_writes_sub maskRow7 _ maskRow7_writes (by decide)).trans <|
    (StableHlo.after_of_writes_sub maskRow6 _ maskRow6_writes (by decide)).trans <|
    (StableHlo.after_of_writes_sub maskRow5 _ maskRow5_writes (by decide)).trans <|
    (StableHlo.after_of_writes_sub maskRow4 _ maskRow4_writes (by decide)).trans <|
    (StableHlo.after_of_writes_sub maskRow3 _ maskRow3_writes (by decide)).trans <|
    (StableHlo.after_of_writes_sub maskRow2 _ maskRow2_writes (by decide))
  rw [c]
  have r := maskRow1_read (R1 V₀)
  rw [R1_v21, R1_v20] at r
  exact r

theorem R9_main_v102 : (R9 V₀ main_v102 : IVec S4608 1) = tapRow (V10 V₀ main_v21) (V10 V₀ main_v20) 0#32 2#32 := by
  have c : R9 V₀ main_v102 = R3 V₀ main_v102 :=
    (StableHlo.after_of_writes_sub maskRow8 _ maskRow8_writes (by decide)).trans <|
    (StableHlo.after_of_writes_sub maskRow7 _ maskRow7_writes (by decide)).trans <|
    (StableHlo.after_of_writes_sub maskRow6 _ maskRow6_writes (by decide)).trans <|
    (StableHlo.after_of_writes_sub maskRow5 _ maskRow5_writes (by decide)).trans <|
    (StableHlo.after_of_writes_sub maskRow4 _ maskRow4_writes (by decide)).trans <|
    (StableHlo.after_of_writes_sub maskRow3 _ maskRow3_writes (by decide))
  rw [c]
  have r := maskRow2_read (R2 V₀)
  rw [R2_v21, R2_v20] at r
  exact r

theorem R9_main_v129 : (R9 V₀ main_v129 : IVec S4608 1) = tapRow (V10 V₀ main_v21) (V10 V₀ main_v20) 1#32 0#32 := by
  have c : R9 V₀ main_v129 = R4 V₀ main_v129 :=
    (StableHlo.after_of_writes_sub maskRow8 _ maskRow8_writes (by decide)).trans <|
    (StableHlo.after_of_writes_sub maskRow7 _ maskRow7_writes (by decide)).trans <|
    (StableHlo.after_of_writes_sub maskRow6 _ maskRow6_writes (by decide)).trans <|
    (StableHlo.after_of_writes_sub maskRow5 _ maskRow5_writes (by decide)).trans <|
    (StableHlo.after_of_writes_sub maskRow4 _ maskRow4_writes (by decide))
  rw [c]
  have r := maskRow3_read (R3 V₀)
  rw [R3_v21, R3_v20] at r
  exact r

theorem R9_main_v156 : (R9 V₀ main_v156 : IVec S4608 1) = tapRow (V10 V₀ main_v21) (V10 V₀ main_v20) 1#32 1#32 := by
  have c : R9 V₀ main_v156 = R5 V₀ main_v156 :=
    (StableHlo.after_of_writes_sub maskRow8 _ maskRow8_writes (by decide)).trans <|
    (StableHlo.after_of_writes_sub maskRow7 _ maskRow7_writes (by decide)).trans <|
    (StableHlo.after_of_writes_sub maskRow6 _ maskRow6_writes (by decide)).trans <|
    (StableHlo.after_of_writes_sub maskRow5 _ maskRow5_writes (by decide))
  rw [c]
  have r := maskRow4_read (R4 V₀)
  rw [R4_v21, R4_v20] at r
  exact r

theorem R9_main_v183 : (R9 V₀ main_v183 : IVec S4608 1) = tapRow (V10 V₀ main_v21) (V10 V₀ main_v20) 1#32 2#32 := by
  have c : R9 V₀ main_v183 = R6 V₀ main_v183 :=
    (StableHlo.after_of_writes_sub maskRow8 _ maskRow8_writes (by decide)).trans <|
    (StableHlo.after_of_writes_sub maskRow7 _ maskRow7_writes (by decide)).trans <|
    (StableHlo.after_of_writes_sub maskRow6 _ maskRow6_writes (by decide))
  rw [c]
  have r := maskRow5_read (R5 V₀)
  rw [R5_v21, R5_v20] at r
  exact r

theorem R9_main_v210 : (R9 V₀ main_v210 : IVec S4608 1) = tapRow (V10 V₀ main_v21) (V10 V₀ main_v20) 2#32 0#32 := by
  have c : R9 V₀ main_v210 = R7 V₀ main_v210 :=
    (StableHlo.after_of_writes_sub maskRow8 _ maskRow8_writes (by decide)).trans <|
    (StableHlo.after_of_writes_sub maskRow7 _ maskRow7_writes (by decide))
  rw [c]
  have r := maskRow6_read (R6 V₀)
  rw [R6_v21, R6_v20] at r
  exact r

theorem R9_main_v237 : (R9 V₀ main_v237 : IVec S4608 1) = tapRow (V10 V₀ main_v21) (V10 V₀ main_v20) 2#32 1#32 := by
  have c : R9 V₀ main_v237 = R8 V₀ main_v237 :=
    (StableHlo.after_of_writes_sub maskRow8 _ maskRow8_writes (by decide))
  rw [c]
  have r := maskRow7_read (R7 V₀)
  rw [R7_v21, R7_v20] at r
  exact r

theorem R9_main_v264 : (R9 V₀ main_v264 : IVec S4608 1) = tapRow (V10 V₀ main_v21) (V10 V₀ main_v20) 2#32 2#32 := by
  have r := maskRow8_read (R8 V₀)
  rw [R8_v21, R8_v20] at r
  exact r

end Chain

theorem bcast_row_apply {α : Type} (x : S4608.Idx → α) (u : Fin 1) (j : Fin 4608) :
    broadcastInDim S1x4608 ![1] bcast_S4608_S1x4608_1 x (ix2 u j) = x (ix1 j) :=
  broadcastInDim_apply _ _ x _ _ fun a => match a with | ⟨0, _⟩ => (if_neg (show ¬ (4608 : ℕ) = 1 by decide)).symm

theorem stack9_apply {α : Type} (u0 u1 u2 u3 u4 u5 u6 u7 u8 : S1x4608.Idx → α)
    (h : Shape.Concatenates [S1x4608, S1x4608, S1x4608, S1x4608, S1x4608, S1x4608, S1x4608, S1x4608, S1x4608] S9x4608 0)
    (t : Fin 9) (j : Fin 4608) :
    concatenate S9x4608 0 [⟨S1x4608, u0⟩, ⟨S1x4608, u1⟩, ⟨S1x4608, u2⟩, ⟨S1x4608, u3⟩, ⟨S1x4608, u4⟩, ⟨S1x4608, u5⟩, ⟨S1x4608, u6⟩, ⟨S1x4608, u7⟩, ⟨S1x4608, u8⟩] h (ix2 t j)
      = (![u0, u1, u2, u3, u4, u5, u6, u7, u8] : Fin 9 → S1x4608.Idx → α) t (ix2 (0 : Fin 1) j) := by
  show concatenate S9x4608 0 (List.ofFn fun n : Fin 9 => (⟨S1x4608, (![u0, u1, u2, u3, u4, u5, u6, u7, u8] : Fin 9 → S1x4608.Idx → α) n⟩ : (s : Shape) × (s.Idx → α))) h (ix2 t j) = _
  exact concatenate_ofFn_unit_apply 0 (![u0, u1, u2, u3, u4, u5, u6, u7, u8] : Fin 9 → S1x4608.Idx → α) h rfl rfl (ix2 t j) t rfl (ix2 (0 : Fin 1) j)
    (fun b hb => match b with | ⟨0, _⟩ => absurd rfl hb | ⟨1, _⟩ => rfl)

theorem nine_cases {α : Type} (a0 a1 a2 a3 a4 a5 a6 a7 a8 : α) (g : ℕ → α)
    (h0 : a0 = g 0) (h1 : a1 = g 1) (h2 : a2 = g 2) (h3 : a3 = g 3) (h4 : a4 = g 4) (h5 : a5 = g 5) (h6 : a6 = g 6) (h7 : a7 = g 7)
    (h8 : a8 = g 8) (t : Fin 9) : (![a0, a1, a2, a3, a4, a5, a6, a7, a8] : Fin 9 → α) t = g t.val := by
  fin_cases t
  · exact h0
  · exact h1
  · exact h2
  · exact h3
  · exact h4
  · exact h5
  · exact h6
  · exact h7
  · exact h8

theorem tailA_v275 (X : Valuation τ sig (Elt Ideal)) :
    (StableHlo.after maskTailA X main_v275 : S9x4608.Idx → EReal)
      = uitofp (F := Ideal) .bf16 (concatenate S9x4608 0
          [⟨S1x4608, broadcastInDim S1x4608 ![1] bcast_S4608_S1x4608_1 (X main_v48 : IVec S4608 1)⟩,
           ⟨S1x4608, broadcastInDim S1x4608 ![1] bcast_S4608_S1x4608_1 (X main_v75 : IVec S4608 1)⟩,
           ⟨S1x4608, broadcastInDim S1x4608 ![1] bcast_S4608_S1x4608_1 (X main_v102 : IVec S4608 1)⟩,
           ⟨S1x4608, broadcastInDim S1x4608 ![1] bcast_S4608_S1x4608_1 (X main_v129 : IVec S4608 1)⟩,
           ⟨S1x4608, broadcastInDim S1x4608 ![1] bcast_S4608_S1x4608_1 (X main_v156 : IVec S4608 1)⟩,
           ⟨S1x4608, broadcastInDim S1x4608 ![1] bcast_S4608_S1x4608_1 (X main_v183 : IVec S4608 1)⟩,
           ⟨S1x4608, broadcastInDim S1x4608 ![1] bcast_S4608_S1x4608_1 (X main_v210 : IVec S4608 1)⟩,
           ⟨S1x4608, broadcastInDim S1x4608 ![1] bcast_S4608_S1x4608_1 (X main_v237 : IVec S4608 1)⟩,
           ⟨S1x4608, broadcastInDim S1x4608 ![1] bcast_S4608_S1x4608_1 (X main_v264 : IVec S4608 1)⟩]
          concatenates_S1x4608_S1x4608_S1x4608_S1x4608_S1x4608_S1x4608_S1x4608_S1x4608_S1x4608_S9x4608_d0) := by
  mask_ops
  simp only [StableHlo.after_cons, StableHlo.after_nil]
  generalize hY : (StableHlo.unary (τ := τ) (Val := Elt Ideal) main_v264 main_v273 _ _ _).result _ = Y
  have h0 : Y (Proc.devRef .tc main_v265) = broadcastInDim S1x4608 ![1] bcast_S4608_S1x4608_1 (X main_v48 : IVec S4608 1) := by rw [← hY]; after_results_simp
  have h1 : Y (Proc.devRef .tc main_v266) = broadcastInDim S1x4608 ![1] bcast_S4608_S1x4608_1 (X main_v75 : IVec S4608 1) := by rw [← hY]; after_results_simp
  have h2 : Y (Proc.devRef .tc main_v267) = broadcastInDim S1x4608 ![1] bcast_S4608_S1x4608_1 (X main_v102 : IVec S4608 1) := by rw [← hY]; after_results_simp
  have h3 : Y (Proc.devRef .tc main_v268) = broadcastInDim S1x4608 ![1] bcast_S4608_S1x4608_1 (X main_v129 : IVec S4608 1) := by rw [← hY]; after_results_simp
  have h4 : Y (Proc.devRef .tc main_v269) = broadcastInDim S1x4608 ![1] bcast_S4608_S1x4608_1 (X main_v156 : IVec S4608 1) := by rw [← hY]; after_results_simp
  have h5 : Y (Proc.devRef .tc main_v270) = broadcastInDim S1x4608 ![1] bcast_S4608_S1x4608_1 (X main_v183 : IVec S4608 1) := by rw [← hY]; after_results_simp
  have h6 : Y (Proc.devRef .tc main_v271) = broadcastInDim S1x4608 ![1] bcast_S4608_S1x4608_1 (X main_v210 : IVec S4608 1) := by rw [← hY]; after_results_simp
  have h7 : Y (Proc.devRef .tc main_v272) = broadcastInDim S1x4608 ![1] bcast_S4608_S1x4608_1 (X main_v237 : IVec S4608 1) := by rw [← hY]; after_results_simp
  have h8 : Y (Proc.devRef .tc main_v273) = broadcastInDim S1x4608 ![1] bcast_S4608_S1x4608_1 (X main_v264 : IVec S4608 1) := by rw [← hY]; after_results_simp
  rw [StableHlo.unary_result, StableHlo.nary_result]
  simp only [Matrix.cons_val]
  rw [h0, h1, h2, h3, h4, h5, h6, h7, h8]

theorem tailA_read (X : Valuation τ sig (Elt Ideal)) (t : Fin 9) (j : Fin 4608) :
    (StableHlo.after maskTailA X main_v275 : S9x4608.Idx → EReal) (ix2 t j)
      = ((((![(X main_v48 : IVec S4608 1), X main_v75, X main_v102, X main_v129, X main_v156, X main_v183, X main_v210, X main_v237, X main_v264] : Fin 9 → IVec S4608 1) t (ix1 j)).toNat : ℝ) : EReal) := by
  rw [tailA_v275]
  show ((((concatenate S9x4608 0 _ _ (ix2 t j) : BitVec 1)).toNat : ℝ) : EReal) = _
  rw [stack9_apply]
  fin_cases t <;> exact congrArg (fun b : BitVec 1 => ((b.toNat : ℝ) : EReal)) (bcast_row_apply _ _ _)

theorem shift_toNat (a k : ℕ) (ha : a < 16) (hk : k < 3) :
    (IntOp.subi (IntOp.addi (BitVec.ofNat 32 a) (BitVec.ofNat 32 k)) 1#32).toNat = (a + k + (2 ^ 32 - 1)) % 2 ^ 32 := by
  show ((BitVec.ofNat 32 a + BitVec.ofNat 32 k) - 1#32).toNat = _
  rw [BitVec.toNat_sub, BitVec.toNat_add]
  simp only [BitVec.toNat_ofNat]
  omega

theorem shift_bits (a k : ℕ) (ha : a < 16) (hk : k < 3) :
    IntOp.andi (IntOp.cmpi .sge (IntOp.subi (IntOp.addi (BitVec.ofNat 32 a) (BitVec.ofNat 32 k)) 1#32) 0#32)
        (IntOp.cmpi .slt (IntOp.subi (IntOp.addi (BitVec.ofNat 32 a) (BitVec.ofNat 32 k)) 1#32) 16#32)
      = BitVec.ofBool (decide (1 ≤ a + k ∧ a + k < 17)) := by
  have h16 : (16 : ℕ) < 2 ^ 31 := by norm_num
  rw [sge_zero_bit, slt_small_bit _ 16 h16, shift_toNat a k ha hk, andi_ofBool, ← Bool.decide_and]
  refine congrArg BitVec.ofBool (decide_eq_decide.mpr ⟨?_, ?_⟩)
  · rintro ⟨h1, h2⟩; omega
  · rintro ⟨h1, h2⟩; omega

theorem andi_assoc (a b c : BitVec 1) : IntOp.andi (IntOp.andi a b) c = IntOp.andi a (IntOp.andi b c) := BitVec.and_assoc a b c

theorem tap_bit (h w kh kw : ℕ) (hh : h < 16) (hw : w < 16) (hkh : kh < 3) (hkw : kw < 3) :
    IntOp.andi (IntOp.andi (IntOp.andi
        (IntOp.cmpi .sge (IntOp.subi (IntOp.addi (BitVec.ofNat 32 h) (BitVec.ofNat 32 kh)) 1#32) 0#32)
        (IntOp.cmpi .slt (IntOp.subi (IntOp.addi (BitVec.ofNat 32 h) (BitVec.ofNat 32 kh)) 1#32) 16#32))
        (IntOp.cmpi .sge (IntOp.subi (IntOp.addi (BitVec.ofNat 32 w) (BitVec.ofNat 32 kw)) 1#32) 0#32))
        (IntOp.cmpi .slt (IntOp.subi (IntOp.addi (BitVec.ofNat 32 w) (BitVec.ofNat 32 kw)) 1#32) 16#32)
      = BitVec.ofBool (decide (1 ≤ h + kh ∧ h + kh < 17 ∧ 1 ≤ w + kw ∧ w + kw < 17)) := by
  rw [andi_assoc, shift_bits h kh hh hkh, shift_bits w kw hw hkw, andi_ofBool, ← Bool.decide_and]
  refine congrArg BitVec.ofBool (decide_eq_decide.mpr ⟨?_, ?_⟩)
  · rintro ⟨⟨h1, h2⟩, h3, h4⟩; exact ⟨h1, h2, h3, h4⟩
  · rintro ⟨h1, h2, h3, h4⟩; exact ⟨⟨h1, h2⟩, h3, h4⟩

theorem tapRow_lane (V₀ : Valuation τ sig (Elt Ideal)) (kh kw : ℕ) (hkh : kh < 3) (hkw : kw < 3) (j : Fin 4608) :
    tapRow (V10 V₀ main_v21) (V10 V₀ main_v20) (BitVec.ofNat 32 kh) (BitVec.ofNat 32 kw) (ix1 j)
      = BitVec.ofBool (decide (1 ≤ j.val % 256 / 16 + kh ∧ j.val % 256 / 16 + kh < 17 ∧ 1 ≤ j.val % 16 + kw ∧ j.val % 16 + kw < 17)) := by
  show IntOp.andi (IntOp.andi (IntOp.andi
        (IntOp.cmpi .sge (IntOp.subi (IntOp.addi ((V10 V₀ main_v21 : S4608.Idx → BitVec 32) (ix1 j)) (BitVec.ofNat 32 kh)) 1#32) 0#32)
        (IntOp.cmpi .slt (IntOp.subi (IntOp.addi ((V10 V₀ main_v21 : S4608.Idx → BitVec 32) (ix1 j)) (BitVec.ofNat 32 kh)) 1#32) 16#32))
        (IntOp.cmpi .sge (IntOp.subi (IntOp.addi ((V10 V₀ main_v20 : S4608.Idx → BitVec 32) (ix1 j)) (BitVec.ofNat 32 kw)) 1#32) 0#32))
        (IntOp.cmpi .slt (IntOp.subi (IntOp.addi ((V10 V₀ main_v20 : S4608.Idx → BitVec 32) (ix1 j)) (BitVec.ofNat 32 kw)) 1#32) 16#32) = _
  have hj := j.isLt
  rw [v21_lane, v20_lane, tap_bit _ _ kh kw (by omega) (by omega) hkh hkw]

theorem mask_apply (V₀ : Valuation τ sig (Elt Ideal)) (i : S9x4608.Idx) :
    (V17 V₀ main_v275 : S9x4608.Idx → EReal) i
      = if 1 ≤ (i 1).val % 256 / 16 + (i 0).val / 3 ∧ (i 1).val % 256 / 16 + (i 0).val / 3 < 17
            ∧ 1 ≤ (i 1).val % 16 + (i 0).val % 3 ∧ (i 1).val % 16 + (i 0).val % 3 < 17 then (1 : EReal) else 0 := by
  obtain ⟨t, j, rfl⟩ : ∃ (t : Fin 9) (j : Fin 4608), i = ix2 t j := ⟨i 0, i 1, eq_ix2 i⟩
  show (V17 V₀ main_v275 : S9x4608.Idx → EReal) (ix2 t j)
      = if 1 ≤ j.val % 256 / 16 + t.val / 3 ∧ j.val % 256 / 16 + t.val / 3 < 17 ∧ 1 ≤ j.val % 16 + t.val % 3 ∧ j.val % 16 + t.val % 3 < 17 then (1 : EReal) else 0
  have e : V17 V₀ main_v275 = StableHlo.after maskTailA (R9 V₀) main_v275 := by
    rw [V17_rows]; exact StableHlo.after_of_writes_sub maskTailB _ maskTailB_writes (by decide)
  have ht := t.isLt
  rw [e, tailA_read (R9 V₀) t j,
    nine_cases _ _ _ _ _ _ _ _ _ (fun n => tapRow (V10 V₀ main_v21) (V10 V₀ main_v20) (BitVec.ofNat 32 (n / 3)) (BitVec.ofNat 32 (n % 3)))
      (R9_main_v48 V₀) (R9_main_v75 V₀) (R9_main_v102 V₀) (R9_main_v129 V₀) (R9_main_v156 V₀) (R9_main_v183 V₀) (R9_main_v210 V₀)
      (R9_main_v237 V₀) (R9_main_v264 V₀) t,
    tapRow_lane V₀ (t.val / 3) (t.val % 3) (by omega) (by omega), toNat_ofBool_ereal]

theorem mask_eq (V₀ : Valuation τ sig (Elt Ideal)) :
    (V17 V₀ main_v275 : S9x4608.Idx → EReal)
      = fun i => if 1 ≤ (i 1).val % 256 / 16 + (i 0).val / 3 ∧ (i 1).val % 256 / 16 + (i 0).val / 3 < 17
            ∧ 1 ≤ (i 1).val % 16 + (i 0).val % 3 ∧ (i 1).val % 16 + (i 0).val % 3 < 17 then (1 : EReal) else 0 :=
  funext (mask_apply V₀)

end Cert.KernelIdeal.Host

end
-- ==== Proof.KernelIdealConsts.lean ====
import Idealize.ShloMosaic.Lib.StableHlo
import Idealize.ShloMosaic.Lib.ValueIdx
import Idealize.ShloMosaic.PureOps.Ideal

noncomputable section

namespace Cert.KernelIdeal.Consts

open Idealize.ShloMosaic Idealize.ShloMosaic.ValueIdx

abbrev S1x4864 : Shape := ⟨2, ![1, 4864]⟩
abbrev S1024x256 : Shape := ⟨2, ![1024, 256]⟩
abbrev S9x4608 : Shape := ⟨2, ![9, 4608]⟩
abbrev S8x32x32x32x32 : Shape := ⟨5, ![8, 32, 32, 32, 32]⟩
abbrev S8x32x32768 : Shape := ⟨3, ![8, 32, 32768]⟩
abbrev S64x32x3x3x3 : Shape := ⟨5, ![64, 32, 3, 3, 3]⟩
abbrev S3x64x288 : Shape := ⟨3, ![3, 64, 288]⟩
abbrev S64x64x3x3x3 : Shape := ⟨5, ![64, 64, 3, 3, 3]⟩
abbrev S3x64x576 : Shape := ⟨3, ![3, 64, 576]⟩

def validC : Vec Ideal S1x4864 .f32 :=
  fun i => if 384 ≤ (i 1).val ∧ (i 1).val < 4480 then (1 : EReal) else 0

def selC : Vec Ideal S1024x256 .bf16 :=
  fun i => if (i 0).val = 64 * ((i 1).val / 16) + 2 * ((i 1).val % 16) then (1 : EReal) else 0

def maskC : Vec Ideal S9x4608 .bf16 :=
  fun i => if 1 ≤ (i 1).val % 256 / 16 + (i 0).val / 3 ∧ (i 1).val % 256 / 16 + (i 0).val / 3 < 17
      ∧ 1 ≤ (i 1).val % 16 + (i 0).val % 3 ∧ (i 1).val % 16 + (i 0).val % 3 < 17 then (1 : EReal) else 0

def x0Of (x : Vec Ideal S8x32x32x32x32 .f32) : Vec Ideal S8x32x32768 .f32 :=
  fun i => x (ix5 (i 0 : Fin 8) (i 1 : Fin 32)
    (⟨(i 2).val / 1024, by have h : (i 2).val < 32768 := (i 2).isLt; omega⟩ : Fin 32)
    (⟨(i 2).val / 32 % 32, Nat.mod_lt _ (by decide)⟩ : Fin 32) (⟨(i 2).val % 32, Nat.mod_lt _ (by decide)⟩ : Fin 32))

def w1fOf (w : Vec Ideal S64x32x3x3x3 .f32) : Vec Ideal S3x64x288 .bf16 :=
  fun i => w (ix5 (i 1 : Fin 64) (⟨(i 2).val % 32, Nat.mod_lt _ (by decide)⟩ : Fin 32) (i 0 : Fin 3)
    (⟨(i 2).val / 32 / 3, by have h : (i 2).val < 288 := (i 2).isLt; omega⟩ : Fin 3)
    (⟨(i 2).val / 32 % 3, Nat.mod_lt _ (by decide)⟩ : Fin 3))

def w2fOf (w : Vec Ideal S64x64x3x3x3 .f32) : Vec Ideal S3x64x576 .bf16 :=
  fun i => w (ix5 (i 1 : Fin 64) (⟨(i 2).val % 64, Nat.mod_lt _ (by decide)⟩ : Fin 64) (i 0 : Fin 3)
    (⟨(i 2).val / 64 / 3, by have h : (i 2).val < 576 := (i 2).isLt; omega⟩ : Fin 3)
    (⟨(i 2).val / 64 % 3, Nat.mod_lt _ (by decide)⟩ : Fin 3))

end Cert.KernelIdeal.Consts

end
-- ==== Proof.KernelIdealEntry.lean ====
import proofs.«157750_g2000200144022539_pallasbulk_675_13_alg».proof.Proof.KernelIdealLayout
import proofs.«157750_g2000200144022539_pallasbulk_675_13_alg».proof.Proof.KernelIdealHostSel
import proofs.«157750_g2000200144022539_pallasbulk_675_13_alg».proof.Proof.KernelIdealHostMask
import proofs.«157750_g2000200144022539_pallasbulk_675_13_alg».proof.Proof.KernelIdealConsts

set_option maxRecDepth 16384

noncomputable section

namespace Cert.KernelIdeal.Chain

open Idealize.ShloMosaic Idealize.ShloMosaic.TcCoe Idealize.ShloMosaic.ValueIdx
open Cert.KernelIdeal Cert.KernelIdeal.Gen
open Cert.KernelIdeal.Consts (validC selC maskC x0Of w1fOf w2fOf)

variable (V₀ : Valuation τ sig (Elt Ideal))

theorem entry_x0 :
    (Host.L17 V₀ (Proc.devRef .tc main_v0) : S8x32x32768.Idx → Elt Ideal .f32) = x0Of (V₀ (Proc.devRef .tc main_arg0)) := by
  funext i
  obtain ⟨n, ch, l, rfl⟩ : ∃ (n : Fin 8) (ch : Fin 32) (l : Fin 32768), i = ix3 n ch l := ⟨i 0, i 1, i 2, eq_ix3 i⟩
  exact Host.main_v0_apply_div V₀ n ch l

theorem entry_w1f :
    (Host.L17 V₀ (Proc.devRef .tc main_v288) : S3x64x288.Idx → Elt Ideal .bf16) = w1fOf (V₀ (Proc.devRef .tc main_arg1)) := by
  funext i
  obtain ⟨kd, o, r, rfl⟩ : ∃ (kd : Fin 3) (o : Fin 64) (r : Fin 288), i = ix3 kd o r := ⟨i 0, i 1, i 2, eq_ix3 i⟩
  exact Host.main_v288_apply_div V₀ kd o r

theorem entry_w2f :
    (Host.L17 V₀ (Proc.devRef .tc main_v293) : S3x64x576.Idx → Elt Ideal .bf16) = w2fOf (V₀ (Proc.devRef .tc main_arg4)) := by
  funext i
  obtain ⟨kd, o, r, rfl⟩ : ∃ (kd : Fin 3) (o : Fin 64) (r : Fin 576), i = ix3 kd o r := ⟨i 0, i 1, i 2, eq_ix3 i⟩
  exact Host.main_v293_apply_div V₀ kd o r

theorem entry_sel : (Host.L17 V₀ (Proc.devRef .tc main_v15) : S1024x256.Idx → Elt Ideal .bf16) = selC :=
  Host.sel_eq V₀

theorem entry_mask : (Host.L17 V₀ (Proc.devRef .tc main_v275) : S9x4608.Idx → Elt Ideal .bf16) = maskC :=
  Host.mask_eq V₀

theorem entry_valid : (Host.L17 V₀ (Proc.devRef .tc main_v283) : S1x4864.Idx → Elt Ideal .f32) = validC :=
  Host.valid_eq V₀

end Cert.KernelIdeal.Chain

end
-- ==== Proof.KernelIdealChain.lean ====
import proofs.«157750_g2000200144022539_pallasbulk_675_13_alg».proof.Proof.KernelIdealArrays
import proofs.«157750_g2000200144022539_pallasbulk_675_13_alg».proof.Proof.KernelIdealBn
import proofs.«157750_g2000200144022539_pallasbulk_675_13_alg».proof.Proof.KernelIdealEntry

set_option maxRecDepth 16384

noncomputable section

namespace Cert.KernelIdeal.Chain

open Idealize.ShloMosaic Idealize.ShloMosaic.TcCoe Idealize.ShloMosaic.ValueIdx
open Idealize.SL Idealize.SL.Sem
open Cert.KernelIdeal Cert.KernelIdeal.Gen Cert.KernelIdeal.Run
open Cert.BnFold (bnScale bnShift voxelLane)
open Cert.KernelIdeal.Consts (validC selC maskC x0Of w1fOf w2fOf)

variable (O : Outs Ideal)

section Stages
variable (x : Vec Ideal S8x32x32x32x32 .f32) (w1 : Vec Ideal S64x32x3x3x3 .f32) (g1 be1 : Vec Ideal S64 .f32)
  (w2 : Vec Ideal S64x64x3x3x3 .f32) (g2 be2 : Vec Ideal S64 .f32)

def kiY1 : Vec Ideal S8x64x4864 .bf16 := arr0_4 O (x0Of x) selC (w1fOf w1) maskC

def kiS1 : Vec Ideal S8x64x1 .f32 := arr0_5 O (x0Of x) selC (w1fOf w1) maskC

def kiQ1 : Vec Ideal S8x64x1 .f32 := arr0_6 O (x0Of x) selC (w1fOf w1) maskC

def kiSC1 : Vec Ideal S64x1 .f32 := bnScale (kiS1 O x w1) (kiQ1 O x w1) g1

def kiSH1 : Vec Ideal S64x1 .f32 := bnShift (kiS1 O x w1) (kiQ1 O x w1) g1 be1

def kiY2 : Vec Ideal S8x64x4096 .bf16 :=
  arr1_6 O (kiY1 O x w1) (kiSC1 O x w1 g1) (kiSH1 O x w1 g1 be1) validC (w2fOf w2) maskC

def kiS2 : Vec Ideal S8x64x1 .f32 :=
  arr1_7 O (kiY1 O x w1) (kiSC1 O x w1 g1) (kiSH1 O x w1 g1 be1) validC (w2fOf w2) maskC

def kiQ2 : Vec Ideal S8x64x1 .f32 :=
  arr1_8 O (kiY1 O x w1) (kiSC1 O x w1 g1) (kiSH1 O x w1 g1 be1) validC (w2fOf w2) maskC

def kiSC2 : Vec Ideal S64x1 .f32 := bnScale (kiS2 O x w1 g1 be1 w2) (kiQ2 O x w1 g1 be1 w2) g2

def kiSH2 : Vec Ideal S64x1 .f32 := bnShift (kiS2 O x w1 g1 be1 w2) (kiQ2 O x w1 g1 be1 w2) g2 be2

def kiOut : Vec Ideal S8x64x4096 .f32 :=
  arr2_3 O (kiY2 O x w1 g1 be1 w2) (kiSC2 O x w1 g1 be1 w2 g2) (kiSH2 O x w1 g1 be1 w2 g2 be2)

def kiResult : Vec Ideal S8x64x16x16x16 .f32 :=
  fun j => kiOut O x w1 g1 be1 w2 g2 be2 (ix3 (j 0 : Fin 8) (j 1 : Fin 64) (voxelLane (j 2 : Fin 16) (j 3 : Fin 16) (j 4 : Fin 16)))

end Stages

variable (m : (ℓ : Loc nD τ sig) → Buf (Elt Ideal) ℓ) (ρ : Dev nD → PrngReg) (c : Dev nD)

abbrev argRefs : List (Ref sig .tc) := [main_arg0, main_arg1, main_arg2, main_arg3, main_arg4, main_arg5, main_arg6]

theorem arg17 (r : Ref sig .tc) (hr : r ∈ argRefs) : W17 m ρ c (Proc.devRef .tc r) = m ((c : Thread nD τ).loc r) := by
  have hr' := hr
  simp only [argRefs, List.mem_cons, List.mem_nil_iff, List.not_mem_nil, or_false] at hr'
  rcases hr' with rfl | rfl | rfl | rfl | rfl | rfl | rfl
  all_goals exact (Host.L17_unwritten (W0 m ρ c) _ (by decide)).trans rfl

theorem arg18 (r : Ref sig .tc) (hr : r ∈ argRefs) : W18 O m ρ c (Proc.devRef .tc r) = m ((c : Thread nD τ).loc r) := by
  have hr' := hr
  simp only [argRefs, List.mem_cons, List.mem_nil_iff, List.not_mem_nil, or_false] at hr'
  rcases hr' with rfl | rfl | rfl | rfl | rfl | rfl | rfl
  all_goals exact (W18_of_ne O m ρ c _ (by decide)).trans (arg17 m ρ c _ hr)

theorem arg20 (r : Ref sig .tc) (hr : r ∈ argRefs) : W20 O m ρ c (Proc.devRef .tc r) = m ((c : Thread nD τ).loc r) := by
  have hr' := hr
  simp only [argRefs, List.mem_cons, List.mem_nil_iff, List.not_mem_nil, or_false] at hr'
  rcases hr' with rfl | rfl | rfl | rfl | rfl | rfl | rfl
  all_goals exact (Host.A2_keeps (W18 O m ρ c) _ (by decide)).trans (arg18 O m ρ c _ hr)

theorem arg21 (r : Ref sig .tc) (hr : r ∈ argRefs) : W21 O m ρ c (Proc.devRef .tc r) = m ((c : Thread nD τ).loc r) := by
  have hr' := hr
  simp only [argRefs, List.mem_cons, List.mem_nil_iff, List.not_mem_nil, or_false] at hr'
  rcases hr' with rfl | rfl | rfl | rfl | rfl | rfl | rfl
  all_goals exact (W21_of_ne O m ρ c _ (by decide)).trans (arg20 O m ρ c _ hr)

theorem in_x0 : (W17 m ρ c (Proc.devRef .tc main_v0) : S8x32x32768.Idx → Elt Ideal .f32) = x0Of (m ((c : Thread nD τ).loc main_arg0)) :=
  entry_x0 (W0 m ρ c)

theorem in_w1f : (W17 m ρ c (Proc.devRef .tc main_v288) : S3x64x288.Idx → Elt Ideal .bf16) = w1fOf (m ((c : Thread nD τ).loc main_arg1)) :=
  entry_w1f (W0 m ρ c)

theorem in_w2f : (W17 m ρ c (Proc.devRef .tc main_v293) : S3x64x576.Idx → Elt Ideal .bf16) = w2fOf (m ((c : Thread nD τ).loc main_arg4)) :=
  entry_w2f (W0 m ρ c)

theorem in_sel : (W17 m ρ c (Proc.devRef .tc main_v15) : S1024x256.Idx → Elt Ideal .bf16) = selC :=
  entry_sel (W0 m ρ c)

theorem in_valid : (W17 m ρ c (Proc.devRef .tc main_v283) : S1x4864.Idx → Elt Ideal .f32) = validC :=
  entry_valid (W0 m ρ c)

theorem in_mask : (W17 m ρ c (Proc.devRef .tc main_v275) : S9x4608.Idx → Elt Ideal .bf16) = maskC :=
  entry_mask (W0 m ρ c)

theorem W18_in (w : Fin cfg0.W) (hin : (cfg0.win w).isOut = false) :
    W18 O m ρ c (Proc.devRef .tc (Pipeline.arrRef spec0 w)) = W17 m ρ c (Proc.devRef .tc (Pipeline.arrRef spec0 w)) :=
  (W18_arr O m ρ c w).trans (((dat0 O (V17 m ρ) c).arrAt_in w hin _).trans (A_eq0 O (V17 m ρ) c w))

theorem at18_Y1 :
    (W18 O m ρ c (Proc.devRef .tc main_v294_0) : S8x64x4864.Idx → Elt Ideal .bf16) = kiY1 O (m ((c : Thread nD τ).loc main_arg0)) (m ((c : Thread nD τ).loc main_arg1)) := by
  refine ((W18_arr O m ρ c 4).trans (arrAt0_4 O (V17 m ρ) c)).trans ?_
  show arr0_4 O (W17 m ρ c (Proc.devRef .tc main_v0)) (W17 m ρ c (Proc.devRef .tc main_v15)) (W17 m ρ c (Proc.devRef .tc main_v288))
    (W17 m ρ c (Proc.devRef .tc main_v275)) = _
  rw [in_x0, in_sel, in_w1f, in_mask]
  rfl

theorem at18_S1 :
    (W18 O m ρ c (Proc.devRef .tc main_v294_1) : S8x64x1.Idx → Elt Ideal .f32) = kiS1 O (m ((c : Thread nD τ).loc main_arg0)) (m ((c : Thread nD τ).loc main_arg1)) := by
  refine ((W18_arr O m ρ c 5).trans (arrAt0_5 O (V17 m ρ) c)).trans ?_
  show arr0_5 O (W17 m ρ c (Proc.devRef .tc main_v0)) (W17 m ρ c (Proc.devRef .tc main_v15)) (W17 m ρ c (Proc.devRef .tc main_v288))
    (W17 m ρ c (Proc.devRef .tc main_v275)) = _
  rw [in_x0, in_sel, in_w1f, in_mask]
  rfl

theorem at18_Q1 :
    (W18 O m ρ c (Proc.devRef .tc main_v294_2) : S8x64x1.Idx → Elt Ideal .f32) = kiQ1 O (m ((c : Thread nD τ).loc main_arg0)) (m ((c : Thread nD τ).loc main_arg1)) := by
  refine ((W18_arr O m ρ c 6).trans (arrAt0_6 O (V17 m ρ) c)).trans ?_
  show arr0_6 O (W17 m ρ c (Proc.devRef .tc main_v0)) (W17 m ρ c (Proc.devRef .tc main_v15)) (W17 m ρ c (Proc.devRef .tc main_v288))
    (W17 m ρ c (Proc.devRef .tc main_v275)) = _
  rw [in_x0, in_sel, in_w1f, in_mask]
  rfl

theorem at20_Y1 :
    (W20 O m ρ c (Proc.devRef .tc main_v294_0) : S8x64x4864.Idx → Elt Ideal .bf16) = kiY1 O (m ((c : Thread nD τ).loc main_arg0)) (m ((c : Thread nD τ).loc main_arg1)) :=
  (Host.A2_keeps (W18 O m ρ c) main_v294_0 (by decide)).trans (at18_Y1 O m ρ c)

theorem at20_SC1 :
    (W20 O m ρ c (Proc.devRef .tc main_v309) : S64x1.Idx → Elt Ideal .f32) = kiSC1 O (m ((c : Thread nD τ).loc main_arg0)) (m ((c : Thread nD τ).loc main_arg1)) (m ((c : Thread nD τ).loc main_arg2)) := by
  refine (Host.A2_main_v309 (W18 O m ρ c)).trans ?_
  rw [at18_S1 O m ρ c, at18_Q1 O m ρ c, arg18 O m ρ c main_arg2 (by decide)]
  rfl

theorem at20_SH1 :
    (W20 O m ρ c (Proc.devRef .tc main_v312) : S64x1.Idx → Elt Ideal .f32) = kiSH1 O (m ((c : Thread nD τ).loc main_arg0)) (m ((c : Thread nD τ).loc main_arg1)) (m ((c : Thread nD τ).loc main_arg2)) (m ((c : Thread nD τ).loc main_arg3)) := by
  refine (Host.A2_main_v312 (W18 O m ρ c)).trans ?_
  rw [at18_S1 O m ρ c, at18_Q1 O m ρ c, arg18 O m ρ c main_arg2 (by decide), arg18 O m ρ c main_arg3 (by decide)]
  rfl

theorem at20_valid : (W20 O m ρ c (Proc.devRef .tc main_v283) : S1x4864.Idx → Elt Ideal .f32) = validC :=
  (Host.A2_keeps (W18 O m ρ c) main_v283 (by decide)).trans ((W18_of_ne O m ρ c main_v283 (by decide)).trans (in_valid m ρ c))

theorem at20_w2f : (W20 O m ρ c (Proc.devRef .tc main_v293) : S3x64x576.Idx → Elt Ideal .bf16) = w2fOf (m ((c : Thread nD τ).loc main_arg4)) :=
  (Host.A2_keeps (W18 O m ρ c) main_v293 (by decide)).trans ((W18_of_ne O m ρ c main_v293 (by decide)).trans (in_w2f m ρ c))

theorem at20_mask : (W20 O m ρ c (Proc.devRef .tc main_v275) : S9x4608.Idx → Elt Ideal .bf16) = maskC :=
  (Host.A2_keeps (W18 O m ρ c) main_v275 (by decide)).trans ((W18_in O m ρ c 3 rfl).trans (in_mask m ρ c))

theorem at21_Y2 :
    (W21 O m ρ c (Proc.devRef .tc main_v313_0) : S8x64x4096.Idx → Elt Ideal .bf16) = kiY2 O (m ((c : Thread nD τ).loc main_arg0)) (m ((c : Thread nD τ).loc main_arg1)) (m ((c : Thread nD τ).loc main_arg2)) (m ((c : Thread nD τ).loc main_arg3)) (m ((c : Thread nD τ).loc main_arg4)) := by
  refine ((W21_arr O m ρ c 6).trans (arrAt1_6 O (V20 O m ρ) c)).trans ?_
  show arr1_6 O (W20 O m ρ c (Proc.devRef .tc main_v294_0)) (W20 O m ρ c (Proc.devRef .tc main_v309)) (W20 O m ρ c (Proc.devRef .tc main_v312))
    (W20 O m ρ c (Proc.devRef .tc main_v283)) (W20 O m ρ c (Proc.devRef .tc main_v293)) (W20 O m ρ c (Proc.devRef .tc main_v275)) = _
  rw [at20_Y1 O m ρ c, at20_SC1 O m ρ c, at20_SH1 O m ρ c, at20_valid, at20_w2f, at20_mask]
  rfl

theorem at21_S2 :
    (W21 O m ρ c (Proc.devRef .tc main_v313_1) : S8x64x1.Idx → Elt Ideal .f32) = kiS2 O (m ((c : Thread nD τ).loc main_arg0)) (m ((c : Thread nD τ).loc main_arg1)) (m ((c : Thread nD τ).loc main_arg2)) (m ((c : Thread nD τ).loc main_arg3)) (m ((c : Thread nD τ).loc main_arg4)) := by
  refine ((W21_arr O m ρ c 7).trans (arrAt1_7 O (V20 O m ρ) c)).trans ?_
  show arr1_7 O (W20 O m ρ c (Proc.devRef .tc main_v294_0)) (W20 O m ρ c (Proc.devRef .tc main_v309)) (W20 O m ρ c (Proc.devRef .tc main_v312))
    (W20 O m ρ c (Proc.devRef .tc main_v283)) (W20 O m ρ c (Proc.devRef .tc main_v293)) (W20 O m ρ c (Proc.devRef .tc main_v275)) = _
  rw [at20_Y1 O m ρ c, at20_SC1 O m ρ c, at20_SH1 O m ρ c, at20_valid, at20_w2f, at20_mask]
  rfl

theorem at21_Q2 :
    (W21 O m ρ c (Proc.devRef .tc main_v313_2) : S8x64x1.Idx → Elt Ideal .f32) = kiQ2 O (m ((c : Thread nD τ).loc main_arg0)) (m ((c : Thread nD τ).loc main_arg1)) (m ((c : Thread nD τ).loc main_arg2)) (m ((c : Thread nD τ).loc main_arg3)) (m ((c : Thread nD τ).loc main_arg4)) := by
  refine ((W21_arr O m ρ c 8).trans (arrAt1_8 O (V20 O m ρ) c)).trans ?_
  show arr1_8 O (W20 O m ρ c (Proc.devRef .tc main_v294_0)) (W20 O m ρ c (Proc.devRef .tc main_v309)) (W20 O m ρ c (Proc.devRef .tc main_v312))
    (W20 O m ρ c (Proc.devRef .tc main_v283)) (W20 O m ρ c (Proc.devRef .tc main_v293)) (W20 O m ρ c (Proc.devRef .tc main_v275)) = _
  rw [at20_Y1 O m ρ c, at20_SC1 O m ρ c, at20_SH1 O m ρ c, at20_valid, at20_w2f, at20_mask]
  rfl

theorem at22_Y2 :
    (W22 O m ρ c (Proc.devRef .tc main_v313_0) : S8x64x4096.Idx → Elt Ideal .bf16) = kiY2 O (m ((c : Thread nD τ).loc main_arg0)) (m ((c : Thread nD τ).loc main_arg1)) (m ((c : Thread nD τ).loc main_arg2)) (m ((c : Thread nD τ).loc main_arg3)) (m ((c : Thread nD τ).loc main_arg4)) :=
  (Host.B1_keeps (W21 O m ρ c) main_v313_0 (by decide)).trans (at21_Y2 O m ρ c)

theorem at22_SC2 :
    (W22 O m ρ c (Proc.devRef .tc main_v328) : S64x1.Idx → Elt Ideal .f32) = kiSC2 O (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (Host.B1_main_v328 (W21 O m ρ c)).trans ?_
  rw [at21_S2 O m ρ c, at21_Q2 O m ρ c, arg21 O m ρ c main_arg5 (by decide)]
  rfl

theorem at22_SH2 :
    (W22 O m ρ c (Proc.devRef .tc main_v331) : S64x1.Idx → Elt Ideal .f32) = kiSH2 O (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (Host.B1_main_v331 (W21 O m ρ c)).trans ?_
  rw [at21_S2 O m ρ c, at21_Q2 O m ρ c, arg21 O m ρ c main_arg5 (by decide), arg21 O m ρ c main_arg6 (by decide)]
  rfl

theorem at23_out :
    (W23 O m ρ c (Proc.devRef .tc main_v332) : S8x64x4096.Idx → Elt Ideal .f32) = kiOut O (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W23_arr O m ρ c 3).trans (arrAt2_3 O (V22 O m ρ) c)).trans ?_
  show arr2_3 O (W22 O m ρ c (Proc.devRef .tc main_v313_0)) (W22 O m ρ c (Proc.devRef .tc main_v328)) (W22 O m ρ c (Proc.devRef .tc main_v331)) = _
  rw [at22_Y2 O m ρ c, at22_SC2 O m ρ c, at22_SH2 O m ρ c]
  rfl

theorem chain :
    (W24 O m ρ c (Proc.devRef .tc main_v333) : Vec Ideal S8x64x16x16x16 .f32)
      = kiResult O (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext j
  obtain ⟨n, o, d, h, w, rfl⟩ : ∃ (n : Fin 8) (o : Fin 64) (d h w : Fin 16), j = ix5 n o d h w := ⟨j 0, j 1, j 2, j 3, j 4, eq_ix5 j⟩
  refine (Host.C1_main_v333_apply (W23 O m ρ c) n o d h w).trans ?_
  rw [at23_out O m ρ c]
  rfl

end Cert.KernelIdeal.Chain

end
-- ==== Proof.ReferenceIdealIdx.lean ====
import Idealize.ShloMosaic.Lib.ValueLayout

namespace Cert.ReferenceIdeal.Idx

open Idealize.ShloMosaic

abbrev ix7 {n0 n1 n2 n3 n4 n5 n6 : ℕ} (a : Fin n0) (b : Fin n1) (c : Fin n2) (d : Fin n3) (e : Fin n4) (f : Fin n5)
    (g : Fin n6) : (⟨7, ![n0, n1, n2, n3, n4, n5, n6]⟩ : Shape).Idx :=
  fun k => match k with
    | ⟨0, _⟩ => a | ⟨1, _⟩ => b | ⟨2, _⟩ => c | ⟨3, _⟩ => d | ⟨4, _⟩ => e | ⟨5, _⟩ => f | ⟨6, _⟩ => g

theorem rowMajor_val_seven {d : Fin 7 → ℕ} (i : (⟨7, d⟩ : Shape).Idx) :
    ((⟨7, d⟩ : Shape).rowMajor i).val
      = ((((((i 0).val * d 1 + (i 1).val) * d 2 + (i 2).val) * d 3 + (i 3).val) * d 4 + (i 4).val) * d 5
          + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

end Cert.ReferenceIdeal.Idx
-- ==== Proof.ReferenceIdealArraysBase.lean ====
import proofs.«157750_g2000200144022539_pallasbulk_675_13_alg».proof.Proof.ReferenceIdealRun
import proofs.«157750_g2000200144022539_pallasbulk_675_13_alg».proof.Proof.ReferenceIdealIdx
import Idealize.ShloMosaic.Lib.Pipeline.Value
import Idealize.ShloMosaic.Lib.ValueLayout

noncomputable section

namespace Cert.ReferenceIdeal.Run

open Idealize.ShloMosaic
open Cert.ReferenceIdeal
open Idealize.ShloMosaic.ValueIdx Cert.ReferenceIdeal.Idx

variable {F : FTy → Type} [FloatOps F]

def slab {N b c : ℕ} {α : Type} (A : (⟨3, ![N, b, c]⟩ : Shape).Idx → α) (n : Fin N) : (⟨3, ![1, b, c]⟩ : Shape).Idx → α :=
  fun y => A (ix3 n (y 1) (y 2))

def slab0 (A : S256x16x2x16x2x16x2.Idx → Elt F .f32) (n : Fin 256) : Vec F S1x16x2x16x2x16x2 .f32 :=
  fun y => A (ix7 n (y 1) (y 2) (y 3) (y 4) (y 5) (y 6))

theorem ix3_zero_eq {b c : ℕ} (j : (⟨3, ![1, b, c]⟩ : Shape).Idx) : ix3 (0 : Fin 1) (j 1) (j 2) = j := by
  funext a
  match a with
  | ⟨0, _⟩ => exact Fin.ext (by have hj : (j 0).val < 1 := (j 0).isLt; show 0 = (j 0).val; omega)
  | ⟨1, _⟩ => rfl
  | ⟨2, _⟩ => rfl

end Cert.ReferenceIdeal.Run

end
-- ==== Proof.ReferenceIdealArrays0.lean ====
import proofs.«157750_g2000200144022539_pallasbulk_675_13_alg».proof.Proof.ReferenceIdealArraysBase

set_option maxRecDepth 16384

noncomputable section

namespace Cert.ReferenceIdeal.Run

open Idealize.ShloMosaic Idealize.ShloMosaic.TcCoe
open Idealize.SL.Sem
open Idealize.ShloMosaic.Pipeline (Dat Cfg Window)
open Cert.ReferenceIdeal Cert.ReferenceIdeal.Gen
open Idealize.ShloMosaic.ValueIdx Cert.ReferenceIdeal.Idx

variable {F : FTy → Type} [FloatOps F]

section Region0
variable (O : Outs F) (V : (c : Dev nD) → (b : Ref sig .tc) → Buf (Elt F) ((c : Thread nD τ).loc b))

theorem lt_N0 (t : Fin cfg0.N) : t.val < 256 := Nat.lt_of_lt_of_eq t.isLt N_0

theorem index0 : ∀ t : Fin cfg0.N,
    win0_0.index t (0 : Fin 7) = t.val ∧ win0_0.index t (1 : Fin 7) = 0 ∧ win0_0.index t (2 : Fin 7) = 0
    ∧ win0_0.index t (3 : Fin 7) = 0 ∧ win0_0.index t (4 : Fin 7) = 0 ∧ win0_0.index t (5 : Fin 7) = 0
    ∧ win0_0.index t (6 : Fin 7) = 0
    ∧ win0_1.index t (0 : Fin 5) = t.val ∧ win0_1.index t (1 : Fin 5) = 0 ∧ win0_1.index t (2 : Fin 5) = 0
    ∧ win0_1.index t (3 : Fin 5) = 0 ∧ win0_1.index t (4 : Fin 5) = 0 :=
  (by decide +kernel : ∀ t : Fin grid0.N, _)

theorem iblk0_0_eq (c : Dev nD) (t : Fin cfg0.N) :
    (iblk0 V c 0 t : Vec F S1x16x2x16x2x16x2 .f32) = slab0 (V c main_v0) ⟨t.val, lt_N0 t⟩ := by
  obtain ⟨e0, e1, e2, e3, e4, e5, e6, -⟩ := index0 t
  funext y
  unfold iblk0 slab0
  rw [View.read_apply]
  show V c main_v0 _ = V c main_v0 _
  congr 1
  funext a
  apply Fin.ext
  match a with
  | ⟨0, _⟩ => show win0_0.index t (0 : Fin 7) * 1 + 1 * (y 0).val = t.val; have hy : (y 0).val < 1 := (y 0).isLt; rw [e0]; omega
  | ⟨1, _⟩ => show win0_0.index t (1 : Fin 7) * 16 + 1 * (y 1).val = (y 1).val; rw [e1]; omega
  | ⟨2, _⟩ => show win0_0.index t (2 : Fin 7) * 2 + 1 * (y 2).val = (y 2).val; rw [e2]; omega
  | ⟨3, _⟩ => show win0_0.index t (3 : Fin 7) * 16 + 1 * (y 3).val = (y 3).val; rw [e3]; omega
  | ⟨4, _⟩ => show win0_0.index t (4 : Fin 7) * 2 + 1 * (y 4).val = (y 4).val; rw [e4]; omega
  | ⟨5, _⟩ => show win0_0.index t (5 : Fin 7) * 16 + 1 * (y 5).val = (y 5).val; rw [e5]; omega
  | ⟨6, _⟩ => show win0_0.index t (6 : Fin 7) * 2 + 1 * (y 6).val = (y 6).val; rw [e6]; omega

theorem mem_blk0_1 (t : Fin cfg0.N) (i : S256x16x16x16x1.Idx) :
    i ∈ ((cfg0.win 1).blk t).view.set ↔ ∀ a : Fin 5, win0_1.index t a * S1x16x16x16x1.size a ≤ (i a).val ∧ (i a).val < win0_1.index t a * S1x16x16x16x1.size a + S1x16x16x16x1.size a := by
  show i ∈ ((View.whole main_v1).slice (win0_1.rect t)).set ↔ _
  rw [View.set_slice_whole, Rect.mem_set_unit]
  exact Iff.rfl

theorem emb_blk0_1 (t : Fin cfg0.N) (j : S1x16x16x16x1.Idx) :
    ((cfg0.win 1).blk t).view.emb j = ix5 (⟨t.val, lt_N0 t⟩ : Fin 256) (j 1) (j 2) (j 3) (j 4) := by
  obtain ⟨-, -, -, -, -, -, -, e0, e1, e2, e3, e4⟩ := index0 t
  funext a
  apply Fin.ext
  match a with
  | ⟨0, _⟩ => show win0_1.index t (0 : Fin 5) * 1 + 1 * (j 0).val = t.val; have hj : (j 0).val < 1 := (j 0).isLt; rw [e0]; omega
  | ⟨1, _⟩ => show win0_1.index t (1 : Fin 5) * 16 + 1 * (j 1).val = (j 1).val; rw [e1]; omega
  | ⟨2, _⟩ => show win0_1.index t (2 : Fin 5) * 16 + 1 * (j 2).val = (j 2).val; rw [e2]; omega
  | ⟨3, _⟩ => show win0_1.index t (3 : Fin 5) * 16 + 1 * (j 3).val = (j 3).val; rw [e3]; omega
  | ⟨4, _⟩ => show win0_1.index t (4 : Fin 5) * 1 + 1 * (j 4).val = (j 4).val; rw [e4]; omega

theorem cover0_1 (i : S256x16x16x16x1.Idx) : ∃ t : Fin cfg0.N, (cfg0.win 1).flush t = true ∧ i ∈ ((cfg0.win 1).blk t).view.set := by
  have hi0 : (i 0).val < 256 := (i 0).isLt
  have hi1 : (i 1).val < 16 := (i 1).isLt
  have hi2 : (i 2).val < 16 := (i 2).isLt
  have hi3 : (i 3).val < 16 := (i 3).isLt
  have hi4 : (i 4).val < 1 := (i 4).isLt
  obtain ⟨t₀, ht₀⟩ : ∃ t₀ : Fin cfg0.N, t₀.val = (i 0).val := ⟨⟨(i 0).val, Nat.lt_of_lt_of_eq hi0 N_0.symm⟩, rfl⟩
  refine ⟨t₀, flush0_1 t₀, ?_⟩
  rw [mem_blk0_1]
  obtain ⟨-, -, -, -, -, -, -, e0, e1, e2, e3, e4⟩ := index0 t₀
  intro a
  match a with
  | ⟨0, _⟩ => show win0_1.index _ (0 : Fin 5) * 1 ≤ (i 0).val ∧ (i 0).val < win0_1.index _ (0 : Fin 5) * 1 + 1; rw [e0]; omega
  | ⟨1, _⟩ => show win0_1.index _ (1 : Fin 5) * 16 ≤ (i 1).val ∧ (i 1).val < win0_1.index _ (1 : Fin 5) * 16 + 16; rw [e1]; omega
  | ⟨2, _⟩ => show win0_1.index _ (2 : Fin 5) * 16 ≤ (i 2).val ∧ (i 2).val < win0_1.index _ (2 : Fin 5) * 16 + 16; rw [e2]; omega
  | ⟨3, _⟩ => show win0_1.index _ (3 : Fin 5) * 16 ≤ (i 3).val ∧ (i 3).val < win0_1.index _ (3 : Fin 5) * 16 + 16; rw [e3]; omega
  | ⟨4, _⟩ => show win0_1.index _ (4 : Fin 5) * 1 ≤ (i 4).val ∧ (i 4).val < win0_1.index _ (4 : Fin 5) * 1 + 1; rw [e4]; omega

def arr0_1 (A : S256x16x2x16x2x16x2.Idx → Elt F .f32) : S256x16x16x16x1.Idx → Elt F .f32 := fun i =>
  O.o0_1 (slab0 A (i 0)) (ix5 (0 : Fin 1) (i 1) (i 2) (i 3) (i 4))

theorem arr0_1_slab (A : S256x16x2x16x2x16x2.Idx → Elt F .f32) (n : Fin 256) (j : S1x16x16x16x1.Idx) :
    arr0_1 O A (ix5 n (j 1) (j 2) (j 3) (j 4)) = O.o0_1 (slab0 A n) j := by
  unfold arr0_1
  refine congrArg _ (funext fun a => ?_)
  match a with
  | ⟨0, _⟩ => exact Fin.ext (by have hj : (j 0).val < 1 := (j 0).isLt; show 0 = (j 0).val; omega)
  | ⟨1, _⟩ => rfl
  | ⟨2, _⟩ => rfl
  | ⟨3, _⟩ => rfl
  | ⟨4, _⟩ => rfl

theorem arrAt0_1 (c : Dev nD) : (dat0 O V c).arrAt 1 cfg0.N = arr0_1 O (V c main_v0) := by
  refine (dat0 O V c).arrAt_eq_of_cover 1 (arr0_1 O (V c main_v0)) (fun t _ => ?_) (cover0_1)
  show (cfg0.win 1).cut (grid0.coords t) ((dat0 O V c).after 1 t) = _
  rw [after0_1, iblk0_0_eq]
  funext j
  rw [View.read_apply, emb_blk0_1]
  exact (arr0_1_slab O _ ⟨t.val, lt_N0 t⟩ j).symm

end Region0

end Cert.ReferenceIdeal.Run

end
-- ==== Proof.ReferenceIdealArrays1.lean ====
import proofs.«157750_g2000200144022539_pallasbulk_675_13_alg».proof.Proof.ReferenceIdealArraysBase

set_option maxRecDepth 16384

noncomputable section

namespace Cert.ReferenceIdeal.Run

open Idealize.ShloMosaic Idealize.ShloMosaic.TcCoe
open Idealize.SL.Sem
open Idealize.ShloMosaic.Pipeline (Dat Cfg Window)
open Cert.ReferenceIdeal Cert.ReferenceIdeal.Gen
open Idealize.ShloMosaic.ValueIdx Cert.ReferenceIdeal.Idx

variable {F : FTy → Type} [FloatOps F]

section Region1
variable (O : Outs F) (V : (c : Dev nD) → (b : Ref sig .tc) → Buf (Elt F) ((c : Thread nD τ).loc b))

theorem lt_N1 (t : Fin cfg1.N) : t.val < 8 := Nat.lt_of_lt_of_eq t.isLt N_1

theorem index1_0 : ∀ t : Fin cfg1.N,
    win1_0.index t (0 : Fin 3) = t.val ∧ win1_0.index t (1 : Fin 3) = 0 ∧ win1_0.index t (2 : Fin 3) = 0 :=
  (by decide +kernel : ∀ t : Fin grid1.N, _)

theorem index1_1 : ∀ t : Fin cfg1.N, win1_1.index t (0 : Fin 2) = 0 ∧ win1_1.index t (1 : Fin 2) = 0 :=
  (by decide +kernel : ∀ t : Fin grid1.N, _)

theorem index1_2 : ∀ t : Fin cfg1.N, win1_2.index t (0 : Fin 2) = 0 ∧ win1_2.index t (1 : Fin 2) = 0 :=
  (by decide +kernel : ∀ t : Fin grid1.N, _)

theorem index1_3 : ∀ t : Fin cfg1.N, win1_3.index t (0 : Fin 2) = 0 ∧ win1_3.index t (1 : Fin 2) = 0 :=
  (by decide +kernel : ∀ t : Fin grid1.N, _)

theorem index1_4 : ∀ t : Fin cfg1.N, win1_4.index t (0 : Fin 2) = 0 ∧ win1_4.index t (1 : Fin 2) = 0 :=
  (by decide +kernel : ∀ t : Fin grid1.N, _)

theorem index1_5 : ∀ t : Fin cfg1.N, win1_5.index t (0 : Fin 2) = 0 ∧ win1_5.index t (1 : Fin 2) = 0 :=
  (by decide +kernel : ∀ t : Fin grid1.N, _)

theorem index1_6 : ∀ t : Fin cfg1.N,
    win1_6.index t (0 : Fin 3) = t.val ∧ win1_6.index t (1 : Fin 3) = 0 ∧ win1_6.index t (2 : Fin 3) = 0 :=
  (by decide +kernel : ∀ t : Fin grid1.N, _)

theorem index1_7 : ∀ t : Fin cfg1.N,
    win1_7.index t (0 : Fin 3) = t.val ∧ win1_7.index t (1 : Fin 3) = 0 ∧ win1_7.index t (2 : Fin 3) = 0 :=
  (by decide +kernel : ∀ t : Fin grid1.N, _)

theorem index1_8 : ∀ t : Fin cfg1.N,
    win1_8.index t (0 : Fin 3) = t.val ∧ win1_8.index t (1 : Fin 3) = 0 ∧ win1_8.index t (2 : Fin 3) = 0 :=
  (by decide +kernel : ∀ t : Fin grid1.N, _)

theorem iblk1_0_eq (c : Dev nD) (t : Fin cfg1.N) :
    (iblk1 V c 0 t : Vec F S1x32x4864 .f32) = slab (V c main_v3 : S8x32x4864.Idx → Elt F .f32) ⟨t.val, lt_N1 t⟩ := by
  obtain ⟨e0, e1, e2⟩ := index1_0 t
  funext y
  unfold iblk1 slab
  rw [View.read_apply]
  show V c main_v3 _ = V c main_v3 _
  congr 1
  funext a
  apply Fin.ext
  match a with
  | ⟨0, _⟩ => show win1_0.index t (0 : Fin 3) * 1 + 1 * (y 0).val = t.val; have hy : (y 0).val < 1 := (y 0).isLt; rw [e0]; omega
  | ⟨1, _⟩ => show win1_0.index t (1 : Fin 3) * 32 + 1 * (y 1).val = (y 1).val; rw [e1]; omega
  | ⟨2, _⟩ => show win1_0.index t (2 : Fin 3) * 4864 + 1 * (y 2).val = (y 2).val; rw [e2]; omega

theorem iblk1_1_eq (c : Dev nD) (t : Fin cfg1.N) : (iblk1 V c 1 t : Vec F S64x864 .f32) = V c main_v8 := by
  obtain ⟨e0, e1⟩ := index1_1 t
  funext y
  unfold iblk1
  rw [View.read_apply]
  show V c main_v8 _ = V c main_v8 _
  congr 1
  funext a
  apply Fin.ext
  match a with
  | ⟨0, _⟩ => show win1_1.index t (0 : Fin 2) * 64 + 1 * (y 0).val = (y 0).val; rw [e0]; omega
  | ⟨1, _⟩ => show win1_1.index t (1 : Fin 2) * 864 + 1 * (y 1).val = (y 1).val; rw [e1]; omega

theorem iblk1_2_eq (c : Dev nD) (t : Fin cfg1.N) : (iblk1 V c 2 t : Vec F S32x1 .f32) = V c main_v9 := by
  obtain ⟨e0, e1⟩ := index1_2 t
  funext y
  unfold iblk1
  rw [View.read_apply]
  show V c main_v9 _ = V c main_v9 _
  congr 1
  funext a
  apply Fin.ext
  match a with
  | ⟨0, _⟩ => show win1_2.index t (0 : Fin 2) * 32 + 1 * (y 0).val = (y 0).val; rw [e0]; omega
  | ⟨1, _⟩ => show win1_2.index t (1 : Fin 2) * 1 + 1 * (y 1).val = (y 1).val; rw [e1]; omega

theorem iblk1_3_eq (c : Dev nD) (t : Fin cfg1.N) : (iblk1 V c 3 t : Vec F S32x1 .f32) = V c main_v10 := by
  obtain ⟨e0, e1⟩ := index1_3 t
  funext y
  unfold iblk1
  rw [View.read_apply]
  show V c main_v10 _ = V c main_v10 _
  congr 1
  funext a
  apply Fin.ext
  match a with
  | ⟨0, _⟩ => show win1_3.index t (0 : Fin 2) * 32 + 1 * (y 0).val = (y 0).val; rw [e0]; omega
  | ⟨1, _⟩ => show win1_3.index t (1 : Fin 2) * 1 + 1 * (y 1).val = (y 1).val; rw [e1]; omega

theorem iblk1_4_eq (c : Dev nD) (t : Fin cfg1.N) : (iblk1 V c 4 t : Vec F S1x4864 .f32) = V c main_v18 := by
  obtain ⟨e0, e1⟩ := index1_4 t
  funext y
  unfold iblk1
  rw [View.read_apply]
  show V c main_v18 _ = V c main_v18 _
  congr 1
  funext a
  apply Fin.ext
  match a with
  | ⟨0, _⟩ => show win1_4.index t (0 : Fin 2) * 1 + 1 * (y 0).val = (y 0).val; rw [e0]; omega
  | ⟨1, _⟩ => show win1_4.index t (1 : Fin 2) * 4864 + 1 * (y 1).val = (y 1).val; rw [e1]; omega

theorem iblk1_5_eq (c : Dev nD) (t : Fin cfg1.N) : (iblk1 V c 5 t : Vec F S9x4096 .f32) = V c main_v303 := by
  obtain ⟨e0, e1⟩ := index1_5 t
  funext y
  unfold iblk1
  rw [View.read_apply]
  show V c main_v303 _ = V c main_v303 _
  congr 1
  funext a
  apply Fin.ext
  match a with
  | ⟨0, _⟩ => show win1_5.index t (0 : Fin 2) * 9 + 1 * (y 0).val = (y 0).val; rw [e0]; omega
  | ⟨1, _⟩ => show win1_5.index t (1 : Fin 2) * 4096 + 1 * (y 1).val = (y 1).val; rw [e1]; omega

theorem mem_blk1_6 (t : Fin cfg1.N) (i : S8x64x4864.Idx) :
    i ∈ ((cfg1.win 6).blk t).view.set ↔ ∀ a : Fin 3, win1_6.index t a * S1x64x4864.size a ≤ (i a).val ∧ (i a).val < win1_6.index t a * S1x64x4864.size a + S1x64x4864.size a := by
  show i ∈ ((View.whole main_v304_0).slice (win1_6.rect t)).set ↔ _
  rw [View.set_slice_whole, Rect.mem_set_unit]
  exact Iff.rfl

theorem emb_blk1_6 (t : Fin cfg1.N) (j : S1x64x4864.Idx) :
    ((cfg1.win 6).blk t).view.emb j = ix3 (⟨t.val, lt_N1 t⟩ : Fin 8) (j 1) (j 2) := by
  obtain ⟨e0, e1, e2⟩ := index1_6 t
  funext a
  apply Fin.ext
  match a with
  | ⟨0, _⟩ => show win1_6.index t (0 : Fin 3) * 1 + 1 * (j 0).val = t.val; have hj : (j 0).val < 1 := (j 0).isLt; rw [e0]; omega
  | ⟨1, _⟩ => show win1_6.index t (1 : Fin 3) * 64 + 1 * (j 1).val = (j 1).val; rw [e1]; omega
  | ⟨2, _⟩ => show win1_6.index t (2 : Fin 3) * 4864 + 1 * (j 2).val = (j 2).val; rw [e2]; omega

theorem cover1_6 (i : S8x64x4864.Idx) : ∃ t : Fin cfg1.N, (cfg1.win 6).flush t = true ∧ i ∈ ((cfg1.win 6).blk t).view.set := by
  have hi0 : (i 0).val < 8 := (i 0).isLt
  have hi1 : (i 1).val < 64 := (i 1).isLt
  have hi2 : (i 2).val < 4864 := (i 2).isLt
  obtain ⟨t₀, ht₀⟩ : ∃ t₀ : Fin cfg1.N, t₀.val = (i 0).val := ⟨⟨(i 0).val, Nat.lt_of_lt_of_eq hi0 N_1.symm⟩, rfl⟩
  refine ⟨t₀, flush1_6 t₀, ?_⟩
  rw [mem_blk1_6]
  obtain ⟨e0, e1, e2⟩ := index1_6 t₀
  intro a
  match a with
  | ⟨0, _⟩ => show win1_6.index _ (0 : Fin 3) * 1 ≤ (i 0).val ∧ (i 0).val < win1_6.index _ (0 : Fin 3) * 1 + 1; rw [e0]; omega
  | ⟨1, _⟩ => show win1_6.index _ (1 : Fin 3) * 64 ≤ (i 1).val ∧ (i 1).val < win1_6.index _ (1 : Fin 3) * 64 + 64; rw [e1]; omega
  | ⟨2, _⟩ => show win1_6.index _ (2 : Fin 3) * 4864 ≤ (i 2).val ∧ (i 2).val < win1_6.index _ (2 : Fin 3) * 4864 + 4864; rw [e2]; omega

def arr1_6 (A0 : S8x32x4864.Idx → Elt F .f32) (A1 : S64x864.Idx → Elt F .f32) (A2 A3 : S32x1.Idx → Elt F .f32)
    (A4 : S1x4864.Idx → Elt F .f32) (A5 : S9x4096.Idx → Elt F .f32) : S8x64x4864.Idx → Elt F .f32 := fun i =>
  O.o1_6 (slab A0 (i 0)) A1 A2 A3 A4 A5 (ix3 (0 : Fin 1) (i 1) (i 2))

theorem arr1_6_slab (A0 : S8x32x4864.Idx → Elt F .f32) (A1 : S64x864.Idx → Elt F .f32) (A2 A3 : S32x1.Idx → Elt F .f32)
    (A4 : S1x4864.Idx → Elt F .f32) (A5 : S9x4096.Idx → Elt F .f32) (n : Fin 8) (j : S1x64x4864.Idx) :
    arr1_6 O A0 A1 A2 A3 A4 A5 (ix3 n (j 1) (j 2)) = O.o1_6 (slab A0 n) A1 A2 A3 A4 A5 j := by
  unfold arr1_6
  exact congrArg _ (ix3_zero_eq j)

theorem arrAt1_6 (c : Dev nD) :
    (dat1 O V c).arrAt 6 cfg1.N
      = arr1_6 O (V c main_v3) (V c main_v8) (V c main_v9) (V c main_v10) (V c main_v18) (V c main_v303) := by
  refine (dat1 O V c).arrAt_eq_of_cover 6
    (arr1_6 O (V c main_v3) (V c main_v8) (V c main_v9) (V c main_v10) (V c main_v18) (V c main_v303)) (fun t _ => ?_) (cover1_6)
  show (cfg1.win 6).cut (grid1.coords t) ((dat1 O V c).after 6 t) = _
  rw [after1_6, iblk1_0_eq, iblk1_1_eq, iblk1_2_eq, iblk1_3_eq, iblk1_4_eq, iblk1_5_eq]
  funext j
  rw [View.read_apply, emb_blk1_6]
  exact (arr1_6_slab O _ _ _ _ _ _ ⟨t.val, lt_N1 t⟩ j).symm

theorem mem_blk1_7 (t : Fin cfg1.N) (i : S8x64x1.Idx) :
    i ∈ ((cfg1.win 7).blk t).view.set ↔ ∀ a : Fin 3, win1_7.index t a * S1x64x1.size a ≤ (i a).val ∧ (i a).val < win1_7.index t a * S1x64x1.size a + S1x64x1.size a := by
  show i ∈ ((View.whole main_v304_1).slice (win1_7.rect t)).set ↔ _
  rw [View.set_slice_whole, Rect.mem_set_unit]
  exact Iff.rfl

theorem emb_blk1_7 (t : Fin cfg1.N) (j : S1x64x1.Idx) :
    ((cfg1.win 7).blk t).view.emb j = ix3 (⟨t.val, lt_N1 t⟩ : Fin 8) (j 1) (j 2) := by
  obtain ⟨e0, e1, e2⟩ := index1_7 t
  funext a
  apply Fin.ext
  match a with
  | ⟨0, _⟩ => show win1_7.index t (0 : Fin 3) * 1 + 1 * (j 0).val = t.val; have hj : (j 0).val < 1 := (j 0).isLt; rw [e0]; omega
  | ⟨1, _⟩ => show win1_7.index t (1 : Fin 3) * 64 + 1 * (j 1).val = (j 1).val; rw [e1]; omega
  | ⟨2, _⟩ => show win1_7.index t (2 : Fin 3) * 1 + 1 * (j 2).val = (j 2).val; rw [e2]; omega

theorem cover1_7 (i : S8x64x1.Idx) : ∃ t : Fin cfg1.N, (cfg1.win 7).flush t = true ∧ i ∈ ((cfg1.win 7).blk t).view.set := by
  have hi0 : (i 0).val < 8 := (i 0).isLt
  have hi1 : (i 1).val < 64 := (i 1).isLt
  have hi2 : (i 2).val < 1 := (i 2).isLt
  obtain ⟨t₀, ht₀⟩ : ∃ t₀ : Fin cfg1.N, t₀.val = (i 0).val := ⟨⟨(i 0).val, Nat.lt_of_lt_of_eq hi0 N_1.symm⟩, rfl⟩
  refine ⟨t₀, flush1_7 t₀, ?_⟩
  rw [mem_blk1_7]
  obtain ⟨e0, e1, e2⟩ := index1_7 t₀
  intro a
  match a with
  | ⟨0, _⟩ => show win1_7.index _ (0 : Fin 3) * 1 ≤ (i 0).val ∧ (i 0).val < win1_7.index _ (0 : Fin 3) * 1 + 1; rw [e0]; omega
  | ⟨1, _⟩ => show win1_7.index _ (1 : Fin 3) * 64 ≤ (i 1).val ∧ (i 1).val < win1_7.index _ (1 : Fin 3) * 64 + 64; rw [e1]; omega
  | ⟨2, _⟩ => show win1_7.index _ (2 : Fin 3) * 1 ≤ (i 2).val ∧ (i 2).val < win1_7.index _ (2 : Fin 3) * 1 + 1; rw [e2]; omega

def arr1_7 (A0 : S8x32x4864.Idx → Elt F .f32) (A1 : S64x864.Idx → Elt F .f32) (A2 A3 : S32x1.Idx → Elt F .f32)
    (A4 : S1x4864.Idx → Elt F .f32) (A5 : S9x4096.Idx → Elt F .f32) : S8x64x1.Idx → Elt F .f32 := fun i =>
  O.o1_7 (slab A0 (i 0)) A1 A2 A3 A4 A5 (ix3 (0 : Fin 1) (i 1) (i 2))

theorem arr1_7_slab (A0 : S8x32x4864.Idx → Elt F .f32) (A1 : S64x864.Idx → Elt F .f32) (A2 A3 : S32x1.Idx → Elt F .f32)
    (A4 : S1x4864.Idx → Elt F .f32) (A5 : S9x4096.Idx → Elt F .f32) (n : Fin 8) (j : S1x64x1.Idx) :
    arr1_7 O A0 A1 A2 A3 A4 A5 (ix3 n (j 1) (j 2)) = O.o1_7 (slab A0 n) A1 A2 A3 A4 A5 j := by
  unfold arr1_7
  exact congrArg _ (ix3_zero_eq j)

theorem arrAt1_7 (c : Dev nD) :
    (dat1 O V c).arrAt 7 cfg1.N
      = arr1_7 O (V c main_v3) (V c main_v8) (V c main_v9) (V c main_v10) (V c main_v18) (V c main_v303) := by
  refine (dat1 O V c).arrAt_eq_of_cover 7
    (arr1_7 O (V c main_v3) (V c main_v8) (V c main_v9) (V c main_v10) (V c main_v18) (V c main_v303)) (fun t _ => ?_) (cover1_7)
  show (cfg1.win 7).cut (grid1.coords t) ((dat1 O V c).after 7 t) = _
  rw [after1_7, iblk1_0_eq, iblk1_1_eq, iblk1_2_eq, iblk1_3_eq, iblk1_4_eq, iblk1_5_eq]
  funext j
  rw [View.read_apply, emb_blk1_7]
  exact (arr1_7_slab O _ _ _ _ _ _ ⟨t.val, lt_N1 t⟩ j).symm

theorem mem_blk1_8 (t : Fin cfg1.N) (i : S8x64x1.Idx) :
    i ∈ ((cfg1.win 8).blk t).view.set ↔ ∀ a : Fin 3, win1_8.index t a * S1x64x1.size a ≤ (i a).val ∧ (i a).val < win1_8.index t a * S1x64x1.size a + S1x64x1.size a := by
  show i ∈ ((View.whole main_v304_2).slice (win1_8.rect t)).set ↔ _
  rw [View.set_slice_whole, Rect.mem_set_unit]
  exact Iff.rfl

theorem emb_blk1_8 (t : Fin cfg1.N) (j : S1x64x1.Idx) :
    ((cfg1.win 8).blk t).view.emb j = ix3 (⟨t.val, lt_N1 t⟩ : Fin 8) (j 1) (j 2) := by
  obtain ⟨e0, e1, e2⟩ := index1_8 t
  funext a
  apply Fin.ext
  match a with
  | ⟨0, _⟩ => show win1_8.index t (0 : Fin 3) * 1 + 1 * (j 0).val = t.val; have hj : (j 0).val < 1 := (j 0).isLt; rw [e0]; omega
  | ⟨1, _⟩ => show win1_8.index t (1 : Fin 3) * 64 + 1 * (j 1).val = (j 1).val; rw [e1]; omega
  | ⟨2, _⟩ => show win1_8.index t (2 : Fin 3) * 1 + 1 * (j 2).val = (j 2).val; rw [e2]; omega

theorem cover1_8 (i : S8x64x1.Idx) : ∃ t : Fin cfg1.N, (cfg1.win 8).flush t = true ∧ i ∈ ((cfg1.win 8).blk t).view.set := by
  have hi0 : (i 0).val < 8 := (i 0).isLt
  have hi1 : (i 1).val < 64 := (i 1).isLt
  have hi2 : (i 2).val < 1 := (i 2).isLt
  obtain ⟨t₀, ht₀⟩ : ∃ t₀ : Fin cfg1.N, t₀.val = (i 0).val := ⟨⟨(i 0).val, Nat.lt_of_lt_of_eq hi0 N_1.symm⟩, rfl⟩
  refine ⟨t₀, flush1_8 t₀, ?_⟩
  rw [mem_blk1_8]
  obtain ⟨e0, e1, e2⟩ := index1_8 t₀
  intro a
  match a with
  | ⟨0, _⟩ => show win1_8.index _ (0 : Fin 3) * 1 ≤ (i 0).val ∧ (i 0).val < win1_8.index _ (0 : Fin 3) * 1 + 1; rw [e0]; omega
  | ⟨1, _⟩ => show win1_8.index _ (1 : Fin 3) * 64 ≤ (i 1).val ∧ (i 1).val < win1_8.index _ (1 : Fin 3) * 64 + 64; rw [e1]; omega
  | ⟨2, _⟩ => show win1_8.index _ (2 : Fin 3) * 1 ≤ (i 2).val ∧ (i 2).val < win1_8.index _ (2 : Fin 3) * 1 + 1; rw [e2]; omega

def arr1_8 (A0 : S8x32x4864.Idx → Elt F .f32) (A1 : S64x864.Idx → Elt F .f32) (A2 A3 : S32x1.Idx → Elt F .f32)
    (A4 : S1x4864.Idx → Elt F .f32) (A5 : S9x4096.Idx → Elt F .f32) : S8x64x1.Idx → Elt F .f32 := fun i =>
  O.o1_8 (slab A0 (i 0)) A1 A2 A3 A4 A5 (ix3 (0 : Fin 1) (i 1) (i 2))

theorem arr1_8_slab (A0 : S8x32x4864.Idx → Elt F .f32) (A1 : S64x864.Idx → Elt F .f32) (A2 A3 : S32x1.Idx → Elt F .f32)
    (A4 : S1x4864.Idx → Elt F .f32) (A5 : S9x4096.Idx → Elt F .f32) (n : Fin 8) (j : S1x64x1.Idx) :
    arr1_8 O A0 A1 A2 A3 A4 A5 (ix3 n (j 1) (j 2)) = O.o1_8 (slab A0 n) A1 A2 A3 A4 A5 j := by
  unfold arr1_8
  exact congrArg _ (ix3_zero_eq j)

theorem arrAt1_8 (c : Dev nD) :
    (dat1 O V c).arrAt 8 cfg1.N
      = arr1_8 O (V c main_v3) (V c main_v8) (V c main_v9) (V c main_v10) (V c main_v18) (V c main_v303) := by
  refine (dat1 O V c).arrAt_eq_of_cover 8
    (arr1_8 O (V c main_v3) (V c main_v8) (V c main_v9) (V c main_v10) (V c main_v18) (V c main_v303)) (fun t _ => ?_) (cover1_8)
  show (cfg1.win 8).cut (grid1.coords t) ((dat1 O V c).after 8 t) = _
  rw [after1_8, iblk1_0_eq, iblk1_1_eq, iblk1_2_eq, iblk1_3_eq, iblk1_4_eq, iblk1_5_eq]
  funext j
  rw [View.read_apply, emb_blk1_8]
  exact (arr1_8_slab O _ _ _ _ _ _ ⟨t.val, lt_N1 t⟩ j).symm

end Region1

end Cert.ReferenceIdeal.Run

end
-- ==== Proof.ReferenceIdealArrays2.lean ====
/- From blocks to arrays, region 2 of the reference program (the second convolution kernel): each output window's array after the
   region as ONE function of the arrays the region finds — at an index, the body's output block of the input slab
   that covers the index (and of the operands fetched whole), read at the index inside the block — and each input
   window's block as a slab of its array (or the whole array). Generic in the float type and in the bodies'
   output functions. -/
import proofs.«157750_g2000200144022539_pallasbulk_675_13_alg».proof.Proof.ReferenceIdealArraysBase

set_option maxRecDepth 16384

noncomputable section

namespace Cert.ReferenceIdeal.Run

open Idealize.ShloMosaic Idealize.ShloMosaic.TcCoe
open Idealize.SL.Sem
open Idealize.ShloMosaic.Pipeline (Dat Cfg Window)
open Cert.ReferenceIdeal Cert.ReferenceIdeal.Gen
open Idealize.ShloMosaic.ValueIdx Cert.ReferenceIdeal.Idx

variable {F : FTy → Type} [FloatOps F]

section Region2
variable (O : Outs F) (V : (c : Dev nD) → (b : Ref sig .tc) → Buf (Elt F) ((c : Thread nD τ).loc b))

/-- Region 1's grid has eight points. -/
theorem lt_N2 (t : Fin cfg2.N) : t.val < 8 := Nat.lt_of_lt_of_eq t.isLt N_2

/-! ## The index maps, decided over the eight points -/

/-- The activation window's block index is the point on axis 0 and zero on the others. -/
theorem index2_0 : ∀ t : Fin cfg2.N,
    win2_0.index t (0 : Fin 3) = t.val ∧ win2_0.index t (1 : Fin 3) = 0 ∧ win2_0.index t (2 : Fin 3) = 0 :=
  (by decide +kernel : ∀ t : Fin grid2.N, _)
/-- The weight window's block index is zero. -/
theorem index2_1 : ∀ t : Fin cfg2.N, win2_1.index t (0 : Fin 2) = 0 ∧ win2_1.index t (1 : Fin 2) = 0 :=
  (by decide +kernel : ∀ t : Fin grid2.N, _)
/-- The scale window's block index is zero. -/
theorem index2_2 : ∀ t : Fin cfg2.N, win2_2.index t (0 : Fin 2) = 0 ∧ win2_2.index t (1 : Fin 2) = 0 :=
  (by decide +kernel : ∀ t : Fin grid2.N, _)
/-- The shift window's block index is zero. -/
theorem index2_3 : ∀ t : Fin cfg2.N, win2_3.index t (0 : Fin 2) = 0 ∧ win2_3.index t (1 : Fin 2) = 0 :=
  (by decide +kernel : ∀ t : Fin grid2.N, _)
/-- The lane-validity window's block index is zero. -/
theorem index2_4 : ∀ t : Fin cfg2.N, win2_4.index t (0 : Fin 2) = 0 ∧ win2_4.index t (1 : Fin 2) = 0 :=
  (by decide +kernel : ∀ t : Fin grid2.N, _)
/-- The tap-mask window's block index is zero. -/
theorem index2_5 : ∀ t : Fin cfg2.N, win2_5.index t (0 : Fin 2) = 0 ∧ win2_5.index t (1 : Fin 2) = 0 :=
  (by decide +kernel : ∀ t : Fin grid2.N, _)
/-- The convolution result window's block index is the point on axis 0 and zero on the others. -/
theorem index2_6 : ∀ t : Fin cfg2.N,
    win2_6.index t (0 : Fin 3) = t.val ∧ win2_6.index t (1 : Fin 3) = 0 ∧ win2_6.index t (2 : Fin 3) = 0 :=
  (by decide +kernel : ∀ t : Fin grid2.N, _)
/-- The channel-sum window's block index is the point on axis 0 and zero on the others. -/
theorem index2_7 : ∀ t : Fin cfg2.N,
    win2_7.index t (0 : Fin 3) = t.val ∧ win2_7.index t (1 : Fin 3) = 0 ∧ win2_7.index t (2 : Fin 3) = 0 :=
  (by decide +kernel : ∀ t : Fin grid2.N, _)
/-- The channel-square-sum window's block index is the point on axis 0 and zero on the others. -/
theorem index2_8 : ∀ t : Fin cfg2.N,
    win2_8.index t (0 : Fin 3) = t.val ∧ win2_8.index t (1 : Fin 3) = 0 ∧ win2_8.index t (2 : Fin 3) = 0 :=
  (by decide +kernel : ∀ t : Fin grid2.N, _)

/-! ## The input windows' blocks -/

/-- The activation window's block at point `t` is slab `t` of its array. -/
theorem iblk2_0_eq (c : Dev nD) (t : Fin cfg2.N) :
    (iblk2 V c 0 t : Vec F S1x64x4864 .f32) = slab (V c main_v304_0 : S8x64x4864.Idx → Elt F .f32) ⟨t.val, lt_N2 t⟩ := by
  obtain ⟨e0, e1, e2⟩ := index2_0 t
  funext y
  unfold iblk2 slab
  rw [View.read_apply]
  show V c main_v304_0 _ = V c main_v304_0 _
  congr 1
  funext a
  apply Fin.ext
  match a with
  | ⟨0, _⟩ => show win2_0.index t (0 : Fin 3) * 1 + 1 * (y 0).val = t.val; have hy : (y 0).val < 1 := (y 0).isLt; rw [e0]; omega
  | ⟨1, _⟩ => show win2_0.index t (1 : Fin 3) * 64 + 1 * (y 1).val = (y 1).val; rw [e1]; omega
  | ⟨2, _⟩ => show win2_0.index t (2 : Fin 3) * 4864 + 1 * (y 2).val = (y 2).val; rw [e2]; omega

/-- The weight window's block at every point is its whole array. -/
theorem iblk2_1_eq (c : Dev nD) (t : Fin cfg2.N) : (iblk2 V c 1 t : Vec F S64x1728 .f32) = V c main_v329 := by
  obtain ⟨e0, e1⟩ := index2_1 t
  funext y
  unfold iblk2
  rw [View.read_apply]
  show V c main_v329 _ = V c main_v329 _
  congr 1
  funext a
  apply Fin.ext
  match a with
  | ⟨0, _⟩ => show win2_1.index t (0 : Fin 2) * 64 + 1 * (y 0).val = (y 0).val; rw [e0]; omega
  | ⟨1, _⟩ => show win2_1.index t (1 : Fin 2) * 1728 + 1 * (y 1).val = (y 1).val; rw [e1]; omega

/-- The scale window's block at every point is its whole array. -/
theorem iblk2_2_eq (c : Dev nD) (t : Fin cfg2.N) : (iblk2 V c 2 t : Vec F S64x1 .f32) = V c main_v320 := by
  obtain ⟨e0, e1⟩ := index2_2 t
  funext y
  unfold iblk2
  rw [View.read_apply]
  show V c main_v320 _ = V c main_v320 _
  congr 1
  funext a
  apply Fin.ext
  match a with
  | ⟨0, _⟩ => show win2_2.index t (0 : Fin 2) * 64 + 1 * (y 0).val = (y 0).val; rw [e0]; omega
  | ⟨1, _⟩ => show win2_2.index t (1 : Fin 2) * 1 + 1 * (y 1).val = (y 1).val; rw [e1]; omega

/-- The shift window's block at every point is its whole array. -/
theorem iblk2_3_eq (c : Dev nD) (t : Fin cfg2.N) : (iblk2 V c 3 t : Vec F S64x1 .f32) = V c main_v324 := by
  obtain ⟨e0, e1⟩ := index2_3 t
  funext y
  unfold iblk2
  rw [View.read_apply]
  show V c main_v324 _ = V c main_v324 _
  congr 1
  funext a
  apply Fin.ext
  match a with
  | ⟨0, _⟩ => show win2_3.index t (0 : Fin 2) * 64 + 1 * (y 0).val = (y 0).val; rw [e0]; omega
  | ⟨1, _⟩ => show win2_3.index t (1 : Fin 2) * 1 + 1 * (y 1).val = (y 1).val; rw [e1]; omega

/-- The lane-validity window's block at every point is its whole array. -/
theorem iblk2_4_eq (c : Dev nD) (t : Fin cfg2.N) : (iblk2 V c 4 t : Vec F S1x4864 .f32) = V c main_v337 := by
  obtain ⟨e0, e1⟩ := index2_4 t
  funext y
  unfold iblk2
  rw [View.read_apply]
  show V c main_v337 _ = V c main_v337 _
  congr 1
  funext a
  apply Fin.ext
  match a with
  | ⟨0, _⟩ => show win2_4.index t (0 : Fin 2) * 1 + 1 * (y 0).val = (y 0).val; rw [e0]; omega
  | ⟨1, _⟩ => show win2_4.index t (1 : Fin 2) * 4864 + 1 * (y 1).val = (y 1).val; rw [e1]; omega

/-- The tap-mask window's block at every point is its whole array. -/
theorem iblk2_5_eq (c : Dev nD) (t : Fin cfg2.N) : (iblk2 V c 5 t : Vec F S9x4096 .f32) = V c main_v622 := by
  obtain ⟨e0, e1⟩ := index2_5 t
  funext y
  unfold iblk2
  rw [View.read_apply]
  show V c main_v622 _ = V c main_v622 _
  congr 1
  funext a
  apply Fin.ext
  match a with
  | ⟨0, _⟩ => show win2_5.index t (0 : Fin 2) * 9 + 1 * (y 0).val = (y 0).val; rw [e0]; omega
  | ⟨1, _⟩ => show win2_5.index t (1 : Fin 2) * 4096 + 1 * (y 1).val = (y 1).val; rw [e1]; omega

/-! ## The convolution result: output window 6 -/

/-- An index of the convolution result array is in point `t`'s block iff each coordinate is in the block's range. -/
theorem mem_blk2_6 (t : Fin cfg2.N) (i : S8x64x4096.Idx) :
    i ∈ ((cfg2.win 6).blk t).view.set ↔ ∀ a : Fin 3, win2_6.index t a * S1x64x4096.size a ≤ (i a).val ∧ (i a).val < win2_6.index t a * S1x64x4096.size a + S1x64x4096.size a := by
  show i ∈ ((View.whole main_v623_0).slice (win2_6.rect t)).set ↔ _
  rw [View.set_slice_whole, Rect.mem_set_unit]
  exact Iff.rfl

/-- Point `t`'s block of the convolution result array sits at `(t, p, q)`. -/
theorem emb_blk2_6 (t : Fin cfg2.N) (j : S1x64x4096.Idx) :
    ((cfg2.win 6).blk t).view.emb j = ix3 (⟨t.val, lt_N2 t⟩ : Fin 8) (j 1) (j 2) := by
  obtain ⟨e0, e1, e2⟩ := index2_6 t
  funext a
  apply Fin.ext
  match a with
  | ⟨0, _⟩ => show win2_6.index t (0 : Fin 3) * 1 + 1 * (j 0).val = t.val; have hj : (j 0).val < 1 := (j 0).isLt; rw [e0]; omega
  | ⟨1, _⟩ => show win2_6.index t (1 : Fin 3) * 64 + 1 * (j 1).val = (j 1).val; rw [e1]; omega
  | ⟨2, _⟩ => show win2_6.index t (2 : Fin 3) * 4096 + 1 * (j 2).val = (j 2).val; rw [e2]; omega

/-- Every index of the convolution result array is in the block of the point its first coordinate names. -/
theorem cover2_6 (i : S8x64x4096.Idx) : ∃ t : Fin cfg2.N, (cfg2.win 6).flush t = true ∧ i ∈ ((cfg2.win 6).blk t).view.set := by
  have hi0 : (i 0).val < 8 := (i 0).isLt
  have hi1 : (i 1).val < 64 := (i 1).isLt
  have hi2 : (i 2).val < 4096 := (i 2).isLt
  obtain ⟨t₀, ht₀⟩ : ∃ t₀ : Fin cfg2.N, t₀.val = (i 0).val := ⟨⟨(i 0).val, Nat.lt_of_lt_of_eq hi0 N_2.symm⟩, rfl⟩
  refine ⟨t₀, flush2_6 t₀, ?_⟩
  rw [mem_blk2_6]
  obtain ⟨e0, e1, e2⟩ := index2_6 t₀
  intro a
  match a with
  | ⟨0, _⟩ => show win2_6.index _ (0 : Fin 3) * 1 ≤ (i 0).val ∧ (i 0).val < win2_6.index _ (0 : Fin 3) * 1 + 1; rw [e0]; omega
  | ⟨1, _⟩ => show win2_6.index _ (1 : Fin 3) * 64 ≤ (i 1).val ∧ (i 1).val < win2_6.index _ (1 : Fin 3) * 64 + 64; rw [e1]; omega
  | ⟨2, _⟩ => show win2_6.index _ (2 : Fin 3) * 4096 ≤ (i 2).val ∧ (i 2).val < win2_6.index _ (2 : Fin 3) * 4096 + 4096; rw [e2]; omega

/-- Region 1's convolution result array as one function of the activation array and the operands fetched whole: at
    `(n, ch, p)` the body's output block of slab `n` of the activation and the whole operands, read at `(0, ch, p)`. -/
def arr2_6 (A0 : S8x64x4864.Idx → Elt F .f32) (A1 : S64x1728.Idx → Elt F .f32) (A2 A3 : S64x1.Idx → Elt F .f32)
    (A4 : S1x4864.Idx → Elt F .f32) (A5 : S9x4096.Idx → Elt F .f32) : S8x64x4096.Idx → Elt F .f32 := fun i =>
  O.o2_6 (slab A0 (i 0)) A1 A2 A3 A4 A5 (ix3 (0 : Fin 1) (i 1) (i 2))

/-- Under slab `n`, that function is the body's output block of the slab. -/
theorem arr2_6_slab (A0 : S8x64x4864.Idx → Elt F .f32) (A1 : S64x1728.Idx → Elt F .f32) (A2 A3 : S64x1.Idx → Elt F .f32)
    (A4 : S1x4864.Idx → Elt F .f32) (A5 : S9x4096.Idx → Elt F .f32) (n : Fin 8) (j : S1x64x4096.Idx) :
    arr2_6 O A0 A1 A2 A3 A4 A5 (ix3 n (j 1) (j 2)) = O.o2_6 (slab A0 n) A1 A2 A3 A4 A5 j := by
  unfold arr2_6
  exact congrArg _ (ix3_zero_eq j)

/-- THE CONVOLUTION RESULT ARRAY of region 1 after the region. -/
theorem arrAt2_6 (c : Dev nD) :
    (dat2 O V c).arrAt 6 cfg2.N
      = arr2_6 O (V c main_v304_0) (V c main_v329) (V c main_v320) (V c main_v324) (V c main_v337) (V c main_v622) := by
  refine (dat2 O V c).arrAt_eq_of_cover 6
    (arr2_6 O (V c main_v304_0) (V c main_v329) (V c main_v320) (V c main_v324) (V c main_v337) (V c main_v622)) (fun t _ => ?_) (cover2_6)
  show (cfg2.win 6).cut (grid2.coords t) ((dat2 O V c).after 6 t) = _
  rw [after2_6, iblk2_0_eq, iblk2_1_eq, iblk2_2_eq, iblk2_3_eq, iblk2_4_eq, iblk2_5_eq]
  funext j
  rw [View.read_apply, emb_blk2_6]
  exact (arr2_6_slab O _ _ _ _ _ _ ⟨t.val, lt_N2 t⟩ j).symm

/-! ## The channel sums: output window 7 -/

/-- An index of the channel-sum array is in point `t`'s block iff each coordinate is in the block's range. -/
theorem mem_blk2_7 (t : Fin cfg2.N) (i : S8x64x1.Idx) :
    i ∈ ((cfg2.win 7).blk t).view.set ↔ ∀ a : Fin 3, win2_7.index t a * S1x64x1.size a ≤ (i a).val ∧ (i a).val < win2_7.index t a * S1x64x1.size a + S1x64x1.size a := by
  show i ∈ ((View.whole main_v623_1).slice (win2_7.rect t)).set ↔ _
  rw [View.set_slice_whole, Rect.mem_set_unit]
  exact Iff.rfl

/-- Point `t`'s block of the channel-sum array sits at `(t, p, q)`. -/
theorem emb_blk2_7 (t : Fin cfg2.N) (j : S1x64x1.Idx) :
    ((cfg2.win 7).blk t).view.emb j = ix3 (⟨t.val, lt_N2 t⟩ : Fin 8) (j 1) (j 2) := by
  obtain ⟨e0, e1, e2⟩ := index2_7 t
  funext a
  apply Fin.ext
  match a with
  | ⟨0, _⟩ => show win2_7.index t (0 : Fin 3) * 1 + 1 * (j 0).val = t.val; have hj : (j 0).val < 1 := (j 0).isLt; rw [e0]; omega
  | ⟨1, _⟩ => show win2_7.index t (1 : Fin 3) * 64 + 1 * (j 1).val = (j 1).val; rw [e1]; omega
  | ⟨2, _⟩ => show win2_7.index t (2 : Fin 3) * 1 + 1 * (j 2).val = (j 2).val; rw [e2]; omega

/-- Every index of the channel-sum array is in the block of the point its first coordinate names. -/
theorem cover2_7 (i : S8x64x1.Idx) : ∃ t : Fin cfg2.N, (cfg2.win 7).flush t = true ∧ i ∈ ((cfg2.win 7).blk t).view.set := by
  have hi0 : (i 0).val < 8 := (i 0).isLt
  have hi1 : (i 1).val < 64 := (i 1).isLt
  have hi2 : (i 2).val < 1 := (i 2).isLt
  obtain ⟨t₀, ht₀⟩ : ∃ t₀ : Fin cfg2.N, t₀.val = (i 0).val := ⟨⟨(i 0).val, Nat.lt_of_lt_of_eq hi0 N_2.symm⟩, rfl⟩
  refine ⟨t₀, flush2_7 t₀, ?_⟩
  rw [mem_blk2_7]
  obtain ⟨e0, e1, e2⟩ := index2_7 t₀
  intro a
  match a with
  | ⟨0, _⟩ => show win2_7.index _ (0 : Fin 3) * 1 ≤ (i 0).val ∧ (i 0).val < win2_7.index _ (0 : Fin 3) * 1 + 1; rw [e0]; omega
  | ⟨1, _⟩ => show win2_7.index _ (1 : Fin 3) * 64 ≤ (i 1).val ∧ (i 1).val < win2_7.index _ (1 : Fin 3) * 64 + 64; rw [e1]; omega
  | ⟨2, _⟩ => show win2_7.index _ (2 : Fin 3) * 1 ≤ (i 2).val ∧ (i 2).val < win2_7.index _ (2 : Fin 3) * 1 + 1; rw [e2]; omega

/-- Region 1's channel-sum array as one function of the activation array and the operands fetched whole. -/
def arr2_7 (A0 : S8x64x4864.Idx → Elt F .f32) (A1 : S64x1728.Idx → Elt F .f32) (A2 A3 : S64x1.Idx → Elt F .f32)
    (A4 : S1x4864.Idx → Elt F .f32) (A5 : S9x4096.Idx → Elt F .f32) : S8x64x1.Idx → Elt F .f32 := fun i =>
  O.o2_7 (slab A0 (i 0)) A1 A2 A3 A4 A5 (ix3 (0 : Fin 1) (i 1) (i 2))

/-- Under slab `n`, that function is the body's output block of the slab. -/
theorem arr2_7_slab (A0 : S8x64x4864.Idx → Elt F .f32) (A1 : S64x1728.Idx → Elt F .f32) (A2 A3 : S64x1.Idx → Elt F .f32)
    (A4 : S1x4864.Idx → Elt F .f32) (A5 : S9x4096.Idx → Elt F .f32) (n : Fin 8) (j : S1x64x1.Idx) :
    arr2_7 O A0 A1 A2 A3 A4 A5 (ix3 n (j 1) (j 2)) = O.o2_7 (slab A0 n) A1 A2 A3 A4 A5 j := by
  unfold arr2_7
  exact congrArg _ (ix3_zero_eq j)

/-- THE CHANNEL-SUM ARRAY of region 1 after the region. -/
theorem arrAt2_7 (c : Dev nD) :
    (dat2 O V c).arrAt 7 cfg2.N
      = arr2_7 O (V c main_v304_0) (V c main_v329) (V c main_v320) (V c main_v324) (V c main_v337) (V c main_v622) := by
  refine (dat2 O V c).arrAt_eq_of_cover 7
    (arr2_7 O (V c main_v304_0) (V c main_v329) (V c main_v320) (V c main_v324) (V c main_v337) (V c main_v622)) (fun t _ => ?_) (cover2_7)
  show (cfg2.win 7).cut (grid2.coords t) ((dat2 O V c).after 7 t) = _
  rw [after2_7, iblk2_0_eq, iblk2_1_eq, iblk2_2_eq, iblk2_3_eq, iblk2_4_eq, iblk2_5_eq]
  funext j
  rw [View.read_apply, emb_blk2_7]
  exact (arr2_7_slab O _ _ _ _ _ _ ⟨t.val, lt_N2 t⟩ j).symm

/-! ## The channel square sums: output window 8 -/

/-- An index of the channel-square-sum array is in point `t`'s block iff each coordinate is in the block's range. -/
theorem mem_blk2_8 (t : Fin cfg2.N) (i : S8x64x1.Idx) :
    i ∈ ((cfg2.win 8).blk t).view.set ↔ ∀ a : Fin 3, win2_8.index t a * S1x64x1.size a ≤ (i a).val ∧ (i a).val < win2_8.index t a * S1x64x1.size a + S1x64x1.size a := by
  show i ∈ ((View.whole main_v623_2).slice (win2_8.rect t)).set ↔ _
  rw [View.set_slice_whole, Rect.mem_set_unit]
  exact Iff.rfl

/-- Point `t`'s block of the channel-square-sum array sits at `(t, p, q)`. -/
theorem emb_blk2_8 (t : Fin cfg2.N) (j : S1x64x1.Idx) :
    ((cfg2.win 8).blk t).view.emb j = ix3 (⟨t.val, lt_N2 t⟩ : Fin 8) (j 1) (j 2) := by
  obtain ⟨e0, e1, e2⟩ := index2_8 t
  funext a
  apply Fin.ext
  match a with
  | ⟨0, _⟩ => show win2_8.index t (0 : Fin 3) * 1 + 1 * (j 0).val = t.val; have hj : (j 0).val < 1 := (j 0).isLt; rw [e0]; omega
  | ⟨1, _⟩ => show win2_8.index t (1 : Fin 3) * 64 + 1 * (j 1).val = (j 1).val; rw [e1]; omega
  | ⟨2, _⟩ => show win2_8.index t (2 : Fin 3) * 1 + 1 * (j 2).val = (j 2).val; rw [e2]; omega

/-- Every index of the channel-square-sum array is in the block of the point its first coordinate names. -/
theorem cover2_8 (i : S8x64x1.Idx) : ∃ t : Fin cfg2.N, (cfg2.win 8).flush t = true ∧ i ∈ ((cfg2.win 8).blk t).view.set := by
  have hi0 : (i 0).val < 8 := (i 0).isLt
  have hi1 : (i 1).val < 64 := (i 1).isLt
  have hi2 : (i 2).val < 1 := (i 2).isLt
  obtain ⟨t₀, ht₀⟩ : ∃ t₀ : Fin cfg2.N, t₀.val = (i 0).val := ⟨⟨(i 0).val, Nat.lt_of_lt_of_eq hi0 N_2.symm⟩, rfl⟩
  refine ⟨t₀, flush2_8 t₀, ?_⟩
  rw [mem_blk2_8]
  obtain ⟨e0, e1, e2⟩ := index2_8 t₀
  intro a
  match a with
  | ⟨0, _⟩ => show win2_8.index _ (0 : Fin 3) * 1 ≤ (i 0).val ∧ (i 0).val < win2_8.index _ (0 : Fin 3) * 1 + 1; rw [e0]; omega
  | ⟨1, _⟩ => show win2_8.index _ (1 : Fin 3) * 64 ≤ (i 1).val ∧ (i 1).val < win2_8.index _ (1 : Fin 3) * 64 + 64; rw [e1]; omega
  | ⟨2, _⟩ => show win2_8.index _ (2 : Fin 3) * 1 ≤ (i 2).val ∧ (i 2).val < win2_8.index _ (2 : Fin 3) * 1 + 1; rw [e2]; omega

/-- Region 1's channel-square-sum array as one function of the activation array and the operands fetched whole. -/
def arr2_8 (A0 : S8x64x4864.Idx → Elt F .f32) (A1 : S64x1728.Idx → Elt F .f32) (A2 A3 : S64x1.Idx → Elt F .f32)
    (A4 : S1x4864.Idx → Elt F .f32) (A5 : S9x4096.Idx → Elt F .f32) : S8x64x1.Idx → Elt F .f32 := fun i =>
  O.o2_8 (slab A0 (i 0)) A1 A2 A3 A4 A5 (ix3 (0 : Fin 1) (i 1) (i 2))

/-- Under slab `n`, that function is the body's output block of the slab. -/
theorem arr2_8_slab (A0 : S8x64x4864.Idx → Elt F .f32) (A1 : S64x1728.Idx → Elt F .f32) (A2 A3 : S64x1.Idx → Elt F .f32)
    (A4 : S1x4864.Idx → Elt F .f32) (A5 : S9x4096.Idx → Elt F .f32) (n : Fin 8) (j : S1x64x1.Idx) :
    arr2_8 O A0 A1 A2 A3 A4 A5 (ix3 n (j 1) (j 2)) = O.o2_8 (slab A0 n) A1 A2 A3 A4 A5 j := by
  unfold arr2_8
  exact congrArg _ (ix3_zero_eq j)

/-- THE CHANNEL-SQUARE-SUM ARRAY of region 1 after the region. -/
theorem arrAt2_8 (c : Dev nD) :
    (dat2 O V c).arrAt 8 cfg2.N
      = arr2_8 O (V c main_v304_0) (V c main_v329) (V c main_v320) (V c main_v324) (V c main_v337) (V c main_v622) := by
  refine (dat2 O V c).arrAt_eq_of_cover 8
    (arr2_8 O (V c main_v304_0) (V c main_v329) (V c main_v320) (V c main_v324) (V c main_v337) (V c main_v622)) (fun t _ => ?_) (cover2_8)
  show (cfg2.win 8).cut (grid2.coords t) ((dat2 O V c).after 8 t) = _
  rw [after2_8, iblk2_0_eq, iblk2_1_eq, iblk2_2_eq, iblk2_3_eq, iblk2_4_eq, iblk2_5_eq]
  funext j
  rw [View.read_apply, emb_blk2_8]
  exact (arr2_8_slab O _ _ _ _ _ _ ⟨t.val, lt_N2 t⟩ j).symm

end Region2

end Cert.ReferenceIdeal.Run

end
-- ==== Proof.ReferenceIdealArrays3.lean ====
import proofs.«157750_g2000200144022539_pallasbulk_675_13_alg».proof.Proof.ReferenceIdealArraysBase

set_option maxRecDepth 16384

noncomputable section

namespace Cert.ReferenceIdeal.Run

open Idealize.ShloMosaic Idealize.ShloMosaic.TcCoe
open Idealize.SL.Sem
open Idealize.ShloMosaic.Pipeline (Dat Cfg Window)
open Cert.ReferenceIdeal Cert.ReferenceIdeal.Gen
open Idealize.ShloMosaic.ValueIdx Cert.ReferenceIdeal.Idx

variable {F : FTy → Type} [FloatOps F]

section Region3
variable (O : Outs F) (V : (c : Dev nD) → (b : Ref sig .tc) → Buf (Elt F) ((c : Thread nD τ).loc b))

theorem lt_N3 (t : Fin cfg3.N) : t.val < 8 := Nat.lt_of_lt_of_eq t.isLt N_3

theorem index3 : ∀ t : Fin cfg3.N,
    win3_0.index t (0 : Fin 3) = t.val ∧ win3_0.index t (1 : Fin 3) = 0 ∧ win3_0.index t (2 : Fin 3) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 3) = t.val ∧ win3_3.index t (1 : Fin 3) = 0 ∧ win3_3.index t (2 : Fin 3) = 0 :=
  (by decide +kernel : ∀ t : Fin grid3.N, _)

theorem iblk3_0_eq (c : Dev nD) (t : Fin cfg3.N) :
    (iblk3 V c 0 t : Vec F S1x64x4096 .f32) = slab (V c main_v623_0 : S8x64x4096.Idx → Elt F .f32) ⟨t.val, lt_N3 t⟩ := by
  obtain ⟨e0, e1, e2, -⟩ := index3 t
  funext y
  unfold iblk3 slab
  rw [View.read_apply]
  show V c main_v623_0 _ = V c main_v623_0 _
  congr 1
  funext a
  apply Fin.ext
  match a with
  | ⟨0, _⟩ => show win3_0.index t (0 : Fin 3) * 1 + 1 * (y 0).val = t.val; have hy : (y 0).val < 1 := (y 0).isLt; rw [e0]; omega
  | ⟨1, _⟩ => show win3_0.index t (1 : Fin 3) * 64 + 1 * (y 1).val = (y 1).val; rw [e1]; omega
  | ⟨2, _⟩ => show win3_0.index t (2 : Fin 3) * 4096 + 1 * (y 2).val = (y 2).val; rw [e2]; omega

theorem iblk3_1_eq (c : Dev nD) (t : Fin cfg3.N) : (iblk3 V c 1 t : Vec F S64x1 .f32) = V c main_v639 := by
  obtain ⟨-, -, -, e0, e1, -⟩ := index3 t
  funext y
  unfold iblk3
  rw [View.read_apply]
  show V c main_v639 _ = V c main_v639 _
  congr 1
  funext a
  apply Fin.ext
  match a with
  | ⟨0, _⟩ => show win3_1.index t (0 : Fin 2) * 64 + 1 * (y 0).val = (y 0).val; rw [e0]; omega
  | ⟨1, _⟩ => show win3_1.index t (1 : Fin 2) * 1 + 1 * (y 1).val = (y 1).val; rw [e1]; omega

theorem iblk3_2_eq (c : Dev nD) (t : Fin cfg3.N) : (iblk3 V c 2 t : Vec F S64x1 .f32) = V c main_v643 := by
  obtain ⟨-, -, -, -, -, e0, e1, -⟩ := index3 t
  funext y
  unfold iblk3
  rw [View.read_apply]
  show V c main_v643 _ = V c main_v643 _
  congr 1
  funext a
  apply Fin.ext
  match a with
  | ⟨0, _⟩ => show win3_2.index t (0 : Fin 2) * 64 + 1 * (y 0).val = (y 0).val; rw [e0]; omega
  | ⟨1, _⟩ => show win3_2.index t (1 : Fin 2) * 1 + 1 * (y 1).val = (y 1).val; rw [e1]; omega

theorem mem_blk3_3 (t : Fin cfg3.N) (i : S8x64x4096.Idx) :
    i ∈ ((cfg3.win 3).blk t).view.set ↔ ∀ a : Fin 3, win3_3.index t a * S1x64x4096.size a ≤ (i a).val ∧ (i a).val < win3_3.index t a * S1x64x4096.size a + S1x64x4096.size a := by
  show i ∈ ((View.whole main_v644).slice (win3_3.rect t)).set ↔ _
  rw [View.set_slice_whole, Rect.mem_set_unit]
  exact Iff.rfl

theorem emb_blk3_3 (t : Fin cfg3.N) (j : S1x64x4096.Idx) :
    ((cfg3.win 3).blk t).view.emb j = ix3 (⟨t.val, lt_N3 t⟩ : Fin 8) (j 1) (j 2) := by
  obtain ⟨-, -, -, -, -, -, -, e0, e1, e2⟩ := index3 t
  funext a
  apply Fin.ext
  match a with
  | ⟨0, _⟩ => show win3_3.index t (0 : Fin 3) * 1 + 1 * (j 0).val = t.val; have hj : (j 0).val < 1 := (j 0).isLt; rw [e0]; omega
  | ⟨1, _⟩ => show win3_3.index t (1 : Fin 3) * 64 + 1 * (j 1).val = (j 1).val; rw [e1]; omega
  | ⟨2, _⟩ => show win3_3.index t (2 : Fin 3) * 4096 + 1 * (j 2).val = (j 2).val; rw [e2]; omega

theorem cover3_3 (i : S8x64x4096.Idx) : ∃ t : Fin cfg3.N, (cfg3.win 3).flush t = true ∧ i ∈ ((cfg3.win 3).blk t).view.set := by
  have hi0 : (i 0).val < 8 := (i 0).isLt
  have hi1 : (i 1).val < 64 := (i 1).isLt
  have hi2 : (i 2).val < 4096 := (i 2).isLt
  obtain ⟨t₀, ht₀⟩ : ∃ t₀ : Fin cfg3.N, t₀.val = (i 0).val := ⟨⟨(i 0).val, Nat.lt_of_lt_of_eq hi0 N_3.symm⟩, rfl⟩
  refine ⟨t₀, flush3_3 t₀, ?_⟩
  rw [mem_blk3_3]
  obtain ⟨-, -, -, -, -, -, -, e0, e1, e2⟩ := index3 t₀
  intro a
  match a with
  | ⟨0, _⟩ => show win3_3.index _ (0 : Fin 3) * 1 ≤ (i 0).val ∧ (i 0).val < win3_3.index _ (0 : Fin 3) * 1 + 1; rw [e0]; omega
  | ⟨1, _⟩ => show win3_3.index _ (1 : Fin 3) * 64 ≤ (i 1).val ∧ (i 1).val < win3_3.index _ (1 : Fin 3) * 64 + 64; rw [e1]; omega
  | ⟨2, _⟩ => show win3_3.index _ (2 : Fin 3) * 4096 ≤ (i 2).val ∧ (i 2).val < win3_3.index _ (2 : Fin 3) * 4096 + 4096; rw [e2]; omega

def arr3_3 (A : S8x64x4096.Idx → Elt F .f32) (sc sh : S64x1.Idx → Elt F .f32) : S8x64x4096.Idx → Elt F .f32 := fun i =>
  O.o3_3 (slab A (i 0)) sc sh (ix3 (0 : Fin 1) (i 1) (i 2))

theorem arr3_3_slab (A : S8x64x4096.Idx → Elt F .f32) (sc sh : S64x1.Idx → Elt F .f32) (n : Fin 8) (j : S1x64x4096.Idx) :
    arr3_3 O A sc sh (ix3 n (j 1) (j 2)) = O.o3_3 (slab A n) sc sh j := by
  unfold arr3_3
  exact congrArg _ (ix3_zero_eq j)

theorem arrAt3_3 (c : Dev nD) :
    (dat3 O V c).arrAt 3 cfg3.N = arr3_3 O (V c main_v623_0) (V c main_v639) (V c main_v643) := by
  refine (dat3 O V c).arrAt_eq_of_cover 3 (arr3_3 O (V c main_v623_0) (V c main_v639) (V c main_v643)) (fun t _ => ?_) (cover3_3)
  show (cfg3.win 3).cut (grid3.coords t) ((dat3 O V c).after 3 t) = _
  rw [after3_3, iblk3_0_eq, iblk3_1_eq, iblk3_2_eq]
  funext j
  rw [View.read_apply, emb_blk3_3]
  exact (arr3_3_slab O _ _ _ ⟨t.val, lt_N3 t⟩ j).symm

end Region3

end Cert.ReferenceIdeal.Run

end
-- ==== Proof.ReferenceIdealArrays.lean ====
import proofs.«157750_g2000200144022539_pallasbulk_675_13_alg».proof.Proof.ReferenceIdealArrays0
import proofs.«157750_g2000200144022539_pallasbulk_675_13_alg».proof.Proof.ReferenceIdealArrays1
import proofs.«157750_g2000200144022539_pallasbulk_675_13_alg».proof.Proof.ReferenceIdealArrays2
import proofs.«157750_g2000200144022539_pallasbulk_675_13_alg».proof.Proof.ReferenceIdealArrays3
-- ==== Proof.ReferenceIdealConsts.lean ====
import Idealize.ShloMosaic.Lib.StableHlo
import Idealize.ShloMosaic.Lib.ValueIdx
import Idealize.ShloMosaic.PureOps.Ideal

noncomputable section

namespace Cert.ReferenceIdeal.Consts

open Idealize.ShloMosaic Idealize.ShloMosaic.ValueIdx

abbrev S1x4864 : Shape := ⟨2, ![1, 4864]⟩
abbrev S32x1 : Shape := ⟨2, ![32, 1]⟩
abbrev S9x4096 : Shape := ⟨2, ![9, 4096]⟩
abbrev S8x32x32x32x32 : Shape := ⟨5, ![8, 32, 32, 32, 32]⟩
abbrev S256x16x2x16x2x16x2 : Shape := ⟨7, ![256, 16, 2, 16, 2, 16, 2]⟩
abbrev S256x16x16x16x1 : Shape := ⟨5, ![256, 16, 16, 16, 1]⟩
abbrev S8x32x4864 : Shape := ⟨3, ![8, 32, 4864]⟩
abbrev S64x32x3x3x3 : Shape := ⟨5, ![64, 32, 3, 3, 3]⟩
abbrev S64x864 : Shape := ⟨2, ![64, 864]⟩
abbrev S64x64x3x3x3 : Shape := ⟨5, ![64, 64, 3, 3, 3]⟩
abbrev S64x1728 : Shape := ⟨2, ![64, 1728]⟩

def validRC : Vec Ideal S1x4864 .f32 :=
  fun i => if 384 ≤ (i 1).val ∧ (i 1).val < 4480 then (1 : EReal) else 0

def zerosC : Vec Ideal S32x1 .f32 :=
  fun _ => (0 : EReal)

def maskRC : Vec Ideal S9x4096 .f32 :=
  fun i => if 1 ≤ (i 1).val / 16 % 16 + (i 0).val / 3 ∧ (i 1).val / 16 % 16 + (i 0).val / 3 < 17
      ∧ 1 ≤ (i 1).val % 16 + (i 0).val % 3 ∧ (i 1).val % 16 + (i 0).val % 3 < 17 then (1 : EReal) else 0

def x7Of (x : Vec Ideal S8x32x32x32x32 .f32) : Vec Ideal S256x16x2x16x2x16x2 .f32 :=
  fun j => x (ix5 (⟨(j 0).val / 32, by have h : (j 0).val < 256 := (j 0).isLt; omega⟩ : Fin 8)
    (⟨(j 0).val % 32, Nat.mod_lt _ (by decide)⟩ : Fin 32)
    (⟨2 * (j 1).val + (j 2).val, by have h1 : (j 1).val < 16 := (j 1).isLt; have h2 : (j 2).val < 2 := (j 2).isLt; omega⟩ : Fin 32)
    (⟨2 * (j 3).val + (j 4).val, by have h1 : (j 3).val < 16 := (j 3).isLt; have h2 : (j 4).val < 2 := (j 4).isLt; omega⟩ : Fin 32)
    (⟨2 * (j 5).val + (j 6).val, by have h1 : (j 5).val < 16 := (j 5).isLt; have h2 : (j 6).val < 2 := (j 6).isLt; omega⟩ : Fin 32))

def pHalOf (P : Vec Ideal S256x16x16x16x1 .f32) : Vec Ideal S8x32x4864 .f32 :=
  fun i => if h : 384 ≤ (i 2).val ∧ (i 2).val < 4480 then
      P (ix5 (⟨(i 0).val * 32 + (i 1).val, by have h0 : (i 0).val < 8 := (i 0).isLt; have h1 : (i 1).val < 32 := (i 1).isLt; omega⟩ : Fin 256)
        (⟨((i 2).val - 384) / 256, by have := h.2; omega⟩ : Fin 16)
        (⟨((i 2).val - 384) / 16 % 16, Nat.mod_lt _ (by decide)⟩ : Fin 16)
        (⟨((i 2).val - 384) % 16, Nat.mod_lt _ (by decide)⟩ : Fin 16) (0 : Fin 1))
    else (0 : EReal)

def w27Of1 (w : Vec Ideal S64x32x3x3x3 .f32) : Vec Ideal S64x864 .f32 :=
  fun i => w (ix5 (i 0 : Fin 64) (⟨(i 1).val % 32, Nat.mod_lt _ (by decide)⟩ : Fin 32)
    (⟨(i 1).val / 32 / 9, by have h : (i 1).val < 864 := (i 1).isLt; omega⟩ : Fin 3)
    (⟨(i 1).val / 32 % 9 / 3, by omega⟩ : Fin 3) (⟨(i 1).val / 32 % 3, Nat.mod_lt _ (by decide)⟩ : Fin 3))

def w27Of2 (w : Vec Ideal S64x64x3x3x3 .f32) : Vec Ideal S64x1728 .f32 :=
  fun i => w (ix5 (i 0 : Fin 64) (⟨(i 1).val % 64, Nat.mod_lt _ (by decide)⟩ : Fin 64)
    (⟨(i 1).val / 64 / 9, by have h : (i 1).val < 1728 := (i 1).isLt; omega⟩ : Fin 3)
    (⟨(i 1).val / 64 % 9 / 3, by omega⟩ : Fin 3) (⟨(i 1).val / 64 % 3, Nat.mod_lt _ (by decide)⟩ : Fin 3))

end Cert.ReferenceIdeal.Consts

end
-- ==== Proof.ReferenceIdealBn.lean ====
import proofs.«157750_g2000200144022539_pallasbulk_675_13_alg».proof.Proof.Gen.ReferenceIdeal.Launch
import proofs.«157750_g2000200144022539_pallasbulk_675_13_alg».proof.Proof.BnFold
import Idealize.ShloMosaic.Lib.StableHlo.Run
import Idealize.ShloMosaic.Lib.KernelVsHost

set_option maxRecDepth 16384

noncomputable section

namespace Cert.ReferenceIdeal.Host

open Idealize.ShloMosaic Idealize.ShloMosaic.TcCoe Idealize.ShloMosaic.ValueIdx
open Cert.ReferenceIdeal Cert.ReferenceIdeal.Gen Cert.BnFold

theorem pad_none_S64 {α : Type} (x : Cert.BnFold.S64.Idx → α) {u : Shape} (v : u.Idx → α)
    (h : Cert.BnFold.S64.Pads (![0] : Fin 1 → Nat) ![0] ![0] Cert.BnFold.S64) (hu : 0 < u.numel) :
    pad Cert.BnFold.S64 ![0] ![0] ![0] x v h hu = x := by
  funext j
  refine pad_apply_of_inside _ _ _ x v h hu j j fun a => ?_
  match a with
  | ⟨0, _⟩ =>
    show (j 0).val = 0 + (j 0).val * (0 + 1)
    omega

section Folds
variable {F : FTy → Type} [FloatOps F] (V : Valuation τ sig (Elt F))

abbrev P1 : Valuation τ sig (Elt F) := StableHlo.after (main_part7_ops1 (F := F)) V

abbrev P2 : Valuation τ sig (Elt F) := StableHlo.after (main_part7_ops2 (F := F)) (P1 V)

abbrev P3 : Valuation τ sig (Elt F) := StableHlo.after (main_part7_ops3 (F := F)) (P2 V)

abbrev P4 : Valuation τ sig (Elt F) := StableHlo.after (main_part7_ops4 (F := F)) (P3 V)

abbrev P5 : Valuation τ sig (Elt F) := StableHlo.after (main_part7_ops5 (F := F)) (P4 V)

abbrev Q1 : Valuation τ sig (Elt F) := StableHlo.after (main_part14_ops1 (F := F)) V

abbrev Q2 : Valuation τ sig (Elt F) := StableHlo.after (main_part15_ops0 (F := F)) (Q1 V)

abbrev Q3 : Valuation τ sig (Elt F) := StableHlo.after (main_part15_ops1 (F := F)) (Q2 V)

abbrev Q4 : Valuation τ sig (Elt F) := StableHlo.after (main_part15_ops2 (F := F)) (Q3 V)

abbrev Q5 : Valuation τ sig (Elt F) := StableHlo.after (main_part15_ops3 (F := F)) (Q4 V)

abbrev T1 : Valuation τ sig (Elt F) := StableHlo.after (main_part15_ops4 (F := F)) V

end Folds

section Values
variable (V : Valuation τ sig (Elt Ideal))

abbrev padZero : FVec Ideal Cert.BnFold.S_ .f32 := sitofp (F := Ideal) .f32 (constantI Cert.BnFold.S_ 32 0#32)

theorem P5_main_v320_pad :
    (P5 V (Proc.devRef .tc main_v320) : Vec Ideal Cert.BnFold.S64x1 .f32)
      = shapeCast Cert.BnFold.S64x1
          (pad Cert.BnFold.S64 ![0] ![0] ![0]
            (bnInv (V (Proc.devRef .tc main_v304_1)) (V (Proc.devRef .tc main_v304_2)) (V (Proc.devRef .tc main_arg2)))
            padZero pads_S64_S64_000 h_S_) casts_S64_S64x1 := by
  dsimp only [P5, P4, P3, P2, P1, main_part7_ops5, main_part7_ops4, main_part7_ops3, main_part7_ops2, main_part7_ops1]
  after_results_simp
  rfl

theorem P5_main_v320 :
    (P5 V (Proc.devRef .tc main_v320) : Vec Ideal Cert.BnFold.S64x1 .f32)
      = bnScale (V (Proc.devRef .tc main_v304_1)) (V (Proc.devRef .tc main_v304_2)) (V (Proc.devRef .tc main_arg2)) := by
  rw [P5_main_v320_pad, pad_none_S64]
  rfl

theorem P5_main_v324_pad :
    (P5 V (Proc.devRef .tc main_v324) : Vec Ideal Cert.BnFold.S64x1 .f32)
      = shapeCast Cert.BnFold.S64x1
          (pad Cert.BnFold.S64 ![0] ![0] ![0]
            (subf (F := Ideal) (φ := .f32) (V (Proc.devRef .tc main_arg3))
              (mulf (F := Ideal) (φ := .f32) (bnMean (V (Proc.devRef .tc main_v304_1)))
                (bnInv (V (Proc.devRef .tc main_v304_1)) (V (Proc.devRef .tc main_v304_2)) (V (Proc.devRef .tc main_arg2)))))
            padZero pads_S64_S64_000 h_S_) casts_S64_S64x1 := by
  dsimp only [P5, P4, P3, P2, P1, main_part7_ops5, main_part7_ops4, main_part7_ops3, main_part7_ops2, main_part7_ops1]
  after_results_simp
  rfl

theorem P5_main_v324 :
    (P5 V (Proc.devRef .tc main_v324) : Vec Ideal Cert.BnFold.S64x1 .f32)
      = bnShift (V (Proc.devRef .tc main_v304_1)) (V (Proc.devRef .tc main_v304_2)) (V (Proc.devRef .tc main_arg2)) (V (Proc.devRef .tc main_arg3)) := by
  rw [P5_main_v324_pad, pad_none_S64]
  rfl

theorem Q5_main_v639_pad :
    (Q5 V (Proc.devRef .tc main_v639) : Vec Ideal Cert.BnFold.S64x1 .f32)
      = shapeCast Cert.BnFold.S64x1
          (pad Cert.BnFold.S64 ![0] ![0] ![0]
            (bnInv (V (Proc.devRef .tc main_v623_1)) (V (Proc.devRef .tc main_v623_2)) (V (Proc.devRef .tc main_arg5)))
            padZero pads_S64_S64_000 h_S_) casts_S64_S64x1 := by
  dsimp only [Q5, Q4, Q3, Q2, Q1, main_part15_ops3, main_part15_ops2, main_part15_ops1, main_part15_ops0, main_part14_ops1]
  after_results_simp
  rfl

theorem Q5_main_v639 :
    (Q5 V (Proc.devRef .tc main_v639) : Vec Ideal Cert.BnFold.S64x1 .f32)
      = bnScale (V (Proc.devRef .tc main_v623_1)) (V (Proc.devRef .tc main_v623_2)) (V (Proc.devRef .tc main_arg5)) := by
  rw [Q5_main_v639_pad, pad_none_S64]
  rfl

theorem Q5_main_v643_pad :
    (Q5 V (Proc.devRef .tc main_v643) : Vec Ideal Cert.BnFold.S64x1 .f32)
      = shapeCast Cert.BnFold.S64x1
          (pad Cert.BnFold.S64 ![0] ![0] ![0]
            (subf (F := Ideal) (φ := .f32) (V (Proc.devRef .tc main_arg6))
              (mulf (F := Ideal) (φ := .f32) (bnMean (V (Proc.devRef .tc main_v623_1)))
                (bnInv (V (Proc.devRef .tc main_v623_1)) (V (Proc.devRef .tc main_v623_2)) (V (Proc.devRef .tc main_arg5)))))
            padZero pads_S64_S64_000 h_S_) casts_S64_S64x1 := by
  dsimp only [Q5, Q4, Q3, Q2, Q1, main_part15_ops3, main_part15_ops2, main_part15_ops1, main_part15_ops0, main_part14_ops1]
  after_results_simp
  rfl

theorem Q5_main_v643 :
    (Q5 V (Proc.devRef .tc main_v643) : Vec Ideal Cert.BnFold.S64x1 .f32)
      = bnShift (V (Proc.devRef .tc main_v623_1)) (V (Proc.devRef .tc main_v623_2)) (V (Proc.devRef .tc main_arg5)) (V (Proc.devRef .tc main_arg6)) := by
  rw [Q5_main_v643_pad, pad_none_S64]
  rfl

theorem T1_main_v645 :
    (T1 V (Proc.devRef .tc main_v645) : Vec Ideal Cert.BnFold.S8x64x16x16x16 .f32)
      = shapeCast Cert.BnFold.S8x64x16x16x16 (V (Proc.devRef .tc main_v644) : Vec Ideal Cert.BnFold.S8x64x4096 .f32)
          casts_S8x64x4096_S8x64x16x16x16 := by
  dsimp only [T1, main_part15_ops4]
  after_results_simp
  rfl

theorem T1_main_v645_apply (n : Fin 8) (o : Fin 64) (d h w : Fin 16) :
    (T1 V (Proc.devRef .tc main_v645) : Vec Ideal Cert.BnFold.S8x64x16x16x16 .f32) (ix5 n o d h w)
      = (V (Proc.devRef .tc main_v644) : Vec Ideal Cert.BnFold.S8x64x4096 .f32) (ix3 n o (voxelLane d h w)) := by
  rw [T1_main_v645, unflatten_apply]

end Values

section Frame
variable {F : FTy → Type} [FloatOps F] (V : Valuation τ sig (Elt F))

end Frame

end Cert.ReferenceIdeal.Host

end
-- ==== Proof.ReferenceIdealLayout.lean ====
import proofs.«157750_g2000200144022539_pallasbulk_675_13_alg».proof.Proof.ReferenceIdealHostWrites
import Idealize.ShloMosaic.Lib.Pipeline.Value
import Idealize.ShloMosaic.Lib.ValueIdx
import Idealize.ShloMosaic.Lib.ValueLayout
import Idealize.ShloMosaic.Lib.KernelVsHost

set_option maxRecDepth 16384

noncomputable section

namespace Cert.ReferenceIdeal.Host

open Cert.ReferenceIdeal Cert.ReferenceIdeal.Gen
open Idealize.ShloMosaic Idealize.ShloMosaic.TcCoe Idealize.ShloMosaic.ValueIdx

variable {F : FTy → Type} [FloatOps F]

theorem rowMajor7_val {d : Fin 7 → ℕ} (i : (⟨7, d⟩ : Shape).Idx) :
    ((⟨7, d⟩ : Shape).rowMajor i).val
      = ((((((i 0).val * d 1 + (i 1).val) * d 2 + (i 2).val) * d 3 + (i 3).val) * d 4 + (i 4).val) * d 5
          + (i 5).val) * d 6 + (i 6).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val]
  simp [Shape.rowMajorPi_zero, Fin.prod_univ_succ, Nat.add_mul, Nat.mul_assoc, Nat.add_assoc]

theorem after_main_v0 (V : Valuation τ sig (Elt F)) :
    (StableHlo.after main_part0_ops0 V (Proc.devRef .tc main_v0) : Vec F S256x16x2x16x2x16x2 .f32)
      = shapeCast S256x16x2x16x2x16x2 (V (Proc.devRef .tc main_arg0) : Vec F S8x32x32x32x32 .f32) shapeCasts_S8x32x32x32x32_S256x16x2x16x2x16x2 := by
  simp only [main_part0_ops0]
  after_results
  rfl

theorem after_main_v2 (V : Valuation τ sig (Elt F)) :
    (StableHlo.after main_part0_ops1 V (Proc.devRef .tc main_v2) : Vec F S8x32x4096 .f32)
      = shapeCast S8x32x4096 (V (Proc.devRef .tc main_v1) : Vec F S256x16x16x16x1 .f32) shapeCasts_S256x16x16x16x1_S8x32x4096 := by
  simp only [main_part0_ops1]
  after_results
  rfl

theorem after_main_c (V : Valuation τ sig (Elt F)) :
    (StableHlo.after main_part0_ops1 V (Proc.devRef .tc main_c) : IVec S_ 32) = constantI S_ 32 0#32 := by
  simp only [main_part0_ops1]
  after_results

theorem after_main_v3 (V : Valuation τ sig (Elt F)) :
    (StableHlo.after main_part0_ops2 V (Proc.devRef .tc main_v3) : Vec F S8x32x4864 .f32)
      = pad S8x32x4864 ![0, 0, 384] ![0, 0, 384] ![0, 0, 0] (V (Proc.devRef .tc main_v2) : Vec F S8x32x4096 .f32)
          (sitofp .f32 (V (Proc.devRef .tc main_c) : IVec S_ 32) : Vec F S_ .f32) pads_S8x32x4096_S8x32x4864_000_000_3843840 h_S_ := by
  simp only [main_part0_ops2]
  after_results
  rfl

theorem after_main_v5 (V : Valuation τ sig (Elt F)) :
    (StableHlo.after main_part0_ops3 V (Proc.devRef .tc main_v5) : Vec F S27x64x32 .f32)
      = shapeCast S27x64x32 (transpose (s := S64x32x3x3x3) S3x3x3x64x32 [2, 3, 4, 0, 1] (V (Proc.devRef .tc main_arg1) : Vec F S64x32x3x3x3 .f32)
          transposes_S64x32x3x3x3_S3x3x3x64x32_2_3_4_0_1) shapeCasts_S3x3x3x64x32_S27x64x32 := by
  simp only [main_part0_ops3]
  after_results
  rfl

theorem after_main_v6 (V : Valuation τ sig (Elt F)) :
    (StableHlo.after main_part0_ops4 V (Proc.devRef .tc main_v6) : Vec F S27x64x32 .f32)
      = pad S27x64x32 ![0, 0, 0] ![0, 0, 0] ![0, 0, 0] (V (Proc.devRef .tc main_v5) : Vec F S27x64x32 .f32)
          (sitofp .f32 (V (Proc.devRef .tc main_c_0) : IVec S_ 32) : Vec F S_ .f32) pads_S27x64x32_S27x64x32_000_000_000 h_S_ := by
  simp only [main_part0_ops4]
  after_results
  rfl

theorem after_main_v8 (V : Valuation τ sig (Elt F)) :
    (StableHlo.after main_part0_ops5 V (Proc.devRef .tc main_v8) : Vec F S64x864 .f32)
      = shapeCast S64x864 (transpose (s := S27x64x32) S64x27x32 [1, 0, 2] (V (Proc.devRef .tc main_v6) : Vec F S27x64x32 .f32)
          transposes_S27x64x32_S64x27x32_1_0_2) shapeCasts_S64x27x32_S64x864 := by
  simp only [main_part0_ops5]
  after_results_simp
  rfl

theorem fold_w27_32_apply {α : Type} (w : S64x32x3x3x3.Idx → α) {u : Shape} (z : u.Idx → α) (hu : 0 < u.numel)
    (h1 : S64x32x3x3x3.Transposes [2, 3, 4, 0, 1] S3x3x3x64x32) (h2 : S3x3x3x64x32.ShapeCasts S27x64x32)
    (hp : S27x64x32.Pads (![0, 0, 0] : Fin 3 → Nat) ![0, 0, 0] ![0, 0, 0] S27x64x32)
    (h3 : S27x64x32.Transposes [1, 0, 2] S64x27x32) (h4 : S64x27x32.ShapeCasts S64x864)
    (o : Fin 64) (r : Fin 864) (i : Fin 32) (kd kh kw : Fin 3) (hr : r.val = ((kd.val * 3 + kh.val) * 3 + kw.val) * 32 + i.val) :
    shapeCast S64x864 (transpose S64x27x32 [1, 0, 2] (pad S27x64x32 ![0, 0, 0] ![0, 0, 0] ![0, 0, 0] (shapeCast S27x64x32
        (transpose S3x3x3x64x32 [2, 3, 4, 0, 1] w h1) h2) z hp hu) h3) h4 (ix2 o r)
      = w (ix5 o i kd kh kw) := by
  have ht : (kd.val * 3 + kh.val) * 3 + kw.val < 27 := by have := kd.isLt; have := kh.isLt; have := kw.isLt; omega
  refine (shapeCast_apply (s := S64x27x32) (t := S64x864) _ h4 (ix2 o r) (ix3 o ⟨(kd.val * 3 + kh.val) * 3 + kw.val, ht⟩ i) ?_).trans ?_
  · rw [Shape.rowMajor_val_three, Shape.rowMajor_val_two]
    show (o.val * 27 + ((kd.val * 3 + kh.val) * 3 + kw.val)) * 32 + i.val = o.val * 864 + r.val
    omega
  refine (transpose_apply (s := S27x64x32) (t := S64x27x32) _ _ h3 (ix3 o ⟨(kd.val * 3 + kh.val) * 3 + kw.val, ht⟩ i) (ix3 ⟨(kd.val * 3 + kh.val) * 3 + kw.val, ht⟩ o i)
    fun b => match b with | ⟨0, _⟩ => rfl | ⟨1, _⟩ => rfl | ⟨2, _⟩ => rfl).trans ?_
  refine (pad_apply_of_inside (s := S27x64x32) (t := S27x64x32) _ _ _ _ z hp hu (ix3 ⟨(kd.val * 3 + kh.val) * 3 + kw.val, ht⟩ o i) (ix3 ⟨(kd.val * 3 + kh.val) * 3 + kw.val, ht⟩ o i)
    fun a => match a with
      | ⟨0, _⟩ => by show (kd.val * 3 + kh.val) * 3 + kw.val = 0 + ((kd.val * 3 + kh.val) * 3 + kw.val) * (0 + 1); omega
      | ⟨1, _⟩ => by show o.val = 0 + o.val * (0 + 1); omega
      | ⟨2, _⟩ => by show i.val = 0 + i.val * (0 + 1); omega).trans ?_
  refine (shapeCast_apply (s := S3x3x3x64x32) (t := S27x64x32) _ h2 (ix3 ⟨(kd.val * 3 + kh.val) * 3 + kw.val, ht⟩ o i) (ix5 kd kh kw o i) ?_).trans ?_
  · rw [Shape.rowMajor_val_five, Shape.rowMajor_val_three]
    show (((kd.val * 3 + kh.val) * 3 + kw.val) * 64 + o.val) * 32 + i.val = (((kd.val * 3 + kh.val) * 3 + kw.val) * 64 + o.val) * 32 + i.val
    rfl
  exact transpose_apply (s := S64x32x3x3x3) (t := S3x3x3x64x32) _ w h1 (ix5 kd kh kw o i) (ix5 o i kd kh kw)
    fun b => match b with | ⟨0, _⟩ => rfl | ⟨1, _⟩ => rfl | ⟨2, _⟩ => rfl | ⟨3, _⟩ => rfl | ⟨4, _⟩ => rfl

theorem after_main_v326 (V : Valuation τ sig (Elt F)) :
    (StableHlo.after main_part7_ops5 V (Proc.devRef .tc main_v326) : Vec F S27x64x64 .f32)
      = shapeCast S27x64x64 (transpose (s := S64x64x3x3x3) S3x3x3x64x64 [2, 3, 4, 0, 1] (V (Proc.devRef .tc main_arg4) : Vec F S64x64x3x3x3 .f32)
          transposes_S64x64x3x3x3_S3x3x3x64x64_2_3_4_0_1) shapeCasts_S3x3x3x64x64_S27x64x64 := by
  simp only [main_part7_ops5]
  after_results
  rfl

theorem after_main_v327 (V : Valuation τ sig (Elt F)) :
    (StableHlo.after main_part7_ops6 V (Proc.devRef .tc main_v327) : Vec F S27x64x64 .f32)
      = pad S27x64x64 ![0, 0, 0] ![0, 0, 0] ![0, 0, 0] (V (Proc.devRef .tc main_v326) : Vec F S27x64x64 .f32)
          (sitofp .f32 (V (Proc.devRef .tc main_c_131) : IVec S_ 32) : Vec F S_ .f32) pads_S27x64x64_S27x64x64_000_000_000 h_S_ := by
  simp only [main_part7_ops6]
  after_results
  rfl

theorem after_main_v329 (V : Valuation τ sig (Elt F)) :
    (StableHlo.after main_part7_ops7 V (Proc.devRef .tc main_v329) : Vec F S64x1728 .f32)
      = shapeCast S64x1728 (transpose (s := S27x64x64) S64x27x64 [1, 0, 2] (V (Proc.devRef .tc main_v327) : Vec F S27x64x64 .f32)
          transposes_S27x64x64_S64x27x64_1_0_2) shapeCasts_S64x27x64_S64x1728 := by
  simp only [main_part7_ops7]
  after_results_simp
  rfl

theorem fold_w27_64_apply {α : Type} (w : S64x64x3x3x3.Idx → α) {u : Shape} (z : u.Idx → α) (hu : 0 < u.numel)
    (h1 : S64x64x3x3x3.Transposes [2, 3, 4, 0, 1] S3x3x3x64x64) (h2 : S3x3x3x64x64.ShapeCasts S27x64x64)
    (hp : S27x64x64.Pads (![0, 0, 0] : Fin 3 → Nat) ![0, 0, 0] ![0, 0, 0] S27x64x64)
    (h3 : S27x64x64.Transposes [1, 0, 2] S64x27x64) (h4 : S64x27x64.ShapeCasts S64x1728)
    (o : Fin 64) (r : Fin 1728) (i : Fin 64) (kd kh kw : Fin 3) (hr : r.val = ((kd.val * 3 + kh.val) * 3 + kw.val) * 64 + i.val) :
    shapeCast S64x1728 (transpose S64x27x64 [1, 0, 2] (pad S27x64x64 ![0, 0, 0] ![0, 0, 0] ![0, 0, 0] (shapeCast S27x64x64
        (transpose S3x3x3x64x64 [2, 3, 4, 0, 1] w h1) h2) z hp hu) h3) h4 (ix2 o r)
      = w (ix5 o i kd kh kw) := by
  have ht : (kd.val * 3 + kh.val) * 3 + kw.val < 27 := by have := kd.isLt; have := kh.isLt; have := kw.isLt; omega
  refine (shapeCast_apply (s := S64x27x64) (t := S64x1728) _ h4 (ix2 o r) (ix3 o ⟨(kd.val * 3 + kh.val) * 3 + kw.val, ht⟩ i) ?_).trans ?_
  · rw [Shape.rowMajor_val_three, Shape.rowMajor_val_two]
    show (o.val * 27 + ((kd.val * 3 + kh.val) * 3 + kw.val)) * 64 + i.val = o.val * 1728 + r.val
    omega
  refine (transpose_apply (s := S27x64x64) (t := S64x27x64) _ _ h3 (ix3 o ⟨(kd.val * 3 + kh.val) * 3 + kw.val, ht⟩ i) (ix3 ⟨(kd.val * 3 + kh.val) * 3 + kw.val, ht⟩ o i)
    fun b => match b with | ⟨0, _⟩ => rfl | ⟨1, _⟩ => rfl | ⟨2, _⟩ => rfl).trans ?_
  refine (pad_apply_of_inside (s := S27x64x64) (t := S27x64x64) _ _ _ _ z hp hu (ix3 ⟨(kd.val * 3 + kh.val) * 3 + kw.val, ht⟩ o i) (ix3 ⟨(kd.val * 3 + kh.val) * 3 + kw.val, ht⟩ o i)
    fun a => match a with
      | ⟨0, _⟩ => by show (kd.val * 3 + kh.val) * 3 + kw.val = 0 + ((kd.val * 3 + kh.val) * 3 + kw.val) * (0 + 1); omega
      | ⟨1, _⟩ => by show o.val = 0 + o.val * (0 + 1); omega
      | ⟨2, _⟩ => by show i.val = 0 + i.val * (0 + 1); omega).trans ?_
  refine (shapeCast_apply (s := S3x3x3x64x64) (t := S27x64x64) _ h2 (ix3 ⟨(kd.val * 3 + kh.val) * 3 + kw.val, ht⟩ o i) (ix5 kd kh kw o i) ?_).trans ?_
  · rw [Shape.rowMajor_val_five, Shape.rowMajor_val_three]
    show (((kd.val * 3 + kh.val) * 3 + kw.val) * 64 + o.val) * 64 + i.val = (((kd.val * 3 + kh.val) * 3 + kw.val) * 64 + o.val) * 64 + i.val
    rfl
  exact transpose_apply (s := S64x64x3x3x3) (t := S3x3x3x64x64) _ w h1 (ix5 kd kh kw o i) (ix5 o i kd kh kw)
    fun b => match b with | ⟨0, _⟩ => rfl | ⟨1, _⟩ => rfl | ⟨2, _⟩ => rfl | ⟨3, _⟩ => rfl | ⟨4, _⟩ => rfl

theorem cast7_apply {α : Type} (x : S8x32x32x32x32.Idx → α) (hc : S8x32x32x32x32.ShapeCasts S256x16x2x16x2x16x2)
    (j : (⟨7, ![256, 16, 2, 16, 2, 16, 2]⟩ : Shape).Idx) (n : Fin 8) (c D H W : Fin 32)
    (hp : (j 0).val = n.val * 32 + c.val) (hD : D.val = 2 * (j 1).val + (j 2).val) (hH : H.val = 2 * (j 3).val + (j 4).val)
    (hW : W.val = 2 * (j 5).val + (j 6).val) :
    shapeCast S256x16x2x16x2x16x2 x hc j = x (ix5 n c D H W) := by
  refine shapeCast_apply (s := S8x32x32x32x32) (t := S256x16x2x16x2x16x2) x hc j (ix5 n c D H W) ?_
  show (S8x32x32x32x32.rowMajor (ix5 n c D H W)).val = ((⟨7, ![256, 16, 2, 16, 2, 16, 2]⟩ : Shape).rowMajor j).val
  rw [Shape.rowMajor_val_five, rowMajor7_val]
  show (((n.val * 32 + c.val) * 32 + D.val) * 32 + H.val) * 32 + W.val
    = ((((((j 0).val * 16 + (j 1).val) * 2 + (j 2).val) * 16 + (j 3).val) * 2 + (j 4).val) * 16 + (j 5).val) * 2 + (j 6).val
  omega

theorem cast_pooled_apply {α : Type} (x : S256x16x16x16x1.Idx → α) (hc : S256x16x16x16x1.ShapeCasts S8x32x4096)
    (n : Fin 8) (c : Fin 32) (m : Fin 4096) (p : Fin 256) (d h w : Fin 16) (z : Fin 1)
    (hp : p.val = n.val * 32 + c.val) (hm : m.val = (d.val * 16 + h.val) * 16 + w.val) :
    shapeCast S8x32x4096 x hc (ix3 n c m) = x (ix5 p d h w z) := by
  refine shapeCast_apply (s := S256x16x16x16x1) (t := S8x32x4096) x hc (ix3 n c m) (ix5 p d h w z) ?_
  show (S256x16x16x16x1.rowMajor (ix5 p d h w z)).val = (S8x32x4096.rowMajor (ix3 n c m)).val
  rw [Shape.rowMajor_val_five, Shape.rowMajor_val_three]
  show (((p.val * 16 + d.val) * 16 + h.val) * 16 + w.val) * 1 + z.val = (n.val * 32 + c.val) * 4096 + m.val
  have hz := z.isLt
  omega

theorem pad384_apply_inside {α : Type} (x : S8x32x4096.Idx → α) {u : Shape} (v : u.Idx → α) (hu : 0 < u.numel)
    (hp : S8x32x4096.Pads (![0, 0, 384] : Fin 3 → Nat) ![0, 0, 384] ![0, 0, 0] S8x32x4864)
    (n : Fin 8) (c : Fin 32) (L : Fin 4864) (m : Fin 4096) (hL : L.val = 384 + m.val) :
    pad S8x32x4864 ![0, 0, 384] ![0, 0, 384] ![0, 0, 0] x v hp hu (ix3 n c L) = x (ix3 n c m) :=
  pad_apply_of_inside (s := S8x32x4096) (t := S8x32x4864) _ _ _ x v hp hu (ix3 n c L) (ix3 n c m)
    fun a => match a with
      | ⟨0, _⟩ => by show n.val = 0 + n.val * (0 + 1); omega
      | ⟨1, _⟩ => by show c.val = 0 + c.val * (0 + 1); omega
      | ⟨2, _⟩ => by show L.val = 384 + m.val * (0 + 1); omega

theorem pad384_apply_outside {α : Type} (x : S8x32x4096.Idx → α) {u : Shape} (v : u.Idx → α) (hu : 0 < u.numel)
    (hp : S8x32x4096.Pads (![0, 0, 384] : Fin 3 → Nat) ![0, 0, 384] ![0, 0, 0] S8x32x4864)
    (n : Fin 8) (c : Fin 32) (L : Fin 4864) (hL : L.val < 384 ∨ 4480 ≤ L.val) :
    pad S8x32x4864 ![0, 0, 384] ![0, 0, 384] ![0, 0, 0] x v hp hu (ix3 n c L) = v (Shape.Idx.first hu) :=
  pad_apply_of_not_inside (s := S8x32x4096) (t := S8x32x4864) _ _ _ x v hp hu (ix3 n c L) (2 : Fin 3) (by
    show ¬(384 ≤ L.val ∧ (L.val - 384) % (0 + 1) = 0 ∧ (L.val - 384) / (0 + 1) < 4096)
    omega)

theorem sitofp_zero_apply (i : S_.Idx) : (sitofp .f32 (constantI S_ 32 0#32) : FVec Ideal S_ .f32) i = 0 := by
  show (((0#32 : BitVec 32).toInt : ℝ) : EReal) = 0
  simp

variable (V₀ : Valuation τ sig (Elt F))

abbrev H0_1 : Valuation τ sig (Elt F) := StableHlo.after main_part0_ops0 (V₀)

theorem H0_1_of (r : Ref sig .tc) (h : r ∉ main_part0_ops0_W) : H0_1 V₀ (Proc.devRef .tc r) = V₀ (Proc.devRef .tc r) :=
  StableHlo.after_of_writes_sub main_part0_ops0 _ main_part0_ops0_writes h

abbrev H1_1 : Valuation τ sig (Elt F) := StableHlo.after main_part0_ops1 (V₀)

abbrev H1_2 : Valuation τ sig (Elt F) := StableHlo.after main_part0_ops2 (H1_1 V₀)

abbrev H1_3 : Valuation τ sig (Elt F) := StableHlo.after main_part0_ops3 (H1_2 V₀)

abbrev H1_4 : Valuation τ sig (Elt F) := StableHlo.after main_part0_ops4 (H1_3 V₀)

abbrev H1_5 : Valuation τ sig (Elt F) := StableHlo.after main_part0_ops5 (H1_4 V₀)

abbrev H1_6 : Valuation τ sig (Elt F) := StableHlo.after main_part0_ops6 (H1_5 V₀)

abbrev H1_7 : Valuation τ sig (Elt F) := StableHlo.after main_part0_ops7 (H1_6 V₀)

abbrev H1_8 : Valuation τ sig (Elt F) := StableHlo.after main_part0_ops8 (H1_7 V₀)

abbrev H1_9 : Valuation τ sig (Elt F) := StableHlo.after main_part0_ops9 (H1_8 V₀)

abbrev H1_10 : Valuation τ sig (Elt F) := StableHlo.after main_part0_ops10 (H1_9 V₀)

abbrev H1_11 : Valuation τ sig (Elt F) := StableHlo.after main_part0_ops11 (H1_10 V₀)

abbrev H1_12 : Valuation τ sig (Elt F) := StableHlo.after main_part1_ops0 (H1_11 V₀)

abbrev H1_13 : Valuation τ sig (Elt F) := StableHlo.after main_part2_ops0 (H1_12 V₀)

abbrev H1_14 : Valuation τ sig (Elt F) := StableHlo.after main_part3_ops0 (H1_13 V₀)

abbrev H1_15 : Valuation τ sig (Elt F) := StableHlo.after main_part4_ops0 (H1_14 V₀)

abbrev H1_16 : Valuation τ sig (Elt F) := StableHlo.after main_part5_ops0 (H1_15 V₀)

abbrev H1_17 : Valuation τ sig (Elt F) := StableHlo.after main_part6_ops0 (H1_16 V₀)

abbrev H1_18 : Valuation τ sig (Elt F) := StableHlo.after main_part7_ops0 (H1_17 V₀)

theorem H1_1_of (r : Ref sig .tc) (h : r ∉ main_part0_ops1_W) : H1_1 V₀ (Proc.devRef .tc r) = V₀ (Proc.devRef .tc r) :=
  StableHlo.after_of_writes_sub main_part0_ops1 _ main_part0_ops1_writes h
theorem H1_2_of (r : Ref sig .tc) (h : r ∉ main_part0_ops2_W) : H1_2 V₀ (Proc.devRef .tc r) = H1_1 V₀ (Proc.devRef .tc r) :=
  StableHlo.after_of_writes_sub main_part0_ops2 _ main_part0_ops2_writes h
theorem H1_3_of (r : Ref sig .tc) (h : r ∉ main_part0_ops3_W) : H1_3 V₀ (Proc.devRef .tc r) = H1_2 V₀ (Proc.devRef .tc r) :=
  StableHlo.after_of_writes_sub main_part0_ops3 _ main_part0_ops3_writes h
theorem H1_4_of (r : Ref sig .tc) (h : r ∉ main_part0_ops4_W) : H1_4 V₀ (Proc.devRef .tc r) = H1_3 V₀ (Proc.devRef .tc r) :=
  StableHlo.after_of_writes_sub main_part0_ops4 _ main_part0_ops4_writes h
theorem H1_5_of (r : Ref sig .tc) (h : r ∉ main_part0_ops5_W) : H1_5 V₀ (Proc.devRef .tc r) = H1_4 V₀ (Proc.devRef .tc r) :=
  StableHlo.after_of_writes_sub main_part0_ops5 _ main_part0_ops5_writes h
theorem H1_6_of (r : Ref sig .tc) (h : r ∉ main_part0_ops6_W) : H1_6 V₀ (Proc.devRef .tc r) = H1_5 V₀ (Proc.devRef .tc r) :=
  StableHlo.after_of_writes_sub main_part0_ops6 _ main_part0_ops6_writes h
theorem H1_7_of (r : Ref sig .tc) (h : r ∉ main_part0_ops7_W) : H1_7 V₀ (Proc.devRef .tc r) = H1_6 V₀ (Proc.devRef .tc r) :=
  StableHlo.after_of_writes_sub main_part0_ops7 _ main_part0_ops7_writes h
theorem H1_8_of (r : Ref sig .tc) (h : r ∉ main_part0_ops8_W) : H1_8 V₀ (Proc.devRef .tc r) = H1_7 V₀ (Proc.devRef .tc r) :=
  StableHlo.after_of_writes_sub main_part0_ops8 _ main_part0_ops8_writes h
theorem H1_9_of (r : Ref sig .tc) (h : r ∉ main_part0_ops9_W) : H1_9 V₀ (Proc.devRef .tc r) = H1_8 V₀ (Proc.devRef .tc r) :=
  StableHlo.after_of_writes_sub main_part0_ops9 _ main_part0_ops9_writes h
theorem H1_10_of (r : Ref sig .tc) (h : r ∉ main_part0_ops10_W) : H1_10 V₀ (Proc.devRef .tc r) = H1_9 V₀ (Proc.devRef .tc r) :=
  StableHlo.after_of_writes_sub main_part0_ops10 _ main_part0_ops10_writes h
theorem H1_11_of (r : Ref sig .tc) (h : r ∉ main_part0_ops11_W) : H1_11 V₀ (Proc.devRef .tc r) = H1_10 V₀ (Proc.devRef .tc r) :=
  StableHlo.after_of_writes_sub main_part0_ops11 _ main_part0_ops11_writes h
theorem H1_12_of (r : Ref sig .tc) (h : r ∉ main_part1_ops0_W) : H1_12 V₀ (Proc.devRef .tc r) = H1_11 V₀ (Proc.devRef .tc r) :=
  StableHlo.after_of_writes_sub main_part1_ops0 _ main_part1_ops0_writes h
theorem H1_13_of (r : Ref sig .tc) (h : r ∉ main_part2_ops0_W) : H1_13 V₀ (Proc.devRef .tc r) = H1_12 V₀ (Proc.devRef .tc r) :=
  StableHlo.after_of_writes_sub main_part2_ops0 _ main_part2_ops0_writes h
theorem H1_14_of (r : Ref sig .tc) (h : r ∉ main_part3_ops0_W) : H1_14 V₀ (Proc.devRef .tc r) = H1_13 V₀ (Proc.devRef .tc r) :=
  StableHlo.after_of_writes_sub main_part3_ops0 _ main_part3_ops0_writes h
theorem H1_15_of (r : Ref sig .tc) (h : r ∉ main_part4_ops0_W) : H1_15 V₀ (Proc.devRef .tc r) = H1_14 V₀ (Proc.devRef .tc r) :=
  StableHlo.after_of_writes_sub main_part4_ops0 _ main_part4_ops0_writes h
theorem H1_16_of (r : Ref sig .tc) (h : r ∉ main_part5_ops0_W) : H1_16 V₀ (Proc.devRef .tc r) = H1_15 V₀ (Proc.devRef .tc r) :=
  StableHlo.after_of_writes_sub main_part5_ops0 _ main_part5_ops0_writes h
theorem H1_17_of (r : Ref sig .tc) (h : r ∉ main_part6_ops0_W) : H1_17 V₀ (Proc.devRef .tc r) = H1_16 V₀ (Proc.devRef .tc r) :=
  StableHlo.after_of_writes_sub main_part6_ops0 _ main_part6_ops0_writes h
theorem H1_18_of (r : Ref sig .tc) (h : r ∉ main_part7_ops0_W) : H1_18 V₀ (Proc.devRef .tc r) = H1_17 V₀ (Proc.devRef .tc r) :=
  StableHlo.after_of_writes_sub main_part7_ops0 _ main_part7_ops0_writes h

abbrev H2_1 : Valuation τ sig (Elt F) := StableHlo.after main_part7_ops1 (V₀)

abbrev H2_2 : Valuation τ sig (Elt F) := StableHlo.after main_part7_ops2 (H2_1 V₀)

abbrev H2_3 : Valuation τ sig (Elt F) := StableHlo.after main_part7_ops3 (H2_2 V₀)

abbrev H2_4 : Valuation τ sig (Elt F) := StableHlo.after main_part7_ops4 (H2_3 V₀)

abbrev H2_5 : Valuation τ sig (Elt F) := StableHlo.after main_part7_ops5 (H2_4 V₀)

abbrev H2_6 : Valuation τ sig (Elt F) := StableHlo.after main_part7_ops6 (H2_5 V₀)

abbrev H2_7 : Valuation τ sig (Elt F) := StableHlo.after main_part7_ops7 (H2_6 V₀)

abbrev H2_8 : Valuation τ sig (Elt F) := StableHlo.after main_part7_ops8 (H2_7 V₀)

abbrev H2_9 : Valuation τ sig (Elt F) := StableHlo.after main_part7_ops9 (H2_8 V₀)

abbrev H2_10 : Valuation τ sig (Elt F) := StableHlo.after main_part7_ops10 (H2_9 V₀)

abbrev H2_11 : Valuation τ sig (Elt F) := StableHlo.after main_part7_ops11 (H2_10 V₀)

abbrev H2_12 : Valuation τ sig (Elt F) := StableHlo.after main_part8_ops0 (H2_11 V₀)

abbrev H2_13 : Valuation τ sig (Elt F) := StableHlo.after main_part8_ops1 (H2_12 V₀)

abbrev H2_14 : Valuation τ sig (Elt F) := StableHlo.after main_part9_ops0 (H2_13 V₀)

abbrev H2_15 : Valuation τ sig (Elt F) := StableHlo.after main_part10_ops0 (H2_14 V₀)

abbrev H2_16 : Valuation τ sig (Elt F) := StableHlo.after main_part11_ops0 (H2_15 V₀)

abbrev H2_17 : Valuation τ sig (Elt F) := StableHlo.after main_part12_ops0 (H2_16 V₀)

abbrev H2_18 : Valuation τ sig (Elt F) := StableHlo.after main_part13_ops0 (H2_17 V₀)

abbrev H2_19 : Valuation τ sig (Elt F) := StableHlo.after main_part14_ops0 (H2_18 V₀)

theorem H2_1_of (r : Ref sig .tc) (h : r ∉ main_part7_ops1_W) : H2_1 V₀ (Proc.devRef .tc r) = V₀ (Proc.devRef .tc r) :=
  StableHlo.after_of_writes_sub main_part7_ops1 _ main_part7_ops1_writes h
theorem H2_2_of (r : Ref sig .tc) (h : r ∉ main_part7_ops2_W) : H2_2 V₀ (Proc.devRef .tc r) = H2_1 V₀ (Proc.devRef .tc r) :=
  StableHlo.after_of_writes_sub main_part7_ops2 _ main_part7_ops2_writes h
theorem H2_3_of (r : Ref sig .tc) (h : r ∉ main_part7_ops3_W) : H2_3 V₀ (Proc.devRef .tc r) = H2_2 V₀ (Proc.devRef .tc r) :=
  StableHlo.after_of_writes_sub main_part7_ops3 _ main_part7_ops3_writes h
theorem H2_4_of (r : Ref sig .tc) (h : r ∉ main_part7_ops4_W) : H2_4 V₀ (Proc.devRef .tc r) = H2_3 V₀ (Proc.devRef .tc r) :=
  StableHlo.after_of_writes_sub main_part7_ops4 _ main_part7_ops4_writes h
theorem H2_5_of (r : Ref sig .tc) (h : r ∉ main_part7_ops5_W) : H2_5 V₀ (Proc.devRef .tc r) = H2_4 V₀ (Proc.devRef .tc r) :=
  StableHlo.after_of_writes_sub main_part7_ops5 _ main_part7_ops5_writes h
theorem H2_6_of (r : Ref sig .tc) (h : r ∉ main_part7_ops6_W) : H2_6 V₀ (Proc.devRef .tc r) = H2_5 V₀ (Proc.devRef .tc r) :=
  StableHlo.after_of_writes_sub main_part7_ops6 _ main_part7_ops6_writes h
theorem H2_7_of (r : Ref sig .tc) (h : r ∉ main_part7_ops7_W) : H2_7 V₀ (Proc.devRef .tc r) = H2_6 V₀ (Proc.devRef .tc r) :=
  StableHlo.after_of_writes_sub main_part7_ops7 _ main_part7_ops7_writes h
theorem H2_8_of (r : Ref sig .tc) (h : r ∉ main_part7_ops8_W) : H2_8 V₀ (Proc.devRef .tc r) = H2_7 V₀ (Proc.devRef .tc r) :=
  StableHlo.after_of_writes_sub main_part7_ops8 _ main_part7_ops8_writes h
theorem H2_9_of (r : Ref sig .tc) (h : r ∉ main_part7_ops9_W) : H2_9 V₀ (Proc.devRef .tc r) = H2_8 V₀ (Proc.devRef .tc r) :=
  StableHlo.after_of_writes_sub main_part7_ops9 _ main_part7_ops9_writes h
theorem H2_10_of (r : Ref sig .tc) (h : r ∉ main_part7_ops10_W) : H2_10 V₀ (Proc.devRef .tc r) = H2_9 V₀ (Proc.devRef .tc r) :=
  StableHlo.after_of_writes_sub main_part7_ops10 _ main_part7_ops10_writes h
theorem H2_11_of (r : Ref sig .tc) (h : r ∉ main_part7_ops11_W) : H2_11 V₀ (Proc.devRef .tc r) = H2_10 V₀ (Proc.devRef .tc r) :=
  StableHlo.after_of_writes_sub main_part7_ops11 _ main_part7_ops11_writes h
theorem H2_12_of (r : Ref sig .tc) (h : r ∉ main_part8_ops0_W) : H2_12 V₀ (Proc.devRef .tc r) = H2_11 V₀ (Proc.devRef .tc r) :=
  StableHlo.after_of_writes_sub main_part8_ops0 _ main_part8_ops0_writes h
theorem H2_13_of (r : Ref sig .tc) (h : r ∉ main_part8_ops1_W) : H2_13 V₀ (Proc.devRef .tc r) = H2_12 V₀ (Proc.devRef .tc r) :=
  StableHlo.after_of_writes_sub main_part8_ops1 _ main_part8_ops1_writes h
theorem H2_14_of (r : Ref sig .tc) (h : r ∉ main_part9_ops0_W) : H2_14 V₀ (Proc.devRef .tc r) = H2_13 V₀ (Proc.devRef .tc r) :=
  StableHlo.after_of_writes_sub main_part9_ops0 _ main_part9_ops0_writes h
theorem H2_15_of (r : Ref sig .tc) (h : r ∉ main_part10_ops0_W) : H2_15 V₀ (Proc.devRef .tc r) = H2_14 V₀ (Proc.devRef .tc r) :=
  StableHlo.after_of_writes_sub main_part10_ops0 _ main_part10_ops0_writes h
theorem H2_16_of (r : Ref sig .tc) (h : r ∉ main_part11_ops0_W) : H2_16 V₀ (Proc.devRef .tc r) = H2_15 V₀ (Proc.devRef .tc r) :=
  StableHlo.after_of_writes_sub main_part11_ops0 _ main_part11_ops0_writes h
theorem H2_17_of (r : Ref sig .tc) (h : r ∉ main_part12_ops0_W) : H2_17 V₀ (Proc.devRef .tc r) = H2_16 V₀ (Proc.devRef .tc r) :=
  StableHlo.after_of_writes_sub main_part12_ops0 _ main_part12_ops0_writes h
theorem H2_18_of (r : Ref sig .tc) (h : r ∉ main_part13_ops0_W) : H2_18 V₀ (Proc.devRef .tc r) = H2_17 V₀ (Proc.devRef .tc r) :=
  StableHlo.after_of_writes_sub main_part13_ops0 _ main_part13_ops0_writes h
theorem H2_19_of (r : Ref sig .tc) (h : r ∉ main_part14_ops0_W) : H2_19 V₀ (Proc.devRef .tc r) = H2_18 V₀ (Proc.devRef .tc r) :=
  StableHlo.after_of_writes_sub main_part14_ops0 _ main_part14_ops0_writes h

abbrev H3_1 : Valuation τ sig (Elt F) := StableHlo.after main_part14_ops1 (V₀)

abbrev H3_2 : Valuation τ sig (Elt F) := StableHlo.after main_part15_ops0 (H3_1 V₀)

abbrev H3_3 : Valuation τ sig (Elt F) := StableHlo.after main_part15_ops1 (H3_2 V₀)

abbrev H3_4 : Valuation τ sig (Elt F) := StableHlo.after main_part15_ops2 (H3_3 V₀)

abbrev H3_5 : Valuation τ sig (Elt F) := StableHlo.after main_part15_ops3 (H3_4 V₀)

theorem H3_1_of (r : Ref sig .tc) (h : r ∉ main_part14_ops1_W) : H3_1 V₀ (Proc.devRef .tc r) = V₀ (Proc.devRef .tc r) :=
  StableHlo.after_of_writes_sub main_part14_ops1 _ main_part14_ops1_writes h
theorem H3_2_of (r : Ref sig .tc) (h : r ∉ main_part15_ops0_W) : H3_2 V₀ (Proc.devRef .tc r) = H3_1 V₀ (Proc.devRef .tc r) :=
  StableHlo.after_of_writes_sub main_part15_ops0 _ main_part15_ops0_writes h
theorem H3_3_of (r : Ref sig .tc) (h : r ∉ main_part15_ops1_W) : H3_3 V₀ (Proc.devRef .tc r) = H3_2 V₀ (Proc.devRef .tc r) :=
  StableHlo.after_of_writes_sub main_part15_ops1 _ main_part15_ops1_writes h
theorem H3_4_of (r : Ref sig .tc) (h : r ∉ main_part15_ops2_W) : H3_4 V₀ (Proc.devRef .tc r) = H3_3 V₀ (Proc.devRef .tc r) :=
  StableHlo.after_of_writes_sub main_part15_ops2 _ main_part15_ops2_writes h
theorem H3_5_of (r : Ref sig .tc) (h : r ∉ main_part15_ops3_W) : H3_5 V₀ (Proc.devRef .tc r) = H3_4 V₀ (Proc.devRef .tc r) :=
  StableHlo.after_of_writes_sub main_part15_ops3 _ main_part15_ops3_writes h

abbrev wrAll0 : List (Ref sig .tc) :=
  main_part0_ops0_W

theorem H0_1_unwritten (r : Ref sig .tc) (h : r ∉ wrAll0) : H0_1 V₀ (Proc.devRef .tc r) = V₀ (Proc.devRef .tc r) := by
  rw [H0_1_of V₀ r (fun hm => h hm)]

abbrev wrAll1 : List (Ref sig .tc) :=
  main_part0_ops1_W ++ (main_part0_ops2_W ++ (main_part0_ops3_W ++ (main_part0_ops4_W ++ (main_part0_ops5_W ++ (main_part0_ops6_W ++ (main_part0_ops7_W ++ (main_part0_ops8_W ++ (main_part0_ops9_W ++ (main_part0_ops10_W ++ (main_part0_ops11_W ++ (main_part1_ops0_W ++ (main_part2_ops0_W ++ (main_part3_ops0_W ++ (main_part4_ops0_W ++ (main_part5_ops0_W ++ (main_part6_ops0_W ++ (main_part7_ops0_W)))))))))))))))))

theorem H1_18_unwritten (r : Ref sig .tc) (h : r ∉ wrAll1) : H1_18 V₀ (Proc.devRef .tc r) = V₀ (Proc.devRef .tc r) := by
  rw [H1_18_of V₀ r (fun hm => h (by simp only [List.mem_append, hm, true_or, or_true])),
    H1_17_of V₀ r (fun hm => h (by simp only [List.mem_append, hm, true_or, or_true])),
    H1_16_of V₀ r (fun hm => h (by simp only [List.mem_append, hm, true_or, or_true])),
    H1_15_of V₀ r (fun hm => h (by simp only [List.mem_append, hm, true_or, or_true])),
    H1_14_of V₀ r (fun hm => h (by simp only [List.mem_append, hm, true_or, or_true])),
    H1_13_of V₀ r (fun hm => h (by simp only [List.mem_append, hm, true_or, or_true])),
    H1_12_of V₀ r (fun hm => h (by simp only [List.mem_append, hm, true_or, or_true])),
    H1_11_of V₀ r (fun hm => h (by simp only [List.mem_append, hm, true_or, or_true])),
    H1_10_of V₀ r (fun hm => h (by simp only [List.mem_append, hm, true_or, or_true])),
    H1_9_of V₀ r (fun hm => h (by simp only [List.mem_append, hm, true_or, or_true])),
    H1_8_of V₀ r (fun hm => h (by simp only [List.mem_append, hm, true_or, or_true])),
    H1_7_of V₀ r (fun hm => h (by simp only [List.mem_append, hm, true_or, or_true])),
    H1_6_of V₀ r (fun hm => h (by simp only [List.mem_append, hm, true_or, or_true])),
    H1_5_of V₀ r (fun hm => h (by simp only [List.mem_append, hm, true_or, or_true])),
    H1_4_of V₀ r (fun hm => h (by simp only [List.mem_append, hm, true_or, or_true])),
    H1_3_of V₀ r (fun hm => h (by simp only [List.mem_append, hm, true_or, or_true])),
    H1_2_of V₀ r (fun hm => h (by simp only [List.mem_append, hm, true_or, or_true])),
    H1_1_of V₀ r (fun hm => h (List.mem_append_left _ hm))]

abbrev wrAll2 : List (Ref sig .tc) :=
  main_part7_ops1_W ++ (main_part7_ops2_W ++ (main_part7_ops3_W ++ (main_part7_ops4_W ++ (main_part7_ops5_W ++ (main_part7_ops6_W ++ (main_part7_ops7_W ++ (main_part7_ops8_W ++ (main_part7_ops9_W ++ (main_part7_ops10_W ++ (main_part7_ops11_W ++ (main_part8_ops0_W ++ (main_part8_ops1_W ++ (main_part9_ops0_W ++ (main_part10_ops0_W ++ (main_part11_ops0_W ++ (main_part12_ops0_W ++ (main_part13_ops0_W ++ (main_part14_ops0_W))))))))))))))))))

theorem H2_19_unwritten (r : Ref sig .tc) (h : r ∉ wrAll2) : H2_19 V₀ (Proc.devRef .tc r) = V₀ (Proc.devRef .tc r) := by
  rw [H2_19_of V₀ r (fun hm => h (by simp only [List.mem_append, hm, true_or, or_true])),
    H2_18_of V₀ r (fun hm => h (by simp only [List.mem_append, hm, true_or, or_true])),
    H2_17_of V₀ r (fun hm => h (by simp only [List.mem_append, hm, true_or, or_true])),
    H2_16_of V₀ r (fun hm => h (by simp only [List.mem_append, hm, true_or, or_true])),
    H2_15_of V₀ r (fun hm => h (by simp only [List.mem_append, hm, true_or, or_true])),
    H2_14_of V₀ r (fun hm => h (by simp only [List.mem_append, hm, true_or, or_true])),
    H2_13_of V₀ r (fun hm => h (by simp only [List.mem_append, hm, true_or, or_true])),
    H2_12_of V₀ r (fun hm => h (by simp only [List.mem_append, hm, true_or, or_true])),
    H2_11_of V₀ r (fun hm => h (by simp only [List.mem_append, hm, true_or, or_true])),
    H2_10_of V₀ r (fun hm => h (by simp only [List.mem_append, hm, true_or, or_true])),
    H2_9_of V₀ r (fun hm => h (by simp only [List.mem_append, hm, true_or, or_true])),
    H2_8_of V₀ r (fun hm => h (by simp only [List.mem_append, hm, true_or, or_true])),
    H2_7_of V₀ r (fun hm => h (by simp only [List.mem_append, hm, true_or, or_true])),
    H2_6_of V₀ r (fun hm => h (by simp only [List.mem_append, hm, true_or, or_true])),
    H2_5_of V₀ r (fun hm => h (by simp only [List.mem_append, hm, true_or, or_true])),
    H2_4_of V₀ r (fun hm => h (by simp only [List.mem_append, hm, true_or, or_true])),
    H2_3_of V₀ r (fun hm => h (by simp only [List.mem_append, hm, true_or, or_true])),
    H2_2_of V₀ r (fun hm => h (by simp only [List.mem_append, hm, true_or, or_true])),
    H2_1_of V₀ r (fun hm => h (List.mem_append_left _ hm))]

abbrev wrAll3 : List (Ref sig .tc) :=
  main_part14_ops1_W ++ (main_part15_ops0_W ++ (main_part15_ops1_W ++ (main_part15_ops2_W ++ (main_part15_ops3_W))))

theorem H3_5_unwritten (r : Ref sig .tc) (h : r ∉ wrAll3) : H3_5 V₀ (Proc.devRef .tc r) = V₀ (Proc.devRef .tc r) := by
  rw [H3_5_of V₀ r (fun hm => h (by simp only [List.mem_append, hm, true_or, or_true])),
    H3_4_of V₀ r (fun hm => h (by simp only [List.mem_append, hm, true_or, or_true])),
    H3_3_of V₀ r (fun hm => h (by simp only [List.mem_append, hm, true_or, or_true])),
    H3_2_of V₀ r (fun hm => h (by simp only [List.mem_append, hm, true_or, or_true])),
    H3_1_of V₀ r (fun hm => h (List.mem_append_left _ hm))]

theorem main_v0_apply (j : (⟨7, ![256, 16, 2, 16, 2, 16, 2]⟩ : Shape).Idx) (n : Fin 8) (c D H W : Fin 32)
    (hp : (j 0).val = n.val * 32 + c.val) (hD : D.val = 2 * (j 1).val + (j 2).val) (hH : H.val = 2 * (j 3).val + (j 4).val)
    (hW : W.val = 2 * (j 5).val + (j 6).val) :
    (H0_1 V₀ (Proc.devRef .tc main_v0) : Vec F S256x16x2x16x2x16x2 .f32) j
      = (V₀ (Proc.devRef .tc main_arg0) : Vec F S8x32x32x32x32 .f32) (ix5 n c D H W) := by
  rw [show H0_1 V₀ (Proc.devRef .tc main_v0) = _ from after_main_v0 V₀]
  exact cast7_apply _ _ j n c D H W hp hD hH hW

theorem main_v0_apply_div (j : (⟨7, ![256, 16, 2, 16, 2, 16, 2]⟩ : Shape).Idx) :
    (H0_1 V₀ (Proc.devRef .tc main_v0) : Vec F S256x16x2x16x2x16x2 .f32) j
      = (V₀ (Proc.devRef .tc main_arg0) : Vec F S8x32x32x32x32 .f32)
          (ix5 ⟨(j 0).val / 32, by have : (j 0).val < 256 := (j 0).isLt; omega⟩ ⟨(j 0).val % 32, Nat.mod_lt _ (by decide)⟩
            ⟨2 * (j 1).val + (j 2).val, by have : (j 1).val < 16 := (j 1).isLt; have : (j 2).val < 2 := (j 2).isLt; omega⟩
            ⟨2 * (j 3).val + (j 4).val, by have : (j 3).val < 16 := (j 3).isLt; have : (j 4).val < 2 := (j 4).isLt; omega⟩
            ⟨2 * (j 5).val + (j 6).val, by have : (j 5).val < 16 := (j 5).isLt; have : (j 6).val < 2 := (j 6).isLt; omega⟩) :=
  main_v0_apply V₀ j _ _ _ _ _ (by show (j 0).val = (j 0).val / 32 * 32 + (j 0).val % 32; omega) rfl rfl rfl

theorem H1_18_main_v3_eq : H1_18 V₀ (Proc.devRef .tc main_v3) = H1_2 V₀ (Proc.devRef .tc main_v3) := by
  rw [H1_18_of V₀ main_v3 (by decide), H1_17_of V₀ main_v3 (by decide), H1_16_of V₀ main_v3 (by decide), H1_15_of V₀ main_v3 (by decide), H1_14_of V₀ main_v3 (by decide), H1_13_of V₀ main_v3 (by decide), H1_12_of V₀ main_v3 (by decide), H1_11_of V₀ main_v3 (by decide), H1_10_of V₀ main_v3 (by decide), H1_9_of V₀ main_v3 (by decide), H1_8_of V₀ main_v3 (by decide), H1_7_of V₀ main_v3 (by decide), H1_6_of V₀ main_v3 (by decide), H1_5_of V₀ main_v3 (by decide), H1_4_of V₀ main_v3 (by decide), H1_3_of V₀ main_v3 (by decide)]

theorem H1_2_main_v3 : (H1_2 V₀ (Proc.devRef .tc main_v3) : Vec F S8x32x4864 .f32)
    = pad S8x32x4864 ![0, 0, 384] ![0, 0, 384] ![0, 0, 0]
        (shapeCast S8x32x4096 (V₀ (Proc.devRef .tc main_v1) : Vec F S256x16x16x16x1 .f32) shapeCasts_S256x16x16x16x1_S8x32x4096)
        (sitofp .f32 (constantI S_ 32 0#32) : Vec F S_ .f32) pads_S8x32x4096_S8x32x4864_000_000_3843840 h_S_ := by
  rw [show H1_2 V₀ (Proc.devRef .tc main_v3) = _ from after_main_v3 (H1_1 V₀),
    show H1_1 V₀ (Proc.devRef .tc main_v2) = _ from after_main_v2 V₀,
    show H1_1 V₀ (Proc.devRef .tc main_c) = _ from after_main_c V₀]

theorem main_v3_apply_inside (n : Fin 8) (c : Fin 32) (L : Fin 4864) (p : Fin 256) (d h w : Fin 16) (z : Fin 1)
    (hp : p.val = n.val * 32 + c.val) (hL : L.val = 384 + ((d.val * 16 + h.val) * 16 + w.val)) :
    (H1_18 V₀ (Proc.devRef .tc main_v3) : Vec F S8x32x4864 .f32) (ix3 n c L)
      = (V₀ (Proc.devRef .tc main_v1) : Vec F S256x16x16x16x1 .f32) (ix5 p d h w z) := by
  have hm : (d.val * 16 + h.val) * 16 + w.val < 4096 := by have := d.isLt; have := h.isLt; have := w.isLt; omega
  rw [H1_18_main_v3_eq, H1_2_main_v3, pad384_apply_inside _ _ _ _ n c L ⟨(d.val * 16 + h.val) * 16 + w.val, hm⟩ hL]
  exact cast_pooled_apply _ _ n c _ p d h w z hp rfl

theorem main_v3_apply_inside_div (n : Fin 8) (c : Fin 32) (L : Fin 4864) (h0 : 384 ≤ L.val) (h1 : L.val < 4480) :
    (H1_18 V₀ (Proc.devRef .tc main_v3) : Vec F S8x32x4864 .f32) (ix3 n c L)
      = (V₀ (Proc.devRef .tc main_v1) : Vec F S256x16x16x16x1 .f32)
          (ix5 ⟨n.val * 32 + c.val, by have := n.isLt; have := c.isLt; omega⟩ ⟨(L.val - 384) / 256, by omega⟩
            ⟨(L.val - 384) / 16 % 16, Nat.mod_lt _ (by decide)⟩ ⟨(L.val - 384) % 16, Nat.mod_lt _ (by decide)⟩ (0 : Fin 1)) :=
  main_v3_apply_inside V₀ n c L _ _ _ _ _ rfl (by
    show L.val = 384 + (((L.val - 384) / 256 * 16 + (L.val - 384) / 16 % 16) * 16 + (L.val - 384) % 16)
    omega)

theorem main_v3_apply_outside (U₀ : Valuation τ sig (Elt Ideal)) (n : Fin 8) (c : Fin 32) (L : Fin 4864)
    (hL : L.val < 384 ∨ 4480 ≤ L.val) :
    (H1_18 U₀ (Proc.devRef .tc main_v3) : S8x32x4864.Idx → EReal) (ix3 n c L) = (0 : EReal) := by
  rw [H1_18_main_v3_eq, H1_2_main_v3, pad384_apply_outside _ _ _ _ n c L hL]
  exact sitofp_zero_apply _

theorem main_v3_apply (U₀ : Valuation τ sig (Elt Ideal)) (n : Fin 8) (c : Fin 32) (L : Fin 4864) :
    (H1_18 U₀ (Proc.devRef .tc main_v3) : S8x32x4864.Idx → EReal) (ix3 n c L)
      = if h : 384 ≤ L.val ∧ L.val < 4480 then
          (U₀ (Proc.devRef .tc main_v1) : S256x16x16x16x1.Idx → EReal)
            (ix5 ⟨n.val * 32 + c.val, by have := n.isLt; have := c.isLt; omega⟩ ⟨(L.val - 384) / 256, by have := h.2; omega⟩
              ⟨(L.val - 384) / 16 % 16, Nat.mod_lt _ (by decide)⟩ ⟨(L.val - 384) % 16, Nat.mod_lt _ (by decide)⟩ (0 : Fin 1))
        else (0 : EReal) := by
  by_cases h : 384 ≤ L.val ∧ L.val < 4480
  · rw [dif_pos h]
    exact main_v3_apply_inside_div U₀ n c L h.1 h.2
  · rw [dif_neg h]
    exact main_v3_apply_outside U₀ n c L (by omega)

theorem H1_18_main_v8_eq : H1_18 V₀ (Proc.devRef .tc main_v8) = H1_5 V₀ (Proc.devRef .tc main_v8) := by
  rw [H1_18_of V₀ main_v8 (by decide), H1_17_of V₀ main_v8 (by decide), H1_16_of V₀ main_v8 (by decide), H1_15_of V₀ main_v8 (by decide), H1_14_of V₀ main_v8 (by decide), H1_13_of V₀ main_v8 (by decide), H1_12_of V₀ main_v8 (by decide), H1_11_of V₀ main_v8 (by decide), H1_10_of V₀ main_v8 (by decide), H1_9_of V₀ main_v8 (by decide), H1_8_of V₀ main_v8 (by decide), H1_7_of V₀ main_v8 (by decide), H1_6_of V₀ main_v8 (by decide)]

theorem H1_2_main_arg1 : H1_2 V₀ (Proc.devRef .tc main_arg1) = V₀ (Proc.devRef .tc main_arg1) := by
  rw [H1_2_of V₀ main_arg1 (by decide), H1_1_of V₀ main_arg1 (by decide)]

theorem main_v8_apply (o : Fin 64) (r : Fin 864) (i : Fin 32) (kd kh kw : Fin 3)
    (hr : r.val = ((kd.val * 3 + kh.val) * 3 + kw.val) * 32 + i.val) :
    (H1_18 V₀ (Proc.devRef .tc main_v8) : Vec F S64x864 .f32) (ix2 o r)
      = (V₀ (Proc.devRef .tc main_arg1) : Vec F S64x32x3x3x3 .f32) (ix5 o i kd kh kw) := by
  rw [H1_18_main_v8_eq, show H1_5 V₀ (Proc.devRef .tc main_v8) = _ from after_main_v8 (H1_4 V₀),
    show H1_4 V₀ (Proc.devRef .tc main_v6) = _ from after_main_v6 (H1_3 V₀),
    show H1_3 V₀ (Proc.devRef .tc main_v5) = _ from after_main_v5 (H1_2 V₀), H1_2_main_arg1]
  exact fold_w27_32_apply _ _ _ _ _ _ _ _ o r i kd kh kw hr

theorem main_v8_apply_div (o : Fin 64) (r : Fin 864) :
    (H1_18 V₀ (Proc.devRef .tc main_v8) : Vec F S64x864 .f32) (ix2 o r)
      = (V₀ (Proc.devRef .tc main_arg1) : Vec F S64x32x3x3x3 .f32)
          (ix5 o ⟨r.val % 32, Nat.mod_lt _ (by decide)⟩ ⟨r.val / 32 / 9, by have := r.isLt; omega⟩
            ⟨r.val / 32 % 9 / 3, by omega⟩ ⟨r.val / 32 % 3, Nat.mod_lt _ (by decide)⟩) :=
  main_v8_apply V₀ o r _ _ _ _ (by
    show r.val = ((r.val / 32 / 9 * 3 + r.val / 32 % 9 / 3) * 3 + r.val / 32 % 3) * 32 + r.val % 32
    omega)

theorem H2_19_main_v329_eq : H2_19 V₀ (Proc.devRef .tc main_v329) = H2_7 V₀ (Proc.devRef .tc main_v329) := by
  rw [H2_19_of V₀ main_v329 (by decide), H2_18_of V₀ main_v329 (by decide), H2_17_of V₀ main_v329 (by decide), H2_16_of V₀ main_v329 (by decide), H2_15_of V₀ main_v329 (by decide), H2_14_of V₀ main_v329 (by decide), H2_13_of V₀ main_v329 (by decide), H2_12_of V₀ main_v329 (by decide), H2_11_of V₀ main_v329 (by decide), H2_10_of V₀ main_v329 (by decide), H2_9_of V₀ main_v329 (by decide), H2_8_of V₀ main_v329 (by decide)]

theorem H2_4_main_arg4 : H2_4 V₀ (Proc.devRef .tc main_arg4) = V₀ (Proc.devRef .tc main_arg4) := by
  rw [H2_4_of V₀ main_arg4 (by decide), H2_3_of V₀ main_arg4 (by decide), H2_2_of V₀ main_arg4 (by decide), H2_1_of V₀ main_arg4 (by decide)]

theorem main_v329_apply (o : Fin 64) (r : Fin 1728) (i : Fin 64) (kd kh kw : Fin 3)
    (hr : r.val = ((kd.val * 3 + kh.val) * 3 + kw.val) * 64 + i.val) :
    (H2_19 V₀ (Proc.devRef .tc main_v329) : Vec F S64x1728 .f32) (ix2 o r)
      = (V₀ (Proc.devRef .tc main_arg4) : Vec F S64x64x3x3x3 .f32) (ix5 o i kd kh kw) := by
  rw [H2_19_main_v329_eq, show H2_7 V₀ (Proc.devRef .tc main_v329) = _ from after_main_v329 (H2_6 V₀),
    show H2_6 V₀ (Proc.devRef .tc main_v327) = _ from after_main_v327 (H2_5 V₀),
    show H2_5 V₀ (Proc.devRef .tc main_v326) = _ from after_main_v326 (H2_4 V₀), H2_4_main_arg4]
  exact fold_w27_64_apply _ _ _ _ _ _ _ _ o r i kd kh kw hr

theorem main_v329_apply_div (o : Fin 64) (r : Fin 1728) :
    (H2_19 V₀ (Proc.devRef .tc main_v329) : Vec F S64x1728 .f32) (ix2 o r)
      = (V₀ (Proc.devRef .tc main_arg4) : Vec F S64x64x3x3x3 .f32)
          (ix5 o ⟨r.val % 64, Nat.mod_lt _ (by decide)⟩ ⟨r.val / 64 / 9, by have := r.isLt; omega⟩
            ⟨r.val / 64 % 9 / 3, by omega⟩ ⟨r.val / 64 % 3, Nat.mod_lt _ (by decide)⟩) :=
  main_v329_apply V₀ o r _ _ _ _ (by
    show r.val = ((r.val / 64 / 9 * 3 + r.val / 64 % 9 / 3) * 3 + r.val / 64 % 3) * 64 + r.val % 64
    omega)

end Cert.ReferenceIdeal.Host

end
-- ==== Proof.ReferenceIdealHostWords.lean ====
import Idealize.ShloMosaic.Lib.StableHlo.Predicate
import Idealize.ShloMosaic.Lib.ValueIdx

noncomputable section

namespace Cert.ReferenceIdeal.Host

open Idealize.ShloMosaic Idealize.ShloMosaic.ValueIdx

theorem bit_eq_ofBool {b : BitVec 1} {p : Prop} [Decidable p] (h : b = 1#1 ↔ p) : b = BitVec.ofBool (decide p) := by
  by_cases hp : p
  · rw [h.mpr hp, decide_eq_true hp]; rfl
  · rw [eq_zero_of_ne_one (fun hb => hp (h.mp hb)), decide_eq_false hp]; rfl

theorem toNat_ofNat_small (a : ℕ) (ha : a < 2 ^ 32) : (BitVec.ofNat 32 a).toNat = a := by
  rw [BitVec.toNat_ofNat]; exact Nat.mod_eq_of_lt ha

theorem sge_small (a b : ℕ) (ha : a < 2 ^ 31) (hb : b < 2 ^ 31) :
    IntOp.cmpi .sge (BitVec.ofNat 32 a) (BitVec.ofNat 32 b) = BitVec.ofBool (decide (b ≤ a)) := by
  have ea := toNat_ofNat_small a (by omega)
  have eb := toNat_ofNat_small b (by omega)
  refine bit_eq_ofBool ?_
  rw [StableHlo.Predicate.sge_iff_toNat (by omega) (by omega), ea, eb]

theorem slt_small (a b : ℕ) (ha : a < 2 ^ 31) (hb : b < 2 ^ 31) :
    IntOp.cmpi .slt (BitVec.ofNat 32 a) (BitVec.ofNat 32 b) = BitVec.ofBool (decide (a < b)) := by
  have ea := toNat_ofNat_small a (by omega)
  have eb := toNat_ofNat_small b (by omega)
  refine bit_eq_ofBool ?_
  rw [StableHlo.Predicate.slt_iff_toNat (by omega) (by omega), ea, eb]

theorem andi_ofBool (p q : Bool) : IntOp.andi (BitVec.ofBool p) (BitVec.ofBool q) = BitVec.ofBool (p && q) := by
  cases p <;> cases q <;> rfl

theorem ofBool_toEReal (p : Bool) : (((BitVec.ofBool p).toNat : ℝ) : EReal) = if p = true then 1 else 0 := by
  cases p
  · show (((0 : ℕ) : ℝ) : EReal) = _
    simp
  · show (((1 : ℕ) : ℝ) : EReal) = _
    simp

end Cert.ReferenceIdeal.Host

end
-- ==== Proof.ReferenceIdealHostValid.lean ====
import proofs.«157750_g2000200144022539_pallasbulk_675_13_alg».proof.Proof.Gen.ReferenceIdeal.Launch
import proofs.«157750_g2000200144022539_pallasbulk_675_13_alg».proof.Proof.ReferenceIdealHostWords
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value

noncomputable section

namespace Cert.ReferenceIdeal.Host

open Cert.ReferenceIdeal Cert.ReferenceIdeal.Gen
open Idealize.ShloMosaic Idealize.ShloMosaic.ValueIdx Idealize.ShloMosaic.TcCoe

theorem main_v18_apply (V₀ : Valuation τ sig (Elt Ideal)) (u : Fin 1) (L : Fin 4864) :
    (StableHlo.after (main_part0_ops5 (F := Ideal)) V₀ (Proc.devRef .tc main_v18) : S1x4864.Idx → EReal) (ix2 u L)
      = if 384 ≤ L.val ∧ L.val < 4480 then (1 : EReal) else 0 := by
  have e : (StableHlo.after (main_part0_ops5 (F := Ideal)) V₀ (Proc.devRef .tc main_v18) : S1x4864.Idx → EReal)
      = shapeCast S1x4864 (uitofp .f32 (andi
          (cmpi .sge (iotaInDim S4864 32 0) (broadcastInDim S4864 ![] bcast_S_S4864 (constantI S_ 32 384#32)))
          (cmpi .slt (iotaInDim S4864 32 0) (broadcastInDim S4864 ![] bcast_S_S4864 (constantI S_ 32 4480#32)))) : FVec Ideal S4864 .f32)
          shapeCasts_S4864_S1x4864 := by
    simp only [main_part0_ops5]
    after_results
    rfl
  rw [e, shapeCast_a_1a_apply]
  have hL := L.isLt
  show (((IntOp.andi (IntOp.cmpi .sge (BitVec.ofNat 32 L.val) (BitVec.ofNat 32 384))
      (IntOp.cmpi .slt (BitVec.ofNat 32 L.val) (BitVec.ofNat 32 4480))).toNat : ℝ) : EReal) = _
  rw [sge_small _ _ (by omega) (by omega), slt_small _ _ (by omega) (by omega), andi_ofBool, ofBool_toEReal]
  simp only [Bool.and_eq_true, decide_eq_true_eq]

theorem main_v18_eq (V₀ : Valuation τ sig (Elt Ideal)) :
    (StableHlo.after (main_part0_ops5 (F := Ideal)) V₀ (Proc.devRef .tc main_v18) : S1x4864.Idx → EReal)
      = fun y => if 384 ≤ (y 1).val ∧ (y 1).val < 4480 then (1 : EReal) else 0 := by
  funext y
  rw [eq_ix2 y]
  exact main_v18_apply V₀ (y 0) (y 1)

theorem main_v337_apply (V₀ : Valuation τ sig (Elt Ideal)) (u : Fin 1) (L : Fin 4864) :
    (StableHlo.after (main_part7_ops7 (F := Ideal)) V₀ (Proc.devRef .tc main_v337) : S1x4864.Idx → EReal) (ix2 u L)
      = if 384 ≤ L.val ∧ L.val < 4480 then (1 : EReal) else 0 := by
  have e : (StableHlo.after (main_part7_ops7 (F := Ideal)) V₀ (Proc.devRef .tc main_v337) : S1x4864.Idx → EReal)
      = shapeCast S1x4864 (uitofp .f32 (andi
          (cmpi .sge (iotaInDim S4864 32 0) (broadcastInDim S4864 ![] bcast_S_S4864 (constantI S_ 32 384#32)))
          (cmpi .slt (iotaInDim S4864 32 0) (broadcastInDim S4864 ![] bcast_S_S4864 (constantI S_ 32 4480#32)))) : FVec Ideal S4864 .f32)
          shapeCasts_S4864_S1x4864 := by
    simp only [main_part7_ops7]
    after_results
    rfl
  rw [e, shapeCast_a_1a_apply]
  have hL := L.isLt
  show (((IntOp.andi (IntOp.cmpi .sge (BitVec.ofNat 32 L.val) (BitVec.ofNat 32 384))
      (IntOp.cmpi .slt (BitVec.ofNat 32 L.val) (BitVec.ofNat 32 4480))).toNat : ℝ) : EReal) = _
  rw [sge_small _ _ (by omega) (by omega), slt_small _ _ (by omega) (by omega), andi_ofBool, ofBool_toEReal]
  simp only [Bool.and_eq_true, decide_eq_true_eq]

theorem main_v337_eq (V₀ : Valuation τ sig (Elt Ideal)) :
    (StableHlo.after (main_part7_ops7 (F := Ideal)) V₀ (Proc.devRef .tc main_v337) : S1x4864.Idx → EReal)
      = fun y => if 384 ≤ (y 1).val ∧ (y 1).val < 4480 then (1 : EReal) else 0 := by
  funext y
  rw [eq_ix2 y]
  exact main_v337_apply V₀ (y 0) (y 1)

end Cert.ReferenceIdeal.Host

end
-- ==== Proof.ReferenceIdealHostZeros.lean ====
import proofs.«157750_g2000200144022539_pallasbulk_675_13_alg».proof.Proof.Gen.ReferenceIdeal.Launch
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Host

open Cert.ReferenceIdeal Cert.ReferenceIdeal.Gen
open Idealize.ShloMosaic Idealize.ShloMosaic.ValueIdx Idealize.ShloMosaic.TcCoe

theorem main_v9_eq (V₀ : Valuation τ sig (Elt Ideal)) :
    (StableHlo.after (main_part0_ops5 (F := Ideal)) V₀ (Proc.devRef .tc main_v9) : S32x1.Idx → EReal) = fun _ => (0 : EReal) := by
  have e : (StableHlo.after (main_part0_ops5 (F := Ideal)) V₀ (Proc.devRef .tc main_v9) : S32x1.Idx → EReal)
      = broadcastInDim S32x1 ![] bcast_S_S32x1 (constant (F := Ideal) S_ .f32 0x00000000#32) := by
    simp only [main_part0_ops5]
    after_results
  rw [e]
  funext y
  show Ideal.ofBits .f32 0x00000000#32 = 0
  exact Ideal.ofBits_zero_f32

theorem main_v10_eq (V₀ : Valuation τ sig (Elt Ideal)) :
    (StableHlo.after (main_part0_ops5 (F := Ideal)) V₀ (Proc.devRef .tc main_v10) : S32x1.Idx → EReal) = fun _ => (0 : EReal) := by
  have e : (StableHlo.after (main_part0_ops5 (F := Ideal)) V₀ (Proc.devRef .tc main_v10) : S32x1.Idx → EReal)
      = broadcastInDim S32x1 ![] bcast_S_S32x1 (constant (F := Ideal) S_ .f32 0x00000000#32) := by
    simp only [main_part0_ops5]
    after_results
  rw [e]
  funext y
  show Ideal.ofBits .f32 0x00000000#32 = 0
  exact Ideal.ofBits_zero_f32

end Cert.ReferenceIdeal.Host

end
-- ==== Proof.ReferenceIdealChain.lean ====
import proofs.«157750_g2000200144022539_pallasbulk_675_13_alg».proof.Proof.ReferenceIdealArrays
import proofs.«157750_g2000200144022539_pallasbulk_675_13_alg».proof.Proof.ReferenceIdealConsts
import proofs.«157750_g2000200144022539_pallasbulk_675_13_alg».proof.Proof.ReferenceIdealBn
import proofs.«157750_g2000200144022539_pallasbulk_675_13_alg».proof.Proof.ReferenceIdealLayout
import proofs.«157750_g2000200144022539_pallasbulk_675_13_alg».proof.Proof.ReferenceIdealHostValid
import proofs.«157750_g2000200144022539_pallasbulk_675_13_alg».proof.Proof.ReferenceIdealHostZeros

set_option maxRecDepth 16384

noncomputable section

namespace Cert.ReferenceIdeal.Chain

open Idealize.ShloMosaic Idealize.ShloMosaic.TcCoe Idealize.ShloMosaic.ValueIdx
open Idealize.SL Idealize.SL.Sem
open Cert.ReferenceIdeal Cert.ReferenceIdeal.Gen Cert.ReferenceIdeal.Run
open Cert.BnFold (bnScale bnShift voxelLane)
open Cert.ReferenceIdeal.Consts (validRC zerosC maskRC x7Of pHalOf w27Of1 w27Of2)

variable (O : Outs Ideal)

section Stages
variable (x : Vec Ideal S8x32x32x32x32 .f32) (w1 : Vec Ideal S64x32x3x3x3 .f32) (g1 be1 : Vec Ideal S64 .f32)
  (w2 : Vec Ideal S64x64x3x3x3 .f32) (g2 be2 : Vec Ideal S64 .f32)

def riP : Vec Ideal S256x16x16x16x1 .f32 := arr0_1 O (x7Of x)

def riY1 : Vec Ideal S8x64x4864 .f32 := arr1_6 O (pHalOf (riP O x)) (w27Of1 w1) zerosC zerosC validRC maskRC

def riS1 : Vec Ideal S8x64x1 .f32 := arr1_7 O (pHalOf (riP O x)) (w27Of1 w1) zerosC zerosC validRC maskRC

def riQ1 : Vec Ideal S8x64x1 .f32 := arr1_8 O (pHalOf (riP O x)) (w27Of1 w1) zerosC zerosC validRC maskRC

def riSC1 : Vec Ideal S64x1 .f32 := bnScale (riS1 O x w1) (riQ1 O x w1) g1

def riSH1 : Vec Ideal S64x1 .f32 := bnShift (riS1 O x w1) (riQ1 O x w1) g1 be1

def riY2 : Vec Ideal S8x64x4096 .f32 :=
  arr2_6 O (riY1 O x w1) (w27Of2 w2) (riSC1 O x w1 g1) (riSH1 O x w1 g1 be1) validRC maskRC

def riS2 : Vec Ideal S8x64x1 .f32 :=
  arr2_7 O (riY1 O x w1) (w27Of2 w2) (riSC1 O x w1 g1) (riSH1 O x w1 g1 be1) validRC maskRC

def riQ2 : Vec Ideal S8x64x1 .f32 :=
  arr2_8 O (riY1 O x w1) (w27Of2 w2) (riSC1 O x w1 g1) (riSH1 O x w1 g1 be1) validRC maskRC

def riSC2 : Vec Ideal S64x1 .f32 := bnScale (riS2 O x w1 g1 be1 w2) (riQ2 O x w1 g1 be1 w2) g2

def riSH2 : Vec Ideal S64x1 .f32 := bnShift (riS2 O x w1 g1 be1 w2) (riQ2 O x w1 g1 be1 w2) g2 be2

def riOut : Vec Ideal S8x64x4096 .f32 :=
  arr3_3 O (riY2 O x w1 g1 be1 w2) (riSC2 O x w1 g1 be1 w2 g2) (riSH2 O x w1 g1 be1 w2 g2 be2)

def riResult : Vec Ideal S8x64x16x16x16 .f32 :=
  fun j => riOut O x w1 g1 be1 w2 g2 be2 (ix3 (j 0 : Fin 8) (j 1 : Fin 64) (voxelLane (j 2 : Fin 16) (j 3 : Fin 16) (j 4 : Fin 16)))

end Stages

section Carries
variable (V₀ : Valuation τ sig (Elt Ideal))

theorem H1_18_eq_H1_5 (r : Ref sig .tc) (h6 : r ∉ Host.main_part0_ops6_W) (h7 : r ∉ Host.main_part0_ops7_W)
    (h8 : r ∉ Host.main_part0_ops8_W) (h9 : r ∉ Host.main_part0_ops9_W) (h10 : r ∉ Host.main_part0_ops10_W)
    (h11 : r ∉ Host.main_part0_ops11_W) (h12 : r ∉ Host.main_part1_ops0_W) (h13 : r ∉ Host.main_part2_ops0_W)
    (h14 : r ∉ Host.main_part3_ops0_W) (h15 : r ∉ Host.main_part4_ops0_W) (h16 : r ∉ Host.main_part5_ops0_W)
    (h17 : r ∉ Host.main_part6_ops0_W) (h18 : r ∉ Host.main_part7_ops0_W) :
    Host.H1_18 V₀ (Proc.devRef .tc r) = Host.H1_5 V₀ (Proc.devRef .tc r) := by
  rw [Host.H1_18_of V₀ r h18, Host.H1_17_of V₀ r h17, Host.H1_16_of V₀ r h16, Host.H1_15_of V₀ r h15,
    Host.H1_14_of V₀ r h14, Host.H1_13_of V₀ r h13, Host.H1_12_of V₀ r h12, Host.H1_11_of V₀ r h11,
    Host.H1_10_of V₀ r h10, Host.H1_9_of V₀ r h9, Host.H1_8_of V₀ r h8, Host.H1_7_of V₀ r h7, Host.H1_6_of V₀ r h6]

theorem H2_19_eq_H2_7 (r : Ref sig .tc) (h8 : r ∉ Host.main_part7_ops8_W) (h9 : r ∉ Host.main_part7_ops9_W)
    (h10 : r ∉ Host.main_part7_ops10_W) (h11 : r ∉ Host.main_part7_ops11_W) (h12 : r ∉ Host.main_part8_ops0_W)
    (h13 : r ∉ Host.main_part8_ops1_W) (h14 : r ∉ Host.main_part9_ops0_W) (h15 : r ∉ Host.main_part10_ops0_W)
    (h16 : r ∉ Host.main_part11_ops0_W) (h17 : r ∉ Host.main_part12_ops0_W) (h18 : r ∉ Host.main_part13_ops0_W)
    (h19 : r ∉ Host.main_part14_ops0_W) :
    Host.H2_19 V₀ (Proc.devRef .tc r) = Host.H2_7 V₀ (Proc.devRef .tc r) := by
  rw [Host.H2_19_of V₀ r h19, Host.H2_18_of V₀ r h18, Host.H2_17_of V₀ r h17, Host.H2_16_of V₀ r h16,
    Host.H2_15_of V₀ r h15, Host.H2_14_of V₀ r h14, Host.H2_13_of V₀ r h13, Host.H2_12_of V₀ r h12,
    Host.H2_11_of V₀ r h11, Host.H2_10_of V₀ r h10, Host.H2_9_of V₀ r h9, Host.H2_8_of V₀ r h8]

theorem H2_19_eq_H2_5 (r : Ref sig .tc) (h6 : r ∉ Host.main_part7_ops6_W) (h7 : r ∉ Host.main_part7_ops7_W)
    (h8 : r ∉ Host.main_part7_ops8_W) (h9 : r ∉ Host.main_part7_ops9_W)
    (h10 : r ∉ Host.main_part7_ops10_W) (h11 : r ∉ Host.main_part7_ops11_W) (h12 : r ∉ Host.main_part8_ops0_W)
    (h13 : r ∉ Host.main_part8_ops1_W) (h14 : r ∉ Host.main_part9_ops0_W) (h15 : r ∉ Host.main_part10_ops0_W)
    (h16 : r ∉ Host.main_part11_ops0_W) (h17 : r ∉ Host.main_part12_ops0_W) (h18 : r ∉ Host.main_part13_ops0_W)
    (h19 : r ∉ Host.main_part14_ops0_W) :
    Host.H2_19 V₀ (Proc.devRef .tc r) = Host.H2_5 V₀ (Proc.devRef .tc r) := by
  rw [H2_19_eq_H2_7 V₀ r h8 h9 h10 h11 h12 h13 h14 h15 h16 h17 h18 h19, Host.H2_7_of V₀ r h7, Host.H2_6_of V₀ r h6]

theorem H1_18_main_v9_eq : Host.H1_18 V₀ (Proc.devRef .tc main_v9) = Host.H1_5 V₀ (Proc.devRef .tc main_v9) :=
  H1_18_eq_H1_5 V₀ main_v9 (by decide) (by decide) (by decide) (by decide) (by decide) (by decide) (by decide) (by decide)
    (by decide) (by decide) (by decide) (by decide) (by decide)

theorem H1_18_main_v10_eq : Host.H1_18 V₀ (Proc.devRef .tc main_v10) = Host.H1_5 V₀ (Proc.devRef .tc main_v10) :=
  H1_18_eq_H1_5 V₀ main_v10 (by decide) (by decide) (by decide) (by decide) (by decide) (by decide) (by decide) (by decide)
    (by decide) (by decide) (by decide) (by decide) (by decide)

theorem H1_18_main_v18_eq : Host.H1_18 V₀ (Proc.devRef .tc main_v18) = Host.H1_5 V₀ (Proc.devRef .tc main_v18) :=
  H1_18_eq_H1_5 V₀ main_v18 (by decide) (by decide) (by decide) (by decide) (by decide) (by decide) (by decide) (by decide)
    (by decide) (by decide) (by decide) (by decide) (by decide)

theorem H2_19_main_v320_eq : Host.H2_19 V₀ (Proc.devRef .tc main_v320) = Host.H2_5 V₀ (Proc.devRef .tc main_v320) :=
  H2_19_eq_H2_5 V₀ main_v320 (by decide) (by decide) (by decide) (by decide) (by decide) (by decide) (by decide) (by decide)
    (by decide) (by decide) (by decide) (by decide) (by decide) (by decide)

theorem H2_19_main_v324_eq : Host.H2_19 V₀ (Proc.devRef .tc main_v324) = Host.H2_5 V₀ (Proc.devRef .tc main_v324) :=
  H2_19_eq_H2_5 V₀ main_v324 (by decide) (by decide) (by decide) (by decide) (by decide) (by decide) (by decide) (by decide)
    (by decide) (by decide) (by decide) (by decide) (by decide) (by decide)

theorem H2_19_main_v337_eq : Host.H2_19 V₀ (Proc.devRef .tc main_v337) = Host.H2_7 V₀ (Proc.devRef .tc main_v337) :=
  H2_19_eq_H2_7 V₀ main_v337 (by decide) (by decide) (by decide) (by decide) (by decide) (by decide) (by decide) (by decide)
    (by decide) (by decide) (by decide) (by decide)

end Carries

variable (m : (ℓ : Loc nD τ sig) → Buf (Elt Ideal) ℓ) (ρ : Dev nD → PrngReg) (c : Dev nD)

abbrev argList : List (Ref sig .tc) := [main_arg0, main_arg1, main_arg2, main_arg3, main_arg4, main_arg5, main_arg6]

theorem arg1 (r : Ref sig .tc) (hr : r ∈ argList) : W1 m ρ c (Proc.devRef .tc r) = m ((c : Thread nD τ).loc r) := by
  have hr' := hr
  simp only [argList, List.mem_cons, List.mem_nil_iff, List.not_mem_nil, or_false] at hr'
  rcases hr' with rfl | rfl | rfl | rfl | rfl | rfl | rfl
  all_goals exact (Host.H0_1_unwritten (W0 m ρ c) _ (by decide)).trans rfl

theorem arg2 (r : Ref sig .tc) (hr : r ∈ argList) : W2 O m ρ c (Proc.devRef .tc r) = m ((c : Thread nD τ).loc r) := by
  have hr' := hr
  simp only [argList, List.mem_cons, List.mem_nil_iff, List.not_mem_nil, or_false] at hr'
  rcases hr' with rfl | rfl | rfl | rfl | rfl | rfl | rfl
  all_goals exact (W2_of_ne O m ρ c _ (by decide)).trans (arg1 m ρ c _ hr)

theorem arg20 (r : Ref sig .tc) (hr : r ∈ argList) : W20 O m ρ c (Proc.devRef .tc r) = m ((c : Thread nD τ).loc r) := by
  have hr' := hr
  simp only [argList, List.mem_cons, List.mem_nil_iff, List.not_mem_nil, or_false] at hr'
  rcases hr' with rfl | rfl | rfl | rfl | rfl | rfl | rfl
  all_goals exact (Host.H1_18_unwritten (W2 O m ρ c) _ (by decide)).trans (arg2 O m ρ c _ hr)

theorem arg21 (r : Ref sig .tc) (hr : r ∈ argList) : W21 O m ρ c (Proc.devRef .tc r) = m ((c : Thread nD τ).loc r) := by
  have hr' := hr
  simp only [argList, List.mem_cons, List.mem_nil_iff, List.not_mem_nil, or_false] at hr'
  rcases hr' with rfl | rfl | rfl | rfl | rfl | rfl | rfl
  all_goals exact (W21_of_ne O m ρ c _ (by decide)).trans (arg20 O m ρ c _ hr)

theorem arg40 (r : Ref sig .tc) (hr : r ∈ argList) : W40 O m ρ c (Proc.devRef .tc r) = m ((c : Thread nD τ).loc r) := by
  have hr' := hr
  simp only [argList, List.mem_cons, List.mem_nil_iff, List.not_mem_nil, or_false] at hr'
  rcases hr' with rfl | rfl | rfl | rfl | rfl | rfl | rfl
  all_goals exact (Host.H2_19_unwritten (W21 O m ρ c) _ (by decide)).trans (arg21 O m ρ c _ hr)

theorem arg41 (r : Ref sig .tc) (hr : r ∈ argList) : W41 O m ρ c (Proc.devRef .tc r) = m ((c : Thread nD τ).loc r) := by
  have hr' := hr
  simp only [argList, List.mem_cons, List.mem_nil_iff, List.not_mem_nil, or_false] at hr'
  rcases hr' with rfl | rfl | rfl | rfl | rfl | rfl | rfl
  all_goals exact (W41_of_ne O m ρ c _ (by decide)).trans (arg40 O m ρ c _ hr)

theorem in_x7 : (W1 m ρ c (Proc.devRef .tc main_v0) : S256x16x2x16x2x16x2.Idx → Elt Ideal .f32) = x7Of (m ((c : Thread nD τ).loc main_arg0)) := by
  funext j
  exact Host.main_v0_apply_div (W0 m ρ c) j

theorem at2_P : (W2 O m ρ c (Proc.devRef .tc main_v1) : S256x16x16x16x1.Idx → Elt Ideal .f32) = riP O (m ((c : Thread nD τ).loc main_arg0)) := by
  refine ((W2_arr O m ρ c 1).trans (arrAt0_1 O (V1 m ρ) c)).trans ?_
  show arr0_1 O (W1 m ρ c (Proc.devRef .tc main_v0)) = _
  rw [in_x7]
  rfl

theorem at20_pHal : (W20 O m ρ c (Proc.devRef .tc main_v3) : S8x32x4864.Idx → Elt Ideal .f32) = pHalOf (riP O (m ((c : Thread nD τ).loc main_arg0))) := by
  funext i
  obtain ⟨n, ch, L, rfl⟩ : ∃ (n : Fin 8) (ch : Fin 32) (L : Fin 4864), i = ix3 n ch L := ⟨i 0, i 1, i 2, eq_ix3 i⟩
  refine (Host.main_v3_apply (W2 O m ρ c) n ch L).trans ?_
  rw [at2_P O m ρ c]
  rfl

theorem at20_w1 : (W20 O m ρ c (Proc.devRef .tc main_v8) : S64x864.Idx → Elt Ideal .f32) = w27Of1 (m ((c : Thread nD τ).loc main_arg1)) := by
  funext i
  obtain ⟨o, r, rfl⟩ : ∃ (o : Fin 64) (r : Fin 864), i = ix2 o r := ⟨i 0, i 1, eq_ix2 i⟩
  refine (Host.main_v8_apply_div (W2 O m ρ c) o r).trans ?_
  rw [arg2 O m ρ c main_arg1 (by decide)]
  rfl

theorem at20_zeroSc : (W20 O m ρ c (Proc.devRef .tc main_v9) : S32x1.Idx → Elt Ideal .f32) = zerosC :=
  (H1_18_main_v9_eq (W2 O m ρ c)).trans (Host.main_v9_eq (Host.H1_4 (W2 O m ρ c)))

theorem at20_zeroSh : (W20 O m ρ c (Proc.devRef .tc main_v10) : S32x1.Idx → Elt Ideal .f32) = zerosC :=
  (H1_18_main_v10_eq (W2 O m ρ c)).trans (Host.main_v10_eq (Host.H1_4 (W2 O m ρ c)))

theorem at20_valid : (W20 O m ρ c (Proc.devRef .tc main_v18) : S1x4864.Idx → Elt Ideal .f32) = validRC :=
  (H1_18_main_v18_eq (W2 O m ρ c)).trans (Host.main_v18_eq (Host.H1_4 (W2 O m ρ c)))

def Mask1 : Prop :=
  ∀ V₀ : Valuation τ sig (Elt Ideal), (Host.H1_18 V₀ (Proc.devRef .tc main_v303) : S9x4096.Idx → EReal) = maskRC

def Mask2 : Prop :=
  ∀ V₀ : Valuation τ sig (Elt Ideal), (Host.H2_19 V₀ (Proc.devRef .tc main_v622) : S9x4096.Idx → EReal) = maskRC

variable (hm1 : Mask1)
include hm1

theorem at20_mask : (W20 O m ρ c (Proc.devRef .tc main_v303) : S9x4096.Idx → Elt Ideal .f32) = maskRC :=
  hm1 (W2 O m ρ c)

theorem at21_Y1 : (W21 O m ρ c (Proc.devRef .tc main_v304_0) : S8x64x4864.Idx → Elt Ideal .f32) = riY1 O (m ((c : Thread nD τ).loc main_arg0)) (m ((c : Thread nD τ).loc main_arg1)) := by
  refine ((W21_arr O m ρ c 6).trans (arrAt1_6 O (V20 O m ρ) c)).trans ?_
  show arr1_6 O (W20 O m ρ c (Proc.devRef .tc main_v3)) (W20 O m ρ c (Proc.devRef .tc main_v8)) (W20 O m ρ c (Proc.devRef .tc main_v9))
    (W20 O m ρ c (Proc.devRef .tc main_v10)) (W20 O m ρ c (Proc.devRef .tc main_v18)) (W20 O m ρ c (Proc.devRef .tc main_v303)) = _
  rw [at20_pHal O m ρ c, at20_w1 O m ρ c, at20_zeroSc O m ρ c, at20_zeroSh O m ρ c, at20_valid O m ρ c, at20_mask O m ρ c hm1]
  rfl

theorem at21_S1 : (W21 O m ρ c (Proc.devRef .tc main_v304_1) : S8x64x1.Idx → Elt Ideal .f32) = riS1 O (m ((c : Thread nD τ).loc main_arg0)) (m ((c : Thread nD τ).loc main_arg1)) := by
  refine ((W21_arr O m ρ c 7).trans (arrAt1_7 O (V20 O m ρ) c)).trans ?_
  show arr1_7 O (W20 O m ρ c (Proc.devRef .tc main_v3)) (W20 O m ρ c (Proc.devRef .tc main_v8)) (W20 O m ρ c (Proc.devRef .tc main_v9))
    (W20 O m ρ c (Proc.devRef .tc main_v10)) (W20 O m ρ c (Proc.devRef .tc main_v18)) (W20 O m ρ c (Proc.devRef .tc main_v303)) = _
  rw [at20_pHal O m ρ c, at20_w1 O m ρ c, at20_zeroSc O m ρ c, at20_zeroSh O m ρ c, at20_valid O m ρ c, at20_mask O m ρ c hm1]
  rfl

theorem at21_Q1 : (W21 O m ρ c (Proc.devRef .tc main_v304_2) : S8x64x1.Idx → Elt Ideal .f32) = riQ1 O (m ((c : Thread nD τ).loc main_arg0)) (m ((c : Thread nD τ).loc main_arg1)) := by
  refine ((W21_arr O m ρ c 8).trans (arrAt1_8 O (V20 O m ρ) c)).trans ?_
  show arr1_8 O (W20 O m ρ c (Proc.devRef .tc main_v3)) (W20 O m ρ c (Proc.devRef .tc main_v8)) (W20 O m ρ c (Proc.devRef .tc main_v9))
    (W20 O m ρ c (Proc.devRef .tc main_v10)) (W20 O m ρ c (Proc.devRef .tc main_v18)) (W20 O m ρ c (Proc.devRef .tc main_v303)) = _
  rw [at20_pHal O m ρ c, at20_w1 O m ρ c, at20_zeroSc O m ρ c, at20_zeroSh O m ρ c, at20_valid O m ρ c, at20_mask O m ρ c hm1]
  rfl

theorem at40_Y1 : (W40 O m ρ c (Proc.devRef .tc main_v304_0) : S8x64x4864.Idx → Elt Ideal .f32) = riY1 O (m ((c : Thread nD τ).loc main_arg0)) (m ((c : Thread nD τ).loc main_arg1)) :=
  (Host.H2_19_unwritten (W21 O m ρ c) main_v304_0 (by decide)).trans (at21_Y1 O m ρ c hm1)

theorem at40_SC1 : (W40 O m ρ c (Proc.devRef .tc main_v320) : S64x1.Idx → Elt Ideal .f32) = riSC1 O (m ((c : Thread nD τ).loc main_arg0)) (m ((c : Thread nD τ).loc main_arg1)) (m ((c : Thread nD τ).loc main_arg2)) := by
  refine ((H2_19_main_v320_eq (W21 O m ρ c)).trans (Host.P5_main_v320 (W21 O m ρ c))).trans ?_
  rw [at21_S1 O m ρ c hm1, at21_Q1 O m ρ c hm1, arg21 O m ρ c main_arg2 (by decide)]
  rfl

theorem at40_SH1 : (W40 O m ρ c (Proc.devRef .tc main_v324) : S64x1.Idx → Elt Ideal .f32) = riSH1 O (m ((c : Thread nD τ).loc main_arg0)) (m ((c : Thread nD τ).loc main_arg1)) (m ((c : Thread nD τ).loc main_arg2)) (m ((c : Thread nD τ).loc main_arg3)) := by
  refine ((H2_19_main_v324_eq (W21 O m ρ c)).trans (Host.P5_main_v324 (W21 O m ρ c))).trans ?_
  rw [at21_S1 O m ρ c hm1, at21_Q1 O m ρ c hm1, arg21 O m ρ c main_arg2 (by decide), arg21 O m ρ c main_arg3 (by decide)]
  rfl

theorem at40_w2 : (W40 O m ρ c (Proc.devRef .tc main_v329) : S64x1728.Idx → Elt Ideal .f32) = w27Of2 (m ((c : Thread nD τ).loc main_arg4)) := by
  funext i
  obtain ⟨o, r, rfl⟩ : ∃ (o : Fin 64) (r : Fin 1728), i = ix2 o r := ⟨i 0, i 1, eq_ix2 i⟩
  refine (Host.main_v329_apply_div (W21 O m ρ c) o r).trans ?_
  rw [arg21 O m ρ c main_arg4 (by decide)]
  rfl

theorem at40_valid : (W40 O m ρ c (Proc.devRef .tc main_v337) : S1x4864.Idx → Elt Ideal .f32) = validRC :=
  (H2_19_main_v337_eq (W21 O m ρ c)).trans (Host.main_v337_eq (Host.H2_6 (W21 O m ρ c)))

variable (hm2 : Mask2)
include hm2

theorem at40_mask : (W40 O m ρ c (Proc.devRef .tc main_v622) : S9x4096.Idx → Elt Ideal .f32) = maskRC :=
  hm2 (W21 O m ρ c)

theorem at41_Y2 : (W41 O m ρ c (Proc.devRef .tc main_v623_0) : S8x64x4096.Idx → Elt Ideal .f32) = riY2 O (m ((c : Thread nD τ).loc main_arg0)) (m ((c : Thread nD τ).loc main_arg1)) (m ((c : Thread nD τ).loc main_arg2)) (m ((c : Thread nD τ).loc main_arg3)) (m ((c : Thread nD τ).loc main_arg4)) := by
  refine ((W41_arr O m ρ c 6).trans (arrAt2_6 O (V40 O m ρ) c)).trans ?_
  show arr2_6 O (W40 O m ρ c (Proc.devRef .tc main_v304_0)) (W40 O m ρ c (Proc.devRef .tc main_v329)) (W40 O m ρ c (Proc.devRef .tc main_v320))
    (W40 O m ρ c (Proc.devRef .tc main_v324)) (W40 O m ρ c (Proc.devRef .tc main_v337)) (W40 O m ρ c (Proc.devRef .tc main_v622)) = _
  rw [at40_Y1 O m ρ c hm1, at40_w2 O m ρ c hm1, at40_SC1 O m ρ c hm1, at40_SH1 O m ρ c hm1, at40_valid O m ρ c hm1, at40_mask O m ρ c hm1 hm2]
  rfl

theorem at41_S2 : (W41 O m ρ c (Proc.devRef .tc main_v623_1) : S8x64x1.Idx → Elt Ideal .f32) = riS2 O (m ((c : Thread nD τ).loc main_arg0)) (m ((c : Thread nD τ).loc main_arg1)) (m ((c : Thread nD τ).loc main_arg2)) (m ((c : Thread nD τ).loc main_arg3)) (m ((c : Thread nD τ).loc main_arg4)) := by
  refine ((W41_arr O m ρ c 7).trans (arrAt2_7 O (V40 O m ρ) c)).trans ?_
  show arr2_7 O (W40 O m ρ c (Proc.devRef .tc main_v304_0)) (W40 O m ρ c (Proc.devRef .tc main_v329)) (W40 O m ρ c (Proc.devRef .tc main_v320))
    (W40 O m ρ c (Proc.devRef .tc main_v324)) (W40 O m ρ c (Proc.devRef .tc main_v337)) (W40 O m ρ c (Proc.devRef .tc main_v622)) = _
  rw [at40_Y1 O m ρ c hm1, at40_w2 O m ρ c hm1, at40_SC1 O m ρ c hm1, at40_SH1 O m ρ c hm1, at40_valid O m ρ c hm1, at40_mask O m ρ c hm1 hm2]
  rfl

theorem at41_Q2 : (W41 O m ρ c (Proc.devRef .tc main_v623_2) : S8x64x1.Idx → Elt Ideal .f32) = riQ2 O (m ((c : Thread nD τ).loc main_arg0)) (m ((c : Thread nD τ).loc main_arg1)) (m ((c : Thread nD τ).loc main_arg2)) (m ((c : Thread nD τ).loc main_arg3)) (m ((c : Thread nD τ).loc main_arg4)) := by
  refine ((W41_arr O m ρ c 8).trans (arrAt2_8 O (V40 O m ρ) c)).trans ?_
  show arr2_8 O (W40 O m ρ c (Proc.devRef .tc main_v304_0)) (W40 O m ρ c (Proc.devRef .tc main_v329)) (W40 O m ρ c (Proc.devRef .tc main_v320))
    (W40 O m ρ c (Proc.devRef .tc main_v324)) (W40 O m ρ c (Proc.devRef .tc main_v337)) (W40 O m ρ c (Proc.devRef .tc main_v622)) = _
  rw [at40_Y1 O m ρ c hm1, at40_w2 O m ρ c hm1, at40_SC1 O m ρ c hm1, at40_SH1 O m ρ c hm1, at40_valid O m ρ c hm1, at40_mask O m ρ c hm1 hm2]
  rfl

theorem at46_Y2 : (W46 O m ρ c (Proc.devRef .tc main_v623_0) : S8x64x4096.Idx → Elt Ideal .f32) = riY2 O (m ((c : Thread nD τ).loc main_arg0)) (m ((c : Thread nD τ).loc main_arg1)) (m ((c : Thread nD τ).loc main_arg2)) (m ((c : Thread nD τ).loc main_arg3)) (m ((c : Thread nD τ).loc main_arg4)) :=
  (Host.H3_5_unwritten (W41 O m ρ c) main_v623_0 (by decide)).trans (at41_Y2 O m ρ c hm1 hm2)

theorem at46_SC2 : (W46 O m ρ c (Proc.devRef .tc main_v639) : S64x1.Idx → Elt Ideal .f32) = riSC2 O (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (Host.Q5_main_v639 (W41 O m ρ c)).trans ?_
  rw [at41_S2 O m ρ c hm1 hm2, at41_Q2 O m ρ c hm1 hm2, arg41 O m ρ c main_arg5 (by decide)]
  rfl

theorem at46_SH2 : (W46 O m ρ c (Proc.devRef .tc main_v643) : S64x1.Idx → Elt Ideal .f32) = riSH2 O (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (Host.Q5_main_v643 (W41 O m ρ c)).trans ?_
  rw [at41_S2 O m ρ c hm1 hm2, at41_Q2 O m ρ c hm1 hm2, arg41 O m ρ c main_arg5 (by decide), arg41 O m ρ c main_arg6 (by decide)]
  rfl

theorem at47_out : (W47 O m ρ c (Proc.devRef .tc main_v644) : S8x64x4096.Idx → Elt Ideal .f32) = riOut O (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine ((W47_arr O m ρ c 3).trans (arrAt3_3 O (V46 O m ρ) c)).trans ?_
  show arr3_3 O (W46 O m ρ c (Proc.devRef .tc main_v623_0)) (W46 O m ρ c (Proc.devRef .tc main_v639)) (W46 O m ρ c (Proc.devRef .tc main_v643)) = _
  rw [at46_Y2 O m ρ c hm1 hm2, at46_SC2 O m ρ c hm1 hm2, at46_SH2 O m ρ c hm1 hm2]
  rfl

theorem chain :
    (W48 O m ρ c (Proc.devRef .tc main_v645) : Vec Ideal S8x64x16x16x16 .f32) = riResult O (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  funext j
  obtain ⟨n, o, d, h, w, rfl⟩ : ∃ (n : Fin 8) (o : Fin 64) (d h w : Fin 16), j = ix5 n o d h w := ⟨j 0, j 1, j 2, j 3, j 4, eq_ix5 j⟩
  refine (Host.T1_main_v645_apply (W47 O m ρ c) n o d h w).trans ?_
  rw [at47_out O m ρ c hm1 hm2]
  rfl

end Cert.ReferenceIdeal.Chain

end
-- ==== Proof.ReferenceIdealHostLanes.lean ====
import proofs.«157750_g2000200144022539_pallasbulk_675_13_alg».proof.Proof.ReferenceIdealHostWords

noncomputable section

namespace Cert.ReferenceIdeal.Host

open Idealize.ShloMosaic Idealize.ShloMosaic.ValueIdx

def remW (x d : BitVec 32) : BitVec 32 :=
  Scalar.select
    (IntOp.andi
      (IntOp.cmpi .ne (IntOp.cmpi .slt (IntOp.remsi .host x (Scalar.select (IntOp.cmpi .eq d 0#32) 1#32 d)) 0#32)
        (IntOp.cmpi .slt (Scalar.select (IntOp.cmpi .eq d 0#32) 1#32 d) 0#32))
      (IntOp.cmpi .ne (IntOp.remsi .host x (Scalar.select (IntOp.cmpi .eq d 0#32) 1#32 d)) 0#32))
    (IntOp.addi (IntOp.remsi .host x (Scalar.select (IntOp.cmpi .eq d 0#32) 1#32 d)) (Scalar.select (IntOp.cmpi .eq d 0#32) 1#32 d))
    (IntOp.remsi .host x (Scalar.select (IntOp.cmpi .eq d 0#32) 1#32 d))

def sgnW (x : BitVec 32) : BitVec 32 := if x = 0 then 0 else if x.msb then -1 else 1

def fdivW (x d : BitVec 32) : BitVec 32 :=
  Scalar.select
    (IntOp.andi (IntOp.cmpi .ne (sgnW x) (sgnW d)) (IntOp.cmpi .ne (IntOp.remsi .host x d) 0#32))
    (IntOp.subi (IntOp.divsi .host x d) 1#32)
    (IntOp.divsi .host x d)

theorem msb_ofNat_small (n : ℕ) (hn : n < 2 ^ 31) : (BitVec.ofNat 32 n).msb = false :=
  BitVec.msb_eq_false_iff_two_mul_lt.mpr (by rw [toNat_ofNat_small n (by omega)]; omega)

theorem rem16_word (n : ℕ) (hn : n < 2 ^ 31) : IntOp.remsi .host (BitVec.ofNat 32 n) 16#32 = BitVec.ofNat 32 (n % 16) := by
  have hcorner : ¬ IntOp.SDivCorner (BitVec.ofNat 32 n) 16#32 := by
    intro hc; rcases hc with hc | ⟨_, hc⟩ <;> exact absurd hc (by decide)
  have hm := msb_ofNat_small n hn
  apply BitVec.eq_of_toNat_eq
  simp only [IntOp.remsi, if_neg hcorner, BitVec.srem_eq, hm, show (16#32 : BitVec 32).msb = false from by decide,
    BitVec.toNat_umod]
  rw [toNat_ofNat_small n (by omega), toNat_ofNat_small (n % 16) (by omega)]
  rfl

theorem div16_word (n : ℕ) (hn : n < 2 ^ 31) : IntOp.divsi .host (BitVec.ofNat 32 n) 16#32 = BitVec.ofNat 32 (n / 16) := by
  have hcorner : ¬ IntOp.SDivCorner (BitVec.ofNat 32 n) 16#32 := by
    intro hc; rcases hc with hc | ⟨_, hc⟩ <;> exact absurd hc (by decide)
  have hm := msb_ofNat_small n hn
  apply BitVec.eq_of_toNat_eq
  simp only [IntOp.divsi, if_neg hcorner, BitVec.sdiv_eq, hm, show (16#32 : BitVec 32).msb = false from by decide,
    BitVec.udiv_eq, BitVec.toNat_udiv]
  rw [toNat_ofNat_small n (by omega), toNat_ofNat_small (n / 16) (by omega)]
  rfl

theorem remW_16 (n : ℕ) (hn : n < 2 ^ 31) : remW (BitVec.ofNat 32 n) 16#32 = BitVec.ofNat 32 (n % 16) := by
  unfold remW
  have hd : Scalar.select (IntOp.cmpi .eq (16#32 : BitVec 32) 0#32) 1#32 16#32 = 16#32 := by decide
  rw [hd, rem16_word n hn]
  have h1 : IntOp.cmpi .slt (BitVec.ofNat 32 (n % 16)) 0#32 = 0#1 := by
    rw [slt_small (n % 16) 0 (by omega) (by omega), decide_eq_false (Nat.not_lt_zero _)]; rfl
  have h2 : IntOp.cmpi .ne (0#1) (IntOp.cmpi .slt (16#32 : BitVec 32) 0#32) = 0#1 := by decide
  have h3 : ∀ b : BitVec 1, IntOp.andi 0#1 b = 0#1 := by decide
  rw [h1, h2, h3, select_zero]

theorem fdivW_16 (n : ℕ) (hn : n < 2 ^ 31) : fdivW (BitVec.ofNat 32 n) 16#32 = BitVec.ofNat 32 (n / 16) := by
  unfold fdivW
  have h3 : ∀ b : BitVec 1, IntOp.andi 0#1 b = 0#1 := by decide
  have h4 : ∀ b : BitVec 1, IntOp.andi b 0#1 = 0#1 := by decide
  rw [rem16_word n hn, div16_word n hn]
  by_cases h0 : n = 0
  · subst h0
    have : IntOp.cmpi .ne (BitVec.ofNat 32 (0 % 16)) 0#32 = 0#1 := by decide
    rw [this, h4, select_zero]
  · have hs : sgnW (BitVec.ofNat 32 n) = 1 := by
      unfold sgnW
      have hne : BitVec.ofNat 32 n ≠ 0 := by
        intro h
        have := congrArg BitVec.toNat h
        rw [toNat_ofNat_small n (by omega)] at this
        exact h0 this
      rw [if_neg hne, msb_ofNat_small n hn]; rfl
    have hs16 : sgnW 16#32 = 1 := by decide
    have : IntOp.cmpi .ne (1 : BitVec 32) 1 = 0#1 := by decide
    rw [hs, hs16, this, h3, select_zero]

def tapOK (kh kw m : ℕ) : Bool :=
  decide (1 ≤ m / 16 % 16 + kh ∧ m / 16 % 16 + kh ≤ 16 ∧ 1 ≤ m % 16 + kw ∧ m % 16 + kw ≤ 16)

def loW (a k : BitVec 32) : BitVec 1 := IntOp.cmpi .sge (IntOp.subi (IntOp.addi a k) 1#32) 0#32

def hiW (a k : BitVec 32) : BitVec 1 := IntOp.cmpi .slt (IntOp.subi (IntOp.addi a k) 1#32) 16#32

def rowW (h w m kh kw : BitVec 32) : BitVec 1 :=
  IntOp.andi (IntOp.andi (IntOp.andi (IntOp.andi (loW h kh) (hiW h kh)) (loW w kw)) (hiW w kw)) (IntOp.cmpi .slt m 4096#32)

theorem loW_small : ∀ (a : Fin 16) (k : Fin 3),
    loW (BitVec.ofNat 32 a.val) (BitVec.ofNat 32 k.val) = BitVec.ofBool (decide (1 ≤ a.val + k.val)) := by decide
theorem hiW_small : ∀ (a : Fin 16) (k : Fin 3),
    hiW (BitVec.ofNat 32 a.val) (BitVec.ofNat 32 k.val) = BitVec.ofBool (decide (a.val + k.val ≤ 16)) := by decide

theorem rowW_eq (n : ℕ) (hn : n < 4096) (kh kw : ℕ) (hkh : kh < 3) (hkw : kw < 3) :
    rowW (BitVec.ofNat 32 (n / 16 % 16)) (BitVec.ofNat 32 (n % 16)) (BitVec.ofNat 32 n) (BitVec.ofNat 32 kh) (BitVec.ofNat 32 kw)
      = BitVec.ofBool (tapOK kh kw n) := by
  unfold rowW tapOK
  have e1 := loW_small ⟨n / 16 % 16, Nat.mod_lt _ (by decide)⟩ ⟨kh, hkh⟩
  have e2 := hiW_small ⟨n / 16 % 16, Nat.mod_lt _ (by decide)⟩ ⟨kh, hkh⟩
  have e3 := loW_small ⟨n % 16, Nat.mod_lt _ (by decide)⟩ ⟨kw, hkw⟩
  have e4 := hiW_small ⟨n % 16, Nat.mod_lt _ (by decide)⟩ ⟨kw, hkw⟩
  simp only [] at e1 e2 e3 e4
  rw [e1, e2, e3, e4, slt_small n 4096 (by omega) (by omega), andi_ofBool, andi_ofBool, andi_ofBool, andi_ofBool,
    decide_eq_true (show n < 4096 from hn), Bool.and_true]
  congr 1
  simp only [Bool.decide_and, Bool.and_assoc]

end Cert.ReferenceIdeal.Host

end
-- ==== Proof.ReferenceIdealHostTapsLib.lean ====
import proofs.«157750_g2000200144022539_pallasbulk_675_13_alg».proof.Proof.Gen.ReferenceIdeal.Launch
import proofs.«157750_g2000200144022539_pallasbulk_675_13_alg».proof.Proof.ReferenceIdealHostWords
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import proofs.«157750_g2000200144022539_pallasbulk_675_13_alg».proof.Proof.ReferenceIdealHostLanes
import proofs.«157750_g2000200144022539_pallasbulk_675_13_alg».proof.Proof.ReferenceIdealHostWrites

noncomputable section

namespace Cert.ReferenceIdeal.Host

open Cert.ReferenceIdeal Cert.ReferenceIdeal.Gen
open Idealize.ShloMosaic Idealize.ShloMosaic.ValueIdx Idealize.ShloMosaic.TcCoe

theorem after_append {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons op l ih => simp only [List.cons_append, StableHlo.after_cons, ih]

def iotaV : IVec S4096 32 := fun i => BitVec.ofNat 32 (i 0).val
def wV : IVec S4096 32 := fun i => BitVec.ofNat 32 ((i 0).val % 16)
def hV : IVec S4096 32 := fun i => BitVec.ofNat 32 ((i 0).val / 16 % 16)

def rowMask (kh kw : ℕ) : IVec S4096 1 := fun i => BitVec.ofBool (tapOK kh kw (i 0).val)

def c16 : IVec S_ 32 := constantI S_ 32 16#32

def qV : IVec S4096 32 := fun i => BitVec.ofNat 32 ((i 0).val / 16)

theorem fdiv_lane (n : ℕ) (hn : n < 2 ^ 31) (sd : BitVec 32) (hsd : sd = 1) :
    Scalar.select
      (IntOp.andi (IntOp.cmpi .ne (sgnW (BitVec.ofNat 32 n)) sd) (IntOp.cmpi .ne (IntOp.remsi .host (BitVec.ofNat 32 n) 16#32) 0#32))
      (IntOp.subi (IntOp.divsi .host (BitVec.ofNat 32 n) 16#32) 1#32)
      (IntOp.divsi .host (BitVec.ofNat 32 n) 16#32) = BitVec.ofNat 32 (n / 16) := by
  subst hsd
  have h := fdivW_16 n hn
  unfold fdivW at h
  rw [show sgnW 16#32 = 1 from by decide] at h
  exact h

theorem keep_eq {ops : List (HloOp τ sig (Elt Ideal))} {V : Valuation τ sig (Elt Ideal)} {W : List (Ref sig .tc)}
    (hW : ops.Forall fun op => op.writes ⊆ (W.map (Proc.devRef (τ := τ) .tc)).toFinset) {r : Ref sig .tc} (hr : r ∉ W)
    {x : (Proc.devRef (τ := τ) .tc r).ty.Contents (Elt Ideal)} (h : V (Proc.devRef .tc r) = x) :
    StableHlo.after ops V (Proc.devRef .tc r) = x :=
  (StableHlo.after_of_writes_sub ops V hW hr).trans h

theorem uitofp_apply {s : Shape} {w : ℕ} (x : IVec s w) (i : s.Idx) :
    (uitofp .f32 x : FVec Ideal s .f32) i = (((x i).toNat : ℝ) : EReal) := rfl

theorem bcast1_apply {α : Type} (h : S4096.BroadcastsInDim S1x4096 ![1]) (v : S4096.Idx → α) (u : Fin 1) (m : Fin 4096) :
    broadcastInDim S1x4096 ![1] h v (ix2 u m) = v (ix1 m) := by
  simp only [broadcastInDim]
  congr 1
  funext a
  have ha : a = 0 := Subsingleton.elim _ _
  subst ha
  apply Fin.ext
  have hm := m.isLt
  split
  · next h1 => change 4096 = 1 at h1; omega
  · rfl

macro "read_two" a:ident b:ident : tactic =>
  `(tactic| (rw [← after_append]; simp only [$a:ident, $b:ident, List.cons_append, List.nil_append]; after_results_simp))

end Cert.ReferenceIdeal.Host

end
-- ==== Proof.ReferenceIdealHostTaps1Pos.lean ====
import proofs.«157750_g2000200144022539_pallasbulk_675_13_alg».proof.Proof.Gen.ReferenceIdeal.Launch
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import proofs.«157750_g2000200144022539_pallasbulk_675_13_alg».proof.Proof.ReferenceIdealHostTapsLib

noncomputable section

namespace Cert.ReferenceIdeal.Host

open Cert.ReferenceIdeal Cert.ReferenceIdeal.Gen
open Idealize.ShloMosaic Idealize.ShloMosaic.ValueIdx Idealize.ShloMosaic.TcCoe

theorem ops5_v19 (V : Valuation τ sig (Elt Ideal)) :
    (StableHlo.after (main_part0_ops5 (F := Ideal)) V (Proc.devRef .tc main_v19) : IVec S4096 32) = iotaV := by
  simp only [main_part0_ops5]
  after_results_simp
  rfl

theorem ops5_c4 (V : Valuation τ sig (Elt Ideal)) :
    (StableHlo.after (main_part0_ops5 (F := Ideal)) V (Proc.devRef .tc main_c_4) : IVec S_ 32) = c16 := by
  simp only [main_part0_ops5]
  after_results_simp
  rfl
theorem ops7_c5 (V : Valuation τ sig (Elt Ideal)) :
    (StableHlo.after (main_part0_ops7 (F := Ideal)) V (Proc.devRef .tc main_c_5) : IVec S_ 32) = c16 := by
  simp only [main_part0_ops7]
  after_results_simp
  rfl
theorem ops9_c6 (V : Valuation τ sig (Elt Ideal)) :
    (StableHlo.after (main_part0_ops9 (F := Ideal)) V (Proc.devRef .tc main_c_6) : IVec S_ 32) = c16 := by
  simp only [main_part0_ops9]
  after_results_simp
  rfl

theorem rem1a (V : Valuation τ sig (Elt Ideal))
    (hm : (V (Proc.devRef .tc main_v19) : IVec S4096 32) = iotaV)
    (hc : (V (Proc.devRef .tc main_c_4) : IVec S_ 32) = c16) :
    (StableHlo.after (main_part0_ops6 (F := Ideal)) V (Proc.devRef .tc main_v20) : IVec S4096 32) = wV := by
  simp only [main_part0_ops6]
  after_results_simp
  rw [hm, hc]
  funext i
  have hi : (i 0).val < 4096 := (i 0).isLt
  exact remW_16 (i 0).val (by omega)

theorem fdiv1 (V : Valuation τ sig (Elt Ideal))
    (hm : (V (Proc.devRef .tc main_v19) : IVec S4096 32) = iotaV)
    (hc : (V (Proc.devRef .tc main_c_5) : IVec S_ 32) = c16) :
    (StableHlo.after (main_part0_ops8 (F := Ideal)) V (Proc.devRef .tc main_v21) : IVec S4096 32) = qV := by
  simp only [main_part0_ops8]
  after_results_simp
  rw [hm, hc]
  funext i
  have hi : (i 0).val < 4096 := (i 0).isLt
  refine fdiv_lane (i 0).val (by omega) _ ?_
  simp only [StableHlo.TRef.toBuf, StableHlo.TRef.ofBuf, cast_eq]
  show (if (16#32 : BitVec 32) = 0 then (0 : BitVec 32) else if (16#32 : BitVec 32).msb then -1 else 1) = 1
  decide

theorem rem1b (V : Valuation τ sig (Elt Ideal))
    (hq : (V (Proc.devRef .tc main_v21) : IVec S4096 32) = qV)
    (hc : (V (Proc.devRef .tc main_c_6) : IVec S_ 32) = c16) :
    (StableHlo.after (main_part0_ops10 (F := Ideal)) V (Proc.devRef .tc main_v22) : IVec S4096 32) = hV := by
  simp only [main_part0_ops10]
  after_results_simp
  rw [hq, hc]
  funext i
  have hi : (i 0).val < 4096 := (i 0).isLt
  exact remW_16 ((i 0).val / 16) (by omega)

structure Pos1 (V : Valuation τ sig (Elt Ideal)) : Prop where
  hm : (V (Proc.devRef .tc main_v19) : IVec S4096 32) = iotaV
  hw : (V (Proc.devRef .tc main_v20) : IVec S4096 32) = wV
  hh : (V (Proc.devRef .tc main_v22) : IVec S4096 32) = hV

theorem Pos1.keep {V : Valuation τ sig (Elt Ideal)} (p : Pos1 V) (ops : List (HloOp τ sig (Elt Ideal))) (W : List (Ref sig .tc))
    (hW : ops.Forall fun op => op.writes ⊆ (W.map (Proc.devRef (τ := τ) .tc)).toFinset)
    (hm : main_v19 ∉ W) (hw : main_v20 ∉ W) (hh : main_v22 ∉ W) : Pos1 (StableHlo.after ops V) :=
  ⟨keep_eq hW hm p.hm, keep_eq hW hw p.hw, keep_eq hW hh p.hh⟩

theorem pos1 (V : Valuation τ sig (Elt Ideal)) :
    Pos1 (StableHlo.after main_part0_ops10 (StableHlo.after main_part0_ops9 (StableHlo.after main_part0_ops8
      (StableHlo.after main_part0_ops7 (StableHlo.after main_part0_ops6 (StableHlo.after main_part0_ops5 V)))))) := by
  have a5m := ops5_v19 V
  have a5c := ops5_c4 V
  have a6w := rem1a _ a5m a5c
  have a6m := keep_eq (main_part0_ops6_writes (F := Ideal)) (r := main_v19) (by decide) a5m
  have a7c := ops7_c5 (StableHlo.after main_part0_ops6 (StableHlo.after main_part0_ops5 V))
  have a7m := keep_eq (main_part0_ops7_writes (F := Ideal)) (r := main_v19) (by decide) a6m
  have a7w := keep_eq (main_part0_ops7_writes (F := Ideal)) (r := main_v20) (by decide) a6w
  have a8q := fdiv1 _ a7m a7c
  have a8m := keep_eq (main_part0_ops8_writes (F := Ideal)) (r := main_v19) (by decide) a7m
  have a8w := keep_eq (main_part0_ops8_writes (F := Ideal)) (r := main_v20) (by decide) a7w
  have a9c := ops9_c6 (StableHlo.after main_part0_ops8 (StableHlo.after main_part0_ops7
    (StableHlo.after main_part0_ops6 (StableHlo.after main_part0_ops5 V))))
  have a9m := keep_eq (main_part0_ops9_writes (F := Ideal)) (r := main_v19) (by decide) a8m
  have a9w := keep_eq (main_part0_ops9_writes (F := Ideal)) (r := main_v20) (by decide) a8w
  have a9q := keep_eq (main_part0_ops9_writes (F := Ideal)) (r := main_v21) (by decide) a8q
  have a10h := rem1b _ a9q a9c
  have a10m := keep_eq (main_part0_ops10_writes (F := Ideal)) (r := main_v19) (by decide) a9m
  have a10w := keep_eq (main_part0_ops10_writes (F := Ideal)) (r := main_v20) (by decide) a9w
  exact ⟨a10m, a10w, a10h⟩

end Cert.ReferenceIdeal.Host

end
-- ==== Proof.ReferenceIdealHostTaps1RowsA.lean ====
import proofs.«157750_g2000200144022539_pallasbulk_675_13_alg».proof.Proof.Gen.ReferenceIdeal.Launch
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import proofs.«157750_g2000200144022539_pallasbulk_675_13_alg».proof.Proof.ReferenceIdealHostTapsLib

noncomputable section

namespace Cert.ReferenceIdeal.Host

open Cert.ReferenceIdeal Cert.ReferenceIdeal.Gen
open Idealize.ShloMosaic Idealize.ShloMosaic.ValueIdx Idealize.ShloMosaic.TcCoe

theorem row1_0 (V : Valuation τ sig (Elt Ideal))
    (hm : (V (Proc.devRef .tc main_v19) : IVec S4096 32) = iotaV) (hw : (V (Proc.devRef .tc main_v20) : IVec S4096 32) = wV)
    (hh : (V (Proc.devRef .tc main_v22) : IVec S4096 32) = hV) :
    (StableHlo.after (main_part1_ops0 (F := Ideal)) (StableHlo.after main_part0_ops11 V) (Proc.devRef .tc main_v52) : IVec S4096 1)
      = rowMask 0 0 := by
  read_two main_part0_ops11 main_part1_ops0
  rw [hm, hw, hh]
  funext i
  exact rowW_eq (i 0).val (i 0).isLt 0 0 (by decide) (by decide)

theorem row1_1 (V : Valuation τ sig (Elt Ideal))
    (hm : (V (Proc.devRef .tc main_v19) : IVec S4096 32) = iotaV) (hw : (V (Proc.devRef .tc main_v20) : IVec S4096 32) = wV)
    (hh : (V (Proc.devRef .tc main_v22) : IVec S4096 32) = hV) :
    (StableHlo.after (main_part1_ops0 (F := Ideal)) (StableHlo.after main_part0_ops11 V) (Proc.devRef .tc main_v82) : IVec S4096 1)
      = rowMask 0 1 := by
  read_two main_part0_ops11 main_part1_ops0
  rw [hm, hw, hh]
  funext i
  exact rowW_eq (i 0).val (i 0).isLt 0 1 (by decide) (by decide)

end Cert.ReferenceIdeal.Host

end
-- ==== Proof.ReferenceIdealHostTaps1RowsB.lean ====
import proofs.«157750_g2000200144022539_pallasbulk_675_13_alg».proof.Proof.Gen.ReferenceIdeal.Launch
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import proofs.«157750_g2000200144022539_pallasbulk_675_13_alg».proof.Proof.ReferenceIdealHostTapsLib

noncomputable section

namespace Cert.ReferenceIdeal.Host

open Cert.ReferenceIdeal Cert.ReferenceIdeal.Gen
open Idealize.ShloMosaic Idealize.ShloMosaic.ValueIdx Idealize.ShloMosaic.TcCoe

set_option maxHeartbeats 2000000 in

theorem row1_2 (V : Valuation τ sig (Elt Ideal))
    (hm : (V (Proc.devRef .tc main_v19) : IVec S4096 32) = iotaV) (hw : (V (Proc.devRef .tc main_v20) : IVec S4096 32) = wV)
    (hh : (V (Proc.devRef .tc main_v22) : IVec S4096 32) = hV) :
    (StableHlo.after (main_part2_ops0 (F := Ideal)) (StableHlo.after main_part1_ops0 V) (Proc.devRef .tc main_v112) : IVec S4096 1)
      = rowMask 0 2 := by
  read_two main_part1_ops0 main_part2_ops0
  rw [hm, hw, hh]
  funext i
  exact rowW_eq (i 0).val (i 0).isLt 0 2 (by decide) (by decide)

set_option maxHeartbeats 2000000 in

theorem row1_3 (V : Valuation τ sig (Elt Ideal))
    (hm : (V (Proc.devRef .tc main_v19) : IVec S4096 32) = iotaV) (hw : (V (Proc.devRef .tc main_v20) : IVec S4096 32) = wV)
    (hh : (V (Proc.devRef .tc main_v22) : IVec S4096 32) = hV) :
    (StableHlo.after (main_part3_ops0 (F := Ideal)) (StableHlo.after main_part2_ops0 V) (Proc.devRef .tc main_v142) : IVec S4096 1)
      = rowMask 1 0 := by
  read_two main_part2_ops0 main_part3_ops0
  rw [hm, hw, hh]
  funext i
  exact rowW_eq (i 0).val (i 0).isLt 1 0 (by decide) (by decide)

end Cert.ReferenceIdeal.Host

end
-- ==== Proof.ReferenceIdealHostTaps1RowsC.lean ====
import proofs.«157750_g2000200144022539_pallasbulk_675_13_alg».proof.Proof.Gen.ReferenceIdeal.Launch
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import proofs.«157750_g2000200144022539_pallasbulk_675_13_alg».proof.Proof.ReferenceIdealHostTapsLib

noncomputable section

namespace Cert.ReferenceIdeal.Host

open Cert.ReferenceIdeal Cert.ReferenceIdeal.Gen
open Idealize.ShloMosaic Idealize.ShloMosaic.ValueIdx Idealize.ShloMosaic.TcCoe

set_option maxHeartbeats 2000000 in

theorem row1_4 (V : Valuation τ sig (Elt Ideal))
    (hm : (V (Proc.devRef .tc main_v19) : IVec S4096 32) = iotaV) (hw : (V (Proc.devRef .tc main_v20) : IVec S4096 32) = wV)
    (hh : (V (Proc.devRef .tc main_v22) : IVec S4096 32) = hV) :
    (StableHlo.after (main_part4_ops0 (F := Ideal)) (StableHlo.after main_part3_ops0 V) (Proc.devRef .tc main_v172) : IVec S4096 1)
      = rowMask 1 1 := by
  read_two main_part3_ops0 main_part4_ops0
  rw [hm, hw, hh]
  funext i
  exact rowW_eq (i 0).val (i 0).isLt 1 1 (by decide) (by decide)

set_option maxHeartbeats 2000000 in

theorem row1_5 (V : Valuation τ sig (Elt Ideal))
    (hm : (V (Proc.devRef .tc main_v19) : IVec S4096 32) = iotaV) (hw : (V (Proc.devRef .tc main_v20) : IVec S4096 32) = wV)
    (hh : (V (Proc.devRef .tc main_v22) : IVec S4096 32) = hV) :
    (StableHlo.after (main_part4_ops0 (F := Ideal)) (StableHlo.after main_part3_ops0 V) (Proc.devRef .tc main_v202) : IVec S4096 1)
      = rowMask 1 2 := by
  read_two main_part3_ops0 main_part4_ops0
  rw [hm, hw, hh]
  funext i
  exact rowW_eq (i 0).val (i 0).isLt 1 2 (by decide) (by decide)

end Cert.ReferenceIdeal.Host

end
-- ==== Proof.ReferenceIdealHostTaps1RowsD.lean ====
import proofs.«157750_g2000200144022539_pallasbulk_675_13_alg».proof.Proof.Gen.ReferenceIdeal.Launch
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import proofs.«157750_g2000200144022539_pallasbulk_675_13_alg».proof.Proof.ReferenceIdealHostTapsLib

noncomputable section

namespace Cert.ReferenceIdeal.Host

open Cert.ReferenceIdeal Cert.ReferenceIdeal.Gen
open Idealize.ShloMosaic Idealize.ShloMosaic.ValueIdx Idealize.ShloMosaic.TcCoe

set_option maxHeartbeats 2000000 in

theorem row1_6 (V : Valuation τ sig (Elt Ideal))
    (hm : (V (Proc.devRef .tc main_v19) : IVec S4096 32) = iotaV) (hw : (V (Proc.devRef .tc main_v20) : IVec S4096 32) = wV)
    (hh : (V (Proc.devRef .tc main_v22) : IVec S4096 32) = hV) :
    (StableHlo.after (main_part5_ops0 (F := Ideal)) (StableHlo.after main_part4_ops0 V) (Proc.devRef .tc main_v232) : IVec S4096 1)
      = rowMask 2 0 := by
  read_two main_part4_ops0 main_part5_ops0
  rw [hm, hw, hh]
  funext i
  exact rowW_eq (i 0).val (i 0).isLt 2 0 (by decide) (by decide)

theorem part6_v293 (V : Valuation τ sig (Elt Ideal)) :
    (StableHlo.after (main_part6_ops0 (F := Ideal)) V (Proc.devRef .tc main_v293) : IVec S1x4096 1)
      = broadcastInDim S1x4096 ![1] bcast_S4096_S1x4096_1 (V (Proc.devRef .tc main_v52) : IVec S4096 1) := by
  simp only [main_part6_ops0]
  after_results_simp

end Cert.ReferenceIdeal.Host

end
-- ==== Proof.ReferenceIdealHostTaps1RowsE.lean ====
import proofs.«157750_g2000200144022539_pallasbulk_675_13_alg».proof.Proof.Gen.ReferenceIdeal.Launch
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import proofs.«157750_g2000200144022539_pallasbulk_675_13_alg».proof.Proof.ReferenceIdealHostTapsLib

noncomputable section

namespace Cert.ReferenceIdeal.Host

open Cert.ReferenceIdeal Cert.ReferenceIdeal.Gen
open Idealize.ShloMosaic Idealize.ShloMosaic.ValueIdx Idealize.ShloMosaic.TcCoe

set_option maxHeartbeats 2000000 in

theorem row1_7 (V : Valuation τ sig (Elt Ideal))
    (hm : (V (Proc.devRef .tc main_v19) : IVec S4096 32) = iotaV) (hw : (V (Proc.devRef .tc main_v20) : IVec S4096 32) = wV)
    (hh : (V (Proc.devRef .tc main_v22) : IVec S4096 32) = hV) :
    (StableHlo.after (main_part6_ops0 (F := Ideal)) (StableHlo.after main_part5_ops0 V) (Proc.devRef .tc main_v262) : IVec S4096 1)
      = rowMask 2 1 := by
  read_two main_part5_ops0 main_part6_ops0
  rw [hm, hw, hh]
  funext i
  exact rowW_eq (i 0).val (i 0).isLt 2 1 (by decide) (by decide)

set_option maxHeartbeats 2000000 in

theorem row1_8 (V : Valuation τ sig (Elt Ideal))
    (hm : (V (Proc.devRef .tc main_v19) : IVec S4096 32) = iotaV) (hw : (V (Proc.devRef .tc main_v20) : IVec S4096 32) = wV)
    (hh : (V (Proc.devRef .tc main_v22) : IVec S4096 32) = hV) :
    (StableHlo.after (main_part6_ops0 (F := Ideal)) (StableHlo.after main_part5_ops0 V) (Proc.devRef .tc main_v292) : IVec S4096 1)
      = rowMask 2 2 := by
  read_two main_part5_ops0 main_part6_ops0
  rw [hm, hw, hh]
  funext i
  exact rowW_eq (i 0).val (i 0).isLt 2 2 (by decide) (by decide)

end Cert.ReferenceIdeal.Host

end
-- ==== Proof.ReferenceIdealHostTapsTable.lean ====
import proofs.«157750_g2000200144022539_pallasbulk_675_13_alg».proof.Proof.Gen.ReferenceIdeal.Launch
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import proofs.«157750_g2000200144022539_pallasbulk_675_13_alg».proof.Proof.ReferenceIdealHostTapsLib
import proofs.«157750_g2000200144022539_pallasbulk_675_13_alg».proof.Proof.ReferenceIdealConsts

noncomputable section

namespace Cert.ReferenceIdeal.Host

open Cert.ReferenceIdeal Cert.ReferenceIdeal.Gen
open Idealize.ShloMosaic Idealize.ShloMosaic.ValueIdx Idealize.ShloMosaic.TcCoe

theorem mask_piece (kh kw : ℕ) (t : Fin 9) (m : Fin 4096) (hkh : t.val / 3 = kh) (hkw : t.val % 3 = kw) :
    (((BitVec.ofBool (tapOK kh kw m.val)).toNat : ℝ) : EReal) = Consts.maskRC (ix2 t m) := by
  subst hkh hkw
  rw [ofBool_toEReal]
  unfold tapOK Consts.maskRC
  show (if decide (1 ≤ m.val / 16 % 16 + t.val / 3 ∧ m.val / 16 % 16 + t.val / 3 ≤ 16 ∧ 1 ≤ m.val % 16 + t.val % 3
        ∧ m.val % 16 + t.val % 3 ≤ 16) = true then (1 : EReal) else 0)
      = if 1 ≤ m.val / 16 % 16 + t.val / 3 ∧ m.val / 16 % 16 + t.val / 3 < 17 ∧ 1 ≤ m.val % 16 + t.val % 3
        ∧ m.val % 16 + t.val % 3 < 17 then (1 : EReal) else 0
  refine if_congr ?_ rfl rfl
  rw [decide_eq_true_eq]
  constructor <;> (intro h; omega)

end Cert.ReferenceIdeal.Host

end
-- ==== Proof.ReferenceIdealHostTaps1Cat.lean ====
import proofs.«157750_g2000200144022539_pallasbulk_675_13_alg».proof.Proof.Gen.ReferenceIdeal.Launch
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import proofs.«157750_g2000200144022539_pallasbulk_675_13_alg».proof.Proof.ReferenceIdealHostTapsTable

noncomputable section

namespace Cert.ReferenceIdeal.Host

open Cert.ReferenceIdeal Cert.ReferenceIdeal.Gen
open Idealize.ShloMosaic Idealize.ShloMosaic.ValueIdx Idealize.ShloMosaic.TcCoe

theorem cat1_read (F : Valuation τ sig (Elt Ideal))
    (h0 : (F (Proc.devRef .tc main_v293) : IVec S1x4096 1) = broadcastInDim S1x4096 ![1] bcast_S4096_S1x4096_1 (rowMask 0 0))
    (h1 : (F (Proc.devRef .tc main_v294) : IVec S1x4096 1) = broadcastInDim S1x4096 ![1] bcast_S4096_S1x4096_1 (rowMask 0 1))
    (h2 : (F (Proc.devRef .tc main_v295) : IVec S1x4096 1) = broadcastInDim S1x4096 ![1] bcast_S4096_S1x4096_1 (rowMask 0 2))
    (h3 : (F (Proc.devRef .tc main_v296) : IVec S1x4096 1) = broadcastInDim S1x4096 ![1] bcast_S4096_S1x4096_1 (rowMask 1 0))
    (h4 : (F (Proc.devRef .tc main_v297) : IVec S1x4096 1) = broadcastInDim S1x4096 ![1] bcast_S4096_S1x4096_1 (rowMask 1 1))
    (h5 : (F (Proc.devRef .tc main_v298) : IVec S1x4096 1) = broadcastInDim S1x4096 ![1] bcast_S4096_S1x4096_1 (rowMask 1 2))
    (h6 : (F (Proc.devRef .tc main_v299) : IVec S1x4096 1) = broadcastInDim S1x4096 ![1] bcast_S4096_S1x4096_1 (rowMask 2 0))
    (h7 : (F (Proc.devRef .tc main_v300) : IVec S1x4096 1) = broadcastInDim S1x4096 ![1] bcast_S4096_S1x4096_1 (rowMask 2 1))
    (h8 : (F (Proc.devRef .tc main_v301) : IVec S1x4096 1) = broadcastInDim S1x4096 ![1] bcast_S4096_S1x4096_1 (rowMask 2 2)) :
    ((StableHlo.unary main_v302 main_v303 (uitofp .f32 : IVec S9x4096 1 → FVec Ideal S9x4096 .f32)).result
      ((StableHlo.nary ![main_v293, main_v294, main_v295, main_v296, main_v297, main_v298, main_v299, main_v300, main_v301] main_v302
        (fun u => concatenate S9x4096 0 [⟨S1x4096, u 0⟩, ⟨S1x4096, u 1⟩, ⟨S1x4096, u 2⟩, ⟨S1x4096, u 3⟩, ⟨S1x4096, u 4⟩, ⟨S1x4096, u 5⟩, ⟨S1x4096, u 6⟩, ⟨S1x4096, u 7⟩, ⟨S1x4096, u 8⟩]
          concatenates_S1x4096_S1x4096_S1x4096_S1x4096_S1x4096_S1x4096_S1x4096_S1x4096_S1x4096_S9x4096_d0)).result F)
      (Proc.devRef .tc main_v303) : S9x4096.Idx → EReal) = Consts.maskRC := by
  rw [StableHlo.unary_result, StableHlo.nary_result]
  dsimp only [Matrix.cons_val]
  rw [h0, h1, h2, h3, h4, h5, h6, h7, h8]
  funext j
  obtain ⟨t, m, rfl⟩ : ∃ (t : Fin 9) (m : Fin 4096), j = ix2 t m := ⟨j 0, j 1, eq_ix2 j⟩
  rw [uitofp_apply]
  have hI : ∀ b : Fin S1x4096.rank, b.cast (rfl : S1x4096.rank = S9x4096.rank) ≠ (0 : Fin S9x4096.rank) →
      ((ix2 (0 : Fin 1) m : S1x4096.Idx) b).val = ((ix2 t m : S9x4096.Idx) (b.cast rfl)).val :=
    fun b hb => match b, hb with
      | ⟨0, _⟩, hb => absurd rfl hb
      | ⟨1, _⟩, _ => rfl
  fin_cases t
  · rw [concatenate_apply_piece (t := S9x4096) (0 : Fin 2) _ _ _ 0 (by decide) S1x4096 _ rfl rfl 0 rfl (ix2 (0 : Fin 1) m) hI rfl, bcast1_apply]
    exact mask_piece 0 0 _ m rfl rfl
  · rw [concatenate_apply_piece (t := S9x4096) (0 : Fin 2) _ _ _ 1 (by decide) S1x4096 _ rfl rfl 1 rfl (ix2 (0 : Fin 1) m) hI rfl, bcast1_apply]
    exact mask_piece 0 1 _ m rfl rfl
  · rw [concatenate_apply_piece (t := S9x4096) (0 : Fin 2) _ _ _ 2 (by decide) S1x4096 _ rfl rfl 2 rfl (ix2 (0 : Fin 1) m) hI rfl, bcast1_apply]
    exact mask_piece 0 2 _ m rfl rfl
  · rw [concatenate_apply_piece (t := S9x4096) (0 : Fin 2) _ _ _ 3 (by decide) S1x4096 _ rfl rfl 3 rfl (ix2 (0 : Fin 1) m) hI rfl, bcast1_apply]
    exact mask_piece 1 0 _ m rfl rfl
  · rw [concatenate_apply_piece (t := S9x4096) (0 : Fin 2) _ _ _ 4 (by decide) S1x4096 _ rfl rfl 4 rfl (ix2 (0 : Fin 1) m) hI rfl, bcast1_apply]
    exact mask_piece 1 1 _ m rfl rfl
  · rw [concatenate_apply_piece (t := S9x4096) (0 : Fin 2) _ _ _ 5 (by decide) S1x4096 _ rfl rfl 5 rfl (ix2 (0 : Fin 1) m) hI rfl, bcast1_apply]
    exact mask_piece 1 2 _ m rfl rfl
  · rw [concatenate_apply_piece (t := S9x4096) (0 : Fin 2) _ _ _ 6 (by decide) S1x4096 _ rfl rfl 6 rfl (ix2 (0 : Fin 1) m) hI rfl, bcast1_apply]
    exact mask_piece 2 0 _ m rfl rfl
  · rw [concatenate_apply_piece (t := S9x4096) (0 : Fin 2) _ _ _ 7 (by decide) S1x4096 _ rfl rfl 7 rfl (ix2 (0 : Fin 1) m) hI rfl, bcast1_apply]
    exact mask_piece 2 1 _ m rfl rfl
  · rw [concatenate_apply_piece (t := S9x4096) (0 : Fin 2) _ _ _ 8 (by decide) S1x4096 _ rfl rfl 8 rfl (ix2 (0 : Fin 1) m) hI rfl, bcast1_apply]
    exact mask_piece 2 2 _ m rfl rfl

theorem part7_v303 (V : Valuation τ sig (Elt Ideal))
    (h0 : (V (Proc.devRef .tc main_v293) : IVec S1x4096 1) = broadcastInDim S1x4096 ![1] bcast_S4096_S1x4096_1 (rowMask 0 0))
    (h1 : (V (Proc.devRef .tc main_v82) : IVec S4096 1) = rowMask 0 1)
    (h2 : (V (Proc.devRef .tc main_v112) : IVec S4096 1) = rowMask 0 2)
    (h3 : (V (Proc.devRef .tc main_v142) : IVec S4096 1) = rowMask 1 0)
    (h4 : (V (Proc.devRef .tc main_v172) : IVec S4096 1) = rowMask 1 1)
    (h5 : (V (Proc.devRef .tc main_v202) : IVec S4096 1) = rowMask 1 2)
    (h6 : (V (Proc.devRef .tc main_v232) : IVec S4096 1) = rowMask 2 0)
    (h7 : (V (Proc.devRef .tc main_v262) : IVec S4096 1) = rowMask 2 1)
    (h8 : (V (Proc.devRef .tc main_v292) : IVec S4096 1) = rowMask 2 2) :
    (StableHlo.after (main_part7_ops0 (F := Ideal)) V (Proc.devRef .tc main_v303) : S9x4096.Idx → EReal) = Consts.maskRC := by
  simp only [main_part7_ops0, StableHlo.after_cons, StableHlo.after_nil]
  refine cat1_read _ ?_ ?_ ?_ ?_ ?_ ?_ ?_ ?_ ?_
  · after_results_simp; exact h0
  · after_results_simp; rw [h1]
  · after_results_simp; rw [h2]
  · after_results_simp; rw [h3]
  · after_results_simp; rw [h4]
  · after_results_simp; rw [h5]
  · after_results_simp; rw [h6]
  · after_results_simp; rw [h7]
  · after_results_simp; rw [h8]

end Cert.ReferenceIdeal.Host

end
-- ==== Proof.ReferenceIdealHostTaps1.lean ====
import proofs.«157750_g2000200144022539_pallasbulk_675_13_alg».proof.Proof.Gen.ReferenceIdeal.Launch
import Idealize.ShloMosaic.Lib.StableHlo.Run
import Idealize.ShloMosaic.Lib.StableHlo.Predicate
import Idealize.ShloMosaic.Lib.ValueIdx
import Idealize.ShloMosaic.Lib.ValueLayout
import Idealize.ShloMosaic.Lib.Pipeline.Value
import proofs.«157750_g2000200144022539_pallasbulk_675_13_alg».proof.Proof.ReferenceIdealHostTaps1Pos
import proofs.«157750_g2000200144022539_pallasbulk_675_13_alg».proof.Proof.ReferenceIdealHostTaps1RowsA
import proofs.«157750_g2000200144022539_pallasbulk_675_13_alg».proof.Proof.ReferenceIdealHostTaps1RowsB
import proofs.«157750_g2000200144022539_pallasbulk_675_13_alg».proof.Proof.ReferenceIdealHostTaps1RowsC
import proofs.«157750_g2000200144022539_pallasbulk_675_13_alg».proof.Proof.ReferenceIdealHostTaps1RowsD
import proofs.«157750_g2000200144022539_pallasbulk_675_13_alg».proof.Proof.ReferenceIdealHostTaps1RowsE
import proofs.«157750_g2000200144022539_pallasbulk_675_13_alg».proof.Proof.ReferenceIdealHostTaps1Cat
import proofs.«157750_g2000200144022539_pallasbulk_675_13_alg».proof.Proof.ReferenceIdealHostValid
import proofs.«157750_g2000200144022539_pallasbulk_675_13_alg».proof.Proof.ReferenceIdealHostZeros
import proofs.«157750_g2000200144022539_pallasbulk_675_13_alg».proof.Proof.ReferenceIdealLayout

noncomputable section

namespace Cert.ReferenceIdeal.Host

open Cert.ReferenceIdeal Cert.ReferenceIdeal.Gen
open Idealize.ShloMosaic Idealize.ShloMosaic.ValueIdx Idealize.ShloMosaic.TcCoe

theorem v293_of_v52 (V : Valuation τ sig (Elt Ideal)) (h : (V (Proc.devRef .tc main_v52) : IVec S4096 1) = rowMask 0 0) :
    (StableHlo.after (main_part6_ops0 (F := Ideal)) V (Proc.devRef .tc main_v293) : IVec S1x4096 1)
      = broadcastInDim S1x4096 ![1] bcast_S4096_S1x4096_1 (rowMask 0 0) := by
  rw [part6_v293, h]

theorem host1_v303 (V : Valuation τ sig (Elt Ideal)) :
    (H1_18 V (Proc.devRef .tc main_v303) : S9x4096.Idx → EReal) = Consts.maskRC := by

  have P10 : Pos1 (H1_10 V) := pos1 (H1_4 V)
  have P11 : Pos1 (H1_11 V) := P10.keep _ _ (main_part0_ops11_writes (F := Ideal)) (by decide) (by decide) (by decide)
  have P12 : Pos1 (H1_12 V) := P11.keep _ _ (main_part1_ops0_writes (F := Ideal)) (by decide) (by decide) (by decide)
  have P13 : Pos1 (H1_13 V) := P12.keep _ _ (main_part2_ops0_writes (F := Ideal)) (by decide) (by decide) (by decide)
  have P14 : Pos1 (H1_14 V) := P13.keep _ _ (main_part3_ops0_writes (F := Ideal)) (by decide) (by decide) (by decide)
  have P15 : Pos1 (H1_15 V) := P14.keep _ _ (main_part4_ops0_writes (F := Ideal)) (by decide) (by decide) (by decide)

  have R0 : (H1_12 V (Proc.devRef .tc main_v52) : IVec S4096 1) = rowMask 0 0 := row1_0 _ P10.hm P10.hw P10.hh
  have R1 : (H1_12 V (Proc.devRef .tc main_v82) : IVec S4096 1) = rowMask 0 1 := row1_1 _ P10.hm P10.hw P10.hh
  have R2 : (H1_13 V (Proc.devRef .tc main_v112) : IVec S4096 1) = rowMask 0 2 := row1_2 _ P11.hm P11.hw P11.hh
  have R3 : (H1_14 V (Proc.devRef .tc main_v142) : IVec S4096 1) = rowMask 1 0 := row1_3 _ P12.hm P12.hw P12.hh
  have R4 : (H1_15 V (Proc.devRef .tc main_v172) : IVec S4096 1) = rowMask 1 1 := row1_4 _ P13.hm P13.hw P13.hh
  have R5 : (H1_15 V (Proc.devRef .tc main_v202) : IVec S4096 1) = rowMask 1 2 := row1_5 _ P13.hm P13.hw P13.hh
  have R6 : (H1_16 V (Proc.devRef .tc main_v232) : IVec S4096 1) = rowMask 2 0 := row1_6 _ P14.hm P14.hw P14.hh
  have R7 : (H1_17 V (Proc.devRef .tc main_v262) : IVec S4096 1) = rowMask 2 1 := row1_7 _ P15.hm P15.hw P15.hh
  have R8 : (H1_17 V (Proc.devRef .tc main_v292) : IVec S4096 1) = rowMask 2 2 := row1_8 _ P15.hm P15.hw P15.hh

  have K0 : (H1_16 V (Proc.devRef .tc main_v52) : IVec S4096 1) = rowMask 0 0 :=
    keep_eq (r := main_v52) (main_part5_ops0_writes (F := Ideal)) (by decide) (keep_eq (r := main_v52) (main_part4_ops0_writes (F := Ideal)) (by decide)
      (keep_eq (r := main_v52) (main_part3_ops0_writes (F := Ideal)) (by decide) (keep_eq (r := main_v52) (main_part2_ops0_writes (F := Ideal)) (by decide) R0)))
  have B0 : (H1_17 V (Proc.devRef .tc main_v293) : IVec S1x4096 1) = broadcastInDim S1x4096 ![1] bcast_S4096_S1x4096_1 (rowMask 0 0) :=
    v293_of_v52 (H1_16 V) K0
  have K1 : (H1_17 V (Proc.devRef .tc main_v82) : IVec S4096 1) = rowMask 0 1 :=
    keep_eq (r := main_v82) (main_part6_ops0_writes (F := Ideal)) (by decide) (keep_eq (r := main_v82) (main_part5_ops0_writes (F := Ideal)) (by decide)
      (keep_eq (r := main_v82) (main_part4_ops0_writes (F := Ideal)) (by decide) (keep_eq (r := main_v82) (main_part3_ops0_writes (F := Ideal)) (by decide)
        (keep_eq (r := main_v82) (main_part2_ops0_writes (F := Ideal)) (by decide) R1))))
  have K2 : (H1_17 V (Proc.devRef .tc main_v112) : IVec S4096 1) = rowMask 0 2 :=
    keep_eq (r := main_v112) (main_part6_ops0_writes (F := Ideal)) (by decide) (keep_eq (r := main_v112) (main_part5_ops0_writes (F := Ideal)) (by decide)
      (keep_eq (r := main_v112) (main_part4_ops0_writes (F := Ideal)) (by decide) (keep_eq (r := main_v112) (main_part3_ops0_writes (F := Ideal)) (by decide) R2)))
  have K3 : (H1_17 V (Proc.devRef .tc main_v142) : IVec S4096 1) = rowMask 1 0 :=
    keep_eq (r := main_v142) (main_part6_ops0_writes (F := Ideal)) (by decide) (keep_eq (r := main_v142) (main_part5_ops0_writes (F := Ideal)) (by decide)
      (keep_eq (r := main_v142) (main_part4_ops0_writes (F := Ideal)) (by decide) R3))
  have K4 : (H1_17 V (Proc.devRef .tc main_v172) : IVec S4096 1) = rowMask 1 1 :=
    keep_eq (r := main_v172) (main_part6_ops0_writes (F := Ideal)) (by decide) (keep_eq (r := main_v172) (main_part5_ops0_writes (F := Ideal)) (by decide) R4)
  have K5 : (H1_17 V (Proc.devRef .tc main_v202) : IVec S4096 1) = rowMask 1 2 :=
    keep_eq (r := main_v202) (main_part6_ops0_writes (F := Ideal)) (by decide) (keep_eq (r := main_v202) (main_part5_ops0_writes (F := Ideal)) (by decide) R5)
  have K6 : (H1_17 V (Proc.devRef .tc main_v232) : IVec S4096 1) = rowMask 2 0 :=
    keep_eq (r := main_v232) (main_part6_ops0_writes (F := Ideal)) (by decide) R6

  exact part7_v303 (H1_17 V) B0 K1 K2 K3 K4 K5 K6 R7 R8

end Cert.ReferenceIdeal.Host

end
-- ==== Proof.ReferenceIdealHostMask2Pos.lean ====
import proofs.«157750_g2000200144022539_pallasbulk_675_13_alg».proof.Proof.ReferenceIdealHostTapsLib
import Idealize.ShloMosaic.PureOps.Ideal

set_option maxRecDepth 16384

noncomputable section

namespace Cert.ReferenceIdeal.Host

open Cert.ReferenceIdeal Cert.ReferenceIdeal.Gen
open Idealize.ShloMosaic Idealize.ShloMosaic.ValueIdx Idealize.ShloMosaic.TcCoe

variable {F : FTy → Type} [FloatOps F]

variable (V₀ : Valuation τ sig (Elt F))

abbrev m2V1 : Valuation τ sig (Elt F) := StableHlo.after main_part7_ops7 (V₀)
abbrev m2V2 : Valuation τ sig (Elt F) := StableHlo.after main_part7_ops8 (m2V1 V₀)
abbrev m2V3 : Valuation τ sig (Elt F) := StableHlo.after main_part7_ops9 (m2V2 V₀)
abbrev m2V4 : Valuation τ sig (Elt F) := StableHlo.after main_part7_ops10 (m2V3 V₀)
abbrev m2V5 : Valuation τ sig (Elt F) := StableHlo.after main_part7_ops11 (m2V4 V₀)
abbrev m2V6 : Valuation τ sig (Elt F) := StableHlo.after main_part8_ops0 (m2V5 V₀)
abbrev m2V7 : Valuation τ sig (Elt F) := StableHlo.after main_part8_ops1 (m2V6 V₀)
abbrev m2V8 : Valuation τ sig (Elt F) := StableHlo.after main_part9_ops0 (m2V7 V₀)
abbrev m2V9 : Valuation τ sig (Elt F) := StableHlo.after main_part10_ops0 (m2V8 V₀)
abbrev m2V10 : Valuation τ sig (Elt F) := StableHlo.after main_part11_ops0 (m2V9 V₀)
abbrev m2V11 : Valuation τ sig (Elt F) := StableHlo.after main_part12_ops0 (m2V10 V₀)
abbrev m2V12 : Valuation τ sig (Elt F) := StableHlo.after main_part13_ops0 (m2V11 V₀)
abbrev m2V13 : Valuation τ sig (Elt F) := StableHlo.after main_part14_ops0 (m2V12 V₀)

theorem m2_v338_lane (V₀ : Valuation τ sig (Elt Ideal)) (m : Fin 4096) :
    (m2V6 V₀ main_v338 : S4096.Idx → BitVec 32) (ix1 m) = BitVec.ofNat 32 m.val := by
  dsimp only [m2V6, m2V5, m2V4, m2V3, m2V2, m2V1]
  rw [← after_append, ← after_append, ← after_append, ← after_append, ← after_append]
  simp only [main_part7_ops7, main_part7_ops8, main_part7_ops9, main_part7_ops10, main_part7_ops11, main_part8_ops0, List.cons_append, List.nil_append]
  after_results_simp
  try simp only [StableHlo.TRef.ofBuf, StableHlo.TRef.toBuf, cast_eq]
  rfl

theorem m2_v339_word (V₀ : Valuation τ sig (Elt Ideal)) (m : Fin 4096) :
    (m2V6 V₀ main_v339 : S4096.Idx → BitVec 32) (ix1 m) = remW (BitVec.ofNat 32 m.val) 16#32 := by
  dsimp only [m2V6, m2V5, m2V4, m2V3, m2V2, m2V1]
  rw [← after_append, ← after_append, ← after_append, ← after_append, ← after_append]
  simp only [main_part7_ops7, main_part7_ops8, main_part7_ops9, main_part7_ops10, main_part7_ops11, main_part8_ops0, List.cons_append, List.nil_append]
  after_results_simp
  try simp only [StableHlo.TRef.ofBuf, StableHlo.TRef.toBuf, cast_eq]
  rfl

theorem m2_v341_word (V₀ : Valuation τ sig (Elt Ideal)) (m : Fin 4096) :
    (m2V6 V₀ main_v341 : S4096.Idx → BitVec 32) (ix1 m) = remW (fdivW (BitVec.ofNat 32 m.val) 16#32) 16#32 := by
  dsimp only [m2V6, m2V5, m2V4, m2V3, m2V2, m2V1]
  rw [← after_append, ← after_append, ← after_append, ← after_append, ← after_append]
  simp only [main_part7_ops7, main_part7_ops8, main_part7_ops9, main_part7_ops10, main_part7_ops11, main_part8_ops0, List.cons_append, List.nil_append]
  after_results_simp
  try simp only [StableHlo.TRef.ofBuf, StableHlo.TRef.toBuf, cast_eq]
  rfl

theorem m2_v339_lane (V₀ : Valuation τ sig (Elt Ideal)) (m : Fin 4096) :
    (m2V6 V₀ main_v339 : S4096.Idx → BitVec 32) (ix1 m) = BitVec.ofNat 32 (m.val % 16) := by
  have hm := m.isLt
  rw [m2_v339_word, remW_16 m.val (by omega)]

theorem m2_v341_lane (V₀ : Valuation τ sig (Elt Ideal)) (m : Fin 4096) :
    (m2V6 V₀ main_v341 : S4096.Idx → BitVec 32) (ix1 m) = BitVec.ofNat 32 (m.val / 16 % 16) := by
  have hm := m.isLt
  rw [m2_v341_word, fdivW_16 m.val (by omega), remW_16 (m.val / 16) (by omega)]

end Cert.ReferenceIdeal.Host

end
-- ==== Proof.ReferenceIdealHostMask2Ops.lean ====
import proofs.«157750_g2000200144022539_pallasbulk_675_13_alg».proof.Proof.Gen.ReferenceIdeal.Launch
import Idealize.ShloMosaic.Lib.StableHlo.Run

set_option maxRecDepth 16384

noncomputable section

namespace Cert.ReferenceIdeal.Host

open Idealize.ShloMosaic Idealize.ShloMosaic.TcCoe
open Cert.ReferenceIdeal Cert.ReferenceIdeal.Gen

variable {F : FTy → Type} [FloatOps F]

-- A line whose operations write, one each and in order, the references of `W` writes inside `W`.
theorem writes_of {Val : EltTy → Type} (l : List (HloOp τ sig Val)) (W : List (Ref sig .tc))
    (h : (l.map fun op => op.writes) = W.map fun r => ({Proc.devRef (τ := τ) .tc r} : Finset (DevRef τ sig))) :
    l.Forall fun op => op.writes ⊆ (W.map (Proc.devRef (τ := τ) .tc)).toFinset := by
  rw [List.forall_iff_forall_mem]
  intro op hop
  have hm := List.mem_map_of_mem (f := fun op : HloOp τ sig Val => op.writes) hop
  rw [h] at hm
  obtain ⟨r, hr, e⟩ := List.mem_map.mp hm
  rw [← e, Finset.singleton_subset_iff, List.mem_toFinset]
  exact List.mem_map_of_mem hr

abbrev mask2All : List (HloOp τ sig (Elt F)) :=
  main_part8_ops1 ++ (main_part9_ops0 ++ (main_part10_ops0 ++ (main_part11_ops0 ++ (main_part12_ops0 ++ (main_part13_ops0 ++ (main_part14_ops0))))))

abbrev mask2Row0 : List (HloOp τ sig (Elt F)) := mask2All.take 43
abbrev mask2Row0_W : List (Ref sig .tc) :=
  [main_c_137, main_v342, main_v343, main_c_138, main_v344, main_v345, main_c_139, main_v346, main_v347, main_c_140, main_v348, main_v349, main_c_141, main_v350, main_v351, main_c_142, main_v352, main_v353, main_v354, main_c_143, main_v355, main_v356, main_c_144, main_v357, main_v358, main_c_145, main_v359, main_v360, main_v361, main_c_146, main_v362, main_v363, main_c_147, main_v364, main_v365, main_c_148, main_v366, main_v367, main_v368, main_c_149, main_v369, main_v370, main_v371]
theorem mask2Row0_writes : (mask2Row0 : List (HloOp τ sig (Elt F))).Forall fun op => op.writes ⊆ (mask2Row0_W.map (Proc.devRef (τ := τ) .tc)).toFinset :=
  writes_of _ _ rfl

abbrev mask2Row1 : List (HloOp τ sig (Elt F)) := (mask2All.drop 43).take 43
abbrev mask2Row1_W : List (Ref sig .tc) :=
  [main_c_150, main_v372, main_v373, main_c_151, main_v374, main_v375, main_c_152, main_v376, main_v377, main_c_153, main_v378, main_v379, main_c_154, main_v380, main_v381, main_c_155, main_v382, main_v383, main_v384, main_c_156, main_v385, main_v386, main_c_157, main_v387, main_v388, main_c_158, main_v389, main_v390, main_v391, main_c_159, main_v392, main_v393, main_c_160, main_v394, main_v395, main_c_161, main_v396, main_v397, main_v398, main_c_162, main_v399, main_v400, main_v401]
theorem mask2Row1_writes : (mask2Row1 : List (HloOp τ sig (Elt F))).Forall fun op => op.writes ⊆ (mask2Row1_W.map (Proc.devRef (τ := τ) .tc)).toFinset :=
  writes_of _ _ rfl

abbrev mask2Row2 : List (HloOp τ sig (Elt F)) := (mask2All.drop 86).take 43
abbrev mask2Row2_W : List (Ref sig .tc) :=
  [main_c_163, main_v402, main_v403, main_c_164, main_v404, main_v405, main_c_165, main_v406, main_v407, main_c_166, main_v408, main_v409, main_c_167, main_v410, main_v411, main_c_168, main_v412, main_v413, main_v414, main_c_169, main_v415, main_v416, main_c_170, main_v417, main_v418, main_c_171, main_v419, main_v420, main_v421, main_c_172, main_v422, main_v423, main_c_173, main_v424, main_v425, main_c_174, main_v426, main_v427, main_v428, main_c_175, main_v429, main_v430, main_v431]
theorem mask2Row2_writes : (mask2Row2 : List (HloOp τ sig (Elt F))).Forall fun op => op.writes ⊆ (mask2Row2_W.map (Proc.devRef (τ := τ) .tc)).toFinset :=
  writes_of _ _ rfl

abbrev mask2Row3 : List (HloOp τ sig (Elt F)) := (mask2All.drop 129).take 43
abbrev mask2Row3_W : List (Ref sig .tc) :=
  [main_c_176, main_v432, main_v433, main_c_177, main_v434, main_v435, main_c_178, main_v436, main_v437, main_c_179, main_v438, main_v439, main_c_180, main_v440, main_v441, main_c_181, main_v442, main_v443, main_v444, main_c_182, main_v445, main_v446, main_c_183, main_v447, main_v448, main_c_184, main_v449, main_v450, main_v451, main_c_185, main_v452, main_v453, main_c_186, main_v454, main_v455, main_c_187, main_v456, main_v457, main_v458, main_c_188, main_v459, main_v460, main_v461]
theorem mask2Row3_writes : (mask2Row3 : List (HloOp τ sig (Elt F))).Forall fun op => op.writes ⊆ (mask2Row3_W.map (Proc.devRef (τ := τ) .tc)).toFinset :=
  writes_of _ _ rfl

abbrev mask2Row4 : List (HloOp τ sig (Elt F)) := (mask2All.drop 172).take 43
abbrev mask2Row4_W : List (Ref sig .tc) :=
  [main_c_189, main_v462, main_v463, main_c_190, main_v464, main_v465, main_c_191, main_v466, main_v467, main_c_192, main_v468, main_v469, main_c_193, main_v470, main_v471, main_c_194, main_v472, main_v473, main_v474, main_c_195, main_v475, main_v476, main_c_196, main_v477, main_v478, main_c_197, main_v479, main_v480, main_v481, main_c_198, main_v482, main_v483, main_c_199, main_v484, main_v485, main_c_200, main_v486, main_v487, main_v488, main_c_201, main_v489, main_v490, main_v491]
theorem mask2Row4_writes : (mask2Row4 : List (HloOp τ sig (Elt F))).Forall fun op => op.writes ⊆ (mask2Row4_W.map (Proc.devRef (τ := τ) .tc)).toFinset :=
  writes_of _ _ rfl

abbrev mask2Row5 : List (HloOp τ sig (Elt F)) := (mask2All.drop 215).take 43
abbrev mask2Row5_W : List (Ref sig .tc) :=
  [main_c_202, main_v492, main_v493, main_c_203, main_v494, main_v495, main_c_204, main_v496, main_v497, main_c_205, main_v498, main_v499, main_c_206, main_v500, main_v501, main_c_207, main_v502, main_v503, main_v504, main_c_208, main_v505, main_v506, main_c_209, main_v507, main_v508, main_c_210, main_v509, main_v510, main_v511, main_c_211, main_v512, main_v513, main_c_212, main_v514, main_v515, main_c_213, main_v516, main_v517, main_v518, main_c_214, main_v519, main_v520, main_v521]
theorem mask2Row5_writes : (mask2Row5 : List (HloOp τ sig (Elt F))).Forall fun op => op.writes ⊆ (mask2Row5_W.map (Proc.devRef (τ := τ) .tc)).toFinset :=
  writes_of _ _ rfl

abbrev mask2Row6 : List (HloOp τ sig (Elt F)) := (mask2All.drop 258).take 43
abbrev mask2Row6_W : List (Ref sig .tc) :=
  [main_c_215, main_v522, main_v523, main_c_216, main_v524, main_v525, main_c_217, main_v526, main_v527, main_c_218, main_v528, main_v529, main_c_219, main_v530, main_v531, main_c_220, main_v532, main_v533, main_v534, main_c_221, main_v535, main_v536, main_c_222, main_v537, main_v538, main_c_223, main_v539, main_v540, main_v541, main_c_224, main_v542, main_v543, main_c_225, main_v544, main_v545, main_c_226, main_v546, main_v547, main_v548, main_c_227, main_v549, main_v550, main_v551]
theorem mask2Row6_writes : (mask2Row6 : List (HloOp τ sig (Elt F))).Forall fun op => op.writes ⊆ (mask2Row6_W.map (Proc.devRef (τ := τ) .tc)).toFinset :=
  writes_of _ _ rfl

abbrev mask2Row7 : List (HloOp τ sig (Elt F)) := (mask2All.drop 301).take 43
abbrev mask2Row7_W : List (Ref sig .tc) :=
  [main_c_228, main_v552, main_v553, main_c_229, main_v554, main_v555, main_c_230, main_v556, main_v557, main_c_231, main_v558, main_v559, main_c_232, main_v560, main_v561, main_c_233, main_v562, main_v563, main_v564, main_c_234, main_v565, main_v566, main_c_235, main_v567, main_v568, main_c_236, main_v569, main_v570, main_v571, main_c_237, main_v572, main_v573, main_c_238, main_v574, main_v575, main_c_239, main_v576, main_v577, main_v578, main_c_240, main_v579, main_v580, main_v581]
theorem mask2Row7_writes : (mask2Row7 : List (HloOp τ sig (Elt F))).Forall fun op => op.writes ⊆ (mask2Row7_W.map (Proc.devRef (τ := τ) .tc)).toFinset :=
  writes_of _ _ rfl

abbrev mask2Row8 : List (HloOp τ sig (Elt F)) := (mask2All.drop 344).take 43
abbrev mask2Row8_W : List (Ref sig .tc) :=
  [main_c_241, main_v582, main_v583, main_c_242, main_v584, main_v585, main_c_243, main_v586, main_v587, main_c_244, main_v588, main_v589, main_c_245, main_v590, main_v591, main_c_246, main_v592, main_v593, main_v594, main_c_247, main_v595, main_v596, main_c_248, main_v597, main_v598, main_c_249, main_v599, main_v600, main_v601, main_c_250, main_v602, main_v603, main_c_251, main_v604, main_v605, main_c_252, main_v606, main_v607, main_v608, main_c_253, main_v609, main_v610, main_v611]
theorem mask2Row8_writes : (mask2Row8 : List (HloOp τ sig (Elt F))).Forall fun op => op.writes ⊆ (mask2Row8_W.map (Proc.devRef (τ := τ) .tc)).toFinset :=
  writes_of _ _ rfl

abbrev mask2TailA : List (HloOp τ sig (Elt F)) := mask2All.drop 387
abbrev mask2TailA_W : List (Ref sig .tc) :=
  [main_v612, main_v613, main_v614, main_v615, main_v616, main_v617, main_v618, main_v619, main_v620, main_v621, main_v622]
theorem mask2TailA_writes : (mask2TailA : List (HloOp τ sig (Elt F))).Forall fun op => op.writes ⊆ (mask2TailA_W.map (Proc.devRef (τ := τ) .tc)).toFinset :=
  writes_of _ _ rfl

theorem mask2_split : (main_part8_ops1 ++ (main_part9_ops0 ++ (main_part10_ops0 ++ (main_part11_ops0 ++ (main_part12_ops0 ++ (main_part13_ops0 ++ (main_part14_ops0)))))) : List (HloOp τ sig (Elt F)))
    = mask2Row0 ++ (mask2Row1 ++ (mask2Row2 ++ (mask2Row3 ++ (mask2Row4 ++ (mask2Row5 ++ (mask2Row6 ++ (mask2Row7 ++ (mask2Row8 ++ (mask2TailA))))))))) := rfl

-- Writes a piece out as the list of its operations.
macro "mask2_ops" : tactic => `(tactic| simp only [mask2Row0, mask2Row1, mask2Row2, mask2Row3, mask2Row4, mask2Row5, mask2Row6, mask2Row7, mask2Row8, mask2TailA, mask2All,
  main_part8_ops1, main_part9_ops0, main_part10_ops0, main_part11_ops0, main_part12_ops0, main_part13_ops0, main_part14_ops0,
  List.cons_append, List.nil_append, List.drop_succ_cons, List.take_succ_cons, List.take_zero, List.drop_zero])

end Cert.ReferenceIdeal.Host

end
-- ==== Proof.ReferenceIdealHostMask2Rows.lean ====
import proofs.«157750_g2000200144022539_pallasbulk_675_13_alg».proof.Proof.ReferenceIdealHostMask2Ops
import proofs.«157750_g2000200144022539_pallasbulk_675_13_alg».proof.Proof.ReferenceIdealHostLanes

set_option maxRecDepth 16384

noncomputable section

namespace Cert.ReferenceIdeal.Host

open Cert.ReferenceIdeal Cert.ReferenceIdeal.Gen
open Idealize.ShloMosaic Idealize.ShloMosaic.ValueIdx Idealize.ShloMosaic.TcCoe

variable {F : FTy → Type} [FloatOps F]

abbrev m2Const (c : BitVec 32) : IVec S4096 32 := broadcastInDim S4096 ![] bcast_S_S4096 (constantI S_ 32 c)

-- The tap `(kh, kw)`'s border mask from the lanes' rows `H`, columns `Wd` and numbers `M`: `0 ≤ H + kh - 1 < 16`, `0 ≤ Wd + kw - 1 < 16` and `M < 4096`, read signed.
def m2TapRow (H Wd M : IVec S4096 32) (kh kw : BitVec 32) : IVec S4096 1 :=
  andi (andi (andi (andi (cmpi .sge (subi (addi H (m2Const kh)) (m2Const 1#32)) (m2Const 0#32))
          (cmpi .slt (subi (addi H (m2Const kh)) (m2Const 1#32)) (m2Const 16#32)))
        (cmpi .sge (subi (addi Wd (m2Const kw)) (m2Const 1#32)) (m2Const 0#32)))
      (cmpi .slt (subi (addi Wd (m2Const kw)) (m2Const 1#32)) (m2Const 16#32)))
    (cmpi .slt M (m2Const 4096#32))

theorem m2TapRow_apply (H Wd M : IVec S4096 32) (kh kw : BitVec 32) (i : S4096.Idx) :
    m2TapRow H Wd M kh kw i = rowW (H i) (Wd i) (M i) kh kw := rfl

variable (W : Valuation τ sig (Elt F))

theorem mask2Row0_read : (StableHlo.after mask2Row0 W main_v371 : IVec S4096 1)
    = m2TapRow (W main_v341) (W main_v339) (W main_v338) 0#32 0#32 := by
  mask2_ops
  after_results_simp
  rfl

theorem mask2Row1_read : (StableHlo.after mask2Row1 W main_v401 : IVec S4096 1)
    = m2TapRow (W main_v341) (W main_v339) (W main_v338) 0#32 1#32 := by
  mask2_ops
  after_results_simp
  rfl

theorem mask2Row2_read : (StableHlo.after mask2Row2 W main_v431 : IVec S4096 1)
    = m2TapRow (W main_v341) (W main_v339) (W main_v338) 0#32 2#32 := by
  mask2_ops
  after_results_simp
  rfl

theorem mask2Row3_read : (StableHlo.after mask2Row3 W main_v461 : IVec S4096 1)
    = m2TapRow (W main_v341) (W main_v339) (W main_v338) 1#32 0#32 := by
  mask2_ops
  after_results_simp
  rfl

theorem mask2Row4_read : (StableHlo.after mask2Row4 W main_v491 : IVec S4096 1)
    = m2TapRow (W main_v341) (W main_v339) (W main_v338) 1#32 1#32 := by
  mask2_ops
  after_results_simp
  rfl

theorem mask2Row5_read : (StableHlo.after mask2Row5 W main_v521 : IVec S4096 1)
    = m2TapRow (W main_v341) (W main_v339) (W main_v338) 1#32 2#32 := by
  mask2_ops
  after_results_simp
  rfl

theorem mask2Row6_read : (StableHlo.after mask2Row6 W main_v551 : IVec S4096 1)
    = m2TapRow (W main_v341) (W main_v339) (W main_v338) 2#32 0#32 := by
  mask2_ops
  after_results_simp
  rfl

theorem mask2Row7_read : (StableHlo.after mask2Row7 W main_v581 : IVec S4096 1)
    = m2TapRow (W main_v341) (W main_v339) (W main_v338) 2#32 1#32 := by
  mask2_ops
  after_results_simp
  rfl

theorem mask2Row8_read : (StableHlo.after mask2Row8 W main_v611 : IVec S4096 1)
    = m2TapRow (W main_v341) (W main_v339) (W main_v338) 2#32 2#32 := by
  mask2_ops
  after_results_simp
  rfl

end Cert.ReferenceIdeal.Host

end
-- ==== Proof.ReferenceIdealHostMask2.lean ====
import proofs.«157750_g2000200144022539_pallasbulk_675_13_alg».proof.Proof.ReferenceIdealHostMask2Pos
import proofs.«157750_g2000200144022539_pallasbulk_675_13_alg».proof.Proof.ReferenceIdealHostMask2Rows
import proofs.«157750_g2000200144022539_pallasbulk_675_13_alg».proof.Proof.ReferenceIdealConsts
import proofs.«157750_g2000200144022539_pallasbulk_675_13_alg».proof.Proof.ReferenceIdealLayout

set_option maxRecDepth 16384

noncomputable section

namespace Cert.ReferenceIdeal.Host

open Cert.ReferenceIdeal Cert.ReferenceIdeal.Gen
open Idealize.ShloMosaic Idealize.ShloMosaic.ValueIdx Idealize.ShloMosaic.TcCoe

section Chain
variable {F : FTy → Type} [FloatOps F] (V₀ : Valuation τ sig (Elt F))

abbrev m2R0 : Valuation τ sig (Elt F) := m2V6 V₀
abbrev m2R1 : Valuation τ sig (Elt F) := StableHlo.after mask2Row0 (m2R0 V₀)
abbrev m2R2 : Valuation τ sig (Elt F) := StableHlo.after mask2Row1 (m2R1 V₀)
abbrev m2R3 : Valuation τ sig (Elt F) := StableHlo.after mask2Row2 (m2R2 V₀)
abbrev m2R4 : Valuation τ sig (Elt F) := StableHlo.after mask2Row3 (m2R3 V₀)
abbrev m2R5 : Valuation τ sig (Elt F) := StableHlo.after mask2Row4 (m2R4 V₀)
abbrev m2R6 : Valuation τ sig (Elt F) := StableHlo.after mask2Row5 (m2R5 V₀)
abbrev m2R7 : Valuation τ sig (Elt F) := StableHlo.after mask2Row6 (m2R6 V₀)
abbrev m2R8 : Valuation τ sig (Elt F) := StableHlo.after mask2Row7 (m2R7 V₀)
abbrev m2R9 : Valuation τ sig (Elt F) := StableHlo.after mask2Row8 (m2R8 V₀)

theorem m2V13_rows : m2V13 V₀ = StableHlo.after mask2TailA (m2R9 V₀) := by
  dsimp only [m2V13, m2V12, m2V11, m2V10, m2V9, m2V8, m2V7, m2R9, m2R8, m2R7, m2R6, m2R5, m2R4, m2R3, m2R2, m2R1, m2R0]
  generalize m2V6 V₀ = X
  rw [← after_append, ← after_append, ← after_append, ← after_append, ← after_append, ← after_append, mask2_split,
    after_append, after_append, after_append, after_append, after_append, after_append, after_append, after_append, after_append]

theorem m2R1_v341 : m2R1 V₀ main_v341 = m2V6 V₀ main_v341 :=
  StableHlo.after_of_writes_sub mask2Row0 _ mask2Row0_writes (by decide)
theorem m2R2_v341 : m2R2 V₀ main_v341 = m2V6 V₀ main_v341 :=
  (StableHlo.after_of_writes_sub mask2Row1 _ mask2Row1_writes (by decide)).trans (m2R1_v341 V₀)
theorem m2R3_v341 : m2R3 V₀ main_v341 = m2V6 V₀ main_v341 :=
  (StableHlo.after_of_writes_sub mask2Row2 _ mask2Row2_writes (by decide)).trans (m2R2_v341 V₀)
theorem m2R4_v341 : m2R4 V₀ main_v341 = m2V6 V₀ main_v341 :=
  (StableHlo.after_of_writes_sub mask2Row3 _ mask2Row3_writes (by decide)).trans (m2R3_v341 V₀)
theorem m2R5_v341 : m2R5 V₀ main_v341 = m2V6 V₀ main_v341 :=
  (StableHlo.after_of_writes_sub mask2Row4 _ mask2Row4_writes (by decide)).trans (m2R4_v341 V₀)
theorem m2R6_v341 : m2R6 V₀ main_v341 = m2V6 V₀ main_v341 :=
  (StableHlo.after_of_writes_sub mask2Row5 _ mask2Row5_writes (by decide)).trans (m2R5_v341 V₀)
theorem m2R7_v341 : m2R7 V₀ main_v341 = m2V6 V₀ main_v341 :=
  (StableHlo.after_of_writes_sub mask2Row6 _ mask2Row6_writes (by decide)).trans (m2R6_v341 V₀)
theorem m2R8_v341 : m2R8 V₀ main_v341 = m2V6 V₀ main_v341 :=
  (StableHlo.after_of_writes_sub mask2Row7 _ mask2Row7_writes (by decide)).trans (m2R7_v341 V₀)
theorem m2R1_v339 : m2R1 V₀ main_v339 = m2V6 V₀ main_v339 :=
  StableHlo.after_of_writes_sub mask2Row0 _ mask2Row0_writes (by decide)
theorem m2R2_v339 : m2R2 V₀ main_v339 = m2V6 V₀ main_v339 :=
  (StableHlo.after_of_writes_sub mask2Row1 _ mask2Row1_writes (by decide)).trans (m2R1_v339 V₀)
theorem m2R3_v339 : m2R3 V₀ main_v339 = m2V6 V₀ main_v339 :=
  (StableHlo.after_of_writes_sub mask2Row2 _ mask2Row2_writes (by decide)).trans (m2R2_v339 V₀)
theorem m2R4_v339 : m2R4 V₀ main_v339 = m2V6 V₀ main_v339 :=
  (StableHlo.after_of_writes_sub mask2Row3 _ mask2Row3_writes (by decide)).trans (m2R3_v339 V₀)
theorem m2R5_v339 : m2R5 V₀ main_v339 = m2V6 V₀ main_v339 :=
  (StableHlo.after_of_writes_sub mask2Row4 _ mask2Row4_writes (by decide)).trans (m2R4_v339 V₀)
theorem m2R6_v339 : m2R6 V₀ main_v339 = m2V6 V₀ main_v339 :=
  (StableHlo.after_of_writes_sub mask2Row5 _ mask2Row5_writes (by decide)).trans (m2R5_v339 V₀)
theorem m2R7_v339 : m2R7 V₀ main_v339 = m2V6 V₀ main_v339 :=
  (StableHlo.after_of_writes_sub mask2Row6 _ mask2Row6_writes (by decide)).trans (m2R6_v339 V₀)
theorem m2R8_v339 : m2R8 V₀ main_v339 = m2V6 V₀ main_v339 :=
  (StableHlo.after_of_writes_sub mask2Row7 _ mask2Row7_writes (by decide)).trans (m2R7_v339 V₀)
theorem m2R1_v338 : m2R1 V₀ main_v338 = m2V6 V₀ main_v338 :=
  StableHlo.after_of_writes_sub mask2Row0 _ mask2Row0_writes (by decide)
theorem m2R2_v338 : m2R2 V₀ main_v338 = m2V6 V₀ main_v338 :=
  (StableHlo.after_of_writes_sub mask2Row1 _ mask2Row1_writes (by decide)).trans (m2R1_v338 V₀)
theorem m2R3_v338 : m2R3 V₀ main_v338 = m2V6 V₀ main_v338 :=
  (StableHlo.after_of_writes_sub mask2Row2 _ mask2Row2_writes (by decide)).trans (m2R2_v338 V₀)
theorem m2R4_v338 : m2R4 V₀ main_v338 = m2V6 V₀ main_v338 :=
  (StableHlo.after_of_writes_sub mask2Row3 _ mask2Row3_writes (by decide)).trans (m2R3_v338 V₀)
theorem m2R5_v338 : m2R5 V₀ main_v338 = m2V6 V₀ main_v338 :=
  (StableHlo.after_of_writes_sub mask2Row4 _ mask2Row4_writes (by decide)).trans (m2R4_v338 V₀)
theorem m2R6_v338 : m2R6 V₀ main_v338 = m2V6 V₀ main_v338 :=
  (StableHlo.after_of_writes_sub mask2Row5 _ mask2Row5_writes (by decide)).trans (m2R5_v338 V₀)
theorem m2R7_v338 : m2R7 V₀ main_v338 = m2V6 V₀ main_v338 :=
  (StableHlo.after_of_writes_sub mask2Row6 _ mask2Row6_writes (by decide)).trans (m2R6_v338 V₀)
theorem m2R8_v338 : m2R8 V₀ main_v338 = m2V6 V₀ main_v338 :=
  (StableHlo.after_of_writes_sub mask2Row7 _ mask2Row7_writes (by decide)).trans (m2R7_v338 V₀)

theorem m2R9_main_v371 : (m2R9 V₀ main_v371 : IVec S4096 1)
    = m2TapRow (m2V6 V₀ main_v341) (m2V6 V₀ main_v339) (m2V6 V₀ main_v338) 0#32 0#32 := by
  have c : m2R9 V₀ main_v371 = m2R1 V₀ main_v371 :=
    (StableHlo.after_of_writes_sub mask2Row8 _ mask2Row8_writes (by decide)).trans <|
    (StableHlo.after_of_writes_sub mask2Row7 _ mask2Row7_writes (by decide)).trans <|
    (StableHlo.after_of_writes_sub mask2Row6 _ mask2Row6_writes (by decide)).trans <|
    (StableHlo.after_of_writes_sub mask2Row5 _ mask2Row5_writes (by decide)).trans <|
    (StableHlo.after_of_writes_sub mask2Row4 _ mask2Row4_writes (by decide)).trans <|
    (StableHlo.after_of_writes_sub mask2Row3 _ mask2Row3_writes (by decide)).trans <|
    (StableHlo.after_of_writes_sub mask2Row2 _ mask2Row2_writes (by decide)).trans <|
    (StableHlo.after_of_writes_sub mask2Row1 _ mask2Row1_writes (by decide))
  rw [c]
  have r := mask2Row0_read (m2R0 V₀)
  exact r

theorem m2R9_main_v401 : (m2R9 V₀ main_v401 : IVec S4096 1)
    = m2TapRow (m2V6 V₀ main_v341) (m2V6 V₀ main_v339) (m2V6 V₀ main_v338) 0#32 1#32 := by
  have c : m2R9 V₀ main_v401 = m2R2 V₀ main_v401 :=
    (StableHlo.after_of_writes_sub mask2Row8 _ mask2Row8_writes (by decide)).trans <|
    (StableHlo.after_of_writes_sub mask2Row7 _ mask2Row7_writes (by decide)).trans <|
    (StableHlo.after_of_writes_sub mask2Row6 _ mask2Row6_writes (by decide)).trans <|
    (StableHlo.after_of_writes_sub mask2Row5 _ mask2Row5_writes (by decide)).trans <|
    (StableHlo.after_of_writes_sub mask2Row4 _ mask2Row4_writes (by decide)).trans <|
    (StableHlo.after_of_writes_sub mask2Row3 _ mask2Row3_writes (by decide)).trans <|
    (StableHlo.after_of_writes_sub mask2Row2 _ mask2Row2_writes (by decide))
  rw [c]
  have r := mask2Row1_read (m2R1 V₀)
  rw [m2R1_v341, m2R1_v339, m2R1_v338] at r
  exact r

theorem m2R9_main_v431 : (m2R9 V₀ main_v431 : IVec S4096 1)
    = m2TapRow (m2V6 V₀ main_v341) (m2V6 V₀ main_v339) (m2V6 V₀ main_v338) 0#32 2#32 := by
  have c : m2R9 V₀ main_v431 = m2R3 V₀ main_v431 :=
    (StableHlo.after_of_writes_sub mask2Row8 _ mask2Row8_writes (by decide)).trans <|
    (StableHlo.after_of_writes_sub mask2Row7 _ mask2Row7_writes (by decide)).trans <|
    (StableHlo.after_of_writes_sub mask2Row6 _ mask2Row6_writes (by decide)).trans <|
    (StableHlo.after_of_writes_sub mask2Row5 _ mask2Row5_writes (by decide)).trans <|
    (StableHlo.after_of_writes_sub mask2Row4 _ mask2Row4_writes (by decide)).trans <|
    (StableHlo.after_of_writes_sub mask2Row3 _ mask2Row3_writes (by decide))
  rw [c]
  have r := mask2Row2_read (m2R2 V₀)
  rw [m2R2_v341, m2R2_v339, m2R2_v338] at r
  exact r

theorem m2R9_main_v461 : (m2R9 V₀ main_v461 : IVec S4096 1)
    = m2TapRow (m2V6 V₀ main_v341) (m2V6 V₀ main_v339) (m2V6 V₀ main_v338) 1#32 0#32 := by
  have c : m2R9 V₀ main_v461 = m2R4 V₀ main_v461 :=
    (StableHlo.after_of_writes_sub mask2Row8 _ mask2Row8_writes (by decide)).trans <|
    (StableHlo.after_of_writes_sub mask2Row7 _ mask2Row7_writes (by decide)).trans <|
    (StableHlo.after_of_writes_sub mask2Row6 _ mask2Row6_writes (by decide)).trans <|
    (StableHlo.after_of_writes_sub mask2Row5 _ mask2Row5_writes (by decide)).trans <|
    (StableHlo.after_of_writes_sub mask2Row4 _ mask2Row4_writes (by decide))
  rw [c]
  have r := mask2Row3_read (m2R3 V₀)
  rw [m2R3_v341, m2R3_v339, m2R3_v338] at r
  exact r

theorem m2R9_main_v491 : (m2R9 V₀ main_v491 : IVec S4096 1)
    = m2TapRow (m2V6 V₀ main_v341) (m2V6 V₀ main_v339) (m2V6 V₀ main_v338) 1#32 1#32 := by
  have c : m2R9 V₀ main_v491 = m2R5 V₀ main_v491 :=
    (StableHlo.after_of_writes_sub mask2Row8 _ mask2Row8_writes (by decide)).trans <|
    (StableHlo.after_of_writes_sub mask2Row7 _ mask2Row7_writes (by decide)).trans <|
    (StableHlo.after_of_writes_sub mask2Row6 _ mask2Row6_writes (by decide)).trans <|
    (StableHlo.after_of_writes_sub mask2Row5 _ mask2Row5_writes (by decide))
  rw [c]
  have r := mask2Row4_read (m2R4 V₀)
  rw [m2R4_v341, m2R4_v339, m2R4_v338] at r
  exact r

theorem m2R9_main_v521 : (m2R9 V₀ main_v521 : IVec S4096 1)
    = m2TapRow (m2V6 V₀ main_v341) (m2V6 V₀ main_v339) (m2V6 V₀ main_v338) 1#32 2#32 := by
  have c : m2R9 V₀ main_v521 = m2R6 V₀ main_v521 :=
    (StableHlo.after_of_writes_sub mask2Row8 _ mask2Row8_writes (by decide)).trans <|
    (StableHlo.after_of_writes_sub mask2Row7 _ mask2Row7_writes (by decide)).trans <|
    (StableHlo.after_of_writes_sub mask2Row6 _ mask2Row6_writes (by decide))
  rw [c]
  have r := mask2Row5_read (m2R5 V₀)
  rw [m2R5_v341, m2R5_v339, m2R5_v338] at r
  exact r

theorem m2R9_main_v551 : (m2R9 V₀ main_v551 : IVec S4096 1)
    = m2TapRow (m2V6 V₀ main_v341) (m2V6 V₀ main_v339) (m2V6 V₀ main_v338) 2#32 0#32 := by
  have c : m2R9 V₀ main_v551 = m2R7 V₀ main_v551 :=
    (StableHlo.after_of_writes_sub mask2Row8 _ mask2Row8_writes (by decide)).trans <|
    (StableHlo.after_of_writes_sub mask2Row7 _ mask2Row7_writes (by decide))
  rw [c]
  have r := mask2Row6_read (m2R6 V₀)
  rw [m2R6_v341, m2R6_v339, m2R6_v338] at r
  exact r

theorem m2R9_main_v581 : (m2R9 V₀ main_v581 : IVec S4096 1)
    = m2TapRow (m2V6 V₀ main_v341) (m2V6 V₀ main_v339) (m2V6 V₀ main_v338) 2#32 1#32 := by
  have c : m2R9 V₀ main_v581 = m2R8 V₀ main_v581 :=
    (StableHlo.after_of_writes_sub mask2Row8 _ mask2Row8_writes (by decide))
  rw [c]
  have r := mask2Row7_read (m2R7 V₀)
  rw [m2R7_v341, m2R7_v339, m2R7_v338] at r
  exact r

theorem m2R9_main_v611 : (m2R9 V₀ main_v611 : IVec S4096 1)
    = m2TapRow (m2V6 V₀ main_v341) (m2V6 V₀ main_v339) (m2V6 V₀ main_v338) 2#32 2#32 := by
  have r := mask2Row8_read (m2R8 V₀)
  rw [m2R8_v341, m2R8_v339, m2R8_v338] at r
  exact r

end Chain

theorem m2_stack9_apply {α : Type} (u0 u1 u2 u3 u4 u5 u6 u7 u8 : S1x4096.Idx → α)
    (h : Shape.Concatenates [S1x4096, S1x4096, S1x4096, S1x4096, S1x4096, S1x4096, S1x4096, S1x4096, S1x4096] S9x4096 0)
    (t : Fin 9) (m : Fin 4096) :
    concatenate S9x4096 0 [⟨S1x4096, u0⟩, ⟨S1x4096, u1⟩, ⟨S1x4096, u2⟩, ⟨S1x4096, u3⟩, ⟨S1x4096, u4⟩, ⟨S1x4096, u5⟩, ⟨S1x4096, u6⟩, ⟨S1x4096, u7⟩, ⟨S1x4096, u8⟩] h (ix2 t m)
      = (![u0, u1, u2, u3, u4, u5, u6, u7, u8] : Fin 9 → S1x4096.Idx → α) t (ix2 (0 : Fin 1) m) := by
  show concatenate S9x4096 0 (List.ofFn fun n : Fin 9 => (⟨S1x4096, (![u0, u1, u2, u3, u4, u5, u6, u7, u8] : Fin 9 → S1x4096.Idx → α) n⟩ : (s : Shape) × (s.Idx → α))) h (ix2 t m) = _
  exact concatenate_ofFn_unit_apply 0 (![u0, u1, u2, u3, u4, u5, u6, u7, u8] : Fin 9 → S1x4096.Idx → α) h rfl rfl (ix2 t m) t rfl (ix2 (0 : Fin 1) m)
    (fun b hb => match b with | ⟨0, _⟩ => absurd rfl hb | ⟨1, _⟩ => rfl)

theorem m2_nine_cases {α : Type} (a0 a1 a2 a3 a4 a5 a6 a7 a8 : α) (g : ℕ → α)
    (h0 : a0 = g 0) (h1 : a1 = g 1) (h2 : a2 = g 2) (h3 : a3 = g 3) (h4 : a4 = g 4) (h5 : a5 = g 5) (h6 : a6 = g 6) (h7 : a7 = g 7)
    (h8 : a8 = g 8) (t : Fin 9) : (![a0, a1, a2, a3, a4, a5, a6, a7, a8] : Fin 9 → α) t = g t.val := by
  fin_cases t
  · exact h0
  · exact h1
  · exact h2
  · exact h3
  · exact h4
  · exact h5
  · exact h6
  · exact h7
  · exact h8

theorem m2_tailA_v622 (X : Valuation τ sig (Elt Ideal)) :
    (StableHlo.after mask2TailA X main_v622 : S9x4096.Idx → EReal)
      = uitofp (F := Ideal) .f32 (concatenate S9x4096 0
          [⟨S1x4096, broadcastInDim S1x4096 ![1] bcast_S4096_S1x4096_1 (X main_v371 : IVec S4096 1)⟩,
           ⟨S1x4096, broadcastInDim S1x4096 ![1] bcast_S4096_S1x4096_1 (X main_v401 : IVec S4096 1)⟩,
           ⟨S1x4096, broadcastInDim S1x4096 ![1] bcast_S4096_S1x4096_1 (X main_v431 : IVec S4096 1)⟩,
           ⟨S1x4096, broadcastInDim S1x4096 ![1] bcast_S4096_S1x4096_1 (X main_v461 : IVec S4096 1)⟩,
           ⟨S1x4096, broadcastInDim S1x4096 ![1] bcast_S4096_S1x4096_1 (X main_v491 : IVec S4096 1)⟩,
           ⟨S1x4096, broadcastInDim S1x4096 ![1] bcast_S4096_S1x4096_1 (X main_v521 : IVec S4096 1)⟩,
           ⟨S1x4096, broadcastInDim S1x4096 ![1] bcast_S4096_S1x4096_1 (X main_v551 : IVec S4096 1)⟩,
           ⟨S1x4096, broadcastInDim S1x4096 ![1] bcast_S4096_S1x4096_1 (X main_v581 : IVec S4096 1)⟩,
           ⟨S1x4096, broadcastInDim S1x4096 ![1] bcast_S4096_S1x4096_1 (X main_v611 : IVec S4096 1)⟩]
          concatenates_S1x4096_S1x4096_S1x4096_S1x4096_S1x4096_S1x4096_S1x4096_S1x4096_S1x4096_S9x4096_d0) := by
  mask2_ops
  simp only [StableHlo.after_cons, StableHlo.after_nil]
  generalize hY : (StableHlo.unary (τ := τ) (Val := Elt Ideal) main_v611 main_v620 _ _ _).result _ = Y
  have h0 : Y (Proc.devRef .tc main_v612) = broadcastInDim S1x4096 ![1] bcast_S4096_S1x4096_1 (X main_v371 : IVec S4096 1) := by rw [← hY]; after_results_simp
  have h1 : Y (Proc.devRef .tc main_v613) = broadcastInDim S1x4096 ![1] bcast_S4096_S1x4096_1 (X main_v401 : IVec S4096 1) := by rw [← hY]; after_results_simp
  have h2 : Y (Proc.devRef .tc main_v614) = broadcastInDim S1x4096 ![1] bcast_S4096_S1x4096_1 (X main_v431 : IVec S4096 1) := by rw [← hY]; after_results_simp
  have h3 : Y (Proc.devRef .tc main_v615) = broadcastInDim S1x4096 ![1] bcast_S4096_S1x4096_1 (X main_v461 : IVec S4096 1) := by rw [← hY]; after_results_simp
  have h4 : Y (Proc.devRef .tc main_v616) = broadcastInDim S1x4096 ![1] bcast_S4096_S1x4096_1 (X main_v491 : IVec S4096 1) := by rw [← hY]; after_results_simp
  have h5 : Y (Proc.devRef .tc main_v617) = broadcastInDim S1x4096 ![1] bcast_S4096_S1x4096_1 (X main_v521 : IVec S4096 1) := by rw [← hY]; after_results_simp
  have h6 : Y (Proc.devRef .tc main_v618) = broadcastInDim S1x4096 ![1] bcast_S4096_S1x4096_1 (X main_v551 : IVec S4096 1) := by rw [← hY]; after_results_simp
  have h7 : Y (Proc.devRef .tc main_v619) = broadcastInDim S1x4096 ![1] bcast_S4096_S1x4096_1 (X main_v581 : IVec S4096 1) := by rw [← hY]; after_results_simp
  have h8 : Y (Proc.devRef .tc main_v620) = broadcastInDim S1x4096 ![1] bcast_S4096_S1x4096_1 (X main_v611 : IVec S4096 1) := by rw [← hY]; after_results_simp
  rw [StableHlo.unary_result, StableHlo.nary_result]
  simp only [Matrix.cons_val]
  rw [h0, h1, h2, h3, h4, h5, h6, h7, h8]

theorem m2_tailA_read (X : Valuation τ sig (Elt Ideal)) (t : Fin 9) (m : Fin 4096) :
    (StableHlo.after mask2TailA X main_v622 : S9x4096.Idx → EReal) (ix2 t m)
      = ((((![(X main_v371 : IVec S4096 1), X main_v401, X main_v431, X main_v461, X main_v491, X main_v521, X main_v551, X main_v581, X main_v611] : Fin 9 → IVec S4096 1) t (ix1 m)).toNat : ℝ) : EReal) := by
  rw [m2_tailA_v622]
  show ((((concatenate S9x4096 0 _ _ (ix2 t m) : BitVec 1)).toNat : ℝ) : EReal) = _
  rw [m2_stack9_apply]
  fin_cases t <;> exact congrArg (fun b : BitVec 1 => ((b.toNat : ℝ) : EReal)) (bcast1_apply bcast_S4096_S1x4096_1 _ _ _)

theorem m2TapRow_lane (V₀ : Valuation τ sig (Elt Ideal)) (kh kw : ℕ) (hkh : kh < 3) (hkw : kw < 3) (m : Fin 4096) :
    m2TapRow (m2V6 V₀ main_v341) (m2V6 V₀ main_v339) (m2V6 V₀ main_v338) (BitVec.ofNat 32 kh) (BitVec.ofNat 32 kw) (ix1 m)
      = BitVec.ofBool (tapOK kh kw m.val) := by
  rw [m2TapRow_apply, m2_v341_lane, m2_v339_lane, m2_v338_lane]
  exact rowW_eq m.val m.isLt kh kw hkh hkw

theorem m2_piece (t : Fin 9) (m : Fin 4096) :
    (((BitVec.ofBool (tapOK (t.val / 3) (t.val % 3) m.val)).toNat : ℝ) : EReal) = Consts.maskRC (ix2 t m) := by
  rw [ofBool_toEReal]
  unfold tapOK Consts.maskRC
  show (if decide (1 ≤ m.val / 16 % 16 + t.val / 3 ∧ m.val / 16 % 16 + t.val / 3 ≤ 16 ∧ 1 ≤ m.val % 16 + t.val % 3
        ∧ m.val % 16 + t.val % 3 ≤ 16) = true then (1 : EReal) else 0)
      = if 1 ≤ m.val / 16 % 16 + t.val / 3 ∧ m.val / 16 % 16 + t.val / 3 < 17 ∧ 1 ≤ m.val % 16 + t.val % 3
        ∧ m.val % 16 + t.val % 3 < 17 then (1 : EReal) else 0
  refine if_congr ?_ rfl rfl
  rw [decide_eq_true_eq]
  constructor <;> (intro h; omega)

theorem mask2_apply (V₀ : Valuation τ sig (Elt Ideal)) (i : S9x4096.Idx) :
    (m2V13 V₀ main_v622 : S9x4096.Idx → EReal) i = Consts.maskRC i := by
  obtain ⟨t, m, rfl⟩ : ∃ (t : Fin 9) (m : Fin 4096), i = ix2 t m := ⟨i 0, i 1, eq_ix2 i⟩
  have ht := t.isLt
  rw [m2V13_rows, m2_tailA_read (m2R9 V₀) t m,
    m2_nine_cases _ _ _ _ _ _ _ _ _ (fun n => m2TapRow (m2V6 V₀ main_v341) (m2V6 V₀ main_v339) (m2V6 V₀ main_v338) (BitVec.ofNat 32 (n / 3)) (BitVec.ofNat 32 (n % 3)))
      (m2R9_main_v371 V₀) (m2R9_main_v401 V₀) (m2R9_main_v431 V₀) (m2R9_main_v461 V₀) (m2R9_main_v491 V₀) (m2R9_main_v521 V₀) (m2R9_main_v551 V₀)
      (m2R9_main_v581 V₀) (m2R9_main_v611 V₀) t,
    m2TapRow_lane V₀ (t.val / 3) (t.val % 3) (by omega) (by omega), m2_piece]

theorem mask2_eq (V₀ : Valuation τ sig (Elt Ideal)) :
    (m2V13 V₀ main_v622 : S9x4096.Idx → EReal) = Consts.maskRC :=
  funext (mask2_apply V₀)

theorem H2_19_main_v622 (V₀ : Valuation τ sig (Elt Ideal)) :
    (H2_19 V₀ (Proc.devRef .tc main_v622) : S9x4096.Idx → EReal) = Consts.maskRC :=
  mask2_eq (H2_6 V₀)

end Cert.ReferenceIdeal.Host

end
-- ==== Proof.KernelIdealValue2.lean ====
import proofs.«157750_g2000200144022539_pallasbulk_675_13_alg».proof.Proof.KernelIdealBody2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Value2

open Cert.KernelIdeal.Gen Cert.KernelIdeal.Body
open Idealize.ShloMosaic Idealize.ShloMosaic.ValueIdx

theorem zeros3 : (![0, 0, 0] : Fin 3 → ℕ) = fun _ => 0 := by
  funext a; match a with | ⟨0, _⟩ => rfl | ⟨1, _⟩ => rfl | ⟨2, _⟩ => rfl

theorem zeros2 : (![0, 0] : Fin 2 → ℕ) = fun _ => 0 := by
  funext a; match a with | ⟨0, _⟩ => rfl | ⟨1, _⟩ => rfl

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem k2_pay1_apply (v0 : Vec Ideal S1x64x4096 .bf16) (v3 v7 : Vec Ideal S64x1 .f32) (u : Fin 1) (ch : Fin 64) (l : Fin 4096) :
    k2_pay1 v0 v3 v7 (ix3 u ch l)
      = max (v0 (ix3 (0 : Fin 1) ch l) * v3 (ix2 ch (0 : Fin 1)) + v7 (ix2 ch (0 : Fin 1))) 0 := by
  unfold k2_pay1
  rw [shapeCast_ab_1ab_apply, maximumf_apply, addf_apply, mulf_apply, extf_apply, shapeCast_1ab_ab_apply, broadcast_apply,
    broadcastTo_a1_ab_apply, broadcastTo_a1_ab_apply, shapeCast_self, shapeCast_self]
  show max _ (Ideal.ofBits .f32 0x00000000#32) = _
  rw [Ideal.ofBits_zero_f32]

theorem out2_3_apply (x1 : Vec Ideal S1x64x4096 .bf16) (x2 x3 : Vec Ideal S64x1 .f32) (u : Fin 1) (ch : Fin 64) (l : Fin 4096) :
    out2_3 x1 x2 x3 (ix3 u ch l)
      = max (x1 (ix3 (0 : Fin 1) ch l) * x2 (ix2 ch (0 : Fin 1)) + x3 (ix2 ch (0 : Fin 1))) 0 := by
  unfold out2_3
  rw [View.canon_unit_zero zeros3, View.ld_unit_zero zeros3, View.ld_unit_zero zeros2, View.ld_unit_zero zeros2,
    k2_pay1_apply]

theorem out2_3_apply_idx (x1 : Vec Ideal S1x64x4096 .bf16) (x2 x3 : Vec Ideal S64x1 .f32) (j : S1x64x4096.Idx) :
    out2_3 x1 x2 x3 j = max (x1 j * x2 (ix2 (j 1) (0 : Fin 1)) + x3 (ix2 (j 1) (0 : Fin 1))) 0 := by
  obtain ⟨u, ch, l, rfl⟩ : ∃ (u : Fin 1) (ch : Fin 64) (l : Fin 4096), j = ix3 u ch l := ⟨j 0, j 1, j 2, eq_ix3 j⟩
  obtain rfl : u = 0 := Fin.ext (by omega)
  exact out2_3_apply x1 x2 x3 0 ch l

end Cert.KernelIdeal.Value2

end
-- ==== Proof.ReferenceIdealValue3.lean ====
import proofs.«157750_g2000200144022539_pallasbulk_675_13_alg».proof.Proof.ReferenceIdealBody3
import Idealize.ShloMosaic.Lib.Pipeline.Value
import Idealize.ShloMosaic.Lib.ValueLayout
import Idealize.ShloMosaic.PureOps.Ideal.Laws

noncomputable section

namespace Cert.ReferenceIdeal.Body

open Cert.ReferenceIdeal Cert.ReferenceIdeal.Gen
open Idealize.ShloMosaic Idealize.ShloMosaic.ValueIdx

theorem hz3_blk : (![0, 0, 0] : Fin 3 → ℕ) = fun _ => 0 := funext fun a => by fin_cases a <;> rfl

theorem hz3_col : (![0, 0] : Fin 2 → ℕ) = fun _ => 0 := funext fun a => by fin_cases a <;> rfl

theorem out3_3_eq_pay {F : FTy → Type} [FloatOps F] (x1 : Vec F S1x64x4096 .f32) (x2 x3 : Vec F S64x1 .f32) :
    out3_3 x1 x2 x3 = k3_pay1 x1 x2 x3 := by
  unfold out3_3
  rw [View.canon_unit_zero hz3_blk]
  simp only [View.ld_unit_zero (S := S1x64x4096) hz3_blk, View.ld_unit_zero (S := S64x1) hz3_col]

theorem broadcastTo_col_apply {α : Type} (v : S64x1.Idx → α) (h : S64x1.Broadcasts S64x4096) (c : Fin 64) (p : Fin 4096) :
    broadcastTo S64x4096 v h (ix2 c p) = v (ix2 c (0 : Fin 1)) := by
  refine broadcastTo_apply v h (ix2 c p) (ix2 c (0 : Fin 1)) fun ax => ?_
  match ax with
  | ⟨0, _⟩ => rfl
  | ⟨1, _⟩ => rfl

theorem out3_3_apply (x1 : Vec Ideal S1x64x4096 .f32) (x2 x3 : Vec Ideal S64x1 .f32) (u : Fin 1) (c : Fin 64) (p : Fin 4096) :
    out3_3 x1 x2 x3 (ix3 u c p)
      = max (x1 (ix3 (0 : Fin 1) c p) * x2 (ix2 c (0 : Fin 1)) + x3 (ix2 c (0 : Fin 1))) 0 := by
  rw [out3_3_eq_pay]
  unfold k3_pay1
  rw [shapeCast_ab_1ab_apply, maximumf_apply, addf_apply, mulf_apply, shapeCast_1ab_ab_apply,
    broadcastTo_col_apply, broadcastTo_col_apply, shapeCast_self, shapeCast_self, broadcast_apply]
  show max _ (Ideal.ofBits .f32 0x00000000#32) = _
  rw [Ideal.ofBits_zero_f32]

theorem out3_3_apply' (x1 : Vec Ideal S1x64x4096 .f32) (x2 x3 : Vec Ideal S64x1 .f32) (y : S1x64x4096.Idx) :
    out3_3 x1 x2 x3 y = max (x1 y * x2 (ix2 (y 1) (0 : Fin 1)) + x3 (ix2 (y 1) (0 : Fin 1))) 0 := by
  obtain ⟨u, c, p, rfl⟩ : ∃ (u : Fin 1) (c : Fin 64) (p : Fin 4096), y = ix3 u c p := ⟨y 0, y 1, y 2, eq_ix3 y⟩
  obtain rfl : u = 0 := Subsingleton.elim _ _
  exact out3_3_apply x1 x2 x3 0 c p

end Cert.ReferenceIdeal.Body

end
-- ==== Proof.BridgeOutBody.lean ====
import proofs.«157750_g2000200144022539_pallasbulk_675_13_alg».proof.Proof.KernelIdealValue2
import proofs.«157750_g2000200144022539_pallasbulk_675_13_alg».proof.Proof.ReferenceIdealValue3

noncomputable section

namespace Cert.Bridge

open Idealize.ShloMosaic Idealize.ShloMosaic.ValueIdx

theorem out2_3_eq_out3_3 (y : (⟨3, ![1, 64, 4096]⟩ : Shape).Idx → EReal) (sc sh : (⟨2, ![64, 1]⟩ : Shape).Idx → EReal) :
    (Cert.KernelIdeal.Body.out2_3 (F := Ideal) y sc sh : (⟨3, ![1, 64, 4096]⟩ : Shape).Idx → EReal)
      = Cert.ReferenceIdeal.Body.out3_3 (F := Ideal) y sc sh := by
  funext j
  rw [Cert.KernelIdeal.Value2.out2_3_apply_idx, Cert.ReferenceIdeal.Body.out3_3_apply']

end Cert.Bridge

end
-- ==== Proof.BridgeOut.lean ====
import proofs.«157750_g2000200144022539_pallasbulk_675_13_alg».proof.Proof.BridgeOutBody
import proofs.«157750_g2000200144022539_pallasbulk_675_13_alg».proof.Proof.KernelIdealArrays
import proofs.«157750_g2000200144022539_pallasbulk_675_13_alg».proof.Proof.ReferenceIdealArrays3

noncomputable section

namespace Cert.Bridge

open Idealize.ShloMosaic Idealize.ShloMosaic.ValueIdx

theorem bridge_out_of (OK : Cert.KernelIdeal.Run.Outs Ideal) (OR : Cert.ReferenceIdeal.Run.Outs Ideal)
    (hK : OK.o2_3 = Cert.KernelIdeal.Body.out2_3 (F := Ideal)) (hR : OR.o3_3 = Cert.ReferenceIdeal.Body.out3_3 (F := Ideal))
    (Y2 : (⟨3, ![8, 64, 4096]⟩ : Shape).Idx → EReal) (SC SH : (⟨2, ![64, 1]⟩ : Shape).Idx → EReal) :
    (Cert.KernelIdeal.Run.arr2_3 OK Y2 SC SH : (⟨3, ![8, 64, 4096]⟩ : Shape).Idx → EReal)
      = Cert.ReferenceIdeal.Run.arr3_3 OR Y2 SC SH := by
  funext i
  show OK.o2_3 (fun y => Y2 (ix3 (i 0) (y 1) (y 2))) SC SH (ix3 (0 : Fin 1) (i 1) (i 2))
    = OR.o3_3 (fun y => Y2 (ix3 (i 0) (y 1) (y 2))) SC SH (ix3 (0 : Fin 1) (i 1) (i 2))
  rw [hK, hR]
  exact congrFun (out2_3_eq_out3_3 (fun y => Y2 (ix3 (i 0) (y 1) (y 2))) SC SH) (ix3 (0 : Fin 1) (i 1) (i 2))

end Cert.Bridge

end
-- ==== Proof.KernelIdealValue0a.lean ====
import proofs.«157750_g2000200144022539_pallasbulk_675_13_alg».proof.Proof.KernelIdealBody0Defs
import Idealize.ShloMosaic.Lib.Pipeline.Value
import Idealize.ShloMosaic.Lib.ValueIdx
import Idealize.ShloMosaic.Lib.ValueLayout
import Idealize.ShloMosaic.PureOps.Ideal.Laws
import Mathlib.Tactic.FinCases
import Mathlib.Tactic.IntervalCases
import Mathlib.Algebra.BigOperators.Fin

set_option maxRecDepth 16384

noncomputable section

namespace Cert.KernelIdeal.Value0

open Cert.KernelIdeal.Gen Cert.KernelIdeal.Body
open Idealize.ShloMosaic Idealize.ShloMosaic.ValueIdx
open scoped BigOperators

theorem zeros2 : (![0, 0] : Fin 2 → ℕ) = fun _ => 0 := by
  funext a; match a with | ⟨0, _⟩ => rfl | ⟨1, _⟩ => rfl

theorem ld_lane3 {Val : EltTy → Type} {e : EltTy} {n0 n1 n2 m2 : ℕ} (X : (⟨3, ![n0, n1, n2]⟩ : Shape).Idx → Val e) (o2 : ℕ)
    (inb : ∀ a, (![0, 0, o2] : Fin 3 → ℕ) a + (![n0, n1, m2] : Fin 3 → ℕ) a ≤ (⟨3, ![n0, n1, n2]⟩ : Shape).size a)
    (a : Fin n0) (b : Fin n1) (c : Fin m2) (h2 : o2 + c.val < n2) :
    View.ld X (Rect.unit (s := ⟨3, ![n0, n1, n2]⟩) ![0, 0, o2] ![n0, n1, m2] inb) (ix3 a b c) = X (ix3 a b ⟨o2 + c.val, h2⟩) := by
  show X ((Rect.unit (s := ⟨3, ![n0, n1, n2]⟩) ![0, 0, o2] ![n0, n1, m2] inb).idx (ix3 a b c)) = _
  congr 1
  funext ax; apply Fin.ext
  match ax with
  | ⟨0, _⟩ => show 0 + 1 * a.val = a.val; omega
  | ⟨1, _⟩ => show 0 + 1 * b.val = b.val; omega
  | ⟨2, _⟩ => show o2 + 1 * c.val = o2 + c.val; omega

def stD (v : Vec Ideal S1x32x2048 .f32) : FVec Ideal S32x1024 .f32 :=
  maximumf (extractStridedSlice S32x1024 ![0, 0] (shapeCast S32x2048 v shapeCasts_S1x32x2048_S32x2048) slices_S32x2048_o0_0_S32x1024)
    (extractStridedSlice S32x1024 ![0, 1024] (shapeCast S32x2048 v shapeCasts_S1x32x2048_S32x2048) slices_S32x2048_o0_1024_S32x1024)

def rot32 (X : FVec Ideal S32x1024 .f32) : FVec Ideal S32x1024 .f32 :=
  concatenate S32x1024 1 [⟨S32x992, extractStridedSlice S32x992 ![0, 32] X slices_S32x1024_o0_32_S32x992⟩,
    ⟨S32x32, extractStridedSlice S32x32 ![0, 0] X slices_S32x1024_o0_0_S32x32⟩] concatenates_S32x992_S32x32_S32x1024_d1

def rot1 (X : FVec Ideal S32x1024 .f32) : FVec Ideal S32x1024 .f32 :=
  concatenate S32x1024 1 [⟨S32x1023, extractStridedSlice S32x1023 ![0, 1] X slices_S32x1024_o0_1_S32x1023⟩,
    ⟨S32x1, extractStridedSlice S32x1 ![0, 0] X slices_S32x1024_o0_0_S32x1⟩] concatenates_S32x1023_S32x1_S32x1024_d1

def stH (v : Vec Ideal S1x32x2048 .f32) : FVec Ideal S32x1024 .f32 := maximumf (stD v) (rot32 (stD v))

def stP (v : Vec Ideal S1x32x2048 .f32) : FVec Ideal S32x1024 .f32 := maximumf (stH v) (rot1 (stH v))

def slabPay (v : Vec Ideal S1x32x2048 .f32) : FVec Ideal S32x1024 .bf16 :=
  shapeCast S32x1024 (truncf .bf16 (stP v) bitsLt_bf16_f32) shapeCasts_S32x1024_S32x1024

def wrap (l : Fin 1024) (s : ℕ) : Fin 1024 := ⟨(l.val + s) % 1024, Nat.mod_lt _ (by omega)⟩

theorem stD_apply (v : Vec Ideal S1x32x2048 .f32) (c : Fin 32) (l : Fin 1024) :
    stD v (ix2 c l) = max (v (ix3 (0 : Fin 1) c ⟨l.val, by omega⟩)) (v (ix3 (0 : Fin 1) c ⟨1024 + l.val, by omega⟩)) := by
  unfold stD
  rw [maximumf_apply, slice2_axis1_apply 0 _ _ c l ⟨l.val, by omega⟩ (by simp),
    slice2_axis1_apply 1024 _ _ c l ⟨1024 + l.val, by omega⟩ rfl, shapeCast_1ab_ab_apply, shapeCast_1ab_ab_apply]

theorem rot32_apply (X : FVec Ideal S32x1024 .f32) (c : Fin 32) (l : Fin 1024) :
    rot32 X (ix2 c l) = X (ix2 c (wrap l 32)) := by
  unfold rot32
  have hl := l.isLt
  by_cases h : l.val < 992
  · refine (concatenate_pair_apply_left (t := S32x1024) (s₁ := S32x992) (s₂ := S32x32) (1 : Fin 2) _ _
      concatenates_S32x992_S32x32_S32x1024_d1 (ix2 c l) rfl (ix2 c (⟨l.val, h⟩ : Fin 992))
      (fun b => match b with | ⟨0, _⟩ => rfl | ⟨1, _⟩ => rfl)).trans ?_
    exact slice2_axis1_apply 32 X _ c (⟨l.val, h⟩ : Fin 992) (wrap l 32) (by show (l.val + 32) % 1024 = 32 + l.val; omega)
  · refine (concatenate_pair_apply_right (t := S32x1024) (s₁ := S32x992) (s₂ := S32x32) (1 : Fin 2) _ _
      concatenates_S32x992_S32x32_S32x1024_d1 (ix2 c l) rfl rfl (ix2 c (⟨l.val - 992, by omega⟩ : Fin 32))
      (fun b hb => match b, hb with | ⟨0, _⟩, _ => rfl | ⟨1, _⟩, hb => absurd rfl hb)
      (by show l.val - 992 + 992 = l.val; omega)).trans ?_
    exact slice2_axis1_apply 0 X _ c (⟨l.val - 992, by omega⟩ : Fin 32) (wrap l 32) (by show (l.val + 32) % 1024 = 0 + (l.val - 992); omega)

theorem rot1_apply (X : FVec Ideal S32x1024 .f32) (c : Fin 32) (l : Fin 1024) :
    rot1 X (ix2 c l) = X (ix2 c (wrap l 1)) := by
  unfold rot1
  have hl := l.isLt
  by_cases h : l.val < 1023
  · refine (concatenate_pair_apply_left (t := S32x1024) (s₁ := S32x1023) (s₂ := S32x1) (1 : Fin 2) _ _
      concatenates_S32x1023_S32x1_S32x1024_d1 (ix2 c l) rfl (ix2 c (⟨l.val, h⟩ : Fin 1023))
      (fun b => match b with | ⟨0, _⟩ => rfl | ⟨1, _⟩ => rfl)).trans ?_
    exact slice2_axis1_apply 1 X _ c (⟨l.val, h⟩ : Fin 1023) (wrap l 1) (by show (l.val + 1) % 1024 = 1 + l.val; omega)
  · refine (concatenate_pair_apply_right (t := S32x1024) (s₁ := S32x1023) (s₂ := S32x1) (1 : Fin 2) _ _
      concatenates_S32x1023_S32x1_S32x1024_d1 (ix2 c l) rfl rfl (ix2 c (⟨l.val - 1023, by omega⟩ : Fin 1))
      (fun b hb => match b, hb with | ⟨0, _⟩, _ => rfl | ⟨1, _⟩, hb => absurd rfl hb)
      (by show l.val - 1023 + 1023 = l.val; omega)).trans ?_
    exact slice2_axis1_apply 0 X _ c (⟨l.val - 1023, by omega⟩ : Fin 1) (wrap l 1) (by show (l.val + 1) % 1024 = 0 + (l.val - 1023); omega)

theorem slabPay_apply (v : Vec Ideal S1x32x2048 .f32) (g : Fin 32 → Fin 1024 → EReal)
    (hg : ∀ c l, max (v (ix3 (0 : Fin 1) c ⟨l.val, by omega⟩)) (v (ix3 (0 : Fin 1) c ⟨1024 + l.val, by omega⟩)) = g c l)
    (c : Fin 32) (l : Fin 1024) :
    slabPay v (ix2 c l) = max (max (g c l) (g c (wrap l 32))) (max (g c (wrap l 1)) (g c (wrap (wrap l 1) 32))) := by
  unfold slabPay stP stH
  rw [shapeCast_self, truncf_apply, maximumf_apply, rot1_apply, maximumf_apply, maximumf_apply, rot32_apply, rot32_apply,
    stD_apply, stD_apply, stD_apply, stD_apply, hg, hg, hg, hg]

def dmax (x1 : Vec Ideal S1x32x32768 .f32) (d : Fin 16) (c : Fin 32) (l : Fin 1024) : EReal :=
  max (x1 (ix3 0 c ⟨2048 * d.val + l.val, by omega⟩)) (x1 (ix3 0 c ⟨2048 * d.val + (1024 + l.val), by omega⟩))

def hmax (x1 : Vec Ideal S1x32x32768 .f32) (d : Fin 16) (c : Fin 32) (l : Fin 1024) : EReal :=
  max (dmax x1 d c l) (dmax x1 d c (wrap l 32))

def poolv (x1 : Vec Ideal S1x32x32768 .f32) (d : Fin 16) (c : Fin 32) (l : Fin 1024) : EReal :=
  max (hmax x1 d c l) (hmax x1 d c (wrap l 1))

theorem not_mem_pband (o : ℕ) (inb : ∀ a, (![o, 0] : Fin 2 → ℕ) a + S32x1024.size a ≤ S512x1024.size a)
    (r : Fin 512) (l : Fin 1024) (h : r.val < o ∨ o + 32 ≤ r.val) :
    (ix2 r l : S512x1024.Idx) ∉ (Rect.unit (s := S512x1024) ![o, 0] S32x1024.size inb).set := by
  rw [Rect.mem_set_unit]
  intro hm
  have h0 : o ≤ r.val ∧ r.val < o + 32 := hm 0
  omega

theorem canon_cons_pband (o : ℕ) (inb : ∀ a, (![o, 0] : Fin 2 → ℕ) a + S32x1024.size a ≤ S512x1024.size a)
    (w : (Rect.unit (s := S512x1024) ![o, 0] S32x1024.size inb).shape.Idx → Elt Ideal .bf16)
    (L : List (View.Piece (Elt Ideal) S512x1024 .bf16)) (r : Fin 512) (l : Fin 1024) (h : r.val < o ∨ o + 32 ≤ r.val) :
    View.canon ((⟨Rect.unit (s := S512x1024) ![o, 0] S32x1024.size inb, w⟩ : View.Piece (Elt Ideal) S512x1024 .bf16) :: L) (ix2 r l)
      = View.canon L (ix2 r l) :=
  View.canon_cons_of_not_mem _ _ (not_mem_pband o inb r l h)

theorem canon_pband_hit (o : ℕ) (inb : ∀ a, (![o, 0] : Fin 2 → ℕ) a + S32x1024.size a ≤ S512x1024.size a)
    (w : (Rect.unit (s := S512x1024) ![o, 0] S32x1024.size inb).shape.Idx → Elt Ideal .bf16)
    (L : List (View.Piece (Elt Ideal) S512x1024 .bf16)) (c : Fin 32) (j : Fin 1024) (h : o + c.val < 512) :
    View.canon ((⟨Rect.unit (s := S512x1024) ![o, 0] S32x1024.size inb, w⟩ : View.Piece (Elt Ideal) S512x1024 .bf16) :: L) (ix2 ⟨o + c.val, h⟩ j)
      = w (ix2 c j) := by
  have hemb : (ix2 ⟨o + c.val, h⟩ j : S512x1024.Idx) = (Rect.unit (s := S512x1024) ![o, 0] S32x1024.size inb).emb (ix2 c j) := by
    funext ax; apply Fin.ext
    match ax with
    | ⟨0, _⟩ => show o + c.val = o + 1 * c.val; omega
    | ⟨1, _⟩ => show j.val = 0 + 1 * j.val; omega
  rw [hemb, View.canon_cons_emb]

theorem slab_eq (x1 : Vec Ideal S1x32x32768 .f32) (o : ℕ)
    (inb : ∀ a, (![0, 0, o] : Fin 3 → ℕ) a + S1x32x2048.size a ≤ S1x32x32768.size a) (d : Fin 16) (hd : o = 2048 * d.val)
    (c : Fin 32) (l : Fin 1024) :
    slabPay (View.ld x1 (Rect.unit (s := S1x32x32768) ![0, 0, o] S1x32x2048.size inb)) (ix2 c l) = poolv x1 d c l := by
  subst hd
  rw [slabPay_apply _ (dmax x1 d) (fun c' l' => by
    rw [ld_lane3 x1 (2048 * d.val) _ (0 : Fin 1) c' ⟨l'.val, by omega⟩ (by show 2048 * d.val + l'.val < 32768; omega),
      ld_lane3 x1 (2048 * d.val) _ (0 : Fin 1) c' ⟨1024 + l'.val, by omega⟩ (by show 2048 * d.val + (1024 + l'.val) < 32768; omega)]
    rfl)]
  rfl

theorem pool0_apply (x1 : Vec Ideal S1x32x32768 .f32) (d : Fin 16) (c : Fin 32) (l : Fin 1024) :
    pool0 x1 (ix2 ⟨32 * d.val + c.val, by omega⟩ l) = poolv x1 d c l := by
  unfold pool0
  rcases d with ⟨k, hk⟩
  dsimp only
  interval_cases k <;> simp only [Nat.reduceMul] <;>
  · repeat (rw [canon_cons_pband]; on_goal 2 => exact Or.inl (by show _ + _ < _; omega))
    rw [canon_pband_hit]
    exact slab_eq x1 _ _ _ (by rfl) c l

theorem matmul0_apply (prec : Option ContractPrecision) (A : FVec Ideal S512x1024 .bf16) (B : FVec Ideal S1024x256 .bf16)
    (acc : FVec Ideal S512x256 .f32) (r : Fin 512) (k : Fin 256) :
    matmul dot_S512x1024_S1024x256_S512x256_1_0_0_1_n_n prec A B acc (ix2 r k)
      = acc (ix2 r k) + ∑ l : Fin 1024, A (ix2 r l) * B (ix2 l k) := by
  show FloatOps.matmul _ prec A B acc (ix2 r k) = _
  rw [Ideal.matmul_apply,
    ← Equiv.sum_comp (contrEquiv1 dot_S512x1024_S1024x256_S512x256_1_0_0_1_n_n 1024 rfl rfl).symm]
  congr 1
  refine Finset.sum_congr rfl fun l _ => ?_
  have cl := contrEquiv1_symm_val dot_S512x1024_S1024x256_S512x256_1_0_0_1_n_n 1024 rfl rfl l
  have l2 : dot_S512x1024_S1024x256_S512x256_1_0_0_1_n_n.lhsIdx (ix2 r k) ((contrEquiv1 _ 1024 rfl rfl).symm l) = ix2 r l := by
    funext ax; apply Fin.ext
    match ax with
    | ⟨0, _⟩ => simp [DotDims.lhsIdx, dot_S512x1024_S1024x256_S512x256_1_0_0_1_n_n]; rfl
    | ⟨1, _⟩ => simp [DotDims.lhsIdx, dot_S512x1024_S1024x256_S512x256_1_0_0_1_n_n]; exact cl
  have r2 : dot_S512x1024_S1024x256_S512x256_1_0_0_1_n_n.rhsIdx (ix2 r k) ((contrEquiv1 _ 1024 rfl rfl).symm l) = ix2 l k := by
    funext ax; apply Fin.ext
    match ax with
    | ⟨0, _⟩ => simp [DotDims.rhsIdx, dot_S512x1024_S1024x256_S512x256_1_0_0_1_n_n]; exact cl
    | ⟨1, _⟩ => simp [DotDims.rhsIdx, dot_S512x1024_S1024x256_S512x256_1_0_0_1_n_n]; rfl
  rw [l2, r2]

theorem k0_pay26_apply (v272 : Vec Ideal S512x1024 .bf16) (v273 : Vec Ideal S1024x256 .bf16) (r : Fin 512) (k : Fin 256) :
    k0_pay26 v272 v273 (ix2 r k) = ∑ l : Fin 1024, v272 (ix2 r l) * v273 (ix2 l k) := by
  unfold k0_pay26
  rw [truncf_apply, matmul0_apply, constant_apply, Ideal.ofBits_zero_f32, zero_add]
  refine Finset.sum_congr rfl fun l _ => ?_
  rw [shapeCast_self]

def selv (x1 : Vec Ideal S1x32x32768 .f32) (x2 : Vec Ideal S1024x256 .bf16) (d : Fin 16) (c : Fin 32) (k : Fin 256) : EReal :=
  ∑ l : Fin 1024, poolv x1 d c l * x2 (ix2 l k)

theorem sel0_apply (x1 : Vec Ideal S1x32x32768 .f32) (x2 : Vec Ideal S1024x256 .bf16) (d : Fin 16) (c : Fin 32) (k : Fin 256) :
    sel0 x1 x2 (ix2 ⟨32 * d.val + c.val, by omega⟩ k) = selv x1 x2 d c k := by
  unfold sel0 selv
  rw [k0_pay26_apply, View.ld_unit_zero zeros2, View.ld_unit_zero zeros2]
  refine Finset.sum_congr rfl fun l _ => ?_
  rw [pool0_apply]

theorem ofBits_zero_bf16 : Ideal.ofBits .bf16 0x0000#16 = 0 := by simp [Ideal.ofBits, Ideal.ieee]

theorem k0_pay27_apply (i : S32x384.Idx) : (k0_pay27 (F := Ideal)) i = 0 := by
  unfold k0_pay27
  rw [shapeCast_self, broadcast_apply]
  exact ofBits_zero_bf16

theorem k0_pay46_apply (i : S32x384.Idx) : (k0_pay46 (F := Ideal)) i = 0 := by
  unfold k0_pay46
  rw [shapeCast_self, broadcast_apply]
  exact ofBits_zero_bf16

theorem k0_pay28_apply (v272 : Vec Ideal S512x1024 .bf16) (v273 : Vec Ideal S1024x256 .bf16) (c : Fin 32) (j : Fin 256) :
    k0_pay28 v272 v273 (ix2 c j) = k0_pay26 v272 v273 (ix2 ⟨0 + c.val, by omega⟩ j) := by
  unfold k0_pay28
  rw [shapeCast_self, slice2_axis0_apply 0 _ _ c j ⟨0 + c.val, by omega⟩ rfl]

theorem k0_pay29_apply (v272 : Vec Ideal S512x1024 .bf16) (v273 : Vec Ideal S1024x256 .bf16) (c : Fin 32) (j : Fin 256) :
    k0_pay29 v272 v273 (ix2 c j) = k0_pay26 v272 v273 (ix2 ⟨32 + c.val, by omega⟩ j) := by
  unfold k0_pay29
  rw [shapeCast_self, slice2_axis0_apply 32 _ _ c j ⟨32 + c.val, by omega⟩ rfl]

theorem k0_pay30_apply (v272 : Vec Ideal S512x1024 .bf16) (v273 : Vec Ideal S1024x256 .bf16) (c : Fin 32) (j : Fin 256) :
    k0_pay30 v272 v273 (ix2 c j) = k0_pay26 v272 v273 (ix2 ⟨64 + c.val, by omega⟩ j) := by
  unfold k0_pay30
  rw [shapeCast_self, slice2_axis0_apply 64 _ _ c j ⟨64 + c.val, by omega⟩ rfl]

theorem k0_pay31_apply (v272 : Vec Ideal S512x1024 .bf16) (v273 : Vec Ideal S1024x256 .bf16) (c : Fin 32) (j : Fin 256) :
    k0_pay31 v272 v273 (ix2 c j) = k0_pay26 v272 v273 (ix2 ⟨96 + c.val, by omega⟩ j) := by
  unfold k0_pay31
  rw [shapeCast_self, slice2_axis0_apply 96 _ _ c j ⟨96 + c.val, by omega⟩ rfl]

theorem k0_pay32_apply (v272 : Vec Ideal S512x1024 .bf16) (v273 : Vec Ideal S1024x256 .bf16) (c : Fin 32) (j : Fin 256) :
    k0_pay32 v272 v273 (ix2 c j) = k0_pay26 v272 v273 (ix2 ⟨128 + c.val, by omega⟩ j) := by
  unfold k0_pay32
  rw [slice2_axis0_apply 128 _ _ c j ⟨128 + c.val, by omega⟩ rfl]

theorem k0_pay33_apply (v : FVec Ideal S32x256 .bf16) : k0_pay33 v = v := by
  unfold k0_pay33
  rw [shapeCast_self]

theorem k0_pay34_apply (v276 : FVec Ideal S512x256 .bf16) (c : Fin 32) (j : Fin 256) :
    k0_pay34 v276 (ix2 c j) = v276 (ix2 ⟨160 + c.val, by omega⟩ j) := by
  unfold k0_pay34
  rw [shapeCast_self, slice2_axis0_apply 160 _ _ c j ⟨160 + c.val, by omega⟩ rfl]

theorem k0_pay35_apply (v276 : FVec Ideal S512x256 .bf16) (c : Fin 32) (j : Fin 256) :
    k0_pay35 v276 (ix2 c j) = v276 (ix2 ⟨192 + c.val, by omega⟩ j) := by
  unfold k0_pay35
  rw [shapeCast_self, slice2_axis0_apply 192 _ _ c j ⟨192 + c.val, by omega⟩ rfl]

theorem k0_pay36_apply (v276 : FVec Ideal S512x256 .bf16) (c : Fin 32) (j : Fin 256) :
    k0_pay36 v276 (ix2 c j) = v276 (ix2 ⟨224 + c.val, by omega⟩ j) := by
  unfold k0_pay36
  rw [shapeCast_self, slice2_axis0_apply 224 _ _ c j ⟨224 + c.val, by omega⟩ rfl]

theorem k0_pay37_apply (v276 : FVec Ideal S512x256 .bf16) (c : Fin 32) (j : Fin 256) :
    k0_pay37 v276 (ix2 c j) = v276 (ix2 ⟨256 + c.val, by omega⟩ j) := by
  unfold k0_pay37
  rw [shapeCast_self, slice2_axis0_apply 256 _ _ c j ⟨256 + c.val, by omega⟩ rfl]

theorem k0_pay38_apply (v276 : FVec Ideal S512x256 .bf16) (c : Fin 32) (j : Fin 256) :
    k0_pay38 v276 (ix2 c j) = v276 (ix2 ⟨288 + c.val, by omega⟩ j) := by
  unfold k0_pay38
  rw [shapeCast_self, slice2_axis0_apply 288 _ _ c j ⟨288 + c.val, by omega⟩ rfl]

theorem k0_pay39_apply (v276 : FVec Ideal S512x256 .bf16) (c : Fin 32) (j : Fin 256) :
    k0_pay39 v276 (ix2 c j) = v276 (ix2 ⟨320 + c.val, by omega⟩ j) := by
  unfold k0_pay39
  rw [shapeCast_self, slice2_axis0_apply 320 _ _ c j ⟨320 + c.val, by omega⟩ rfl]

theorem k0_pay40_apply (v276 : FVec Ideal S512x256 .bf16) (c : Fin 32) (j : Fin 256) :
    k0_pay40 v276 (ix2 c j) = v276 (ix2 ⟨352 + c.val, by omega⟩ j) := by
  unfold k0_pay40
  rw [shapeCast_self, slice2_axis0_apply 352 _ _ c j ⟨352 + c.val, by omega⟩ rfl]

theorem k0_pay41_apply (v276 : FVec Ideal S512x256 .bf16) (c : Fin 32) (j : Fin 256) :
    k0_pay41 v276 (ix2 c j) = v276 (ix2 ⟨384 + c.val, by omega⟩ j) := by
  unfold k0_pay41
  rw [shapeCast_self, slice2_axis0_apply 384 _ _ c j ⟨384 + c.val, by omega⟩ rfl]

theorem k0_pay42_apply (v276 : FVec Ideal S512x256 .bf16) (c : Fin 32) (j : Fin 256) :
    k0_pay42 v276 (ix2 c j) = v276 (ix2 ⟨416 + c.val, by omega⟩ j) := by
  unfold k0_pay42
  rw [slice2_axis0_apply 416 _ _ c j ⟨416 + c.val, by omega⟩ rfl]

theorem k0_pay43_apply (v : FVec Ideal S32x256 .bf16) : k0_pay43 v = v := by
  unfold k0_pay43
  rw [shapeCast_self]

theorem k0_pay44_apply (v276 : FVec Ideal S512x256 .bf16) (c : Fin 32) (j : Fin 256) :
    k0_pay44 v276 (ix2 c j) = v276 (ix2 ⟨448 + c.val, by omega⟩ j) := by
  unfold k0_pay44
  rw [shapeCast_self, slice2_axis0_apply 448 _ _ c j ⟨448 + c.val, by omega⟩ rfl]

theorem k0_pay45_apply (v276 : FVec Ideal S512x256 .bf16) (c : Fin 32) (j : Fin 256) :
    k0_pay45 v276 (ix2 c j) = v276 (ix2 ⟨480 + c.val, by omega⟩ j) := by
  unfold k0_pay45
  rw [shapeCast_self, slice2_axis0_apply 480 _ _ c j ⟨480 + c.val, by omega⟩ rfl]

theorem not_mem_lanes (o m : ℕ) (inb : ∀ a, (![0, o] : Fin 2 → ℕ) a + (![32, m] : Fin 2 → ℕ) a ≤ S32x4864.size a)
    (r : Fin 32) (p : Fin 4864) (h : p.val < o ∨ o + m ≤ p.val) :
    (ix2 r p : S32x4864.Idx) ∉ (Rect.unit (s := S32x4864) ![0, o] ![32, m] inb).set := by
  rw [Rect.mem_set_unit]
  intro hm
  have h1 : o ≤ p.val ∧ p.val < o + m := hm 1
  omega

theorem canon_cons_lanes (o m : ℕ) (inb : ∀ a, (![0, o] : Fin 2 → ℕ) a + (![32, m] : Fin 2 → ℕ) a ≤ S32x4864.size a)
    (w : (Rect.unit (s := S32x4864) ![0, o] ![32, m] inb).shape.Idx → Elt Ideal .bf16)
    (L : List (View.Piece (Elt Ideal) S32x4864 .bf16)) (r : Fin 32) (p : Fin 4864) (h : p.val < o ∨ o + m ≤ p.val) :
    View.canon ((⟨Rect.unit (s := S32x4864) ![0, o] ![32, m] inb, w⟩ : View.Piece (Elt Ideal) S32x4864 .bf16) :: L) (ix2 r p)
      = View.canon L (ix2 r p) :=
  View.canon_cons_of_not_mem _ _ (not_mem_lanes o m inb r p h)

theorem canon_lanes_hit (o m : ℕ) (inb : ∀ a, (![0, o] : Fin 2 → ℕ) a + (![32, m] : Fin 2 → ℕ) a ≤ S32x4864.size a)
    (w : (Rect.unit (s := S32x4864) ![0, o] ![32, m] inb).shape.Idx → Elt Ideal .bf16)
    (L : List (View.Piece (Elt Ideal) S32x4864 .bf16)) (c : Fin 32) (j : Fin m) (h : o + j.val < 4864) :
    View.canon ((⟨Rect.unit (s := S32x4864) ![0, o] ![32, m] inb, w⟩ : View.Piece (Elt Ideal) S32x4864 .bf16) :: L) (ix2 c ⟨o + j.val, h⟩)
      = w (ix2 c j) := by
  have hemb : (ix2 c ⟨o + j.val, h⟩ : S32x4864.Idx) = (Rect.unit (s := S32x4864) ![0, o] ![32, m] inb).emb (ix2 c j) := by
    funext ax; apply Fin.ext
    match ax with
    | ⟨0, _⟩ => show c.val = 0 + 1 * c.val; omega
    | ⟨1, _⟩ => show o + j.val = o + 1 * j.val; omega
  rw [hemb, View.canon_cons_emb]

theorem halo0_tail (x1 : Vec Ideal S1x32x32768 .f32) (x2 : Vec Ideal S1024x256 .bf16) (c : Fin 32) (j : Fin 384) :
    halo0 x1 x2 (ix2 c ⟨4480 + j.val, by omega⟩) = 0 := by
  unfold halo0
  rw [canon_lanes_hit, k0_pay46_apply]

theorem halo0_slab15 (x1 : Vec Ideal S1x32x32768 .f32) (x2 : Vec Ideal S1024x256 .bf16) (c : Fin 32) (j : Fin 256) :
    halo0 x1 x2 (ix2 c ⟨4224 + j.val, by omega⟩) = selv x1 x2 (15 : Fin 16) c j := by
  unfold halo0
  repeat (rw [canon_cons_lanes]; on_goal 2 => exact Or.inl (by show _ + _ < _; omega))
  rw [canon_lanes_hit, k0_pay45_apply]
  exact sel0_apply x1 x2 (15 : Fin 16) c j

theorem halo0_slab14 (x1 : Vec Ideal S1x32x32768 .f32) (x2 : Vec Ideal S1024x256 .bf16) (c : Fin 32) (j : Fin 256) :
    halo0 x1 x2 (ix2 c ⟨3968 + j.val, by omega⟩) = selv x1 x2 (14 : Fin 16) c j := by
  unfold halo0
  repeat (rw [canon_cons_lanes]; on_goal 2 => exact Or.inl (by show _ + _ < _; omega))
  rw [canon_lanes_hit, k0_pay44_apply]
  exact sel0_apply x1 x2 (14 : Fin 16) c j

theorem halo0_slab13 (x1 : Vec Ideal S1x32x32768 .f32) (x2 : Vec Ideal S1024x256 .bf16) (c : Fin 32) (j : Fin 256) :
    halo0 x1 x2 (ix2 c ⟨3712 + j.val, by omega⟩) = selv x1 x2 (13 : Fin 16) c j := by
  unfold halo0
  repeat (rw [canon_cons_lanes]; on_goal 2 => exact Or.inl (by show _ + _ < _; omega))
  rw [canon_lanes_hit, k0_pay43_apply, k0_pay42_apply]
  exact sel0_apply x1 x2 (13 : Fin 16) c j

theorem halo0_slab12 (x1 : Vec Ideal S1x32x32768 .f32) (x2 : Vec Ideal S1024x256 .bf16) (c : Fin 32) (j : Fin 256) :
    halo0 x1 x2 (ix2 c ⟨3456 + j.val, by omega⟩) = selv x1 x2 (12 : Fin 16) c j := by
  unfold halo0
  repeat (rw [canon_cons_lanes]; on_goal 2 => exact Or.inl (by show _ + _ < _; omega))
  rw [canon_lanes_hit, k0_pay41_apply]
  exact sel0_apply x1 x2 (12 : Fin 16) c j

theorem halo0_slab11 (x1 : Vec Ideal S1x32x32768 .f32) (x2 : Vec Ideal S1024x256 .bf16) (c : Fin 32) (j : Fin 256) :
    halo0 x1 x2 (ix2 c ⟨3200 + j.val, by omega⟩) = selv x1 x2 (11 : Fin 16) c j := by
  unfold halo0
  repeat (rw [canon_cons_lanes]; on_goal 2 => exact Or.inl (by show _ + _ < _; omega))
  rw [canon_lanes_hit, k0_pay40_apply]
  exact sel0_apply x1 x2 (11 : Fin 16) c j

theorem halo0_slab10 (x1 : Vec Ideal S1x32x32768 .f32) (x2 : Vec Ideal S1024x256 .bf16) (c : Fin 32) (j : Fin 256) :
    halo0 x1 x2 (ix2 c ⟨2944 + j.val, by omega⟩) = selv x1 x2 (10 : Fin 16) c j := by
  unfold halo0
  repeat (rw [canon_cons_lanes]; on_goal 2 => exact Or.inl (by show _ + _ < _; omega))
  rw [canon_lanes_hit, k0_pay39_apply]
  exact sel0_apply x1 x2 (10 : Fin 16) c j

theorem halo0_slab9 (x1 : Vec Ideal S1x32x32768 .f32) (x2 : Vec Ideal S1024x256 .bf16) (c : Fin 32) (j : Fin 256) :
    halo0 x1 x2 (ix2 c ⟨2688 + j.val, by omega⟩) = selv x1 x2 (9 : Fin 16) c j := by
  unfold halo0
  repeat (rw [canon_cons_lanes]; on_goal 2 => exact Or.inl (by show _ + _ < _; omega))
  rw [canon_lanes_hit, k0_pay38_apply]
  exact sel0_apply x1 x2 (9 : Fin 16) c j

theorem halo0_slab8 (x1 : Vec Ideal S1x32x32768 .f32) (x2 : Vec Ideal S1024x256 .bf16) (c : Fin 32) (j : Fin 256) :
    halo0 x1 x2 (ix2 c ⟨2432 + j.val, by omega⟩) = selv x1 x2 (8 : Fin 16) c j := by
  unfold halo0
  repeat (rw [canon_cons_lanes]; on_goal 2 => exact Or.inl (by show _ + _ < _; omega))
  rw [canon_lanes_hit, k0_pay37_apply]
  exact sel0_apply x1 x2 (8 : Fin 16) c j

theorem halo0_slab7 (x1 : Vec Ideal S1x32x32768 .f32) (x2 : Vec Ideal S1024x256 .bf16) (c : Fin 32) (j : Fin 256) :
    halo0 x1 x2 (ix2 c ⟨2176 + j.val, by omega⟩) = selv x1 x2 (7 : Fin 16) c j := by
  unfold halo0
  repeat (rw [canon_cons_lanes]; on_goal 2 => exact Or.inl (by show _ + _ < _; omega))
  rw [canon_lanes_hit, k0_pay36_apply]
  exact sel0_apply x1 x2 (7 : Fin 16) c j

theorem halo0_slab6 (x1 : Vec Ideal S1x32x32768 .f32) (x2 : Vec Ideal S1024x256 .bf16) (c : Fin 32) (j : Fin 256) :
    halo0 x1 x2 (ix2 c ⟨1920 + j.val, by omega⟩) = selv x1 x2 (6 : Fin 16) c j := by
  unfold halo0
  repeat (rw [canon_cons_lanes]; on_goal 2 => exact Or.inl (by show _ + _ < _; omega))
  rw [canon_lanes_hit, k0_pay35_apply]
  exact sel0_apply x1 x2 (6 : Fin 16) c j

theorem halo0_slab5 (x1 : Vec Ideal S1x32x32768 .f32) (x2 : Vec Ideal S1024x256 .bf16) (c : Fin 32) (j : Fin 256) :
    halo0 x1 x2 (ix2 c ⟨1664 + j.val, by omega⟩) = selv x1 x2 (5 : Fin 16) c j := by
  unfold halo0
  repeat (rw [canon_cons_lanes]; on_goal 2 => exact Or.inl (by show _ + _ < _; omega))
  rw [canon_lanes_hit, k0_pay34_apply]
  exact sel0_apply x1 x2 (5 : Fin 16) c j

theorem halo0_slab4 (x1 : Vec Ideal S1x32x32768 .f32) (x2 : Vec Ideal S1024x256 .bf16) (c : Fin 32) (j : Fin 256) :
    halo0 x1 x2 (ix2 c ⟨1408 + j.val, by omega⟩) = selv x1 x2 (4 : Fin 16) c j := by
  unfold halo0
  repeat (rw [canon_cons_lanes]; on_goal 2 => exact Or.inl (by show _ + _ < _; omega))
  rw [canon_lanes_hit, k0_pay33_apply, k0_pay32_apply]
  exact sel0_apply x1 x2 (4 : Fin 16) c j

theorem halo0_slab3 (x1 : Vec Ideal S1x32x32768 .f32) (x2 : Vec Ideal S1024x256 .bf16) (c : Fin 32) (j : Fin 256) :
    halo0 x1 x2 (ix2 c ⟨1152 + j.val, by omega⟩) = selv x1 x2 (3 : Fin 16) c j := by
  unfold halo0
  repeat (rw [canon_cons_lanes]; on_goal 2 => exact Or.inl (by show _ + _ < _; omega))
  rw [canon_lanes_hit, k0_pay31_apply]
  exact sel0_apply x1 x2 (3 : Fin 16) c j

theorem halo0_slab2 (x1 : Vec Ideal S1x32x32768 .f32) (x2 : Vec Ideal S1024x256 .bf16) (c : Fin 32) (j : Fin 256) :
    halo0 x1 x2 (ix2 c ⟨896 + j.val, by omega⟩) = selv x1 x2 (2 : Fin 16) c j := by
  unfold halo0
  repeat (rw [canon_cons_lanes]; on_goal 2 => exact Or.inl (by show _ + _ < _; omega))
  rw [canon_lanes_hit, k0_pay30_apply]
  exact sel0_apply x1 x2 (2 : Fin 16) c j

theorem halo0_slab1 (x1 : Vec Ideal S1x32x32768 .f32) (x2 : Vec Ideal S1024x256 .bf16) (c : Fin 32) (j : Fin 256) :
    halo0 x1 x2 (ix2 c ⟨640 + j.val, by omega⟩) = selv x1 x2 (1 : Fin 16) c j := by
  unfold halo0
  repeat (rw [canon_cons_lanes]; on_goal 2 => exact Or.inl (by show _ + _ < _; omega))
  rw [canon_lanes_hit, k0_pay29_apply]
  exact sel0_apply x1 x2 (1 : Fin 16) c j

theorem halo0_slab0 (x1 : Vec Ideal S1x32x32768 .f32) (x2 : Vec Ideal S1024x256 .bf16) (c : Fin 32) (j : Fin 256) :
    halo0 x1 x2 (ix2 c ⟨384 + j.val, by omega⟩) = selv x1 x2 (0 : Fin 16) c j := by
  unfold halo0
  repeat (rw [canon_cons_lanes]; on_goal 2 => exact Or.inl (by show _ + _ < _; omega))
  rw [canon_lanes_hit, k0_pay28_apply]
  exact sel0_apply x1 x2 (0 : Fin 16) c j

theorem halo0_head (x1 : Vec Ideal S1x32x32768 .f32) (x2 : Vec Ideal S1024x256 .bf16) (c : Fin 32) (j : Fin 384) :
    halo0 x1 x2 (ix2 c ⟨0 + j.val, by omega⟩) = 0 := by
  unfold halo0
  repeat (rw [canon_cons_lanes]; on_goal 2 => exact Or.inl (by show _ + _ < _; omega))
  rw [canon_lanes_hit, k0_pay27_apply]

def halov (x1 : Vec Ideal S1x32x32768 .f32) (x2 : Vec Ideal S1024x256 .bf16) (c : Fin 32) (p : Fin 4864) : EReal :=
  if h : 384 ≤ p.val ∧ p.val < 4480 then
    selv x1 x2 ⟨(p.val - 384) / 256, by omega⟩ c ⟨(p.val - 384) % 256, Nat.mod_lt _ (by omega)⟩
  else 0

theorem halov_slab (x1 : Vec Ideal S1x32x32768 .f32) (x2 : Vec Ideal S1024x256 .bf16) (c : Fin 32) (p : Fin 4864)
    (k : Fin 16) (j : Fin 256) (hp : p.val = 384 + 256 * k.val + j.val) : halov x1 x2 c p = selv x1 x2 k c j := by
  have hk := k.isLt
  have hj := j.isLt
  have h : 384 ≤ p.val ∧ p.val < 4480 := by omega
  unfold halov
  rw [dif_pos h]
  have e1 : (⟨(p.val - 384) / 256, by omega⟩ : Fin 16) = k := Fin.ext (by show (p.val - 384) / 256 = k.val; omega)
  have e2 : (⟨(p.val - 384) % 256, Nat.mod_lt _ (by omega)⟩ : Fin 256) = j := Fin.ext (by show (p.val - 384) % 256 = j.val; omega)
  rw [e1, e2]

theorem halo0_apply (x1 : Vec Ideal S1x32x32768 .f32) (x2 : Vec Ideal S1024x256 .bf16) (c : Fin 32) (p : Fin 4864) :
    halo0 x1 x2 (ix2 c p) = halov x1 x2 c p := by
  have hp := p.isLt
  by_cases h0 : p.val < 384
  · have e : p = ⟨0 + (⟨p.val, h0⟩ : Fin 384).val, by omega⟩ := Fin.ext (by show p.val = 0 + p.val; omega)
    rw [e, halo0_head x1 x2 c ⟨p.val, h0⟩]
    unfold halov
    rw [dif_neg (by show ¬(384 ≤ 0 + p.val ∧ 0 + p.val < 4480); omega)]
  · by_cases h1 : 4480 ≤ p.val
    · have e : p = ⟨4480 + (⟨p.val - 4480, by omega⟩ : Fin 384).val, by omega⟩ := Fin.ext (by show p.val = 4480 + (p.val - 4480); omega)
      rw [e, halo0_tail x1 x2 c ⟨p.val - 4480, by omega⟩]
      unfold halov
      rw [dif_neg (by show ¬(384 ≤ 4480 + (p.val - 4480) ∧ 4480 + (p.val - 4480) < 4480); omega)]
    · obtain ⟨k, j, hkj⟩ : ∃ (k : Fin 16) (j : Fin 256), p.val = 384 + 256 * k.val + j.val :=
        ⟨⟨(p.val - 384) / 256, by omega⟩, ⟨(p.val - 384) % 256, Nat.mod_lt _ (by omega)⟩, by
          show p.val = 384 + 256 * ((p.val - 384) / 256) + (p.val - 384) % 256; omega⟩
      rw [halov_slab x1 x2 c p k j hkj]
      fin_cases k
      · have e : p = ⟨384 + j.val, by omega⟩ := Fin.ext (by show p.val = 384 + j.val; exact hkj)
        rw [e]; exact halo0_slab0 x1 x2 c j
      · have e : p = ⟨640 + j.val, by omega⟩ := Fin.ext (by show p.val = 640 + j.val; exact hkj)
        rw [e]; exact halo0_slab1 x1 x2 c j
      · have e : p = ⟨896 + j.val, by omega⟩ := Fin.ext (by show p.val = 896 + j.val; exact hkj)
        rw [e]; exact halo0_slab2 x1 x2 c j
      · have e : p = ⟨1152 + j.val, by omega⟩ := Fin.ext (by show p.val = 1152 + j.val; exact hkj)
        rw [e]; exact halo0_slab3 x1 x2 c j
      · have e : p = ⟨1408 + j.val, by omega⟩ := Fin.ext (by show p.val = 1408 + j.val; exact hkj)
        rw [e]; exact halo0_slab4 x1 x2 c j
      · have e : p = ⟨1664 + j.val, by omega⟩ := Fin.ext (by show p.val = 1664 + j.val; exact hkj)
        rw [e]; exact halo0_slab5 x1 x2 c j
      · have e : p = ⟨1920 + j.val, by omega⟩ := Fin.ext (by show p.val = 1920 + j.val; exact hkj)
        rw [e]; exact halo0_slab6 x1 x2 c j
      · have e : p = ⟨2176 + j.val, by omega⟩ := Fin.ext (by show p.val = 2176 + j.val; exact hkj)
        rw [e]; exact halo0_slab7 x1 x2 c j
      · have e : p = ⟨2432 + j.val, by omega⟩ := Fin.ext (by show p.val = 2432 + j.val; exact hkj)
        rw [e]; exact halo0_slab8 x1 x2 c j
      · have e : p = ⟨2688 + j.val, by omega⟩ := Fin.ext (by show p.val = 2688 + j.val; exact hkj)
        rw [e]; exact halo0_slab9 x1 x2 c j
      · have e : p = ⟨2944 + j.val, by omega⟩ := Fin.ext (by show p.val = 2944 + j.val; exact hkj)
        rw [e]; exact halo0_slab10 x1 x2 c j
      · have e : p = ⟨3200 + j.val, by omega⟩ := Fin.ext (by show p.val = 3200 + j.val; exact hkj)
        rw [e]; exact halo0_slab11 x1 x2 c j
      · have e : p = ⟨3456 + j.val, by omega⟩ := Fin.ext (by show p.val = 3456 + j.val; exact hkj)
        rw [e]; exact halo0_slab12 x1 x2 c j
      · have e : p = ⟨3712 + j.val, by omega⟩ := Fin.ext (by show p.val = 3712 + j.val; exact hkj)
        rw [e]; exact halo0_slab13 x1 x2 c j
      · have e : p = ⟨3968 + j.val, by omega⟩ := Fin.ext (by show p.val = 3968 + j.val; exact hkj)
        rw [e]; exact halo0_slab14 x1 x2 c j
      · have e : p = ⟨4224 + j.val, by omega⟩ := Fin.ext (by show p.val = 4224 + j.val; exact hkj)
        rw [e]; exact halo0_slab15 x1 x2 c j

end Cert.KernelIdeal.Value0

end
-- ==== Proof.KernelIdealValue0.lean ====
import proofs.«157750_g2000200144022539_pallasbulk_675_13_alg».proof.Proof.KernelIdealValue0a
import Idealize.ShloMosaic.Lib.Pipeline.Value
import Idealize.ShloMosaic.Lib.ValueIdx
import Idealize.ShloMosaic.Lib.ValueLayout
import Idealize.ShloMosaic.PureOps.Ideal.Laws
import Mathlib.Tactic.FinCases
import Mathlib.Tactic.IntervalCases
import Mathlib.Logic.Equiv.Fin.Basic
import Mathlib.Algebra.BigOperators.Fin

set_option maxRecDepth 16384

noncomputable section

namespace Cert.KernelIdeal.Value0

open Cert.KernelIdeal.Gen Cert.KernelIdeal.Body
open Idealize.ShloMosaic Idealize.ShloMosaic.ValueIdx
open scoped BigOperators

namespace Conv

theorem zeros3 : (![0, 0, 0] : Fin 3 → ℕ) = fun _ => 0 := by
  funext a; match a with | ⟨0, _⟩ => rfl | ⟨1, _⟩ => rfl | ⟨2, _⟩ => rfl

theorem ld_lane {Val : EltTy → Type} {e : EltTy} {n0 n1 m1 : ℕ} (X : (⟨2, ![n0, n1]⟩ : Shape).Idx → Val e) (o1 : ℕ)
    (inb : ∀ a, (![0, o1] : Fin 2 → ℕ) a + (![n0, m1] : Fin 2 → ℕ) a ≤ (⟨2, ![n0, n1]⟩ : Shape).size a)
    (a : Fin n0) (b : Fin m1) (h1 : o1 + b.val < n1) :
    View.ld X (Rect.unit (s := ⟨2, ![n0, n1]⟩) ![0, o1] ![n0, m1] inb) (ix2 a b) = X (ix2 a ⟨o1 + b.val, h1⟩) := by
  show X ((Rect.unit (s := ⟨2, ![n0, n1]⟩) ![0, o1] ![n0, m1] inb).idx (ix2 a b)) = _
  congr 1
  funext ax; apply Fin.ext
  match ax with
  | ⟨0, _⟩ => show 0 + 1 * a.val = a.val; omega
  | ⟨1, _⟩ => show o1 + 1 * b.val = o1 + b.val; omega

theorem ld_row {Val : EltTy → Type} {e : EltTy} {n0 n1 : ℕ} (X : (⟨2, ![n0, n1]⟩ : Shape).Idx → Val e) (o0 : ℕ)
    (inb : ∀ a, (![o0, 0] : Fin 2 → ℕ) a + (![1, n1] : Fin 2 → ℕ) a ≤ (⟨2, ![n0, n1]⟩ : Shape).size a)
    (u : Fin 1) (b : Fin n1) (h0 : o0 < n0) :
    View.ld X (Rect.unit (s := ⟨2, ![n0, n1]⟩) ![o0, 0] ![1, n1] inb) (ix2 u b) = X (ix2 ⟨o0, h0⟩ b) := by
  show X ((Rect.unit (s := ⟨2, ![n0, n1]⟩) ![o0, 0] ![1, n1] inb).idx (ix2 u b)) = _
  congr 1
  funext ax; apply Fin.ext
  match ax with
  | ⟨0, _⟩ => show o0 + 1 * u.val = o0; omega
  | ⟨1, _⟩ => show 0 + 1 * b.val = b.val; omega

theorem ld_lane' {Val : EltTy → Type} {e : EltTy} {n0 n1 m1 : ℕ} (X : (⟨2, ![n0, n1]⟩ : Shape).Idx → Val e) (o1 : ℕ)
    (inb : ∀ a, (![0, o1] : Fin 2 → ℕ) a + (![n0, m1] : Fin 2 → ℕ) a ≤ (⟨2, ![n0, n1]⟩ : Shape).size a)
    (a : Fin n0) (b : Fin m1) :
    View.ld X (Rect.unit (s := ⟨2, ![n0, n1]⟩) ![0, o1] ![n0, m1] inb) (ix2 a b)
      = X (ix2 a ⟨o1 + b.val, lt_of_lt_of_le (Nat.add_lt_add_left b.isLt o1) (inb 1 : o1 + m1 ≤ n1)⟩) :=
  ld_lane X o1 inb a b _

theorem ld_row' {Val : EltTy → Type} {e : EltTy} {n0 n1 : ℕ} (X : (⟨2, ![n0, n1]⟩ : Shape).Idx → Val e) (o0 : ℕ)
    (inb : ∀ a, (![o0, 0] : Fin 2 → ℕ) a + (![1, n1] : Fin 2 → ℕ) a ≤ (⟨2, ![n0, n1]⟩ : Shape).size a)
    (u : Fin 1) (b : Fin n1) :
    View.ld X (Rect.unit (s := ⟨2, ![n0, n1]⟩) ![o0, 0] ![1, n1] inb) (ix2 u b) = X (ix2 ⟨o0, (inb 0 : o0 + 1 ≤ n0)⟩ b) :=
  ld_row X o0 inb u b _

theorem ld_slab {Val : EltTy → Type} {e : EltTy} {n0 n1 n2 : ℕ} (X : (⟨3, ![n0, n1, n2]⟩ : Shape).Idx → Val e) (o0 : ℕ)
    (inb : ∀ a, (![o0, 0, 0] : Fin 3 → ℕ) a + (![1, n1, n2] : Fin 3 → ℕ) a ≤ (⟨3, ![n0, n1, n2]⟩ : Shape).size a)
    (u : Fin 1) (b : Fin n1) (c : Fin n2) (h0 : o0 < n0) :
    View.ld X (Rect.unit (s := ⟨3, ![n0, n1, n2]⟩) ![o0, 0, 0] ![1, n1, n2] inb) (ix3 u b c) = X (ix3 ⟨o0, h0⟩ b c) := by
  show X ((Rect.unit (s := ⟨3, ![n0, n1, n2]⟩) ![o0, 0, 0] ![1, n1, n2] inb).idx (ix3 u b c)) = _
  congr 1
  funext ax; apply Fin.ext
  match ax with
  | ⟨0, _⟩ => show o0 + 1 * u.val = o0; omega
  | ⟨1, _⟩ => show 0 + 1 * b.val = b.val; omega
  | ⟨2, _⟩ => show 0 + 1 * c.val = c.val; omega

theorem matmul_conv_apply (prec : Option ContractPrecision) (A : FVec Ideal S64x288 .bf16) (B : FVec Ideal S288x4096 .bf16)
    (acc : FVec Ideal S64x4096 .f32) (o : Fin 64) (m : Fin 4096) :
    matmul dot_S64x288_S288x4096_S64x4096_1_0_0_1_n_n prec A B acc (ix2 o m)
      = acc (ix2 o m) + ∑ k : Fin 288, A (ix2 o k) * B (ix2 k m) := by
  show FloatOps.matmul _ prec A B acc (ix2 o m) = _
  rw [Ideal.matmul_apply,
    ← Equiv.sum_comp (contrEquiv1 dot_S64x288_S288x4096_S64x4096_1_0_0_1_n_n 288 rfl rfl).symm]
  congr 1
  refine Finset.sum_congr rfl fun k _ => ?_
  have ck := contrEquiv1_symm_val dot_S64x288_S288x4096_S64x4096_1_0_0_1_n_n 288 rfl rfl k
  have l2 : dot_S64x288_S288x4096_S64x4096_1_0_0_1_n_n.lhsIdx (ix2 o m) ((contrEquiv1 _ 288 rfl rfl).symm k) = ix2 o k := by
    funext ax; apply Fin.ext
    match ax with
    | ⟨0, _⟩ => simp [DotDims.lhsIdx, dot_S64x288_S288x4096_S64x4096_1_0_0_1_n_n]; rfl
    | ⟨1, _⟩ => simp [DotDims.lhsIdx, dot_S64x288_S288x4096_S64x4096_1_0_0_1_n_n]; exact ck
  have r2 : dot_S64x288_S288x4096_S64x4096_1_0_0_1_n_n.rhsIdx (ix2 o m) ((contrEquiv1 _ 288 rfl rfl).symm k) = ix2 k m := by
    funext ax; apply Fin.ext
    match ax with
    | ⟨0, _⟩ => simp [DotDims.rhsIdx, dot_S64x288_S288x4096_S64x4096_1_0_0_1_n_n]; exact ck
    | ⟨1, _⟩ => simp [DotDims.rhsIdx, dot_S64x288_S288x4096_S64x4096_1_0_0_1_n_n]; rfl
  rw [l2, r2]

theorem k0_pay47_apply (v : Vec Ideal S32x4608 .bf16) (mk : Vec Ideal S1x4608 .bf16) (c : Fin 32) (j : Fin 4608) :
    k0_pay47 v mk (ix2 c j) = v (ix2 c j) * mk (ix2 (0 : Fin 1) j) := by
  unfold k0_pay47
  rw [shapeCast_self, mulf_apply, broadcastTo_1b_ab_apply, shapeCast_self]
theorem k0_pay48_apply (v : Vec Ideal S32x4608 .bf16) (mk : Vec Ideal S1x4608 .bf16) (c : Fin 32) (j : Fin 4608) :
    k0_pay48 v mk (ix2 c j) = v (ix2 c j) * mk (ix2 (0 : Fin 1) j) := by
  unfold k0_pay48
  rw [shapeCast_self, mulf_apply, broadcastTo_1b_ab_apply, shapeCast_self]
theorem k0_pay49_apply (v : Vec Ideal S32x4608 .bf16) (mk : Vec Ideal S1x4608 .bf16) (c : Fin 32) (j : Fin 4608) :
    k0_pay49 v mk (ix2 c j) = v (ix2 c j) * mk (ix2 (0 : Fin 1) j) := by
  unfold k0_pay49
  rw [shapeCast_self, mulf_apply, broadcastTo_1b_ab_apply, shapeCast_self]
theorem k0_pay50_apply (v : Vec Ideal S32x4608 .bf16) (mk : Vec Ideal S1x4608 .bf16) (c : Fin 32) (j : Fin 4608) :
    k0_pay50 v mk (ix2 c j) = v (ix2 c j) * mk (ix2 (0 : Fin 1) j) := by
  unfold k0_pay50
  rw [shapeCast_self, mulf_apply, broadcastTo_1b_ab_apply, shapeCast_self]
theorem k0_pay52_apply (v : Vec Ideal S32x4608 .bf16) (mk : Vec Ideal S1x4608 .bf16) (c : Fin 32) (j : Fin 4608) :
    k0_pay52 v mk (ix2 c j) = v (ix2 c j) * mk (ix2 (0 : Fin 1) j) := by
  unfold k0_pay52
  rw [shapeCast_self, mulf_apply, broadcastTo_1b_ab_apply, shapeCast_self]
theorem k0_pay55_apply (v : Vec Ideal S32x4608 .bf16) (mk : Vec Ideal S1x4608 .bf16) (c : Fin 32) (j : Fin 4608) :
    k0_pay55 v mk (ix2 c j) = v (ix2 c j) * mk (ix2 (0 : Fin 1) j) := by
  unfold k0_pay55
  rw [shapeCast_self, mulf_apply, broadcastTo_1b_ab_apply, shapeCast_self]
theorem k0_pay56_apply (v : Vec Ideal S32x4608 .bf16) (mk : Vec Ideal S1x4608 .bf16) (c : Fin 32) (j : Fin 4608) :
    k0_pay56 v mk (ix2 c j) = v (ix2 c j) * mk (ix2 (0 : Fin 1) j) := by
  unfold k0_pay56
  rw [shapeCast_self, mulf_apply, broadcastTo_1b_ab_apply, shapeCast_self]

theorem k0_pay51_apply (v : Vec Ideal S32x4608 .bf16) : k0_pay51 v = v := by
  unfold k0_pay51
  rw [shapeCast_self]

theorem k0_pay53_apply (v : Vec Ideal S32x4608 .bf16) (mk : Vec Ideal S1x4608 .bf16) (c : Fin 32) (j : Fin 4608) :
    k0_pay53 v mk (ix2 c j) = v (ix2 c j) * mk (ix2 (0 : Fin 1) j) := by
  unfold k0_pay53
  rw [mulf_apply, broadcastTo_1b_ab_apply, shapeCast_self]

theorem k0_pay54_apply (v : FVec Ideal S32x4608 .bf16) : k0_pay54 v = v := by
  unfold k0_pay54
  rw [shapeCast_self]

theorem k0_pay57_apply (w0 : Vec Ideal S1x64x288 .bf16) (c0 : Vec Ideal S288x4096 .bf16) (w1 : Vec Ideal S1x64x288 .bf16)
    (c1 : Vec Ideal S288x4096 .bf16) (o : Fin 64) (m : Fin 4096) :
    k0_pay57 w0 c0 w1 c1 (ix2 o m)
      = (∑ k : Fin 288, w0 (ix3 (0 : Fin 1) o k) * c0 (ix2 k m)) + ∑ k : Fin 288, w1 (ix3 (0 : Fin 1) o k) * c1 (ix2 k m) := by
  unfold k0_pay57
  rw [addf_apply, matmul_conv_apply, matmul_conv_apply, constant_apply, Ideal.ofBits_zero_f32, zero_add, zero_add]
  congr 1
  · refine Finset.sum_congr rfl fun k _ => ?_
    rw [shapeCast_1ab_ab_apply]
  · refine Finset.sum_congr rfl fun k _ => ?_
    rw [shapeCast_1ab_ab_apply]

theorem k0_pay58_apply (a : FVec Ideal S64x4096 .f32) (w2 : Vec Ideal S1x64x288 .bf16) (c2 : Vec Ideal S288x4096 .bf16)
    (o : Fin 64) (m : Fin 4096) :
    k0_pay58 a w2 c2 (ix2 o m) = a (ix2 o m) + ∑ k : Fin 288, w2 (ix3 (0 : Fin 1) o k) * c2 (ix2 k m) := by
  unfold k0_pay58
  rw [addf_apply, matmul_conv_apply, constant_apply, Ideal.ofBits_zero_f32, zero_add]
  congr 1
  refine Finset.sum_congr rfl fun k _ => ?_
  rw [shapeCast_1ab_ab_apply]

theorem ofBits_bf16_zero : Ideal.ofBits .bf16 0x0000#16 = 0 := by simp [Ideal.ofBits, Ideal.ieee]

theorem k0_pay59_apply (u : Fin 1) (o : Fin 64) (l : Fin 384) : (k0_pay59 (F := Ideal)) (ix3 u o l) = 0 := by
  unfold k0_pay59
  rw [shapeCast_ab_1ab_apply, broadcast_apply]
  exact ofBits_bf16_zero

theorem k0_pay60_apply (a : FVec Ideal S64x4096 .f32) (w2 : Vec Ideal S1x64x288 .bf16) (c2 : Vec Ideal S288x4096 .bf16)
    (u : Fin 1) (o : Fin 64) (m : Fin 4096) : k0_pay60 a w2 c2 (ix3 u o m) = k0_pay58 a w2 c2 (ix2 o m) := by
  unfold k0_pay60
  rw [shapeCast_ab_1ab_apply, truncf_apply]

theorem k0_pay61_apply (u : Fin 1) (o : Fin 64) (l : Fin 384) : (k0_pay61 (F := Ideal)) (ix3 u o l) = 0 := by
  unfold k0_pay61
  rw [shapeCast_ab_1ab_apply, broadcast_apply]
  exact ofBits_bf16_zero

theorem shapeCast_64_64x1_apply {α : Type} (x : S64.Idx → α) (h : S64.ShapeCasts S64x1) (o : Fin 64) (z : Fin 1) :
    shapeCast S64x1 x h (ix2 o z) = x (ix1 o) :=
  shapeCast_apply x h _ _ (by
    have hz : z.val = 0 := by omega
    rw [Shape.rowMajor_val_one, Shape.rowMajor_val_two]
    show o.val = o.val * 1 + z.val
    omega)

theorem lift_row (o : Fin 64) (m : Fin 4096) : reduces_S64x4096_S64.lift (ix1 o) m = ix2 o m := by
  funext ax; apply Fin.ext
  match ax with
  | ⟨0, _⟩ => rfl
  | ⟨1, _⟩ => rfl

theorem k0_pay62_apply (a : FVec Ideal S64x4096 .f32) (w2 : Vec Ideal S1x64x288 .bf16) (c2 : Vec Ideal S288x4096 .bf16)
    (u : Fin 1) (o : Fin 64) (z : Fin 1) : k0_pay62 a w2 c2 (ix3 u o z) = ∑ m : Fin 4096, k0_pay58 a w2 c2 (ix2 o m) := by
  unfold k0_pay62
  rw [shapeCast_ab_1ab_apply, shapeCast_64_64x1_apply]
  refine (Ideal.multiReduction_add_single _ _ reduces_S64x4096_S64 _ _ (ix1 o)).trans ?_
  refine Finset.sum_congr rfl fun m _ => ?_
  exact congrArg (k0_pay58 a w2 c2) (lift_row o m)

theorem k0_pay63_apply (a : FVec Ideal S64x4096 .f32) (w2 : Vec Ideal S1x64x288 .bf16) (c2 : Vec Ideal S288x4096 .bf16)
    (o : Fin 64) (z : Fin 1) :
    k0_pay63 a w2 c2 (ix2 o z) = ∑ m : Fin 4096, k0_pay58 a w2 c2 (ix2 o m) * k0_pay58 a w2 c2 (ix2 o m) := by
  unfold k0_pay63
  rw [shapeCast_64_64x1_apply]
  refine (Ideal.multiReduction_add_single _ _ reduces_S64x4096_S64 _ _ (ix1 o)).trans ?_
  refine Finset.sum_congr rfl fun m _ => ?_
  exact congrArg (fun i => k0_pay58 a w2 c2 i * k0_pay58 a w2 c2 i) (lift_row o m)

theorem k0_pay1_apply (v : FVec Ideal S64x1 .f32) (u : Fin 1) (o : Fin 64) (z : Fin 1) :
    k0_pay1 v (ix3 u o z) = v (ix2 o z) := by
  unfold k0_pay1
  rw [shapeCast_ab_1ab_apply]

theorem not_mem_band (o : ℕ) (inb : ∀ a, (![o, 0] : Fin 2 → ℕ) a + S32x4608.size a ≤ S288x4608.size a)
    (r : Fin 288) (j : Fin 4608) (h : r.val < o ∨ o + 32 ≤ r.val) :
    (ix2 r j : S288x4608.Idx) ∉ (Rect.unit (s := S288x4608) ![o, 0] S32x4608.size inb).set := by
  rw [Rect.mem_set_unit]
  intro hm
  have h0 : o ≤ r.val ∧ r.val < o + 32 := hm 0
  omega

theorem canon_cons_band (o : ℕ) (inb : ∀ a, (![o, 0] : Fin 2 → ℕ) a + S32x4608.size a ≤ S288x4608.size a)
    (w : (Rect.unit (s := S288x4608) ![o, 0] S32x4608.size inb).shape.Idx → Elt Ideal .bf16)
    (L : List (View.Piece (Elt Ideal) S288x4608 .bf16)) (r : Fin 288) (j : Fin 4608) (h : r.val < o ∨ o + 32 ≤ r.val) :
    View.canon ((⟨Rect.unit (s := S288x4608) ![o, 0] S32x4608.size inb, w⟩ : View.Piece (Elt Ideal) S288x4608 .bf16) :: L) (ix2 r j)
      = View.canon L (ix2 r j) :=
  View.canon_cons_of_not_mem _ _ (not_mem_band o inb r j h)

theorem canon_band_hit (o : ℕ) (inb : ∀ a, (![o, 0] : Fin 2 → ℕ) a + S32x4608.size a ≤ S288x4608.size a)
    (w : (Rect.unit (s := S288x4608) ![o, 0] S32x4608.size inb).shape.Idx → Elt Ideal .bf16)
    (L : List (View.Piece (Elt Ideal) S288x4608 .bf16)) (c : Fin 32) (j : Fin 4608) (h : o + c.val < 288) :
    View.canon ((⟨Rect.unit (s := S288x4608) ![o, 0] S32x4608.size inb, w⟩ : View.Piece (Elt Ideal) S288x4608 .bf16) :: L) (ix2 ⟨o + c.val, h⟩ j)
      = w (ix2 c j) := by
  have hemb : (ix2 ⟨o + c.val, h⟩ j : S288x4608.Idx) = (Rect.unit (s := S288x4608) ![o, 0] S32x4608.size inb).emb (ix2 c j) := by
    funext ax; apply Fin.ext
    match ax with
    | ⟨0, _⟩ => show o + c.val = o + 1 * c.val; omega
    | ⟨1, _⟩ => show j.val = 0 + 1 * j.val; omega
  rw [hemb, View.canon_cons_emb]

theorem not_mem_ylanes (o n : ℕ) (sz : Fin 3 → ℕ) (hn : sz 2 = n)
    (inb : ∀ a, (![0, 0, o] : Fin 3 → ℕ) a + sz a ≤ S1x64x4864.size a)
    (u : Fin 1) (c : Fin 64) (p : Fin 4864) (h : p.val < o ∨ o + n ≤ p.val) :
    (ix3 u c p : S1x64x4864.Idx) ∉ (Rect.unit (s := S1x64x4864) ![0, 0, o] sz inb).set := by
  rw [Rect.mem_set_unit]
  intro hm
  have h2 : o ≤ p.val ∧ p.val < o + sz 2 := hm 2
  omega

theorem canon_cons_ylanes (o n : ℕ) (sz : Fin 3 → ℕ) (hn : sz 2 = n)
    (inb : ∀ a, (![0, 0, o] : Fin 3 → ℕ) a + sz a ≤ S1x64x4864.size a)
    (w : (Rect.unit (s := S1x64x4864) ![0, 0, o] sz inb).shape.Idx → Elt Ideal .bf16)
    (L : List (View.Piece (Elt Ideal) S1x64x4864 .bf16)) (u : Fin 1) (c : Fin 64) (p : Fin 4864)
    (h : p.val < o ∨ o + n ≤ p.val) :
    View.canon ((⟨Rect.unit (s := S1x64x4864) ![0, 0, o] sz inb, w⟩ : View.Piece (Elt Ideal) S1x64x4864 .bf16) :: L) (ix3 u c p)
      = View.canon L (ix3 u c p) :=
  View.canon_cons_of_not_mem _ _ (not_mem_ylanes o n sz hn inb u c p h)

end Conv

open Conv

def tapOff (t : Fin 9) : ℕ := 111 + 16 * (t.val / 3) + t.val % 3

theorem tapOff_add_lt (t : Fin 9) (j : Fin 4608) : tapOff t + j.val < 4864 := by
  unfold tapOff; omega

def colv (x1 : Vec Ideal S1x32x32768 .f32) (x2 : Vec Ideal S1024x256 .bf16) (x4 : Vec Ideal S9x4608 .bf16) (t : Fin 9) (c : Fin 32) (j : Fin 4608) : EReal :=
  if t = 4 then halov x1 x2 c ⟨tapOff t + j.val, tapOff_add_lt t j⟩
  else halov x1 x2 c ⟨tapOff t + j.val, tapOff_add_lt t j⟩ * x4 (ix2 t j)

theorem cols0_apply (x1 : Vec Ideal S1x32x32768 .f32) (x2 : Vec Ideal S1024x256 .bf16) (x4 : Vec Ideal S9x4608 .bf16) (t : Fin 9) (c : Fin 32) (j : Fin 4608) :
    cols0 x1 x2 x4 (ix2 ⟨32 * t.val + c.val, by omega⟩ j) = colv x1 x2 x4 t c j := by
  unfold colv cols0
  rcases t with ⟨k, hk⟩
  dsimp only
  interval_cases k <;> simp only [Nat.reduceMul] <;>
  · repeat (rw [canon_cons_band]; on_goal 2 => exact Or.inl (by show _ + _ < _; omega))
    rw [canon_band_hit]
    first
      | rw [if_neg (show ¬ (⟨_, hk⟩ : Fin 9) = 4 by simp [Fin.ext_iff])]
        simp only [k0_pay47_apply, k0_pay48_apply, k0_pay49_apply, k0_pay50_apply, k0_pay52_apply, k0_pay53_apply, k0_pay54_apply, k0_pay55_apply, k0_pay56_apply]
        rw [ld_lane', ld_row', halo0_apply]
        simp only [tapOff, Fin.val_mk, Nat.reduceDiv, Nat.reduceMod, Nat.reduceMul, Nat.reduceAdd, Nat.add_zero]
      | rw [if_pos (show (⟨_, hk⟩ : Fin 9) = 4 from rfl), k0_pay51_apply, ld_lane', halo0_apply]
        simp only [tapOff, Fin.val_mk, Nat.reduceDiv, Nat.reduceMod, Nat.reduceMul, Nat.reduceAdd, Nat.add_zero]

def winLane (kd : Fin 3) (m : Fin 4096) : Fin 4608 := ⟨256 * kd.val + m.val, by omega⟩

def accv (x3 : Vec Ideal S3x64x288 .bf16) (C : Vec Ideal S288x4608 .bf16) (o : Fin 64) (m : Fin 4096) : EReal :=
  ∑ kd : Fin 3, ∑ k : Fin 288, x3 (ix3 kd o k) * C (ix2 k (winLane kd m))

theorem acc_apply (x3 : Vec Ideal S3x64x288 .bf16) (C : Vec Ideal S288x4608 .bf16) (o : Fin 64) (m : Fin 4096) :
    k0_pay58 (k0_pay57 (View.ld x3 rw0) (View.ld C rkd0) (View.ld x3 rw1) (View.ld C rkd1)) (View.ld x3 rw2) (View.ld C rkd2) (ix2 o m)
      = accv x3 C o m := by
  rw [k0_pay58_apply, k0_pay57_apply]
  unfold accv
  rw [Fin.sum_univ_three]
  congr 1
  · congr 1
    · refine Finset.sum_congr rfl fun k _ => ?_
      rw [ld_slab x3 0 _ (0 : Fin 1) o k (by omega), ld_lane C 0 _ k m (by omega)]
      all_goals rfl
    · refine Finset.sum_congr rfl fun k _ => ?_
      rw [ld_slab x3 1 _ (0 : Fin 1) o k (by omega), ld_lane C 256 _ k m (by omega)]
      all_goals rfl
  · refine Finset.sum_congr rfl fun k _ => ?_
    rw [ld_slab x3 2 _ (0 : Fin 1) o k (by omega), ld_lane C 512 _ k m (by omega)]
    all_goals rfl

theorem sum_rows (f : Fin 288 → EReal) :
    ∑ k : Fin 288, f k = ∑ t : Fin 9, ∑ c : Fin 32, f ⟨32 * t.val + c.val, by omega⟩ := by
  rw [← Equiv.sum_comp (finProdFinEquiv (m := 9) (n := 32)) f, Fintype.sum_prod_type]
  refine Finset.sum_congr rfl fun t _ => Finset.sum_congr rfl fun c _ => ?_
  congr 1
  apply Fin.ext
  show c.val + 32 * t.val = 32 * t.val + c.val
  omega

theorem accv_taps (x1 : Vec Ideal S1x32x32768 .f32) (x2 : Vec Ideal S1024x256 .bf16) (x3 : Vec Ideal S3x64x288 .bf16) (x4 : Vec Ideal S9x4608 .bf16) (o : Fin 64) (m : Fin 4096) :
    accv x3 (cols0 x1 x2 x4) o m
      = ∑ kd : Fin 3, ∑ t : Fin 9, ∑ c : Fin 32,
          x3 (ix3 kd o ⟨32 * t.val + c.val, by omega⟩) * colv x1 x2 x4 t c (winLane kd m) := by
  unfold accv
  refine Finset.sum_congr rfl fun kd _ => ?_
  rw [sum_rows]
  refine Finset.sum_congr rfl fun t _ => Finset.sum_congr rfl fun c _ => ?_
  rw [cols0_apply]

theorem out0_4_apply_mid (x1 : Vec Ideal S1x32x32768 .f32) (x2 : Vec Ideal S1024x256 .bf16) (x3 : Vec Ideal S3x64x288 .bf16) (x4 : Vec Ideal S9x4608 .bf16) (u : Fin 1) (o : Fin 64) (m : Fin 4096) :
    out0_4 x1 x2 x3 x4 (ix3 u o ⟨384 + m.val, by omega⟩) = accv x3 (cols0 x1 x2 x4) o m := by
  have hemb : (ix3 u o (⟨384 + m.val, by omega⟩ : Fin 4864) : S1x64x4864.Idx) = ryMid.emb (ix3 u o m) := by
    funext ax; apply Fin.ext
    match ax with
    | ⟨0, _⟩ => show u.val = 0 + 1 * u.val; omega
    | ⟨1, _⟩ => show o.val = 0 + 1 * o.val; omega
    | ⟨2, _⟩ => show 384 + m.val = 384 + 1 * m.val; omega
  unfold out0_4 acc01
  rw [canon_cons_ylanes 4480 384 S1x64x384.size rfl _ _ _ u o ⟨384 + m.val, by omega⟩ (Or.inl (by show 384 + m.val < 4480; omega))]
  rw [hemb, View.canon_cons_emb, k0_pay60_apply, acc_apply]

set_option maxRecDepth 65536 in

theorem out0_4_apply_halo (x1 : Vec Ideal S1x32x32768 .f32) (x2 : Vec Ideal S1024x256 .bf16) (x3 : Vec Ideal S3x64x288 .bf16) (x4 : Vec Ideal S9x4608 .bf16) (u : Fin 1) (o : Fin 64) (p : Fin 4864)
    (h : p.val < 384 ∨ 4480 ≤ p.val) : out0_4 x1 x2 x3 x4 (ix3 u o p) = 0 := by
  unfold out0_4
  rcases h with h | h
  · have hemb : (ix3 u o p : S1x64x4864.Idx) = ryHead.emb (ix3 u o (⟨p.val, h⟩ : Fin 384)) := by
      funext ax; apply Fin.ext
      match ax with
      | ⟨0, _⟩ => show u.val = 0 + 1 * u.val; omega
      | ⟨1, _⟩ => show o.val = 0 + 1 * o.val; omega
      | ⟨2, _⟩ => show p.val = 0 + 1 * p.val; omega
    rw [canon_cons_ylanes 4480 384 S1x64x384.size rfl _ _ _ u o p (Or.inl (by omega)),
      canon_cons_ylanes 384 4096 S1x64x4096.size rfl _ _ _ u o p (Or.inl h)]
    rw [hemb, View.canon_cons_emb, k0_pay59_apply]
  · have hlt : p.val - 4480 < 384 := by omega
    have hemb : (ix3 u o p : S1x64x4864.Idx) = ryTail.emb (ix3 u o (⟨p.val - 4480, hlt⟩ : Fin 384)) := by
      funext ax; apply Fin.ext
      match ax with
      | ⟨0, _⟩ => show u.val = 0 + 1 * u.val; omega
      | ⟨1, _⟩ => show o.val = 0 + 1 * o.val; omega
      | ⟨2, _⟩ => show p.val = 4480 + 1 * (p.val - 4480); omega
    rw [hemb, View.canon_cons_emb, k0_pay61_apply]

theorem out0_4_apply (x1 : Vec Ideal S1x32x32768 .f32) (x2 : Vec Ideal S1024x256 .bf16) (x3 : Vec Ideal S3x64x288 .bf16) (x4 : Vec Ideal S9x4608 .bf16) (u : Fin 1) (o : Fin 64) (p : Fin 4864) :
    out0_4 x1 x2 x3 x4 (ix3 u o p)
      = if h : 384 ≤ p.val ∧ p.val < 4480 then accv x3 (cols0 x1 x2 x4) o ⟨p.val - 384, by omega⟩ else 0 := by
  by_cases h : 384 ≤ p.val ∧ p.val < 4480
  · rw [dif_pos h]
    have hm : p.val - 384 < 4096 := by omega
    have hp : p = (⟨384 + (⟨p.val - 384, hm⟩ : Fin 4096).val, by show 384 + (p.val - 384) < 4864; omega⟩ : Fin 4864) :=
      Fin.ext (by show p.val = 384 + (p.val - 384); omega)
    exact (congrArg (fun q => out0_4 x1 x2 x3 x4 (ix3 u o q)) hp).trans
      (out0_4_apply_mid x1 x2 x3 x4 u o ⟨p.val - 384, hm⟩)
  · rw [dif_neg h]
    exact out0_4_apply_halo x1 x2 x3 x4 u o p (by omega)

theorem out0_5_apply (x1 : Vec Ideal S1x32x32768 .f32) (x2 : Vec Ideal S1024x256 .bf16) (x3 : Vec Ideal S3x64x288 .bf16) (x4 : Vec Ideal S9x4608 .bf16) (u : Fin 1) (o : Fin 64) (z : Fin 1) :
    out0_5 x1 x2 x3 x4 (ix3 u o z) = ∑ m : Fin 4096, accv x3 (cols0 x1 x2 x4) o m := by
  unfold out0_5 acc01
  rw [View.canon_unit_zero zeros3, k0_pay62_apply]
  exact Finset.sum_congr rfl fun m _ => acc_apply x3 _ o m

theorem out0_6_apply (x1 : Vec Ideal S1x32x32768 .f32) (x2 : Vec Ideal S1024x256 .bf16) (x3 : Vec Ideal S3x64x288 .bf16) (x4 : Vec Ideal S9x4608 .bf16) (u : Fin 1) (o : Fin 64) (z : Fin 1) :
    out0_6 x1 x2 x3 x4 (ix3 u o z)
      = ∑ m : Fin 4096, accv x3 (cols0 x1 x2 x4) o m * accv x3 (cols0 x1 x2 x4) o m := by
  unfold out0_6 acc01
  rw [View.canon_unit_zero zeros3, k0_pay1_apply, k0_pay63_apply]
  exact Finset.sum_congr rfl fun m _ => by rw [acc_apply]

end Cert.KernelIdeal.Value0

end
-- ==== Proof.ReferenceIdealValue1.lean ====
import proofs.«157750_g2000200144022539_pallasbulk_675_13_alg».proof.Proof.ReferenceIdealBody1
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws
import Mathlib.Tactic.FinCases
import Mathlib.Logic.Equiv.Fin.Basic
import Mathlib.Algebra.BigOperators.Fin

set_option maxRecDepth 16384

noncomputable section

namespace Cert.ReferenceIdeal.Value1

open Cert.ReferenceIdeal.Gen Cert.ReferenceIdeal.Body
open Idealize.ShloMosaic Idealize.ShloMosaic.ValueIdx
open scoped BigOperators

theorem zeros3 : (![0, 0, 0] : Fin 3 → ℕ) = fun _ => 0 := by
  funext a; match a with | ⟨0, _⟩ => rfl | ⟨1, _⟩ => rfl | ⟨2, _⟩ => rfl

theorem zeros2 : (![0, 0] : Fin 2 → ℕ) = fun _ => 0 := by
  funext a; match a with | ⟨0, _⟩ => rfl | ⟨1, _⟩ => rfl

theorem ld_lane {Val : EltTy → Type} {e : EltTy} {n0 n1 m1 : ℕ} (X : (⟨2, ![n0, n1]⟩ : Shape).Idx → Val e) (o1 : ℕ)
    (inb : ∀ a, (![0, o1] : Fin 2 → ℕ) a + (![n0, m1] : Fin 2 → ℕ) a ≤ (⟨2, ![n0, n1]⟩ : Shape).size a)
    (a : Fin n0) (b : Fin m1) (h1 : o1 + b.val < n1) :
    View.ld X (Rect.unit (s := ⟨2, ![n0, n1]⟩) ![0, o1] ![n0, m1] inb) (ix2 a b) = X (ix2 a ⟨o1 + b.val, h1⟩) := by
  show X ((Rect.unit (s := ⟨2, ![n0, n1]⟩) ![0, o1] ![n0, m1] inb).idx (ix2 a b)) = _
  congr 1
  funext ax; apply Fin.ext
  match ax with
  | ⟨0, _⟩ => show 0 + 1 * a.val = a.val; omega
  | ⟨1, _⟩ => show o1 + 1 * b.val = o1 + b.val; omega

theorem ld_row {Val : EltTy → Type} {e : EltTy} {n0 n1 : ℕ} (X : (⟨2, ![n0, n1]⟩ : Shape).Idx → Val e) (o0 : ℕ)
    (inb : ∀ a, (![o0, 0] : Fin 2 → ℕ) a + (![1, n1] : Fin 2 → ℕ) a ≤ (⟨2, ![n0, n1]⟩ : Shape).size a)
    (u : Fin 1) (b : Fin n1) (h0 : o0 < n0) :
    View.ld X (Rect.unit (s := ⟨2, ![n0, n1]⟩) ![o0, 0] ![1, n1] inb) (ix2 u b) = X (ix2 ⟨o0, h0⟩ b) := by
  show X ((Rect.unit (s := ⟨2, ![n0, n1]⟩) ![o0, 0] ![1, n1] inb).idx (ix2 u b)) = _
  congr 1
  funext ax; apply Fin.ext
  match ax with
  | ⟨0, _⟩ => show o0 + 1 * u.val = o0; omega
  | ⟨1, _⟩ => show 0 + 1 * b.val = b.val; omega

theorem k1_pay2_apply (v0 : Vec Ideal S1x32x4864 .f32) (v2 : Vec Ideal S1x4864 .f32) (c : Fin 32) (p : Fin 4864) :
    k1_pay2 v0 v2 (ix2 c p) = v0 (ix3 (0 : Fin 1) c p) * v2 (ix2 (0 : Fin 1) p) := by
  unfold k1_pay2
  rw [shapeCast_self, mulf_apply, shapeCast_1ab_ab_apply, broadcastTo_1b_ab_apply, shapeCast_self]

theorem k1_pay3_apply (v : Vec Ideal S32x4096 .f32) (mk : Vec Ideal S1x4096 .f32) (c : Fin 32) (j : Fin 4096) :
    k1_pay3 v mk (ix2 c j) = v (ix2 c j) * mk (ix2 (0 : Fin 1) j) := by
  unfold k1_pay3
  rw [shapeCast_self, mulf_apply, broadcastTo_1b_ab_apply, shapeCast_self]
-- A product accumulated into zeros is the plain product: entrywise, the sum over the contracted index.
theorem k1_pay37_apply (v225 : Vec Ideal S64x864 .f32) (v227 : Vec Ideal S864x4096 .f32) (o : Fin 64) (m : Fin 4096) :
    k1_pay37 v225 v227 (ix2 o m) = ∑ r : Fin 864, v225 (ix2 o r) * v227 (ix2 r m) := by
  unfold k1_pay37
  rw [shapeCast_self, matmul_zero_eq_dotGeneral]
  exact StackMember.dotGeneral_plain_apply none v225 v227 o m

theorem k1_pay38_apply (u : Fin 1) (o : Fin 64) (l : Fin 384) : (k1_pay38 (F := Ideal)) (ix3 u o l) = 0 := by
  unfold k1_pay38
  rw [shapeCast_ab_1ab_apply, broadcast_apply]
  exact Ideal.ofBits_zero_f32

theorem k1_pay39_apply (v225 : Vec Ideal S64x864 .f32) (v227 : Vec Ideal S864x4096 .f32) (u : Fin 1) (o : Fin 64) (m : Fin 4096) :
    k1_pay39 v225 v227 (ix3 u o m) = k1_pay37 v225 v227 (ix2 o m) := by
  unfold k1_pay39
  rw [shapeCast_ab_1ab_apply]

theorem k1_pay40_apply (u : Fin 1) (o : Fin 64) (l : Fin 384) : (k1_pay40 (F := Ideal)) (ix3 u o l) = 0 := by
  unfold k1_pay40
  rw [shapeCast_ab_1ab_apply, broadcast_apply]
  exact Ideal.ofBits_zero_f32

theorem shapeCast_64_64x1_apply {α : Type} (x : S64.Idx → α) (h : S64.ShapeCasts S64x1) (o : Fin 64) (z : Fin 1) :
    shapeCast S64x1 x h (ix2 o z) = x (ix1 o) :=
  shapeCast_apply x h _ _ (by
    have hz : z.val = 0 := by omega
    rw [Shape.rowMajor_val_one, Shape.rowMajor_val_two]
    show o.val = o.val * 1 + z.val
    omega)

theorem lift_row (o : Fin 64) (m : Fin 4096) : reduces_S64x4096_S64.lift (ix1 o) m = ix2 o m := by
  funext ax; apply Fin.ext
  match ax with
  | ⟨0, _⟩ => rfl
  | ⟨1, _⟩ => rfl

theorem k1_pay41_apply (v225 : Vec Ideal S64x864 .f32) (v227 : Vec Ideal S864x4096 .f32) (u : Fin 1) (o : Fin 64) (z : Fin 1) :
    k1_pay41 v225 v227 (ix3 u o z) = ∑ m : Fin 4096, k1_pay37 v225 v227 (ix2 o m) := by
  unfold k1_pay41
  rw [shapeCast_ab_1ab_apply, shapeCast_64_64x1_apply]
  refine (Ideal.multiReduction_add_single _ _ reduces_S64x4096_S64 _ _ (ix1 o)).trans ?_
  refine Finset.sum_congr rfl fun m _ => ?_
  exact congrArg (k1_pay37 v225 v227) (lift_row o m)

theorem k1_pay42_apply (v225 : Vec Ideal S64x864 .f32) (v227 : Vec Ideal S864x4096 .f32) (o : Fin 64) (z : Fin 1) :
    k1_pay42 v225 v227 (ix2 o z) = ∑ m : Fin 4096, k1_pay37 v225 v227 (ix2 o m) * k1_pay37 v225 v227 (ix2 o m) := by
  unfold k1_pay42
  rw [shapeCast_64_64x1_apply]
  refine (Ideal.multiReduction_add_single _ _ reduces_S64x4096_S64 _ _ (ix1 o)).trans ?_
  refine Finset.sum_congr rfl fun m _ => ?_
  exact congrArg (fun i => k1_pay37 v225 v227 i * k1_pay37 v225 v227 i) (lift_row o m)

theorem k1_pay1_apply (v247 : FVec Ideal S64x1 .f32) (u : Fin 1) (o : Fin 64) (z : Fin 1) :
    k1_pay1 v247 (ix3 u o z) = v247 (ix2 o z) := by
  unfold k1_pay1
  rw [shapeCast_ab_1ab_apply]

def act (x1 : Vec Ideal S1x32x4864 .f32) (x5 : Vec Ideal S1x4864 .f32) (c : Fin 32) (p : Fin 4864) : EReal :=
  x1 (ix3 (0 : Fin 1) c p) * x5 (ix2 (0 : Fin 1) p)

theorem xs1_apply (x1 : Vec Ideal S1x32x4864 .f32) (x5 : Vec Ideal S1x4864 .f32) (c : Fin 32) (p : Fin 4864) : xs1 x1 x5 (ix2 c p) = act x1 x5 c p := by
  unfold xs1 act
  rw [View.canon_unit_zero zeros2, View.ld_unit_zero zeros3, View.ld_unit_zero zeros2, k1_pay2_apply]

theorem not_mem_band {R H C : ℕ} (o : ℕ) (inb : ∀ a, (![o, 0] : Fin 2 → ℕ) a + (![H, C] : Fin 2 → ℕ) a ≤ (⟨2, ![R, C]⟩ : Shape).size a)
    (r : Fin R) (j : Fin C) (h : r.val < o ∨ o + H ≤ r.val) :
    (ix2 r j : (⟨2, ![R, C]⟩ : Shape).Idx) ∉ (Rect.unit (s := ⟨2, ![R, C]⟩) ![o, 0] ![H, C] inb).set := by
  rw [Rect.mem_set_unit]
  intro hm
  have h0 : o ≤ r.val ∧ r.val < o + H := hm 0
  omega

-- A store to rows o … o + H - 1 leaves what is read at any row outside them unchanged.
theorem canon_cons_band {R H C : ℕ} (o : ℕ) (inb : ∀ a, (![o, 0] : Fin 2 → ℕ) a + (![H, C] : Fin 2 → ℕ) a ≤ (⟨2, ![R, C]⟩ : Shape).size a)
    (w : (Rect.unit (s := ⟨2, ![R, C]⟩) ![o, 0] ![H, C] inb).shape.Idx → Elt Ideal .f32)
    (L : List (View.Piece (Elt Ideal) ⟨2, ![R, C]⟩ .f32)) (r : Fin R) (j : Fin C) (h : r.val < o ∨ o + H ≤ r.val) :
    View.canon ((⟨Rect.unit (s := ⟨2, ![R, C]⟩) ![o, 0] ![H, C] inb, w⟩ : View.Piece (Elt Ideal) ⟨2, ![R, C]⟩ .f32) :: L) (ix2 r j)
      = View.canon L (ix2 r j) :=
  View.canon_cons_of_not_mem _ _ (not_mem_band o inb r j h)

-- Row o + c, lane j is the image of (c, j) in the band at rows o …, so the band's payload is read there: lane p + j of X times row m of the masks.
theorem tap_hit {R H : ℕ} (pay : Vec Ideal ⟨2, ![H, 4096]⟩ .f32 → Vec Ideal S1x4096 .f32 → FVec Ideal ⟨2, ![H, 4096]⟩ .f32)
    (hpay : ∀ v mk (c : Fin H) (j : Fin 4096), pay v mk (ix2 c j) = v (ix2 c j) * mk (ix2 (0 : Fin 1) j))
    (X : Vec Ideal ⟨2, ![H, 4864]⟩ .f32) (x6 : Vec Ideal S9x4096 .f32) (o p m : ℕ)
    (inb : ∀ a, (![o, 0] : Fin 2 → ℕ) a + (![H, 4096] : Fin 2 → ℕ) a ≤ (⟨2, ![R, 4096]⟩ : Shape).size a)
    (inb1 : ∀ a, (![0, p] : Fin 2 → ℕ) a + (![H, 4096] : Fin 2 → ℕ) a ≤ (⟨2, ![H, 4864]⟩ : Shape).size a)
    (inb2 : ∀ a, (![m, 0] : Fin 2 → ℕ) a + S1x4096.size a ≤ S9x4096.size a)
    (L : List (View.Piece (Elt Ideal) ⟨2, ![R, 4096]⟩ .f32)) (c : Fin H) (j : Fin 4096)
    (h : o + c.val < R) (hp : p + j.val < 4864) (hm : m < 9) :
    View.canon ((⟨Rect.unit (s := ⟨2, ![R, 4096]⟩) ![o, 0] ![H, 4096] inb,
        pay (View.ld X (Rect.unit (s := ⟨2, ![H, 4864]⟩) ![0, p] ![H, 4096] inb1))
          (View.ld x6 (Rect.unit (s := S9x4096) ![m, 0] S1x4096.size inb2))⟩ : View.Piece (Elt Ideal) ⟨2, ![R, 4096]⟩ .f32) :: L)
        (ix2 ⟨o + c.val, h⟩ j)
      = X (ix2 c ⟨p + j.val, hp⟩) * x6 (ix2 ⟨m, hm⟩ j) := by
  have hemb : (ix2 ⟨o + c.val, h⟩ j : (⟨2, ![R, 4096]⟩ : Shape).Idx) = (Rect.unit (s := ⟨2, ![R, 4096]⟩) ![o, 0] ![H, 4096] inb).emb (ix2 c j) := by
    funext ax; apply Fin.ext
    match ax with
    | ⟨0, _⟩ => show o + c.val = o + 1 * c.val; omega
    | ⟨1, _⟩ => show j.val = 0 + 1 * j.val; omega
  rw [hemb, View.canon_cons_emb, hpay, ld_lane X p _ c j hp, ld_row x6 m _ (0 : Fin 1) j hm]

def tapOff (t : Fin 27) : ℕ := 111 + 256 * (t.val / 9) + 16 * (t.val % 9 / 3) + t.val % 3

theorem tapOff_add_lt (t : Fin 27) (j : Fin 4096) : tapOff t + j.val < 4864 := by
  unfold tapOff; omega

def maskRow (t : Fin 27) : Fin 9 := ⟨t.val % 9, by omega⟩

def colv (x1 : Vec Ideal S1x32x4864 .f32) (x5 : Vec Ideal S1x4864 .f32) (x6 : Vec Ideal S9x4096 .f32) (t : Fin 27) (c : Fin 32) (j : Fin 4096) : EReal :=
  act x1 x5 c ⟨tapOff t + j.val, tapOff_add_lt t j⟩ * x6 (ix2 (maskRow t) j)

-- Tap by tap: every band stored after band t lies above row 32·t + c, and band t is read at its own rows.
theorem cols1_apply (x1 : Vec Ideal S1x32x4864 .f32) (x5 : Vec Ideal S1x4864 .f32) (x6 : Vec Ideal S9x4096 .f32) (t : Fin 27) (c : Fin 32) (j : Fin 4096) :
    cols1 x1 x5 x6 (ix2 ⟨32 * t.val + c.val, by omega⟩ j) = colv x1 x5 x6 t c j := by
  unfold colv cols1
  rw [← xs1_apply]
  fin_cases t <;>
    (repeat (rw [canon_cons_band]; on_goal 2 => exact Or.inl (by dsimp only; omega))
     exact tap_hit k1_pay3 k1_pay3_apply _ x6 _ _ _ _ _ _ _ c j _ _ _)

theorem cols1_apply_row (x1 : Vec Ideal S1x32x4864 .f32) (x5 : Vec Ideal S1x4864 .f32) (x6 : Vec Ideal S9x4096 .f32) (r : Fin 864) (j : Fin 4096) :
    cols1 x1 x5 x6 (ix2 r j) = colv x1 x5 x6 ⟨r.val / 32, by omega⟩ ⟨r.val % 32, by omega⟩ j := by
  have hr : r = (⟨32 * (r.val / 32) + r.val % 32, by omega⟩ : Fin 864) := Fin.ext (Nat.div_add_mod r.val 32).symm
  exact (congrArg (fun q => cols1 x1 x5 x6 (ix2 q j)) hr).trans
    (cols1_apply x1 x5 x6 ⟨r.val / 32, by omega⟩ ⟨r.val % 32, by omega⟩ j)

def accv (x2 : Vec Ideal S64x864 .f32) (C : Vec Ideal S864x4096 .f32) (o : Fin 64) (m : Fin 4096) : EReal :=
  ∑ r : Fin 864, x2 (ix2 o r) * C (ix2 r m)

theorem acc_apply (x2 : Vec Ideal S64x864 .f32) (C : Vec Ideal S864x4096 .f32) (o : Fin 64) (m : Fin 4096) :
    k1_pay37 (View.ld x2 (Rect.unit (s := S64x864) ![0, 0] S64x864.size inb_S64x864_S64x864_0_0)) (View.ld C (Rect.unit (s := S864x4096) ![0, 0] S864x4096.size inb_S864x4096_S864x4096_0_0)) (ix2 o m) = accv x2 C o m := by
  rw [k1_pay37_apply, View.ld_unit_zero zeros2, View.ld_unit_zero zeros2]
  rfl

theorem not_mem_lanes (o n : ℕ) (sz : Fin 3 → ℕ) (hn : sz 2 = n)
    (inb : ∀ a, (![0, 0, o] : Fin 3 → ℕ) a + sz a ≤ S1x64x4864.size a)
    (u : Fin 1) (c : Fin 64) (p : Fin 4864) (h : p.val < o ∨ o + n ≤ p.val) :
    (ix3 u c p : S1x64x4864.Idx) ∉ (Rect.unit (s := S1x64x4864) ![0, 0, o] sz inb).set := by
  rw [Rect.mem_set_unit]
  intro hm
  have h2 : o ≤ p.val ∧ p.val < o + sz 2 := hm 2
  omega

theorem canon_cons_lanes (o n : ℕ) (sz : Fin 3 → ℕ) (hn : sz 2 = n)
    (inb : ∀ a, (![0, 0, o] : Fin 3 → ℕ) a + sz a ≤ S1x64x4864.size a)
    (w : (Rect.unit (s := S1x64x4864) ![0, 0, o] sz inb).shape.Idx → Elt Ideal .f32)
    (L : List (View.Piece (Elt Ideal) S1x64x4864 .f32)) (u : Fin 1) (c : Fin 64) (p : Fin 4864)
    (h : p.val < o ∨ o + n ≤ p.val) :
    View.canon ((⟨Rect.unit (s := S1x64x4864) ![0, 0, o] sz inb, w⟩ : View.Piece (Elt Ideal) S1x64x4864 .f32) :: L) (ix3 u c p)
      = View.canon L (ix3 u c p) :=
  View.canon_cons_of_not_mem _ _ (not_mem_lanes o n sz hn inb u c p h)

theorem out1_6_apply_mid (x1 : Vec Ideal S1x32x4864 .f32) (x2 : Vec Ideal S64x864 .f32) (x5 : Vec Ideal S1x4864 .f32) (x6 : Vec Ideal S9x4096 .f32) (u : Fin 1) (o : Fin 64) (m : Fin 4096) :
    out1_6 x1 x2 x5 x6 (ix3 u o ⟨384 + m.val, by omega⟩) = accv x2 (cols1 x1 x5 x6) o m := by
  have hemb : (ix3 u o (⟨384 + m.val, by omega⟩ : Fin 4864) : S1x64x4864.Idx) = (Rect.unit (s := S1x64x4864) ![0, 0, 384] S1x64x4096.size inb_S1x64x4864_S1x64x4096_0_0_384).emb (ix3 u o m) := by
    funext ax; apply Fin.ext
    match ax with
    | ⟨0, _⟩ => show u.val = 0 + 1 * u.val; omega
    | ⟨1, _⟩ => show o.val = 0 + 1 * o.val; omega
    | ⟨2, _⟩ => show 384 + m.val = 384 + 1 * m.val; omega
  unfold out1_6
  rw [canon_cons_lanes 4480 384 S1x64x384.size rfl _ _ _ u o ⟨384 + m.val, by omega⟩ (Or.inl (by show 384 + m.val < 4480; omega))]
  rw [hemb, View.canon_cons_emb, k1_pay39_apply, acc_apply]

set_option maxRecDepth 65536 in

theorem out1_6_apply_halo (x1 : Vec Ideal S1x32x4864 .f32) (x2 : Vec Ideal S64x864 .f32) (x5 : Vec Ideal S1x4864 .f32) (x6 : Vec Ideal S9x4096 .f32) (u : Fin 1) (o : Fin 64) (p : Fin 4864)
    (h : p.val < 384 ∨ 4480 ≤ p.val) : out1_6 x1 x2 x5 x6 (ix3 u o p) = 0 := by
  unfold out1_6
  rcases h with h | h
  · have hemb : (ix3 u o p : S1x64x4864.Idx) = (Rect.unit (s := S1x64x4864) ![0, 0, 0] S1x64x384.size inb_S1x64x4864_S1x64x384_0_0_0).emb (ix3 u o (⟨p.val, h⟩ : Fin 384)) := by
      funext ax; apply Fin.ext
      match ax with
      | ⟨0, _⟩ => show u.val = 0 + 1 * u.val; omega
      | ⟨1, _⟩ => show o.val = 0 + 1 * o.val; omega
      | ⟨2, _⟩ => show p.val = 0 + 1 * p.val; omega
    rw [canon_cons_lanes 4480 384 S1x64x384.size rfl _ _ _ u o p (Or.inl (by omega)),
      canon_cons_lanes 384 4096 S1x64x4096.size rfl _ _ _ u o p (Or.inl h)]
    rw [hemb, View.canon_cons_emb, k1_pay38_apply]
  · have hlt : p.val - 4480 < 384 := by omega
    have hemb : (ix3 u o p : S1x64x4864.Idx) = (Rect.unit (s := S1x64x4864) ![0, 0, 4480] S1x64x384.size inb_S1x64x4864_S1x64x384_0_0_4480).emb (ix3 u o (⟨p.val - 4480, hlt⟩ : Fin 384)) := by
      funext ax; apply Fin.ext
      match ax with
      | ⟨0, _⟩ => show u.val = 0 + 1 * u.val; omega
      | ⟨1, _⟩ => show o.val = 0 + 1 * o.val; omega
      | ⟨2, _⟩ => show p.val = 4480 + 1 * (p.val - 4480); omega
    rw [hemb, View.canon_cons_emb, k1_pay40_apply]

theorem out1_7_apply (x1 : Vec Ideal S1x32x4864 .f32) (x2 : Vec Ideal S64x864 .f32) (x5 : Vec Ideal S1x4864 .f32) (x6 : Vec Ideal S9x4096 .f32) (u : Fin 1) (o : Fin 64) (z : Fin 1) :
    out1_7 x1 x2 x5 x6 (ix3 u o z) = ∑ m : Fin 4096, accv x2 (cols1 x1 x5 x6) o m := by
  unfold out1_7
  rw [View.canon_unit_zero zeros3, k1_pay41_apply]
  exact Finset.sum_congr rfl fun m _ => acc_apply x2 _ o m

theorem out1_8_apply (x1 : Vec Ideal S1x32x4864 .f32) (x2 : Vec Ideal S64x864 .f32) (x5 : Vec Ideal S1x4864 .f32) (x6 : Vec Ideal S9x4096 .f32) (u : Fin 1) (o : Fin 64) (z : Fin 1) :
    out1_8 x1 x2 x5 x6 (ix3 u o z)
      = ∑ m : Fin 4096, accv x2 (cols1 x1 x5 x6) o m * accv x2 (cols1 x1 x5 x6) o m := by
  unfold out1_8
  rw [View.canon_unit_zero zeros3, k1_pay1_apply, k1_pay42_apply]
  exact Finset.sum_congr rfl fun m _ => by rw [acc_apply]

theorem out1_6_apply_idx (x1 : Vec Ideal S1x32x4864 .f32) (x2 : Vec Ideal S64x864 .f32) (x5 : Vec Ideal S1x4864 .f32) (x6 : Vec Ideal S9x4096 .f32) (j : S1x64x4864.Idx) :
    out1_6 x1 x2 x5 x6 j
      = if h : 384 ≤ (j 2).val ∧ (j 2).val < 4480 then accv x2 (cols1 x1 x5 x6) (j 1) ⟨(j 2).val - 384, by omega⟩ else 0 := by
  obtain ⟨u, o, p, rfl⟩ : ∃ (u : Fin 1) (o : Fin 64) (p : Fin 4864), j = ix3 u o p := ⟨j 0, j 1, j 2, eq_ix3 j⟩
  show out1_6 x1 x2 x5 x6 (ix3 u o p)
      = if h : 384 ≤ p.val ∧ p.val < 4480 then accv x2 (cols1 x1 x5 x6) o ⟨p.val - 384, by omega⟩ else 0
  by_cases h : 384 ≤ p.val ∧ p.val < 4480
  · rw [dif_pos h]
    have hm : p.val - 384 < 4096 := by omega
    have hp : p = (⟨384 + (⟨p.val - 384, hm⟩ : Fin 4096).val, by show 384 + (p.val - 384) < 4864; omega⟩ : Fin 4864) :=
      Fin.ext (by show p.val = 384 + (p.val - 384); omega)
    exact (congrArg (fun q => out1_6 x1 x2 x5 x6 (ix3 u o q)) hp).trans
      (out1_6_apply_mid x1 x2 x5 x6 u o ⟨p.val - 384, hm⟩)
  · rw [dif_neg h]
    exact out1_6_apply_halo x1 x2 x5 x6 u o p (by omega)

end Cert.ReferenceIdeal.Value1

end
-- ==== Proof.ReferenceIdealValue0.lean ====
import proofs.«157750_g2000200144022539_pallasbulk_675_13_alg».proof.Proof.ReferenceIdealBody0
import proofs.«157750_g2000200144022539_pallasbulk_675_13_alg».proof.Proof.ReferenceIdealIdx
import Idealize.ShloMosaic.Lib.Pipeline.Value
import Idealize.ShloMosaic.Lib.ValueLayout
import Idealize.ShloMosaic.PureOps.Ideal.Laws

set_option maxRecDepth 16384

noncomputable section

namespace Cert.ReferenceIdeal.Body

open Cert.ReferenceIdeal Cert.ReferenceIdeal.Gen
open Idealize.ShloMosaic Idealize.ShloMosaic.ValueIdx
open Cert.ReferenceIdeal.Idx

theorem cast_slab_apply {α : Type} (v : S1x1x1x16x1x16x2.Idx → α) (hc : S1x1x1x16x1x16x2.ShapeCasts S16x16x2)
    (h w : Fin 16) (k : Fin 2) :
    shapeCast S16x16x2 v hc (ix3 h w k) = v (ix7 (0 : Fin 1) (0 : Fin 1) (0 : Fin 1) h (0 : Fin 1) w k) :=
  shapeCast_apply v hc _ _ (by
    rw [rowMajor_val_seven, Shape.rowMajor_val_three]
    show ((((((0 * 1 + 0) * 1 + 0) * 16 + h.val) * 1 + 0) * 16 + w.val) * 2 + k.val) = (h.val * 16 + w.val) * 2 + k.val
    omega)

theorem cast_trail_apply {α : Type} (v : S16x16.Idx → α) (hc : S16x16.ShapeCasts S16x16x1) (h w : Fin 16) (z : Fin 1) :
    shapeCast S16x16x1 v hc (ix3 h w z) = v (ix2 h w) :=
  shapeCast_apply v hc _ _ (by
    have hz : z.val = 0 := by omega
    rw [Shape.rowMajor_val_two, Shape.rowMajor_val_three]
    show h.val * 16 + w.val = (h.val * 16 + w.val) * 1 + z.val
    omega)

theorem cast_block_apply {α : Type} (v : S16x16x1.Idx → α) (hc : S16x16x1.ShapeCasts S1x1x16x16x1) (u q : Fin 1)
    (h w : Fin 16) (z : Fin 1) :
    shapeCast S1x1x16x16x1 v hc (ix5 u q h w z) = v (ix3 h w z) :=
  shapeCast_apply v hc _ _ (by
    have hu : u.val = 0 := by omega
    have hq : q.val = 0 := by omega
    rw [Shape.rowMajor_val_three, Shape.rowMajor_val_five]
    show (h.val * 16 + w.val) * 1 + z.val = ((((u.val * 1 + q.val) * 16 + h.val) * 16 + w.val) * 1 + z.val)
    omega)

theorem lift_hw (hr : S16x16x2.Reduces [2] S16x16) (h w : Fin 16) (k : Fin 2) :
    hr.lift (ix2 h w) k = ix3 h w k := by
  funext a; apply Fin.ext
  match a with
  | ⟨0, _⟩ => rfl
  | ⟨1, _⟩ => rfl
  | ⟨2, _⟩ => rfl

theorem fold_max_fin2 (b : EReal) (f : Fin 2 → EReal) :
    (Finset.univ : Finset (Fin 2)).fold max b f = max (f 0) (max (f 1) b) := by
  rw [show (Finset.univ : Finset (Fin 2)) = {0, 1} from by decide]
  rw [Finset.fold_insert (by decide), Finset.fold_singleton]

theorem ofBits_neg_inf_f32 : Ideal.ofBits .f32 0xFF800000#32 = ⊥ := by simp [Ideal.ofBits, Ideal.ieee]

theorem ld_slab_apply {Val : EltTy → Type} {e : EltTy} (x : S1x16x2x16x2x16x2.Idx → Val e) (d a b : ℕ) (hd : d < 16)
    (ha : a < 2) (hb : b < 2)
    (hin : ∀ k, (![0, d, a, 0, b, 0, 0] : Fin 7 → ℕ) k + S1x1x1x16x1x16x2.size k ≤ S1x16x2x16x2x16x2.size k)
    (h w : Fin 16) (k : Fin 2) :
    View.ld x (rI d a b hin) (ix7 (0 : Fin 1) (0 : Fin 1) (0 : Fin 1) h (0 : Fin 1) w k)
      = x (ix7 (0 : Fin 1) (⟨d, hd⟩ : Fin 16) (⟨a, ha⟩ : Fin 2) h (⟨b, hb⟩ : Fin 2) w k) := by
  show x _ = x _
  congr 1
  funext c; apply Fin.ext
  match c with
  | ⟨0, _⟩ => show 0 + 1 * 0 = 0; omega
  | ⟨1, _⟩ => show d + 1 * 0 = d; omega
  | ⟨2, _⟩ => show a + 1 * 0 = a; omega
  | ⟨3, _⟩ => show 0 + 1 * h.val = h.val; omega
  | ⟨4, _⟩ => show b + 1 * 0 = b; omega
  | ⟨5, _⟩ => show 0 + 1 * w.val = w.val; omega
  | ⟨6, _⟩ => show 0 + 1 * k.val = k.val; omega

def pool8 (x : Vec Ideal S1x16x2x16x2x16x2 .f32) (d h w : Fin 16) : EReal :=
  max
    (max (max (x (ix7 (0 : Fin 1) d (0 : Fin 2) h (0 : Fin 2) w (0 : Fin 2))) (x (ix7 (0 : Fin 1) d (0 : Fin 2) h (1 : Fin 2) w (0 : Fin 2))))
         (max (x (ix7 (0 : Fin 1) d (1 : Fin 2) h (0 : Fin 2) w (0 : Fin 2))) (x (ix7 (0 : Fin 1) d (1 : Fin 2) h (1 : Fin 2) w (0 : Fin 2)))))
    (max (max (x (ix7 (0 : Fin 1) d (0 : Fin 2) h (0 : Fin 2) w (1 : Fin 2))) (x (ix7 (0 : Fin 1) d (0 : Fin 2) h (1 : Fin 2) w (1 : Fin 2))))
         (max (x (ix7 (0 : Fin 1) d (1 : Fin 2) h (0 : Fin 2) w (1 : Fin 2))) (x (ix7 (0 : Fin 1) d (1 : Fin 2) h (1 : Fin 2) w (1 : Fin 2)))))

def pooled (x : Vec Ideal S1x16x2x16x2x16x2 .f32) : Vec Ideal S1x16x16x16x1 .f32 :=
  fun y => pool8 x (y 1) (y 2) (y 3)

theorem poolStep_apply (x : Vec Ideal S1x16x2x16x2x16x2 .f32) (d : ℕ) (hd : d < 16)
    (h00 : ∀ k, (![0, d, 0, 0, 0, 0, 0] : Fin 7 → ℕ) k + S1x1x1x16x1x16x2.size k ≤ S1x16x2x16x2x16x2.size k)
    (h01 : ∀ k, (![0, d, 0, 0, 1, 0, 0] : Fin 7 → ℕ) k + S1x1x1x16x1x16x2.size k ≤ S1x16x2x16x2x16x2.size k)
    (h10 : ∀ k, (![0, d, 1, 0, 0, 0, 0] : Fin 7 → ℕ) k + S1x1x1x16x1x16x2.size k ≤ S1x16x2x16x2x16x2.size k)
    (h11 : ∀ k, (![0, d, 1, 0, 1, 0, 0] : Fin 7 → ℕ) k + S1x1x1x16x1x16x2.size k ≤ S1x16x2x16x2x16x2.size k)
    (hO : ∀ k, (![0, d, 0, 0, 0] : Fin 5 → ℕ) k + S1x1x16x16x1.size k ≤ S1x16x16x16x1.size k)
    (j : (rO d hO).shape.Idx) :
    poolStep (View.ld x (rI d 0 0 h00)) (View.ld x (rI d 0 1 h01)) (View.ld x (rI d 1 0 h10)) (View.ld x (rI d 1 1 h11)) j
      = pooled x ((rO d hO).emb j) := by
  obtain ⟨u, q, h, w, z, rfl⟩ : ∃ (u q : Fin 1) (h w : Fin 16) (z : Fin 1), j = ix5 u q h w z :=
    ⟨j 0, j 1, j 2, j 3, j 4, eq_ix5 j⟩
  have hemb : (rO d hO).emb (ix5 u q h w z) = ix5 (0 : Fin 1) (⟨d, hd⟩ : Fin 16) h w (0 : Fin 1) := by
    funext c; apply Fin.ext
    match c with
    | ⟨0, _⟩ => show 0 + 1 * u.val = 0; omega
    | ⟨1, _⟩ => show d + 1 * q.val = d; omega
    | ⟨2, _⟩ => show 0 + 1 * h.val = h.val; omega
    | ⟨3, _⟩ => show 0 + 1 * w.val = w.val; omega
    | ⟨4, _⟩ => show 0 + 1 * z.val = 0; omega
  rw [hemb]
  unfold poolStep k0_pay2
  rw [cast_block_apply, cast_trail_apply]
  refine (Ideal.multiReduction_maximumf_single _ _ reduces_S16x16x2_S16x16 _ _ (ix2 h w)).trans ?_
  refine (fold_max_fin2 _ _).trans ?_
  simp only [Function.comp_def, lift_hw, maximumf_apply, cast_slab_apply, Ideal.ofBits_def, ofBits_neg_inf_f32,
    max_bot_right, ld_slab_apply x d 0 0 hd (by omega) (by omega), ld_slab_apply x d 0 1 hd (by omega) (by omega),
    ld_slab_apply x d 1 0 hd (by omega) (by omega), ld_slab_apply x d 1 1 hd (by omega) (by omega)]
  rfl

theorem out0_1_apply (x : Vec Ideal S1x16x2x16x2x16x2 .f32) (u : Fin 1) (d h w : Fin 16) (z : Fin 1) :
    out0_1 x (ix5 u d h w z) = pool8 x d h w := by
  unfold out0_1
  simp only [pay_d0, pay_d1, pay_d2, pay_d3, pay_d4, pay_d5, pay_d6, pay_d7, pay_d8, pay_d9, pay_d10, pay_d11,
    pay_d12, pay_d13, pay_d14, pay_d15]
  refine (View.canon_apply_of_pieces (pooled x) _ ?_ (ix5 u d h w z) (cover0_1 _ _ _ _ _ _ _ _ _ _ _ _ _ _ _ _ _)).trans rfl
  intro p hp
  simp only [List.mem_cons, List.not_mem_nil, or_false] at hp
  rcases hp with rfl | rfl | rfl | rfl | rfl | rfl | rfl | rfl | rfl | rfl | rfl | rfl | rfl | rfl | rfl | rfl
  · exact poolStep_apply x 15 (by omega) inb_S1x16x2x16x2x16x2_S1x1x1x16x1x16x2_0_15_0_0_0_0_0
      inb_S1x16x2x16x2x16x2_S1x1x1x16x1x16x2_0_15_0_0_1_0_0 inb_S1x16x2x16x2x16x2_S1x1x1x16x1x16x2_0_15_1_0_0_0_0
      inb_S1x16x2x16x2x16x2_S1x1x1x16x1x16x2_0_15_1_0_1_0_0 inb_S1x16x16x16x1_S1x1x16x16x1_0_15_0_0_0
  · exact poolStep_apply x 14 (by omega) inb_S1x16x2x16x2x16x2_S1x1x1x16x1x16x2_0_14_0_0_0_0_0
      inb_S1x16x2x16x2x16x2_S1x1x1x16x1x16x2_0_14_0_0_1_0_0 inb_S1x16x2x16x2x16x2_S1x1x1x16x1x16x2_0_14_1_0_0_0_0
      inb_S1x16x2x16x2x16x2_S1x1x1x16x1x16x2_0_14_1_0_1_0_0 inb_S1x16x16x16x1_S1x1x16x16x1_0_14_0_0_0
  · exact poolStep_apply x 13 (by omega) inb_S1x16x2x16x2x16x2_S1x1x1x16x1x16x2_0_13_0_0_0_0_0
      inb_S1x16x2x16x2x16x2_S1x1x1x16x1x16x2_0_13_0_0_1_0_0 inb_S1x16x2x16x2x16x2_S1x1x1x16x1x16x2_0_13_1_0_0_0_0
      inb_S1x16x2x16x2x16x2_S1x1x1x16x1x16x2_0_13_1_0_1_0_0 inb_S1x16x16x16x1_S1x1x16x16x1_0_13_0_0_0
  · exact poolStep_apply x 12 (by omega) inb_S1x16x2x16x2x16x2_S1x1x1x16x1x16x2_0_12_0_0_0_0_0
      inb_S1x16x2x16x2x16x2_S1x1x1x16x1x16x2_0_12_0_0_1_0_0 inb_S1x16x2x16x2x16x2_S1x1x1x16x1x16x2_0_12_1_0_0_0_0
      inb_S1x16x2x16x2x16x2_S1x1x1x16x1x16x2_0_12_1_0_1_0_0 inb_S1x16x16x16x1_S1x1x16x16x1_0_12_0_0_0
  · exact poolStep_apply x 11 (by omega) inb_S1x16x2x16x2x16x2_S1x1x1x16x1x16x2_0_11_0_0_0_0_0
      inb_S1x16x2x16x2x16x2_S1x1x1x16x1x16x2_0_11_0_0_1_0_0 inb_S1x16x2x16x2x16x2_S1x1x1x16x1x16x2_0_11_1_0_0_0_0
      inb_S1x16x2x16x2x16x2_S1x1x1x16x1x16x2_0_11_1_0_1_0_0 inb_S1x16x16x16x1_S1x1x16x16x1_0_11_0_0_0
  · exact poolStep_apply x 10 (by omega) inb_S1x16x2x16x2x16x2_S1x1x1x16x1x16x2_0_10_0_0_0_0_0
      inb_S1x16x2x16x2x16x2_S1x1x1x16x1x16x2_0_10_0_0_1_0_0 inb_S1x16x2x16x2x16x2_S1x1x1x16x1x16x2_0_10_1_0_0_0_0
      inb_S1x16x2x16x2x16x2_S1x1x1x16x1x16x2_0_10_1_0_1_0_0 inb_S1x16x16x16x1_S1x1x16x16x1_0_10_0_0_0
  · exact poolStep_apply x 9 (by omega) inb_S1x16x2x16x2x16x2_S1x1x1x16x1x16x2_0_9_0_0_0_0_0
      inb_S1x16x2x16x2x16x2_S1x1x1x16x1x16x2_0_9_0_0_1_0_0 inb_S1x16x2x16x2x16x2_S1x1x1x16x1x16x2_0_9_1_0_0_0_0
      inb_S1x16x2x16x2x16x2_S1x1x1x16x1x16x2_0_9_1_0_1_0_0 inb_S1x16x16x16x1_S1x1x16x16x1_0_9_0_0_0
  · exact poolStep_apply x 8 (by omega) inb_S1x16x2x16x2x16x2_S1x1x1x16x1x16x2_0_8_0_0_0_0_0
      inb_S1x16x2x16x2x16x2_S1x1x1x16x1x16x2_0_8_0_0_1_0_0 inb_S1x16x2x16x2x16x2_S1x1x1x16x1x16x2_0_8_1_0_0_0_0
      inb_S1x16x2x16x2x16x2_S1x1x1x16x1x16x2_0_8_1_0_1_0_0 inb_S1x16x16x16x1_S1x1x16x16x1_0_8_0_0_0
  · exact poolStep_apply x 7 (by omega) inb_S1x16x2x16x2x16x2_S1x1x1x16x1x16x2_0_7_0_0_0_0_0
      inb_S1x16x2x16x2x16x2_S1x1x1x16x1x16x2_0_7_0_0_1_0_0 inb_S1x16x2x16x2x16x2_S1x1x1x16x1x16x2_0_7_1_0_0_0_0
      inb_S1x16x2x16x2x16x2_S1x1x1x16x1x16x2_0_7_1_0_1_0_0 inb_S1x16x16x16x1_S1x1x16x16x1_0_7_0_0_0
  · exact poolStep_apply x 6 (by omega) inb_S1x16x2x16x2x16x2_S1x1x1x16x1x16x2_0_6_0_0_0_0_0
      inb_S1x16x2x16x2x16x2_S1x1x1x16x1x16x2_0_6_0_0_1_0_0 inb_S1x16x2x16x2x16x2_S1x1x1x16x1x16x2_0_6_1_0_0_0_0
      inb_S1x16x2x16x2x16x2_S1x1x1x16x1x16x2_0_6_1_0_1_0_0 inb_S1x16x16x16x1_S1x1x16x16x1_0_6_0_0_0
  · exact poolStep_apply x 5 (by omega) inb_S1x16x2x16x2x16x2_S1x1x1x16x1x16x2_0_5_0_0_0_0_0
      inb_S1x16x2x16x2x16x2_S1x1x1x16x1x16x2_0_5_0_0_1_0_0 inb_S1x16x2x16x2x16x2_S1x1x1x16x1x16x2_0_5_1_0_0_0_0
      inb_S1x16x2x16x2x16x2_S1x1x1x16x1x16x2_0_5_1_0_1_0_0 inb_S1x16x16x16x1_S1x1x16x16x1_0_5_0_0_0
  · exact poolStep_apply x 4 (by omega) inb_S1x16x2x16x2x16x2_S1x1x1x16x1x16x2_0_4_0_0_0_0_0
      inb_S1x16x2x16x2x16x2_S1x1x1x16x1x16x2_0_4_0_0_1_0_0 inb_S1x16x2x16x2x16x2_S1x1x1x16x1x16x2_0_4_1_0_0_0_0
      inb_S1x16x2x16x2x16x2_S1x1x1x16x1x16x2_0_4_1_0_1_0_0 inb_S1x16x16x16x1_S1x1x16x16x1_0_4_0_0_0
  · exact poolStep_apply x 3 (by omega) inb_S1x16x2x16x2x16x2_S1x1x1x16x1x16x2_0_3_0_0_0_0_0
      inb_S1x16x2x16x2x16x2_S1x1x1x16x1x16x2_0_3_0_0_1_0_0 inb_S1x16x2x16x2x16x2_S1x1x1x16x1x16x2_0_3_1_0_0_0_0
      inb_S1x16x2x16x2x16x2_S1x1x1x16x1x16x2_0_3_1_0_1_0_0 inb_S1x16x16x16x1_S1x1x16x16x1_0_3_0_0_0
  · exact poolStep_apply x 2 (by omega) inb_S1x16x2x16x2x16x2_S1x1x1x16x1x16x2_0_2_0_0_0_0_0
      inb_S1x16x2x16x2x16x2_S1x1x1x16x1x16x2_0_2_0_0_1_0_0 inb_S1x16x2x16x2x16x2_S1x1x1x16x1x16x2_0_2_1_0_0_0_0
      inb_S1x16x2x16x2x16x2_S1x1x1x16x1x16x2_0_2_1_0_1_0_0 inb_S1x16x16x16x1_S1x1x16x16x1_0_2_0_0_0
  · exact poolStep_apply x 1 (by omega) inb_S1x16x2x16x2x16x2_S1x1x1x16x1x16x2_0_1_0_0_0_0_0
      inb_S1x16x2x16x2x16x2_S1x1x1x16x1x16x2_0_1_0_0_1_0_0 inb_S1x16x2x16x2x16x2_S1x1x1x16x1x16x2_0_1_1_0_0_0_0
      inb_S1x16x2x16x2x16x2_S1x1x1x16x1x16x2_0_1_1_0_1_0_0 inb_S1x16x16x16x1_S1x1x16x16x1_0_1_0_0_0
  · exact poolStep_apply x 0 (by omega) inb_S1x16x2x16x2x16x2_S1x1x1x16x1x16x2_0_0_0_0_0_0_0
      inb_S1x16x2x16x2x16x2_S1x1x1x16x1x16x2_0_0_0_0_1_0_0 inb_S1x16x2x16x2x16x2_S1x1x1x16x1x16x2_0_0_1_0_0_0_0
      inb_S1x16x2x16x2x16x2_S1x1x1x16x1x16x2_0_0_1_0_1_0_0 inb_S1x16x16x16x1_S1x1x16x16x1_0_0_0_0_0

end Cert.ReferenceIdeal.Body

end
-- ==== Proof.BridgeMath.lean ====
import proofs.«157750_g2000200144022539_pallasbulk_675_13_alg».proof.Proof.KernelIdealConsts
import proofs.«157750_g2000200144022539_pallasbulk_675_13_alg».proof.Proof.ReferenceIdealConsts
import Mathlib.Algebra.BigOperators.Fin
import Mathlib.Logic.Equiv.Fin.Basic
import Mathlib.Order.Lattice

noncomputable section

namespace Cert.Bridge

open Idealize.ShloMosaic Idealize.ShloMosaic.ValueIdx
open Cert.KernelIdeal.Consts (validC selC maskC x0Of w1fOf w2fOf)
open Cert.ReferenceIdeal.Consts (validRC maskRC w27Of1 w27Of2)

theorem sum_fin_mul {M : Type*} [AddCommMonoid M] (m n : ℕ) (g : Fin m → Fin n → M) :
    ∑ a, ∑ b, g a b = ∑ r : Fin (m * n), g r.divNat r.modNat := by
  rw [← Equiv.sum_comp finProdFinEquiv (fun r : Fin (m * n) => g r.divNat r.modNat), Fintype.sum_prod_type]
  refine Finset.sum_congr rfl fun a _ => Finset.sum_congr rfl fun b _ => ?_
  show g a b = g (finProdFinEquiv.symm (finProdFinEquiv (a, b))).1 (finProdFinEquiv.symm (finProdFinEquiv (a, b))).2
  rw [Equiv.symm_apply_apply]

theorem sum_taps_32 (f : Fin 3 → Fin 9 → Fin 32 → EReal) :
    ∑ kd, ∑ t, ∑ c, f kd t c
      = ∑ r : Fin 864, f ⟨r.val / 288, by have := r.isLt; omega⟩ ⟨r.val / 32 % 9, Nat.mod_lt _ (by decide)⟩ ⟨r.val % 32, Nat.mod_lt _ (by decide)⟩ := by
  rw [show (∑ kd, ∑ t, ∑ c, f kd t c) = ∑ kd, ∑ q : Fin (9 * 32), f kd q.divNat q.modNat from
    Finset.sum_congr rfl fun kd _ => sum_fin_mul 9 32 (f kd)]
  rw [sum_fin_mul 3 (9 * 32) fun kd q => f kd q.divNat q.modNat]
  show (∑ r : Fin 864, f (Fin.divNat (m := 3) (n := 9 * 32) r) (Fin.modNat (m := 3) (n := 9 * 32) r).divNat (Fin.modNat (m := 3) (n := 9 * 32) r).modNat) = _
  refine Finset.sum_congr rfl fun r _ => ?_
  have hr := r.isLt
  have h1 : (Fin.modNat (m := 3) (n := 9 * 32) r).divNat = (⟨r.val / 32 % 9, Nat.mod_lt _ (by decide)⟩ : Fin 9) :=
    Fin.ext (by show r.val % (9 * 32) / 32 = r.val / 32 % 9; omega)
  have h2 : (Fin.modNat (m := 3) (n := 9 * 32) r).modNat = (⟨r.val % 32, Nat.mod_lt _ (by decide)⟩ : Fin 32) :=
    Fin.ext (by show r.val % (9 * 32) % 32 = r.val % 32; omega)
  rw [h1, h2]
  rfl

theorem sum_taps_64 (f : Fin 3 → Fin 9 → Fin 64 → EReal) :
    ∑ kd, ∑ t, ∑ c, f kd t c
      = ∑ r : Fin 1728, f ⟨r.val / 576, by have := r.isLt; omega⟩ ⟨r.val / 64 % 9, Nat.mod_lt _ (by decide)⟩ ⟨r.val % 64, Nat.mod_lt _ (by decide)⟩ := by
  rw [show (∑ kd, ∑ t, ∑ c, f kd t c) = ∑ kd, ∑ q : Fin (9 * 64), f kd q.divNat q.modNat from
    Finset.sum_congr rfl fun kd _ => sum_fin_mul 9 64 (f kd)]
  rw [sum_fin_mul 3 (9 * 64) fun kd q => f kd q.divNat q.modNat]
  show (∑ r : Fin 1728, f (Fin.divNat (m := 3) (n := 9 * 64) r) (Fin.modNat (m := 3) (n := 9 * 64) r).divNat (Fin.modNat (m := 3) (n := 9 * 64) r).modNat) = _
  refine Finset.sum_congr rfl fun r _ => ?_
  have hr := r.isLt
  have h1 : (Fin.modNat (m := 3) (n := 9 * 64) r).divNat = (⟨r.val / 64 % 9, Nat.mod_lt _ (by decide)⟩ : Fin 9) :=
    Fin.ext (by show r.val % (9 * 64) / 64 = r.val / 64 % 9; omega)
  have h2 : (Fin.modNat (m := 3) (n := 9 * 64) r).modNat = (⟨r.val % 64, Nat.mod_lt _ (by decide)⟩ : Fin 64) :=
    Fin.ext (by show r.val % (9 * 64) % 64 = r.val % 64; omega)
  rw [h1, h2]
  rfl

theorem sum_mul_selC (a : Fin 1024 → EReal) (k : Fin 256) :
    ∑ l : Fin 1024, a l * (selC (ix2 l k) : EReal)
      = a ⟨64 * (k.val / 16) + 2 * (k.val % 16), by have := k.isLt; omega⟩ := by
  have hk := k.isLt
  rw [Finset.sum_eq_single (⟨64 * (k.val / 16) + 2 * (k.val % 16), by omega⟩ : Fin 1024)]
  · have h1 : (selC (ix2 (⟨64 * (k.val / 16) + 2 * (k.val % 16), by omega⟩ : Fin 1024) k) : EReal) = 1 := if_pos rfl
    rw [h1, mul_one]
  · intro l _ hl
    have h0 : (selC (ix2 l k) : EReal) = 0 := if_neg fun h => hl (Fin.ext h)
    rw [h0, mul_zero]
  · intro h; exact absurd (Finset.mem_univ _) h

theorem maskC_eq_maskRC (kd : Fin 3) (t : Fin 9) (m : Fin 4096) :
    (maskC (ix2 t (⟨256 * kd.val + m.val, by have := kd.isLt; have := m.isLt; omega⟩ : Fin 4608)) : EReal) = maskRC (ix2 t m) := by
  have hkd := kd.isLt
  have hm := m.isLt
  refine if_congr ?_ rfl rfl
  show (1 ≤ (256 * kd.val + m.val) % 256 / 16 + t.val / 3 ∧ (256 * kd.val + m.val) % 256 / 16 + t.val / 3 < 17
      ∧ 1 ≤ (256 * kd.val + m.val) % 16 + t.val % 3 ∧ (256 * kd.val + m.val) % 16 + t.val % 3 < 17)
    ↔ (1 ≤ m.val / 16 % 16 + t.val / 3 ∧ m.val / 16 % 16 + t.val / 3 < 17 ∧ 1 ≤ m.val % 16 + t.val % 3 ∧ m.val % 16 + t.val % 3 < 17)
  have e1 : (256 * kd.val + m.val) % 256 / 16 = m.val / 16 % 16 := by omega
  have e2 : (256 * kd.val + m.val) % 16 = m.val % 16 := by omega
  rw [e1, e2]

theorem maskRC_centre (m : Fin 4096) : (maskRC (ix2 (4 : Fin 9) m) : EReal) = 1 := by
  refine if_pos ?_
  show 1 ≤ m.val / 16 % 16 + 4 / 3 ∧ m.val / 16 % 16 + 4 / 3 < 17 ∧ 1 ≤ m.val % 16 + 4 % 3 ∧ m.val % 16 + 4 % 3 < 17
  omega

theorem w1fOf_eq_w27Of1 (w : Vec Ideal Cert.KernelIdeal.Consts.S64x32x3x3x3 .f32) (kd : Fin 3) (o : Fin 64) (t : Fin 9) (c : Fin 32) :
    w1fOf w (ix3 kd o (⟨32 * t.val + c.val, by have := t.isLt; have := c.isLt; omega⟩ : Fin 288))
      = w27Of1 w (ix2 o (⟨(9 * kd.val + t.val) * 32 + c.val, by have := kd.isLt; have := t.isLt; have := c.isLt; omega⟩ : Fin 864)) := by
  have hkd := kd.isLt
  have ht := t.isLt
  have hc := c.isLt
  refine congrArg w (funext fun a => ?_)
  match a with
  | ⟨0, _⟩ => rfl
  | ⟨1, _⟩ => exact Fin.ext (by show (32 * t.val + c.val) % 32 = ((9 * kd.val + t.val) * 32 + c.val) % 32; omega)
  | ⟨2, _⟩ => exact Fin.ext (by show kd.val = ((9 * kd.val + t.val) * 32 + c.val) / 32 / 9; omega)
  | ⟨3, _⟩ => exact Fin.ext (by show (32 * t.val + c.val) / 32 / 3 = ((9 * kd.val + t.val) * 32 + c.val) / 32 % 9 / 3; omega)
  | ⟨4, _⟩ => exact Fin.ext (by show (32 * t.val + c.val) / 32 % 3 = ((9 * kd.val + t.val) * 32 + c.val) / 32 % 3; omega)

theorem w2fOf_eq_w27Of2 (w : Vec Ideal Cert.KernelIdeal.Consts.S64x64x3x3x3 .f32) (kd : Fin 3) (o : Fin 64) (t : Fin 9) (c : Fin 64) :
    w2fOf w (ix3 kd o (⟨64 * t.val + c.val, by have := t.isLt; have := c.isLt; omega⟩ : Fin 576))
      = w27Of2 w (ix2 o (⟨(9 * kd.val + t.val) * 64 + c.val, by have := kd.isLt; have := t.isLt; have := c.isLt; omega⟩ : Fin 1728)) := by
  have hkd := kd.isLt
  have ht := t.isLt
  have hc := c.isLt
  refine congrArg w (funext fun a => ?_)
  match a with
  | ⟨0, _⟩ => rfl
  | ⟨1, _⟩ => exact Fin.ext (by show (64 * t.val + c.val) % 64 = ((9 * kd.val + t.val) * 64 + c.val) % 64; omega)
  | ⟨2, _⟩ => exact Fin.ext (by show kd.val = ((9 * kd.val + t.val) * 64 + c.val) / 64 / 9; omega)
  | ⟨3, _⟩ => exact Fin.ext (by show (64 * t.val + c.val) / 64 / 3 = ((9 * kd.val + t.val) * 64 + c.val) / 64 % 9 / 3; omega)
  | ⟨4, _⟩ => exact Fin.ext (by show (64 * t.val + c.val) / 64 % 3 = ((9 * kd.val + t.val) * 64 + c.val) / 64 % 3; omega)

theorem max8_depth_first_eq (e : Fin 2 → Fin 2 → Fin 2 → EReal) :
    max (max (max (e 0 0 0) (e 1 0 0)) (max (e 0 1 0) (e 1 1 0))) (max (max (e 0 0 1) (e 1 0 1)) (max (e 0 1 1) (e 1 1 1)))
      = max (max (max (e 0 0 0) (e 0 1 0)) (max (e 1 0 0) (e 1 1 0))) (max (max (e 0 0 1) (e 0 1 1)) (max (e 1 0 1) (e 1 1 1))) := by
  rw [max_max_max_comm (e 0 0 0) (e 1 0 0) (e 0 1 0) (e 1 1 0), max_max_max_comm (e 0 0 1) (e 1 0 1) (e 0 1 1) (e 1 1 1)]

end Cert.Bridge

end
-- ==== Proof.BridgePool.lean ====
import proofs.«157750_g2000200144022539_pallasbulk_675_13_alg».proof.Proof.KernelIdealConsts
import proofs.«157750_g2000200144022539_pallasbulk_675_13_alg».proof.Proof.ReferenceIdealValue0
import proofs.«157750_g2000200144022539_pallasbulk_675_13_alg».proof.Proof.BridgeMath

noncomputable section

namespace Cert.Bridge

open Idealize.ShloMosaic Idealize.ShloMosaic.ValueIdx
open Cert.KernelIdeal.Consts (x0Of)
open Cert.ReferenceIdeal.Body (pool8)
open Cert.ReferenceIdeal.Idx (ix7)

theorem x0Of_lane (x : Vec Ideal Cert.KernelIdeal.Consts.S8x32x32x32x32 .f32) (n : Fin 8) (c : Fin 32) (d h w : Fin 16) (dd hh ww : Fin 2)
    (j : Fin 32768) (hj : j.val = 2048 * d.val + 1024 * dd.val + 64 * h.val + 32 * hh.val + 2 * w.val + ww.val) :
    x0Of x (ix3 n c j)
      = x (ix5 n c (⟨2 * d.val + dd.val, by have := d.isLt; have := dd.isLt; omega⟩ : Fin 32)
          (⟨2 * h.val + hh.val, by have := h.isLt; have := hh.isLt; omega⟩ : Fin 32)
          (⟨2 * w.val + ww.val, by have := w.isLt; have := ww.isLt; omega⟩ : Fin 32)) := by
  have hd := d.isLt; have hh' := h.isLt; have hw := w.isLt; have hdd := dd.isLt; have hhh := hh.isLt; have hww := ww.isLt
  refine congrArg x (funext fun a => ?_)
  match a with
  | ⟨0, _⟩ => rfl
  | ⟨1, _⟩ => rfl
  | ⟨2, _⟩ => exact Fin.ext (by show j.val / 1024 = 2 * d.val + dd.val; omega)
  | ⟨3, _⟩ => exact Fin.ext (by show j.val / 32 % 32 = 2 * h.val + hh.val; omega)
  | ⟨4, _⟩ => exact Fin.ext (by show j.val % 32 = 2 * w.val + ww.val; omega)

theorem pool_window_eq (x : Vec Ideal Cert.KernelIdeal.Consts.S8x32x32x32x32 .f32) (n : Fin 8) (c : Fin 32) (d : Fin 16) (k : Fin 256)
    (P : Vec Ideal Cert.ReferenceIdeal.S1x16x2x16x2x16x2 .f32)
    (hP : ∀ (d' : Fin 16) (a : Fin 2) (h : Fin 16) (b : Fin 2) (w : Fin 16) (e : Fin 2),
      P (ix7 (0 : Fin 1) d' a h b w e)
        = x (ix5 n c (⟨2 * d'.val + a.val, by have := d'.isLt; have := a.isLt; omega⟩ : Fin 32)
            (⟨2 * h.val + b.val, by have := h.isLt; have := b.isLt; omega⟩ : Fin 32)
            (⟨2 * w.val + e.val, by have := w.isLt; have := e.isLt; omega⟩ : Fin 32))) :
    max (max (max (x0Of x (ix3 n c (⟨2048 * d.val + (64 * (k.val / 16) + 2 * (k.val % 16)), by have := d.isLt; have := k.isLt; omega⟩ : Fin 32768)))
                  (x0Of x (ix3 n c (⟨2048 * d.val + (1024 + (64 * (k.val / 16) + 2 * (k.val % 16))), by have := d.isLt; have := k.isLt; omega⟩ : Fin 32768))))
             (max (x0Of x (ix3 n c (⟨2048 * d.val + (64 * (k.val / 16) + 2 * (k.val % 16) + 32), by have := d.isLt; have := k.isLt; omega⟩ : Fin 32768)))
                  (x0Of x (ix3 n c (⟨2048 * d.val + (1024 + (64 * (k.val / 16) + 2 * (k.val % 16) + 32)), by have := d.isLt; have := k.isLt; omega⟩ : Fin 32768)))))
        (max (max (x0Of x (ix3 n c (⟨2048 * d.val + (64 * (k.val / 16) + 2 * (k.val % 16) + 1), by have := d.isLt; have := k.isLt; omega⟩ : Fin 32768)))
                  (x0Of x (ix3 n c (⟨2048 * d.val + (1024 + (64 * (k.val / 16) + 2 * (k.val % 16) + 1)), by have := d.isLt; have := k.isLt; omega⟩ : Fin 32768))))
             (max (x0Of x (ix3 n c (⟨2048 * d.val + (64 * (k.val / 16) + 2 * (k.val % 16) + 32 + 1), by have := d.isLt; have := k.isLt; omega⟩ : Fin 32768)))
                  (x0Of x (ix3 n c (⟨2048 * d.val + (1024 + (64 * (k.val / 16) + 2 * (k.val % 16) + 32 + 1)), by have := d.isLt; have := k.isLt; omega⟩ : Fin 32768)))))
      = pool8 P d (⟨k.val / 16, by have := k.isLt; omega⟩ : Fin 16) (⟨k.val % 16, Nat.mod_lt _ (by decide)⟩ : Fin 16) := by
  have hd := d.isLt
  have hk := k.isLt
  rw [x0Of_lane x n c d ⟨k.val / 16, by omega⟩ ⟨k.val % 16, Nat.mod_lt _ (by decide)⟩ 0 0 0 _ (by show 2048 * d.val + (64 * (k.val / 16) + 2 * (k.val % 16)) = 2048 * d.val + 1024 * 0 + 64 * (k.val / 16) + 32 * 0 + 2 * (k.val % 16) + 0; omega),
    x0Of_lane x n c d ⟨k.val / 16, by omega⟩ ⟨k.val % 16, Nat.mod_lt _ (by decide)⟩ 1 0 0 _ (by show 2048 * d.val + (1024 + (64 * (k.val / 16) + 2 * (k.val % 16))) = 2048 * d.val + 1024 * 1 + 64 * (k.val / 16) + 32 * 0 + 2 * (k.val % 16) + 0; omega),
    x0Of_lane x n c d ⟨k.val / 16, by omega⟩ ⟨k.val % 16, Nat.mod_lt _ (by decide)⟩ 0 1 0 _ (by show 2048 * d.val + (64 * (k.val / 16) + 2 * (k.val % 16) + 32) = 2048 * d.val + 1024 * 0 + 64 * (k.val / 16) + 32 * 1 + 2 * (k.val % 16) + 0; omega),
    x0Of_lane x n c d ⟨k.val / 16, by omega⟩ ⟨k.val % 16, Nat.mod_lt _ (by decide)⟩ 1 1 0 _ (by show 2048 * d.val + (1024 + (64 * (k.val / 16) + 2 * (k.val % 16) + 32)) = 2048 * d.val + 1024 * 1 + 64 * (k.val / 16) + 32 * 1 + 2 * (k.val % 16) + 0; omega),
    x0Of_lane x n c d ⟨k.val / 16, by omega⟩ ⟨k.val % 16, Nat.mod_lt _ (by decide)⟩ 0 0 1 _ (by show 2048 * d.val + (64 * (k.val / 16) + 2 * (k.val % 16) + 1) = 2048 * d.val + 1024 * 0 + 64 * (k.val / 16) + 32 * 0 + 2 * (k.val % 16) + 1; omega),
    x0Of_lane x n c d ⟨k.val / 16, by omega⟩ ⟨k.val % 16, Nat.mod_lt _ (by decide)⟩ 1 0 1 _ (by show 2048 * d.val + (1024 + (64 * (k.val / 16) + 2 * (k.val % 16) + 1)) = 2048 * d.val + 1024 * 1 + 64 * (k.val / 16) + 32 * 0 + 2 * (k.val % 16) + 1; omega),
    x0Of_lane x n c d ⟨k.val / 16, by omega⟩ ⟨k.val % 16, Nat.mod_lt _ (by decide)⟩ 0 1 1 _ (by show 2048 * d.val + (64 * (k.val / 16) + 2 * (k.val % 16) + 32 + 1) = 2048 * d.val + 1024 * 0 + 64 * (k.val / 16) + 32 * 1 + 2 * (k.val % 16) + 1; omega),
    x0Of_lane x n c d ⟨k.val / 16, by omega⟩ ⟨k.val % 16, Nat.mod_lt _ (by decide)⟩ 1 1 1 _ (by show 2048 * d.val + (1024 + (64 * (k.val / 16) + 2 * (k.val % 16) + 32 + 1)) = 2048 * d.val + 1024 * 1 + 64 * (k.val / 16) + 32 * 1 + 2 * (k.val % 16) + 1; omega)]
  rw [← hP d 0 ⟨k.val / 16, by omega⟩ 0 ⟨k.val % 16, Nat.mod_lt _ (by decide)⟩ 0, ← hP d 1 ⟨k.val / 16, by omega⟩ 0 ⟨k.val % 16, Nat.mod_lt _ (by decide)⟩ 0,
    ← hP d 0 ⟨k.val / 16, by omega⟩ 1 ⟨k.val % 16, Nat.mod_lt _ (by decide)⟩ 0, ← hP d 1 ⟨k.val / 16, by omega⟩ 1 ⟨k.val % 16, Nat.mod_lt _ (by decide)⟩ 0,
    ← hP d 0 ⟨k.val / 16, by omega⟩ 0 ⟨k.val % 16, Nat.mod_lt _ (by decide)⟩ 1, ← hP d 1 ⟨k.val / 16, by omega⟩ 0 ⟨k.val % 16, Nat.mod_lt _ (by decide)⟩ 1,
    ← hP d 0 ⟨k.val / 16, by omega⟩ 1 ⟨k.val % 16, Nat.mod_lt _ (by decide)⟩ 1, ← hP d 1 ⟨k.val / 16, by omega⟩ 1 ⟨k.val % 16, Nat.mod_lt _ (by decide)⟩ 1]
  exact max8_depth_first_eq fun a b e => P (ix7 (0 : Fin 1) d a (⟨k.val / 16, by omega⟩ : Fin 16) b (⟨k.val % 16, Nat.mod_lt _ (by decide)⟩ : Fin 16) e)

end Cert.Bridge

end
-- ==== Proof.BridgeConv1Core.lean ====
import proofs.«157750_g2000200144022539_pallasbulk_675_13_alg».proof.Proof.KernelIdealValue0
import proofs.«157750_g2000200144022539_pallasbulk_675_13_alg».proof.Proof.ReferenceIdealValue1
import proofs.«157750_g2000200144022539_pallasbulk_675_13_alg».proof.Proof.ReferenceIdealValue0
import proofs.«157750_g2000200144022539_pallasbulk_675_13_alg».proof.Proof.BridgeMath
import proofs.«157750_g2000200144022539_pallasbulk_675_13_alg».proof.Proof.BridgePool

noncomputable section

namespace Cert.Bridge

open Idealize.ShloMosaic Idealize.ShloMosaic.ValueIdx
open Cert.KernelIdeal.Consts (validC selC maskC x0Of w1fOf)
open Cert.ReferenceIdeal.Consts (validRC maskRC pHalOf w27Of1)
open Cert.ReferenceIdeal.Body (pool8)
open Cert.ReferenceIdeal.Idx (ix7)
open scoped BigOperators

abbrev kBlk (x : Vec Ideal Cert.KernelIdeal.Consts.S8x32x32x32x32 .f32) (n : Fin 8) : Vec Ideal Cert.KernelIdeal.S1x32x32768 .f32 :=
  fun y => x0Of x (ix3 n (y 1) (y 2))

abbrev rBlk (P : Vec Ideal Cert.ReferenceIdeal.Consts.S256x16x16x16x1 .f32) (n : Fin 8) : Vec Ideal Cert.ReferenceIdeal.S1x32x4864 .f32 :=
  fun y => pHalOf P (ix3 n (y 1) (y 2))

theorem poolv_lanes (x1 : Vec Ideal Cert.KernelIdeal.S1x32x32768 .f32) (d : Fin 16) (c : Fin 32) (l : Fin 1024) (hl : l.val + 33 < 1024) :
    Cert.KernelIdeal.Value0.poolv x1 d c l
      = max (max (max (x1 (ix3 (0 : Fin 1) c ⟨2048 * d.val + l.val, by omega⟩)) (x1 (ix3 (0 : Fin 1) c ⟨2048 * d.val + (1024 + l.val), by omega⟩)))
                 (max (x1 (ix3 (0 : Fin 1) c ⟨2048 * d.val + (l.val + 32), by omega⟩)) (x1 (ix3 (0 : Fin 1) c ⟨2048 * d.val + (1024 + (l.val + 32)), by omega⟩))))
            (max (max (x1 (ix3 (0 : Fin 1) c ⟨2048 * d.val + (l.val + 1), by omega⟩)) (x1 (ix3 (0 : Fin 1) c ⟨2048 * d.val + (1024 + (l.val + 1)), by omega⟩)))
                 (max (x1 (ix3 (0 : Fin 1) c ⟨2048 * d.val + (l.val + 1 + 32), by omega⟩)) (x1 (ix3 (0 : Fin 1) c ⟨2048 * d.val + (1024 + (l.val + 1 + 32)), by omega⟩)))) := by
  have w32 : Cert.KernelIdeal.Value0.wrap l 32 = ⟨l.val + 32, by omega⟩ := Fin.ext (Nat.mod_eq_of_lt (by omega))
  have w1 : Cert.KernelIdeal.Value0.wrap l 1 = ⟨l.val + 1, by omega⟩ := Fin.ext (Nat.mod_eq_of_lt (by omega))
  have w132 : Cert.KernelIdeal.Value0.wrap (⟨l.val + 1, by omega⟩ : Fin 1024) 32 = ⟨l.val + 1 + 32, by omega⟩ :=
    Fin.ext (Nat.mod_eq_of_lt (by show l.val + 1 + 32 < 1024; omega))
  unfold Cert.KernelIdeal.Value0.poolv Cert.KernelIdeal.Value0.hmax
  rw [w1, w132, w32]
  rfl

theorem poolv_eq_pool8 (x : Vec Ideal Cert.KernelIdeal.Consts.S8x32x32x32x32 .f32) (n : Fin 8) (c : Fin 32) (d : Fin 16) (k : Fin 256)
    (S : Vec Ideal Cert.ReferenceIdeal.S1x16x2x16x2x16x2 .f32)
    (hS : ∀ (d' : Fin 16) (a : Fin 2) (h : Fin 16) (b : Fin 2) (w : Fin 16) (e : Fin 2),
      S (ix7 (0 : Fin 1) d' a h b w e)
        = x (ix5 n c (⟨2 * d'.val + a.val, by have := d'.isLt; have := a.isLt; omega⟩ : Fin 32)
            (⟨2 * h.val + b.val, by have := h.isLt; have := b.isLt; omega⟩ : Fin 32)
            (⟨2 * w.val + e.val, by have := w.isLt; have := e.isLt; omega⟩ : Fin 32))) :
    Cert.KernelIdeal.Value0.poolv (kBlk x n) d c ⟨64 * (k.val / 16) + 2 * (k.val % 16), by have := k.isLt; omega⟩
      = pool8 S d (⟨k.val / 16, by have := k.isLt; omega⟩ : Fin 16) (⟨k.val % 16, Nat.mod_lt _ (by decide)⟩ : Fin 16) := by
  have hk := k.isLt
  have hd := d.isLt
  rw [poolv_lanes _ _ _ _ (by show 64 * (k.val / 16) + 2 * (k.val % 16) + 33 < 1024; omega)]
  refine Eq.trans ?_ (pool_window_eq x n c d k S hS)
  congr 1 <;> congr 1 <;> congr 1 <;>
    exact congrArg (fun j : Fin 32768 => x0Of x (ix3 n c j)) (Fin.ext (by first | omega | (dsimp only; omega)))

theorem selv_selC (x1 : Vec Ideal Cert.KernelIdeal.S1x32x32768 .f32) (d : Fin 16) (c : Fin 32) (k : Fin 256) :
    Cert.KernelIdeal.Value0.selv x1 selC d c k
      = Cert.KernelIdeal.Value0.poolv x1 d c ⟨64 * (k.val / 16) + 2 * (k.val % 16), by have := k.isLt; omega⟩ :=
  sum_mul_selC (fun l => Cert.KernelIdeal.Value0.poolv x1 d c l) k

theorem lane1_eq (kd : Fin 3) (t : Fin 9) (T : Fin 27) (hT : T.val = 9 * kd.val + t.val) (m : Fin 4096) :
    Cert.KernelIdeal.Value0.tapOff t + (Cert.KernelIdeal.Value0.winLane kd m).val
      = Cert.ReferenceIdeal.Value1.tapOff T + m.val := by
  have hkd := kd.isLt
  have ht := t.isLt
  unfold Cert.KernelIdeal.Value0.tapOff Cert.ReferenceIdeal.Value1.tapOff
  show 111 + 16 * (t.val / 3) + t.val % 3 + (256 * kd.val + m.val)
    = 111 + 256 * (T.val / 9) + 16 * (T.val % 9 / 3) + T.val % 3 + m.val
  rw [hT]
  omega

section Conv1
variable (x : Vec Ideal Cert.KernelIdeal.Consts.S8x32x32x32x32 .f32) (w1 : Vec Ideal Cert.KernelIdeal.Consts.S64x32x3x3x3 .f32) (n : Fin 8)
  (P : Vec Ideal Cert.ReferenceIdeal.Consts.S256x16x16x16x1 .f32)
  (S : Fin 32 → Vec Ideal Cert.ReferenceIdeal.S1x16x2x16x2x16x2 .f32)
  (hS : ∀ (c : Fin 32) (d' : Fin 16) (a : Fin 2) (h : Fin 16) (b : Fin 2) (w : Fin 16) (e : Fin 2),
      S c (ix7 (0 : Fin 1) d' a h b w e)
        = x (ix5 n c (⟨2 * d'.val + a.val, by have := d'.isLt; have := a.isLt; omega⟩ : Fin 32)
            (⟨2 * h.val + b.val, by have := h.isLt; have := b.isLt; omega⟩ : Fin 32)
            (⟨2 * w.val + e.val, by have := w.isLt; have := e.isLt; omega⟩ : Fin 32)))
  (hP : ∀ (c : Fin 32) (d h w : Fin 16),
      P (ix5 (⟨n.val * 32 + c.val, by have := n.isLt; have := c.isLt; omega⟩ : Fin 256) d h w (0 : Fin 1)) = pool8 (S c) d h w)

include hS hP

theorem halo_eq (c : Fin 32) (p : Fin 4864) :
    Cert.KernelIdeal.Value0.halov (kBlk x n) selC c p = Cert.ReferenceIdeal.Value1.act (rBlk P n) validRC c p := by
  have hp := p.isLt
  unfold Cert.KernelIdeal.Value0.halov Cert.ReferenceIdeal.Value1.act
  by_cases h : 384 ≤ p.val ∧ p.val < 4480
  · have e1 : (rBlk P n (ix3 (0 : Fin 1) c p) : EReal)
        = P (ix5 (⟨n.val * 32 + c.val, by have := n.isLt; have := c.isLt; omega⟩ : Fin 256) (⟨(p.val - 384) / 256, by omega⟩ : Fin 16)
            (⟨(p.val - 384) / 16 % 16, Nat.mod_lt _ (by decide)⟩ : Fin 16) (⟨(p.val - 384) % 16, Nat.mod_lt _ (by decide)⟩ : Fin 16) (0 : Fin 1)) :=
      dif_pos h
    have e2 : (validRC (ix2 (0 : Fin 1) p) : EReal) = 1 := if_pos h
    rw [dif_pos h, e1, e2, mul_one, selv_selC, hP,
      poolv_eq_pool8 x n c _ ⟨(p.val - 384) % 256, Nat.mod_lt _ (by decide)⟩ (S c) (hS c)]
    have h1 : (⟨(p.val - 384) % 256 / 16, by omega⟩ : Fin 16) = ⟨(p.val - 384) / 16 % 16, Nat.mod_lt _ (by decide)⟩ := Fin.ext (by show (p.val - 384) % 256 / 16 = (p.val - 384) / 16 % 16; omega)
    have h2 : (⟨(p.val - 384) % 256 % 16, Nat.mod_lt _ (by decide)⟩ : Fin 16) = ⟨(p.val - 384) % 16, Nat.mod_lt _ (by decide)⟩ := Fin.ext (by show (p.val - 384) % 256 % 16 = (p.val - 384) % 16; omega)
    rw [h1, h2]
  · have e1 : (rBlk P n (ix3 (0 : Fin 1) c p) : EReal) = 0 := dif_neg h
    rw [dif_neg h, e1, zero_mul]

theorem colv1_eq (kd : Fin 3) (t : Fin 9) (T : Fin 27) (hT : T.val = 9 * kd.val + t.val) (c : Fin 32) (m : Fin 4096) :
    Cert.KernelIdeal.Value0.colv (kBlk x n) selC maskC t c (Cert.KernelIdeal.Value0.winLane kd m)
      = Cert.ReferenceIdeal.Value1.colv (rBlk P n) validRC maskRC T c m := by
  have hkd := kd.isLt
  have ht := t.isLt
  have hlane : (⟨Cert.KernelIdeal.Value0.tapOff t + (Cert.KernelIdeal.Value0.winLane kd m).val,
        Cert.KernelIdeal.Value0.tapOff_add_lt t _⟩ : Fin 4864)
      = ⟨Cert.ReferenceIdeal.Value1.tapOff T + m.val, Cert.ReferenceIdeal.Value1.tapOff_add_lt T m⟩ :=
    Fin.ext (lane1_eq kd t T hT m)
  have hrow : Cert.ReferenceIdeal.Value1.maskRow T = t :=
    Fin.ext (by show T.val % 9 = t.val; rw [hT]; omega)
  unfold Cert.KernelIdeal.Value0.colv Cert.ReferenceIdeal.Value1.colv
  rw [hrow, ← hlane, ← halo_eq x n P S hS hP c]
  by_cases h4 : t = 4
  · rw [if_pos h4, h4, maskRC_centre, mul_one]
  · rw [if_neg h4]
    exact congrArg _ (maskC_eq_maskRC kd t m)

theorem accv1_eq (o : Fin 64) (m : Fin 4096) :
    Cert.KernelIdeal.Value0.accv (w1fOf w1) (Cert.KernelIdeal.Body.cols0 (F := Ideal) (kBlk x n) selC maskC) o m
      = Cert.ReferenceIdeal.Value1.accv (w27Of1 w1) (Cert.ReferenceIdeal.Body.cols1 (F := Ideal) (rBlk P n) validRC maskRC) o m := by
  rw [Cert.KernelIdeal.Value0.accv_taps]
  unfold Cert.ReferenceIdeal.Value1.accv
  rw [sum_taps_32 fun kd t c =>
    (w1fOf w1 (ix3 kd o ⟨32 * t.val + c.val, by have := t.isLt; have := c.isLt; omega⟩) : EReal)
      * Cert.KernelIdeal.Value0.colv (kBlk x n) selC maskC t c (Cert.KernelIdeal.Value0.winLane kd m)]
  refine Finset.sum_congr rfl fun r _ => ?_
  have hr := r.isLt
  rw [Cert.ReferenceIdeal.Value1.cols1_apply_row]
  show (w1fOf w1 (ix3 (⟨r.val / 288, _⟩ : Fin 3) o ⟨32 * (r.val / 32 % 9) + r.val % 32, _⟩) : EReal)
      * Cert.KernelIdeal.Value0.colv (kBlk x n) selC maskC (⟨r.val / 32 % 9, _⟩ : Fin 9) (⟨r.val % 32, _⟩ : Fin 32)
          (Cert.KernelIdeal.Value0.winLane (⟨r.val / 288, _⟩ : Fin 3) m)
    = (w27Of1 w1 (ix2 o r) : EReal) * Cert.ReferenceIdeal.Value1.colv (rBlk P n) validRC maskRC (⟨r.val / 32, _⟩ : Fin 27) (⟨r.val % 32, _⟩ : Fin 32) m
  have hw : (w1fOf w1 (ix3 (⟨r.val / 288, by omega⟩ : Fin 3) o ⟨32 * (r.val / 32 % 9) + r.val % 32, by omega⟩) : EReal) = w27Of1 w1 (ix2 o r) := by
    rw [w1fOf_eq_w27Of1 w1 ⟨r.val / 288, by omega⟩ o ⟨r.val / 32 % 9, Nat.mod_lt _ (by decide)⟩ ⟨r.val % 32, Nat.mod_lt _ (by decide)⟩]
    exact congrArg (fun q : Fin 864 => (w27Of1 w1 (ix2 o q) : EReal)) (Fin.ext (by show (9 * (r.val / 288) + r.val / 32 % 9) * 32 + r.val % 32 = r.val; omega))
  rw [hw, colv1_eq x n P S hS hP ⟨r.val / 288, by omega⟩ ⟨r.val / 32 % 9, Nat.mod_lt _ (by decide)⟩ ⟨r.val / 32, by omega⟩
    (by show r.val / 32 = 9 * (r.val / 288) + r.val / 32 % 9; omega) ⟨r.val % 32, Nat.mod_lt _ (by decide)⟩ m]

theorem out0_4_eq_out1_6 :
    (Cert.KernelIdeal.Body.out0_4 (F := Ideal) (kBlk x n) selC (w1fOf w1) maskC : (⟨3, ![1, 64, 4864]⟩ : Shape).Idx → EReal)
      = Cert.ReferenceIdeal.Body.out1_6 (F := Ideal) (rBlk P n) (w27Of1 w1) validRC maskRC := by
  funext j
  obtain ⟨u, o, p, rfl⟩ : ∃ (u : Fin 1) (o : Fin 64) (p : Fin 4864), j = ix3 u o p := ⟨j 0, j 1, j 2, eq_ix3 j⟩
  obtain rfl : u = 0 := Subsingleton.elim _ _
  rw [Cert.KernelIdeal.Value0.out0_4_apply, Cert.ReferenceIdeal.Value1.out1_6_apply_idx]
  by_cases h : 384 ≤ p.val ∧ p.val < 4480
  · rw [dif_pos h, dif_pos (show 384 ≤ ((ix3 (0 : Fin 1) o p) 2).val ∧ ((ix3 (0 : Fin 1) o p) 2).val < 4480 from h)]
    exact accv1_eq x w1 n P S hS hP o _
  · rw [dif_neg h, dif_neg (show ¬(384 ≤ ((ix3 (0 : Fin 1) o p) 2).val ∧ ((ix3 (0 : Fin 1) o p) 2).val < 4480) from h)]

theorem out0_5_eq_out1_7 :
    (Cert.KernelIdeal.Body.out0_5 (F := Ideal) (kBlk x n) selC (w1fOf w1) maskC : (⟨3, ![1, 64, 1]⟩ : Shape).Idx → EReal)
      = Cert.ReferenceIdeal.Body.out1_7 (F := Ideal) (rBlk P n) (w27Of1 w1) validRC maskRC := by
  funext j
  obtain ⟨u, o, z, rfl⟩ : ∃ (u : Fin 1) (o : Fin 64) (z : Fin 1), j = ix3 u o z := ⟨j 0, j 1, j 2, eq_ix3 j⟩
  obtain rfl : u = 0 := Subsingleton.elim _ _
  obtain rfl : z = 0 := Subsingleton.elim _ _
  rw [Cert.KernelIdeal.Value0.out0_5_apply, Cert.ReferenceIdeal.Value1.out1_7_apply]
  exact Finset.sum_congr rfl fun m _ => accv1_eq x w1 n P S hS hP o m

theorem out0_6_eq_out1_8 :
    (Cert.KernelIdeal.Body.out0_6 (F := Ideal) (kBlk x n) selC (w1fOf w1) maskC : (⟨3, ![1, 64, 1]⟩ : Shape).Idx → EReal)
      = Cert.ReferenceIdeal.Body.out1_8 (F := Ideal) (rBlk P n) (w27Of1 w1) validRC maskRC := by
  funext j
  obtain ⟨u, o, z, rfl⟩ : ∃ (u : Fin 1) (o : Fin 64) (z : Fin 1), j = ix3 u o z := ⟨j 0, j 1, j 2, eq_ix3 j⟩
  obtain rfl : u = 0 := Subsingleton.elim _ _
  obtain rfl : z = 0 := Subsingleton.elim _ _
  rw [Cert.KernelIdeal.Value0.out0_6_apply, Cert.ReferenceIdeal.Value1.out1_8_apply]
  exact Finset.sum_congr rfl fun m _ => by rw [accv1_eq x w1 n P S hS hP o m]

end Conv1

end Cert.Bridge

end
-- ==== Proof.BridgeConv1.lean ====
import proofs.«157750_g2000200144022539_pallasbulk_675_13_alg».proof.Proof.BridgeConv1Core
import proofs.«157750_g2000200144022539_pallasbulk_675_13_alg».proof.Proof.KernelIdealArrays
import proofs.«157750_g2000200144022539_pallasbulk_675_13_alg».proof.Proof.ReferenceIdealArrays0
import proofs.«157750_g2000200144022539_pallasbulk_675_13_alg».proof.Proof.ReferenceIdealArrays1

noncomputable section

namespace Cert.Bridge

open Idealize.ShloMosaic Idealize.ShloMosaic.ValueIdx
open Cert.KernelIdeal.Consts (validC selC maskC x0Of w1fOf)
open Cert.ReferenceIdeal.Consts (validRC zerosC maskRC x7Of pHalOf w27Of1)
open Cert.ReferenceIdeal.Body (pool8)
open Cert.ReferenceIdeal.Idx (ix7)

theorem slab0_x7Of (x : Vec Ideal Cert.KernelIdeal.Consts.S8x32x32x32x32 .f32) (n : Fin 8) (c : Fin 32)
    (d' : Fin 16) (a : Fin 2) (h : Fin 16) (b : Fin 2) (w : Fin 16) (e : Fin 2) :
    Cert.ReferenceIdeal.Run.slab0 (F := Ideal) (x7Of x) (⟨n.val * 32 + c.val, by have := n.isLt; have := c.isLt; omega⟩ : Fin 256) (ix7 (0 : Fin 1) d' a h b w e)
      = x (ix5 n c (⟨2 * d'.val + a.val, by have := d'.isLt; have := a.isLt; omega⟩ : Fin 32)
          (⟨2 * h.val + b.val, by have := h.isLt; have := b.isLt; omega⟩ : Fin 32)
          (⟨2 * w.val + e.val, by have := w.isLt; have := e.isLt; omega⟩ : Fin 32)) := by
  have hn := n.isLt
  have hc := c.isLt
  refine congrArg x (funext fun k => ?_)
  match k with
  | ⟨0, _⟩ => exact Fin.ext (by show (n.val * 32 + c.val) / 32 = n.val; omega)
  | ⟨1, _⟩ => exact Fin.ext (by show (n.val * 32 + c.val) % 32 = c.val; omega)
  | ⟨2, _⟩ => rfl
  | ⟨3, _⟩ => rfl
  | ⟨4, _⟩ => rfl

theorem bridge_conv1_of (OK : Cert.KernelIdeal.Run.Outs Ideal) (OR : Cert.ReferenceIdeal.Run.Outs Ideal)
    (hK4 : OK.o0_4 = Cert.KernelIdeal.Body.out0_4 (F := Ideal)) (hK5 : OK.o0_5 = Cert.KernelIdeal.Body.out0_5 (F := Ideal))
    (hK6 : OK.o0_6 = Cert.KernelIdeal.Body.out0_6 (F := Ideal))
    (hR0 : OR.o0_1 = Cert.ReferenceIdeal.Body.out0_1 (F := Ideal))
    (hR6 : OR.o1_6 = fun x1 x2 _ _ x5 x6 => Cert.ReferenceIdeal.Body.out1_6 (F := Ideal) x1 x2 x5 x6)
    (hR7 : OR.o1_7 = fun x1 x2 _ _ x5 x6 => Cert.ReferenceIdeal.Body.out1_7 (F := Ideal) x1 x2 x5 x6)
    (hR8 : OR.o1_8 = fun x1 x2 _ _ x5 x6 => Cert.ReferenceIdeal.Body.out1_8 (F := Ideal) x1 x2 x5 x6)
    (x : Vec Ideal Cert.KernelIdeal.Consts.S8x32x32x32x32 .f32) (w1 : Vec Ideal Cert.KernelIdeal.Consts.S64x32x3x3x3 .f32) :
    (Cert.KernelIdeal.Run.arr0_4 OK (x0Of x) selC (w1fOf w1) maskC : (⟨3, ![8, 64, 4864]⟩ : Shape).Idx → EReal)
        = Cert.ReferenceIdeal.Run.arr1_6 OR (pHalOf (Cert.ReferenceIdeal.Run.arr0_1 OR (x7Of x))) (w27Of1 w1) zerosC zerosC validRC maskRC
    ∧ (Cert.KernelIdeal.Run.arr0_5 OK (x0Of x) selC (w1fOf w1) maskC : (⟨3, ![8, 64, 1]⟩ : Shape).Idx → EReal)
        = Cert.ReferenceIdeal.Run.arr1_7 OR (pHalOf (Cert.ReferenceIdeal.Run.arr0_1 OR (x7Of x))) (w27Of1 w1) zerosC zerosC validRC maskRC
    ∧ (Cert.KernelIdeal.Run.arr0_6 OK (x0Of x) selC (w1fOf w1) maskC : (⟨3, ![8, 64, 1]⟩ : Shape).Idx → EReal)
        = Cert.ReferenceIdeal.Run.arr1_8 OR (pHalOf (Cert.ReferenceIdeal.Run.arr0_1 OR (x7Of x))) (w27Of1 w1) zerosC zerosC validRC maskRC := by
  have hP : ∀ (q : Fin 256) (d h w : Fin 16),
      (Cert.ReferenceIdeal.Run.arr0_1 OR (x7Of x) (ix5 q d h w (0 : Fin 1)) : EReal)
        = pool8 (Cert.ReferenceIdeal.Run.slab0 (F := Ideal) (x7Of x) q) d h w := by
    intro q d h w
    show OR.o0_1 (Cert.ReferenceIdeal.Run.slab0 (F := Ideal) (x7Of x) q) (ix5 (0 : Fin 1) d h w (0 : Fin 1)) = _
    rw [hR0]
    exact Cert.ReferenceIdeal.Body.out0_1_apply _ (0 : Fin 1) d h w (0 : Fin 1)
  refine ⟨funext fun i => ?_, funext fun i => ?_, funext fun i => ?_⟩
  · show OK.o0_4 (fun y => x0Of x (ix3 (i 0) (y 1) (y 2))) selC (w1fOf w1) maskC (ix3 (0 : Fin 1) (i 1) (i 2))
      = OR.o1_6 (fun y => pHalOf (Cert.ReferenceIdeal.Run.arr0_1 OR (x7Of x)) (ix3 (i 0) (y 1) (y 2))) (w27Of1 w1) zerosC zerosC validRC maskRC
          (ix3 (0 : Fin 1) (i 1) (i 2))
    rw [hK4, hR6]
    exact congrFun (out0_4_eq_out1_6 x w1 (i 0) (Cert.ReferenceIdeal.Run.arr0_1 OR (x7Of x))
      (fun c => Cert.ReferenceIdeal.Run.slab0 (F := Ideal) (x7Of x) ⟨(i 0).val * 32 + c.val, by have h0 : (i 0).val < 8 := (i 0).isLt; have := c.isLt; omega⟩)
      (fun c => slab0_x7Of x (i 0) c) (fun c d h w => hP _ d h w)) (ix3 (0 : Fin 1) (i 1) (i 2))
  · show OK.o0_5 (fun y => x0Of x (ix3 (i 0) (y 1) (y 2))) selC (w1fOf w1) maskC (ix3 (0 : Fin 1) (i 1) (i 2))
      = OR.o1_7 (fun y => pHalOf (Cert.ReferenceIdeal.Run.arr0_1 OR (x7Of x)) (ix3 (i 0) (y 1) (y 2))) (w27Of1 w1) zerosC zerosC validRC maskRC
          (ix3 (0 : Fin 1) (i 1) (i 2))
    rw [hK5, hR7]
    exact congrFun (out0_5_eq_out1_7 x w1 (i 0) (Cert.ReferenceIdeal.Run.arr0_1 OR (x7Of x))
      (fun c => Cert.ReferenceIdeal.Run.slab0 (F := Ideal) (x7Of x) ⟨(i 0).val * 32 + c.val, by have h0 : (i 0).val < 8 := (i 0).isLt; have := c.isLt; omega⟩)
      (fun c => slab0_x7Of x (i 0) c) (fun c d h w => hP _ d h w)) (ix3 (0 : Fin 1) (i 1) (i 2))
  · show OK.o0_6 (fun y => x0Of x (ix3 (i 0) (y 1) (y 2))) selC (w1fOf w1) maskC (ix3 (0 : Fin 1) (i 1) (i 2))
      = OR.o1_8 (fun y => pHalOf (Cert.ReferenceIdeal.Run.arr0_1 OR (x7Of x)) (ix3 (i 0) (y 1) (y 2))) (w27Of1 w1) zerosC zerosC validRC maskRC
          (ix3 (0 : Fin 1) (i 1) (i 2))
    rw [hK6, hR8]
    exact congrFun (out0_6_eq_out1_8 x w1 (i 0) (Cert.ReferenceIdeal.Run.arr0_1 OR (x7Of x))
      (fun c => Cert.ReferenceIdeal.Run.slab0 (F := Ideal) (x7Of x) ⟨(i 0).val * 32 + c.val, by have h0 : (i 0).val < 8 := (i 0).isLt; have := c.isLt; omega⟩)
      (fun c => slab0_x7Of x (i 0) c) (fun c d h w => hP _ d h w)) (ix3 (0 : Fin 1) (i 1) (i 2))

end Cert.Bridge

end
-- ==== Proof.KernelIdealValue1.lean ====
import proofs.«157750_g2000200144022539_pallasbulk_675_13_alg».proof.Proof.KernelIdealBody1
import proofs.«157750_g2000200144022539_pallasbulk_675_13_alg».proof.Proof.KernelIdealValue2
import Idealize.ShloMosaic.Lib.Pipeline.Value
import Idealize.ShloMosaic.Lib.ValueIdx
import Idealize.ShloMosaic.Lib.ValueLayout
import Idealize.ShloMosaic.PureOps.Ideal.Laws
import Mathlib.Tactic.FinCases
import Mathlib.Tactic.IntervalCases
import Mathlib.Logic.Equiv.Fin.Basic
import Mathlib.Algebra.BigOperators.Fin

set_option maxRecDepth 16384

noncomputable section

namespace Cert.KernelIdeal.Value1

open Cert.KernelIdeal.Gen Cert.KernelIdeal.Body
open Cert.KernelIdeal.Value2 (zeros2 zeros3 broadcastTo_a1_ab_apply)
open Idealize.ShloMosaic Idealize.ShloMosaic.ValueIdx
open scoped BigOperators

theorem matmul1_apply (prec : Option ContractPrecision) (A : FVec Ideal S64x576 .bf16) (B : FVec Ideal S576x4096 .bf16)
    (acc : FVec Ideal S64x4096 .f32) (o : Fin 64) (m : Fin 4096) :
    matmul dot_S64x576_S576x4096_S64x4096_1_0_0_1_n_n prec A B acc (ix2 o m)
      = acc (ix2 o m) + ∑ k : Fin 576, A (ix2 o k) * B (ix2 k m) := by
  show FloatOps.matmul _ prec A B acc (ix2 o m) = _
  rw [Ideal.matmul_apply,
    ← Equiv.sum_comp (contrEquiv1 dot_S64x576_S576x4096_S64x4096_1_0_0_1_n_n 576 rfl rfl).symm]
  congr 1
  refine Finset.sum_congr rfl fun k _ => ?_
  have ck := contrEquiv1_symm_val dot_S64x576_S576x4096_S64x4096_1_0_0_1_n_n 576 rfl rfl k
  have l2 : dot_S64x576_S576x4096_S64x4096_1_0_0_1_n_n.lhsIdx (ix2 o m) ((contrEquiv1 _ 576 rfl rfl).symm k) = ix2 o k := by
    funext ax; apply Fin.ext
    match ax with
    | ⟨0, _⟩ => simp [DotDims.lhsIdx, dot_S64x576_S576x4096_S64x4096_1_0_0_1_n_n]; rfl
    | ⟨1, _⟩ => simp [DotDims.lhsIdx, dot_S64x576_S576x4096_S64x4096_1_0_0_1_n_n]; exact ck
  have r2 : dot_S64x576_S576x4096_S64x4096_1_0_0_1_n_n.rhsIdx (ix2 o m) ((contrEquiv1 _ 576 rfl rfl).symm k) = ix2 k m := by
    funext ax; apply Fin.ext
    match ax with
    | ⟨0, _⟩ => simp [DotDims.rhsIdx, dot_S64x576_S576x4096_S64x4096_1_0_0_1_n_n]; exact ck
    | ⟨1, _⟩ => simp [DotDims.rhsIdx, dot_S64x576_S576x4096_S64x4096_1_0_0_1_n_n]; rfl
  rw [l2, r2]

theorem k1_pay5_apply (v0 : Vec Ideal S1x64x4864 .bf16) (v3 v7 : Vec Ideal S64x1 .f32) (v13 : Vec Ideal S1x4864 .f32)
    (c : Fin 64) (p : Fin 4864) :
    k1_pay5 v0 v3 v7 v13 (ix2 c p)
      = max (v0 (ix3 (0 : Fin 1) c p) * v3 (ix2 c (0 : Fin 1)) + v7 (ix2 c (0 : Fin 1))) 0 * v13 (ix2 (0 : Fin 1) p) := by
  unfold k1_pay5
  rw [shapeCast_self, truncf_apply, mulf_apply, maximumf_apply, addf_apply, mulf_apply, extf_apply, shapeCast_1ab_ab_apply,
    broadcast_apply, broadcastTo_a1_ab_apply, broadcastTo_a1_ab_apply, broadcastTo_1b_ab_apply, shapeCast_self, shapeCast_self,
    shapeCast_self]
  show max _ (Ideal.ofBits .f32 0x00000000#32) * _ = _
  rw [Ideal.ofBits_zero_f32]

theorem k1_pay6_apply (v21 : Vec Ideal S64x4608 .bf16) (v22 : Vec Ideal S1x4608 .bf16) (c : Fin 64) (j : Fin 4608) :
    k1_pay6 v21 v22 (ix2 c j) = v21 (ix2 c j) * v22 (ix2 (0 : Fin 1) j) := by
  unfold k1_pay6
  rw [shapeCast_self, mulf_apply, broadcastTo_1b_ab_apply, shapeCast_self]
theorem k1_pay7_apply (v29 : Vec Ideal S64x4608 .bf16) (v30 : Vec Ideal S1x4608 .bf16) (c : Fin 64) (j : Fin 4608) :
    k1_pay7 v29 v30 (ix2 c j) = v29 (ix2 c j) * v30 (ix2 (0 : Fin 1) j) := by
  unfold k1_pay7
  rw [mulf_apply, broadcastTo_1b_ab_apply, shapeCast_self]
theorem k1_pay8_apply (v33 : FVec Ideal S64x4608 .bf16) : k1_pay8 v33 = v33 := by
  unfold k1_pay8
  rw [shapeCast_self]
theorem k1_pay9_apply (v37 : Vec Ideal S64x4608 .bf16) (v38 : Vec Ideal S1x4608 .bf16) (c : Fin 64) (j : Fin 4608) :
    k1_pay9 v37 v38 (ix2 c j) = v37 (ix2 c j) * v38 (ix2 (0 : Fin 1) j) := by
  unfold k1_pay9
  rw [shapeCast_self, mulf_apply, broadcastTo_1b_ab_apply, shapeCast_self]
theorem k1_pay10_apply (v45 : Vec Ideal S64x4608 .bf16) (v46 : Vec Ideal S1x4608 .bf16) (c : Fin 64) (j : Fin 4608) :
    k1_pay10 v45 v46 (ix2 c j) = v45 (ix2 c j) * v46 (ix2 (0 : Fin 1) j) := by
  unfold k1_pay10
  rw [shapeCast_self, mulf_apply, broadcastTo_1b_ab_apply, shapeCast_self]

theorem k1_pay11_apply (v53 : Vec Ideal S64x4608 .bf16) : k1_pay11 v53 = v53 := by
  unfold k1_pay11
  rw [shapeCast_self]
theorem k1_pay12_apply (v57 : Vec Ideal S64x4608 .bf16) (v58 : Vec Ideal S1x4608 .bf16) (c : Fin 64) (j : Fin 4608) :
    k1_pay12 v57 v58 (ix2 c j) = v57 (ix2 c j) * v58 (ix2 (0 : Fin 1) j) := by
  unfold k1_pay12
  rw [shapeCast_self, mulf_apply, broadcastTo_1b_ab_apply, shapeCast_self]
theorem k1_pay13_apply (v65 : Vec Ideal S64x4608 .bf16) (v66 : Vec Ideal S1x4608 .bf16) (c : Fin 64) (j : Fin 4608) :
    k1_pay13 v65 v66 (ix2 c j) = v65 (ix2 c j) * v66 (ix2 (0 : Fin 1) j) := by
  unfold k1_pay13
  rw [shapeCast_self, mulf_apply, broadcastTo_1b_ab_apply, shapeCast_self]
theorem k1_pay14_apply (v73 : Vec Ideal S64x4608 .bf16) (v74 : Vec Ideal S1x4608 .bf16) (c : Fin 64) (j : Fin 4608) :
    k1_pay14 v73 v74 (ix2 c j) = v73 (ix2 c j) * v74 (ix2 (0 : Fin 1) j) := by
  unfold k1_pay14
  rw [shapeCast_self, mulf_apply, broadcastTo_1b_ab_apply, shapeCast_self]
theorem k1_pay15_apply (v81 : Vec Ideal S64x4608 .bf16) (v82 : Vec Ideal S1x4608 .bf16) (c : Fin 64) (j : Fin 4608) :
    k1_pay15 v81 v82 (ix2 c j) = v81 (ix2 c j) * v82 (ix2 (0 : Fin 1) j) := by
  unfold k1_pay15
  rw [shapeCast_self, mulf_apply, broadcastTo_1b_ab_apply, shapeCast_self]

theorem k1_pay16_apply (v89 : Vec Ideal S1x64x576 .bf16) (v91 : Vec Ideal S576x4096 .bf16) (o : Fin 64) (m : Fin 4096) :
    k1_pay16 v89 v91 (ix2 o m) = ∑ k : Fin 576, v89 (ix3 (0 : Fin 1) o k) * v91 (ix2 k m) := by
  unfold k1_pay16
  rw [matmul1_apply, constant_apply, Ideal.ofBits_zero_f32, zero_add]
  refine Finset.sum_congr rfl fun k _ => ?_
  rw [shapeCast_1ab_ab_apply]

theorem k1_pay17_apply (v93 : Vec Ideal S1x64x576 .bf16) (o : Fin 64) (k : Fin 576) :
    k1_pay17 v93 (ix2 o k) = v93 (ix3 (0 : Fin 1) o k) := by
  unfold k1_pay17
  rw [shapeCast_1ab_ab_apply]

theorem k1_pay1_apply (v92 : FVec Ideal S64x4096 .f32) (v94 : FVec Ideal S64x576 .bf16) (v95 : Vec Ideal S576x4096 .bf16)
    (v98 : Vec Ideal S1x64x576 .bf16) (v100 : Vec Ideal S576x4096 .bf16) (o : Fin 64) (m : Fin 4096) :
    k1_pay1 v92 v94 v95 v98 v100 (ix2 o m)
      = v92 (ix2 o m) + (∑ k : Fin 576, v94 (ix2 o k) * v95 (ix2 k m))
          + ∑ k : Fin 576, v98 (ix3 (0 : Fin 1) o k) * v100 (ix2 k m) := by
  unfold k1_pay1
  rw [addf_apply, addf_apply, matmul1_apply, matmul1_apply, constant_apply, Ideal.ofBits_zero_f32, zero_add, zero_add]
  congr 1
  refine Finset.sum_congr rfl fun k _ => ?_
  rw [shapeCast_1ab_ab_apply]

theorem ld_lane {Val : EltTy → Type} {e : EltTy} {n0 n1 m1 : ℕ} (X : (⟨2, ![n0, n1]⟩ : Shape).Idx → Val e) (o1 : ℕ)
    (inb : ∀ a, (![0, o1] : Fin 2 → ℕ) a + (![n0, m1] : Fin 2 → ℕ) a ≤ (⟨2, ![n0, n1]⟩ : Shape).size a)
    (a : Fin n0) (b : Fin m1) (h1 : o1 + b.val < n1) :
    View.ld X (Rect.unit (s := ⟨2, ![n0, n1]⟩) ![0, o1] ![n0, m1] inb) (ix2 a b) = X (ix2 a ⟨o1 + b.val, h1⟩) := by
  show X ((Rect.unit (s := ⟨2, ![n0, n1]⟩) ![0, o1] ![n0, m1] inb).idx (ix2 a b)) = _
  congr 1
  funext ax; apply Fin.ext
  match ax with
  | ⟨0, _⟩ => show 0 + 1 * a.val = a.val; omega
  | ⟨1, _⟩ => show o1 + 1 * b.val = o1 + b.val; omega

theorem ld_row {Val : EltTy → Type} {e : EltTy} {n0 n1 : ℕ} (X : (⟨2, ![n0, n1]⟩ : Shape).Idx → Val e) (o0 : ℕ)
    (inb : ∀ a, (![o0, 0] : Fin 2 → ℕ) a + (![1, n1] : Fin 2 → ℕ) a ≤ (⟨2, ![n0, n1]⟩ : Shape).size a)
    (u : Fin 1) (b : Fin n1) (h0 : o0 < n0) :
    View.ld X (Rect.unit (s := ⟨2, ![n0, n1]⟩) ![o0, 0] ![1, n1] inb) (ix2 u b) = X (ix2 ⟨o0, h0⟩ b) := by
  show X ((Rect.unit (s := ⟨2, ![n0, n1]⟩) ![o0, 0] ![1, n1] inb).idx (ix2 u b)) = _
  congr 1
  funext ax; apply Fin.ext
  match ax with
  | ⟨0, _⟩ => show o0 + 1 * u.val = o0; omega
  | ⟨1, _⟩ => show 0 + 1 * b.val = b.val; omega

theorem ld_slab {Val : EltTy → Type} {e : EltTy} {n0 n1 n2 : ℕ} (X : (⟨3, ![n0, n1, n2]⟩ : Shape).Idx → Val e) (o0 : ℕ)
    (inb : ∀ a, (![o0, 0, 0] : Fin 3 → ℕ) a + (![1, n1, n2] : Fin 3 → ℕ) a ≤ (⟨3, ![n0, n1, n2]⟩ : Shape).size a)
    (u : Fin 1) (b : Fin n1) (c : Fin n2) (h0 : o0 < n0) :
    View.ld X (Rect.unit (s := ⟨3, ![n0, n1, n2]⟩) ![o0, 0, 0] ![1, n1, n2] inb) (ix3 u b c) = X (ix3 ⟨o0, h0⟩ b c) := by
  show X ((Rect.unit (s := ⟨3, ![n0, n1, n2]⟩) ![o0, 0, 0] ![1, n1, n2] inb).idx (ix3 u b c)) = _
  congr 1
  funext ax; apply Fin.ext
  match ax with
  | ⟨0, _⟩ => show o0 + 1 * u.val = o0; omega
  | ⟨1, _⟩ => show 0 + 1 * b.val = b.val; omega
  | ⟨2, _⟩ => show 0 + 1 * c.val = c.val; omega

def act (x1 : Vec Ideal S1x64x4864 .bf16) (x2 x3 : Vec Ideal S64x1 .f32) (x4 : Vec Ideal S1x4864 .f32)
    (c : Fin 64) (p : Fin 4864) : EReal :=
  max (x1 (ix3 (0 : Fin 1) c p) * x2 (ix2 c (0 : Fin 1)) + x3 (ix2 c (0 : Fin 1))) 0 * x4 (ix2 (0 : Fin 1) p)

theorem xs1_apply (x1 : Vec Ideal S1x64x4864 .bf16) (x2 x3 : Vec Ideal S64x1 .f32) (x4 : Vec Ideal S1x4864 .f32)
    (c : Fin 64) (p : Fin 4864) : xs1 x1 x2 x3 x4 (ix2 c p) = act x1 x2 x3 x4 c p := by
  unfold xs1 act
  rw [View.canon_unit_zero zeros2, View.ld_unit_zero zeros3, View.ld_unit_zero zeros2, View.ld_unit_zero zeros2,
    View.ld_unit_zero zeros2, k1_pay5_apply]

theorem not_mem_band (o : ℕ) (inb : ∀ a, (![o, 0] : Fin 2 → ℕ) a + S64x4608.size a ≤ S576x4608.size a)
    (r : Fin 576) (j : Fin 4608) (h : r.val < o ∨ o + 64 ≤ r.val) :
    (ix2 r j : S576x4608.Idx) ∉ (Rect.unit (s := S576x4608) ![o, 0] S64x4608.size inb).set := by
  rw [Rect.mem_set_unit]
  intro hm
  have h0 : o ≤ r.val ∧ r.val < o + 64 := hm 0
  omega

theorem canon_cons_band (o : ℕ) (inb : ∀ a, (![o, 0] : Fin 2 → ℕ) a + S64x4608.size a ≤ S576x4608.size a)
    (w : (Rect.unit (s := S576x4608) ![o, 0] S64x4608.size inb).shape.Idx → Elt Ideal .bf16)
    (L : List (View.Piece (Elt Ideal) S576x4608 .bf16)) (r : Fin 576) (j : Fin 4608) (h : r.val < o ∨ o + 64 ≤ r.val) :
    View.canon ((⟨Rect.unit (s := S576x4608) ![o, 0] S64x4608.size inb, w⟩ : View.Piece (Elt Ideal) S576x4608 .bf16) :: L) (ix2 r j)
      = View.canon L (ix2 r j) :=
  View.canon_cons_of_not_mem _ _ (not_mem_band o inb r j h)

theorem canon_band_hit (o : ℕ) (inb : ∀ a, (![o, 0] : Fin 2 → ℕ) a + S64x4608.size a ≤ S576x4608.size a)
    (w : (Rect.unit (s := S576x4608) ![o, 0] S64x4608.size inb).shape.Idx → Elt Ideal .bf16)
    (L : List (View.Piece (Elt Ideal) S576x4608 .bf16)) (c : Fin 64) (j : Fin 4608) (h : o + c.val < 576) :
    View.canon ((⟨Rect.unit (s := S576x4608) ![o, 0] S64x4608.size inb, w⟩ : View.Piece (Elt Ideal) S576x4608 .bf16) :: L) (ix2 ⟨o + c.val, h⟩ j)
      = w (ix2 c j) := by
  have hemb : (ix2 ⟨o + c.val, h⟩ j : S576x4608.Idx) = (Rect.unit (s := S576x4608) ![o, 0] S64x4608.size inb).emb (ix2 c j) := by
    funext ax; apply Fin.ext
    match ax with
    | ⟨0, _⟩ => show o + c.val = o + 1 * c.val; omega
    | ⟨1, _⟩ => show j.val = 0 + 1 * j.val; omega
  rw [hemb, View.canon_cons_emb]

def winLane (kd : Fin 3) (m : Fin 4096) : Fin 4608 := ⟨256 * kd.val + m.val, by omega⟩

def accv (x5 : Vec Ideal S3x64x576 .bf16) (C : Vec Ideal S576x4608 .bf16) (o : Fin 64) (m : Fin 4096) : EReal :=
  ∑ kd : Fin 3, ∑ k : Fin 576, x5 (ix3 kd o k) * C (ix2 k (winLane kd m))

theorem acc_apply (x5 : Vec Ideal S3x64x576 .bf16) (C : Vec Ideal S576x4608 .bf16) (o : Fin 64) (m : Fin 4096) :
    k1_pay1 (k1_pay16 (View.ld x5 r1_w0) (View.ld C r1_win0)) (k1_pay17 (View.ld x5 r1_w1)) (View.ld C r1_win1)
      (View.ld x5 r1_w2) (View.ld C r1_win2) (ix2 o m) = accv x5 C o m := by
  rw [k1_pay1_apply, k1_pay16_apply]
  unfold accv
  rw [Fin.sum_univ_three]
  congr 1
  · congr 1
    · refine Finset.sum_congr rfl fun k _ => ?_
      rw [ld_slab x5 0 _ (0 : Fin 1) o k (by omega), ld_lane C 0 _ k m (by omega)]
      all_goals rfl
    · refine Finset.sum_congr rfl fun k _ => ?_
      rw [k1_pay17_apply, ld_slab x5 1 _ (0 : Fin 1) o k (by omega), ld_lane C 256 _ k m (by omega)]
      all_goals rfl
  · refine Finset.sum_congr rfl fun k _ => ?_
    rw [ld_slab x5 2 _ (0 : Fin 1) o k (by omega), ld_lane C 512 _ k m (by omega)]
    all_goals rfl

theorem k1_pay2_apply (v92 : FVec Ideal S64x4096 .f32) (v94 : FVec Ideal S64x576 .bf16) (v95 : Vec Ideal S576x4096 .bf16)
    (v98 : Vec Ideal S1x64x576 .bf16) (v100 : Vec Ideal S576x4096 .bf16) (u : Fin 1) (o : Fin 64) (m : Fin 4096) :
    k1_pay2 v92 v94 v95 v98 v100 (ix3 u o m) = k1_pay1 v92 v94 v95 v98 v100 (ix2 o m) := by
  unfold k1_pay2
  rw [shapeCast_ab_1ab_apply, truncf_apply]

theorem shapeCast_64_64x1_apply {α : Type} (x : S64.Idx → α) (h : S64.ShapeCasts S64x1) (o : Fin 64) (z : Fin 1) :
    shapeCast S64x1 x h (ix2 o z) = x (ix1 o) :=
  shapeCast_apply x h _ _ (by
    have hz : z.val = 0 := by omega
    rw [Shape.rowMajor_val_one, Shape.rowMajor_val_two]
    show o.val = o.val * 1 + z.val
    omega)

theorem lift_row (o : Fin 64) (m : Fin 4096) : reduces_S64x4096_S64.lift (ix1 o) m = ix2 o m := by
  funext ax; apply Fin.ext
  match ax with
  | ⟨0, _⟩ => rfl
  | ⟨1, _⟩ => rfl

theorem k1_pay3_apply (v92 : FVec Ideal S64x4096 .f32) (v94 : FVec Ideal S64x576 .bf16) (v95 : Vec Ideal S576x4096 .bf16)
    (v98 : Vec Ideal S1x64x576 .bf16) (v100 : Vec Ideal S576x4096 .bf16) (u : Fin 1) (o : Fin 64) (z : Fin 1) :
    k1_pay3 v92 v94 v95 v98 v100 (ix3 u o z) = ∑ m : Fin 4096, k1_pay1 v92 v94 v95 v98 v100 (ix2 o m) := by
  unfold k1_pay3
  rw [shapeCast_ab_1ab_apply, shapeCast_64_64x1_apply]
  refine (Ideal.multiReduction_add_single _ _ reduces_S64x4096_S64 _ _ (ix1 o)).trans ?_
  refine Finset.sum_congr rfl fun m _ => ?_
  exact congrArg (k1_pay1 v92 v94 v95 v98 v100) (lift_row o m)

theorem k1_pay4_apply (v92 : FVec Ideal S64x4096 .f32) (v94 : FVec Ideal S64x576 .bf16) (v95 : Vec Ideal S576x4096 .bf16)
    (v98 : Vec Ideal S1x64x576 .bf16) (v100 : Vec Ideal S576x4096 .bf16) (u : Fin 1) (o : Fin 64) (z : Fin 1) :
    k1_pay4 v92 v94 v95 v98 v100 (ix3 u o z)
      = ∑ m : Fin 4096, k1_pay1 v92 v94 v95 v98 v100 (ix2 o m) * k1_pay1 v92 v94 v95 v98 v100 (ix2 o m) := by
  unfold k1_pay4
  rw [shapeCast_ab_1ab_apply, shapeCast_64_64x1_apply]
  refine (Ideal.multiReduction_add_single _ _ reduces_S64x4096_S64 _ _ (ix1 o)).trans ?_
  refine Finset.sum_congr rfl fun m _ => ?_
  exact congrArg (fun i => k1_pay1 v92 v94 v95 v98 v100 i * k1_pay1 v92 v94 v95 v98 v100 i) (lift_row o m)

theorem out1_6_apply (x1 : Vec Ideal S1x64x4864 .bf16) (x2 x3 : Vec Ideal S64x1 .f32) (x4 : Vec Ideal S1x4864 .f32)
    (x5 : Vec Ideal S3x64x576 .bf16) (x6 : Vec Ideal S9x4608 .bf16) (u : Fin 1) (o : Fin 64) (m : Fin 4096) :
    out1_6 x1 x2 x3 x4 x5 x6 (ix3 u o m) = accv x5 (cols1 (xs1 x1 x2 x3 x4) x6) o m := by
  unfold out1_6
  rw [View.canon_unit_zero zeros3, k1_pay2_apply, acc_apply]

theorem out1_7_apply (x1 : Vec Ideal S1x64x4864 .bf16) (x2 x3 : Vec Ideal S64x1 .f32) (x4 : Vec Ideal S1x4864 .f32)
    (x5 : Vec Ideal S3x64x576 .bf16) (x6 : Vec Ideal S9x4608 .bf16) (u : Fin 1) (o : Fin 64) (z : Fin 1) :
    out1_7 x1 x2 x3 x4 x5 x6 (ix3 u o z) = ∑ m : Fin 4096, accv x5 (cols1 (xs1 x1 x2 x3 x4) x6) o m := by
  unfold out1_7
  rw [View.canon_unit_zero zeros3, k1_pay3_apply]
  exact Finset.sum_congr rfl fun m _ => acc_apply x5 _ o m

theorem out1_8_apply (x1 : Vec Ideal S1x64x4864 .bf16) (x2 x3 : Vec Ideal S64x1 .f32) (x4 : Vec Ideal S1x4864 .f32)
    (x5 : Vec Ideal S3x64x576 .bf16) (x6 : Vec Ideal S9x4608 .bf16) (u : Fin 1) (o : Fin 64) (z : Fin 1) :
    out1_8 x1 x2 x3 x4 x5 x6 (ix3 u o z)
      = ∑ m : Fin 4096, accv x5 (cols1 (xs1 x1 x2 x3 x4) x6) o m * accv x5 (cols1 (xs1 x1 x2 x3 x4) x6) o m := by
  unfold out1_8
  rw [View.canon_unit_zero zeros3, k1_pay4_apply]
  exact Finset.sum_congr rfl fun m _ => by rw [acc_apply]

theorem ld_lane' {Val : EltTy → Type} {e : EltTy} {n0 n1 m1 : ℕ} (X : (⟨2, ![n0, n1]⟩ : Shape).Idx → Val e) (o1 : ℕ)
    (inb : ∀ a, (![0, o1] : Fin 2 → ℕ) a + (![n0, m1] : Fin 2 → ℕ) a ≤ (⟨2, ![n0, n1]⟩ : Shape).size a)
    (a : Fin n0) (b : Fin m1) :
    View.ld X (Rect.unit (s := ⟨2, ![n0, n1]⟩) ![0, o1] ![n0, m1] inb) (ix2 a b)
      = X (ix2 a ⟨o1 + b.val, lt_of_lt_of_le (Nat.add_lt_add_left b.isLt o1) (inb 1 : o1 + m1 ≤ n1)⟩) :=
  ld_lane X o1 inb a b _

theorem ld_row' {Val : EltTy → Type} {e : EltTy} {n0 n1 : ℕ} (X : (⟨2, ![n0, n1]⟩ : Shape).Idx → Val e) (o0 : ℕ)
    (inb : ∀ a, (![o0, 0] : Fin 2 → ℕ) a + (![1, n1] : Fin 2 → ℕ) a ≤ (⟨2, ![n0, n1]⟩ : Shape).size a)
    (u : Fin 1) (b : Fin n1) :
    View.ld X (Rect.unit (s := ⟨2, ![n0, n1]⟩) ![o0, 0] ![1, n1] inb) (ix2 u b) = X (ix2 ⟨o0, (inb 0 : o0 + 1 ≤ n0)⟩ b) :=
  ld_row X o0 inb u b _

def tapOff (t : Fin 9) : ℕ := 111 + 16 * (t.val / 3) + t.val % 3

theorem tapOff_add_lt (t : Fin 9) (j : Fin 4608) : tapOff t + j.val < 4864 := by
  unfold tapOff; omega

def colv (x1 : Vec Ideal S1x64x4864 .bf16) (x2 x3 : Vec Ideal S64x1 .f32) (x4 : Vec Ideal S1x4864 .f32)
    (x6 : Vec Ideal S9x4608 .bf16) (t : Fin 9) (c : Fin 64) (j : Fin 4608) : EReal :=
  if t = 4 then act x1 x2 x3 x4 c ⟨tapOff t + j.val, tapOff_add_lt t j⟩
  else act x1 x2 x3 x4 c ⟨tapOff t + j.val, tapOff_add_lt t j⟩ * x6 (ix2 t j)

theorem cols1_apply (x1 : Vec Ideal S1x64x4864 .bf16) (x2 x3 : Vec Ideal S64x1 .f32) (x4 : Vec Ideal S1x4864 .f32)
    (x6 : Vec Ideal S9x4608 .bf16) (t : Fin 9) (c : Fin 64) (j : Fin 4608) :
    cols1 (xs1 x1 x2 x3 x4) x6 (ix2 ⟨64 * t.val + c.val, by omega⟩ j) = colv x1 x2 x3 x4 x6 t c j := by
  unfold colv cols1
  rcases t with ⟨k, hk⟩
  dsimp only
  interval_cases k <;> simp only [Nat.reduceMul] <;>
  · repeat (rw [canon_cons_band]; on_goal 2 => exact Or.inl (by show _ + _ < _; omega))
    rw [canon_band_hit]
    first
      | rw [if_neg (show ¬ (⟨_, hk⟩ : Fin 9) = 4 by simp [Fin.ext_iff])]
        simp only [k1_pay6_apply, k1_pay7_apply, k1_pay8_apply, k1_pay9_apply, k1_pay10_apply, k1_pay12_apply, k1_pay13_apply, k1_pay14_apply, k1_pay15_apply]
        rw [ld_lane', ld_row', xs1_apply]
        simp only [tapOff, Fin.val_mk, Nat.reduceDiv, Nat.reduceMod, Nat.reduceMul, Nat.reduceAdd, Nat.add_zero]
      | rw [if_pos (show (⟨_, hk⟩ : Fin 9) = 4 from rfl), k1_pay11_apply, ld_lane', xs1_apply]
        simp only [tapOff, Fin.val_mk, Nat.reduceDiv, Nat.reduceMod, Nat.reduceMul, Nat.reduceAdd, Nat.add_zero]

theorem cols1_apply_row (x1 : Vec Ideal S1x64x4864 .bf16) (x2 x3 : Vec Ideal S64x1 .f32) (x4 : Vec Ideal S1x4864 .f32)
    (x6 : Vec Ideal S9x4608 .bf16) (k : Fin 576) (j : Fin 4608) :
    cols1 (xs1 x1 x2 x3 x4) x6 (ix2 k j)
      = colv x1 x2 x3 x4 x6 ⟨k.val / 64, by omega⟩ ⟨k.val % 64, by omega⟩ j := by
  have hk : k = (⟨64 * (k.val / 64) + k.val % 64, by omega⟩ : Fin 576) := Fin.ext (Nat.div_add_mod k.val 64).symm
  exact (congrArg (fun r => cols1 (xs1 x1 x2 x3 x4) x6 (ix2 r j)) hk).trans
    (cols1_apply x1 x2 x3 x4 x6 ⟨k.val / 64, by omega⟩ ⟨k.val % 64, by omega⟩ j)

theorem sum_rows (f : Fin 576 → EReal) :
    ∑ k : Fin 576, f k = ∑ t : Fin 9, ∑ c : Fin 64, f ⟨64 * t.val + c.val, by omega⟩ := by
  rw [← Equiv.sum_comp (finProdFinEquiv (m := 9) (n := 64)) f, Fintype.sum_prod_type]
  refine Finset.sum_congr rfl fun t _ => Finset.sum_congr rfl fun c _ => ?_
  congr 1
  apply Fin.ext
  show c.val + 64 * t.val = 64 * t.val + c.val
  omega

theorem accv_taps (x1 : Vec Ideal S1x64x4864 .bf16) (x2 x3 : Vec Ideal S64x1 .f32) (x4 : Vec Ideal S1x4864 .f32)
    (x5 : Vec Ideal S3x64x576 .bf16) (x6 : Vec Ideal S9x4608 .bf16) (o : Fin 64) (m : Fin 4096) :
    accv x5 (cols1 (xs1 x1 x2 x3 x4) x6) o m
      = ∑ kd : Fin 3, ∑ t : Fin 9, ∑ c : Fin 64,
          x5 (ix3 kd o ⟨64 * t.val + c.val, by omega⟩) * colv x1 x2 x3 x4 x6 t c (winLane kd m) := by
  unfold accv
  refine Finset.sum_congr rfl fun kd _ => ?_
  rw [sum_rows]
  refine Finset.sum_congr rfl fun t _ => Finset.sum_congr rfl fun c _ => ?_
  rw [cols1_apply]

theorem out1_6_apply_idx (x1 : Vec Ideal S1x64x4864 .bf16) (x2 x3 : Vec Ideal S64x1 .f32) (x4 : Vec Ideal S1x4864 .f32)
    (x5 : Vec Ideal S3x64x576 .bf16) (x6 : Vec Ideal S9x4608 .bf16) (j : S1x64x4096.Idx) :
    out1_6 x1 x2 x3 x4 x5 x6 j = accv x5 (cols1 (xs1 x1 x2 x3 x4) x6) (j 1) (j 2) := by
  obtain ⟨u, o, m, rfl⟩ : ∃ (u : Fin 1) (o : Fin 64) (m : Fin 4096), j = ix3 u o m := ⟨j 0, j 1, j 2, eq_ix3 j⟩
  exact out1_6_apply x1 x2 x3 x4 x5 x6 u o m

theorem out1_7_apply_idx (x1 : Vec Ideal S1x64x4864 .bf16) (x2 x3 : Vec Ideal S64x1 .f32) (x4 : Vec Ideal S1x4864 .f32)
    (x5 : Vec Ideal S3x64x576 .bf16) (x6 : Vec Ideal S9x4608 .bf16) (j : S1x64x1.Idx) :
    out1_7 x1 x2 x3 x4 x5 x6 j = ∑ m : Fin 4096, accv x5 (cols1 (xs1 x1 x2 x3 x4) x6) (j 1) m := by
  obtain ⟨u, o, z, rfl⟩ : ∃ (u : Fin 1) (o : Fin 64) (z : Fin 1), j = ix3 u o z := ⟨j 0, j 1, j 2, eq_ix3 j⟩
  exact out1_7_apply x1 x2 x3 x4 x5 x6 u o z

theorem out1_8_apply_idx (x1 : Vec Ideal S1x64x4864 .bf16) (x2 x3 : Vec Ideal S64x1 .f32) (x4 : Vec Ideal S1x4864 .f32)
    (x5 : Vec Ideal S3x64x576 .bf16) (x6 : Vec Ideal S9x4608 .bf16) (j : S1x64x1.Idx) :
    out1_8 x1 x2 x3 x4 x5 x6 j
      = ∑ m : Fin 4096, accv x5 (cols1 (xs1 x1 x2 x3 x4) x6) (j 1) m * accv x5 (cols1 (xs1 x1 x2 x3 x4) x6) (j 1) m := by
  obtain ⟨u, o, z, rfl⟩ : ∃ (u : Fin 1) (o : Fin 64) (z : Fin 1), j = ix3 u o z := ⟨j 0, j 1, j 2, eq_ix3 j⟩
  exact out1_8_apply x1 x2 x3 x4 x5 x6 u o z

end Cert.KernelIdeal.Value1

end
-- ==== Proof.ReferenceIdealValue2.lean ====
import proofs.«157750_g2000200144022539_pallasbulk_675_13_alg».proof.Proof.ReferenceIdealBody2
import proofs.«157750_g2000200144022539_pallasbulk_675_13_alg».proof.Proof.ReferenceIdealValue1
import Idealize.ShloMosaic.Lib.Pipeline.Value
import Idealize.ShloMosaic.Lib.ValueIdx
import Idealize.ShloMosaic.Lib.ValueLayout
import Idealize.ShloMosaic.Lib.StackMember
import Idealize.ShloMosaic.PureOps.Ideal.Laws
import Mathlib.Tactic.FinCases
import Mathlib.Logic.Equiv.Fin.Basic
import Mathlib.Algebra.BigOperators.Fin

set_option maxRecDepth 16384

noncomputable section

namespace Cert.ReferenceIdeal.Value2

open Cert.ReferenceIdeal.Gen Cert.ReferenceIdeal.Body
open Idealize.ShloMosaic Idealize.ShloMosaic.ValueIdx
open scoped BigOperators
open Cert.ReferenceIdeal.Value1 (zeros3 zeros2 ld_lane ld_row shapeCast_64_64x1_apply lift_row canon_cons_band tap_hit)

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem k2_pay2_apply (v0 : Vec Ideal S1x64x4864 .f32) (v2 v6 : Vec Ideal S64x1 .f32) (v12 : Vec Ideal S1x4864 .f32)
    (c : Fin 64) (p : Fin 4864) :
    k2_pay2 v0 v2 v6 v12 (ix2 c p)
      = max (v0 (ix3 (0 : Fin 1) c p) * v2 (ix2 c (0 : Fin 1)) + v6 (ix2 c (0 : Fin 1))) 0 * v12 (ix2 (0 : Fin 1) p) := by
  unfold k2_pay2
  rw [shapeCast_self, mulf_apply, maximumf_apply, addf_apply, mulf_apply, shapeCast_1ab_ab_apply,
    broadcast_apply, broadcastTo_a1_ab_apply, broadcastTo_a1_ab_apply, broadcastTo_1b_ab_apply, shapeCast_self, shapeCast_self,
    shapeCast_self]
  show max _ (Ideal.ofBits .f32 0x00000000#32) * _ = _
  rw [Ideal.ofBits_zero_f32]

theorem k2_pay3_apply (v : Vec Ideal S64x4096 .f32) (mk : Vec Ideal S1x4096 .f32) (c : Fin 64) (j : Fin 4096) :
    k2_pay3 v mk (ix2 c j) = v (ix2 c j) * mk (ix2 (0 : Fin 1) j) := by
  unfold k2_pay3
  rw [shapeCast_self, mulf_apply, broadcastTo_1b_ab_apply, shapeCast_self]
-- A product accumulated into zeros is the plain product: entrywise, the sum over the contracted index.
theorem k2_pay37_apply (v235 : Vec Ideal S64x1728 .f32) (v237 : Vec Ideal S1728x4096 .f32) (o : Fin 64) (m : Fin 4096) :
    k2_pay37 v235 v237 (ix2 o m) = ∑ r : Fin 1728, v235 (ix2 o r) * v237 (ix2 r m) := by
  unfold k2_pay37
  rw [shapeCast_self, matmul_zero_eq_dotGeneral]
  exact StackMember.dotGeneral_plain_apply none v235 v237 o m

theorem k2_pay38_apply (v235 : Vec Ideal S64x1728 .f32) (v237 : Vec Ideal S1728x4096 .f32) (u : Fin 1) (o : Fin 64) (m : Fin 4096) :
    k2_pay38 v235 v237 (ix3 u o m) = k2_pay37 v235 v237 (ix2 o m) := by
  unfold k2_pay38
  rw [shapeCast_ab_1ab_apply]

theorem k2_pay39_apply (v235 : Vec Ideal S64x1728 .f32) (v237 : Vec Ideal S1728x4096 .f32) (u : Fin 1) (o : Fin 64) (z : Fin 1) :
    k2_pay39 v235 v237 (ix3 u o z) = ∑ m : Fin 4096, k2_pay37 v235 v237 (ix2 o m) := by
  unfold k2_pay39
  rw [shapeCast_ab_1ab_apply, shapeCast_64_64x1_apply]
  refine (Ideal.multiReduction_add_single _ _ reduces_S64x4096_S64 _ _ (ix1 o)).trans ?_
  refine Finset.sum_congr rfl fun m _ => ?_
  exact congrArg (k2_pay37 v235 v237) (lift_row o m)

theorem k2_pay40_apply (v235 : Vec Ideal S64x1728 .f32) (v237 : Vec Ideal S1728x4096 .f32) (o : Fin 64) (z : Fin 1) :
    k2_pay40 v235 v237 (ix2 o z) = ∑ m : Fin 4096, k2_pay37 v235 v237 (ix2 o m) * k2_pay37 v235 v237 (ix2 o m) := by
  unfold k2_pay40
  rw [shapeCast_64_64x1_apply]
  refine (Ideal.multiReduction_add_single _ _ reduces_S64x4096_S64 _ _ (ix1 o)).trans ?_
  refine Finset.sum_congr rfl fun m _ => ?_
  exact congrArg (fun i => k2_pay37 v235 v237 i * k2_pay37 v235 v237 i) (lift_row o m)

theorem k2_pay1_apply (v249 : FVec Ideal S64x1 .f32) (u : Fin 1) (o : Fin 64) (z : Fin 1) :
    k2_pay1 v249 (ix3 u o z) = v249 (ix2 o z) := by
  unfold k2_pay1
  rw [shapeCast_ab_1ab_apply]

def act (x1 : Vec Ideal S1x64x4864 .f32) (x3 x4 : Vec Ideal S64x1 .f32) (x5 : Vec Ideal S1x4864 .f32)
    (c : Fin 64) (p : Fin 4864) : EReal :=
  max (x1 (ix3 (0 : Fin 1) c p) * x3 (ix2 c (0 : Fin 1)) + x4 (ix2 c (0 : Fin 1))) 0 * x5 (ix2 (0 : Fin 1) p)

theorem xs2_apply (x1 : Vec Ideal S1x64x4864 .f32) (x3 x4 : Vec Ideal S64x1 .f32) (x5 : Vec Ideal S1x4864 .f32)
    (c : Fin 64) (p : Fin 4864) : xs2 x1 x3 x4 x5 (ix2 c p) = act x1 x3 x4 x5 c p := by
  unfold xs2 act
  rw [View.canon_unit_zero zeros2, View.ld_unit_zero zeros3, View.ld_unit_zero zeros2, View.ld_unit_zero zeros2,
    View.ld_unit_zero zeros2, k2_pay2_apply]

def tapOff (t : Fin 27) : ℕ := 111 + 256 * (t.val / 9) + 16 * (t.val % 9 / 3) + t.val % 3

theorem tapOff_add_lt (t : Fin 27) (j : Fin 4096) : tapOff t + j.val < 4864 := by
  unfold tapOff; omega

def maskRow (t : Fin 27) : Fin 9 := ⟨t.val % 9, by omega⟩

def colv (x1 : Vec Ideal S1x64x4864 .f32) (x3 x4 : Vec Ideal S64x1 .f32) (x5 : Vec Ideal S1x4864 .f32)
    (x6 : Vec Ideal S9x4096 .f32) (t : Fin 27) (c : Fin 64) (j : Fin 4096) : EReal :=
  act x1 x3 x4 x5 c ⟨tapOff t + j.val, tapOff_add_lt t j⟩ * x6 (ix2 (maskRow t) j)

-- Tap by tap: every band stored after band t lies above row 64·t + c, and band t is read at its own rows.
theorem cols2_apply (x1 : Vec Ideal S1x64x4864 .f32) (x3 x4 : Vec Ideal S64x1 .f32) (x5 : Vec Ideal S1x4864 .f32)
    (x6 : Vec Ideal S9x4096 .f32) (t : Fin 27) (c : Fin 64) (j : Fin 4096) :
    cols2 (xs2 x1 x3 x4 x5) x6 (ix2 ⟨64 * t.val + c.val, by omega⟩ j) = colv x1 x3 x4 x5 x6 t c j := by
  unfold colv cols2
  rw [← xs2_apply]
  fin_cases t <;>
    (repeat (rw [canon_cons_band]; on_goal 2 => exact Or.inl (by dsimp only; omega))
     exact tap_hit k2_pay3 k2_pay3_apply _ x6 _ _ _ _ _ _ _ c j _ _ _)

theorem cols2_apply_row (x1 : Vec Ideal S1x64x4864 .f32) (x3 x4 : Vec Ideal S64x1 .f32) (x5 : Vec Ideal S1x4864 .f32)
    (x6 : Vec Ideal S9x4096 .f32) (r : Fin 1728) (j : Fin 4096) :
    cols2 (xs2 x1 x3 x4 x5) x6 (ix2 r j)
      = colv x1 x3 x4 x5 x6 ⟨r.val / 64, by omega⟩ ⟨r.val % 64, by omega⟩ j := by
  have hr : r = (⟨64 * (r.val / 64) + r.val % 64, by omega⟩ : Fin 1728) := Fin.ext (Nat.div_add_mod r.val 64).symm
  exact (congrArg (fun q => cols2 (xs2 x1 x3 x4 x5) x6 (ix2 q j)) hr).trans
    (cols2_apply x1 x3 x4 x5 x6 ⟨r.val / 64, by omega⟩ ⟨r.val % 64, by omega⟩ j)

def accv (x2 : Vec Ideal S64x1728 .f32) (C : Vec Ideal S1728x4096 .f32) (o : Fin 64) (m : Fin 4096) : EReal :=
  ∑ r : Fin 1728, x2 (ix2 o r) * C (ix2 r m)

theorem acc_apply (x2 : Vec Ideal S64x1728 .f32) (C : Vec Ideal S1728x4096 .f32) (o : Fin 64) (m : Fin 4096) :
    k2_pay37 (View.ld x2 r2_w) (View.ld C r2_cols) (ix2 o m) = accv x2 C o m := by
  rw [k2_pay37_apply, View.ld_unit_zero zeros2, View.ld_unit_zero zeros2]
  rfl

theorem out2_6_apply (x1 : Vec Ideal S1x64x4864 .f32) (x2 : Vec Ideal S64x1728 .f32) (x3 x4 : Vec Ideal S64x1 .f32)
    (x5 : Vec Ideal S1x4864 .f32) (x6 : Vec Ideal S9x4096 .f32) (u : Fin 1) (o : Fin 64) (m : Fin 4096) :
    out2_6 x1 x2 x3 x4 x5 x6 (ix3 u o m) = accv x2 (cols2 (xs2 x1 x3 x4 x5) x6) o m := by
  unfold out2_6
  rw [View.canon_unit_zero zeros3, k2_pay38_apply, acc_apply]

theorem out2_7_apply (x1 : Vec Ideal S1x64x4864 .f32) (x2 : Vec Ideal S64x1728 .f32) (x3 x4 : Vec Ideal S64x1 .f32)
    (x5 : Vec Ideal S1x4864 .f32) (x6 : Vec Ideal S9x4096 .f32) (u : Fin 1) (o : Fin 64) (z : Fin 1) :
    out2_7 x1 x2 x3 x4 x5 x6 (ix3 u o z) = ∑ m : Fin 4096, accv x2 (cols2 (xs2 x1 x3 x4 x5) x6) o m := by
  unfold out2_7
  rw [View.canon_unit_zero zeros3, k2_pay39_apply]
  exact Finset.sum_congr rfl fun m _ => acc_apply x2 _ o m

theorem out2_8_apply (x1 : Vec Ideal S1x64x4864 .f32) (x2 : Vec Ideal S64x1728 .f32) (x3 x4 : Vec Ideal S64x1 .f32)
    (x5 : Vec Ideal S1x4864 .f32) (x6 : Vec Ideal S9x4096 .f32) (u : Fin 1) (o : Fin 64) (z : Fin 1) :
    out2_8 x1 x2 x3 x4 x5 x6 (ix3 u o z)
      = ∑ m : Fin 4096, accv x2 (cols2 (xs2 x1 x3 x4 x5) x6) o m * accv x2 (cols2 (xs2 x1 x3 x4 x5) x6) o m := by
  unfold out2_8
  rw [View.canon_unit_zero zeros3, k2_pay1_apply, k2_pay40_apply]
  exact Finset.sum_congr rfl fun m _ => by rw [acc_apply]

theorem out2_6_apply_idx (x1 : Vec Ideal S1x64x4864 .f32) (x2 : Vec Ideal S64x1728 .f32) (x3 x4 : Vec Ideal S64x1 .f32)
    (x5 : Vec Ideal S1x4864 .f32) (x6 : Vec Ideal S9x4096 .f32) (j : S1x64x4096.Idx) :
    out2_6 x1 x2 x3 x4 x5 x6 j = accv x2 (cols2 (xs2 x1 x3 x4 x5) x6) (j 1) (j 2) := by
  obtain ⟨u, o, m, rfl⟩ : ∃ (u : Fin 1) (o : Fin 64) (m : Fin 4096), j = ix3 u o m := ⟨j 0, j 1, j 2, eq_ix3 j⟩
  exact out2_6_apply x1 x2 x3 x4 x5 x6 u o m

theorem out2_7_apply_idx (x1 : Vec Ideal S1x64x4864 .f32) (x2 : Vec Ideal S64x1728 .f32) (x3 x4 : Vec Ideal S64x1 .f32)
    (x5 : Vec Ideal S1x4864 .f32) (x6 : Vec Ideal S9x4096 .f32) (j : S1x64x1.Idx) :
    out2_7 x1 x2 x3 x4 x5 x6 j = ∑ m : Fin 4096, accv x2 (cols2 (xs2 x1 x3 x4 x5) x6) (j 1) m := by
  obtain ⟨u, o, z, rfl⟩ : ∃ (u : Fin 1) (o : Fin 64) (z : Fin 1), j = ix3 u o z := ⟨j 0, j 1, j 2, eq_ix3 j⟩
  exact out2_7_apply x1 x2 x3 x4 x5 x6 u o z

theorem out2_8_apply_idx (x1 : Vec Ideal S1x64x4864 .f32) (x2 : Vec Ideal S64x1728 .f32) (x3 x4 : Vec Ideal S64x1 .f32)
    (x5 : Vec Ideal S1x4864 .f32) (x6 : Vec Ideal S9x4096 .f32) (j : S1x64x1.Idx) :
    out2_8 x1 x2 x3 x4 x5 x6 j
      = ∑ m : Fin 4096, accv x2 (cols2 (xs2 x1 x3 x4 x5) x6) (j 1) m * accv x2 (cols2 (xs2 x1 x3 x4 x5) x6) (j 1) m := by
  obtain ⟨u, o, z, rfl⟩ : ∃ (u : Fin 1) (o : Fin 64) (z : Fin 1), j = ix3 u o z := ⟨j 0, j 1, j 2, eq_ix3 j⟩
  exact out2_8_apply x1 x2 x3 x4 x5 x6 u o z

end Cert.ReferenceIdeal.Value2

end
-- ==== Proof.BridgeConv2.lean ====
import proofs.«157750_g2000200144022539_pallasbulk_675_13_alg».proof.Proof.KernelIdealValue1
import proofs.«157750_g2000200144022539_pallasbulk_675_13_alg».proof.Proof.ReferenceIdealValue2
import proofs.«157750_g2000200144022539_pallasbulk_675_13_alg».proof.Proof.BridgeMath

noncomputable section

namespace Cert.Bridge

open Idealize.ShloMosaic Idealize.ShloMosaic.ValueIdx
open Cert.KernelIdeal.Consts (validC maskC w2fOf)
open Cert.ReferenceIdeal.Consts (validRC maskRC w27Of2)
open scoped BigOperators

theorem act_eq (y : (⟨3, ![1, 64, 4864]⟩ : Shape).Idx → EReal) (sc sh : (⟨2, ![64, 1]⟩ : Shape).Idx → EReal)
    (c : Fin 64) (p : Fin 4864) :
    Cert.KernelIdeal.Value1.act y sc sh validC c p = Cert.ReferenceIdeal.Value2.act y sc sh validRC c p := rfl

theorem lane_eq (kd : Fin 3) (t : Fin 9) (T : Fin 27) (hT : T.val = 9 * kd.val + t.val) (m : Fin 4096) :
    Cert.KernelIdeal.Value1.tapOff t + (Cert.KernelIdeal.Value1.winLane kd m).val
      = Cert.ReferenceIdeal.Value2.tapOff T + m.val := by
  have hkd := kd.isLt
  have ht := t.isLt
  unfold Cert.KernelIdeal.Value1.tapOff Cert.ReferenceIdeal.Value2.tapOff
  show 111 + 16 * (t.val / 3) + t.val % 3 + (256 * kd.val + m.val) = 111 + 256 * (T.val / 9) + 16 * (T.val % 9 / 3) + T.val % 3 + m.val
  rw [hT]
  omega

theorem colv_eq (y : (⟨3, ![1, 64, 4864]⟩ : Shape).Idx → EReal) (sc sh : (⟨2, ![64, 1]⟩ : Shape).Idx → EReal)
    (kd : Fin 3) (t : Fin 9) (T : Fin 27) (hT : T.val = 9 * kd.val + t.val) (c : Fin 64) (m : Fin 4096) :
    Cert.KernelIdeal.Value1.colv y sc sh validC maskC t c (Cert.KernelIdeal.Value1.winLane kd m)
      = Cert.ReferenceIdeal.Value2.colv y sc sh validRC maskRC T c m := by
  have hkd := kd.isLt
  have ht := t.isLt
  have hlane : (⟨Cert.KernelIdeal.Value1.tapOff t + (Cert.KernelIdeal.Value1.winLane kd m).val,
        Cert.KernelIdeal.Value1.tapOff_add_lt t _⟩ : Fin 4864)
      = ⟨Cert.ReferenceIdeal.Value2.tapOff T + m.val, Cert.ReferenceIdeal.Value2.tapOff_add_lt T m⟩ :=
    Fin.ext (lane_eq kd t T hT m)
  have hrow : Cert.ReferenceIdeal.Value2.maskRow T = t :=
    Fin.ext (by show T.val % 9 = t.val; rw [hT]; omega)
  unfold Cert.KernelIdeal.Value1.colv Cert.ReferenceIdeal.Value2.colv
  rw [hrow, ← hlane, ← act_eq]
  by_cases h4 : t = 4
  · rw [if_pos h4, h4, maskRC_centre, mul_one]
  · rw [if_neg h4]
    exact congrArg _ (maskC_eq_maskRC kd t m)

theorem weight_eq (w2 : Vec Ideal Cert.KernelIdeal.Consts.S64x64x3x3x3 .f32) (kd : Fin 3) (o : Fin 64) (t : Fin 9) (c : Fin 64)
    (k : Fin 576) (hk : k.val = 64 * t.val + c.val) (r : Fin 1728) (hr : r.val = (9 * kd.val + t.val) * 64 + c.val) :
    (w2fOf w2 (ix3 kd o k) : EReal) = w27Of2 w2 (ix2 o r) := by
  obtain ⟨kv, hkv⟩ := k
  obtain ⟨rv, hrv⟩ := r
  have hk2 : kv = 64 * t.val + c.val := hk
  have hr2 : rv = (9 * kd.val + t.val) * 64 + c.val := hr
  subst hk2
  subst hr2
  exact w2fOf_eq_w27Of2 w2 kd o t c

theorem accv_eq (y : (⟨3, ![1, 64, 4864]⟩ : Shape).Idx → EReal) (sc sh : (⟨2, ![64, 1]⟩ : Shape).Idx → EReal)
    (w2 : Vec Ideal Cert.KernelIdeal.Consts.S64x64x3x3x3 .f32) (o : Fin 64) (m : Fin 4096) :
    Cert.KernelIdeal.Value1.accv (w2fOf w2)
        (Cert.KernelIdeal.Body.cols1 (F := Ideal) (Cert.KernelIdeal.Body.xs1 (F := Ideal) y sc sh validC) maskC) o m
      = Cert.ReferenceIdeal.Value2.accv (w27Of2 w2)
        (Cert.ReferenceIdeal.Body.cols2 (F := Ideal) (Cert.ReferenceIdeal.Body.xs2 (F := Ideal) y sc sh validRC) maskRC) o m := by
  rw [Cert.KernelIdeal.Value1.accv_taps]
  unfold Cert.ReferenceIdeal.Value2.accv
  rw [sum_taps_64 fun kd t c =>
    (w2fOf w2 (ix3 kd o ⟨64 * t.val + c.val, by have := t.isLt; have := c.isLt; omega⟩) : EReal)
      * Cert.KernelIdeal.Value1.colv y sc sh validC maskC t c (Cert.KernelIdeal.Value1.winLane kd m)]
  refine Finset.sum_congr rfl fun r _ => ?_
  have hr := r.isLt
  rw [Cert.ReferenceIdeal.Value2.cols2_apply_row]
  show (w2fOf w2 (ix3 (⟨r.val / 576, _⟩ : Fin 3) o ⟨64 * (r.val / 64 % 9) + r.val % 64, _⟩) : EReal)
      * Cert.KernelIdeal.Value1.colv y sc sh validC maskC (⟨r.val / 64 % 9, _⟩ : Fin 9) (⟨r.val % 64, _⟩ : Fin 64)
          (Cert.KernelIdeal.Value1.winLane (⟨r.val / 576, _⟩ : Fin 3) m)
    = w27Of2 w2 (ix2 o r) * Cert.ReferenceIdeal.Value2.colv y sc sh validRC maskRC (⟨r.val / 64, _⟩ : Fin 27) (⟨r.val % 64, _⟩ : Fin 64) m
  rw [weight_eq w2 ⟨r.val / 576, by omega⟩ o ⟨r.val / 64 % 9, Nat.mod_lt _ (by decide)⟩ ⟨r.val % 64, Nat.mod_lt _ (by decide)⟩ _ rfl r
      (by show r.val = (9 * (r.val / 576) + r.val / 64 % 9) * 64 + r.val % 64; omega),
    colv_eq y sc sh ⟨r.val / 576, by omega⟩ ⟨r.val / 64 % 9, Nat.mod_lt _ (by decide)⟩ ⟨r.val / 64, by omega⟩
      (by show r.val / 64 = 9 * (r.val / 576) + r.val / 64 % 9; omega) ⟨r.val % 64, Nat.mod_lt _ (by decide)⟩ m]

theorem out1_6_eq_out2_6 (y : (⟨3, ![1, 64, 4864]⟩ : Shape).Idx → EReal) (sc sh : (⟨2, ![64, 1]⟩ : Shape).Idx → EReal)
    (w2 : Vec Ideal Cert.KernelIdeal.Consts.S64x64x3x3x3 .f32) :
    (Cert.KernelIdeal.Body.out1_6 (F := Ideal) y sc sh validC (w2fOf w2) maskC : (⟨3, ![1, 64, 4096]⟩ : Shape).Idx → EReal)
      = Cert.ReferenceIdeal.Body.out2_6 (F := Ideal) y (w27Of2 w2) sc sh validRC maskRC := by
  funext j
  rw [Cert.KernelIdeal.Value1.out1_6_apply_idx, Cert.ReferenceIdeal.Value2.out2_6_apply_idx]
  exact accv_eq y sc sh w2 _ _

theorem out1_7_eq_out2_7 (y : (⟨3, ![1, 64, 4864]⟩ : Shape).Idx → EReal) (sc sh : (⟨2, ![64, 1]⟩ : Shape).Idx → EReal)
    (w2 : Vec Ideal Cert.KernelIdeal.Consts.S64x64x3x3x3 .f32) :
    (Cert.KernelIdeal.Body.out1_7 (F := Ideal) y sc sh validC (w2fOf w2) maskC : (⟨3, ![1, 64, 1]⟩ : Shape).Idx → EReal)
      = Cert.ReferenceIdeal.Body.out2_7 (F := Ideal) y (w27Of2 w2) sc sh validRC maskRC := by
  funext j
  rw [Cert.KernelIdeal.Value1.out1_7_apply_idx, Cert.ReferenceIdeal.Value2.out2_7_apply_idx]
  exact Finset.sum_congr rfl fun m _ => accv_eq y sc sh w2 _ m

theorem out1_8_eq_out2_8 (y : (⟨3, ![1, 64, 4864]⟩ : Shape).Idx → EReal) (sc sh : (⟨2, ![64, 1]⟩ : Shape).Idx → EReal)
    (w2 : Vec Ideal Cert.KernelIdeal.Consts.S64x64x3x3x3 .f32) :
    (Cert.KernelIdeal.Body.out1_8 (F := Ideal) y sc sh validC (w2fOf w2) maskC : (⟨3, ![1, 64, 1]⟩ : Shape).Idx → EReal)
      = Cert.ReferenceIdeal.Body.out2_8 (F := Ideal) y (w27Of2 w2) sc sh validRC maskRC := by
  funext j
  rw [Cert.KernelIdeal.Value1.out1_8_apply_idx, Cert.ReferenceIdeal.Value2.out2_8_apply_idx]
  exact Finset.sum_congr rfl fun m _ => congrArg (fun a => a * a) (accv_eq y sc sh w2 _ m)

end Cert.Bridge

end
-- ==== Proof.BridgeConv2Arrays.lean ====
import proofs.«157750_g2000200144022539_pallasbulk_675_13_alg».proof.Proof.BridgeConv2
import proofs.«157750_g2000200144022539_pallasbulk_675_13_alg».proof.Proof.KernelIdealArrays
import proofs.«157750_g2000200144022539_pallasbulk_675_13_alg».proof.Proof.ReferenceIdealArrays2

noncomputable section

namespace Cert.Bridge

open Idealize.ShloMosaic Idealize.ShloMosaic.ValueIdx
open Cert.KernelIdeal.Consts (validC maskC w2fOf)
open Cert.ReferenceIdeal.Consts (validRC maskRC w27Of2)

theorem bridge_conv2_of (OK : Cert.KernelIdeal.Run.Outs Ideal) (OR : Cert.ReferenceIdeal.Run.Outs Ideal)
    (hK6 : OK.o1_6 = Cert.KernelIdeal.Body.out1_6 (F := Ideal)) (hK7 : OK.o1_7 = Cert.KernelIdeal.Body.out1_7 (F := Ideal))
    (hK8 : OK.o1_8 = Cert.KernelIdeal.Body.out1_8 (F := Ideal))
    (hR6 : OR.o2_6 = Cert.ReferenceIdeal.Body.out2_6 (F := Ideal)) (hR7 : OR.o2_7 = Cert.ReferenceIdeal.Body.out2_7 (F := Ideal))
    (hR8 : OR.o2_8 = Cert.ReferenceIdeal.Body.out2_8 (F := Ideal))
    (Y1 : (⟨3, ![8, 64, 4864]⟩ : Shape).Idx → EReal) (SC SH : (⟨2, ![64, 1]⟩ : Shape).Idx → EReal)
    (w2 : Vec Ideal Cert.KernelIdeal.Consts.S64x64x3x3x3 .f32) :
    (Cert.KernelIdeal.Run.arr1_6 OK Y1 SC SH validC (w2fOf w2) maskC : (⟨3, ![8, 64, 4096]⟩ : Shape).Idx → EReal)
        = Cert.ReferenceIdeal.Run.arr2_6 OR Y1 (w27Of2 w2) SC SH validRC maskRC
    ∧ (Cert.KernelIdeal.Run.arr1_7 OK Y1 SC SH validC (w2fOf w2) maskC : (⟨3, ![8, 64, 1]⟩ : Shape).Idx → EReal)
        = Cert.ReferenceIdeal.Run.arr2_7 OR Y1 (w27Of2 w2) SC SH validRC maskRC
    ∧ (Cert.KernelIdeal.Run.arr1_8 OK Y1 SC SH validC (w2fOf w2) maskC : (⟨3, ![8, 64, 1]⟩ : Shape).Idx → EReal)
        = Cert.ReferenceIdeal.Run.arr2_8 OR Y1 (w27Of2 w2) SC SH validRC maskRC := by
  refine ⟨?_, ?_, ?_⟩
  · funext i
    show OK.o1_6 (fun y => Y1 (ix3 (i 0) (y 1) (y 2))) SC SH validC (w2fOf w2) maskC (ix3 (0 : Fin 1) (i 1) (i 2))
      = OR.o2_6 (fun y => Y1 (ix3 (i 0) (y 1) (y 2))) (w27Of2 w2) SC SH validRC maskRC (ix3 (0 : Fin 1) (i 1) (i 2))
    rw [hK6, hR6]
    exact congrFun (out1_6_eq_out2_6 (fun y => Y1 (ix3 (i 0) (y 1) (y 2))) SC SH w2) (ix3 (0 : Fin 1) (i 1) (i 2))
  · funext i
    show OK.o1_7 (fun y => Y1 (ix3 (i 0) (y 1) (y 2))) SC SH validC (w2fOf w2) maskC (ix3 (0 : Fin 1) (i 1) (i 2))
      = OR.o2_7 (fun y => Y1 (ix3 (i 0) (y 1) (y 2))) (w27Of2 w2) SC SH validRC maskRC (ix3 (0 : Fin 1) (i 1) (i 2))
    rw [hK7, hR7]
    exact congrFun (out1_7_eq_out2_7 (fun y => Y1 (ix3 (i 0) (y 1) (y 2))) SC SH w2) (ix3 (0 : Fin 1) (i 1) (i 2))
  · funext i
    show OK.o1_8 (fun y => Y1 (ix3 (i 0) (y 1) (y 2))) SC SH validC (w2fOf w2) maskC (ix3 (0 : Fin 1) (i 1) (i 2))
      = OR.o2_8 (fun y => Y1 (ix3 (i 0) (y 1) (y 2))) (w27Of2 w2) SC SH validRC maskRC (ix3 (0 : Fin 1) (i 1) (i 2))
    rw [hK8, hR8]
    exact congrFun (out1_8_eq_out2_8 (fun y => Y1 (ix3 (i 0) (y 1) (y 2))) SC SH w2) (ix3 (0 : Fin 1) (i 1) (i 2))

end Cert.Bridge

end
-- ==== Proof.Bridge.lean ====
import proofs.«157750_g2000200144022539_pallasbulk_675_13_alg».proof.Proof.BridgeOuts
import proofs.«157750_g2000200144022539_pallasbulk_675_13_alg».proof.Proof.BridgeOut
import proofs.«157750_g2000200144022539_pallasbulk_675_13_alg».proof.Proof.BridgeConv1
import proofs.«157750_g2000200144022539_pallasbulk_675_13_alg».proof.Proof.BridgeConv2Arrays
import proofs.«157750_g2000200144022539_pallasbulk_675_13_alg».proof.Proof.KernelIdealChain
import proofs.«157750_g2000200144022539_pallasbulk_675_13_alg».proof.Proof.ReferenceIdealChain

noncomputable section

namespace Cert.Bridge

open Idealize.ShloMosaic Idealize.ShloMosaic.ValueIdx
open Cert.KernelIdeal.Chain Cert.ReferenceIdeal.Chain
open Cert.KernelIdeal.Consts (validC selC maskC x0Of w1fOf w2fOf)
open Cert.ReferenceIdeal.Consts (validRC zerosC maskRC x7Of pHalOf w27Of1 w27Of2)

section
variable (x : Vec Ideal Cert.KernelIdeal.Consts.S8x32x32x32x32 .f32) (w1 : Vec Ideal Cert.KernelIdeal.Consts.S64x32x3x3x3 .f32)
  (g1 be1 : Vec Ideal Cert.BnFold.S64 .f32) (w2 : Vec Ideal Cert.KernelIdeal.Consts.S64x64x3x3x3 .f32) (g2 be2 : Vec Ideal Cert.BnFold.S64 .f32)

theorem bridge_conv1 :
    (Cert.KernelIdeal.Run.arr0_4 outsKI (x0Of x) selC (w1fOf w1) maskC : (⟨3, ![8, 64, 4864]⟩ : Shape).Idx → EReal)
        = Cert.ReferenceIdeal.Run.arr1_6 outsRI (pHalOf (Cert.ReferenceIdeal.Run.arr0_1 outsRI (x7Of x))) (w27Of1 w1) zerosC zerosC validRC maskRC
    ∧ (Cert.KernelIdeal.Run.arr0_5 outsKI (x0Of x) selC (w1fOf w1) maskC : (⟨3, ![8, 64, 1]⟩ : Shape).Idx → EReal)
        = Cert.ReferenceIdeal.Run.arr1_7 outsRI (pHalOf (Cert.ReferenceIdeal.Run.arr0_1 outsRI (x7Of x))) (w27Of1 w1) zerosC zerosC validRC maskRC
    ∧ (Cert.KernelIdeal.Run.arr0_6 outsKI (x0Of x) selC (w1fOf w1) maskC : (⟨3, ![8, 64, 1]⟩ : Shape).Idx → EReal)
        = Cert.ReferenceIdeal.Run.arr1_8 outsRI (pHalOf (Cert.ReferenceIdeal.Run.arr0_1 outsRI (x7Of x))) (w27Of1 w1) zerosC zerosC validRC maskRC :=
  bridge_conv1_of outsKI outsRI (by dsimp only [outsKI]) (by dsimp only [outsKI]) (by dsimp only [outsKI]) (by dsimp only [outsRI]) (by dsimp only [outsRI]) (by dsimp only [outsRI]) (by dsimp only [outsRI]) x w1

theorem bridge_conv2 (Y1 : (⟨3, ![8, 64, 4864]⟩ : Shape).Idx → EReal) (SC SH : (⟨2, ![64, 1]⟩ : Shape).Idx → EReal) :
    (Cert.KernelIdeal.Run.arr1_6 outsKI Y1 SC SH validC (w2fOf w2) maskC : (⟨3, ![8, 64, 4096]⟩ : Shape).Idx → EReal)
        = Cert.ReferenceIdeal.Run.arr2_6 outsRI Y1 (w27Of2 w2) SC SH validRC maskRC
    ∧ (Cert.KernelIdeal.Run.arr1_7 outsKI Y1 SC SH validC (w2fOf w2) maskC : (⟨3, ![8, 64, 1]⟩ : Shape).Idx → EReal)
        = Cert.ReferenceIdeal.Run.arr2_7 outsRI Y1 (w27Of2 w2) SC SH validRC maskRC
    ∧ (Cert.KernelIdeal.Run.arr1_8 outsKI Y1 SC SH validC (w2fOf w2) maskC : (⟨3, ![8, 64, 1]⟩ : Shape).Idx → EReal)
        = Cert.ReferenceIdeal.Run.arr2_8 outsRI Y1 (w27Of2 w2) SC SH validRC maskRC :=
  bridge_conv2_of outsKI outsRI (by dsimp only [outsKI]) (by dsimp only [outsKI]) (by dsimp only [outsKI]) (by dsimp only [outsRI]) (by dsimp only [outsRI]) (by dsimp only [outsRI]) Y1 SC SH w2

theorem bridge_out (Y2 : (⟨3, ![8, 64, 4096]⟩ : Shape).Idx → EReal) (SC SH : (⟨2, ![64, 1]⟩ : Shape).Idx → EReal) :
    (Cert.KernelIdeal.Run.arr2_3 outsKI Y2 SC SH : (⟨3, ![8, 64, 4096]⟩ : Shape).Idx → EReal)
      = Cert.ReferenceIdeal.Run.arr3_3 outsRI Y2 SC SH :=
  bridge_out_of outsKI outsRI (by dsimp only [outsKI]) (by dsimp only [outsRI]) Y2 SC SH

theorem y1_eq : (kiY1 outsKI x w1 : (⟨3, ![8, 64, 4864]⟩ : Shape).Idx → EReal) = riY1 outsRI x w1 := (bridge_conv1 x w1).1
theorem s1_eq : (kiS1 outsKI x w1 : (⟨3, ![8, 64, 1]⟩ : Shape).Idx → EReal) = riS1 outsRI x w1 := (bridge_conv1 x w1).2.1
theorem q1_eq : (kiQ1 outsKI x w1 : (⟨3, ![8, 64, 1]⟩ : Shape).Idx → EReal) = riQ1 outsRI x w1 := (bridge_conv1 x w1).2.2

theorem sc1_eq : (kiSC1 outsKI x w1 g1 : (⟨2, ![64, 1]⟩ : Shape).Idx → EReal) = riSC1 outsRI x w1 g1 := by
  unfold kiSC1 riSC1
  rw [s1_eq, q1_eq]

theorem sh1_eq : (kiSH1 outsKI x w1 g1 be1 : (⟨2, ![64, 1]⟩ : Shape).Idx → EReal) = riSH1 outsRI x w1 g1 be1 := by
  unfold kiSH1 riSH1
  rw [s1_eq, q1_eq]

theorem y2_eq : (kiY2 outsKI x w1 g1 be1 w2 : (⟨3, ![8, 64, 4096]⟩ : Shape).Idx → EReal) = riY2 outsRI x w1 g1 be1 w2 := by
  unfold kiY2 riY2
  rw [← y1_eq, ← sc1_eq, ← sh1_eq]
  exact (bridge_conv2 w2 _ _ _).1

theorem s2_eq : (kiS2 outsKI x w1 g1 be1 w2 : (⟨3, ![8, 64, 1]⟩ : Shape).Idx → EReal) = riS2 outsRI x w1 g1 be1 w2 := by
  unfold kiS2 riS2
  rw [← y1_eq, ← sc1_eq, ← sh1_eq]
  exact (bridge_conv2 w2 _ _ _).2.1

theorem q2_eq : (kiQ2 outsKI x w1 g1 be1 w2 : (⟨3, ![8, 64, 1]⟩ : Shape).Idx → EReal) = riQ2 outsRI x w1 g1 be1 w2 := by
  unfold kiQ2 riQ2
  rw [← y1_eq, ← sc1_eq, ← sh1_eq]
  exact (bridge_conv2 w2 _ _ _).2.2

theorem sc2_eq : (kiSC2 outsKI x w1 g1 be1 w2 g2 : (⟨2, ![64, 1]⟩ : Shape).Idx → EReal) = riSC2 outsRI x w1 g1 be1 w2 g2 := by
  unfold kiSC2 riSC2
  rw [s2_eq, q2_eq]

theorem sh2_eq : (kiSH2 outsKI x w1 g1 be1 w2 g2 be2 : (⟨2, ![64, 1]⟩ : Shape).Idx → EReal) = riSH2 outsRI x w1 g1 be1 w2 g2 be2 := by
  unfold kiSH2 riSH2
  rw [s2_eq, q2_eq]

theorem out_eq : (kiOut outsKI x w1 g1 be1 w2 g2 be2 : (⟨3, ![8, 64, 4096]⟩ : Shape).Idx → EReal) = riOut outsRI x w1 g1 be1 w2 g2 be2 := by
  unfold kiOut riOut
  rw [← y2_eq, ← sc2_eq, ← sh2_eq]
  exact bridge_out _ _ _

theorem result_eq : (kiResult outsKI x w1 g1 be1 w2 g2 be2 : (⟨5, ![8, 64, 16, 16, 16]⟩ : Shape).Idx → EReal)
    = riResult outsRI x w1 g1 be1 w2 g2 be2 := by
  funext j
  unfold kiResult riResult
  rw [out_eq]

end

end Cert.Bridge

end
-- ==== Proof.lean ====
import proofs.«157750_g2000200144022539_pallasbulk_675_13_alg».proof.Defs
import proofs.«157750_g2000200144022539_pallasbulk_675_13_alg».proof.Proof.Gen.Kernel
import proofs.«157750_g2000200144022539_pallasbulk_675_13_alg».proof.Proof.Gen.KernelIdeal
import proofs.«157750_g2000200144022539_pallasbulk_675_13_alg».proof.Proof.Gen.ReferenceIdeal
import proofs.«157750_g2000200144022539_pallasbulk_675_13_alg».proof.Proof.Gen.Pre_finite_inputs
import proofs.«157750_g2000200144022539_pallasbulk_675_13_alg».proof.Proof.TopKernel
import proofs.«157750_g2000200144022539_pallasbulk_675_13_alg».proof.Proof.TopKernelIdeal
import proofs.«157750_g2000200144022539_pallasbulk_675_13_alg».proof.Proof.TopReferenceIdeal
import proofs.«157750_g2000200144022539_pallasbulk_675_13_alg».proof.Proof.KernelIdealChain
import proofs.«157750_g2000200144022539_pallasbulk_675_13_alg».proof.Proof.ReferenceIdealChain
import proofs.«157750_g2000200144022539_pallasbulk_675_13_alg».proof.Proof.ReferenceIdealHostTaps1
import proofs.«157750_g2000200144022539_pallasbulk_675_13_alg».proof.Proof.ReferenceIdealHostMask2
import proofs.«157750_g2000200144022539_pallasbulk_675_13_alg».proof.Proof.Bridge

noncomputable section

namespace Cert.Proof

open Idealize.ShloMosaic Idealize.SL.Sem
open Cert.Bridge (outsKI outsRI)

theorem results_agree
    (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (ρ' : Dev Cert.ReferenceIdeal.nD → PrngReg)
    (c : Dev Cert.ReferenceIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Run.W48 outsRI m' ρ' c (Proc.devRef .tc Cert.ReferenceIdeal.main_v645)
      = Cert.KernelIdeal.Run.W24 outsKI m ρ c (Proc.devRef .tc Cert.KernelIdeal.main_v333) := by
  have hR := Cert.ReferenceIdeal.Chain.chain outsRI m' ρ' c Cert.ReferenceIdeal.Host.host1_v303 Cert.ReferenceIdeal.Host.H2_19_main_v622
  have hK := Cert.KernelIdeal.Chain.chain outsKI m ρ c
  rw [h0, h1, h2, h3, h4, h5, h6] at hR
  exact hR.trans ((Cert.Bridge.result_eq _ _ _ _ _ _ _).symm.trans hK.symm)

theorem algebraic : Cert.algebraic_KernelIdeal_ReferenceIdeal := by
  intro m ρ m' ρ' _ hagree
  refine ⟨fun c => Cert.KernelIdeal.Run.W24 outsKI m ρ c (Proc.devRef .tc Cert.KernelIdeal.main_v333), ?_, ?_⟩
  · exact (θ_run (Cert.KernelIdeal.defs (F := Ideal)) _ _).mono (fun r h c =>
      ⟨h c _ (Cert.KernelIdeal.Run.mem_uc Cert.KernelIdeal.main_v333 (by decide)),
       (h c _ (Cert.KernelIdeal.Run.mem_uc Cert.KernelIdeal.main_arg0 (by decide))).trans (Cert.KernelIdeal.Run.arg_kept outsKI m ρ c _ (by decide)),
       (h c _ (Cert.KernelIdeal.Run.mem_uc Cert.KernelIdeal.main_arg1 (by decide))).trans (Cert.KernelIdeal.Run.arg_kept outsKI m ρ c _ (by decide)),
       (h c _ (Cert.KernelIdeal.Run.mem_uc Cert.KernelIdeal.main_arg2 (by decide))).trans (Cert.KernelIdeal.Run.arg_kept outsKI m ρ c _ (by decide)),
       (h c _ (Cert.KernelIdeal.Run.mem_uc Cert.KernelIdeal.main_arg3 (by decide))).trans (Cert.KernelIdeal.Run.arg_kept outsKI m ρ c _ (by decide)),
       (h c _ (Cert.KernelIdeal.Run.mem_uc Cert.KernelIdeal.main_arg4 (by decide))).trans (Cert.KernelIdeal.Run.arg_kept outsKI m ρ c _ (by decide)),
       (h c _ (Cert.KernelIdeal.Run.mem_uc Cert.KernelIdeal.main_arg5 (by decide))).trans (Cert.KernelIdeal.Run.arg_kept outsKI m ρ c _ (by decide)),
       (h c _ (Cert.KernelIdeal.Run.mem_uc Cert.KernelIdeal.main_arg6 (by decide))).trans (Cert.KernelIdeal.Run.arg_kept outsKI m ρ c _ (by decide))⟩)
      (Cert.KernelIdeal.Run.run outsKI m ρ soundKI0 soundKI1 soundKI2)
  · exact (θ_run (Cert.ReferenceIdeal.defs (F := Ideal)) _ _).mono (fun r h c =>
      ⟨(h c _ (Cert.ReferenceIdeal.Run.mem_uc Cert.ReferenceIdeal.main_v645 (by decide))).trans
          (results_agree m ρ m' ρ' c (hagree c).1 (hagree c).2.1 (hagree c).2.2.1 (hagree c).2.2.2.1 (hagree c).2.2.2.2.1 (hagree c).2.2.2.2.2.1 (hagree c).2.2.2.2.2.2),
       (h c _ (Cert.ReferenceIdeal.Run.mem_uc Cert.ReferenceIdeal.main_arg0 (by decide))).trans (Cert.ReferenceIdeal.Run.arg_kept outsRI m' ρ' c _ (by decide)),
       (h c _ (Cert.ReferenceIdeal.Run.mem_uc Cert.ReferenceIdeal.main_arg1 (by decide))).trans (Cert.ReferenceIdeal.Run.arg_kept outsRI m' ρ' c _ (by decide)),
       (h c _ (Cert.ReferenceIdeal.Run.mem_uc Cert.ReferenceIdeal.main_arg2 (by decide))).trans (Cert.ReferenceIdeal.Run.arg_kept outsRI m' ρ' c _ (by decide)),
       (h c _ (Cert.ReferenceIdeal.Run.mem_uc Cert.ReferenceIdeal.main_arg3 (by decide))).trans (Cert.ReferenceIdeal.Run.arg_kept outsRI m' ρ' c _ (by decide)),
       (h c _ (Cert.ReferenceIdeal.Run.mem_uc Cert.ReferenceIdeal.main_arg4 (by decide))).trans (Cert.ReferenceIdeal.Run.arg_kept outsRI m' ρ' c _ (by decide)),
       (h c _ (Cert.ReferenceIdeal.Run.mem_uc Cert.ReferenceIdeal.main_arg5 (by decide))).trans (Cert.ReferenceIdeal.Run.arg_kept outsRI m' ρ' c _ (by decide)),
       (h c _ (Cert.ReferenceIdeal.Run.mem_uc Cert.ReferenceIdeal.main_arg6 (by decide))).trans (Cert.ReferenceIdeal.Run.arg_kept outsRI m' ρ' c _ (by decide))⟩)
      (Cert.ReferenceIdeal.Run.run outsRI m' ρ' soundRI0 soundRI1 soundRI2 soundRI3)

theorem claim : Cert.Claim := ⟨Cert.Kernel.Gen.facts, Cert.KernelIdeal.Gen.facts, Cert.ReferenceIdeal.Gen.facts, Cert.Pre_finite_inputs.Gen.facts,
  frame_K, frame_KI, frame_RI, trivial, algebraic⟩

end Cert.Proof

end
